-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![16384, 1024]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Kernel.lean ====
abbrev S4096x1024 : Shape := ⟨2, ![4096, 1024]⟩
abbrev S6x128x1024 : Shape := ⟨3, ![6, 128, 1024]⟩
abbrev S12 : Shape := ⟨1, ![12]⟩
abbrev S6 : Shape := ⟨1, ![6]⟩
abbrev S_ : Shape := ⟨0, ![]⟩
abbrev S1 : Shape := ⟨1, ![1]⟩
abbrev S1x128x1024 : Shape := ⟨3, ![1, 128, 1024]⟩
abbrev S128x1024 : Shape := ⟨2, ![128, 1024]⟩
abbrev S256x1024 : Shape := ⟨2, ![256, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | .local _ .vmem, ⟨2, _⟩ => ⟨S6x128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_46 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_45 : BitVec 32 := 8#32
  let v69 : BitVec 32 := Scalar.muli v2 c8_i32_45
  let v70 : BitVec 32 := Scalar.addi c0_i32_46 v69
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_47 : BitVec 32 := 4#32
  let v71 : BitVec 32 := Scalar.muli v5 c4_i32_47
  let v72 : BitVec 32 := Scalar.addi v70 v71
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_48 : BitVec 32 := 1#32
  let v73 : BitVec 32 := Scalar.muli v30 c1_i32_48
  let v74 : BitVec 32 := Scalar.addi v72 v73
  v74.toNat
def k0_dev2 (d0 : Dev nD) : Nat :=
  let c0_i32_51 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_50 : BitVec 32 := 8#32
  let v75 : BitVec 32 := Scalar.muli v2 c8_i32_50
  let v76 : BitVec 32 := Scalar.addi c0_i32_51 v75
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_52 : BitVec 32 := 4#32
  let v77 : BitVec 32 := Scalar.muli v5 c4_i32_52
  let v78 : BitVec 32 := Scalar.addi v76 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_53 : BitVec 32 := 1#32
  let v79 : BitVec 32 := Scalar.muli v19 c1_i32_53
  let v80 : BitVec 32 := Scalar.addi v78 v79
  v80.toNat
def k0_dev3 (d0 : Dev nD) : Nat :=
  let c0_i32_56 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v32 : BitVec 32 := Scalar.subi c3_i32 v5
  let v33 : BitVec 32 := Scalar.select v31 v5 v32
  let c1_i32_30 : BitVec 32 := 1#32
  let v51 : BitVec 32 := Scalar.subi v33 c1_i32_30
  let c4_i32_31 : BitVec 32 := 4#32
  let c0_i32_32 : BitVec 32 := 0#32
  let v52 : BitVec 1 := Scalar.cmpi .eq c4_i32_31 c0_i32_32
  let c1_i32_33 : BitVec 32 := 1#32
  let v53 : BitVec 32 := Scalar.select v52 c1_i32_33 c4_i32_31
  let v54 : BitVec 32 := Scalar.remsi v51 v53
  let c0_i32_35 : BitVec 32 := 0#32
  let v56 : BitVec 1 := Scalar.cmpi .slt v54 c0_i32_35
  let c0_i32_36 : BitVec 32 := 0#32
  let v57 : BitVec 1 := Scalar.cmpi .slt v53 c0_i32_36
  let v58 : BitVec 1 := Scalar.xori v56 v57
  let c0_i32_34 : BitVec 32 := 0#32
  let v55 : BitVec 1 := Scalar.cmpi .ne v54 c0_i32_34
  let v59 : BitVec 1 := Scalar.andi v58 v55
  let v60 : BitVec 32 := Scalar.addi v54 v53
  let v61 : BitVec 32 := Scalar.select v59 v60 v54
  let c2_i32_37 : BitVec 32 := 2#32
  let v62 : BitVec 1 := Scalar.cmpi .sge v61 c2_i32_37
  let c1_i32_38 : BitVec 32 := 1#32
  let c0_i32_39 : BitVec 32 := 0#32
  let v63 : BitVec 32 := Scalar.select v62 c1_i32_38 c0_i32_39
  let c8_i32_55 : BitVec 32 := 8#32
  let v81 : BitVec 32 := Scalar.muli v63 c8_i32_55
  let v82 : BitVec 32 := Scalar.addi c0_i32_56 v81
  let c1_i32_40 : BitVec 32 := 1#32
  let v64 : BitVec 1 := Scalar.cmpi .eq v61 c1_i32_40
  let c2_i32_41 : BitVec 32 := 2#32
  let v65 : BitVec 1 := Scalar.cmpi .eq v61 c2_i32_41
  let v66 : BitVec 1 := Scalar.ori v64 v65
  let c1_i32_42 : BitVec 32 := 1#32
  let c0_i32_43 : BitVec 32 := 0#32
  let v67 : BitVec 32 := Scalar.select v66 c1_i32_42 c0_i32_43
  let c4_i32_57 : BitVec 32 := 4#32
  let v83 : BitVec 32 := Scalar.muli v67 c4_i32_57
  let v84 : BitVec 32 := Scalar.addi v82 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v85 : BitVec 32 := Scalar.muli v8 c1_i32_58
  let v86 : BitVec 32 := Scalar.addi v84 v85
  v86.toNat
def k0_dev4 (d0 : Dev nD) : Nat :=
  let c0_i32_61 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v32 : BitVec 32 := Scalar.subi c3_i32 v5
  let v33 : BitVec 32 := Scalar.select v31 v5 v32
  let c1_i32_16 : BitVec 32 := 1#32
  let v34 : BitVec 32 := Scalar.addi v33 c1_i32_16
  let c4_i32_17 : BitVec 32 := 4#32
  let c0_i32_18 : BitVec 32 := 0#32
  let v35 : BitVec 1 := Scalar.cmpi .eq c4_i32_17 c0_i32_18
  let c1_i32_19 : BitVec 32 := 1#32
  let v36 : BitVec 32 := Scalar.select v35 c1_i32_19 c4_i32_17
  let v37 : BitVec 32 := Scalar.remsi v34 v36
  let c0_i32_21 : BitVec 32 := 0#32
  let v39 : BitVec 1 := Scalar.cmpi .slt v37 c0_i32_21
  let c0_i32_22 : BitVec 32 := 0#32
  let v40 : BitVec 1 := Scalar.cmpi .slt v36 c0_i32_22
  let v41 : BitVec 1 := Scalar.xori v39 v40
  let c0_i32_20 : BitVec 32 := 0#32
  let v38 : BitVec 1 := Scalar.cmpi .ne v37 c0_i32_20
  let v42 : BitVec 1 := Scalar.andi v41 v38
  let v43 : BitVec 32 := Scalar.addi v37 v36
  let v44 : BitVec 32 := Scalar.select v42 v43 v37
  let c2_i32_23 : BitVec 32 := 2#32
  let v45 : BitVec 1 := Scalar.cmpi .sge v44 c2_i32_23
  let c1_i32_24 : BitVec 32 := 1#32
  let c0_i32_25 : BitVec 32 := 0#32
  let v46 : BitVec 32 := Scalar.select v45 c1_i32_24 c0_i32_25
  let c8_i32_60 : BitVec 32 := 8#32
  let v87 : BitVec 32 := Scalar.muli v46 c8_i32_60
  let v88 : BitVec 32 := Scalar.addi c0_i32_61 v87
  let c1_i32_26 : BitVec 32 := 1#32
  let v47 : BitVec 1 := Scalar.cmpi .eq v44 c1_i32_26
  let c2_i32_27 : BitVec 32 := 2#32
  let v48 : BitVec 1 := Scalar.cmpi .eq v44 c2_i32_27
  let v49 : BitVec 1 := Scalar.ori v47 v48
  let c1_i32_28 : BitVec 32 := 1#32
  let c0_i32_29 : BitVec 32 := 0#32
  let v50 : BitVec 32 := Scalar.select v49 c1_i32_28 c0_i32_29
  let c4_i32_62 : BitVec 32 := 4#32
  let v89 : BitVec 32 := Scalar.muli v50 c4_i32_62
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v91 : BitVec 32 := Scalar.muli v8 c1_i32_63
  let v92 : BitVec 32 := Scalar.addi v90 v91
  v92.toNat
def k0_off1 (d0 : Dev nD) (c0_i32_65 : BitVec 32) (c0_i32_66 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v32 : BitVec 32 := Scalar.subi c3_i32 v5
  let v33 : BitVec 32 := Scalar.select v31 v5 v32
  let c1024_i32 : BitVec 32 := 1024#32
  let v93 : BitVec 32 := Scalar.muli v33 c1024_i32
  let v94 : BitVec 32 := Scalar.addi v93 c0_i32_65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v95 : BitVec 32 := Scalar.subi v8 c0_i32_66
  let c4_i32_67 : BitVec 32 := 4#32
  let c0_i32_68 : BitVec 32 := 0#32
  let v96 : BitVec 1 := Scalar.cmpi .eq c4_i32_67 c0_i32_68
  let c1_i32_69 : BitVec 32 := 1#32
  let v97 : BitVec 32 := Scalar.select v96 c1_i32_69 c4_i32_67
  let v98 : BitVec 32 := Scalar.remsi v95 v97
  let c0_i32_71 : BitVec 32 := 0#32
  let v100 : BitVec 1 := Scalar.cmpi .slt v98 c0_i32_71
  let c0_i32_72 : BitVec 32 := 0#32
  let v101 : BitVec 1 := Scalar.cmpi .slt v97 c0_i32_72
  let v102 : BitVec 1 := Scalar.xori v100 v101
  let c0_i32_70 : BitVec 32 := 0#32
  let v99 : BitVec 1 := Scalar.cmpi .ne v98 c0_i32_70
  let v103 : BitVec 1 := Scalar.andi v102 v99
  let v104 : BitVec 32 := Scalar.addi v98 v97
  let v105 : BitVec 32 := Scalar.select v103 v104 v98
  let c128_i32 : BitVec 32 := 128#32
  let v118 : BitVec 32 := Scalar.muli v105 c128_i32
  let v119 : BitVec 32 := Scalar.addi v94 v118
  let c0_i32_90 : BitVec 32 := 0#32
  ![v119.toNat, 0]
def k0_dev5 (d0 : Dev nD) : Nat :=
  let c0_i32_85 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_84 : BitVec 32 := 8#32
  let v120 : BitVec 32 := Scalar.muli v2 c8_i32_84
  let v121 : BitVec 32 := Scalar.addi c0_i32_85 v120
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_86 : BitVec 32 := 4#32
  let v122 : BitVec 32 := Scalar.muli v5 c4_i32_86
  let v123 : BitVec 32 := Scalar.addi v121 v122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_87 : BitVec 32 := 1#32
  let v124 : BitVec 32 := Scalar.muli v19 c1_i32_87
  let v125 : BitVec 32 := Scalar.addi v123 v124
  v125.toNat
def k0_off2 (d0 : Dev nD) (c0_i32_65 : BitVec 32) (c0_i32_73 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v32 : BitVec 32 := Scalar.subi c3_i32 v5
  let v33 : BitVec 32 := Scalar.select v31 v5 v32
  let c1024_i32 : BitVec 32 := 1024#32
  let v93 : BitVec 32 := Scalar.muli v33 c1024_i32
  let v94 : BitVec 32 := Scalar.addi v93 c0_i32_65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v106 : BitVec 32 := Scalar.subi v8 c0_i32_73
  let c1_i32_74 : BitVec 32 := 1#32
  let v107 : BitVec 32 := Scalar.subi v106 c1_i32_74
  let c4_i32_75 : BitVec 32 := 4#32
  let c0_i32_76 : BitVec 32 := 0#32
  let v108 : BitVec 1 := Scalar.cmpi .eq c4_i32_75 c0_i32_76
  let c1_i32_77 : BitVec 32 := 1#32
  let v109 : BitVec 32 := Scalar.select v108 c1_i32_77 c4_i32_75
  let v110 : BitVec 32 := Scalar.remsi v107 v109
  let c0_i32_79 : BitVec 32 := 0#32
  let v112 : BitVec 1 := Scalar.cmpi .slt v110 c0_i32_79
  let c0_i32_80 : BitVec 32 := 0#32
  let v113 : BitVec 1 := Scalar.cmpi .slt v109 c0_i32_80
  let v114 : BitVec 1 := Scalar.xori v112 v113
  let c0_i32_78 : BitVec 32 := 0#32
  let v111 : BitVec 1 := Scalar.cmpi .ne v110 c0_i32_78
  let v115 : BitVec 1 := Scalar.andi v114 v111
  let v116 : BitVec 32 := Scalar.addi v110 v109
  let v117 : BitVec 32 := Scalar.select v115 v116 v110
  let c128_i32_101 : BitVec 32 := 128#32
  let v144 : BitVec 32 := Scalar.muli v117 c128_i32_101
  let v145 : BitVec 32 := Scalar.addi v94 v144
  let v146 : Index := Scalar.indexCast v145
  let c0 : Index := 0#32
  ![v146.toNat, 0]
def k0_dev6 (d0 : Dev nD) : Nat :=
  let c0_i32_128 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_127 : BitVec 32 := 8#32
  let v181 : BitVec 32 := Scalar.muli v2 c8_i32_127
  let v182 : BitVec 32 := Scalar.addi c0_i32_128 v181
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_129 : BitVec 32 := 4#32
  let v183 : BitVec 32 := Scalar.muli v5 c4_i32_129
  let v184 : BitVec 32 := Scalar.addi v182 v183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_130 : BitVec 32 := 1#32
  let v185 : BitVec 32 := Scalar.muli v19 c1_i32_130
  let v186 : BitVec 32 := Scalar.addi v184 v185
  v186.toNat
def k0_dev7 (d0 : Dev nD) : Nat :=
  let c0_i32_171 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_170 : BitVec 32 := 8#32
  let v242 : BitVec 32 := Scalar.muli v2 c8_i32_170
  let v243 : BitVec 32 := Scalar.addi c0_i32_171 v242
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_172 : BitVec 32 := 4#32
  let v244 : BitVec 32 := Scalar.muli v5 c4_i32_172
  let v245 : BitVec 32 := Scalar.addi v243 v244
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_173 : BitVec 32 := 1#32
  let v246 : BitVec 32 := Scalar.muli v19 c1_i32_173
  let v247 : BitVec 32 := Scalar.addi v245 v246
  v247.toNat
def k0_off3 (d0 : Dev nD) (c0_i32_193 : BitVec 32) (c0_i32_195 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v32 : BitVec 32 := Scalar.subi c3_i32 v5
  let v33 : BitVec 32 := Scalar.select v31 v5 v32
  let c1024_i32_192 : BitVec 32 := 1024#32
  let v276 : BitVec 32 := Scalar.muli v33 c1024_i32_192
  let v277 : BitVec 32 := Scalar.addi v276 c0_i32_193
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_194 : BitVec 32 := 1#32
  let v278 : BitVec 32 := Scalar.addi v8 c1_i32_194
  let v279 : BitVec 32 := Scalar.addi v278 c0_i32_195
  let c4_i32_196 : BitVec 32 := 4#32
  let c0_i32_197 : BitVec 32 := 0#32
  let v280 : BitVec 1 := Scalar.cmpi .eq c4_i32_196 c0_i32_197
  let c1_i32_198 : BitVec 32 := 1#32
  let v281 : BitVec 32 := Scalar.select v280 c1_i32_198 c4_i32_196
  let v282 : BitVec 32 := Scalar.remsi v279 v281
  let c0_i32_200 : BitVec 32 := 0#32
  let v284 : BitVec 1 := Scalar.cmpi .slt v282 c0_i32_200
  let c0_i32_201 : BitVec 32 := 0#32
  let v285 : BitVec 1 := Scalar.cmpi .slt v281 c0_i32_201
  let v286 : BitVec 1 := Scalar.xori v284 v285
  let c0_i32_199 : BitVec 32 := 0#32
  let v283 : BitVec 1 := Scalar.cmpi .ne v282 c0_i32_199
  let v287 : BitVec 1 := Scalar.andi v286 v283
  let v288 : BitVec 32 := Scalar.addi v282 v281
  let v289 : BitVec 32 := Scalar.select v287 v288 v282
  let c128_i32_202 : BitVec 32 := 128#32
  let v290 : BitVec 32 := Scalar.muli v289 c128_i32_202
  let v291 : BitVec 32 := Scalar.addi v277 v290
  let c0_i32_209 : BitVec 32 := 0#32
  ![v291.toNat, 0]
def k0_dev8 (d0 : Dev nD) : Nat :=
  let c0_i32_206 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_205 : BitVec 32 := 8#32
  let v292 : BitVec 32 := Scalar.muli v2 c8_i32_205
  let v293 : BitVec 32 := Scalar.addi c0_i32_206 v292
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_207 : BitVec 32 := 4#32
  let v294 : BitVec 32 := Scalar.muli v5 c4_i32_207
  let v295 : BitVec 32 := Scalar.addi v293 v294
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_208 : BitVec 32 := 1#32
  let v296 : BitVec 32 := Scalar.muli v30 c1_i32_208
  let v297 : BitVec 32 := Scalar.addi v295 v296
  v297.toNat
def k0_dev9 (d0 : Dev nD) : Nat :=
  let c0_i32_233 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_232 : BitVec 32 := 8#32
  let v330 : BitVec 32 := Scalar.muli v2 c8_i32_232
  let v331 : BitVec 32 := Scalar.addi c0_i32_233 v330
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_234 : BitVec 32 := 4#32
  let v332 : BitVec 32 := Scalar.muli v5 c4_i32_234
  let v333 : BitVec 32 := Scalar.addi v331 v332
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_235 : BitVec 32 := 1#32
  let v334 : BitVec 32 := Scalar.muli v30 c1_i32_235
  let v335 : BitVec 32 := Scalar.addi v333 v334
  v335.toNat
def k0_dev10 (d0 : Dev nD) : Nat :=
  let c0_i32_259 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_258 : BitVec 32 := 8#32
  let v368 : BitVec 32 := Scalar.muli v2 c8_i32_258
  let v369 : BitVec 32 := Scalar.addi c0_i32_259 v368
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_260 : BitVec 32 := 4#32
  let v370 : BitVec 32 := Scalar.muli v5 c4_i32_260
  let v371 : BitVec 32 := Scalar.addi v369 v370
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_261 : BitVec 32 := 1#32
  let v372 : BitVec 32 := Scalar.muli v30 c1_i32_261
  let v373 : BitVec 32 := Scalar.addi v371 v372
  v373.toNat
def k0_off4 (d0 : Dev nD) (c0_i32_272 : BitVec 32) (c0_i32_280 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v32 : BitVec 32 := Scalar.subi c3_i32 v5
  let v33 : BitVec 32 := Scalar.select v31 v5 v32
  let v390 : BitVec 32 := Scalar.subi v33 c0_i32_272
  let c4_i32_273 : BitVec 32 := 4#32
  let c0_i32_274 : BitVec 32 := 0#32
  let v391 : BitVec 1 := Scalar.cmpi .eq c4_i32_273 c0_i32_274
  let c1_i32_275 : BitVec 32 := 1#32
  let v392 : BitVec 32 := Scalar.select v391 c1_i32_275 c4_i32_273
  let v393 : BitVec 32 := Scalar.remsi v390 v392
  let c0_i32_277 : BitVec 32 := 0#32
  let v395 : BitVec 1 := Scalar.cmpi .slt v393 c0_i32_277
  let c0_i32_278 : BitVec 32 := 0#32
  let v396 : BitVec 1 := Scalar.cmpi .slt v392 c0_i32_278
  let v397 : BitVec 1 := Scalar.xori v395 v396
  let c0_i32_276 : BitVec 32 := 0#32
  let v394 : BitVec 1 := Scalar.cmpi .ne v393 c0_i32_276
  let v398 : BitVec 1 := Scalar.andi v397 v394
  let v399 : BitVec 32 := Scalar.addi v393 v392
  let v400 : BitVec 32 := Scalar.select v398 v399 v393
  let c1024_i32_279 : BitVec 32 := 1024#32
  let v401 : BitVec 32 := Scalar.muli v400 c1024_i32_279
  let v402 : BitVec 32 := Scalar.addi v401 c0_i32_280
  let c0_i32_296 : BitVec 32 := 0#32
  ![v402.toNat, 0]
def k0_dev11 (d0 : Dev nD) : Nat :=
  let c0_i32_293 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v32 : BitVec 32 := Scalar.subi c3_i32 v5
  let v33 : BitVec 32 := Scalar.select v31 v5 v32
  let c1_i32_16 : BitVec 32 := 1#32
  let v34 : BitVec 32 := Scalar.addi v33 c1_i32_16
  let c4_i32_17 : BitVec 32 := 4#32
  let c0_i32_18 : BitVec 32 := 0#32
  let v35 : BitVec 1 := Scalar.cmpi .eq c4_i32_17 c0_i32_18
  let c1_i32_19 : BitVec 32 := 1#32
  let v36 : BitVec 32 := Scalar.select v35 c1_i32_19 c4_i32_17
  let v37 : BitVec 32 := Scalar.remsi v34 v36
  let c0_i32_21 : BitVec 32 := 0#32
  let v39 : BitVec 1 := Scalar.cmpi .slt v37 c0_i32_21
  let c0_i32_22 : BitVec 32 := 0#32
  let v40 : BitVec 1 := Scalar.cmpi .slt v36 c0_i32_22
  let v41 : BitVec 1 := Scalar.xori v39 v40
  let c0_i32_20 : BitVec 32 := 0#32
  let v38 : BitVec 1 := Scalar.cmpi .ne v37 c0_i32_20
  let v42 : BitVec 1 := Scalar.andi v41 v38
  let v43 : BitVec 32 := Scalar.addi v37 v36
  let v44 : BitVec 32 := Scalar.select v42 v43 v37
  let c2_i32_23 : BitVec 32 := 2#32
  let v45 : BitVec 1 := Scalar.cmpi .sge v44 c2_i32_23
  let c1_i32_24 : BitVec 32 := 1#32
  let c0_i32_25 : BitVec 32 := 0#32
  let v46 : BitVec 32 := Scalar.select v45 c1_i32_24 c0_i32_25
  let c8_i32_292 : BitVec 32 := 8#32
  let v417 : BitVec 32 := Scalar.muli v46 c8_i32_292
  let v418 : BitVec 32 := Scalar.addi c0_i32_293 v417
  let c1_i32_26 : BitVec 32 := 1#32
  let v47 : BitVec 1 := Scalar.cmpi .eq v44 c1_i32_26
  let c2_i32_27 : BitVec 32 := 2#32
  let v48 : BitVec 1 := Scalar.cmpi .eq v44 c2_i32_27
  let v49 : BitVec 1 := Scalar.ori v47 v48
  let c1_i32_28 : BitVec 32 := 1#32
  let c0_i32_29 : BitVec 32 := 0#32
  let v50 : BitVec 32 := Scalar.select v49 c1_i32_28 c0_i32_29
  let c4_i32_294 : BitVec 32 := 4#32
  let v419 : BitVec 32 := Scalar.muli v50 c4_i32_294
  let v420 : BitVec 32 := Scalar.addi v418 v419
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_295 : BitVec 32 := 1#32
  let v421 : BitVec 32 := Scalar.muli v8 c1_i32_295
  let v422 : BitVec 32 := Scalar.addi v420 v421
  v422.toNat
def k0_off5 (d0 : Dev nD) (c0_i32_281 : BitVec 32) (c0_i32_289 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v32 : BitVec 32 := Scalar.subi c3_i32 v5
  let v33 : BitVec 32 := Scalar.select v31 v5 v32
  let v403 : BitVec 32 := Scalar.addi v33 c0_i32_281
  let c4_i32_282 : BitVec 32 := 4#32
  let c0_i32_283 : BitVec 32 := 0#32
  let v404 : BitVec 1 := Scalar.cmpi .eq c4_i32_282 c0_i32_283
  let c1_i32_284 : BitVec 32 := 1#32
  let v405 : BitVec 32 := Scalar.select v404 c1_i32_284 c4_i32_282
  let v406 : BitVec 32 := Scalar.remsi v403 v405
  let c0_i32_286 : BitVec 32 := 0#32
  let v408 : BitVec 1 := Scalar.cmpi .slt v406 c0_i32_286
  let c0_i32_287 : BitVec 32 := 0#32
  let v409 : BitVec 1 := Scalar.cmpi .slt v405 c0_i32_287
  let v410 : BitVec 1 := Scalar.xori v408 v409
  let c0_i32_285 : BitVec 32 := 0#32
  let v407 : BitVec 1 := Scalar.cmpi .ne v406 c0_i32_285
  let v411 : BitVec 1 := Scalar.andi v410 v407
  let v412 : BitVec 32 := Scalar.addi v406 v405
  let v413 : BitVec 32 := Scalar.select v411 v412 v406
  let c1024_i32_288 : BitVec 32 := 1024#32
  let v414 : BitVec 32 := Scalar.muli v413 c1024_i32_288
  let v415 : BitVec 32 := Scalar.addi v414 c0_i32_289
  let c256_i32 : BitVec 32 := 256#32
  let v416 : BitVec 32 := Scalar.addi v415 c256_i32
  let c0_i32_304 : BitVec 32 := 0#32
  ![v416.toNat, 0]
def k0_dev12 (d0 : Dev nD) : Nat :=
  let c0_i32_301 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v32 : BitVec 32 := Scalar.subi c3_i32 v5
  let v33 : BitVec 32 := Scalar.select v31 v5 v32
  let c1_i32_30 : BitVec 32 := 1#32
  let v51 : BitVec 32 := Scalar.subi v33 c1_i32_30
  let c4_i32_31 : BitVec 32 := 4#32
  let c0_i32_32 : BitVec 32 := 0#32
  let v52 : BitVec 1 := Scalar.cmpi .eq c4_i32_31 c0_i32_32
  let c1_i32_33 : BitVec 32 := 1#32
  let v53 : BitVec 32 := Scalar.select v52 c1_i32_33 c4_i32_31
  let v54 : BitVec 32 := Scalar.remsi v51 v53
  let c0_i32_35 : BitVec 32 := 0#32
  let v56 : BitVec 1 := Scalar.cmpi .slt v54 c0_i32_35
  let c0_i32_36 : BitVec 32 := 0#32
  let v57 : BitVec 1 := Scalar.cmpi .slt v53 c0_i32_36
  let v58 : BitVec 1 := Scalar.xori v56 v57
  let c0_i32_34 : BitVec 32 := 0#32
  let v55 : BitVec 1 := Scalar.cmpi .ne v54 c0_i32_34
  let v59 : BitVec 1 := Scalar.andi v58 v55
  let v60 : BitVec 32 := Scalar.addi v54 v53
  let v61 : BitVec 32 := Scalar.select v59 v60 v54
  let c2_i32_37 : BitVec 32 := 2#32
  let v62 : BitVec 1 := Scalar.cmpi .sge v61 c2_i32_37
  let c1_i32_38 : BitVec 32 := 1#32
  let c0_i32_39 : BitVec 32 := 0#32
  let v63 : BitVec 32 := Scalar.select v62 c1_i32_38 c0_i32_39
  let c8_i32_300 : BitVec 32 := 8#32
  let v429 : BitVec 32 := Scalar.muli v63 c8_i32_300
  let v430 : BitVec 32 := Scalar.addi c0_i32_301 v429
  let c1_i32_40 : BitVec 32 := 1#32
  let v64 : BitVec 1 := Scalar.cmpi .eq v61 c1_i32_40
  let c2_i32_41 : BitVec 32 := 2#32
  let v65 : BitVec 1 := Scalar.cmpi .eq v61 c2_i32_41
  let v66 : BitVec 1 := Scalar.ori v64 v65
  let c1_i32_42 : BitVec 32 := 1#32
  let c0_i32_43 : BitVec 32 := 0#32
  let v67 : BitVec 32 := Scalar.select v66 c1_i32_42 c0_i32_43
  let c4_i32_302 : BitVec 32 := 4#32
  let v431 : BitVec 32 := Scalar.muli v67 c4_i32_302
  let v432 : BitVec 32 := Scalar.addi v430 v431
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_303 : BitVec 32 := 1#32
  let v433 : BitVec 32 := Scalar.muli v8 c1_i32_303
  let v434 : BitVec 32 := Scalar.addi v432 v433
  v434.toNat
def k0_dev13 (d0 : Dev nD) : Nat :=
  let c0_i32_326 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_325 : BitVec 32 := 8#32
  let v468 : BitVec 32 := Scalar.muli v2 c8_i32_325
  let v469 : BitVec 32 := Scalar.addi c0_i32_326 v468
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_327 : BitVec 32 := 4#32
  let v470 : BitVec 32 := Scalar.muli v5 c4_i32_327
  let v471 : BitVec 32 := Scalar.addi v469 v470
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_328 : BitVec 32 := 1#32
  let v472 : BitVec 32 := Scalar.muli v19 c1_i32_328
  let v473 : BitVec 32 := Scalar.addi v471 v472
  v473.toNat
def k0_dev14 (d0 : Dev nD) : Nat :=
  let c0_i32_368 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_367 : BitVec 32 := 8#32
  let v529 : BitVec 32 := Scalar.muli v2 c8_i32_367
  let v530 : BitVec 32 := Scalar.addi c0_i32_368 v529
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_369 : BitVec 32 := 4#32
  let v531 : BitVec 32 := Scalar.muli v5 c4_i32_369
  let v532 : BitVec 32 := Scalar.addi v530 v531
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_370 : BitVec 32 := 1#32
  let v533 : BitVec 32 := Scalar.muli v19 c1_i32_370
  let v534 : BitVec 32 := Scalar.addi v532 v533
  v534.toNat
def k0_dev15 (d0 : Dev nD) : Nat :=
  let c0_i32_427 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v32 : BitVec 32 := Scalar.subi c3_i32 v5
  let v33 : BitVec 32 := Scalar.select v31 v5 v32
  let c1_i32_16 : BitVec 32 := 1#32
  let v34 : BitVec 32 := Scalar.addi v33 c1_i32_16
  let c4_i32_17 : BitVec 32 := 4#32
  let c0_i32_18 : BitVec 32 := 0#32
  let v35 : BitVec 1 := Scalar.cmpi .eq c4_i32_17 c0_i32_18
  let c1_i32_19 : BitVec 32 := 1#32
  let v36 : BitVec 32 := Scalar.select v35 c1_i32_19 c4_i32_17
  let v37 : BitVec 32 := Scalar.remsi v34 v36
  let c0_i32_21 : BitVec 32 := 0#32
  let v39 : BitVec 1 := Scalar.cmpi .slt v37 c0_i32_21
  let c0_i32_22 : BitVec 32 := 0#32
  let v40 : BitVec 1 := Scalar.cmpi .slt v36 c0_i32_22
  let v41 : BitVec 1 := Scalar.xori v39 v40
  let c0_i32_20 : BitVec 32 := 0#32
  let v38 : BitVec 1 := Scalar.cmpi .ne v37 c0_i32_20
  let v42 : BitVec 1 := Scalar.andi v41 v38
  let v43 : BitVec 32 := Scalar.addi v37 v36
  let v44 : BitVec 32 := Scalar.select v42 v43 v37
  let c2_i32_23 : BitVec 32 := 2#32
  let v45 : BitVec 1 := Scalar.cmpi .sge v44 c2_i32_23
  let c1_i32_24 : BitVec 32 := 1#32
  let c0_i32_25 : BitVec 32 := 0#32
  let v46 : BitVec 32 := Scalar.select v45 c1_i32_24 c0_i32_25
  let c8_i32_426 : BitVec 32 := 8#32
  let v610 : BitVec 32 := Scalar.muli v46 c8_i32_426
  let v611 : BitVec 32 := Scalar.addi c0_i32_427 v610
  let c1_i32_26 : BitVec 32 := 1#32
  let v47 : BitVec 1 := Scalar.cmpi .eq v44 c1_i32_26
  let c2_i32_27 : BitVec 32 := 2#32
  let v48 : BitVec 1 := Scalar.cmpi .eq v44 c2_i32_27
  let v49 : BitVec 1 := Scalar.ori v47 v48
  let c1_i32_28 : BitVec 32 := 1#32
  let c0_i32_29 : BitVec 32 := 0#32
  let v50 : BitVec 32 := Scalar.select v49 c1_i32_28 c0_i32_29
  let c4_i32_428 : BitVec 32 := 4#32
  let v612 : BitVec 32 := Scalar.muli v50 c4_i32_428
  let v613 : BitVec 32 := Scalar.addi v611 v612
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_429 : BitVec 32 := 1#32
  let v614 : BitVec 32 := Scalar.muli v8 c1_i32_429
  let v615 : BitVec 32 := Scalar.addi v613 v614
  v615.toNat
def k0_dev16 (d0 : Dev nD) : Nat :=
  let c0_i32_435 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v32 : BitVec 32 := Scalar.subi c3_i32 v5
  let v33 : BitVec 32 := Scalar.select v31 v5 v32
  let c1_i32_30 : BitVec 32 := 1#32
  let v51 : BitVec 32 := Scalar.subi v33 c1_i32_30
  let c4_i32_31 : BitVec 32 := 4#32
  let c0_i32_32 : BitVec 32 := 0#32
  let v52 : BitVec 1 := Scalar.cmpi .eq c4_i32_31 c0_i32_32
  let c1_i32_33 : BitVec 32 := 1#32
  let v53 : BitVec 32 := Scalar.select v52 c1_i32_33 c4_i32_31
  let v54 : BitVec 32 := Scalar.remsi v51 v53
  let c0_i32_35 : BitVec 32 := 0#32
  let v56 : BitVec 1 := Scalar.cmpi .slt v54 c0_i32_35
  let c0_i32_36 : BitVec 32 := 0#32
  let v57 : BitVec 1 := Scalar.cmpi .slt v53 c0_i32_36
  let v58 : BitVec 1 := Scalar.xori v56 v57
  let c0_i32_34 : BitVec 32 := 0#32
  let v55 : BitVec 1 := Scalar.cmpi .ne v54 c0_i32_34
  let v59 : BitVec 1 := Scalar.andi v58 v55
  let v60 : BitVec 32 := Scalar.addi v54 v53
  let v61 : BitVec 32 := Scalar.select v59 v60 v54
  let c2_i32_37 : BitVec 32 := 2#32
  let v62 : BitVec 1 := Scalar.cmpi .sge v61 c2_i32_37
  let c1_i32_38 : BitVec 32 := 1#32
  let c0_i32_39 : BitVec 32 := 0#32
  let v63 : BitVec 32 := Scalar.select v62 c1_i32_38 c0_i32_39
  let c8_i32_434 : BitVec 32 := 8#32
  let v622 : BitVec 32 := Scalar.muli v63 c8_i32_434
  let v623 : BitVec 32 := Scalar.addi c0_i32_435 v622
  let c1_i32_40 : BitVec 32 := 1#32
  let v64 : BitVec 1 := Scalar.cmpi .eq v61 c1_i32_40
  let c2_i32_41 : BitVec 32 := 2#32
  let v65 : BitVec 1 := Scalar.cmpi .eq v61 c2_i32_41
  let v66 : BitVec 1 := Scalar.ori v64 v65
  let c1_i32_42 : BitVec 32 := 1#32
  let c0_i32_43 : BitVec 32 := 0#32
  let v67 : BitVec 32 := Scalar.select v66 c1_i32_42 c0_i32_43
  let c4_i32_436 : BitVec 32 := 4#32
  let v624 : BitVec 32 := Scalar.muli v67 c4_i32_436
  let v625 : BitVec 32 := Scalar.addi v623 v624
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_437 : BitVec 32 := 1#32
  let v626 : BitVec 32 := Scalar.muli v8 c1_i32_437
  let v627 : BitVec 32 := Scalar.addi v625 v626
  v627.toNat
def k0_dev17 (d0 : Dev nD) : Nat :=
  let c0_i32_462 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_461 : BitVec 32 := 8#32
  let v661 : BitVec 32 := Scalar.muli v2 c8_i32_461
  let v662 : BitVec 32 := Scalar.addi c0_i32_462 v661
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_463 : BitVec 32 := 4#32
  let v663 : BitVec 32 := Scalar.muli v5 c4_i32_463
  let v664 : BitVec 32 := Scalar.addi v662 v663
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_464 : BitVec 32 := 1#32
  let v665 : BitVec 32 := Scalar.muli v19 c1_i32_464
  let v666 : BitVec 32 := Scalar.addi v664 v665
  v666.toNat
def k0_dev18 (d0 : Dev nD) : Nat :=
  let c0_i32_496 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_495 : BitVec 32 := 8#32
  let v711 : BitVec 32 := Scalar.muli v2 c8_i32_495
  let v712 : BitVec 32 := Scalar.addi c0_i32_496 v711
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_497 : BitVec 32 := 4#32
  let v713 : BitVec 32 := Scalar.muli v5 c4_i32_497
  let v714 : BitVec 32 := Scalar.addi v712 v713
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_498 : BitVec 32 := 1#32
  let v715 : BitVec 32 := Scalar.muli v30 c1_i32_498
  let v716 : BitVec 32 := Scalar.addi v714 v715
  v716.toNat
def k0_dev19 (d0 : Dev nD) : Nat :=
  let c0_i32_547 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v32 : BitVec 32 := Scalar.subi c3_i32 v5
  let v33 : BitVec 32 := Scalar.select v31 v5 v32
  let c1_i32_16 : BitVec 32 := 1#32
  let v34 : BitVec 32 := Scalar.addi v33 c1_i32_16
  let c4_i32_17 : BitVec 32 := 4#32
  let c0_i32_18 : BitVec 32 := 0#32
  let v35 : BitVec 1 := Scalar.cmpi .eq c4_i32_17 c0_i32_18
  let c1_i32_19 : BitVec 32 := 1#32
  let v36 : BitVec 32 := Scalar.select v35 c1_i32_19 c4_i32_17
  let v37 : BitVec 32 := Scalar.remsi v34 v36
  let c0_i32_21 : BitVec 32 := 0#32
  let v39 : BitVec 1 := Scalar.cmpi .slt v37 c0_i32_21
  let c0_i32_22 : BitVec 32 := 0#32
  let v40 : BitVec 1 := Scalar.cmpi .slt v36 c0_i32_22
  let v41 : BitVec 1 := Scalar.xori v39 v40
  let c0_i32_20 : BitVec 32 := 0#32
  let v38 : BitVec 1 := Scalar.cmpi .ne v37 c0_i32_20
  let v42 : BitVec 1 := Scalar.andi v41 v38
  let v43 : BitVec 32 := Scalar.addi v37 v36
  let v44 : BitVec 32 := Scalar.select v42 v43 v37
  let c2_i32_23 : BitVec 32 := 2#32
  let v45 : BitVec 1 := Scalar.cmpi .sge v44 c2_i32_23
  let c1_i32_24 : BitVec 32 := 1#32
  let c0_i32_25 : BitVec 32 := 0#32
  let v46 : BitVec 32 := Scalar.select v45 c1_i32_24 c0_i32_25
  let c8_i32_546 : BitVec 32 := 8#32
  let v780 : BitVec 32 := Scalar.muli v46 c8_i32_546
  let v781 : BitVec 32 := Scalar.addi c0_i32_547 v780
  let c1_i32_26 : BitVec 32 := 1#32
  let v47 : BitVec 1 := Scalar.cmpi .eq v44 c1_i32_26
  let c2_i32_27 : BitVec 32 := 2#32
  let v48 : BitVec 1 := Scalar.cmpi .eq v44 c2_i32_27
  let v49 : BitVec 1 := Scalar.ori v47 v48
  let c1_i32_28 : BitVec 32 := 1#32
  let c0_i32_29 : BitVec 32 := 0#32
  let v50 : BitVec 32 := Scalar.select v49 c1_i32_28 c0_i32_29
  let c4_i32_548 : BitVec 32 := 4#32
  let v782 : BitVec 32 := Scalar.muli v50 c4_i32_548
  let v783 : BitVec 32 := Scalar.addi v781 v782
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_549 : BitVec 32 := 1#32
  let v784 : BitVec 32 := Scalar.muli v8 c1_i32_549
  let v785 : BitVec 32 := Scalar.addi v783 v784
  v785.toNat
def k0_dev20 (d0 : Dev nD) : Nat :=
  let c0_i32_555 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v32 : BitVec 32 := Scalar.subi c3_i32 v5
  let v33 : BitVec 32 := Scalar.select v31 v5 v32
  let c1_i32_30 : BitVec 32 := 1#32
  let v51 : BitVec 32 := Scalar.subi v33 c1_i32_30
  let c4_i32_31 : BitVec 32 := 4#32
  let c0_i32_32 : BitVec 32 := 0#32
  let v52 : BitVec 1 := Scalar.cmpi .eq c4_i32_31 c0_i32_32
  let c1_i32_33 : BitVec 32 := 1#32
  let v53 : BitVec 32 := Scalar.select v52 c1_i32_33 c4_i32_31
  let v54 : BitVec 32 := Scalar.remsi v51 v53
  let c0_i32_35 : BitVec 32 := 0#32
  let v56 : BitVec 1 := Scalar.cmpi .slt v54 c0_i32_35
  let c0_i32_36 : BitVec 32 := 0#32
  let v57 : BitVec 1 := Scalar.cmpi .slt v53 c0_i32_36
  let v58 : BitVec 1 := Scalar.xori v56 v57
  let c0_i32_34 : BitVec 32 := 0#32
  let v55 : BitVec 1 := Scalar.cmpi .ne v54 c0_i32_34
  let v59 : BitVec 1 := Scalar.andi v58 v55
  let v60 : BitVec 32 := Scalar.addi v54 v53
  let v61 : BitVec 32 := Scalar.select v59 v60 v54
  let c2_i32_37 : BitVec 32 := 2#32
  let v62 : BitVec 1 := Scalar.cmpi .sge v61 c2_i32_37
  let c1_i32_38 : BitVec 32 := 1#32
  let c0_i32_39 : BitVec 32 := 0#32
  let v63 : BitVec 32 := Scalar.select v62 c1_i32_38 c0_i32_39
  let c8_i32_554 : BitVec 32 := 8#32
  let v792 : BitVec 32 := Scalar.muli v63 c8_i32_554
  let v793 : BitVec 32 := Scalar.addi c0_i32_555 v792
  let c1_i32_40 : BitVec 32 := 1#32
  let v64 : BitVec 1 := Scalar.cmpi .eq v61 c1_i32_40
  let c2_i32_41 : BitVec 32 := 2#32
  let v65 : BitVec 1 := Scalar.cmpi .eq v61 c2_i32_41
  let v66 : BitVec 1 := Scalar.ori v64 v65
  let c1_i32_42 : BitVec 32 := 1#32
  let c0_i32_43 : BitVec 32 := 0#32
  let v67 : BitVec 32 := Scalar.select v66 c1_i32_42 c0_i32_43
  let c4_i32_556 : BitVec 32 := 4#32
  let v794 : BitVec 32 := Scalar.muli v67 c4_i32_556
  let v795 : BitVec 32 := Scalar.addi v793 v794
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_557 : BitVec 32 := 1#32
  let v796 : BitVec 32 := Scalar.muli v8 c1_i32_557
  let v797 : BitVec 32 := Scalar.addi v795 v796
  v797.toNat
def k0_dev21 (d0 : Dev nD) : Nat :=
  let c0_i32_573 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_572 : BitVec 32 := 8#32
  let v820 : BitVec 32 := Scalar.muli v2 c8_i32_572
  let v821 : BitVec 32 := Scalar.addi c0_i32_573 v820
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_574 : BitVec 32 := 4#32
  let v822 : BitVec 32 := Scalar.muli v5 c4_i32_574
  let v823 : BitVec 32 := Scalar.addi v821 v822
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_575 : BitVec 32 := 1#32
  let v824 : BitVec 32 := Scalar.muli v30 c1_i32_575
  let v825 : BitVec 32 := Scalar.addi v823 v824
  v825.toNat
def k0_dev22 (d0 : Dev nD) : Nat :=
  let c0_i32_599 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_598 : BitVec 32 := 8#32
  let v858 : BitVec 32 := Scalar.muli v2 c8_i32_598
  let v859 : BitVec 32 := Scalar.addi c0_i32_599 v858
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_600 : BitVec 32 := 4#32
  let v860 : BitVec 32 := Scalar.muli v5 c4_i32_600
  let v861 : BitVec 32 := Scalar.addi v859 v860
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_601 : BitVec 32 := 1#32
  let v862 : BitVec 32 := Scalar.muli v30 c1_i32_601
  let v863 : BitVec 32 := Scalar.addi v861 v862
  v863.toNat
def k0_dev23 (d0 : Dev nD) : Nat :=
  let c0_i32_650 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v32 : BitVec 32 := Scalar.subi c3_i32 v5
  let v33 : BitVec 32 := Scalar.select v31 v5 v32
  let c1_i32_16 : BitVec 32 := 1#32
  let v34 : BitVec 32 := Scalar.addi v33 c1_i32_16
  let c4_i32_17 : BitVec 32 := 4#32
  let c0_i32_18 : BitVec 32 := 0#32
  let v35 : BitVec 1 := Scalar.cmpi .eq c4_i32_17 c0_i32_18
  let c1_i32_19 : BitVec 32 := 1#32
  let v36 : BitVec 32 := Scalar.select v35 c1_i32_19 c4_i32_17
  let v37 : BitVec 32 := Scalar.remsi v34 v36
  let c0_i32_21 : BitVec 32 := 0#32
  let v39 : BitVec 1 := Scalar.cmpi .slt v37 c0_i32_21
  let c0_i32_22 : BitVec 32 := 0#32
  let v40 : BitVec 1 := Scalar.cmpi .slt v36 c0_i32_22
  let v41 : BitVec 1 := Scalar.xori v39 v40
  let c0_i32_20 : BitVec 32 := 0#32
  let v38 : BitVec 1 := Scalar.cmpi .ne v37 c0_i32_20
  let v42 : BitVec 1 := Scalar.andi v41 v38
  let v43 : BitVec 32 := Scalar.addi v37 v36
  let v44 : BitVec 32 := Scalar.select v42 v43 v37
  let c2_i32_23 : BitVec 32 := 2#32
  let v45 : BitVec 1 := Scalar.cmpi .sge v44 c2_i32_23
  let c1_i32_24 : BitVec 32 := 1#32
  let c0_i32_25 : BitVec 32 := 0#32
  let v46 : BitVec 32 := Scalar.select v45 c1_i32_24 c0_i32_25
  let c8_i32_649 : BitVec 32 := 8#32
  let v927 : BitVec 32 := Scalar.muli v46 c8_i32_649
  let v928 : BitVec 32 := Scalar.addi c0_i32_650 v927
  let c1_i32_26 : BitVec 32 := 1#32
  let v47 : BitVec 1 := Scalar.cmpi .eq v44 c1_i32_26
  let c2_i32_27 : BitVec 32 := 2#32
  let v48 : BitVec 1 := Scalar.cmpi .eq v44 c2_i32_27
  let v49 : BitVec 1 := Scalar.ori v47 v48
  let c1_i32_28 : BitVec 32 := 1#32
  let c0_i32_29 : BitVec 32 := 0#32
  let v50 : BitVec 32 := Scalar.select v49 c1_i32_28 c0_i32_29
  let c4_i32_651 : BitVec 32 := 4#32
  let v929 : BitVec 32 := Scalar.muli v50 c4_i32_651
  let v930 : BitVec 32 := Scalar.addi v928 v929
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_652 : BitVec 32 := 1#32
  let v931 : BitVec 32 := Scalar.muli v8 c1_i32_652
  let v932 : BitVec 32 := Scalar.addi v930 v931
  v932.toNat
def k0_dev24 (d0 : Dev nD) : Nat :=
  let c0_i32_658 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v32 : BitVec 32 := Scalar.subi c3_i32 v5
  let v33 : BitVec 32 := Scalar.select v31 v5 v32
  let c1_i32_30 : BitVec 32 := 1#32
  let v51 : BitVec 32 := Scalar.subi v33 c1_i32_30
  let c4_i32_31 : BitVec 32 := 4#32
  let c0_i32_32 : BitVec 32 := 0#32
  let v52 : BitVec 1 := Scalar.cmpi .eq c4_i32_31 c0_i32_32
  let c1_i32_33 : BitVec 32 := 1#32
  let v53 : BitVec 32 := Scalar.select v52 c1_i32_33 c4_i32_31
  let v54 : BitVec 32 := Scalar.remsi v51 v53
  let c0_i32_35 : BitVec 32 := 0#32
  let v56 : BitVec 1 := Scalar.cmpi .slt v54 c0_i32_35
  let c0_i32_36 : BitVec 32 := 0#32
  let v57 : BitVec 1 := Scalar.cmpi .slt v53 c0_i32_36
  let v58 : BitVec 1 := Scalar.xori v56 v57
  let c0_i32_34 : BitVec 32 := 0#32
  let v55 : BitVec 1 := Scalar.cmpi .ne v54 c0_i32_34
  let v59 : BitVec 1 := Scalar.andi v58 v55
  let v60 : BitVec 32 := Scalar.addi v54 v53
  let v61 : BitVec 32 := Scalar.select v59 v60 v54
  let c2_i32_37 : BitVec 32 := 2#32
  let v62 : BitVec 1 := Scalar.cmpi .sge v61 c2_i32_37
  let c1_i32_38 : BitVec 32 := 1#32
  let c0_i32_39 : BitVec 32 := 0#32
  let v63 : BitVec 32 := Scalar.select v62 c1_i32_38 c0_i32_39
  let c8_i32_657 : BitVec 32 := 8#32
  let v939 : BitVec 32 := Scalar.muli v63 c8_i32_657
  let v940 : BitVec 32 := Scalar.addi c0_i32_658 v939
  let c1_i32_40 : BitVec 32 := 1#32
  let v64 : BitVec 1 := Scalar.cmpi .eq v61 c1_i32_40
  let c2_i32_41 : BitVec 32 := 2#32
  let v65 : BitVec 1 := Scalar.cmpi .eq v61 c2_i32_41
  let v66 : BitVec 1 := Scalar.ori v64 v65
  let c1_i32_42 : BitVec 32 := 1#32
  let c0_i32_43 : BitVec 32 := 0#32
  let v67 : BitVec 32 := Scalar.select v66 c1_i32_42 c0_i32_43
  let c4_i32_659 : BitVec 32 := 4#32
  let v941 : BitVec 32 := Scalar.muli v67 c4_i32_659
  let v942 : BitVec 32 := Scalar.addi v940 v941
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_660 : BitVec 32 := 1#32
  let v943 : BitVec 32 := Scalar.muli v8 c1_i32_660
  let v944 : BitVec 32 := Scalar.addi v942 v943
  v944.toNat
def k0_dev25 (d0 : Dev nD) : Nat :=
  let c0_i32_701 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v32 : BitVec 32 := Scalar.subi c3_i32 v5
  let v33 : BitVec 32 := Scalar.select v31 v5 v32
  let c1_i32_16 : BitVec 32 := 1#32
  let v34 : BitVec 32 := Scalar.addi v33 c1_i32_16
  let c4_i32_17 : BitVec 32 := 4#32
  let c0_i32_18 : BitVec 32 := 0#32
  let v35 : BitVec 1 := Scalar.cmpi .eq c4_i32_17 c0_i32_18
  let c1_i32_19 : BitVec 32 := 1#32
  let v36 : BitVec 32 := Scalar.select v35 c1_i32_19 c4_i32_17
  let v37 : BitVec 32 := Scalar.remsi v34 v36
  let c0_i32_21 : BitVec 32 := 0#32
  let v39 : BitVec 1 := Scalar.cmpi .slt v37 c0_i32_21
  let c0_i32_22 : BitVec 32 := 0#32
  let v40 : BitVec 1 := Scalar.cmpi .slt v36 c0_i32_22
  let v41 : BitVec 1 := Scalar.xori v39 v40
  let c0_i32_20 : BitVec 32 := 0#32
  let v38 : BitVec 1 := Scalar.cmpi .ne v37 c0_i32_20
  let v42 : BitVec 1 := Scalar.andi v41 v38
  let v43 : BitVec 32 := Scalar.addi v37 v36
  let v44 : BitVec 32 := Scalar.select v42 v43 v37
  let c2_i32_23 : BitVec 32 := 2#32
  let v45 : BitVec 1 := Scalar.cmpi .sge v44 c2_i32_23
  let c1_i32_24 : BitVec 32 := 1#32
  let c0_i32_25 : BitVec 32 := 0#32
  let v46 : BitVec 32 := Scalar.select v45 c1_i32_24 c0_i32_25
  let c8_i32_700 : BitVec 32 := 8#32
  let v998 : BitVec 32 := Scalar.muli v46 c8_i32_700
  let v999 : BitVec 32 := Scalar.addi c0_i32_701 v998
  let c1_i32_26 : BitVec 32 := 1#32
  let v47 : BitVec 1 := Scalar.cmpi .eq v44 c1_i32_26
  let c2_i32_27 : BitVec 32 := 2#32
  let v48 : BitVec 1 := Scalar.cmpi .eq v44 c2_i32_27
  let v49 : BitVec 1 := Scalar.ori v47 v48
  let c1_i32_28 : BitVec 32 := 1#32
  let c0_i32_29 : BitVec 32 := 0#32
  let v50 : BitVec 32 := Scalar.select v49 c1_i32_28 c0_i32_29
  let c4_i32_702 : BitVec 32 := 4#32
  let v1000 : BitVec 32 := Scalar.muli v50 c4_i32_702
  let v1001 : BitVec 32 := Scalar.addi v999 v1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_703 : BitVec 32 := 1#32
  let v1002 : BitVec 32 := Scalar.muli v8 c1_i32_703
  let v1003 : BitVec 32 := Scalar.addi v1001 v1002
  v1003.toNat
def k0_dev26 (d0 : Dev nD) : Nat :=
  let c0_i32_709 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v32 : BitVec 32 := Scalar.subi c3_i32 v5
  let v33 : BitVec 32 := Scalar.select v31 v5 v32
  let c1_i32_30 : BitVec 32 := 1#32
  let v51 : BitVec 32 := Scalar.subi v33 c1_i32_30
  let c4_i32_31 : BitVec 32 := 4#32
  let c0_i32_32 : BitVec 32 := 0#32
  let v52 : BitVec 1 := Scalar.cmpi .eq c4_i32_31 c0_i32_32
  let c1_i32_33 : BitVec 32 := 1#32
  let v53 : BitVec 32 := Scalar.select v52 c1_i32_33 c4_i32_31
  let v54 : BitVec 32 := Scalar.remsi v51 v53
  let c0_i32_35 : BitVec 32 := 0#32
  let v56 : BitVec 1 := Scalar.cmpi .slt v54 c0_i32_35
  let c0_i32_36 : BitVec 32 := 0#32
  let v57 : BitVec 1 := Scalar.cmpi .slt v53 c0_i32_36
  let v58 : BitVec 1 := Scalar.xori v56 v57
  let c0_i32_34 : BitVec 32 := 0#32
  let v55 : BitVec 1 := Scalar.cmpi .ne v54 c0_i32_34
  let v59 : BitVec 1 := Scalar.andi v58 v55
  let v60 : BitVec 32 := Scalar.addi v54 v53
  let v61 : BitVec 32 := Scalar.select v59 v60 v54
  let c2_i32_37 : BitVec 32 := 2#32
  let v62 : BitVec 1 := Scalar.cmpi .sge v61 c2_i32_37
  let c1_i32_38 : BitVec 32 := 1#32
  let c0_i32_39 : BitVec 32 := 0#32
  let v63 : BitVec 32 := Scalar.select v62 c1_i32_38 c0_i32_39
  let c8_i32_708 : BitVec 32 := 8#32
  let v1010 : BitVec 32 := Scalar.muli v63 c8_i32_708
  let v1011 : BitVec 32 := Scalar.addi c0_i32_709 v1010
  let c1_i32_40 : BitVec 32 := 1#32
  let v64 : BitVec 1 := Scalar.cmpi .eq v61 c1_i32_40
  let c2_i32_41 : BitVec 32 := 2#32
  let v65 : BitVec 1 := Scalar.cmpi .eq v61 c2_i32_41
  let v66 : BitVec 1 := Scalar.ori v64 v65
  let c1_i32_42 : BitVec 32 := 1#32
  let c0_i32_43 : BitVec 32 := 0#32
  let v67 : BitVec 32 := Scalar.select v66 c1_i32_42 c0_i32_43
  let c4_i32_710 : BitVec 32 := 4#32
  let v1012 : BitVec 32 := Scalar.muli v67 c4_i32_710
  let v1013 : BitVec 32 := Scalar.addi v1011 v1012
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_711 : BitVec 32 := 1#32
  let v1014 : BitVec 32 := Scalar.muli v8 c1_i32_711
  let v1015 : BitVec 32 := Scalar.addi v1013 v1014
  v1015.toNat
def k0_dev27 (d0 : Dev nD) : Nat :=
  let c0_i32_752 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v32 : BitVec 32 := Scalar.subi c3_i32 v5
  let v33 : BitVec 32 := Scalar.select v31 v5 v32
  let c1_i32_16 : BitVec 32 := 1#32
  let v34 : BitVec 32 := Scalar.addi v33 c1_i32_16
  let c4_i32_17 : BitVec 32 := 4#32
  let c0_i32_18 : BitVec 32 := 0#32
  let v35 : BitVec 1 := Scalar.cmpi .eq c4_i32_17 c0_i32_18
  let c1_i32_19 : BitVec 32 := 1#32
  let v36 : BitVec 32 := Scalar.select v35 c1_i32_19 c4_i32_17
  let v37 : BitVec 32 := Scalar.remsi v34 v36
  let c0_i32_21 : BitVec 32 := 0#32
  let v39 : BitVec 1 := Scalar.cmpi .slt v37 c0_i32_21
  let c0_i32_22 : BitVec 32 := 0#32
  let v40 : BitVec 1 := Scalar.cmpi .slt v36 c0_i32_22
  let v41 : BitVec 1 := Scalar.xori v39 v40
  let c0_i32_20 : BitVec 32 := 0#32
  let v38 : BitVec 1 := Scalar.cmpi .ne v37 c0_i32_20
  let v42 : BitVec 1 := Scalar.andi v41 v38
  let v43 : BitVec 32 := Scalar.addi v37 v36
  let v44 : BitVec 32 := Scalar.select v42 v43 v37
  let c2_i32_23 : BitVec 32 := 2#32
  let v45 : BitVec 1 := Scalar.cmpi .sge v44 c2_i32_23
  let c1_i32_24 : BitVec 32 := 1#32
  let c0_i32_25 : BitVec 32 := 0#32
  let v46 : BitVec 32 := Scalar.select v45 c1_i32_24 c0_i32_25
  let c8_i32_751 : BitVec 32 := 8#32
  let v1069 : BitVec 32 := Scalar.muli v46 c8_i32_751
  let v1070 : BitVec 32 := Scalar.addi c0_i32_752 v1069
  let c1_i32_26 : BitVec 32 := 1#32
  let v47 : BitVec 1 := Scalar.cmpi .eq v44 c1_i32_26
  let c2_i32_27 : BitVec 32 := 2#32
  let v48 : BitVec 1 := Scalar.cmpi .eq v44 c2_i32_27
  let v49 : BitVec 1 := Scalar.ori v47 v48
  let c1_i32_28 : BitVec 32 := 1#32
  let c0_i32_29 : BitVec 32 := 0#32
  let v50 : BitVec 32 := Scalar.select v49 c1_i32_28 c0_i32_29
  let c4_i32_753 : BitVec 32 := 4#32
  let v1071 : BitVec 32 := Scalar.muli v50 c4_i32_753
  let v1072 : BitVec 32 := Scalar.addi v1070 v1071
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_754 : BitVec 32 := 1#32
  let v1073 : BitVec 32 := Scalar.muli v8 c1_i32_754
  let v1074 : BitVec 32 := Scalar.addi v1072 v1073
  v1074.toNat
def k0_dev28 (d0 : Dev nD) : Nat :=
  let c0_i32_760 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v32 : BitVec 32 := Scalar.subi c3_i32 v5
  let v33 : BitVec 32 := Scalar.select v31 v5 v32
  let c1_i32_30 : BitVec 32 := 1#32
  let v51 : BitVec 32 := Scalar.subi v33 c1_i32_30
  let c4_i32_31 : BitVec 32 := 4#32
  let c0_i32_32 : BitVec 32 := 0#32
  let v52 : BitVec 1 := Scalar.cmpi .eq c4_i32_31 c0_i32_32
  let c1_i32_33 : BitVec 32 := 1#32
  let v53 : BitVec 32 := Scalar.select v52 c1_i32_33 c4_i32_31
  let v54 : BitVec 32 := Scalar.remsi v51 v53
  let c0_i32_35 : BitVec 32 := 0#32
  let v56 : BitVec 1 := Scalar.cmpi .slt v54 c0_i32_35
  let c0_i32_36 : BitVec 32 := 0#32
  let v57 : BitVec 1 := Scalar.cmpi .slt v53 c0_i32_36
  let v58 : BitVec 1 := Scalar.xori v56 v57
  let c0_i32_34 : BitVec 32 := 0#32
  let v55 : BitVec 1 := Scalar.cmpi .ne v54 c0_i32_34
  let v59 : BitVec 1 := Scalar.andi v58 v55
  let v60 : BitVec 32 := Scalar.addi v54 v53
  let v61 : BitVec 32 := Scalar.select v59 v60 v54
  let c2_i32_37 : BitVec 32 := 2#32
  let v62 : BitVec 1 := Scalar.cmpi .sge v61 c2_i32_37
  let c1_i32_38 : BitVec 32 := 1#32
  let c0_i32_39 : BitVec 32 := 0#32
  let v63 : BitVec 32 := Scalar.select v62 c1_i32_38 c0_i32_39
  let c8_i32_759 : BitVec 32 := 8#32
  let v1081 : BitVec 32 := Scalar.muli v63 c8_i32_759
  let v1082 : BitVec 32 := Scalar.addi c0_i32_760 v1081
  let c1_i32_40 : BitVec 32 := 1#32
  let v64 : BitVec 1 := Scalar.cmpi .eq v61 c1_i32_40
  let c2_i32_41 : BitVec 32 := 2#32
  let v65 : BitVec 1 := Scalar.cmpi .eq v61 c2_i32_41
  let v66 : BitVec 1 := Scalar.ori v64 v65
  let c1_i32_42 : BitVec 32 := 1#32
  let c0_i32_43 : BitVec 32 := 0#32
  let v67 : BitVec 32 := Scalar.select v66 c1_i32_42 c0_i32_43
  let c4_i32_761 : BitVec 32 := 4#32
  let v1083 : BitVec 32 := Scalar.muli v67 c4_i32_761
  let v1084 : BitVec 32 := Scalar.addi v1082 v1083
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_762 : BitVec 32 := 1#32
  let v1085 : BitVec 32 := Scalar.muli v8 c1_i32_762
  let v1086 : BitVec 32 := Scalar.addi v1084 v1085
  v1086.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_4 : (4#32 : BitVec 32).msb = false
  inb_S12_S1_0 : ∀ a, (![0] : Fin 1 → Nat) a + S1.size a ≤ S12.size a
  squeezes_S1_S_ : S1.Squeezes S_
  inb_S6x128x1024_S1x128x1024_0_0_0 : ∀ a, (![0, 0, 0] : Fin 3 → Nat) a + S1x128x1024.size a ≤ S6x128x1024.size a
  squeezes_S1x128x1024_S128x1024 : S1x128x1024.Squeezes S128x1024
  h_S128x1024 : 0 < S128x1024.numel
  shapeCasts_S128x1024_S128x1024 : S128x1024.ShapeCasts S128x1024
  h_S1x128x1024 : 0 < S1x128x1024.numel
  shapeCasts_S1x128x1024_S128x1024 : S1x128x1024.ShapeCasts S128x1024
  inb_S12_S1_1 : ∀ a, (![1] : Fin 1 → Nat) a + S1.size a ≤ S12.size a
  inb_S6x128x1024_S1x128x1024_1_0_0 : ∀ a, (![1, 0, 0] : Fin 3 → Nat) a + S1x128x1024.size a ≤ S6x128x1024.size a
  inb_S12_S1_2 : ∀ a, (![2] : Fin 1 → Nat) a + S1.size a ≤ S12.size a
  inb_S6x128x1024_S1x128x1024_2_0_0 : ∀ a, (![2, 0, 0] : Fin 3 → Nat) a + S1x128x1024.size a ≤ S6x128x1024.size a
  inb_S12_S1_3 : ∀ a, (![3] : Fin 1 → Nat) a + S1.size a ≤ S12.size a
  inb_S12_S1_4 : ∀ a, (![4] : Fin 1 → Nat) a + S1.size a ≤ S12.size a
  inb_S12_S1_5 : ∀ a, (![5] : Fin 1 → Nat) a + S1.size a ≤ S12.size a
  inb_S6_S1_0 : ∀ a, (![0] : Fin 1 → Nat) a + S1.size a ≤ S6.size a
  inb_S12_S1_6 : ∀ a, (![6] : Fin 1 → Nat) a + S1.size a ≤ S12.size a
  inb_S6x128x1024_S1x128x1024_3_0_0 : ∀ a, (![3, 0, 0] : Fin 3 → Nat) a + S1x128x1024.size a ≤ S6x128x1024.size a
  inb_S12_S1_7 : ∀ a, (![7] : Fin 1 → Nat) a + S1.size a ≤ S12.size a
  inb_S6x128x1024_S1x128x1024_4_0_0 : ∀ a, (![4, 0, 0] : Fin 3 → Nat) a + S1x128x1024.size a ≤ S6x128x1024.size a
  inb_S6_S1_1 : ∀ a, (![1] : Fin 1 → Nat) a + S1.size a ≤ S6.size a
  inb_S12_S1_8 : ∀ a, (![8] : Fin 1 → Nat) a + S1.size a ≤ S12.size a
  inb_S6x128x1024_S1x128x1024_5_0_0 : ∀ a, (![5, 0, 0] : Fin 3 → Nat) a + S1x128x1024.size a ≤ S6x128x1024.size a
  inb_S12_S1_9 : ∀ a, (![9] : Fin 1 → Nat) a + S1.size a ≤ S12.size a
  inb_S6_S1_2 : ∀ a, (![2] : Fin 1 → Nat) a + S1.size a ≤ S6.size a
  inb_S12_S1_10 : ∀ a, (![10] : Fin 1 → Nat) a + S1.size a ≤ S12.size a
  inb_S12_S1_11 : ∀ a, (![11] : Fin 1 → Nat) a + S1.size a ≤ S12.size a
  inb_S6_S1_3 : ∀ a, (![3] : Fin 1 → Nat) a + S1.size a ≤ S6.size a
  inb_S6_S1_4 : ∀ a, (![4] : Fin 1 → Nat) a + S1.size a ≤ S6.size a
  inb_S6_S1_5 : ∀ a, (![5] : Fin 1 → Nat) a + S1.size a ≤ S6.size a
  hcc0_scratch1 : 2 + S12.numel ≤ 50
  hcc0_scratch2 : 14 + S12.numel ≤ 50
  hcc0_scratch3 : 26 + S6.numel ≤ 50
  hcc0_scratch4 : 32 + S6.numel ≤ 50
  hcc0_scratch5 : 38 + S6.numel ≤ 50
  hcc0_scratch6 : 44 + S6.numel ≤ 50
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_off1_inb : ∀ d0 : Dev nD, ∀ (r₁ : Fin 2) (r₂ : Fin 3), ∀ a, (k0_off1 d0 (BitVec.ofNat 32 (512 * r₁.val)) (BitVec.ofNat 32 r₂.val)) a + S128x1024.size a ≤ S4096x1024.size a
  k0_dev5_lt : ∀ d0 : Dev nD, (k0_dev5 d0) < nD
  k0_off2_inb : ∀ d0 : Dev nD, ∀ (r₁ : Fin 2) (r₂ : Fin 3), ∀ a, (k0_off2 d0 (BitVec.ofNat 32 (512 * r₁.val)) (BitVec.ofNat 32 r₂.val)) a + S128x1024.size a ≤ S4096x1024.size a
  k0_dev6_lt : ∀ d0 : Dev nD, (k0_dev6 d0) < nD
  k0_dev7_lt : ∀ d0 : Dev nD, (k0_dev7 d0) < nD
  k0_off3_inb : ∀ d0 : Dev nD, ∀ (r₁ : Fin 2) (r₂ : Fin 3), ∀ a, (k0_off3 d0 (BitVec.ofNat 32 (512 * r₁.val)) (BitVec.ofNat 32 r₂.val)) a + S128x1024.size a ≤ S4096x1024.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_off4_inb : ∀ d0 : Dev nD, ∀ (r₁ : Fin 3) (r₂ : Fin 2), ∀ a, (k0_off4 d0 (BitVec.ofNat 32 r₁.val) (BitVec.ofNat 32 (512 * r₂.val))) a + S256x1024.size a ≤ S4096x1024.size a
  k0_dev11_lt : ∀ d0 : Dev nD, (k0_dev11 d0) < nD
  k0_off5_inb : ∀ d0 : Dev nD, ∀ (r₁ : Fin 3) (r₂ : Fin 2), ∀ a, (k0_off5 d0 (BitVec.ofNat 32 r₁.val) (BitVec.ofNat 32 (512 * r₂.val))) a + S256x1024.size a ≤ S4096x1024.size a
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  hstage0_0 : ∀ j, (stage0_0 j).IsWhole
  hstage0_1 : ∀ j, (stage0_1 j).IsWhole

variable [Facts₀]

abbrev cc0_scratch1 : DmaSems sig S12 := SemArray.consecutive 2 S12 hcc0_scratch1
abbrev cc0_scratch2 : DmaSems sig S12 := SemArray.consecutive 14 S12 hcc0_scratch2
abbrev cc0_scratch3 : DmaSems sig S6 := SemArray.consecutive 26 S6 hcc0_scratch3
abbrev cc0_scratch4 : DmaSems sig S6 := SemArray.consecutive 32 S6 hcc0_scratch4
abbrev cc0_scratch5 : DmaSems sig S6 := SemArray.consecutive 38 S6 hcc0_scratch5
abbrev cc0_scratch6 : DmaSems sig S6 := SemArray.consecutive 44 S6 hcc0_scratch6

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4x4096x1024 : Shape := ⟨3, ![4, 4096, 1024]⟩
abbrev S_ : Shape := ⟨0, ![]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x4096x1024, .f32⟩
  | .hbm, ⟨2, _⟩ => ⟨S_, .f32⟩
  | .hbm, ⟨3, _⟩ => ⟨S4096x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S16384x1024_S4x4096x1024 : S16384x1024.ShapeCasts S4x4096x1024
  reducesTo_S4x4096x1024_S4096x1024_d0 : S4x4096x1024.ReducesTo [0] S4096x1024
  h_S_ : 0 < S_.numel

variable [Facts₀]

class Facts : Prop extends Facts₀ where

variable [Facts]
-- ==== Proof.Geo.lean ====
import proofs.«900720_g7700000000000721_dist_ar_v7x_xyz2x2x4_z_m4096_n1024_f32_1_alg».proof.Proof.Gen.KernelIdeal

namespace Cert.KernelIdeal.AR

open Idealize.ShloMosaic Cert.KernelIdeal Cert.KernelIdeal.Gen

def zr (c : Dev nD) : Dev nD := ![1,2,3,0, 5,6,7,4, 9,10,11,8, 13,14,15,12] c
def zl (c : Dev nD) : Dev nD := ![3,0,1,2, 7,4,5,6, 11,8,9,10, 15,12,13,14] c
def xr (c : Dev nD) : Dev nD := ![4,5,6,7, 12,13,14,15, 0,1,2,3, 8,9,10,11] c
def xl (c : Dev nD) : Dev nD := ![8,9,10,11, 0,1,2,3, 12,13,14,15, 4,5,6,7] c
def rpos (c : Dev nD) : ℕ := ![0,0,0,0, 1,1,1,1, 3,3,3,3, 2,2,2,2] c
def zpos (c : Dev nD) : ℕ := c.val % 4

theorem zr_zl (c : Dev nD) : zr (zl c) = c := by revert c; decide
theorem zl_zr (c : Dev nD) : zl (zr c) = c := by revert c; decide
theorem xr_xl (c : Dev nD) : xr (xl c) = c := by revert c; decide
theorem xl_xr (c : Dev nD) : xl (xr c) = c := by revert c; decide

def row (q p k : ℕ) : ℕ := 1024 * (q % 4) + 512 * p + 128 * (k % 4)

theorem dev1_eq (c : Dev nD) : (⟨k0_dev1 c, k0_dev1_lt c⟩ : Dev nD) = zl c := by revert c; decide
theorem dev2_eq (c : Dev nD) : (⟨k0_dev2 c, k0_dev2_lt c⟩ : Dev nD) = zr c := by revert c; decide
theorem dev3_eq (c : Dev nD) : (⟨k0_dev3 c, k0_dev3_lt c⟩ : Dev nD) = xl c := by revert c; decide
theorem dev4_eq (c : Dev nD) : (⟨k0_dev4 c, k0_dev4_lt c⟩ : Dev nD) = xr c := by revert c; decide
theorem dev5_eq (c : Dev nD) : (⟨k0_dev5 c, k0_dev5_lt c⟩ : Dev nD) = zr c := by revert c; decide
theorem dev8_eq (c : Dev nD) : (⟨k0_dev8 c, k0_dev8_lt c⟩ : Dev nD) = zl c := by revert c; decide
theorem dev11_eq (c : Dev nD) : (⟨k0_dev11 c, k0_dev11_lt c⟩ : Dev nD) = xr c := by revert c; decide
theorem dev12_eq (c : Dev nD) : (⟨k0_dev12 c, k0_dev12_lt c⟩ : Dev nD) = xl c := by revert c; decide

theorem off1_eq (c : Dev nD) (p : Fin 2) (s : Fin 3) :
    k0_off1 c (BitVec.ofNat 32 (512 * p.val)) (BitVec.ofNat 32 s.val) = ![row (rpos c) p.val (zpos c + 4 - s.val), 0] := by
  revert c p s; decide
theorem off2_eq (c : Dev nD) (p : Fin 2) (s : Fin 3) :
    k0_off2 c (BitVec.ofNat 32 (512 * p.val)) (BitVec.ofNat 32 s.val) = ![row (rpos c) p.val (zpos c + 3 - s.val), 0] := by
  revert c p s; decide
theorem off3_eq (c : Dev nD) (p : Fin 2) (t : Fin 3) :
    k0_off3 c (BitVec.ofNat 32 (512 * p.val)) (BitVec.ofNat 32 t.val) = ![row (rpos c) p.val (zpos c + 1 + t.val), 0] := by
  revert c p t; decide
theorem off4_eq (c : Dev nD) (t : Fin 3) (p : Fin 2) :
    k0_off4 c (BitVec.ofNat 32 t.val) (BitVec.ofNat 32 (512 * p.val)) = ![row (rpos c + 4 - t.val) p.val 0, 0] := by
  revert c t p; decide
theorem off5_eq (c : Dev nD) (t : Fin 3) (p : Fin 2) :
    k0_off5 c (BitVec.ofNat 32 t.val) (BitVec.ofNat 32 (512 * p.val)) = ![row (rpos c + t.val) p.val 2, 0] := by
  revert c t p; decide

end Cert.KernelIdeal.AR
-- ==== Proof.Vals.lean ====
import proofs.«900720_g7700000000000721_dist_ar_v7x_xyz2x2x4_z_m4096_n1024_f32_1_alg».proof.Proof.Geo
import Idealize.ShloMosaic.PureOps.Vector

noncomputable section

namespace Cert.KernelIdeal.AR

open Idealize.ShloMosaic Cert.KernelIdeal

variable {F : FTy → Type} [FloatOps F]

abbrev Blk (F : FTy → Type) : Type := S4096x1024.Idx → Elt F .f32

def addE (a b : Elt F .f32) : Elt F .f32 := (addf (s := S_) (fun _ => a) (fun _ => b) : FVec F S_ .f32) (fun a => a.elim0)

def Sk (X : Dev nD → Blk F) : ℕ → Dev nD → Blk F
  | 0, c => X c
  | n + 1, c => fun i => addE (X c i) (Sk X n (zl c) i)

def ownerOfRow (r : ℕ) : Dev nD :=
  ⟨(![0, 4, 12, 8] (⟨r / 1024 % 4, Nat.mod_lt _ (by decide)⟩ : Fin 4)) + (r % 512 / 128 + 3) % 4, by
    have h : ∀ q : Fin 4, (![0, 4, 12, 8] q : ℕ) ≤ 12 := by decide
    have := h ⟨r / 1024 % 4, Nat.mod_lt _ (by decide)⟩
    have : (r % 512 / 128 + 3) % 4 < 4 := Nat.mod_lt _ (by decide)
    show _ < 16
    omega⟩

def owner (i : S4096x1024.Idx) : Dev nD := ownerOfRow (i 0).val

def Fin_ (X : Dev nD → Blk F) : Blk F := fun i => Sk X 3 (owner i) i

theorem rpos_owner (r : ℕ) : rpos (ownerOfRow r) = r / 1024 % 4 := by
  have h : ∀ (q : Fin 4) (z : Fin 4), rpos (⟨(![0, 4, 12, 8] q) + z.val, by
      have h : ∀ q : Fin 4, (![0, 4, 12, 8] q : ℕ) ≤ 12 := by decide
      have := h q; have := z.isLt; show _ < 16; omega⟩ : Dev nD) = q.val := by decide
  exact h ⟨r / 1024 % 4, Nat.mod_lt _ (by decide)⟩ ⟨(r % 512 / 128 + 3) % 4, Nat.mod_lt _ (by decide)⟩

theorem zpos_owner (r : ℕ) : zpos (ownerOfRow r) = (r % 512 / 128 + 3) % 4 := by
  have h : ∀ (q : Fin 4) (z : Fin 4), zpos (⟨(![0, 4, 12, 8] q) + z.val, by
      have h : ∀ q : Fin 4, (![0, 4, 12, 8] q : ℕ) ≤ 12 := by decide
      have := h q; have := z.isLt; show _ < 16; omega⟩ : Dev nD) = z.val := by decide
  exact h ⟨r / 1024 % 4, Nat.mod_lt _ (by decide)⟩ ⟨(r % 512 / 128 + 3) % 4, Nat.mod_lt _ (by decide)⟩

end Cert.KernelIdeal.AR

end
-- ==== Proof.Core.lean ====
import proofs.«900720_g7700000000000721_dist_ar_v7x_xyz2x2x4_z_m4096_n1024_f32_1_alg».proof.Proof.Geo
import proofs.«900720_g7700000000000721_dist_ar_v7x_xyz2x2x4_z_m4096_n1024_f32_1_alg».proof.Proof.Vals
import proofs.«900720_g7700000000000721_dist_ar_v7x_xyz2x2x4_z_m4096_n1024_f32_1_alg».proof.Proof.Gen.KernelIdeal.Skeleton
import proofs.«900720_g7700000000000721_dist_ar_v7x_xyz2x2x4_z_m4096_n1024_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev barS : Sem sig := (SemArray.scalar (sig.barrier 0 rfl) : Sems sig S_).sem

def sendSem (j : Fin 24) : DmaSem sig :=
  ![2,3,4,5,6,7, 26,38, 8,9, 27,39, 10,11, 28,40, 12,13, 29,41, 30,42, 31,43] j
def recvSem (j : Fin 24) : DmaSem sig :=
  ![14,15,16,17,18,19, 32,44, 20,21, 33,45, 22,23, 34,46, 24,25, 35,47, 36,48, 37,49] j

abbrev barCell (c : Dev nD) : GSem nD τ sig := ((c : Thread nD τ), .reg barS)
abbrev sendCell (c : Dev nD) (j : Fin 24) : GSem nD τ sig := ((c : Thread nD τ), .dma (sendSem j))
abbrev recvCell (c : Dev nD) (j : Fin 24) : GSem nD τ sig := ((c : Thread nD τ), .dma (recvSem j))

def peer (j : Fin 24) (c : Dev nD) : Dev nD :=
  (![zr,zr,zr,zl,zl,zl, xr,xl, zr,zr, xr,xl, zr,zl, xr,xl, zl,zl, xr,xl, xr,xl, xr,xl] j) c
def from_ (j : Fin 24) (c : Dev nD) : Dev nD :=
  (![zl,zl,zl,zr,zr,zr, xl,xr, zl,zl, xl,xr, zl,zr, xl,xr, zr,zr, xl,xr, xl,xr, xl,xr] j) c

theorem peer_from (j : Fin 24) (c : Dev nD) : peer j (from_ j c) = c := by revert j c; decide
theorem from_peer (j : Fin 24) (c : Dev nD) : from_ j (peer j c) = c := by revert j c; decide

abbrev xM : Memref sig .tc .vmem S4096x1024 .f32 := Memref.whole cc0_stg0_0
abbrev oM : Memref sig .tc .vmem S4096x1024 .f32 := Memref.whole cc0_stg1_0
abbrev cM : Memref sig .tc .vmem S6x128x1024 .f32 := Memref.whole cc0_scratch0

abbrev w512 (p : Fin 2) : BitVec 32 := BitVec.ofNat 32 (512 * p.val)
abbrev w3 (s : Fin 3) : BitVec 32 := BitVec.ofNat 32 s.val

theorem slot_inb (k : Fin 6) : ∀ a, (![k.val, 0, 0] : Fin 3 → Nat) a + S1x128x1024.size a ≤ S6x128x1024.size a := by
  revert k; decide

def slotV (k : Fin 6) : Memref sig .tc .vmem S128x1024 .f32 :=
  (cM.slice (Rect.unit (s := S6x128x1024) ![k.val, 0, 0] S1x128x1024.size (slot_inb k)) (fun _ => rfl)).squeeze S128x1024 squeezes_S1x128x1024_S128x1024
def slotOf (p : Fin 2) (s : Fin 3) : Fin 6 := ⟨p.val * 3 + s.val, by omega⟩

def srcV (b : Memref sig .tc .vmem S4096x1024 .f32) (c : Dev nD) (p : Fin 2) (s : Fin 3) : Memref sig .tc .vmem S128x1024 .f32 :=
  b.slice (Rect.unit (s := S4096x1024) (k0_off1 c (w512 p) (w3 s)) S128x1024.size (k0_off1_inb c p s)) (fun _ => rfl)
def accR (c : Dev nD) (p : Fin 2) (s : Fin 3) : Rect S4096x1024 :=
  Rect.unit (s := S4096x1024) (k0_off2 c (w512 p) (w3 s)) S128x1024.size (k0_off2_inb c p s)
def agV (c : Dev nD) (p : Fin 2) (t : Fin 3) : Memref sig .tc .vmem S128x1024 .f32 :=
  oM.slice (Rect.unit (s := S4096x1024) (k0_off3 c (w512 p) (w3 t)) S128x1024.size (k0_off3_inb c p t)) (fun _ => rfl)
def paV (c : Dev nD) (p : Fin 2) (t : Fin 3) : Memref sig .tc .vmem S256x1024 .f32 :=
  oM.slice (Rect.unit (s := S4096x1024) (k0_off4 c (w3 t) (w512 p)) S256x1024.size (k0_off4_inb c t p)) (fun _ => rfl)
def pbV (c : Dev nD) (p : Fin 2) (t : Fin 3) : Memref sig .tc .vmem S256x1024 .f32 :=
  oM.slice (Rect.unit (s := S4096x1024) (k0_off5 c (w3 t) (w512 p)) S256x1024.size (k0_off5_inb c t p)) (fun _ => rfl)

def rsJ (p : Fin 2) (s : Fin 3) : Fin 24 := ![![0, 1, 2], ![8, 9, 12]] p s
def agJ (p : Fin 2) (t : Fin 3) : Fin 24 := ![![3, 4, 5], ![13, 16, 17]] p t
def paJ (p : Fin 2) (t : Fin 3) : Fin 24 := ![![6, 10, 14], ![18, 20, 22]] p t
def pbJ (p : Fin 2) (t : Fin 3) : Fin 24 := ![![7, 11, 15], ![19, 21, 23]] p t

abbrev N128 : ℕ := (slotV 0).view.dmaCredit
abbrev N256 : ℕ := (paV 0 0 0).view.dmaCredit

variable (m : (ℓ : Loc nD τ sig) → Buf (Elt F) ℓ) (ρ : Dev nD → PrngReg)

def s₀ : MemSt nD τ sig (Elt F) := ⟨m, fun _ => 0, ρ⟩

def X (c : Dev nD) : Blk F :=
  (win0_0.blk (0 : Fin 1)).view.read (Elt F) ((s₀ m ρ).mem ((c : Thread nD τ).loc main_arg0))

def landed (c : Dev nD) (p : Fin 2) (s : Fin 3) : Vec F S128x1024 .f32 :=
  (srcV xM (zl c) p s).view.read (Elt F) (Sk (X m ρ) s.val (zl c))

abbrev pts {sh : Shape} (c : Dev nD) (v : Memref sig .tc .vmem sh .f32) (q : PosShare TreeShare) (f : Buf (Elt F) (v.view.loc (c : Thread nD τ))) : sProp 𝕄 :=
  v.view.loc (c : Thread nD τ) ↦[v.view.set]{q} f

abbrev Lq : PosShare TreeShare := fullShare.left
abbrev Rq : PosShare TreeShare := fullShare.right

def lendSlots (c' : Dev nD) : sProp 𝕄 :=
  iprop(∃ f : Buf (Elt F) (cM.view.loc (c' : Thread nD τ)), pts c' (slotV 0) fullShare f ∗ pts c' (slotV 1) fullShare f ∗ pts c' (slotV 2) fullShare f
    ∗ pts c' (slotV 3) fullShare f ∗ pts c' (slotV 4) fullShare f ∗ pts c' (slotV 5) fullShare f)
def lendAg (c : Dev nD) : sProp 𝕄 :=
  iprop(∃ f : Buf (Elt F) (oM.view.loc (zl c : Thread nD τ)), pts (zl c) (agV c 0 2) fullShare f ∗ pts (zl c) (agV c 1 2) fullShare f)
def lendPa (c : Dev nD) : sProp 𝕄 :=
  iprop(∃ f : Buf (Elt F) (oM.view.loc (xr c : Thread nD τ)), pts (xr c) (paV c 0 0) fullShare f ∗ pts (xr c) (paV c 0 1) fullShare f ∗ pts (xr c) (paV c 0 2) fullShare f
    ∗ pts (xr c) (paV c 1 0) fullShare f ∗ pts (xr c) (paV c 1 1) fullShare f ∗ pts (xr c) (paV c 1 2) fullShare f)
def lendPb (c : Dev nD) : sProp 𝕄 :=
  iprop(∃ f : Buf (Elt F) (oM.view.loc (xl c : Thread nD τ)), pts (xl c) (pbV c 0 0) fullShare f ∗ pts (xl c) (pbV c 0 1) fullShare f ∗ pts (xl c) (pbV c 0 2) fullShare f
    ∗ pts (xl c) (pbV c 1 0) fullShare f ∗ pts (xl c) (pbV c 1 1) fullShare f ∗ pts (xl c) (pbV c 1 2) fullShare f)

def barPay (c : Dev nD) (d : Fin 4) : sProp 𝕄 :=
  match d with
  | 0 => lendSlots (zr c) | 1 => lendAg c | 2 => lendPa c | 3 => lendPb c
  | _ => iprop(emp)

def rsR (c : Dev nD) (p : Fin 2) (s : Fin 3) : sProp 𝕄 :=
  iprop(owns (c : Thread nD τ) (slotV (slotOf p s)) fullShare (landed m ρ c p s)
    ∗ (if s = 0 then iprop(emp) else pts (zl c) (srcV oM (zl c) p s) fullShare (Sk (X m ρ) s.val (zl c))))
def agR (c : Dev nD) (p : Fin 2) (t : Fin 3) : sProp 𝕄 := pts c (agV (zr c) p t) fullShare (Fin_ (X m ρ))
def paR (c : Dev nD) (p : Fin 2) (t : Fin 3) : sProp 𝕄 := pts c (paV (xl c) p t) fullShare (Fin_ (X m ρ))
def pbR (c : Dev nD) (p : Fin 2) (t : Fin 3) : sProp 𝕄 := pts c (pbV (xr c) p t) fullShare (Fin_ (X m ρ))

def rsS (c : Dev nD) (p : Fin 2) (s : Fin 3) : sProp 𝕄 := if s = 0 then pts c (srcV xM c p 0) Lq (X m ρ c) else iprop(emp)
def agS (c : Dev nD) (p : Fin 2) (t : Fin 3) : sProp 𝕄 := pts c (agV c p t) Lq (Fin_ (X m ρ))
def paS (c : Dev nD) (p : Fin 2) (t : Fin 3) : sProp 𝕄 := pts c (paV c p t) (if t = 0 then Rq else fullShare) (Fin_ (X m ρ))
def pbS (c : Dev nD) (p : Fin 2) (t : Fin 3) : sProp 𝕄 := pts c (pbV c p t) (if t = 0 then Rq else fullShare) (Fin_ (X m ρ))

def recvPay (c : Dev nD) (j : Fin 24) : sProp 𝕄 :=
  match j with
  | 0 => rsR m ρ c 0 0
  | 1 => rsR m ρ c 0 1
  | 2 => rsR m ρ c 0 2
  | 3 => agR m ρ c 0 0
  | 4 => agR m ρ c 0 1
  | 5 => agR m ρ c 0 2
  | 6 => paR m ρ c 0 0
  | 7 => pbR m ρ c 0 0
  | 8 => rsR m ρ c 1 0
  | 9 => rsR m ρ c 1 1
  | 10 => paR m ρ c 0 1
  | 11 => pbR m ρ c 0 1
  | 12 => rsR m ρ c 1 2
  | 13 => agR m ρ c 1 0
  | 14 => paR m ρ c 0 2
  | 15 => pbR m ρ c 0 2
  | 16 => agR m ρ c 1 1
  | 17 => agR m ρ c 1 2
  | 18 => paR m ρ c 1 0
  | 19 => pbR m ρ c 1 0
  | 20 => paR m ρ c 1 1
  | 21 => pbR m ρ c 1 1
  | 22 => paR m ρ c 1 2
  | 23 => pbR m ρ c 1 2
  | _ => iprop(emp)
def sendPay (c : Dev nD) (j : Fin 24) : sProp 𝕄 :=
  match j with
  | 0 => rsS m ρ c 0 0
  | 1 => rsS m ρ c 0 1
  | 2 => rsS m ρ c 0 2
  | 3 => agS m ρ c 0 0
  | 4 => agS m ρ c 0 1
  | 5 => agS m ρ c 0 2
  | 6 => paS m ρ c 0 0
  | 7 => pbS m ρ c 0 0
  | 8 => rsS m ρ c 1 0
  | 9 => rsS m ρ c 1 1
  | 10 => paS m ρ c 0 1
  | 11 => pbS m ρ c 0 1
  | 12 => rsS m ρ c 1 2
  | 13 => agS m ρ c 1 0
  | 14 => paS m ρ c 0 2
  | 15 => pbS m ρ c 0 2
  | 16 => agS m ρ c 1 1
  | 17 => agS m ρ c 1 2
  | 18 => paS m ρ c 1 0
  | 19 => pbS m ρ c 1 0
  | 20 => paS m ρ c 1 1
  | 21 => pbS m ρ c 1 1
  | 22 => paS m ρ c 1 2
  | 23 => pbS m ρ c 1 2
  | _ => iprop(emp)

def semCopy (q : DmaSem sig) : Option (Fin 24 × Bool) :=
  ![none, none,
    some (0, false), some (1, false), some (2, false), some (3, false), some (4, false), some (5, false),
    some (8, false), some (9, false), some (12, false), some (13, false), some (16, false), some (17, false),
    some (0, true), some (1, true), some (2, true), some (3, true), some (4, true), some (5, true),
    some (8, true), some (9, true), some (12, true), some (13, true), some (16, true), some (17, true),
    some (6, false), some (10, false), some (14, false), some (18, false), some (20, false), some (22, false),
    some (6, true), some (10, true), some (14, true), some (18, true), some (20, true), some (22, true),
    some (7, false), some (11, false), some (15, false), some (19, false), some (21, false), some (23, false),
    some (7, true), some (11, true), some (15, true), some (19, true), some (21, true), some (23, true)] q

def dmaPay (c : Dev nD) (q : DmaSem sig) : sProp 𝕄 :=
  match semCopy q with
  | none => iprop(emp)
  | some (j, false) => sendPay m ρ c j
  | some (j, true) => recvPay m ρ c j

def Rd : Rounds.Schedule (GSem nD τ sig) (Fin 4) 𝕄 where
  duties g r := if r = 0 ∧ g.1.2 = .tc then (match g.2 with | .reg _ => Finset.univ | .dma q => if (semCopy q).isSome then {0} else ∅) else ∅
  amount g _ _ := match g.2 with | .reg _ => 1 | .dma q => if q.val < 26 then N128 else N256
  payload g _ d := match g.2 with | .reg _ => barPay g.1.1 d | .dma q => dmaPay m ρ g.1.1 q
  amount_pos g _ _ _ := by
    cases g.2 with
    | reg _ => exact Nat.one_pos
    | dma q =>
      show 0 < if q.val < 26 then N128 else N256
      split
      · exact View.dmaCredit_pos _ (by decide)
      · exact View.dmaCredit_pos _ (by decide)

theorem pts_storable {sh : Shape} (c : Dev nD) (v : Memref sig .tc .vmem sh .f32) (q : PosShare TreeShare) (f : Buf (Elt F) (v.view.loc (c : Thread nD τ))) :
    BI.Storable (upEmb : UEmb _ 𝕄) (pts c v q f) := by unfold pts; infer_instance

instance lendSlots_storable (c' : Dev nD) : BI.Storable (upEmb : UEmb _ 𝕄) (lendSlots (F := F) c') := by
  unfold lendSlots
  have key : ∀ f : Buf (Elt F) (cM.view.loc (c' : Thread nD τ)), BI.Storable (upEmb : UEmb _ 𝕄)
      iprop(pts c' (slotV 0) fullShare f ∗ pts c' (slotV 1) fullShare f ∗ pts c' (slotV 2) fullShare f
        ∗ pts c' (slotV 3) fullShare f ∗ pts c' (slotV 4) fullShare f ∗ pts c' (slotV 5) fullShare f) := fun f => by
    haveI := pts_storable (F := F) c' (slotV 0) fullShare f; haveI := pts_storable (F := F) c' (slotV 1) fullShare f
    haveI := pts_storable (F := F) c' (slotV 2) fullShare f; haveI := pts_storable (F := F) c' (slotV 3) fullShare f
    haveI := pts_storable (F := F) c' (slotV 4) fullShare f; haveI := pts_storable (F := F) c' (slotV 5) fullShare f
    infer_instance
  exact BI.Storable.exists upEmb _
instance lendAg_storable (c : Dev nD) : BI.Storable (upEmb : UEmb _ 𝕄) (lendAg (F := F) c) := by
  unfold lendAg
  have key : ∀ f : Buf (Elt F) (oM.view.loc (zl c : Thread nD τ)), BI.Storable (upEmb : UEmb _ 𝕄)
      iprop(pts (zl c) (agV c 0 2) fullShare f ∗ pts (zl c) (agV c 1 2) fullShare f) := fun f => by
    haveI := pts_storable (F := F) (zl c) (agV c 0 2) fullShare f; haveI := pts_storable (F := F) (zl c) (agV c 1 2) fullShare f
    infer_instance
  exact BI.Storable.exists upEmb _
instance lendPa_storable (c : Dev nD) : BI.Storable (upEmb : UEmb _ 𝕄) (lendPa (F := F) c) := by
  unfold lendPa
  have key : ∀ f : Buf (Elt F) (oM.view.loc (xr c : Thread nD τ)), BI.Storable (upEmb : UEmb _ 𝕄)
      iprop(pts (xr c) (paV c 0 0) fullShare f ∗ pts (xr c) (paV c 0 1) fullShare f ∗ pts (xr c) (paV c 0 2) fullShare f
        ∗ pts (xr c) (paV c 1 0) fullShare f ∗ pts (xr c) (paV c 1 1) fullShare f ∗ pts (xr c) (paV c 1 2) fullShare f) := fun f => by
    haveI := pts_storable (F := F) (xr c) (paV c 0 0) fullShare f; haveI := pts_storable (F := F) (xr c) (paV c 0 1) fullShare f
    haveI := pts_storable (F := F) (xr c) (paV c 0 2) fullShare f; haveI := pts_storable (F := F) (xr c) (paV c 1 0) fullShare f
    haveI := pts_storable (F := F) (xr c) (paV c 1 1) fullShare f; haveI := pts_storable (F := F) (xr c) (paV c 1 2) fullShare f
    infer_instance
  exact BI.Storable.exists upEmb _
instance lendPb_storable (c : Dev nD) : BI.Storable (upEmb : UEmb _ 𝕄) (lendPb (F := F) c) := by
  unfold lendPb
  have key : ∀ f : Buf (Elt F) (oM.view.loc (xl c : Thread nD τ)), BI.Storable (upEmb : UEmb _ 𝕄)
      iprop(pts (xl c) (pbV c 0 0) fullShare f ∗ pts (xl c) (pbV c 0 1) fullShare f ∗ pts (xl c) (pbV c 0 2) fullShare f
        ∗ pts (xl c) (pbV c 1 0) fullShare f ∗ pts (xl c) (pbV c 1 1) fullShare f ∗ pts (xl c) (pbV c 1 2) fullShare f) := fun f => by
    haveI := pts_storable (F := F) (xl c) (pbV c 0 0) fullShare f; haveI := pts_storable (F := F) (xl c) (pbV c 0 1) fullShare f
    haveI := pts_storable (F := F) (xl c) (pbV c 0 2) fullShare f; haveI := pts_storable (F := F) (xl c) (pbV c 1 0) fullShare f
    haveI := pts_storable (F := F) (xl c) (pbV c 1 1) fullShare f; haveI := pts_storable (F := F) (xl c) (pbV c 1 2) fullShare f
    infer_instance
  exact BI.Storable.exists upEmb _
instance barPay_storable (c : Dev nD) (d : Fin 4) : BI.Storable (upEmb : UEmb _ 𝕄) (barPay (F := F) c d) := by
  unfold barPay; split <;> infer_instance
instance rsR_storable (c : Dev nD) (p : Fin 2) (s : Fin 3) : BI.Storable (upEmb : UEmb _ 𝕄) (rsR m ρ c p s) := by
  unfold rsR
  haveI := pts_storable (F := F) (zl c) (srcV oM (zl c) p s) fullShare (Sk (X m ρ) s.val (zl c))
  split <;> infer_instance
instance agR_storable (c : Dev nD) (p : Fin 2) (t : Fin 3) : BI.Storable (upEmb : UEmb _ 𝕄) (agR m ρ c p t) := by unfold agR; exact pts_storable _ _ _ _
instance paR_storable (c : Dev nD) (p : Fin 2) (t : Fin 3) : BI.Storable (upEmb : UEmb _ 𝕄) (paR m ρ c p t) := by unfold paR; exact pts_storable _ _ _ _
instance pbR_storable (c : Dev nD) (p : Fin 2) (t : Fin 3) : BI.Storable (upEmb : UEmb _ 𝕄) (pbR m ρ c p t) := by unfold pbR; exact pts_storable _ _ _ _
instance rsS_storable (c : Dev nD) (p : Fin 2) (s : Fin 3) : BI.Storable (upEmb : UEmb _ 𝕄) (rsS m ρ c p s) := by
  unfold rsS
  haveI := pts_storable (F := F) c (srcV xM c p 0) Lq (X m ρ c)
  split <;> infer_instance
instance agS_storable (c : Dev nD) (p : Fin 2) (t : Fin 3) : BI.Storable (upEmb : UEmb _ 𝕄) (agS m ρ c p t) := by unfold agS; exact pts_storable _ _ _ _
instance paS_storable (c : Dev nD) (p : Fin 2) (t : Fin 3) : BI.Storable (upEmb : UEmb _ 𝕄) (paS m ρ c p t) := by unfold paS; exact pts_storable _ _ _ _
instance pbS_storable (c : Dev nD) (p : Fin 2) (t : Fin 3) : BI.Storable (upEmb : UEmb _ 𝕄) (pbS m ρ c p t) := by unfold pbS; exact pts_storable _ _ _ _
instance recvPay_storable (c : Dev nD) (j : Fin 24) : BI.Storable (upEmb : UEmb _ 𝕄) (recvPay m ρ c j) := by
  unfold recvPay; split <;> infer_instance
instance sendPay_storable (c : Dev nD) (j : Fin 24) : BI.Storable (upEmb : UEmb _ 𝕄) (sendPay m ρ c j) := by
  unfold sendPay; split <;> infer_instance
instance dmaPay_storable (c : Dev nD) (q : DmaSem sig) : BI.Storable (upEmb : UEmb _ 𝕄) (dmaPay m ρ c q) := by
  unfold dmaPay; split <;> infer_instance

instance Rd_payload_storable (g : GSem nD τ sig) (r : ℕ) (d : Fin 4) :
    BI.Storable (upEmb : UEmb _ 𝕄) ((Rd (F := F) m ρ).payload g r d) := by
  show BI.Storable upEmb (match g.2 with | .reg _ => barPay g.1.1 d | .dma q => dmaPay m ρ g.1.1 q)
  split <;> infer_instance

def NJ (j : Fin 24) : ℕ := if (recvSem j).val < 26 then N128 else N256

def cpTally (c : Dev nD) (j : ℕ) : CellTallies nD τ sig Unit :=
  if h : j < 24 then tallyAt (recvCell (peer ⟨j, h⟩ c) ⟨j, h⟩) () (NJ ⟨j, h⟩) else 0

def Orem (c : Dev nD) : ℕ → CellTallies nD τ sig Unit
  | 0 => 0
  | n + 1 => Orem c n + cpTally c (23 - n)

def O₀ (c : Dev nD) : CellTallies nD τ sig Unit :=
  Orem c 24 + tallyAt (barCell (xr c)) () 1 + tallyAt (barCell (xl c)) () 1 + tallyAt (barCell (zr c)) () 1 + tallyAt (barCell (zl c)) () 1

def L (g : GSem nD τ sig) : Finset Unit := if g.1.2 = .tc then {()} else ∅
def lv (g : GSem nD τ sig) (_ : Unit) : ℕ :=
  match g.2 with
  | .reg _ => 1
  | .dma q => match semCopy q with | some (j, true) => 2 + j.val | _ => 0

def osem (jb : Fin 24 × Bool) : SemLoc sig := .dma (if jb.2 then recvSem jb.1 else sendSem jb.1)
abbrev dcell (c : Dev nD) (jb : Fin 24 × Bool) : GSem nD τ sig := ((c : Thread nD τ), osem jb)

def records (K : GSem nD τ sig → ℕ) : sProp 𝕄 :=
  iprop((bigSep Finset.univ fun c : Dev nD => cellInv ER (Rd m ρ) (K (barCell c)) (barCell c))
    ∗ (bigSep Finset.univ fun cj : Dev nD × (Fin 24 × Bool) => cellInv ER (Rd m ρ) (K (dcell cj.1 cj.2)) (dcell cj.1 cj.2))
    ∗ (bigSep Finset.univ fun c : Dev nD => reached ER (barCell c) 0)
    ∗ (bigSep Finset.univ fun cj : Dev nD × (Fin 24 × Bool) => reached ER (dcell cj.1 cj.2) 0))

instance records_persistent (K : GSem nD τ sig → ℕ) : BI.Persistent (records m ρ K) := by unfold records; infer_instance

def payToks (c : Dev nD) : sProp 𝕄 :=
  iprop(dutyTok ER (barCell (zl c)) 0 0 ∗ dutyTok ER (barCell (zr c)) 0 1 ∗ dutyTok ER (barCell (xl c)) 0 2 ∗ dutyTok ER (barCell (xr c)) 0 3
    ∗ bigSep Finset.univ fun j : Fin 24 => iprop(dutyTok ER (sendCell c j) 0 0 ∗ dutyTok ER (recvCell (peer j c) j) 0 0))

def positions (c : Dev nD) : sProp 𝕄 :=
  iprop(atPos ER (barCell c) 0 ∅ 0 ∗ bigSep Finset.univ fun jb : Fin 24 × Bool => atPos ER (dcell c jb) 0 ∅ 0)

def ghost (K : GSem nD τ sig → ℕ) (c : Dev nD) : sProp 𝕄 := iprop(records m ρ K ∗ positions c ∗ payToks c)

def credits (c : Dev nD) : sProp 𝕄 :=
  iprop(cred (tallyAt (barCell c) () 4) ∗ bigSep Finset.univ fun j : Fin 24 => cred (tallyAt (recvCell c j) () (NJ j)))

def start (c : Dev nD) : sProp 𝕄 := iprop((∃ K, ghost m ρ K c) ∗ credits c ∗ levAts L lv)

def Φ₀ (c : Dev nD) : sProp 𝕄 := iprop(start m ρ c ∗ ∃ f : Buf (Elt F) (cM.view.loc (c : Thread nD τ)), pts c cM fullShare f)
def Φ₁ (c : Dev nD) : sProp 𝕄 :=
  iprop((∃ f : Buf (Elt F) (cM.view.loc (c : Thread nD τ)), pts c cM fullShare f) ∗ bigSep Finset.univ fun jb : Fin 24 × Bool => semVal (dcell c jb) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m ρ c
    | ⟨1, _⟩ => Fin_ (X m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.KernelIdeal.AR

end
-- ==== Proof.Launch.lean ====
import proofs.«900720_g7700000000000721_dist_ar_v7x_xyz2x2x4_z_m4096_n1024_f32_1_alg».proof.Proof.Core

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

abbrev CK : Type := Unit ⊕ (Fin 24 × Bool)

def csem : CK → SemLoc sig
  | .inl _ => .reg barS
  | .inr jb => osem jb

abbrev kcell (ck : Dev nD × CK) : GSem nD τ sig := ((ck.1 : Thread nD τ), csem ck.2)

theorem csem_injective : Function.Injective csem := by
  rintro (a | jb) (a' | jb') h
  · rfl
  · exact absurd h (fun h' => by cases h')
  · exact absurd h (fun h' => by cases h')
  · exact congrArg Sum.inr (ownSemFacts.inj h)

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

abbrev TK : Type := Fin 4 ⊕ (Fin 24 × Bool)

def payee : TK → Dev nD → Dev nD
  | .inl d => ![zl, zr, xl, xr] d
  | .inr (_, false) => id
  | .inr (j, true) => peer j
def payer : TK → Dev nD → Dev nD
  | .inl d => ![zr, zl, xr, xl] d
  | .inr (_, false) => id
  | .inr (j, true) => from_ j
def tsem : TK → SemLoc sig
  | .inl _ => .reg barS
  | .inr jb => osem jb
def tduty : TK → Fin 4
  | .inl d => d
  | .inr _ => 0

theorem payer_payee (k : TK) (c : Dev nD) : payer k (payee k c) = c := by
  rcases k with d | ⟨j, b⟩
  · fin_cases d
    · exact zr_zl c
    · exact zl_zr c
    · exact xr_xl c
    · exact xl_xr c
  · cases b
    · rfl
    · exact from_peer j c

theorem tkey_injective {k k' : TK} (hs : tsem k = tsem k') (hd : tduty k = tduty k') : k = k' := by
  rcases k with d | jb <;> rcases k' with d' | jb'
  · exact congrArg Sum.inl hd
  · exact absurd hs (fun h' => by cases h')
  · exact absurd hs (fun h' => by cases h')
  · exact congrArg Sum.inr (ownSemFacts.inj hs)

abbrev tokOf (ck : Dev nD × TK) : GSem nD τ sig × ℕ × Fin 4 := (((payee ck.2 ck.1 : Thread nD τ), tsem ck.2), 0, tduty ck.2)

theorem tokOf_injective : Function.Injective (tokOf : Dev nD × TK → GSem nD τ sig × ℕ × Fin 4) := by
  rintro ⟨c, k⟩ ⟨c', k'⟩ h
  have hk : k = k' := tkey_injective (congrArg (fun x : GSem nD τ sig × ℕ × Fin 4 => x.1.2) h) (congrArg (fun x : GSem nD τ sig × ℕ × Fin 4 => x.2.2) h)
  subst hk
  have hc : payee k c = payee k c' := by have := congrArg (fun x : GSem nD τ sig × ℕ × Fin 4 => x.1.1.1) h; exact this
  have : c = c' := by rw [← payer_payee k c, hc, payer_payee]
  subst this; rfl

def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

def G (c : Dev nD) : sProp 𝕄 :=
  iprop((bigSep Finset.univ fun k : CK => roundState ER (Rd m ρ) (kcell (c, k)) 0)
    ∗ (bigSep Finset.univ fun k : CK => iprop(atPos ER (kcell (c, k)) 0 ∅ 0 ∗ reached ER (kcell (c, k)) 0)) ∗ payToks c)

def G' (c : Dev nD) : sProp 𝕄 := iprop(∃ K, ghost m ρ K c)

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_bool (Φ : Bool → sProp 𝕄) : bigSep Finset.univ Φ = iprop(Φ false ∗ Φ true) := bigSep_univ_eq_bigSepL [false, true] (by decide) (by decide) Φ

omit [FloatOps F] in
theorem ck_split (c : Dev nD) (Φ : GSem nD τ sig → sProp 𝕄) :
    (bigSep Finset.univ fun k : CK => Φ (kcell (c, k))) = iprop(Φ (barCell c) ∗ bigSep Finset.univ fun jb : Fin 24 × Bool => Φ (dcell c jb)) := by
  rw [bigSep_univ_sum, bigSep_univ_of_subsingleton ()]
  rfl

omit [FloatOps F] in
theorem cells_eq (Φ : GSem nD τ sig → sProp 𝕄) :
    bigSep ringCells Φ = bigSep Finset.univ fun c : Dev nD => bigSep Finset.univ fun k : CK => Φ (kcell (c, k)) := by
  unfold ringCells; rw [bigSep_map, bigSep_univ_prod]; rfl

omit [FloatOps F] in
theorem cells_split (Φ : GSem nD τ sig → sProp 𝕄) :
    bigSep ringCells Φ = iprop((bigSep Finset.univ fun c : Dev nD => Φ (barCell c))
      ∗ bigSep Finset.univ fun cj : Dev nD × (Fin 24 × Bool) => Φ (dcell cj.1 cj.2)) := by
  rw [cells_eq, bigSep_congr (s := Finset.univ) (fun (c : Dev nD) _ => ck_split c Φ), bigSep_sep',
    bigSep_univ_prod (fun cj : Dev nD × (Fin 24 × Bool) => Φ (dcell cj.1 cj.2))]

omit [FloatOps F] in
theorem tk_split (Φ : TK → sProp 𝕄) :
    bigSep Finset.univ Φ = iprop((Φ (.inl 0) ∗ Φ (.inl 1) ∗ Φ (.inl 2) ∗ Φ (.inl 3))
      ∗ bigSep Finset.univ fun j : Fin 24 => iprop(Φ (.inr (j, false)) ∗ Φ (.inr (j, true)))) := by
  rw [bigSep_univ_sum, bigSep_fin4, bigSep_univ_prod, bigSep_congr (s := Finset.univ) (fun (j : Fin 24) _ => bigSep_bool _)]
  rfl

omit [FloatOps F] in
theorem toks_dev (c : Dev nD) :
    (bigSep Finset.univ fun k : TK => (dutyTok ER (tokOf (c, k)).1 (tokOf (c, k)).2.1 (tokOf (c, k)).2.2 : sProp 𝕄)) ⊢ payToks c := by
  rw [tk_split]
  unfold payToks
  iintro ⟨⟨H0, H1, H2, H3⟩, HJ⟩
  isplitl [H0]; · iexact H0
  isplitl [H1]; · iexact H1
  isplitl [H2]; · iexact H2
  isplitl [H3]; · iexact H3
  iexact HJ

omit [FloatOps F] in
theorem toks_eq : bigSep ringToks (fun x => (dutyTok ER x.1 x.2.1 x.2.2 : sProp 𝕄)) ⊢ bigSep Finset.univ fun c : Dev nD => payToks c := by
  unfold ringToks; rw [bigSep_map, bigSep_univ_prod]
  exact bigSep_mono fun c _ => toks_dev c

theorem fund_ring : BI.own (ER (initOf ringCells ringToks)) ⊢ (|==> bigSep Finset.univ (G m ρ) : sProp 𝕄) := by
  iintro HX
  imod (Rounds.fund ER (Rd m ρ) ringCells ringToks) $$ HX with ⟨Hst, Hr, Hat, Htok⟩
  imodintro
  ihave Hst' := (Entails.of_eq (cells_eq fun g => roundState ER (Rd m ρ) g 0)) $$ Hst
  ihave Hat' := (Entails.of_eq (cells_eq fun g => atPos ER g 0 ∅ 0)) $$ Hat
  ihave Hr' := (Entails.of_eq (cells_eq fun g => reached ER g 0)) $$ Hr
  ihave Htok' := (toks_eq (F := F)) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, ck_split c (fun g => semVal g 0)]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ payToks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m ρ) (kcell (c, k)) 0)
      ⊢ (|={Set.univ}=> bigSep Finset.univ fun k : CK => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : GSem nD τ sig → ℕ) (c : Dev nD) : iprop(records m ρ K ∗ positions c ∗ payToks c) ⊢ G' m ρ c := by
  unfold G' ghost
  iintro H
  iexists K
  iexact H

theorem regroup :
    (bigSep Finset.univ fun c : Dev nD => iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ payToks c) : sProp 𝕄)
      ⊢ bigSep Finset.univ (G' m ρ) := by
  rw [bigSep_sep', bigSep_sep', ← cells_eq (fun g => iprop(∃ κ : ℕ, cellInv ER (Rd m ρ) κ g)),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← cells_eq (fun g => (reached ER g 0 : sProp 𝕄)), cells_split (fun g => (reached ER g 0 : sProp 𝕄))]
  iintro ⟨HI, ⟨Hat, #HR⟩, Htok⟩
  ihave HK := (BI.bigSep_exists_pi ringCells (fun (g : GSem nD τ sig) (κ : ℕ) => (cellInv ER (Rd m ρ) κ g : sProp 𝕄))) $$ HI
  icases HK with ⟨%K, HI⟩
  ihave HI' := (Entails.of_eq (cells_split (fun g => (cellInv ER (Rd m ρ) (K g) g : sProp 𝕄)))) $$ HI
  icases HI' with ⟨#HIb, #HId⟩
  icases HR with ⟨#HRb, #HRd⟩
  iapply (bigSep_with_persistent (R := records m ρ K) (Φ := fun c => iprop(positions c ∗ payToks c)) fun c _ => ghost_intro m ρ K c)
  isplitr
  · unfold records
    isplitl; · iexact HIb
    isplitl; · iexact HId
    isplitl; · iexact HRb
    iexact HRd
  · iapply (Entails.of_eq (bigSep_sep' Finset.univ (fun c : Dev nD => (positions c : sProp 𝕄)) payToks).symm)
    isplitl [Hat]
    · iapply (Entails.of_eq (bigSep_congr (s := Finset.univ) (fun (c : Dev nD) _ => (ck_split c (fun g => (atPos ER g 0 ∅ 0 : sProp 𝕄))))))
      iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

theorem start_intro (hcreds : ∀ c, (Pipeline.launchCred O₀ c : sProp 𝕄) ⊢ credits c) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (hcreds c) $$ Hcr
  imodintro
  unfold start G'
  isplitl
  · isplitl [HG]; · iexact HG
    isplitl [Hc]; · iexact Hc
    iexact Hlev
  · iempintro

omit [FloatOps F] in
theorem cM_pts_eq (c : Dev nD) (f : Buf (Elt F) ((c : Thread nD τ).loc cc0_scratch0)) :
    (pts c cM fullShare f : sProp 𝕄) = (((c : Thread nD τ).loc cc0_scratch0) ↦{fullShare} f : sProp 𝕄) := by
  unfold pts; rw [View.set_whole]

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [cM_pts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ Pipeline.ownSems0
  iintro ⟨⟨%f, Hr⟩, Hz⟩
  isplitr; · iempintro
  isplitl [Hz]; · iexact Hz
  iexists f; rw [← cM_pts_eq]; iexact Hr

set_option maxRecDepth 8000 in
theorem run_main
    (hbody : ∀ c, BodyObligation (dats (F := F) m ρ 0 c) (defs₀ (F := F)) 𝒱₀ () Set.univ)
    (hwaits : ∀ c, (levAts L lv : sProp 𝕄) ⊢ Pipeline.cellsWaits cfgs (dats m ρ) () 0 c)
    (hL : ∀ g : GSem nD τ sig, g.1.2 ≠ .tc → L g = ∅)
    (hcreds : ∀ c, (Pipeline.launchCred O₀ c : sProp 𝕄) ⊢ credits c) :
    θ_run defs (onTc (τ := τ) (main (F := F))) (s₀ m ρ)
      (fun r => ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := hL) (hwaits := hwaits)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ hcreds) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.AR.run_main' depends on axioms: [propext, Classical.choice, Quot.sound] -/
#guard_msgs in #print axioms run_main

end Cert.KernelIdeal.AR

end
-- ==== Proof.States.lean ====
import proofs.«900720_g7700000000000721_dist_ar_v7x_xyz2x2x4_z_m4096_n1024_f32_1_alg».proof.Proof.Core

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def bor {sh : Shape} (c' : Dev nD) (v : Memref sig .tc .vmem sh .f32) : sProp 𝕄 :=
  iprop(∃ f : Buf (Elt F) (v.view.loc (c' : Thread nD τ)), pts c' v fullShare f)

def toksFrom (c : Dev nD) (k : ℕ) : sProp 𝕄 :=
  bigSep (Finset.univ.filter fun j : Fin 24 => k ≤ j.val) fun j => iprop(dutyTok ER (sendCell c j) 0 0 ∗ dutyTok ER (recvCell (peer j c) j) 0 0)
def recvTodo (c : Dev nD) (k : ℕ) : sProp 𝕄 :=
  bigSep (Finset.univ.filter fun j : Fin 24 => k ≤ j.val) fun j => iprop(atPos ER (recvCell c j) 0 ∅ 0 ∗ cred (tallyAt (recvCell c j) () (NJ j)))
def recvDone (c : Dev nD) (k : ℕ) : sProp 𝕄 :=
  bigSep (Finset.univ.filter fun j : Fin 24 => j.val < k) fun j => atPos ER (recvCell c j) 1 ∅ 0
def sendTodo (c : Dev nD) : sProp 𝕄 := bigSep Finset.univ fun j : Fin 24 => atPos ER (sendCell c j) 0 ∅ 0
def sendCred (c : Dev nD) (k : ℕ) : sProp 𝕄 :=
  bigSep (Finset.univ.filter fun j : Fin 24 => j.val < k) fun j => cred (tallyAt (sendCell c j) () (NJ j))

def ghostAt (K : GSem nD τ sig → ℕ) (c : Dev nD) (k : ℕ) : sProp 𝕄 :=
  iprop(records m ρ K ∗ levAts L lv ∗ toksFrom c k ∗ recvTodo c k ∗ recvDone c k ∗ sendTodo c ∗ sendCred c k
    ∗ ∃ W, owes (c : Thread nD τ) (Orem c (24 - k)) W)

abbrev Fn : Blk F := Fin_ (X m ρ)

theorem filter_ge_succ (j : Fin 24) :
    (Finset.univ.filter fun i : Fin 24 => j.val ≤ i.val) = insert j (Finset.univ.filter fun i : Fin 24 => j.val + 1 ≤ i.val) := by
  ext i
  simp only [Finset.mem_filter, Finset.mem_univ, true_and, Finset.mem_insert, Fin.ext_iff]
  omega

theorem filter_lt_succ (j : Fin 24) :
    (Finset.univ.filter fun i : Fin 24 => i.val < j.val + 1) = insert j (Finset.univ.filter fun i : Fin 24 => i.val < j.val) := by
  ext i
  simp only [Finset.mem_filter, Finset.mem_univ, true_and, Finset.mem_insert, Fin.ext_iff]
  omega

/-- A product over the copies from the `k`-th on is the `k`-th factor and the product from the next on. -/
theorem take_ge (Φ : Fin 24 → sProp 𝕄) (j : Fin 24) (k k' : ℕ) (hk : k = j.val) (hk' : k' = k + 1) :
    bigSep (Finset.univ.filter fun i : Fin 24 => k ≤ i.val) Φ = iprop(Φ j ∗ bigSep (Finset.univ.filter fun i : Fin 24 => k' ≤ i.val) Φ) := by
  subst hk hk'
  rw [filter_ge_succ j, bigSep_insert (by simp only [Finset.mem_filter, Finset.mem_univ, true_and]; omega)]
  rfl

/-- A product over the copies before the `k + 1`-th is the `k`-th factor and the product over those before it. -/
theorem put_lt (Φ : Fin 24 → sProp 𝕄) (j : Fin 24) (k k' : ℕ) (hk : k = j.val) (hk' : k' = k + 1) :
    bigSep (Finset.univ.filter fun i : Fin 24 => i.val < k') Φ = iprop(Φ j ∗ bigSep (Finset.univ.filter fun i : Fin 24 => i.val < k) Φ) := by
  subst hk hk'
  rw [filter_lt_succ j, bigSep_insert (by simp only [Finset.mem_filter, Finset.mem_univ, true_and]; omega)]
  rfl

theorem toks_succ (c : Dev nD) (j : Fin 24) (k k' : ℕ) (hk : k = j.val) (hk' : k' = k + 1) :
    (toksFrom c k : sProp 𝕄) = iprop((dutyTok ER (sendCell c j) 0 0 ∗ dutyTok ER (recvCell (peer j c) j) 0 0) ∗ toksFrom c k') :=
  take_ge _ j k k' hk hk'
theorem recvTodo_succ (c : Dev nD) (j : Fin 24) (k k' : ℕ) (hk : k = j.val) (hk' : k' = k + 1) :
    (recvTodo c k : sProp 𝕄) = iprop((atPos ER (recvCell c j) 0 ∅ 0 ∗ cred (tallyAt (recvCell c j) () (NJ j))) ∗ recvTodo c k') :=
  take_ge _ j k k' hk hk'
theorem recvDone_succ (c : Dev nD) (j : Fin 24) (k k' : ℕ) (hk : k = j.val) (hk' : k' = k + 1) :
    (recvDone c k' : sProp 𝕄) = iprop(atPos ER (recvCell c j) 1 ∅ 0 ∗ recvDone c k) :=
  put_lt _ j k k' hk hk'
theorem sendCred_succ (c : Dev nD) (j : Fin 24) (k k' : ℕ) (hk : k = j.val) (hk' : k' = k + 1) :
    (sendCred c k' : sProp 𝕄) = iprop(cred (tallyAt (sendCell c j) () (NJ j)) ∗ sendCred c k) :=
  put_lt _ j k k' hk hk'

def borPa (c : Dev nD) (l : List (Fin 2 × Fin 3)) : sProp 𝕄 := bigSepL l fun pt => bor (F := F) (xr c) (paV c pt.1 pt.2)
def borPb (c : Dev nD) (l : List (Fin 2 × Fin 3)) : sProp 𝕄 := bigSepL l fun pt => bor (F := F) (xl c) (pbV c pt.1 pt.2)
def slotsHeld (c : Dev nD) (l : List (Fin 2 × Fin 3)) : sProp 𝕄 :=
  bigSepL l fun ps => owns (c : Thread nD τ) (slotV (slotOf ps.1 ps.2)) fullShare (landed m ρ c ps.1 ps.2)

omit [FloatOps F] in
theorem borPa_cons (c : Dev nD) (pt q : Fin 2 × Fin 3) (l : List (Fin 2 × Fin 3)) : borPa (F := F) c (pt :: q :: l) = iprop(bor (xr c) (paV c pt.1 pt.2) ∗ borPa c (q :: l)) := rfl
omit [FloatOps F] in
theorem borPa_one (c : Dev nD) (pt : Fin 2 × Fin 3) : borPa (F := F) c [pt] = bor (xr c) (paV c pt.1 pt.2) := rfl
omit [FloatOps F] in
theorem borPb_cons (c : Dev nD) (pt q : Fin 2 × Fin 3) (l : List (Fin 2 × Fin 3)) : borPb (F := F) c (pt :: q :: l) = iprop(bor (xl c) (pbV c pt.1 pt.2) ∗ borPb c (q :: l)) := rfl
omit [FloatOps F] in
theorem borPb_one (c : Dev nD) (pt : Fin 2 × Fin 3) : borPb (F := F) c [pt] = bor (xl c) (pbV c pt.1 pt.2) := rfl
theorem slotsHeld_cons (c : Dev nD) (ps q : Fin 2 × Fin 3) (l : List (Fin 2 × Fin 3)) :
    slotsHeld m ρ c (ps :: q :: l) = iprop(owns (c : Thread nD τ) (slotV (slotOf ps.1 ps.2)) fullShare (landed m ρ c ps.1 ps.2) ∗ slotsHeld m ρ c (q :: l)) := rfl
theorem slotsHeld_one (c : Dev nD) (ps : Fin 2 × Fin 3) :
    slotsHeld m ρ c [ps] = owns (c : Thread nD τ) (slotV (slotOf ps.1 ps.2)) fullShare (landed m ρ c ps.1 ps.2) := rfl

def St1 (K : GSem nD τ sig → ℕ) (c : Dev nD) (xr_ : sProp 𝕄) : sProp 𝕄 :=
  iprop(ghostAt m ρ K c 0
    ∗ pts c (srcV xM c 0 0) Lq (X m ρ c) ∗ pts c (srcV xM c 1 0) Lq (X m ρ c) ∗ xr_
    ∗ (∃ g : Buf (Elt F) (oM.view.loc (c : Thread nD τ)), pts c (agV c 0 0) fullShare g ∗ pts c (agV c 0 1) fullShare g ∗ pts c (agV c 0 2) fullShare g
        ∗ pts c (agV c 1 0) fullShare g ∗ pts c (agV c 1 1) fullShare g ∗ pts c (agV c 1 2) fullShare g)
    ∗ (bor (zr c) (slotV 0) ∗ bor (zr c) (slotV 1) ∗ bor (zr c) (slotV 2) ∗ bor (zr c) (slotV 3) ∗ bor (zr c) (slotV 4) ∗ bor (zr c) (slotV 5))
    ∗ bor (zl c) (agV c 0 2) ∗ bor (zl c) (agV c 1 2)
    ∗ borPa c [(0,0),(0,1),(0,2),(1,0),(1,1),(1,2)] ∗ borPb c [(0,0),(0,1),(0,2),(1,0),(1,1),(1,2)])

def St2 (K : GSem nD τ sig → ℕ) (c : Dev nD) (xr_ : sProp 𝕄) : sProp 𝕄 :=
  iprop(ghostAt m ρ K c 6
    ∗ pts c (srcV xM c 1 0) Lq (X m ρ c) ∗ xr_
    ∗ pts c (agV c 0 0) Rq (Fn m ρ) ∗ pts c (agV c 0 1) Rq (Fn m ρ) ∗ pts c (agV c 0 2) Rq (Fn m ρ) ∗ pts c (agV (zr c) 0 2) fullShare (Fn m ρ)
    ∗ (∃ g : Buf (Elt F) (oM.view.loc (c : Thread nD τ)), pts c (agV c 1 0) fullShare g ∗ pts c (agV c 1 1) fullShare g ∗ pts c (agV c 1 2) fullShare g)
    ∗ slotsHeld m ρ c [(0,0),(0,1),(0,2)]
    ∗ (bor (zr c) (slotV 3) ∗ bor (zr c) (slotV 4) ∗ bor (zr c) (slotV 5))
    ∗ bor (zl c) (agV c 1 2)
    ∗ borPa c [(0,0),(0,1),(0,2),(1,0),(1,1),(1,2)] ∗ borPb c [(0,0),(0,1),(0,2),(1,0),(1,1),(1,2)])

def St3 (K : GSem nD τ sig → ℕ) (c : Dev nD) (xr_ : sProp 𝕄) : sProp 𝕄 :=
  iprop(ghostAt m ρ K c 10
    ∗ xr_
    ∗ pts c (agV (zr c) 0 2) Lq (Fn m ρ) ∗ pts c (paV (xl c) 0 0) fullShare (Fn m ρ) ∗ pts c (pbV (xr c) 0 0) fullShare (Fn m ρ)
    ∗ (∃ g : Buf (Elt F) (oM.view.loc (c : Thread nD τ)), pts c (agV c 1 0) fullShare g) ∗ pts c (agV c 1 1) fullShare (Sk (X m ρ) 2 c)
    ∗ slotsHeld m ρ c [(0,0),(0,1),(0,2),(1,0),(1,1)]
    ∗ bor (zr c) (slotV 5)
    ∗ bor (zl c) (agV c 1 2) ∗ pts (zl c) (agV c 1 1) fullShare (Sk (X m ρ) 1 (zl c))
    ∗ borPa c [(0,1),(0,2),(1,0),(1,1),(1,2)] ∗ borPb c [(0,1),(0,2),(1,0),(1,1),(1,2)])

def St4 (K : GSem nD τ sig → ℕ) (c : Dev nD) (xr_ : sProp 𝕄) : sProp 𝕄 :=
  iprop(ghostAt m ρ K c 14
    ∗ xr_
    ∗ pts c (agV (zr c) 0 2) Lq (Fn m ρ) ∗ pts c (paV (xl c) 0 1) fullShare (Fn m ρ) ∗ pts c (pbV (xr c) 0 1) fullShare (Fn m ρ)
    ∗ pts c (agV c 1 0) Rq (Fn m ρ) ∗ pts c (agV c 1 1) fullShare (Fn m ρ)
    ∗ slotsHeld m ρ c [(0,0),(0,1),(0,2),(1,0),(1,1),(1,2)]
    ∗ bor (zl c) (agV c 1 2) ∗ pts (zl c) (agV c 1 1) fullShare (Sk (X m ρ) 1 (zl c))
    ∗ borPa c [(0,2),(1,0),(1,1),(1,2)] ∗ borPb c [(0,2),(1,0),(1,1),(1,2)])

def St5 (K : GSem nD τ sig → ℕ) (c : Dev nD) (xr_ : sProp 𝕄) : sProp 𝕄 :=
  iprop(ghostAt m ρ K c 18
    ∗ xr_
    ∗ pts c (agV (zr c) 0 2) Lq (Fn m ρ) ∗ pts c (paV (xl c) 0 2) fullShare (Fn m ρ) ∗ pts c (pbV (xr c) 0 2) fullShare (Fn m ρ)
    ∗ pts c (agV c 1 0) Rq (Fn m ρ) ∗ pts c (agV c 1 1) Rq (Fn m ρ) ∗ pts c (agV c 1 2) Rq (Fn m ρ) ∗ pts c (agV (zr c) 1 2) fullShare (Fn m ρ)
    ∗ slotsHeld m ρ c [(0,0),(0,1),(0,2),(1,0),(1,1),(1,2)]
    ∗ borPa c [(1,0),(1,1),(1,2)] ∗ borPb c [(1,0),(1,1),(1,2)])

def St6 (K : GSem nD τ sig → ℕ) (c : Dev nD) (xr_ : sProp 𝕄) : sProp 𝕄 :=
  iprop(ghostAt m ρ K c 24
    ∗ xr_
    ∗ pts c (agV (zr c) 0 2) Lq (Fn m ρ) ∗ pts c (agV (zr c) 1 2) Lq (Fn m ρ)
    ∗ pts c (paV (xl c) 0 2) fullShare (Fn m ρ) ∗ pts c (pbV (xr c) 0 2) fullShare (Fn m ρ)
    ∗ pts c (paV (xl c) 1 2) fullShare (Fn m ρ) ∗ pts c (pbV (xr c) 1 2) fullShare (Fn m ρ)
    ∗ slotsHeld m ρ c [(0,0),(0,1),(0,2),(1,0),(1,1),(1,2)])

def St1b (K : GSem nD τ sig → ℕ) (c : Dev nD) (xr_ : sProp 𝕄) : sProp 𝕄 :=
  iprop(ghostAt m ρ K c 3
    ∗ pts c (srcV xM c 1 0) Lq (X m ρ c) ∗ xr_
    ∗ pts c (agV c 0 0) fullShare (Sk (X m ρ) 3 c)
    ∗ (∃ g : Buf (Elt F) (oM.view.loc (c : Thread nD τ)), pts c (agV c 1 0) fullShare g ∗ pts c (agV c 1 1) fullShare g ∗ pts c (agV c 1 2) fullShare g)
    ∗ slotsHeld m ρ c [(0,0),(0,1),(0,2)]
    ∗ (bor (zr c) (slotV 3) ∗ bor (zr c) (slotV 4) ∗ bor (zr c) (slotV 5))
    ∗ bor (zl c) (agV c 0 2) ∗ bor (zl c) (agV c 1 2)
    ∗ pts (zl c) (agV c 0 1) fullShare (Sk (X m ρ) 1 (zl c)) ∗ pts (zl c) (agV c 0 0) fullShare (Sk (X m ρ) 2 (zl c))
    ∗ borPa c [(0,0),(0,1),(0,2),(1,0),(1,1),(1,2)] ∗ borPb c [(0,0),(0,1),(0,2),(1,0),(1,1),(1,2)])

def St7 (c : Dev nD) : sProp 𝕄 :=
  iprop((∃ f : Buf (Elt F) (cM.view.loc (c : Thread nD τ)), pts c cM fullShare f)
    ∗ (bigSep Finset.univ fun jb : Fin 24 × Bool => semVal (dcell c jb) 0)
    ∗ (∃ W, owes (c : Thread nD τ) 0 W)
    ∗ (((c : Thread nD τ).loc cc0_stg0_0) ↦{fullShare} X m ρ c)
    ∗ (((c : Thread nD τ).loc cc0_stg1_0) ↦{fullShare} Fn m ρ))

end Cert.KernelIdeal.AR

end
-- ==== Proof.Tables.lean ====
import proofs.«900720_g7700000000000721_dist_ar_v7x_xyz2x2x4_z_m4096_n1024_f32_1_alg».proof.Proof.Core
import Idealize.ShloMosaic.Lib.Pipeline.Launch
import Idealize.ShloMosaic.Lib.Pipeline.Kit
import Idealize.ShloMosaic.Lib.Tactic
import Mathlib.Tactic.FinCases

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem semCopy_send (j : Fin 24) : semCopy (sendSem j) = some (j, false) := by revert j; decide
theorem semCopy_recv (j : Fin 24) : semCopy (recvSem j) = some (j, true) := by revert j; decide

theorem send_lt_iff (j : Fin 24) : (sendSem j).val < 26 ↔ (recvSem j).val < 26 := by revert j; decide

theorem duties_bar (c : Dev nD) : (Rd (F := F) m ρ).duties (barCell c) 0 = Finset.univ := by
  dsimp only [Rd]; exact if_pos ⟨rfl, rfl⟩
theorem duties_send (c : Dev nD) (j : Fin 24) : (Rd (F := F) m ρ).duties (sendCell c j) 0 = {0} := by
  dsimp only [Rd]; rw [if_pos ⟨rfl, rfl⟩, semCopy_send]; rfl
theorem duties_recv (c : Dev nD) (j : Fin 24) : (Rd (F := F) m ρ).duties (recvCell c j) 0 = {0} := by
  dsimp only [Rd]; rw [if_pos ⟨rfl, rfl⟩, semCopy_recv]; rfl
theorem duties_later (g : GSem nD τ sig) : ∀ r, 1 ≤ r → (Rd (F := F) m ρ).duties g r = ∅ :=
  fun r hr => by dsimp only [Rd]; exact if_neg fun h => by omega

theorem amount_bar (c : Dev nD) (d : Fin 4) : (Rd (F := F) m ρ).amount (barCell c) 0 d = 1 := rfl
theorem amount_send (c : Dev nD) (j : Fin 24) (d : Fin 4) : (Rd (F := F) m ρ).amount (sendCell c j) 0 d = NJ j := by
  show (if (sendSem j).val < 26 then N128 else N256) = if (recvSem j).val < 26 then N128 else N256
  exact if_congr (send_lt_iff j) rfl rfl
theorem amount_recv (c : Dev nD) (j : Fin 24) (d : Fin 4) : (Rd (F := F) m ρ).amount (recvCell c j) 0 d = NJ j := rfl

theorem expect_bar (c : Dev nD) : (Rd (F := F) m ρ).expect (barCell c) 0 = 4 := by
  unfold Schedule.expect Schedule.amountOf
  rw [duties_bar, Finset.sum_congr rfl fun d _ => amount_bar m ρ c d, Finset.sum_const, Finset.card_univ, Fintype.card_fin, smul_eq_mul]
theorem expect_send (c : Dev nD) (j : Fin 24) : (Rd (F := F) m ρ).expect (sendCell c j) 0 = NJ j := by
  unfold Schedule.expect Schedule.amountOf; rw [duties_send, Finset.sum_singleton, amount_send]
theorem expect_recv (c : Dev nD) (j : Fin 24) : (Rd (F := F) m ρ).expect (recvCell c j) 0 = NJ j := by
  unfold Schedule.expect Schedule.amountOf; rw [duties_recv, Finset.sum_singleton, amount_recv]

theorem payload_bar (c : Dev nD) (d : Fin 4) : (Rd (F := F) m ρ).payload (barCell c) 0 d = barPay c d := rfl
theorem payload_send (c : Dev nD) (j : Fin 24) (d : Fin 4) : (Rd (F := F) m ρ).payload (sendCell c j) 0 d = sendPay m ρ c j := by
  show dmaPay m ρ c (sendSem j) = sendPay m ρ c j
  unfold dmaPay; rw [semCopy_send]
theorem payload_recv (c : Dev nD) (j : Fin 24) (d : Fin 4) : (Rd (F := F) m ρ).payload (recvCell c j) 0 d = recvPay m ρ c j := by
  show dmaPay m ρ c (recvSem j) = recvPay m ρ c j
  unfold dmaPay; rw [semCopy_recv]

theorem rest_bar (c : Dev nD) : bigSep ((Rd (F := F) m ρ).duties (barCell c) 0 \ ∅) (fun d => (Rd (F := F) m ρ).payload (barCell c) 0 d)
    = iprop(lendSlots (zr c) ∗ lendAg c ∗ lendPa c ∗ lendPb c) := by
  rw [Finset.sdiff_empty, duties_bar, bigSep_univ_eq_bigSepL [0, 1, 2, 3] (by decide) (by decide), bigSepL_cons_cons, bigSepL_cons_cons,
    bigSepL_cons_cons, bigSepL_singleton, payload_bar, payload_bar, payload_bar, payload_bar]
  rfl
theorem rest_send (c : Dev nD) (j : Fin 24) : bigSep ((Rd (F := F) m ρ).duties (sendCell c j) 0 \ ∅) (fun d => (Rd (F := F) m ρ).payload (sendCell c j) 0 d)
    = sendPay m ρ c j := by
  rw [Finset.sdiff_empty, duties_send, bigSep_singleton, payload_send]
theorem rest_recv (c : Dev nD) (j : Fin 24) : bigSep ((Rd (F := F) m ρ).duties (recvCell c j) 0 \ ∅) (fun d => (Rd (F := F) m ρ).payload (recvCell c j) 0 d)
    = recvPay m ρ c j := by
  rw [Finset.sdiff_empty, duties_recv, bigSep_singleton, payload_recv]

theorem NJ_rs (p : Fin 2) (s : Fin 3) : NJ (rsJ p s) = N128 := if_pos (by revert p s; decide)
theorem NJ_ag (p : Fin 2) (t : Fin 3) : NJ (agJ p t) = N128 := if_pos (by revert p t; decide)
theorem NJ_pa (p : Fin 2) (t : Fin 3) : NJ (paJ p t) = N256 := if_neg (by revert p t; decide)
theorem NJ_pb (p : Fin 2) (t : Fin 3) : NJ (pbJ p t) = N256 := if_neg (by revert p t; decide)

theorem amount_slot (k : Fin 6) (q : DmaSem sig) : (slotV k).view.amount (.dma q) = N128 := rfl
theorem amount_ag (c : Dev nD) (p : Fin 2) (t : Fin 3) (q : DmaSem sig) : (agV c p t).view.amount (.dma q) = N128 := rfl
theorem amount_pa (c : Dev nD) (p : Fin 2) (t : Fin 3) (q : DmaSem sig) : (paV c p t).view.amount (.dma q) = N256 := rfl
theorem amount_pb (c : Dev nD) (p : Fin 2) (t : Fin 3) (q : DmaSem sig) : (pbV c p t).view.amount (.dma q) = N256 := rfl

theorem bar_sem : (SemArray.scalar (sig.barrier 0 rfl) : Sems sig S_).sem = barS := rfl

/-- Each copy's semaphore as the program names it: one element of a semaphore array, at the copy's place in the array. -/
theorem zsend_rs (p : Fin 2) (s : Fin 3) (h : ∀ a, (![6 * p.val + s.val] : Fin 1 → Nat) a + S1.size a ≤ S12.size a) (hs : S1.Squeezes S_) :
    ((cc0_scratch1.slice (Rect.unit (s := S12) ![6 * p.val + s.val] S1.size h) : DmaSems sig S1).squeeze S_ hs).sem = sendSem (rsJ p s) := by decide +revert
theorem zsend_ag (p : Fin 2) (t : Fin 3) (h : ∀ a, (![6 * p.val + 3 + t.val] : Fin 1 → Nat) a + S1.size a ≤ S12.size a) (hs : S1.Squeezes S_) :
    ((cc0_scratch1.slice (Rect.unit (s := S12) ![6 * p.val + 3 + t.val] S1.size h) : DmaSems sig S1).squeeze S_ hs).sem = sendSem (agJ p t) := by decide +revert
theorem zrecv_rs (p : Fin 2) (s : Fin 3) (h : ∀ a, (![6 * p.val + s.val] : Fin 1 → Nat) a + S1.size a ≤ S12.size a) (hs : S1.Squeezes S_) :
    ((cc0_scratch2.slice (Rect.unit (s := S12) ![6 * p.val + s.val] S1.size h) : DmaSems sig S1).squeeze S_ hs).sem = recvSem (rsJ p s) := by decide +revert
theorem zrecv_ag (p : Fin 2) (t : Fin 3) (h : ∀ a, (![6 * p.val + 3 + t.val] : Fin 1 → Nat) a + S1.size a ≤ S12.size a) (hs : S1.Squeezes S_) :
    ((cc0_scratch2.slice (Rect.unit (s := S12) ![6 * p.val + 3 + t.val] S1.size h) : DmaSems sig S1).squeeze S_ hs).sem = recvSem (agJ p t) := by decide +revert
theorem upsend_sem (p : Fin 2) (t : Fin 3) (h : ∀ a, (![3 * p.val + t.val] : Fin 1 → Nat) a + S1.size a ≤ S6.size a) (hs : S1.Squeezes S_) :
    ((cc0_scratch3.slice (Rect.unit (s := S6) ![3 * p.val + t.val] S1.size h) : DmaSems sig S1).squeeze S_ hs).sem = sendSem (paJ p t) := by decide +revert
theorem uprecv_sem (p : Fin 2) (t : Fin 3) (h : ∀ a, (![3 * p.val + t.val] : Fin 1 → Nat) a + S1.size a ≤ S6.size a) (hs : S1.Squeezes S_) :
    ((cc0_scratch4.slice (Rect.unit (s := S6) ![3 * p.val + t.val] S1.size h) : DmaSems sig S1).squeeze S_ hs).sem = recvSem (paJ p t) := by decide +revert
theorem dnsend_sem (p : Fin 2) (t : Fin 3) (h : ∀ a, (![3 * p.val + t.val] : Fin 1 → Nat) a + S1.size a ≤ S6.size a) (hs : S1.Squeezes S_) :
    ((cc0_scratch5.slice (Rect.unit (s := S6) ![3 * p.val + t.val] S1.size h) : DmaSems sig S1).squeeze S_ hs).sem = sendSem (pbJ p t) := by decide +revert
theorem dnrecv_sem (p : Fin 2) (t : Fin 3) (h : ∀ a, (![3 * p.val + t.val] : Fin 1 → Nat) a + S1.size a ≤ S6.size a) (hs : S1.Squeezes S_) :
    ((cc0_scratch6.slice (Rect.unit (s := S6) ![3 * p.val + t.val] S1.size h) : DmaSems sig S1).squeeze S_ hs).sem = recvSem (pbJ p t) := by decide +revert

theorem sendPay_rs (c : Dev nD) (p : Fin 2) (s : Fin 3) : sendPay m ρ c (rsJ p s) = rsS m ρ c p s := by
  fin_cases p <;> fin_cases s <;> rfl
theorem sendPay_ag (c : Dev nD) (p : Fin 2) (t : Fin 3) : sendPay m ρ c (agJ p t) = agS m ρ c p t := by
  fin_cases p <;> fin_cases t <;> rfl
theorem sendPay_pa (c : Dev nD) (p : Fin 2) (t : Fin 3) : sendPay m ρ c (paJ p t) = paS m ρ c p t := by
  fin_cases p <;> fin_cases t <;> rfl
theorem sendPay_pb (c : Dev nD) (p : Fin 2) (t : Fin 3) : sendPay m ρ c (pbJ p t) = pbS m ρ c p t := by
  fin_cases p <;> fin_cases t <;> rfl
theorem recvPay_rs (c : Dev nD) (p : Fin 2) (s : Fin 3) : recvPay m ρ c (rsJ p s) = rsR m ρ c p s := by
  fin_cases p <;> fin_cases s <;> rfl
theorem recvPay_ag (c : Dev nD) (p : Fin 2) (t : Fin 3) : recvPay m ρ c (agJ p t) = agR m ρ c p t := by
  fin_cases p <;> fin_cases t <;> rfl
theorem recvPay_pa (c : Dev nD) (p : Fin 2) (t : Fin 3) : recvPay m ρ c (paJ p t) = paR m ρ c p t := by
  fin_cases p <;> fin_cases t <;> rfl
theorem recvPay_pb (c : Dev nD) (p : Fin 2) (t : Fin 3) : recvPay m ρ c (pbJ p t) = pbR m ρ c p t := by
  fin_cases p <;> fin_cases t <;> rfl

theorem peer_rs (p : Fin 2) (s : Fin 3) (c : Dev nD) : peer (rsJ p s) c = zr c := by revert p s c; decide
theorem peer_ag (p : Fin 2) (t : Fin 3) (c : Dev nD) : peer (agJ p t) c = zl c := by revert p t c; decide
theorem peer_pa (p : Fin 2) (t : Fin 3) (c : Dev nD) : peer (paJ p t) c = xr c := by revert p t c; decide
theorem peer_pb (p : Fin 2) (t : Fin 3) (c : Dev nD) : peer (pbJ p t) c = xl c := by revert p t c; decide

end Cert.KernelIdeal.AR

end
-- ==== Proof.Steps.lean ====
import proofs.«900720_g7700000000000721_dist_ar_v7x_xyz2x2x4_z_m4096_n1024_f32_1_alg».proof.Proof.States
import proofs.«900720_g7700000000000721_dist_ar_v7x_xyz2x2x4_z_m4096_n1024_f32_1_alg».proof.Proof.Tables

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem inv_bar (K : GSem nD τ sig → ℕ) (c' : Dev nD) : records m ρ K ⊢ cellInv ER (Rd m ρ) (K (barCell c')) (barCell c') :=
  (show records m ρ K ⊢ (bigSep Finset.univ fun c : Dev nD => cellInv ER (Rd m ρ) (K (barCell c)) (barCell c)) from by
    unfold records; iintro ⟨H, -, -, -⟩; iexact H).trans
  (bigSep_elim (Φ := fun c : Dev nD => cellInv ER (Rd m ρ) (K (barCell c)) (barCell c)) (Finset.mem_univ c'))
theorem inv_d (K : GSem nD τ sig → ℕ) (c' : Dev nD) (jb : Fin 24 × Bool) : records m ρ K ⊢ cellInv ER (Rd m ρ) (K (dcell c' jb)) (dcell c' jb) :=
  (show records m ρ K ⊢ (bigSep Finset.univ fun cj : Dev nD × (Fin 24 × Bool) => cellInv ER (Rd m ρ) (K (dcell cj.1 cj.2)) (dcell cj.1 cj.2)) from by
    unfold records; iintro ⟨-, H, -, -⟩; iexact H).trans
  (bigSep_elim (Φ := fun cj : Dev nD × (Fin 24 × Bool) => cellInv ER (Rd m ρ) (K (dcell cj.1 cj.2)) (dcell cj.1 cj.2)) (Finset.mem_univ (c', jb)))
theorem reached_bar (K : GSem nD τ sig → ℕ) (c' : Dev nD) : records m ρ K ⊢ reached ER (barCell c') 0 :=
  (show records m ρ K ⊢ (bigSep Finset.univ fun c : Dev nD => (reached ER (barCell c) 0 : sProp 𝕄)) from by
    unfold records; iintro ⟨-, -, H, -⟩; iexact H).trans
  (bigSep_elim (Φ := fun c : Dev nD => (reached ER (barCell c) 0 : sProp 𝕄)) (Finset.mem_univ c'))
theorem reached_d (K : GSem nD τ sig → ℕ) (c' : Dev nD) (jb : Fin 24 × Bool) : records m ρ K ⊢ reached ER (dcell c' jb) 0 :=
  (show records m ρ K ⊢ (bigSep Finset.univ fun cj : Dev nD × (Fin 24 × Bool) => (reached ER (dcell cj.1 cj.2) 0 : sProp 𝕄)) from by
    unfold records; iintro ⟨-, -, -, H⟩; iexact H).trans
  (bigSep_elim (Φ := fun cj : Dev nD × (Fin 24 × Bool) => (reached ER (dcell cj.1 cj.2) 0 : sProp 𝕄)) (Finset.mem_univ (c', jb)))

theorem inv_send (K : GSem nD τ sig → ℕ) (c' : Dev nD) (j : Fin 24) : records m ρ K ⊢ cellInv ER (Rd m ρ) (K (sendCell c' j)) (sendCell c' j) := inv_d m ρ K c' (j, false)
theorem inv_recv (K : GSem nD τ sig → ℕ) (c' : Dev nD) (j : Fin 24) : records m ρ K ⊢ cellInv ER (Rd m ρ) (K (recvCell c' j)) (recvCell c' j) := inv_d m ρ K c' (j, true)
theorem reached_send (K : GSem nD τ sig → ℕ) (c' : Dev nD) (j : Fin 24) : records m ρ K ⊢ reached ER (sendCell c' j) 0 := reached_d m ρ K c' (j, false)
theorem reached_recv (K : GSem nD τ sig → ℕ) (c' : Dev nD) (j : Fin 24) : records m ρ K ⊢ reached ER (recvCell c' j) 0 := reached_d m ρ K c' (j, true)

theorem Orem_succ (c : Dev nD) (j : Fin 24) (n : ℕ) (hn : n + j.val = 23) :
    Orem c (n + 1) = Orem c n + tallyAt (recvCell (peer j c) j) () (NJ j) := by
  have hj : 23 - n = j.val := by omega
  show Orem c n + cpTally c (23 - n) = _
  unfold cpTally
  rw [dif_pos (by omega : 23 - n < 24)]
  have : (⟨23 - n, by omega⟩ : Fin 24) = j := Fin.ext hj
  rw [this]

theorem step_send {sh : Shape} (K : GSem nD τ sig → ℕ) (c : Dev nD) (j : Fin 24) (n : ℕ) (hn : n + j.val = 23)
    (src dst : Memref sig .tc .vmem sh .f32) (q : PosShare TreeShare)
    (fs : Buf (Elt F) (src.view.loc (c : Thread nD τ))) (fd : Buf (Elt F) (dst.view.loc (peer j c : Thread nD τ))) (W : Waits sig Unit)
    (d : Dev nD) (ss rs : DmaSem sig) (hd : d = peer j c) (hss : ss = sendSem j) (hrs : rs = recvSem j)
    {hsc : (dst : Memref sig (Dev.tc d : Thread nD τ).2.kind .vmem sh .f32).view.ref.isScScratch = false}
    {hsrc : src.view.WordExact} {hdst : dst.view.WordExact}
    {hsem : DmaTarget.Typed .vmem (.dma rs) (.remote (Dev.tc d : Thread nD τ) dst (.dma ss) hsc)}
    {α : Type} {Q : α → sProp 𝕄} {k : PUnit → Prog (TpuEff nD τ sig (Elt F) Λ₀ .tc) α}
    (hN : dst.view.amount (.dma (recvSem j)) = NJ j)
    (hpay₁ : (src.view.loc (c : Thread nD τ) ↦[src.view.set]{q} fs : sProp 𝕄) ⊢ sendPay m ρ c j)
    (hpay₂ : (dst.view.loc (peer j c : Thread nD τ) ↦[dst.view.set]{fullShare} (dst.view.write (Elt F) fd (src.view.read (Elt F) fs) Finset.univ) : sProp 𝕄)
      ⊢ recvPay m ρ (peer j c) j) :
    iprop(records m ρ K ∗ pts c src q fs ∗ pts (peer j c) dst fullShare fd ∗ owes (c : Thread nD τ) (Orem c (n + 1)) W
        ∗ dutyTok ER (sendCell c j) 0 0 ∗ dutyTok ER (recvCell (peer j c) j) 0 0)
      ⊢ iprop(((cred (tallyAt (sendCell c j) () (NJ j)) ∗ owes (c : Thread nD τ) (Orem c n) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma ss) hsc) (.dma rs) hsrc hdst hsem) k) Q) := by
  subst hd hss hrs
  iintro ⟨#HR, Hs, Hd, HO, Ht1, Ht2⟩
  iapply (Rounds.wp_send_pointsTo 𝒱₀ ER (Rd m ρ) (c : Thread nD τ) none (κ₁ := K (sendCell c j)) (κ₂ := K (recvCell (peer j c) j))
    (r₁ := 0) (r₂ := 0) (d₁ := 0) (d₂ := 0) (fd := fd)
    (by rw [duties_send]; exact Finset.mem_singleton_self _) (by rw [duties_recv]; exact Finset.mem_singleton_self _)
    () () (NJ j) hN (amount_send m ρ c j 0) (amount_recv m ρ (peer j c) j 0) (Orem c n) (Orem_succ c j n hn) (W := W)
    (by rw [payload_send]; exact hpay₁) (by rw [payload_recv]; exact hpay₂))
  isplitr; · iapply (inv_send m ρ K c j); iexact HR
  isplitr; · iapply (inv_recv m ρ K (peer j c) j); iexact HR
  isplitl [Hs]; · iexact Hs
  isplitl [Hd]; · iexact Hd
  isplitl [HO]; · iexact HO
  isplitl [Ht1]; · iexact Ht1
  isplitr; · iapply (reached_send m ρ K c j); iexact HR
  isplitl [Ht2]; · iexact Ht2
  iapply (reached_recv m ρ K (peer j c) j); iexact HR

theorem step_send_landing {sh : Shape} (K : GSem nD τ sig → ℕ) (c : Dev nD) (j : Fin 24) (n : ℕ) (hn : n + j.val = 23)
    (src dst : Memref sig .tc .vmem sh .f32) (q : PosShare TreeShare)
    (fs : Buf (Elt F) (src.view.loc (c : Thread nD τ))) (fd : Buf (Elt F) (dst.view.loc (peer j c : Thread nD τ))) (W : Waits sig Unit)
    (d : Dev nD) (ss rs : DmaSem sig) (hd : d = peer j c) (hss : ss = sendSem j) (hrs : rs = recvSem j)
    {hsc : (dst : Memref sig (Dev.tc d : Thread nD τ).2.kind .vmem sh .f32).view.ref.isScScratch = false}
    {hsrc : src.view.WordExact} {hdst : dst.view.WordExact}
    {hsem : DmaTarget.Typed .vmem (.dma rs) (.remote (Dev.tc d : Thread nD τ) dst (.dma ss) hsc)}
    {α : Type} {Q : α → sProp 𝕄} {k : PUnit → Prog (TpuEff nD τ sig (Elt F) Λ₀ .tc) α}
    (hN : dst.view.amount (.dma (recvSem j)) = NJ j)
    (hpay₁ : (emp : sProp 𝕄) ⊢ sendPay m ρ c j)
    (hpay₂ : iprop((dst.view.loc (peer j c : Thread nD τ) ↦[dst.view.set]{fullShare} (dst.view.write (Elt F) fd (src.view.read (Elt F) fs) Finset.univ))
        ∗ (src.view.loc (c : Thread nD τ) ↦[src.view.set]{q} fs))
      ⊢ recvPay m ρ (peer j c) j) :
    iprop(records m ρ K ∗ pts c src q fs ∗ pts (peer j c) dst fullShare fd ∗ owes (c : Thread nD τ) (Orem c (n + 1)) W
        ∗ dutyTok ER (sendCell c j) 0 0 ∗ dutyTok ER (recvCell (peer j c) j) 0 0)
      ⊢ iprop(((cred (tallyAt (sendCell c j) () (NJ j)) ∗ owes (c : Thread nD τ) (Orem c n) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma ss) hsc) (.dma rs) hsrc hdst hsem) k) Q) := by
  subst hd hss hrs
  iintro ⟨#HR, Hs, Hd, HO, Ht1, Ht2⟩
  iapply (Rounds.wp_send_landing_pointsTo 𝒱₀ ER (Rd m ρ) (c : Thread nD τ) none (κ₁ := K (sendCell c j)) (κ₂ := K (recvCell (peer j c) j))
    (r₁ := 0) (r₂ := 0) (d₁ := 0) (d₂ := 0) (fd := fd)
    (by rw [duties_send]; exact Finset.mem_singleton_self _) (by rw [duties_recv]; exact Finset.mem_singleton_self _)
    () () (NJ j) hN (amount_send m ρ c j 0) (amount_recv m ρ (peer j c) j 0) (Orem c n) (Orem_succ c j n hn) (W := W)
    (by rw [payload_send]; exact hpay₁) (by rw [payload_recv]; exact hpay₂))
  isplitr; · iapply (inv_send m ρ K c j); iexact HR
  isplitr; · iapply (inv_recv m ρ K (peer j c) j); iexact HR
  isplitl [Hs]; · iexact Hs
  isplitl [Hd]; · iexact Hd
  isplitl [HO]; · iexact HO
  isplitl [Ht1]; · iexact Ht1
  isplitr; · iapply (reached_send m ρ K c j); iexact HR
  isplitl [Ht2]; · iexact Ht2
  iapply (reached_recv m ρ K (peer j c) j); iexact HR

theorem step_wait_recv {sh : Shape} (K : GSem nD τ sig → ℕ) (c : Dev nD) (j : Fin 24) (O : CellTallies nD τ sig Unit) (W : Waits sig Unit)
    (src dst : Memref sig .tc .vmem sh .f32) (rs : DmaSem sig) (hrs : rs = recvSem j) {hs : src.view.WordExact} {hd : dst.view.WordExact}
    {α : Type} {Q : α → sProp 𝕄} {k : PUnit → Prog (TpuEff nD τ sig (Elt F) Λ₀ .tc) α}
    (hN : dst.view.dmaCredit = NJ j)
    (hmw : (levAts L lv : sProp 𝕄) ⊢ MayWait (c : Thread nD τ) (.dma (recvSem j)) () O) :
    iprop(records m ρ K ∗ levAts L lv ∗ cred (tallyAt (recvCell c j) () (NJ j)) ∗ owes (c : Thread nD τ) O W ∗ atPos ER (recvCell c j) 0 ∅ 0)
      ⊢ iprop((((∃ W', owes (c : Thread nD τ) O W') ∗ atPos ER (recvCell c j) 1 ∅ 0 ∗ recvPay m ρ c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rs src dst hs hd) k) Q) := by
  subst hrs
  rw [← hN]
  iintro ⟨#HR, #Hlev, Hc, HO, Hat⟩ Hk
  iapply (Rounds.wp_wait_rest_token 𝒱₀ ER (Rd m ρ) (c : Thread nD τ) none (κ := K (recvCell c j))
      (wpE_waitDma2_eq 𝒱₀ (c : Thread nD τ) none Set.univ) (Set.mem_univ _) () (O := O) (W := W) (R := 0) (m := 0) (T := ∅)
      (by rw [Nat.zero_add, expect_recv, hN])) $$ [Hc HO Hat]
  · isplitr; · iapply (inv_recv m ρ K c j); iexact HR
    isplitl [Hc]; · iexact Hc
    isplitl [HO]; · iexact HO
    isplitr; · iapply hmw; iexact Hlev
    iexact Hat
  iintro ⟨HO, Hat, -, Hpay⟩
  iapply Hk
  isplitl [HO]; · iexists _; iexact HO
  isplitl [Hat]; · iexact Hat
  iapply (Entails.of_eq (rest_recv m ρ c j)); iexact Hpay

theorem step_wait_send {sh : Shape} (K : GSem nD τ sig → ℕ) (c : Dev nD) (j : Fin 24) (W : Waits sig Unit)
    (src dst : Memref sig .tc .vmem sh .f32) {hs : src.view.WordExact} {hd : dst.view.WordExact}
    {α : Type} {Q : α → sProp 𝕄} {k : PUnit → Prog (TpuEff nD τ sig (Elt F) Λ₀ .tc) α}
    (hN : dst.view.dmaCredit = NJ j) :
    iprop(records m ρ K ∗ cred (tallyAt (sendCell c j) () (NJ j)) ∗ owes (c : Thread nD τ) 0 W ∗ atPos ER (sendCell c j) 0 ∅ 0)
      ⊢ iprop((((∃ W', owes (c : Thread nD τ) 0 W') ∗ atPos ER (sendCell c j) 1 ∅ 0 ∗ sendPay m ρ c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendSem j) src dst hs hd) k) Q) := by
  rw [← hN]
  iintro ⟨#HR, Hc, HO, Hat⟩ Hk
  iapply (Rounds.wp_wait_rest_token 𝒱₀ ER (Rd m ρ) (c : Thread nD τ) none (κ := K (sendCell c j))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iapply (inv_send m ρ K c j); iexact HR
    isplitl [Hc]; · iexact Hc
    isplitl [HO]; · iexact HO
    isplitr; · rw [MayWait_zero]; iempintro
    iexact Hat
  iintro ⟨HO, Hat, -, Hpay⟩
  iapply Hk
  isplitl [HO]; · iexists _; iexact HO
  isplitl [Hat]; · iexact Hat
  iapply (Entails.of_eq (rest_send m ρ c j)); iexact Hpay

end Cert.KernelIdeal.AR

end
-- ==== Proof.Levels.lean ====
import proofs.«900720_g7700000000000721_dist_ar_v7x_xyz2x2x4_z_m4096_n1024_f32_1_alg».proof.Proof.Core

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem L_of_ne (g : GSem nD τ sig) (h : g.1.2 ≠ .tc) : L g = ∅ := if_neg h
theorem L_tc (c : Dev nD) (sm : SemLoc sig) : L ((c : Thread nD τ), sm) = {()} := if_pos rfl

theorem semCopy_of_recvSem (j : Fin 24) : semCopy (recvSem j) = some (j, true) := by revert j; decide

theorem lv_recv (d : Dev nD) (j : Fin 24) (u : Unit) : lv (recvCell d j) u = 2 + j.val := by
  show (match semCopy (recvSem j) with | some (j, true) => 2 + j.val | _ => 0) = _
  rw [semCopy_of_recvSem]

theorem lv_bar (d : Dev nD) (u : Unit) : lv (barCell d) u = 1 := rfl

theorem lv_stage (c : Dev nD) (q : DmaSem sig) (hq : semCopy q = none) (u : Unit) : lv ((c : Thread nD τ), .dma q) u = 0 := by
  show (match semCopy q with | some (j, true) => 2 + j.val | _ => 0) = _
  rw [hq]

theorem Orem_pos {c : Dev nD} : ∀ {n : ℕ} {g : GSem nD τ sig} {u : Unit}, 0 < Orem c n g u →
    ∃ i : Fin 24, 24 - n ≤ i.val ∧ g = recvCell (peer i c) i
  | 0, g, u, h => absurd h (Nat.lt_irrefl 0)
  | n + 1, g, u, h => by
    rcases Pipeline.add_pos_cases (D₁ := Orem c n) (D₂ := cpTally c (23 - n)) h with h | h
    · obtain ⟨i, hi, hg⟩ := Orem_pos h
      exact ⟨i, by omega, hg⟩
    · unfold cpTally at h
      rw [dif_pos (by omega : 23 - n < 24)] at h
      exact ⟨⟨23 - n, by omega⟩, by show 24 - (n + 1) ≤ 23 - n; omega, (Pipeline.tallyAt_pos h).1⟩

theorem O₀_pos {c : Dev nD} {g : GSem nD τ sig} {u : Unit} (h : 0 < O₀ c g u) :
    (∃ i : Fin 24, g = recvCell (peer i c) i) ∨ ∃ d : Dev nD, g = barCell d := by
  unfold O₀ at h
  rcases Pipeline.add_pos_cases h with h | h
  · rcases Pipeline.add_pos_cases h with h | h
    · rcases Pipeline.add_pos_cases h with h | h
      · rcases Pipeline.add_pos_cases h with h | h
        · obtain ⟨i, -, hg⟩ := Orem_pos h
          exact Or.inl ⟨i, hg⟩
        · exact Or.inr ⟨_, (Pipeline.tallyAt_pos h).1⟩
      · exact Or.inr ⟨_, (Pipeline.tallyAt_pos h).1⟩
    · exact Or.inr ⟨_, (Pipeline.tallyAt_pos h).1⟩
  · exact Or.inr ⟨_, (Pipeline.tallyAt_pos h).1⟩

theorem mayWait_bar (c : Dev nD) : (levAts L lv : sProp 𝕄) ⊢ MayWait (c : Thread nD τ) (.reg barS) () (Orem c 24) :=
  MayOwe.of_cut (L := L) (lev := lv) 1
    (fun p hp => by rw [Finset.mem_singleton.mp hp, L_tc]; exact Finset.mem_singleton_self _)
    (fun g u hg => by obtain ⟨i, -, rfl⟩ := Orem_pos hg; rw [L_tc]; exact Finset.mem_singleton_self _)
    (fun p hp => by rw [Finset.mem_singleton.mp hp]; exact le_of_eq (lv_bar c ()))
    (fun g u hg => by obtain ⟨i, -, rfl⟩ := Orem_pos hg; rw [lv_recv]; omega)

theorem mayWait_recv (c : Dev nD) (j : Fin 24) (n : ℕ) (hn : n + j.val ≤ 23) :
    (levAts L lv : sProp 𝕄) ⊢ MayWait (c : Thread nD τ) (.dma (recvSem j)) () (Orem c n) :=
  MayOwe.of_cut (L := L) (lev := lv) (2 + j.val)
    (fun p hp => by rw [Finset.mem_singleton.mp hp, L_tc]; exact Finset.mem_singleton_self _)
    (fun g u hg => by obtain ⟨i, -, rfl⟩ := Orem_pos hg; rw [L_tc]; exact Finset.mem_singleton_self _)
    (fun p hp => by rw [Finset.mem_singleton.mp hp]; exact le_of_eq (lv_recv c j ()))
    (fun g u hg => by obtain ⟨i, hi, rfl⟩ := Orem_pos hg; rw [lv_recv]; omega)

theorem mayWait_stage (c : Dev nD) (q : DmaSem sig) (hq : semCopy q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases O₀_pos hg with ⟨i, rfl⟩ | ⟨d, rfl⟩ <;> (rw [L_tc]; exact Finset.mem_singleton_self _))
      (fun p hp => by rw [Finset.mem_singleton.mp hp]; exact le_of_eq (lv_stage c q hq ()))
      (fun g u hg => by
        rcases O₀_pos hg with ⟨i, rfl⟩ | ⟨d, rfl⟩
        · rw [lv_recv]; omega
        · rw [lv_bar]; exact Nat.one_pos)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem Orem_eq_sum (c : Dev nD) (n : ℕ) : Orem c n = ∑ k ∈ Finset.range n, cpTally c (23 - k) := by
  induction n with
  | zero => rfl
  | succ n ih => rw [Finset.sum_range_succ, ← ih]; rfl

theorem Orem_all (c : Dev nD) : Orem c 24 = ∑ j : Fin 24, tallyAt (recvCell (peer j c) j) () (NJ j) := by
  rw [Orem_eq_sum]
  refine (Finset.sum_flip (n := 23) (fun k => cpTally c k)).trans ?_
  refine (Fin.sum_univ_eq_sum_range (fun k => cpTally c k) 24).symm.trans ?_
  refine Finset.sum_congr rfl fun j _ => ?_
  unfold cpTally
  rw [dif_pos j.isLt]

theorem launchCred_split (c : Dev nD) :
    (Pipeline.launchCred O₀ c : sProp 𝕄) =
      iprop((((Pipeline.launchCred (fun d => Orem d 24) c ∗ Pipeline.launchCred (fun d => tallyAt (barCell (xr d)) () 1) c)
        ∗ Pipeline.launchCred (fun d => tallyAt (barCell (xl d)) () 1) c) ∗ Pipeline.launchCred (fun d => tallyAt (barCell (zr d)) () 1) c)
        ∗ Pipeline.launchCred (fun d => tallyAt (barCell (zl d)) () 1) c) := by
  rw [← Pipeline.launchCred_add, ← Pipeline.launchCred_add, ← Pipeline.launchCred_add, ← Pipeline.launchCred_add]
  rfl

theorem launch_recvs (c : Dev nD) :
    (Pipeline.launchCred (fun d => Orem d 24) c : sProp 𝕄) ⊢ bigSep Finset.univ fun j : Fin 24 => cred (tallyAt (recvCell c j) () (NJ j)) := by
  rw [show (fun d : Dev nD => Orem d 24) = fun d => ∑ j ∈ Finset.univ, (fun (j : Fin 24) (d : Dev nD) => tallyAt (recvCell (peer j d) j) () (NJ j)) j d from
    funext fun d => Orem_all d, Pipeline.launchCred_sum]
  exact bigSep_mono fun j _ => Pipeline.launchCred_tallyAt (.dma (recvSem j)) (peer j) (from_ j) (peer_from j) (from_peer j) () (NJ j) c

theorem cred_four (g : GSem nD τ sig) :
    iprop(((cred (tallyAt g () 1) ∗ cred (tallyAt g () 1)) ∗ cred (tallyAt g () 1)) ∗ cred (tallyAt g () 1)) ⊢ (cred (tallyAt g () 4) : sProp 𝕄) := by
  show _ ⊢ (cred (tallyAt g () (1 + 1 + 1 + 1)) : sProp 𝕄)
  rw [← tallyAt_add, ← tallyAt_add, ← tallyAt_add]
  exact (sep_mono_left ((sep_mono_left (cred_add _ _).2).trans (cred_add _ _).2)).trans (cred_add _ _).2

theorem creds (c : Dev nD) : (Pipeline.launchCred O₀ c : sProp 𝕄) ⊢ credits c := by
  rw [launchCred_split]
  unfold credits
  iintro ⟨⟨⟨⟨Hr, H1⟩, H2⟩, H3⟩, H4⟩
  isplitr [Hr]
  · iapply (cred_four (F := F) (barCell c))
    isplitl [H1 H2 H3]
    · isplitl [H1 H2]
      · isplitl [H1]
        · iapply (Pipeline.launchCred_tallyAt (.reg barS) xr xl xr_xl xl_xr () 1 c); iexact H1
        · iapply (Pipeline.launchCred_tallyAt (.reg barS) xl xr xl_xr xr_xl () 1 c); iexact H2
      · iapply (Pipeline.launchCred_tallyAt (.reg barS) zr zl zr_zl zl_zr () 1 c); iexact H3
    · iapply (Pipeline.launchCred_tallyAt (.reg barS) zl zr zl_zr zr_zl () 1 c); iexact H4
  · iapply (launch_recvs (F := F) c); iexact Hr

end Cert.KernelIdeal.AR

end
-- ==== Proof.Views.lean ====
import proofs.«900720_g7700000000000721_dist_ar_v7x_xyz2x2x4_z_m4096_n1024_f32_1_alg».proof.Proof.Core

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def accV (c : Dev nD) (p : Fin 2) (s : Fin 3) : Memref sig .tc .vmem S128x1024 .f32 := oM.slice (accR c p s) (fun _ => rfl)

theorem acc0_eq (c : Dev nD) (p : Fin 2) : accV c p 0 = agV c p 2 :=
  Memref.slice_unit_congr _ (by rw [off2_eq, off3_eq]; revert c p; decide) _ _ (fun _ => rfl) (fun _ => rfl)
theorem acc1_eq (c : Dev nD) (p : Fin 2) : accV c p 1 = agV c p 1 :=
  Memref.slice_unit_congr _ (by rw [off2_eq, off3_eq]; revert c p; decide) _ _ (fun _ => rfl) (fun _ => rfl)
theorem acc2_eq (c : Dev nD) (p : Fin 2) : accV c p 2 = agV c p 0 :=
  Memref.slice_unit_congr _ (by rw [off2_eq, off3_eq]; revert c p; decide) _ _ (fun _ => rfl) (fun _ => rfl)

theorem src1_eq (c : Dev nD) (p : Fin 2) : srcV oM c p 1 = agV c p 2 :=
  Memref.slice_unit_congr _ (by rw [off1_eq, off3_eq]; revert c p; decide) _ _ (fun _ => rfl) (fun _ => rfl)
theorem src2_eq (c : Dev nD) (p : Fin 2) : srcV oM c p 2 = agV c p 1 :=
  Memref.slice_unit_congr _ (by rw [off1_eq, off3_eq]; revert c p; decide) _ _ (fun _ => rfl) (fun _ => rfl)

theorem src_zl1 (c : Dev nD) (p : Fin 2) : srcV oM (zl c) p 1 = agV c p 1 :=
  Memref.slice_unit_congr _ (by rw [off1_eq, off3_eq]; revert c p; decide) _ _ (fun _ => rfl) (fun _ => rfl)
theorem src_zl2 (c : Dev nD) (p : Fin 2) : srcV oM (zl c) p 2 = agV c p 0 :=
  Memref.slice_unit_congr _ (by rw [off1_eq, off3_eq]; revert c p; decide) _ _ (fun _ => rfl) (fun _ => rfl)

theorem ag_zr0 (c : Dev nD) (p : Fin 2) : agV (zr c) p 0 = agV c p 1 :=
  Memref.slice_unit_congr _ (by rw [off3_eq, off3_eq]; revert c p; decide) _ _ (fun _ => rfl) (fun _ => rfl)
theorem ag_zr1 (c : Dev nD) (p : Fin 2) : agV (zr c) p 1 = agV c p 2 :=
  Memref.slice_unit_congr _ (by rw [off3_eq, off3_eq]; revert c p; decide) _ _ (fun _ => rfl) (fun _ => rfl)

theorem pa_next0 (c : Dev nD) (p : Fin 2) : paV c p 1 = paV (xl c) p 0 :=
  Memref.slice_unit_congr _ (by rw [off4_eq, off4_eq]; revert c p; decide) _ _ (fun _ => rfl) (fun _ => rfl)
theorem pa_next1 (c : Dev nD) (p : Fin 2) : paV c p 2 = paV (xl c) p 1 :=
  Memref.slice_unit_congr _ (by rw [off4_eq, off4_eq]; revert c p; decide) _ _ (fun _ => rfl) (fun _ => rfl)

theorem pb_next0 (c : Dev nD) (p : Fin 2) : pbV c p 1 = pbV (xr c) p 0 :=
  Memref.slice_unit_congr _ (by rw [off5_eq, off5_eq]; revert c p; decide) _ _ (fun _ => rfl) (fun _ => rfl)
theorem pb_next1 (c : Dev nD) (p : Fin 2) : pbV c p 2 = pbV (xr c) p 1 :=
  Memref.slice_unit_congr _ (by rw [off5_eq, off5_eq]; revert c p; decide) _ _ (fun _ => rfl) (fun _ => rfl)

theorem pay_eq2 : (k0_pay2 : Vec F S128x1024 .f32 → Vec F S1x128x1024 .f32 → FVec F S128x1024 .f32) = k0_pay1 := rfl
theorem pay_eq3 : (k0_pay3 : Vec F S128x1024 .f32 → Vec F S1x128x1024 .f32 → FVec F S128x1024 .f32) = k0_pay1 := rfl
theorem pay_eq5 : (k0_pay5 : Vec F S128x1024 .f32 → Vec F S1x128x1024 .f32 → FVec F S128x1024 .f32) = k0_pay1 := rfl

theorem slot_read_write (c : Dev nD) (k : Fin 6) (fd : Buf (Elt F) ((slotV k).view.loc (c : Thread nD τ))) (w : Vec F S128x1024 .f32) :
    (slotV k).view.read (Elt F) ((slotV k).view.write (Elt F) fd w Finset.univ) = w :=
  View.read_write_univ (v := (slotV k).view) (Val := Elt F) fd w

theorem src_read_x_o (c : Dev nD) (p : Fin 2) (s : Fin 3) (f : Blk F) :
    (srcV xM c p s).view.read (Elt F) f = (srcV oM c p s).view.read (Elt F) f := rfl

theorem write_read_self {sh : Shape} (v : Memref sig .tc .vmem sh .f32) (fd fs : v.view.ty.Contents (Elt F)) :
    ∀ i ∈ v.view.set, v.view.write (Elt F) fd (v.view.read (Elt F) fs) Finset.univ i = fs i := by
  intro i hi
  obtain ⟨x, -, rfl⟩ := Finset.mem_map.mp hi
  rw [View.write_emb_of_mem _ _ (Finset.mem_univ x), View.read_apply, cast_cast, cast_eq]

theorem slot_load_set (k : Fin 6) :
    cM.view.setOn (Rect.unit (s := S6x128x1024) ![k.val, 0, 0] S1x128x1024.size (slot_inb k)).toLoadRect.set ⊆ (slotV k).view.set := by
  have h : (slotV k).view.set
      = (Rect.unit (s := S6x128x1024) ![k.val, 0, 0] S1x128x1024.size (slot_inb k)).set.map cM.view.emb :=
    (View.set_reshape (cM.view.slice (Rect.unit (s := S6x128x1024) ![k.val, 0, 0] S1x128x1024.size (slot_inb k))) _).trans
      (View.set_slice cM.view _)
  intro i hi
  rw [h]; exact hi

theorem acc_load_set (c : Dev nD) (p : Fin 2) (s : Fin 3) :
    oM.view.setOn (accR c p s).toLoadRect.set ⊆ (accV c p s).view.set := by
  have h : (accV c p s).view.set = (accR c p s).set.map oM.view.emb := View.set_slice oM.view (accR c p s)
  intro i hi
  rw [h]; exact hi

theorem acc_load_set_x (c : Dev nD) (p : Fin 2) (s : Fin 3) :
    xM.view.setOn (accR c p s).toLoadRect.set ⊆ Finset.univ := Finset.subset_univ _

theorem off1_zl (c : Dev nD) (p : Fin 2) (s : Fin 3) : k0_off1 (zl c) (w512 p) (w3 s) = k0_off2 c (w512 p) (w3 s) := by
  rw [off1_eq, off2_eq]; revert c p s; decide

theorem unit_emb_congr {sh : Shape} {off off' size : Fin sh.rank → Nat} (h : off = off')
    (q : ∀ a, off a + size a ≤ sh.size a) (q' : ∀ a, off' a + size a ≤ sh.size a) (x : (⟨sh.rank, size⟩ : Shape).Idx) :
    (Rect.unit off size q).emb x = (Rect.unit off' size q').emb x := by subst h; rfl

theorem shapeCast_self (A : Vec F S128x1024 .f32) (x : S128x1024.Idx) :
    shapeCast S128x1024 A shapeCasts_S128x1024_S128x1024 x = A x := by
  unfold shapeCast; rw [Shape.reshapeEquiv_self]

theorem store_val (c : Dev nD) (p : Fin 2) (s : Fin 3) (g : Blk F) (f : Buf (Elt F) (cM.view.loc (c : Thread nD τ)))
    (hf : (slotV (slotOf p s)).view.read (Elt F) f = landed m ρ c p s) :
    ∀ i ∈ (accV c p s).view.set, (oM.access (accR c p s)).write (Elt F) g (k0_pay1 (xM.view.readAt (Elt F) (accR c p s).toLoadRect (X m ρ c)) (cM.view.readAt (Elt F) (Rect.unit (s := S6x128x1024) ![(slotOf p s).val, 0, 0] S1x128x1024.size (slot_inb (slotOf p s))).toLoadRect f)) Finset.univ i = Sk (X m ρ) (s.val + 1) c i := by
  intro i hi
  obtain ⟨x, -, rfl⟩ := Finset.mem_map.mp hi
  have hw := View.write_emb_of_mem (v := oM.view.slice (accR c p s)) (Val := Elt F) g
    (k0_pay1 (xM.view.readAt (Elt F) (accR c p s).toLoadRect (X m ρ c)) (cM.view.readAt (Elt F) (Rect.unit (s := S6x128x1024) ![(slotOf p s).val, 0, 0] S1x128x1024.size (slot_inb (slotOf p s))).toLoadRect f))
    (M := Finset.univ) (x := x) (Finset.mem_univ _)
  refine hw.trans ?_
  have hl : (slotV (slotOf p s)).view.read (Elt F) f x = Sk (X m ρ) s.val (zl c) ((accR c p s).emb x) := by
    rw [hf]
    show Sk (X m ρ) s.val (zl c) ((Rect.unit (s := S4096x1024) (k0_off1 (zl c) (w512 p) (w3 s)) S128x1024.size (k0_off1_inb (zl c) p s)).emb x)
      = Sk (X m ρ) s.val (zl c) ((Rect.unit (s := S4096x1024) (k0_off2 c (w512 p) (w3 s)) S128x1024.size (k0_off2_inb c p s)).emb x)
    exact congrArg _ (unit_emb_congr (sh := S4096x1024) (off1_zl c p s) (k0_off1_inb (zl c) p s) (k0_off2_inb c p s) x)
  have hA : shapeCast S128x1024 (xM.view.readAt (Elt F) (accR c p s).toLoadRect (X m ρ c)) shapeCasts_S128x1024_S128x1024 x
      = X m ρ c ((accR c p s).emb x) :=
    (shapeCast_self (xM.view.readAt (Elt F) (accR c p s).toLoadRect (X m ρ c)) x).trans rfl
  have hB : shapeCast S128x1024 (cM.view.readAt (Elt F) (Rect.unit (s := S6x128x1024) ![(slotOf p s).val, 0, 0] S1x128x1024.size (slot_inb (slotOf p s))).toLoadRect f) shapeCasts_S1x128x1024_S128x1024 x
      = (slotV (slotOf p s)).view.read (Elt F) f x := rfl
  show FloatOps.addf
      (shapeCast S128x1024 (xM.view.readAt (Elt F) (accR c p s).toLoadRect (X m ρ c)) shapeCasts_S128x1024_S128x1024 x)
      (shapeCast S128x1024 (cM.view.readAt (Elt F) (Rect.unit (s := S6x128x1024) ![(slotOf p s).val, 0, 0] S1x128x1024.size (slot_inb (slotOf p s))).toLoadRect f) shapeCasts_S1x128x1024_S128x1024 x)
    = addE (X m ρ c ((accR c p s).emb x)) (Sk (X m ρ) s.val (zl c) ((accR c p s).emb x))
  rw [hA, hB, hl]; rfl

theorem rpos_lt (c : Dev nD) : rpos c < 4 := by revert c; decide
theorem dev_of_pos : ∀ c c' : Dev nD, rpos c' = rpos c → zpos c' = zpos c → c' = c := by decide

theorem owner_eq (c : Dev nD) (p : Fin 2) (i : S4096x1024.Idx) (x0 : ℕ) (hx0 : x0 < 128)
    (hi : (i 0).val = row (rpos c) p.val (zpos c + 1) + x0) : owner i = c := by
  have h4 := rpos_lt c
  have hp := p.isLt
  have hz : zpos c < 4 := Nat.mod_lt _ (by decide)
  apply dev_of_pos
  · unfold owner; rw [rpos_owner, hi]; unfold row; omega
  · unfold owner; rw [zpos_owner, hi]; unfold row; omega

theorem sk3_eq_fin (c : Dev nD) (p : Fin 2) : ∀ i ∈ (agV c p 0).view.set, Sk (X m ρ) 3 c i = Fin_ (X m ρ) i := by
  intro i hi
  obtain ⟨x, -, rfl⟩ := Finset.mem_map.mp hi
  have hown : owner ((agV c p 0).view.emb x) = c := by
    refine owner_eq c p _ (x 0).val (x 0).isLt ?_
    show (k0_off3 c (w512 p) (w3 0)) 0 + 1 * (x 0).val = _
    rw [off3_eq]; simp
  show _ = Sk (X m ρ) 3 (owner ((agV c p 0).view.emb x)) ((agV c p 0).view.emb x)
  rw [hown]

end Cert.KernelIdeal.AR

end
-- ==== Proof.Parts.lean ====
import proofs.«900720_g7700000000000721_dist_ar_v7x_xyz2x2x4_z_m4096_n1024_f32_1_alg».proof.Proof.Core
import Idealize.ShloMosaic.Rules.PointsTo

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def band (r0 h : ℕ) : Finset S4096x1024.Idx := Finset.univ.filter fun i => r0 ≤ (i 0).val ∧ (i 0).val < r0 + h

theorem mem_band {r0 h : ℕ} {i : S4096x1024.Idx} : i ∈ band r0 h ↔ r0 ≤ (i 0).val ∧ (i 0).val < r0 + h := by
  simp [band]

theorem band_whole : band 0 4096 = Finset.univ := by
  ext i
  simp only [mem_band, Finset.mem_univ, iff_true]
  exact ⟨Nat.zero_le _, by have := (i 0).isLt; simpa using this⟩

theorem band_union (r0 h h' : ℕ) : band r0 (h + h') = band r0 h ∪ band (r0 + h) h' := by
  ext i
  simp only [mem_band, Finset.mem_union]
  omega

theorem band_disjoint (r0 h h' : ℕ) : Disjoint (band r0 h) (band (r0 + h) h') := by
  rw [Finset.disjoint_left]
  intro i hi hj
  rw [mem_band] at hi hj
  omega

theorem rect_band (r0 h : ℕ) (off : Fin 2 → ℕ) (size : Fin 2 → ℕ) (inb) (ho : off = ![r0, 0]) (hs : size = ![h, 1024]) :
    (Rect.unit (s := S4096x1024) off size inb).set = band r0 h := by
  subst ho hs
  ext i
  rw [Rect.mem_set_unit, mem_band, Fin.forall_fin_two]
  have h1 : (i 1).val < 1024 := (i 1).isLt
  simp only [Matrix.cons_val_zero, Matrix.cons_val_one, Matrix.head_cons]
  constructor
  · intro h; exact h.1
  · intro h; exact ⟨h, Nat.zero_le _, by omega⟩

theorem agV_set (c : Dev nD) (p : Fin 2) (t : Fin 3) :
    (agV c p t).view.set = band (row (rpos c) p.val (zpos c + 1 + t.val)) 128 := by
  unfold agV
  exact (View.set_slice_whole _ _).trans (rect_band _ _ _ _ _ (off3_eq c p t) rfl)

theorem paV_set (c : Dev nD) (p : Fin 2) (t : Fin 3) :
    (paV c p t).view.set = band (row (rpos c + 4 - t.val) p.val 0) 256 := by
  unfold paV
  exact (View.set_slice_whole _ _).trans (rect_band _ _ _ _ _ (off4_eq c t p) rfl)

theorem pbV_set (c : Dev nD) (p : Fin 2) (t : Fin 3) :
    (pbV c p t).view.set = band (row (rpos c + t.val) p.val 2) 256 := by
  unfold pbV
  exact (View.set_slice_whole _ _).trans (rect_band _ _ _ _ _ (off5_eq c t p) rfl)

theorem srcV_xM_set (c : Dev nD) (p : Fin 2) (s : Fin 3) :
    (srcV xM c p s).view.set = band (row (rpos c) p.val (zpos c + 4 - s.val)) 128 := by
  unfold srcV
  exact (View.set_slice_whole _ _).trans (rect_band _ _ _ _ _ (off1_eq c p s) rfl)

theorem pts_congr {sh : Shape} (c : Dev nD) (v : Memref sig .tc .vmem sh .f32) (q : PosShare TreeShare)
    (f g : Buf (Elt F) (v.view.loc (c : Thread nD τ))) (h : ∀ i ∈ v.view.set, f i = g i) :
    (pts c v q f : sProp 𝕄) = pts c v q g :=
  pointsTo_congr h
theorem pts_view_eq {sh : Shape} (c' : Dev nD) {v v' : Memref sig .tc .vmem sh .f32} (h : v = v') (q : PosShare TreeShare)
    (f : Buf (Elt F) (v.view.loc (c' : Thread nD τ))) (f' : Buf (Elt F) (v'.view.loc (c' : Thread nD τ))) (hf : HEq f f') :
    (pts c' v q f : sProp 𝕄) = pts c' v' q f' := by
  subst h; cases hf; rfl

theorem share_LR {sh : Shape} (c : Dev nD) (v : Memref sig .tc .vmem sh .f32)
    (f : Buf (Elt F) (v.view.loc (c : Thread nD τ))) :
    (pts c v fullShare f : sProp 𝕄) ⊣⊢ iprop(pts c v Lq f ∗ pts c v Rq f) :=
  pointsTo_share (PosShare.mem_left_op_right fullShare)

theorem pointsTo_union_eq {ℓ : Loc nD τ sig} {I J : Finset (Idx ℓ)} (q : PosShare TreeShare) (f : Buf (Elt F) ℓ)
    (h : Disjoint I J) : (ℓ ↦[I ∪ J]{q} f : sProp 𝕄) = iprop((ℓ ↦[I]{q} f) ∗ ℓ ↦[J]{q} f) :=
  BI.equiv_iff.mp ⟨(pointsTo_union h).1, (pointsTo_union h).2⟩

def slab (k0 n : ℕ) : Finset S6x128x1024.Idx := Finset.univ.filter fun i => k0 ≤ (i 0).val ∧ (i 0).val < k0 + n

theorem mem_slab {k0 n : ℕ} {i : S6x128x1024.Idx} : i ∈ slab k0 n ↔ k0 ≤ (i 0).val ∧ (i 0).val < k0 + n := by
  simp [slab]

theorem slab_whole : slab 0 6 = Finset.univ := by
  ext i
  simp only [mem_slab, Finset.mem_univ, iff_true]
  exact ⟨Nat.zero_le _, by have := (i 0).isLt; simpa using this⟩

theorem slab_union (k0 n n' : ℕ) : slab k0 (n + n') = slab k0 n ∪ slab (k0 + n) n' := by
  ext i
  simp only [mem_slab, Finset.mem_union]
  omega

theorem slab_disjoint (k0 n n' : ℕ) : Disjoint (slab k0 n) (slab (k0 + n) n') := by
  rw [Finset.disjoint_left]
  intro i hi hj
  rw [mem_slab] at hi hj
  omega

theorem slotV_set (k : Fin 6) : (slotV k).view.set = slab k.val 1 := by
  unfold slotV
  refine (View.set_reshape _ _).trans ?_
  refine (View.set_slice_whole _ _).trans ?_
  ext i
  rw [Rect.mem_set_unit, mem_slab]
  constructor
  · intro h; exact h 0
  · intro h a
    have h1 : (i 1).val < 128 := (i 1).isLt
    have h2 : (i 2).val < 1024 := (i 2).isLt
    refine Fin.cases ?_ (fun a => Fin.cases ?_ (fun a => Fin.cases ?_ (fun a => a.elim0) a) a) a
    · exact h
    · exact ⟨Nat.zero_le _, by show (i 1).val < 0 + 128; omega⟩
    · exact ⟨Nat.zero_le _, by show (i 2).val < 0 + 1024; omega⟩

abbrev CB (c : Dev nD) (f : Buf (Elt F) (cM.view.loc (c : Thread nD τ))) (k0 n : ℕ) : sProp 𝕄 :=
  cM.view.loc (c : Thread nD τ) ↦[slab k0 n]{fullShare} f

theorem CB_split (c : Dev nD) (f : Buf (Elt F) (cM.view.loc (c : Thread nD τ))) (k0 n n' k1 N : ℕ) (hk : k1 = k0 + n) (hN : N = n + n') :
    CB c f k0 N = iprop(CB c f k0 n ∗ CB c f k1 n') := by
  subst hk hN
  unfold CB
  rw [slab_union]
  exact pointsTo_union_eq _ _ (slab_disjoint _ _ _)

theorem pts_slotV (c : Dev nD) (k : Fin 6) (f : Buf (Elt F) (cM.view.loc (c : Thread nD τ))) :
    (pts c (slotV k) fullShare f : sProp 𝕄) = CB c f k.val 1 := by
  show (cM.view.loc (c : Thread nD τ) ↦[(slotV k).view.set]{fullShare} f : sProp 𝕄) = _
  rw [slotV_set]

theorem comm_parts (c : Dev nD) (f : Buf (Elt F) (cM.view.loc (c : Thread nD τ))) :
    (((c : Thread nD τ).loc cc0_scratch0) ↦{fullShare} f : sProp 𝕄) ⊣⊢ iprop(pts c (slotV 0) fullShare f ∗ pts c (slotV 1) fullShare f
      ∗ pts c (slotV 2) fullShare f ∗ pts c (slotV 3) fullShare f ∗ pts c (slotV 4) fullShare f ∗ pts c (slotV 5) fullShare f) := by
  refine BiEntails.of_eq ?_
  rw [pts_slotV, pts_slotV, pts_slotV, pts_slotV, pts_slotV, pts_slotV]
  show (cM.view.loc (c : Thread nD τ) ↦[Finset.univ]{fullShare} f : sProp 𝕄) = _
  rw [← slab_whole]
  show CB c f 0 6 = iprop(CB c f 0 1 ∗ CB c f 1 1 ∗ CB c f 2 1 ∗ CB c f 3 1 ∗ CB c f 4 1 ∗ CB c f 5 1)
  rw [CB_split c f 0 1 5 1 6 rfl rfl, CB_split c f 1 1 4 2 5 rfl rfl, CB_split c f 2 1 3 3 4 rfl rfl,
    CB_split c f 3 1 2 4 3 rfl rfl, CB_split c f 4 1 1 5 2 rfl rfl]

theorem sep_eq_of {P Q : sProp 𝕄} (h1 : P ⊢ Q) (h2 : Q ⊢ P) : P = Q := BI.equiv_iff.mp ⟨h1, h2⟩

theorem ac_x (A B C D : sProp 𝕄) : iprop((A ∗ (B ∗ C)) ∗ D) = iprop(A ∗ B ∗ (D ∗ C)) := by
  refine sep_eq_of ?_ ?_
  · iintro ⟨⟨HA, HB, HC⟩, HD⟩
    iframe
  · iintro ⟨HA, HB, HD, HC⟩
    iframe

theorem pointsTo_split_eq {ℓ : Loc nD τ sig} {I S : Finset (Idx ℓ)} (q : PosShare TreeShare) (f : Buf (Elt F) ℓ) (h : I ⊆ S) :
    (ℓ ↦[S]{q} f : sProp 𝕄) = iprop((ℓ ↦[I]{q} f) ∗ ℓ ↦[S \ I]{q} f) :=
  sep_eq_of (pointsTo_split_subset h).1 (pointsTo_split_subset h).2

theorem pointsTo_LR_eq {ℓ : Loc nD τ sig} (I : Finset (Idx ℓ)) (f : Buf (Elt F) ℓ) :
    (ℓ ↦[I]{fullShare} f : sProp 𝕄) = iprop((ℓ ↦[I]{Lq} f) ∗ ℓ ↦[I]{Rq} f) :=
  sep_eq_of (pointsTo_share (PosShare.mem_left_op_right fullShare)).1 (pointsTo_share (PosShare.mem_left_op_right fullShare)).2

def xRest (c : Dev nD) (f : Buf (Elt F) (xM.view.loc (c : Thread nD τ))) : sProp 𝕄 :=
  iprop((xM.view.loc (c : Thread nD τ) ↦[Finset.univ]{Rq} f)
    ∗ (xM.view.loc (c : Thread nD τ) ↦[(Finset.univ \ band (row (rpos c) 0 (zpos c + 4)) 128) \ band (row (rpos c) 1 (zpos c + 4)) 128]{Lq} f))

theorem pts_srcV_xM (c : Dev nD) (p : Fin 2) (s : Fin 3) (q : PosShare TreeShare) (f : Buf (Elt F) (xM.view.loc (c : Thread nD τ))) :
    (pts c (srcV xM c p s) q f : sProp 𝕄) = (xM.view.loc (c : Thread nD τ) ↦[band (row (rpos c) p.val (zpos c + 4 - s.val)) 128]{q} f) := by
  show (xM.view.loc (c : Thread nD τ) ↦[(srcV xM c p s).view.set]{q} f : sProp 𝕄) = _
  rw [srcV_xM_set]

theorem x_parts (c : Dev nD) (f : Buf (Elt F) (xM.view.loc (c : Thread nD τ))) :
    (((c : Thread nD τ).loc cc0_stg0_0) ↦{fullShare} f : sProp 𝕄) ⊣⊢
      iprop(pts c (srcV xM c 0 0) Lq f ∗ pts c (srcV xM c 1 0) Lq f ∗ xRest c f) := by
  refine BiEntails.of_eq ?_
  rw [pts_srcV_xM, pts_srcV_xM]
  unfold xRest
  show (xM.view.loc (c : Thread nD τ) ↦[Finset.univ]{fullShare} f : sProp 𝕄) = iprop(
    (xM.view.loc (c : Thread nD τ) ↦[band (row (rpos c) 0 (zpos c + 4)) 128]{Lq} f)
    ∗ (xM.view.loc (c : Thread nD τ) ↦[band (row (rpos c) 1 (zpos c + 4)) 128]{Lq} f)
    ∗ ((xM.view.loc (c : Thread nD τ) ↦[Finset.univ]{Rq} f)
      ∗ (xM.view.loc (c : Thread nD τ) ↦[(Finset.univ \ band (row (rpos c) 0 (zpos c + 4)) 128) \ band (row (rpos c) 1 (zpos c + 4)) 128]{Lq} f)))
  have hsub : band (row (rpos c) 1 (zpos c + 4)) 128 ⊆ Finset.univ \ band (row (rpos c) 0 (zpos c + 4)) 128 := by
    intro i hi
    rw [Finset.mem_sdiff]
    refine ⟨Finset.mem_univ _, fun hj => ?_⟩
    rw [mem_band] at hi hj
    unfold row at hi hj
    omega
  rw [pointsTo_LR_eq Finset.univ f, pointsTo_split_eq Lq f (Finset.subset_univ (band (row (rpos c) 0 (zpos c + 4)) 128)),
    pointsTo_split_eq Lq f hsub]
  exact ac_x _ _ _ _

theorem rpos_zr (c : Dev nD) : rpos (zr c) = rpos c := by revert c; decide
theorem zpos_zr (c : Dev nD) : zpos (zr c) = (zpos c + 1) % 4 := by revert c; decide
theorem rpos_xl (c : Dev nD) : rpos (xl c) = (rpos c + 3) % 4 := by revert c; decide
theorem rpos_xr (c : Dev nD) : rpos (xr c) = (rpos c + 1) % 4 := by revert c; decide

abbrev OB (c : Dev nD) (q : PosShare TreeShare) (f : Buf (Elt F) (oM.view.loc (c : Thread nD τ))) (r0 h : ℕ) : sProp 𝕄 :=
  oM.view.loc (c : Thread nD τ) ↦[band r0 h]{q} f

theorem OB_split (c : Dev nD) (q : PosShare TreeShare) (f : Buf (Elt F) (oM.view.loc (c : Thread nD τ))) (r0 h h' r1 H : ℕ)
    (hr : r1 = r0 + h) (hH : H = h + h') : OB c q f r0 H = iprop(OB c q f r0 h ∗ OB c q f r1 h') := by
  subst hr hH
  unfold OB
  rw [band_union]
  exact pointsTo_union_eq _ _ (band_disjoint _ _ _)

theorem pts_agV (c' c : Dev nD) (p : Fin 2) (t : Fin 3) (pn tn r : ℕ) (hp : p.val = pn) (ht : t.val = tn)
    (hr : row (rpos c) pn (zpos c + 1 + tn) = r) (q : PosShare TreeShare) (f : Buf (Elt F) (oM.view.loc (c' : Thread nD τ))) :
    (pts c' (agV c p t) q f : sProp 𝕄) = OB c' q f r 128 := by
  show (oM.view.loc (c' : Thread nD τ) ↦[(agV c p t).view.set]{q} f : sProp 𝕄) = _
  rw [agV_set, hp, ht, hr]

theorem pts_paV (c' c : Dev nD) (p : Fin 2) (t : Fin 3) (pn tn r : ℕ) (hp : p.val = pn) (ht : t.val = tn)
    (hr : row (rpos c + 4 - tn) pn 0 = r) (q : PosShare TreeShare) (f : Buf (Elt F) (oM.view.loc (c' : Thread nD τ))) :
    (pts c' (paV c p t) q f : sProp 𝕄) = OB c' q f r 256 := by
  show (oM.view.loc (c' : Thread nD τ) ↦[(paV c p t).view.set]{q} f : sProp 𝕄) = _
  rw [paV_set, hp, ht, hr]

theorem pts_pbV (c' c : Dev nD) (p : Fin 2) (t : Fin 3) (pn tn r : ℕ) (hp : p.val = pn) (ht : t.val = tn)
    (hr : row (rpos c + tn) pn 2 = r) (q : PosShare TreeShare) (f : Buf (Elt F) (oM.view.loc (c' : Thread nD τ))) :
    (pts c' (pbV c p t) q f : sProp 𝕄) = OB c' q f r 256 := by
  show (oM.view.loc (c' : Thread nD τ) ↦[(pbV c p t).view.set]{q} f : sProp 𝕄) = _
  rw [pbV_set, hp, ht, hr]

theorem rot4 (G : ℕ → sProp 𝕄) (a : ℕ) :
    iprop(G (a % 4) ∗ G ((a + 1) % 4) ∗ G ((a + 2) % 4) ∗ G ((a + 3) % 4)) = iprop(G 0 ∗ G 1 ∗ G 2 ∗ G 3) := by
  have h : (a % 4 = 0 ∧ (a + 1) % 4 = 1 ∧ (a + 2) % 4 = 2 ∧ (a + 3) % 4 = 3)
      ∨ (a % 4 = 1 ∧ (a + 1) % 4 = 2 ∧ (a + 2) % 4 = 3 ∧ (a + 3) % 4 = 0)
      ∨ (a % 4 = 2 ∧ (a + 1) % 4 = 3 ∧ (a + 2) % 4 = 0 ∧ (a + 3) % 4 = 1)
      ∨ (a % 4 = 3 ∧ (a + 1) % 4 = 0 ∧ (a + 2) % 4 = 1 ∧ (a + 3) % 4 = 2) := by omega
  rcases h with ⟨h0, h1, h2, h3⟩ | ⟨h0, h1, h2, h3⟩ | ⟨h0, h1, h2, h3⟩ | ⟨h0, h1, h2, h3⟩
  · rw [h0, h1, h2, h3]
  · rw [h0, h1, h2, h3]
    refine sep_eq_of ?_ ?_
    · iintro ⟨H1, H2, H3, H0⟩
      iframe
    · iintro ⟨H0, H1, H2, H3⟩
      iframe
  · rw [h0, h1, h2, h3]
    refine sep_eq_of ?_ ?_
    · iintro ⟨H2, H3, H0, H1⟩
      iframe
    · iintro ⟨H0, H1, H2, H3⟩
      iframe
  · rw [h0, h1, h2, h3]
    refine sep_eq_of ?_ ?_
    · iintro ⟨H3, H0, H1, H2⟩
      iframe
    · iintro ⟨H0, H1, H2, H3⟩
      iframe

theorem half_rot (c : Dev nD) (q : PosShare TreeShare) (f : Buf (Elt F) (oM.view.loc (c : Thread nD τ))) (b z : ℕ) :
    OB c q f b 512 = iprop(OB c q f (b + 128 * ((z + 1) % 4)) 128 ∗ OB c q f (b + 128 * ((z + 1 + 1) % 4)) 128
      ∗ OB c q f (b + 128 * ((z + 1 + 2) % 4)) 128 ∗ OB c q f (b + 128 * ((z + 1 + 3) % 4)) 128) := by
  have hrot := rot4 (fun k => OB c q f (b + 128 * k) 128) (z + 1)
  simp only [Nat.mul_zero, Nat.add_zero] at hrot
  rw [hrot, OB_split c q f b 128 384 (b + 128 * 1) 512 (by omega) rfl,
    OB_split c q f (b + 128 * 1) 128 256 (b + 128 * 2) 384 (by omega) rfl,
    OB_split c q f (b + 128 * 2) 128 128 (b + 128 * 3) 256 (by omega) rfl]

theorem subq_join (c : Dev nD) (p : Fin 2) (q : PosShare TreeShare) (f : Buf (Elt F) (oM.view.loc (c : Thread nD τ))) :
    iprop(pts c (agV c p 0) q f ∗ pts c (agV c p 1) q f ∗ pts c (agV c p 2) q f ∗ pts c (agV (zr c) p 2) q f)
      ⊣⊢ iprop(pts c (paV c p 0) q f ∗ pts c (pbV c p 0) q f) := by
  refine BiEntails.of_eq ?_
  rw [pts_agV c c p 0 p.val 0 (1024 * (rpos c % 4) + 512 * p.val + 128 * ((zpos c + 1) % 4)) rfl rfl (by unfold row; omega) q f,
    pts_agV c c p 1 p.val 1 (1024 * (rpos c % 4) + 512 * p.val + 128 * ((zpos c + 1 + 1) % 4)) rfl rfl (by unfold row; omega) q f,
    pts_agV c c p 2 p.val 2 (1024 * (rpos c % 4) + 512 * p.val + 128 * ((zpos c + 1 + 2) % 4)) rfl rfl (by unfold row; omega) q f,
    pts_agV c (zr c) p 2 p.val 2 (1024 * (rpos c % 4) + 512 * p.val + 128 * ((zpos c + 1 + 3) % 4)) rfl rfl
      (by rw [rpos_zr, zpos_zr]; unfold row; omega) q f,
    pts_paV c c p 0 p.val 0 (1024 * (rpos c % 4) + 512 * p.val) rfl rfl (by unfold row; omega) q f,
    pts_pbV c c p 0 p.val 0 (1024 * (rpos c % 4) + 512 * p.val + 256) rfl rfl (by unfold row; omega) q f,
    ← half_rot c q f (1024 * (rpos c % 4) + 512 * p.val) (zpos c),
    OB_split c q f (1024 * (rpos c % 4) + 512 * p.val) 256 256 (1024 * (rpos c % 4) + 512 * p.val + 256) 512 rfl rfl]

theorem quarter_other (c : Dev nD) (q : PosShare TreeShare) (f : Buf (Elt F) (oM.view.loc (c : Thread nD τ))) (x : ℕ) :
    OB c q f (1024 * x) 1024 = iprop((OB c q f (1024 * x) 256 ∗ OB c q f (1024 * x + 256) 256)
      ∗ (OB c q f (1024 * x + 512) 256 ∗ OB c q f (1024 * x + 768) 256)) := by
  rw [OB_split c q f (1024 * x) 512 512 (1024 * x + 512) 1024 rfl rfl,
    OB_split c q f (1024 * x) 256 256 (1024 * x + 256) 512 rfl rfl,
    OB_split c q f (1024 * x + 512) 256 256 (1024 * x + 768) 512 (by omega) rfl]

theorem quarter_own (c : Dev nD) (q : PosShare TreeShare) (f : Buf (Elt F) (oM.view.loc (c : Thread nD τ))) (x z : ℕ) :
    OB c q f (1024 * x) 1024 = iprop(
      (OB c q f (1024 * x + 128 * ((z + 1) % 4)) 128 ∗ OB c q f (1024 * x + 128 * ((z + 1 + 1) % 4)) 128
        ∗ OB c q f (1024 * x + 128 * ((z + 1 + 2) % 4)) 128 ∗ OB c q f (1024 * x + 128 * ((z + 1 + 3) % 4)) 128)
      ∗ (OB c q f (1024 * x + 512 + 128 * ((z + 1) % 4)) 128 ∗ OB c q f (1024 * x + 512 + 128 * ((z + 1 + 1) % 4)) 128
        ∗ OB c q f (1024 * x + 512 + 128 * ((z + 1 + 2) % 4)) 128 ∗ OB c q f (1024 * x + 512 + 128 * ((z + 1 + 3) % 4)) 128)) := by
  rw [OB_split c q f (1024 * x) 512 512 (1024 * x + 512) 1024 rfl rfl, half_rot c q f (1024 * x) z,
    half_rot c q f (1024 * x + 512) z]

theorem out_quarters (c : Dev nD) (q : PosShare TreeShare) (f : Buf (Elt F) (oM.view.loc (c : Thread nD τ))) (a : ℕ) :
    (oM.view.loc (c : Thread nD τ) ↦[Finset.univ]{q} f : sProp 𝕄) = iprop(OB c q f (1024 * (a % 4)) 1024
      ∗ OB c q f (1024 * ((a + 1) % 4)) 1024 ∗ OB c q f (1024 * ((a + 2) % 4)) 1024 ∗ OB c q f (1024 * ((a + 3) % 4)) 1024) := by
  have hrot := rot4 (fun x => OB c q f (1024 * x) 1024) a
  simp only [Nat.mul_zero] at hrot
  rw [hrot, ← band_whole]
  show OB c q f 0 4096 = _
  rw [OB_split c q f 0 1024 3072 (1024 * 1) 4096 (by omega) rfl,
    OB_split c q f (1024 * 1) 1024 2048 (1024 * 2) 3072 (by omega) rfl,
    OB_split c q f (1024 * 2) 1024 1024 (1024 * 3) 2048 (by omega) rfl]

theorem ac20 (g0 g1 g2 g3 g4 g5 g6 g7 P1 L1 Q1 M1 P2 L2 Q2 M2 P3 L3 Q3 M3 : sProp 𝕄) :
    iprop(((g0 ∗ g1 ∗ g2 ∗ g3) ∗ (g4 ∗ g5 ∗ g6 ∗ g7)) ∗ ((P1 ∗ L1) ∗ (Q1 ∗ M1)) ∗ ((P2 ∗ L2) ∗ (Q2 ∗ M2)) ∗ ((P3 ∗ L3) ∗ (Q3 ∗ M3)))
      = iprop((g0 ∗ g1 ∗ g2 ∗ g3 ∗ g4 ∗ g5 ∗ g6 ∗ g7) ∗ (P3 ∗ P2 ∗ P1 ∗ Q3 ∗ Q2 ∗ Q1) ∗ (L1 ∗ L2 ∗ L3 ∗ M1 ∗ M2 ∗ M3)) := by
  refine sep_eq_of ?_ ?_
  · iintro ⟨⟨⟨h0, h1, h2, h3⟩, h4, h5, h6, h7⟩, ⟨⟨p1, l1⟩, q1, m1⟩, ⟨⟨p2, l2⟩, q2, m2⟩, ⟨p3, l3⟩, q3, m3⟩
    iframe
  · iintro ⟨⟨h0, h1, h2, h3, h4, h5, h6, h7⟩, ⟨p3, p2, p1, q3, q2, q1⟩, l1, l2, l3, m1, m2, m3⟩
    iframe

theorem out_parts (c : Dev nD) (q : PosShare TreeShare) (f : Buf (Elt F) (oM.view.loc (c : Thread nD τ))) :
    (((c : Thread nD τ).loc cc0_stg1_0) ↦{q} f : sProp 𝕄) ⊣⊢ iprop(
      (pts c (agV c 0 0) q f ∗ pts c (agV c 0 1) q f ∗ pts c (agV c 0 2) q f ∗ pts c (agV (zr c) 0 2) q f
        ∗ pts c (agV c 1 0) q f ∗ pts c (agV c 1 1) q f ∗ pts c (agV c 1 2) q f ∗ pts c (agV (zr c) 1 2) q f)
      ∗ (pts c (paV (xl c) 0 0) q f ∗ pts c (paV (xl c) 0 1) q f ∗ pts c (paV (xl c) 0 2) q f
        ∗ pts c (paV (xl c) 1 0) q f ∗ pts c (paV (xl c) 1 1) q f ∗ pts c (paV (xl c) 1 2) q f)
      ∗ (pts c (pbV (xr c) 0 0) q f ∗ pts c (pbV (xr c) 0 1) q f ∗ pts c (pbV (xr c) 0 2) q f
        ∗ pts c (pbV (xr c) 1 0) q f ∗ pts c (pbV (xr c) 1 1) q f ∗ pts c (pbV (xr c) 1 2) q f)) := by
  refine BiEntails.of_eq ?_
  rw [pts_agV c c 0 0 0 0 (1024 * (rpos c % 4) + 128 * ((zpos c + 1) % 4)) rfl rfl (by unfold row; omega) q f,
    pts_agV c c 0 1 0 1 (1024 * (rpos c % 4) + 128 * ((zpos c + 1 + 1) % 4)) rfl rfl (by unfold row; omega) q f,
    pts_agV c c 0 2 0 2 (1024 * (rpos c % 4) + 128 * ((zpos c + 1 + 2) % 4)) rfl rfl (by unfold row; omega) q f,
    pts_agV c (zr c) 0 2 0 2 (1024 * (rpos c % 4) + 128 * ((zpos c + 1 + 3) % 4)) rfl rfl (by rw [rpos_zr, zpos_zr]; unfold row; omega) q f,
    pts_agV c c 1 0 1 0 (1024 * (rpos c % 4) + 512 + 128 * ((zpos c + 1) % 4)) rfl rfl (by unfold row; omega) q f,
    pts_agV c c 1 1 1 1 (1024 * (rpos c % 4) + 512 + 128 * ((zpos c + 1 + 1) % 4)) rfl rfl (by unfold row; omega) q f,
    pts_agV c c 1 2 1 2 (1024 * (rpos c % 4) + 512 + 128 * ((zpos c + 1 + 2) % 4)) rfl rfl (by unfold row; omega) q f,
    pts_agV c (zr c) 1 2 1 2 (1024 * (rpos c % 4) + 512 + 128 * ((zpos c + 1 + 3) % 4)) rfl rfl (by rw [rpos_zr, zpos_zr]; unfold row; omega) q f,
    pts_paV c (xl c) 0 0 0 0 (1024 * ((rpos c + 3) % 4)) rfl rfl (by rw [rpos_xl]; unfold row; omega) q f,
    pts_paV c (xl c) 0 1 0 1 (1024 * ((rpos c + 2) % 4)) rfl rfl (by rw [rpos_xl]; unfold row; omega) q f,
    pts_paV c (xl c) 0 2 0 2 (1024 * ((rpos c + 1) % 4)) rfl rfl (by rw [rpos_xl]; unfold row; omega) q f,
    pts_paV c (xl c) 1 0 1 0 (1024 * ((rpos c + 3) % 4) + 512) rfl rfl (by rw [rpos_xl]; unfold row; omega) q f,
    pts_paV c (xl c) 1 1 1 1 (1024 * ((rpos c + 2) % 4) + 512) rfl rfl (by rw [rpos_xl]; unfold row; omega) q f,
    pts_paV c (xl c) 1 2 1 2 (1024 * ((rpos c + 1) % 4) + 512) rfl rfl (by rw [rpos_xl]; unfold row; omega) q f,
    pts_pbV c (xr c) 0 0 0 0 (1024 * ((rpos c + 1) % 4) + 256) rfl rfl (by rw [rpos_xr]; unfold row; omega) q f,
    pts_pbV c (xr c) 0 1 0 1 (1024 * ((rpos c + 2) % 4) + 256) rfl rfl (by rw [rpos_xr]; unfold row; omega) q f,
    pts_pbV c (xr c) 0 2 0 2 (1024 * ((rpos c + 3) % 4) + 256) rfl rfl (by rw [rpos_xr]; unfold row; omega) q f,
    pts_pbV c (xr c) 1 0 1 0 (1024 * ((rpos c + 1) % 4) + 768) rfl rfl (by rw [rpos_xr]; unfold row; omega) q f,
    pts_pbV c (xr c) 1 1 1 1 (1024 * ((rpos c + 2) % 4) + 768) rfl rfl (by rw [rpos_xr]; unfold row; omega) q f,
    pts_pbV c (xr c) 1 2 1 2 (1024 * ((rpos c + 3) % 4) + 768) rfl rfl (by rw [rpos_xr]; unfold row; omega) q f]
  show (oM.view.loc (c : Thread nD τ) ↦[Finset.univ]{q} f : sProp 𝕄) = _
  rw [out_quarters c q f (rpos c), quarter_own c q f (rpos c % 4) (zpos c), quarter_other c q f ((rpos c + 1) % 4),
    quarter_other c q f ((rpos c + 2) % 4), quarter_other c q f ((rpos c + 3) % 4)]
  exact ac20 _ _ _ _ _ _ _ _ _ _ _ _ _ _ _ _ _ _ _ _

def slotsJoin (c : Dev nD) (fs : Fin 6 → Buf (Elt F) (cM.view.loc (c : Thread nD τ))) : Buf (Elt F) (cM.view.loc (c : Thread nD τ)) :=
  fun (i : S6x128x1024.Idx) => fs (i 0) i

theorem pts_slot_join (c : Dev nD) (fs : Fin 6 → Buf (Elt F) (cM.view.loc (c : Thread nD τ))) (k : Fin 6) :
    (pts c (slotV k) fullShare (fs k) : sProp 𝕄) = pts c (slotV k) fullShare (slotsJoin c fs) :=
  pts_congr c (slotV k) fullShare (fs k) (slotsJoin c fs) (fun (i : S6x128x1024.Idx) hi => by
    have hi' : i ∈ slab k.val 1 := by
      rw [slotV_set] at hi
      exact hi
    have h : (i 0).val = k.val := by
      have h2 := mem_slab.mp hi'
      omega
    have h' : i 0 = k := Fin.ext h
    show fs k i = fs (i 0) i
    rw [h'])

theorem comm_join (c : Dev nD) (f0 f1 f2 f3 f4 f5 : Buf (Elt F) (cM.view.loc (c : Thread nD τ))) :
    iprop(pts c (slotV 0) fullShare f0 ∗ pts c (slotV 1) fullShare f1 ∗ pts c (slotV 2) fullShare f2
      ∗ pts c (slotV 3) fullShare f3 ∗ pts c (slotV 4) fullShare f4 ∗ pts c (slotV 5) fullShare f5)
      ⊢ iprop(∃ f : Buf (Elt F) (cM.view.loc (c : Thread nD τ)), pts c cM fullShare f) := by
  have e0 : (pts c (slotV 0) fullShare f0 : sProp 𝕄) = pts c (slotV 0) fullShare (slotsJoin c ![f0, f1, f2, f3, f4, f5]) :=
    pts_slot_join c ![f0, f1, f2, f3, f4, f5] 0
  have e1 : (pts c (slotV 1) fullShare f1 : sProp 𝕄) = pts c (slotV 1) fullShare (slotsJoin c ![f0, f1, f2, f3, f4, f5]) :=
    pts_slot_join c ![f0, f1, f2, f3, f4, f5] 1
  have e2 : (pts c (slotV 2) fullShare f2 : sProp 𝕄) = pts c (slotV 2) fullShare (slotsJoin c ![f0, f1, f2, f3, f4, f5]) :=
    pts_slot_join c ![f0, f1, f2, f3, f4, f5] 2
  have e3 : (pts c (slotV 3) fullShare f3 : sProp 𝕄) = pts c (slotV 3) fullShare (slotsJoin c ![f0, f1, f2, f3, f4, f5]) :=
    pts_slot_join c ![f0, f1, f2, f3, f4, f5] 3
  have e4 : (pts c (slotV 4) fullShare f4 : sProp 𝕄) = pts c (slotV 4) fullShare (slotsJoin c ![f0, f1, f2, f3, f4, f5]) :=
    pts_slot_join c ![f0, f1, f2, f3, f4, f5] 4
  have e5 : (pts c (slotV 5) fullShare f5 : sProp 𝕄) = pts c (slotV 5) fullShare (slotsJoin c ![f0, f1, f2, f3, f4, f5]) :=
    pts_slot_join c ![f0, f1, f2, f3, f4, f5] 5
  have hset : (cM : Memref sig .tc .vmem S6x128x1024 .f32).view.set = Finset.univ := View.set_whole _
  have hw : (pts c cM fullShare (slotsJoin c ![f0, f1, f2, f3, f4, f5]) : sProp 𝕄)
      = (((c : Thread nD τ).loc cc0_scratch0) ↦{fullShare} slotsJoin c ![f0, f1, f2, f3, f4, f5]) := by
    show (cM.view.loc (c : Thread nD τ) ↦[cM.view.set]{fullShare} slotsJoin c ![f0, f1, f2, f3, f4, f5] : sProp 𝕄) = _
    rw [hset]
  rw [e0, e1, e2, e3, e4, e5]
  refine ((comm_parts c (slotsJoin c ![f0, f1, f2, f3, f4, f5])).2.trans (Entails.of_eq hw.symm)).trans ?_
  iintro H
  iexists (slotsJoin c ![f0, f1, f2, f3, f4, f5])
  iexact H

end Cert.KernelIdeal.AR

end
-- ==== Proof.Body.lean ====
import proofs.«900720_g7700000000000721_dist_ar_v7x_xyz2x2x4_z_m4096_n1024_f32_1_alg».proof.Proof.Steps
import proofs.«900720_g7700000000000721_dist_ar_v7x_xyz2x2x4_z_m4096_n1024_f32_1_alg».proof.Proof.Levels
import proofs.«900720_g7700000000000721_dist_ar_v7x_xyz2x2x4_z_m4096_n1024_f32_1_alg».proof.Proof.Views
import proofs.«900720_g7700000000000721_dist_ar_v7x_xyz2x2x4_z_m4096_n1024_f32_1_alg».proof.Proof.Parts

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Body0

omit [FloatOps F] in
theorem pts_cM (c : Dev nD) (f : Buf (Elt F) (cM.view.loc (c : Thread nD τ))) :
    (pts c cM fullShare f : sProp 𝕄) = (((c : Thread nD τ).loc cc0_scratch0) ↦{fullShare} f) := by
  show (cM.view.loc (c : Thread nD τ) ↦[cM.view.set]{fullShare} f : sProp 𝕄) = _
  rw [show cM.view.set = Finset.univ from View.set_whole _]

end Body0
open Body0

def Pre0 (K : GSem nD τ sig → ℕ) (c : Dev nD) (xr_ : sProp 𝕄) : sProp 𝕄 :=
  iprop(records m ρ K ∗ levAts L lv ∗ toksFrom c 0 ∗ recvTodo c 0 ∗ recvDone c 0 ∗ sendTodo c ∗ sendCred c 0
    ∗ (∃ W, owes (c : Thread nD τ) (O₀ c) W)
    ∗ (atPos ER (barCell c) 0 ∅ 0 ∗ cred (tallyAt (barCell c) () 4))
    ∗ (dutyTok ER (barCell (zl c)) 0 0 ∗ dutyTok ER (barCell (zr c)) 0 1 ∗ dutyTok ER (barCell (xl c)) 0 2 ∗ dutyTok ER (barCell (xr c)) 0 3)
    ∗ (pts c (srcV xM c 0 0) Lq (X m ρ c) ∗ pts c (srcV xM c 1 0) Lq (X m ρ c) ∗ xr_)
    ∗ (∃ g : Buf (Elt F) (oM.view.loc (c : Thread nD τ)),
        (pts c (agV c 0 0) fullShare g ∗ pts c (agV c 0 1) fullShare g ∗ pts c (agV c 0 2) fullShare g ∗ pts c (agV (zr c) 0 2) fullShare g
          ∗ pts c (agV c 1 0) fullShare g ∗ pts c (agV c 1 1) fullShare g ∗ pts c (agV c 1 2) fullShare g ∗ pts c (agV (zr c) 1 2) fullShare g)
        ∗ (pts c (paV (xl c) 0 0) fullShare g ∗ pts c (paV (xl c) 0 1) fullShare g ∗ pts c (paV (xl c) 0 2) fullShare g
          ∗ pts c (paV (xl c) 1 0) fullShare g ∗ pts c (paV (xl c) 1 1) fullShare g ∗ pts c (paV (xl c) 1 2) fullShare g)
        ∗ (pts c (pbV (xr c) 0 0) fullShare g ∗ pts c (pbV (xr c) 0 1) fullShare g ∗ pts c (pbV (xr c) 0 2) fullShare g
          ∗ pts c (pbV (xr c) 1 0) fullShare g ∗ pts c (pbV (xr c) 1 1) fullShare g ∗ pts c (pbV (xr c) 1 2) fullShare g))
    ∗ (∃ f : Buf (Elt F) (cM.view.loc (c : Thread nD τ)), pts c (slotV 0) fullShare f ∗ pts c (slotV 1) fullShare f ∗ pts c (slotV 2) fullShare f
        ∗ pts c (slotV 3) fullShare f ∗ pts c (slotV 4) fullShare f ∗ pts c (slotV 5) fullShare f))

theorem part1_spec (c : Dev nD)
    (Kt : (Σ' (d0 : Dev nD) (v2 : BitVec 32) (v5 : BitVec 32) (v8 : BitVec 32) (v19 : BitVec 32) (v30 : BitVec 32) (v33 : BitVec 32) (v34 : BitVec 32), BitVec 32) → sProp 𝕄) :
    iprop(∀ r, ⌜r.1 = c⌝ -∗ Kt r) ⊢ wp frame (wpE (defs₀ (F := F)) 𝒱₀ (c : Thread nD τ) none) Set.univ
      (k0_part1 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6) Kt := by
  rw [k0_part1_eq_skeleton]; unfold k0_part1_skel
  simp only [Prog.lift, Prog.bind_op, Prog.bind_ret, Prog.pure_eq_ret, wp_deviceId, wp_ret]
  iintro H
  imodintro
  iapply H
  ipureintro; rfl

theorem part2_spec (c : Dev nD) (v33 v34 c4 : BitVec 32)
    (Kt : (Σ' (v46 : BitVec 32) (v50 : BitVec 32) (v63 : BitVec 32) (v67 : BitVec 32), Sems sig S_) → sProp 𝕄) :
    iprop(∀ r, ⌜r.2.2.2.2 = SemArray.scalar (sig.barrier 0 rfl)⌝ -∗ Kt r) ⊢ wp frame (wpE (defs₀ (F := F)) 𝒱₀ (c : Thread nD τ) none) Set.univ
      (k0_part2 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 v33 v34 c4) Kt := by
  rw [k0_part2_eq_skeleton]; unfold k0_part2_skel
  simp only [Prog.lift, Prog.bind_op, Prog.bind_ret, Prog.pure_eq_ret, wp_ret]
  iintro H
  imodintro
  iapply H
  ipureintro; rfl

theorem part3_spec (K : GSem nD τ sig → ℕ) (c : Dev nD) (xr_ : sProp 𝕄) (v2 v5 v8 v19 v30 v33 v46 v50 v63 v67 : BitVec 32)
    (Kt : (Σ' (v94 : BitVec 32) (v95 : BitVec 32) (c4_i32_67 : BitVec 32), BitVec 1) → sProp 𝕄) :
    iprop(Pre0 m ρ K c xr_ ∗ (∀ r, St1 m ρ K c xr_ -∗ Kt r)) ⊢ wp frame (wpE (defs₀ (F := F)) 𝒱₀ (c : Thread nD τ) none) Set.univ
      (k0_part3 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 c v2 v5 v8 v19 v30 v33 v46 v50 v63 v67 (SemArray.scalar (sig.barrier 0 rfl))) Kt := by
  rw [k0_part3_eq_skeleton]; unfold k0_part3_skel
  simp only [semSignalWord, semWaitWord, Prog.lift, Prog.bind_op, Prog.bind_ret, Prog.pure_eq_ret, bar_sem]
  simp only [dev1_eq c, dev2_eq c, dev3_eq c, dev4_eq c]
  unfold Pre0
  iintro ⟨⟨#HR, #Hlev, Htk, Hrt, Hrd, Hst, Hsc, ⟨%W, HO⟩, ⟨HatB, HcB⟩, ⟨Ht1, Ht2, Ht3, Ht4⟩, ⟨Hx0, Hx1, Hxr⟩, ⟨%g, ⟨Ha00, Ha01, Ha02, Hz0, Ha10, Ha11, Ha12, Hz1⟩, Hpa, Hpb⟩, ⟨%f, Hslots⟩⟩, Hk⟩
  unfold O₀

  iapply (Rounds.wp_signal 𝒱₀ ER (Rd m ρ) (c : Thread nD τ) none (dst := (zl c : Thread nD τ)) (κ := K (barCell (zl c))) (d := 0)
      (by rw [duties_bar]; exact Finset.mem_univ _) ((amount_bar m ρ (zl c) 0).trans (by decide)) ()
      (Orem c 24 + tallyAt (barCell (xr c)) () 1 + tallyAt (barCell (xl c)) () 1 + tallyAt (barCell (zr c)) () 1) rfl) $$ [HO Ht1 Hslots]
  · isplitr; · iapply (inv_bar m ρ K (zl c)); iexact HR
    isplitl [HO]; · iexact HO
    isplitl [Ht1]; · iexact Ht1
    isplitl [Hslots]
    · rw [payload_bar, show barPay (F := F) (zl c) 0 = lendSlots (zr (zl c)) from rfl, zr_zl]; unfold lendSlots; iexists f; iexact Hslots
    · iapply (reached_bar m ρ K (zl c)); iexact HR
  iintro HO

  iapply (Rounds.wp_signal 𝒱₀ ER (Rd m ρ) (c : Thread nD τ) none (dst := (zr c : Thread nD τ)) (κ := K (barCell (zr c))) (d := 1)
      (by rw [duties_bar]; exact Finset.mem_univ _) ((amount_bar m ρ (zr c) 1).trans (by decide)) ()
      (Orem c 24 + tallyAt (barCell (xr c)) () 1 + tallyAt (barCell (xl c)) () 1) rfl) $$ [HO Ht2 Hz0 Hz1]
  · isplitr; · iapply (inv_bar m ρ K (zr c)); iexact HR
    isplitl [HO]; · iexact HO
    isplitl [Ht2]; · iexact Ht2
    isplitl [Hz0 Hz1]
    · rw [payload_bar, show barPay (F := F) (zr c) 1 = lendAg (zr c) from rfl]; unfold lendAg; rw [zl_zr]; iexists g; isplitl [Hz0] <;> iassumption
    · iapply (reached_bar m ρ K (zr c)); iexact HR
  iintro HO

  iapply (Rounds.wp_signal 𝒱₀ ER (Rd m ρ) (c : Thread nD τ) none (dst := (xl c : Thread nD τ)) (κ := K (barCell (xl c))) (d := 2)
      (by rw [duties_bar]; exact Finset.mem_univ _) ((amount_bar m ρ (xl c) 2).trans (by decide)) ()
      (Orem c 24 + tallyAt (barCell (xr c)) () 1) rfl) $$ [HO Ht3 Hpa]
  · isplitr; · iapply (inv_bar m ρ K (xl c)); iexact HR
    isplitl [HO]; · iexact HO
    isplitl [Ht3]; · iexact Ht3
    isplitl [Hpa]
    · rw [payload_bar, show barPay (F := F) (xl c) 2 = lendPa (xl c) from rfl]; unfold lendPa; rw [xr_xl]; iexists g; iexact Hpa
    · iapply (reached_bar m ρ K (xl c)); iexact HR
  iintro HO

  iapply (Rounds.wp_signal 𝒱₀ ER (Rd m ρ) (c : Thread nD τ) none (dst := (xr c : Thread nD τ)) (κ := K (barCell (xr c))) (d := 3)
      (by rw [duties_bar]; exact Finset.mem_univ _) ((amount_bar m ρ (xr c) 3).trans (by decide)) ()
      (Orem c 24) rfl) $$ [HO Ht4 Hpb]
  · isplitr; · iapply (inv_bar m ρ K (xr c)); iexact HR
    isplitl [HO]; · iexact HO
    isplitl [Ht4]; · iexact Ht4
    isplitl [Hpb]
    · rw [payload_bar, show barPay (F := F) (xr c) 3 = lendPb (xr c) from rfl]; unfold lendPb; rw [xl_xr]; iexists g; iexact Hpb
    · iapply (reached_bar m ρ K (xr c)); iexact HR
  iintro HO

  iapply (Rounds.wp_wait_rest_token 𝒱₀ ER (Rd m ρ) (c : Thread nD τ) none (κ := K (barCell c))
      (wpE_semWait_eq 𝒱₀ (c : Thread nD τ) none Set.univ) (Set.mem_univ _) () (O := Orem c 24) (W := W) (R := 0) (m := 0) (T := ∅)
      (by rw [expect_bar]; decide)) $$ [HcB HO HatB]
  · isplitr; · iapply (inv_bar m ρ K c); iexact HR
    isplitl [HcB]; · iexact HcB
    isplitl [HO]; · iexact HO
    isplitr; · iapply (mayWait_bar c); iexact Hlev
    iexact HatB
  iintro ⟨HO, -, -, Hpay⟩
  ihave Hp := (Entails.of_eq (rest_bar m ρ c)) $$ Hpay
  unfold lendSlots lendAg lendPa lendPb
  icases Hp with ⟨⟨%f1, Hs0, Hs1, Hs2, Hs3, Hs4, Hs5⟩, ⟨%f2, Hg0, Hg1⟩, ⟨%f3, Hq0, Hq1, Hq2, Hq3, Hq4, Hq5⟩, ⟨%f4, Hr0, Hr1, Hr2, Hr3, Hr4, Hr5⟩⟩
  rw [wp_ret]; imodintro
  iapply Hk
  unfold St1 ghostAt
  simp only [borPa_cons, borPa_one, borPb_cons, borPb_one]
  unfold bor
  isplitl [Htk Hrt Hrd Hst Hsc HO]
  · isplitr; · iexact HR
    isplitr; · iexact Hlev
    isplitl [Htk]; · iexact Htk
    isplitl [Hrt]; · iexact Hrt
    isplitl [Hrd]; · iexact Hrd
    isplitl [Hst]; · iexact Hst
    isplitl [Hsc]; · iexact Hsc
    iexists _; iexact HO
  isplitl [Hx0]; · iexact Hx0
  isplitl [Hx1]; · iexact Hx1
  isplitl [Hxr]; · iexact Hxr
  isplitl [Ha00 Ha01 Ha02 Ha10 Ha11 Ha12]
  · iexists g
    isplitl [Ha00]; · iexact Ha00
    isplitl [Ha01]; · iexact Ha01
    isplitl [Ha02]; · iexact Ha02
    isplitl [Ha10]; · iexact Ha10
    isplitl [Ha11]; · iexact Ha11
    iexact Ha12
  isplitl [Hs0 Hs1 Hs2 Hs3 Hs4 Hs5]
  · isplitl [Hs0]; · iexists f1; iexact Hs0
    isplitl [Hs1]; · iexists f1; iexact Hs1
    isplitl [Hs2]; · iexists f1; iexact Hs2
    isplitl [Hs3]; · iexists f1; iexact Hs3
    isplitl [Hs4]; · iexists f1; iexact Hs4
    iexists f1; iexact Hs5
  isplitl [Hg0]; · iexists f2; iexact Hg0
  isplitl [Hg1]; · iexists f2; iexact Hg1
  isplitl [Hq0 Hq1 Hq2 Hq3 Hq4 Hq5]
  · isplitl [Hq0]; · iexists f3; iexact Hq0
    isplitl [Hq1]; · iexists f3; iexact Hq1
    isplitl [Hq2]; · iexists f3; iexact Hq2
    isplitl [Hq3]; · iexists f3; iexact Hq3
    isplitl [Hq4]; · iexists f3; iexact Hq4
    iexists f3; iexact Hq5
  isplitl [Hr0]; · iexists f4; iexact Hr0
  isplitl [Hr1]; · iexists f4; iexact Hr1
  isplitl [Hr2]; · iexists f4; iexact Hr2
  isplitl [Hr3]; · iexists f4; iexact Hr3
  isplitl [Hr4]; · iexists f4; iexact Hr4
  iexists f4; iexact Hr5

def xRest2 (c : Dev nD) : sProp 𝕄 :=
  (xM.view.loc (c : Thread nD τ) ↦[(Finset.univ \ band (row (rpos c) 0 (zpos c + 4)) 128) \ band (row (rpos c) 1 (zpos c + 4)) 128]{Lq} X m ρ c)
theorem xRest_eq (c : Dev nD) : xRest c (X m ρ c) = iprop((xM.view.loc (c : Thread nD τ) ↦[Finset.univ]{Rq} X m ρ c) ∗ xRest2 m ρ c) := rfl

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (Xc : b.ty.Contents (Elt F)) :
    (owns (Ix := Unit) (Name := ℕ) (U := UU) (Lvl := ℕ) (c : Thread nD τ) (Memref.whole b) fullShare Xc : sProp 𝕄)
      = iprop(∃ f : Buf (Elt F) (((c : Dev nD) : Thread nD τ).loc b), ⌜f = Xc⌝ ∗ (((c : Thread nD τ).loc b) ↦{fullShare} f)) := by
  unfold owns; simp only [Memref.view_whole, View.read_whole, View.set_whole]

abbrev stg (c : Dev nD) (b : Ref sig .tc) (Xc : b.ty.Contents (Elt F)) : sProp 𝕄 :=
  iprop(∃ f : Buf (Elt F) (((c : Dev nD) : Thread nD τ).loc b), ⌜f = Xc⌝ ∗ (((c : Thread nD τ).loc b) ↦{fullShare} f))

def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (X m ρ c) ∗ stg c cc0_stg1_0 (Fn m ρ))

namespace Body0
omit [FloatOps F] in
theorem bigSep_bool (Φ : Bool → sProp 𝕄) : bigSep Finset.univ Φ = iprop(Φ false ∗ Φ true) := by
  rw [bigSep_univ_eq_bigSepL [false, true] (by decide) (by decide), bigSepL_cons_cons, bigSepL_singleton]; rfl

omit [FloatOps F] in
theorem positions_split (c : Dev nD) :
    (bigSep Finset.univ fun jb : Fin 24 × Bool => (atPos ER (dcell c jb) 0 ∅ 0 : sProp 𝕄))
      = iprop((bigSep Finset.univ fun j : Fin 24 => atPos ER (sendCell c j) 0 ∅ 0) ∗ (bigSep Finset.univ fun j : Fin 24 => atPos ER (recvCell c j) 0 ∅ 0)) := by
  rw [bigSep_univ_prod, bigSep_congr (s := Finset.univ) (fun (j : Fin 24) _ => bigSep_bool (fun b => (atPos ER (dcell c (j, b)) 0 ∅ 0 : sProp 𝕄))), bigSep_sep']
  rfl

omit [FloatOps F] in
theorem filter_all : (Finset.univ.filter fun j : Fin 24 => 0 ≤ j.val) = Finset.univ := Finset.filter_true_of_mem fun _ _ => Nat.zero_le _
omit [FloatOps F] in
theorem filter_none : (Finset.univ.filter fun j : Fin 24 => j.val < 0) = ∅ := Finset.filter_false_of_mem fun _ _ => Nat.not_lt_zero _

omit [FloatOps F] in
theorem toksFrom_zero (c : Dev nD) : toksFrom (F := F) c 0 = bigSep Finset.univ fun j : Fin 24 => iprop(dutyTok ER (sendCell c j) 0 0 ∗ dutyTok ER (recvCell (peer j c) j) 0 0) := by
  unfold toksFrom; rw [filter_all]
omit [FloatOps F] in
theorem recvTodo_zero (c : Dev nD) :
    recvTodo (F := F) c 0 = iprop((bigSep Finset.univ fun j : Fin 24 => atPos ER (recvCell c j) 0 ∅ 0) ∗ (bigSep Finset.univ fun j : Fin 24 => cred (tallyAt (recvCell c j) () (NJ j)))) := by
  unfold recvTodo; rw [filter_all, bigSep_sep']
omit [FloatOps F] in
theorem recvDone_zero (c : Dev nD) : recvDone (F := F) c 0 = iprop(emp) := by unfold recvDone; rw [filter_none]; rfl
omit [FloatOps F] in
theorem sendCred_zero (c : Dev nD) : sendCred (F := F) c 0 = iprop(emp) := by unfold sendCred; rw [filter_none]; rfl

end Body0
open Body0

theorem entry (c : Dev nD) : bodyPre' m ρ c ⊢ iprop(∃ K, Pre0 m ρ K c (xRest c (X m ρ c))) := by
  unfold bodyPre' Φ₀ start ghost positions payToks credits
  iintro ⟨⟨⟨⟨%K, #HR, ⟨HatB, Hpos⟩, Ht1, Ht2, Ht3, Ht4, Htk⟩, ⟨HcB, Hcr⟩, #Hlev⟩, ⟨%f, Hscr⟩⟩, Ho, ⟨%d0, %g0, %hg0, Hx⟩, ⟨%d1, %g1, %hg1, Hout⟩⟩
  have hx : g0 = X m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  ihave Hpos' := (Entails.of_eq (positions_split c)) $$ Hpos
  icases Hpos' with ⟨Hsend, Hrecv⟩
  ihave Hx' := (x_parts c (X m ρ c)).1 $$ Hx
  icases Hx' with ⟨Hx0, Hx1, Hxr⟩
  ihave Hout' := (out_parts c fullShare g1).1 $$ Hout
  ihave Hscr0 := (Entails.of_eq (pts_cM c f)) $$ Hscr
  ihave Hscr' := (comm_parts c f).1 $$ Hscr0
  iexists K
  unfold Pre0 sendTodo
  isplitr; · iexact HR
  isplitr; · iexact Hlev
  isplitl [Htk]; · iapply (Entails.of_eq (toksFrom_zero c).symm); iexact Htk
  isplitl [Hrecv Hcr]
  · iapply (Entails.of_eq (recvTodo_zero c).symm); isplitl [Hrecv] <;> iassumption
  isplitr; · iapply (Entails.of_eq (recvDone_zero c).symm); iempintro
  isplitl [Hsend]; · iexact Hsend
  isplitr; · iapply (Entails.of_eq (sendCred_zero c).symm); iempintro
  isplitl [HO]; · iexists W; iexact HO
  isplitl [HatB HcB]
  · isplitl [HatB] <;> iassumption
  isplitl [Ht1 Ht2 Ht3 Ht4]
  · isplitl [Ht1]; · iexact Ht1
    isplitl [Ht2]; · iexact Ht2
    isplitl [Ht3] <;> iassumption
  isplitl [Hx0 Hx1 Hxr]
  · isplitl [Hx0]; · iexact Hx0
    isplitl [Hx1] <;> iassumption
  isplitl [Hout']
  · iexists g1; iexact Hout'
  iexists f; iexact Hscr'

end Cert.KernelIdeal.AR

end
-- ==== Proof.StageA1.lean ====
import proofs.«900720_g7700000000000721_dist_ar_v7x_xyz2x2x4_z_m4096_n1024_f32_1_alg».proof.Proof.Steps
import proofs.«900720_g7700000000000721_dist_ar_v7x_xyz2x2x4_z_m4096_n1024_f32_1_alg».proof.Proof.Levels
import proofs.«900720_g7700000000000721_dist_ar_v7x_xyz2x2x4_z_m4096_n1024_f32_1_alg».proof.Proof.Views
import proofs.«900720_g7700000000000721_dist_ar_v7x_xyz2x2x4_z_m4096_n1024_f32_1_alg».proof.Proof.Parts

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace StageA1

def ghostMid (K : GSem nD τ sig → ℕ) (c : Dev nD) (ks kr : ℕ) : sProp 𝕄 :=
  iprop(records m ρ K ∗ levAts L lv ∗ toksFrom c ks ∗ recvTodo c kr ∗ recvDone c kr ∗ sendTodo c ∗ sendCred c ks
    ∗ ∃ W, owes (c : Thread nD τ) (Orem c (24 - ks)) W)

theorem dev6_eq (c : Dev nD) : (⟨k0_dev6 c, k0_dev6_lt c⟩ : Dev nD) = zr c := by revert c; decide
theorem dev7_eq (c : Dev nD) : (⟨k0_dev7 c, k0_dev7_lt c⟩ : Dev nD) = zr c := by revert c; decide

theorem recvPay_rs0 (c : Dev nD) (p : Fin 2) :
    recvPay m ρ c (rsJ p 0) = iprop(owns (c : Thread nD τ) (slotV (slotOf p 0)) fullShare (landed m ρ c p 0) ∗ emp) := by
  rw [recvPay_rs]; unfold rsR; rw [if_pos rfl]
theorem recvPay_rs1 (c : Dev nD) (p : Fin 2) (s : Fin 3) (hs : s ≠ 0) (n : ℕ) (hn : n = s.val) :
    recvPay m ρ c (rsJ p s) = iprop(owns (c : Thread nD τ) (slotV (slotOf p s)) fullShare (landed m ρ c p s)
      ∗ pts (zl c) (srcV oM (zl c) p s) fullShare (Sk (X m ρ) n (zl c))) := by
  subst hn; rw [recvPay_rs]; unfold rsR; rw [if_neg hs]

theorem slotsHeld_three (c : Dev nD) (a b d : Fin 2 × Fin 3) :
    slotsHeld m ρ c [a, b, d] = iprop(owns (c : Thread nD τ) (slotV (slotOf a.1 a.2)) fullShare (landed m ρ c a.1 a.2)
      ∗ owns (c : Thread nD τ) (slotV (slotOf b.1 b.2)) fullShare (landed m ρ c b.1 b.2)
      ∗ owns (c : Thread nD τ) (slotV (slotOf d.1 d.2)) fullShare (landed m ρ c d.1 d.2)) := rfl

def frameA1 (c : Dev nD) : sProp 𝕄 :=
  iprop(pts c (srcV xM c 1 0) Lq (X m ρ c)
    ∗ (∃ g : Buf (Elt F) (oM.view.loc (c : Thread nD τ)), pts c (agV c 1 0) fullShare g ∗ pts c (agV c 1 1) fullShare g ∗ pts c (agV c 1 2) fullShare g)
    ∗ (bor (zr c) (slotV 3) ∗ bor (zr c) (slotV 4) ∗ bor (zr c) (slotV 5))
    ∗ bor (zl c) (agV c 0 2) ∗ bor (zl c) (agV c 1 2)
    ∗ borPa c [(0,0),(0,1),(0,2),(1,0),(1,1),(1,2)] ∗ borPb c [(0,0),(0,1),(0,2),(1,0),(1,1),(1,2)])

abbrev held (c : Dev nD) (s : Fin 3) : sProp 𝕄 := owns (c : Thread nD τ) (slotV (slotOf 0 s)) fullShare (landed m ρ c 0 s)

def SA4 (K : GSem nD τ sig → ℕ) (c : Dev nD) (xr_ : sProp 𝕄) : sProp 𝕄 :=
  iprop(ghostMid m ρ K c 1 0 ∗ xr_
    ∗ bor c (agV c 0 0) ∗ bor c (agV c 0 1) ∗ bor c (agV c 0 2)
    ∗ bor (zr c) (slotV 1) ∗ bor (zr c) (slotV 2)
    ∗ frameA1 m ρ c)

def SA5 (K : GSem nD τ sig → ℕ) (c : Dev nD) (xr_ : sProp 𝕄) : sProp 𝕄 :=
  iprop(ghostMid m ρ K c 1 1 ∗ xr_
    ∗ bor c (agV c 0 0) ∗ bor c (agV c 0 1) ∗ pts c (agV c 0 2) fullShare (Sk (X m ρ) 1 c)
    ∗ held m ρ c 0
    ∗ bor (zr c) (slotV 1) ∗ bor (zr c) (slotV 2)
    ∗ frameA1 m ρ c)

def SA6 (K : GSem nD τ sig → ℕ) (c : Dev nD) (xr_ : sProp 𝕄) : sProp 𝕄 :=
  iprop(ghostMid m ρ K c 2 1 ∗ xr_
    ∗ bor c (agV c 0 0) ∗ bor c (agV c 0 1)
    ∗ held m ρ c 0
    ∗ bor (zr c) (slotV 2)
    ∗ frameA1 m ρ c)

def SA7 (K : GSem nD τ sig → ℕ) (c : Dev nD) (xr_ : sProp 𝕄) : sProp 𝕄 :=
  iprop(ghostMid m ρ K c 2 2 ∗ xr_
    ∗ bor c (agV c 0 0) ∗ pts c (agV c 0 1) fullShare (Sk (X m ρ) 2 c)
    ∗ held m ρ c 0 ∗ held m ρ c 1
    ∗ pts (zl c) (agV c 0 1) fullShare (Sk (X m ρ) 1 (zl c))
    ∗ bor (zr c) (slotV 2)
    ∗ frameA1 m ρ c)

def SA8 (K : GSem nD τ sig → ℕ) (c : Dev nD) (xr_ : sProp 𝕄) : sProp 𝕄 :=
  iprop(ghostMid m ρ K c 3 3 ∗ xr_
    ∗ bor c (agV c 0 0)
    ∗ held m ρ c 0 ∗ held m ρ c 1 ∗ held m ρ c 2
    ∗ pts (zl c) (agV c 0 1) fullShare (Sk (X m ρ) 1 (zl c)) ∗ pts (zl c) (agV c 0 0) fullShare (Sk (X m ρ) 2 (zl c))
    ∗ frameA1 m ρ c)

theorem slot_pts (c : Dev nD) (k : Fin 6) (q : PosShare TreeShare) (f : Buf (Elt F) (cM.view.loc (c : Thread nD τ))) :
    (pts c (slotV k) q f : sProp 𝕄) = (cM.view.loc (c : Thread nD τ) ↦[(slotV k).view.set]{q} f) := rfl
theorem acc_pts_load (c : Dev nD) (p : Fin 2) (s : Fin 3) (q : PosShare TreeShare) (g : Buf (Elt F) (oM.view.loc (c : Thread nD τ))) :
    (pts c (accV c p s) q g : sProp 𝕄) = (oM.view.loc (c : Thread nD τ) ↦[(accV c p s).view.set]{q} g) := rfl
theorem acc_pts_store (c : Dev nD) (p : Fin 2) (s : Fin 3) (q : PosShare TreeShare) (g : Buf (Elt F) (oM.view.loc (c : Thread nD τ))) :
    (pts c (accV c p s) q g : sProp 𝕄) = ((oM.access (accR c p s)).loc (c : Thread nD τ) ↦[(accV c p s).view.set]{q} g) := rfl

set_option maxHeartbeats 800000 in
theorem add_step (c : Dev nD) (p : Fin 2) (s : Fin 3)
    (payf : Vec F S128x1024 .f32 → Vec F S1x128x1024 .f32 → FVec F S128x1024 .f32) (hpay : payf = k0_pay1)
    (f : Buf (Elt F) (cM.view.loc (c : Thread nD τ))) (hf : (slotV (slotOf p s)).view.read (Elt F) f = landed m ρ c p s)
    (g : Buf (Elt F) (oM.view.loc (c : Thread nD τ))) (n : ℕ) (hn : n = s.val + 1)
    {hl1 : xM.view.LoadsAt (accR c p s).toLoadRect}
    {hl2 : cM.view.LoadsAt (Rect.unit (s := S6x128x1024) ![(slotOf p s).val, 0, 0] S1x128x1024.size (slot_inb (slotOf p s))).toLoadRect}
    {hl3 : oM.view.LoadsAt (accR c p s).toLoadRect}
    {hx : (oM.access (accR c p s)).Stores Finset.univ} {hm : (Finset.univ : Finset (accR c p s).shape.Idx) = Finset.univ ∨ ∀ a, (accR c p s).stride a = 1}
    {α : Type} {k : PUnit → Prog (TpuEff nD τ sig (Elt F) Λ₀ .tc) α} {Q : α → sProp 𝕄} :
    iprop((xM.view.loc (c : Thread nD τ) ↦[Finset.univ]{Rq} X m ρ c) ∗ pts c (slotV (slotOf p s)) fullShare f ∗ pts c (accV c p s) fullShare g)
      ⊢ iprop((((xM.view.loc (c : Thread nD τ) ↦[Finset.univ]{Rq} X m ρ c) ∗ pts c (slotV (slotOf p s)) fullShare f
              ∗ pts c (accV c p s) fullShare (Sk (X m ρ) n c))
            -∗ wp frame (wpE (defs₀ (F := F)) 𝒱₀ (c : Thread nD τ) none) Set.univ (k ⟨⟩) Q)
        -∗ wp frame (wpE (defs₀ (F := F)) 𝒱₀ (c : Thread nD τ) none) Set.univ
        (.op (.load xM (accR c p s).toLoadRect hl1) fun v1 =>
          .op (.load cM (Rect.unit (s := S6x128x1024) ![(slotOf p s).val, 0, 0] S1x128x1024.size (slot_inb (slotOf p s))).toLoadRect hl2) fun v2 =>
          .op (.load oM (accR c p s).toLoadRect hl3) fun v3 =>
          .op (.store oM (accR c p s) (payf v1 v2) Finset.univ hx hm) k) Q) := by
  subst hpay hn
  iintro ⟨Hx, Hslot, Ho⟩ Hk
  iapply (wp_load 𝒱₀ (c : Thread nD τ) none Set.univ (m := xM) (Finset.subset_univ _)) $$ Hx; iintro Hx
  ihave Hslot := (Entails.of_eq (slot_pts c (slotOf p s) fullShare f)) $$ Hslot
  iapply (wp_load 𝒱₀ (c : Thread nD τ) none Set.univ (m := cM) (slot_load_set (slotOf p s))) $$ Hslot; iintro Hslot
  ihave Ho := (Entails.of_eq (acc_pts_load c p s fullShare g)) $$ Ho
  iapply (wp_load 𝒱₀ (c : Thread nD τ) none Set.univ (m := oM) (acc_load_set c p s)) $$ Ho; iintro Ho
  ihave Ho := (Entails.of_eq ((acc_pts_load c p s fullShare g).symm.trans (acc_pts_store c p s fullShare g))) $$ Ho
  iapply (wp_store 𝒱₀ (c : Thread nD τ) none Set.univ (m := oM) (r := accR c p s) (Mk := Finset.univ)
    (show (oM.access (accR c p s)).setOn Finset.univ ⊆ (accV c p s).view.set from Finset.Subset.refl _)) $$ Ho; iintro Ho
  iapply Hk
  isplitl [Hx]; · iexact Hx
  isplitl [Hslot]
  · iapply (Entails.of_eq (slot_pts c (slotOf p s) fullShare f).symm); iexact Hslot
  iapply (Entails.of_eq (pts_congr c (accV c p s) fullShare _ (Sk (X m ρ) (s.val + 1) c) (store_val m ρ c p s g f hf)))
  iapply (Entails.of_eq (acc_pts_store c p s fullShare _).symm)
  iexact Ho

theorem landing_owns_x (c : Dev nD) (p : Fin 2) (s : Fin 3)
    (fd : Buf (Elt F) ((slotV (slotOf p s)).view.loc (zr c : Thread nD τ))) :
    ((slotV (slotOf p s)).view.loc (zr c : Thread nD τ) ↦[(slotV (slotOf p s)).view.set]{fullShare}
        ((slotV (slotOf p s)).view.write (Elt F) fd ((srcV xM c p s).view.read (Elt F) (Sk (X m ρ) s.val c)) Finset.univ) : sProp 𝕄)
      ⊢ owns (zr c : Thread nD τ) (slotV (slotOf p s)) fullShare (landed m ρ (zr c) p s) := by
  unfold owns
  iintro H
  iexists ((slotV (slotOf p s)).view.write (Elt F) fd ((srcV xM c p s).view.read (Elt F) (Sk (X m ρ) s.val c)) Finset.univ)
  isplitr
  · ipureintro
    rw [slot_read_write (zr c) (slotOf p s) fd]
    unfold landed
    rw [zl_zr]
  · iexact H

theorem landing_owns_o (c : Dev nD) (p : Fin 2) (s : Fin 3)
    (fd : Buf (Elt F) ((slotV (slotOf p s)).view.loc (zr c : Thread nD τ))) :
    ((slotV (slotOf p s)).view.loc (zr c : Thread nD τ) ↦[(slotV (slotOf p s)).view.set]{fullShare}
        ((slotV (slotOf p s)).view.write (Elt F) fd ((srcV oM c p s).view.read (Elt F) (Sk (X m ρ) s.val c)) Finset.univ) : sProp 𝕄)
      ⊢ owns (zr c : Thread nD τ) (slotV (slotOf p s)) fullShare (landed m ρ (zr c) p s) := by
  rw [← src_read_x_o]; exact landing_owns_x m ρ c p s fd

end StageA1

open StageA1

set_option maxHeartbeats 800000 in
theorem part4_spec (K : GSem nD τ sig → ℕ) (c : Dev nD) (xr_ : sProp 𝕄)
    (v2 v5 v8 v19 v94 v95 c4_i32_67 : BitVec 32) (v96 : BitVec 1) (Kt : BitVec 32 → sProp 𝕄) :
    iprop(St1 m ρ K c xr_ ∗ (∀ r, SA4 m ρ K c xr_ -∗ Kt r)) ⊢ wp frame (wpE (defs₀ (F := F)) 𝒱₀ (c : Thread nD τ) none) Set.univ
      (k0_part4 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 c v2 v5 v8 v19 v94 v95 c4_i32_67 v96) Kt := by
  rw [k0_part4_eq_skeleton]; unfold k0_part4_skel
  simp only [Prog.lift, Prog.bind_op, Prog.bind_ret, Prog.pure_eq_ret]
  unfold St1 ghostAt
  iintro ⟨⟨⟨#HR, #Hlev, Htok, Hrt, Hrd, Hst, Hsc, ⟨%W, HO⟩⟩, Hx0, Hx1, Hxr, ⟨%g, Ho00, Ho01, Ho02, Ho10, Ho11, Ho12⟩, ⟨Hs0, Hs1, Hs2, Hs3, Hs4, Hs5⟩, Hb0, Hb1, Hpa, Hpb⟩, Hk⟩
  ihave Htok' := (Entails.of_eq (toks_succ c 0 0 1 rfl rfl)) $$ Htok
  icases Htok' with ⟨⟨Ht1, Ht2⟩, Htok⟩
  unfold bor
  icases Hs0 with ⟨%fd, Hs0⟩
  iapply (step_send m ρ K c (rsJ 0 0) 23 rfl (srcV xM c 0 0) (slotV 0) Lq (X m ρ c) fd W _ _ _ (dev5_eq c) (zsend_rs 0 0 _ _) (zrecv_rs 0 0 _ _)
      ((amount_slot 0 _).trans (NJ_rs 0 0).symm)
      (by rw [sendPay_rs]; unfold rsS; rw [if_pos rfl])
      (by rw [recvPay_rs, peer_rs]; unfold rsR; rw [if_pos rfl]
          exact (landing_owns_x m ρ c 0 0 fd).trans (equiv_iff.mp sep_emp).symm.le)) $$ [Hx0 Hs0 HO Ht1 Ht2]
  · iframe
    isplitr; · iexact HR
    isplitl [Hs0]; · iexact Hs0
    isplitl [Ht1]; · iexact Ht1
    iexact Ht2
  iintro ⟨Hc, HO⟩
  rw [wp_ret]; imodintro
  iapply Hk
  unfold SA4 ghostMid frameA1 bor
  isplitl [Htok Hrt Hrd Hst Hsc Hc HO]
  · isplitr; · iexact HR
    isplitr; · iexact Hlev
    isplitl [Htok]; · iexact Htok
    isplitl [Hrt]; · iexact Hrt
    isplitl [Hrd]; · iexact Hrd
    isplitl [Hst]; · iexact Hst
    isplitl [Hsc Hc]
    · iapply (Entails.of_eq (sendCred_succ c 0 0 1 rfl rfl).symm)
      isplitl [Hc]; · iexact Hc
      iexact Hsc
    iexists W; iexact HO
  isplitl [Hxr]; · iexact Hxr
  isplitl [Ho00]; · iexists g; iexact Ho00
  isplitl [Ho01]; · iexists g; iexact Ho01
  isplitl [Ho02]; · iexists g; iexact Ho02
  isplitl [Hs1]; · iexact Hs1
  isplitl [Hs2]; · iexact Hs2
  isplitl [Hx1]; · iexact Hx1
  isplitl [Ho10 Ho11 Ho12]
  · iexists g
    isplitl [Ho10]; · iexact Ho10
    isplitl [Ho11]; · iexact Ho11
    iexact Ho12
  isplitl [Hs3 Hs4 Hs5]
  · isplitl [Hs3]; · iexact Hs3
    isplitl [Hs4]; · iexact Hs4
    iexact Hs5
  isplitl [Hb0]; · iexact Hb0
  isplitl [Hb1]; · iexact Hb1
  isplitl [Hpa]; · iexact Hpa
  iexact Hpb

set_option maxHeartbeats 800000 in
theorem part5_spec (K : GSem nD τ sig → ℕ) (c : Dev nD) (xr_ xr' : sProp 𝕄)
    (hxr : xr_ = iprop((xM.view.loc (c : Thread nD τ) ↦[Finset.univ]{Rq} X m ρ c) ∗ xr'))
    (v2 v5 v8 v19 v33 v94 v117 : BitVec 32) (Kt : (Σ' (v155 : BitVec 32) (v159 : BitVec 32) (v164 : BitVec 1), BitVec 32) → sProp 𝕄) :
    iprop(SA4 m ρ K c xr_ ∗ (∀ r, SA5 m ρ K c xr_ -∗ Kt r)) ⊢ wp frame (wpE (defs₀ (F := F)) 𝒱₀ (c : Thread nD τ) none) Set.univ
      (k0_part5 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 c v2 v5 v8 v19 v33 v94 v117) Kt := by
  subst hxr
  rw [k0_part5_eq_skeleton]; unfold k0_part5_skel
  simp only [Prog.lift, Prog.bind_op, Prog.bind_ret, Prog.pure_eq_ret]
  unfold SA4 ghostMid
  iintro ⟨⟨⟨#HR, #Hlev, Htok, Hrt, Hrd, Hst, Hsc, ⟨%W, HO⟩⟩, ⟨Hx, Hxr'⟩, Ho00, Ho01, Ho02, Hs1, Hs2, Hfr⟩, Hk⟩
  ihave Hrt' := (Entails.of_eq (recvTodo_succ c 0 0 1 rfl rfl)) $$ Hrt
  icases Hrt' with ⟨⟨Hat, Hcr⟩, Hrt⟩
  iapply (step_wait_recv m ρ K c (rsJ 0 0) (Orem c 23) W (srcV xM c 0 0) (slotV 0) _ (zrecv_rs 0 0 _ _) (NJ_rs 0 0).symm (mayWait_recv c (rsJ 0 0) 23 (by decide))) $$ [Hcr HO Hat]
  · isplitr; · iexact HR
    isplitr; · iexact Hlev
    isplitl [Hcr]; · iexact Hcr
    isplitl [HO]; · iexact HO
    iexact Hat
  iintro ⟨HO, Hat, Hpay⟩
  ihave Hpay := (Entails.of_eq (recvPay_rs0 m ρ c 0)) $$ Hpay
  icases Hpay with ⟨Hslot, -⟩
  unfold owns
  icases Hslot with ⟨%f, %hf, Hslot⟩
  unfold bor
  icases Ho02 with ⟨%g, Ho02⟩
  ihave Ho02 := (Entails.of_eq (pts_view_eq c (acc0_eq c 0).symm fullShare g g HEq.rfl)) $$ Ho02
  iapply (add_step m ρ c 0 0 k0_pay1 rfl f hf g 1 rfl) $$ [Hx Hslot Ho02]
  · isplitl [Hx]; · iexact Hx
    isplitl [Hslot]; · iexact Hslot
    iexact Ho02
  iintro ⟨Hx, Hslot, Ho02⟩
  rw [wp_ret]; imodintro
  iapply Hk
  unfold SA5 ghostMid bor held owns
  ihave Hrd := (Entails.of_eq (recvDone_succ c 0 0 1 rfl rfl).symm) $$ [Hat Hrd]
  · isplitl [Hat]; · iexact Hat
    iexact Hrd
  ihave Ho02 := (Entails.of_eq (pts_view_eq c (acc0_eq c 0) fullShare (Sk (X m ρ) 1 c) (Sk (X m ρ) 1 c) HEq.rfl)) $$ Ho02
  isplitl [Htok Hrt Hrd Hst Hsc HO]
  · iframe
    isplitr; · iexact HR
    iexact Hlev
  iframe
  iexists f
  isplitr; · ipureintro; exact hf
  iexact Hslot

set_option maxHeartbeats 800000 in
theorem part6_spec (K : GSem nD τ sig → ℕ) (c : Dev nD) (xr_ : sProp 𝕄)
    (v2 v5 v8 v19 v155 v159 : BitVec 32) (v164 : BitVec 1) (v165 : BitVec 32) (Kt : (Σ' (v178 : BitVec 32) (v197 : BitVec 32), BitVec 32) → sProp 𝕄) :
    iprop(SA5 m ρ K c xr_ ∗ (∀ r, SA6 m ρ K c xr_ -∗ Kt r)) ⊢ wp frame (wpE (defs₀ (F := F)) 𝒱₀ (c : Thread nD τ) none) Set.univ
      (k0_part6 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 c v2 v5 v8 v19 v155 v159 v164 v165) Kt := by
  rw [k0_part6_eq_skeleton]; unfold k0_part6_skel
  simp only [Prog.lift, Prog.bind_op, Prog.bind_ret, Prog.pure_eq_ret]
  unfold SA5 ghostMid
  iintro ⟨⟨⟨#HR, #Hlev, Htok, Hrt, Hrd, Hst, Hsc, ⟨%W, HO⟩⟩, Hxr, Ho00, Ho01, Ho02, Hh0, Hs1, Hs2, Hfr⟩, Hk⟩
  ihave Htok' := (Entails.of_eq (toks_succ c 1 1 2 rfl rfl)) $$ Htok
  icases Htok' with ⟨⟨Ht1, Ht2⟩, Htok⟩
  unfold bor
  icases Hs1 with ⟨%fd, Hs1⟩
  ihave Ho02 := (Entails.of_eq (pts_view_eq c (src1_eq c 0).symm fullShare (Sk (X m ρ) 1 c) (Sk (X m ρ) 1 c) HEq.rfl)) $$ Ho02
  iapply (step_send_landing m ρ K c (rsJ 0 1) 22 rfl (srcV oM c 0 1) (slotV 1) fullShare (Sk (X m ρ) 1 c) fd W _ _ _ (dev6_eq c) (zsend_rs 0 1 _ _) (zrecv_rs 0 1 _ _)
      ((amount_slot 1 _).trans (NJ_rs 0 1).symm)
      (by rw [sendPay_rs]; unfold rsS; rw [if_neg (by decide)])
      (by rw [recvPay_rs1 m ρ _ 0 1 (by decide) 1 rfl, peer_rs, zl_zr]
          exact sep_mono_left (landing_owns_o m ρ c 0 1 fd))) $$ [Ho02 Hs1 HO Ht1 Ht2]
  · iframe
    isplitr; · iexact HR
    isplitl [Hs1]; · iexact Hs1
    isplitl [Ht1]; · iexact Ht1
    iexact Ht2
  iintro ⟨Hc, HO⟩
  rw [wp_ret]; imodintro
  iapply Hk
  unfold SA6 ghostMid bor
  ihave Hsc := (Entails.of_eq (sendCred_succ c 1 1 2 rfl rfl).symm) $$ [Hc Hsc]
  · isplitl [Hc]; · iexact Hc
    iexact Hsc
  isplitl [Htok Hrt Hrd Hst Hsc HO]
  · iframe
    isplitr; · iexact HR
    isplitr; · iexact Hlev
    iexists W; iexact HO
  iframe

set_option maxHeartbeats 800000 in
theorem part7_spec (K : GSem nD τ sig → ℕ) (c : Dev nD) (xr_ xr' : sProp 𝕄)
    (hxr : xr_ = iprop((xM.view.loc (c : Thread nD τ) ↦[Finset.univ]{Rq} X m ρ c) ∗ xr'))
    (v8 v33 v155 v178 v197 v198 : BitVec 32)
    (Kt : (Σ' (v216 : BitVec 32) (v227 : BitVec 32) (v231 : BitVec 32) (v232 : BitVec 32), BitVec 32) → sProp 𝕄) :
    iprop(SA6 m ρ K c xr_ ∗ (∀ r, SA7 m ρ K c xr_ -∗ Kt r)) ⊢ wp frame (wpE (defs₀ (F := F)) 𝒱₀ (c : Thread nD τ) none) Set.univ
      (k0_part7 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 c v8 v33 v155 v178 v197 v198) Kt := by
  subst hxr
  rw [k0_part7_eq_skeleton]; unfold k0_part7_skel
  simp only [Prog.lift, Prog.bind_op, Prog.bind_ret, Prog.pure_eq_ret]
  unfold SA6 ghostMid
  iintro ⟨⟨⟨#HR, #Hlev, Htok, Hrt, Hrd, Hst, Hsc, ⟨%W, HO⟩⟩, ⟨Hx, Hxr'⟩, Ho00, Ho01, Hh0, Hs2, Hfr⟩, Hk⟩
  ihave Hrt' := (Entails.of_eq (recvTodo_succ c 1 1 2 rfl rfl)) $$ Hrt
  icases Hrt' with ⟨⟨Hat, Hcr⟩, Hrt⟩
  iapply (step_wait_recv m ρ K c (rsJ 0 1) (Orem c 22) W (srcV oM c 0 1) (slotV 1) _ (zrecv_rs 0 1 _ _) (NJ_rs 0 1).symm (mayWait_recv c (rsJ 0 1) 22 (by decide))) $$ [Hcr HO Hat]
  · isplitr; · iexact HR
    isplitr; · iexact Hlev
    isplitl [Hcr]; · iexact Hcr
    isplitl [HO]; · iexact HO
    iexact Hat
  iintro ⟨HO, Hat, Hpay⟩
  ihave Hpay := (Entails.of_eq (recvPay_rs1 m ρ c 0 1 (by decide) 1 rfl)) $$ Hpay
  icases Hpay with ⟨Hslot, Hz⟩
  ihave Hz := (Entails.of_eq (pts_view_eq (zl c) (src_zl1 c 0) fullShare (Sk (X m ρ) 1 (zl c)) (Sk (X m ρ) 1 (zl c)) HEq.rfl)) $$ Hz
  unfold owns
  icases Hslot with ⟨%f, %hf, Hslot⟩
  unfold bor
  icases Ho01 with ⟨%g, Ho01⟩
  ihave Ho01 := (Entails.of_eq (pts_view_eq c (acc1_eq c 0).symm fullShare g g HEq.rfl)) $$ Ho01
  iapply (add_step m ρ c 0 1 k0_pay2 pay_eq2 f hf g 2 rfl) $$ [Hx Hslot Ho01]
  · isplitl [Hx]; · iexact Hx
    isplitl [Hslot]; · iexact Hslot
    iexact Ho01
  iintro ⟨Hx, Hslot, Ho01⟩
  rw [wp_ret]; imodintro
  iapply Hk
  unfold SA7 ghostMid bor held owns
  ihave Hrd := (Entails.of_eq (recvDone_succ c 1 1 2 rfl rfl).symm) $$ [Hat Hrd]
  · isplitl [Hat]; · iexact Hat
    iexact Hrd
  ihave Ho01 := (Entails.of_eq (pts_view_eq c (acc1_eq c 0) fullShare (Sk (X m ρ) 2 c) (Sk (X m ρ) 2 c) HEq.rfl)) $$ Ho01
  isplitl [Htok Hrt Hrd Hst Hsc HO]
  · iframe
    isplitr; · iexact HR
    iexact Hlev
  iframe
  iexists f
  isplitr; · ipureintro; exact hf
  iexact Hslot

set_option maxHeartbeats 800000 in
theorem part8_spec (K : GSem nD τ sig → ℕ) (c : Dev nD) (xr_ : sProp 𝕄)
    (v2 v5 v19 v216 v227 v231 v232 c0_i32_163 : BitVec 32) (Kt : BitVec 32 → sProp 𝕄) :
    iprop(SA7 m ρ K c xr_ ∗ (∀ r, SA8 m ρ K c xr_ -∗ Kt r)) ⊢ wp frame (wpE (defs₀ (F := F)) 𝒱₀ (c : Thread nD τ) none) Set.univ
      (k0_part8 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 c v2 v5 v19 v216 v227 v231 v232 c0_i32_163) Kt := by
  rw [k0_part8_eq_skeleton]; unfold k0_part8_skel
  simp only [Prog.lift, Prog.bind_op, Prog.bind_ret, Prog.pure_eq_ret]
  unfold SA7 ghostMid
  iintro ⟨⟨⟨#HR, #Hlev, Htok, Hrt, Hrd, Hst, Hsc, ⟨%W, HO⟩⟩, Hxr, Ho00, Ho01, Hh0, Hh1, Hz1, Hs2, Hfr⟩, Hk⟩
  ihave Htok' := (Entails.of_eq (toks_succ c 2 2 3 rfl rfl)) $$ Htok
  icases Htok' with ⟨⟨Ht1, Ht2⟩, Htok⟩
  unfold bor
  icases Hs2 with ⟨%fd, Hs2⟩
  ihave Ho01 := (Entails.of_eq (pts_view_eq c (src2_eq c 0).symm fullShare (Sk (X m ρ) 2 c) (Sk (X m ρ) 2 c) HEq.rfl)) $$ Ho01
  iapply (step_send_landing m ρ K c (rsJ 0 2) 21 rfl (srcV oM c 0 2) (slotV 2) fullShare (Sk (X m ρ) 2 c) fd W _ _ _ (dev7_eq c) (zsend_rs 0 2 _ _) (zrecv_rs 0 2 _ _)
      ((amount_slot 2 _).trans (NJ_rs 0 2).symm)
      (by rw [sendPay_rs]; unfold rsS; rw [if_neg (by decide)])
      (by rw [recvPay_rs1 m ρ _ 0 2 (by decide) 2 rfl, peer_rs, zl_zr]
          exact sep_mono_left (landing_owns_o m ρ c 0 2 fd))) $$ [Ho01 Hs2 HO Ht1 Ht2]
  · iframe
    isplitr; · iexact HR
    isplitl [Hs2]; · iexact Hs2
    isplitl [Ht1]; · iexact Ht1
    iexact Ht2
  iintro ⟨Hc, HO⟩
  ihave Hrt' := (Entails.of_eq (recvTodo_succ c 2 2 3 rfl rfl)) $$ Hrt
  icases Hrt' with ⟨⟨Hat, Hcr⟩, Hrt⟩
  iapply (step_wait_recv m ρ K c (rsJ 0 2) (Orem c 21) W (srcV oM c 0 2) (slotV 2) _ (zrecv_rs 0 2 _ _) (NJ_rs 0 2).symm (mayWait_recv c (rsJ 0 2) 21 (by decide))) $$ [Hcr HO Hat]
  · isplitr; · iexact HR
    isplitr; · iexact Hlev
    isplitl [Hcr]; · iexact Hcr
    isplitl [HO]; · iexact HO
    iexact Hat
  iintro ⟨HO, Hat, Hpay⟩
  ihave Hpay := (Entails.of_eq (recvPay_rs1 m ρ c 0 2 (by decide) 2 rfl)) $$ Hpay
  icases Hpay with ⟨Hslot, Hz⟩
  ihave Hz := (Entails.of_eq (pts_view_eq (zl c) (src_zl2 c 0) fullShare (Sk (X m ρ) 2 (zl c)) (Sk (X m ρ) 2 (zl c)) HEq.rfl)) $$ Hz
  rw [wp_ret]; imodintro
  iapply Hk
  unfold SA8 ghostMid bor
  ihave Hsc := (Entails.of_eq (sendCred_succ c 2 2 3 rfl rfl).symm) $$ [Hc Hsc]
  · isplitl [Hc]; · iexact Hc
    iexact Hsc
  ihave Hrd := (Entails.of_eq (recvDone_succ c 2 2 3 rfl rfl).symm) $$ [Hat Hrd]
  · isplitl [Hat]; · iexact Hat
    iexact Hrd
  isplitl [Htok Hrt Hrd Hst Hsc HO]
  · iframe
    isplitr; · iexact HR
    iexact Hlev
  iframe

set_option maxHeartbeats 800000 in
theorem part9_spec (K : GSem nD τ sig → ℕ) (c : Dev nD) (xr_ xr' : sProp 𝕄)
    (hxr : xr_ = iprop((xM.view.loc (c : Thread nD τ) ↦[Finset.univ]{Rq} X m ρ c) ∗ xr'))
    (v2 v5 v8 v30 v33 v216 v266 : BitVec 32) (Kt : PUnit → sProp 𝕄) :
    iprop(SA8 m ρ K c xr_ ∗ (∀ r, St1b m ρ K c xr_ -∗ Kt r)) ⊢ wp frame (wpE (defs₀ (F := F)) 𝒱₀ (c : Thread nD τ) none) Set.univ
      (k0_part9 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 c v2 v5 v8 v30 v33 v216 v266) Kt := by
  subst hxr
  rw [k0_part9_eq_skeleton]; unfold k0_part9_skel
  simp only [Prog.lift, Prog.bind_op, Prog.bind_ret, Prog.pure_eq_ret]
  unfold SA8 ghostMid held owns
  iintro ⟨⟨⟨#HR, #Hlev, Htok, Hrt, Hrd, Hst, Hsc, HO⟩, ⟨Hx, Hxr'⟩, Ho00, Hh0, Hh1, ⟨%f, %hf, Hslot⟩, Hz1, Hz0, Hfr⟩, Hk⟩
  unfold bor
  icases Ho00 with ⟨%g, Ho00⟩
  ihave Ho00 := (Entails.of_eq (pts_view_eq c (acc2_eq c 0).symm fullShare g g HEq.rfl)) $$ Ho00
  iapply (add_step m ρ c 0 2 k0_pay3 pay_eq3 f hf g 3 rfl) $$ [Hx Hslot Ho00]
  · isplitl [Hx]; · iexact Hx
    isplitl [Hslot]; · iexact Hslot
    iexact Ho00
  iintro ⟨Hx, Hslot, Ho00⟩
  rw [wp_ret]; imodintro
  iapply Hk
  unfold St1b ghostAt frameA1 bor
  ihave Ho00 := (Entails.of_eq (pts_view_eq c (acc2_eq c 0) fullShare (Sk (X m ρ) 3 c) (Sk (X m ρ) 3 c) HEq.rfl)) $$ Ho00
  icases Hfr with ⟨Hx1, Hob, Hs345, Hb0, Hb1, Hpa, Hpb⟩
  isplitl [Htok Hrt Hrd Hst Hsc HO]
  · iframe
    isplitr; · iexact HR
    iexact Hlev
  iframe
  iapply (Entails.of_eq (slotsHeld_three m ρ c (0,0) (0,1) (0,2)).symm)
  unfold owns
  iframe
  iexists f
  isplitr; · ipureintro; exact hf
  iexact Hslot

end Cert.KernelIdeal.AR

end
-- ==== Proof.StageA2.lean ====
import proofs.«900720_g7700000000000721_dist_ar_v7x_xyz2x2x4_z_m4096_n1024_f32_1_alg».proof.Proof.Steps
import proofs.«900720_g7700000000000721_dist_ar_v7x_xyz2x2x4_z_m4096_n1024_f32_1_alg».proof.Proof.Levels
import proofs.«900720_g7700000000000721_dist_ar_v7x_xyz2x2x4_z_m4096_n1024_f32_1_alg».proof.Proof.Views
import proofs.«900720_g7700000000000721_dist_ar_v7x_xyz2x2x4_z_m4096_n1024_f32_1_alg».proof.Proof.Parts

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

private theorem dev9_eq (c : Dev nD) : (⟨k0_dev9 c, k0_dev9_lt c⟩ : Dev nD) = zl c := by revert c; decide
private theorem dev10_eq (c : Dev nD) : (⟨k0_dev10 c, k0_dev10_lt c⟩ : Dev nD) = zl c := by revert c; decide

private theorem ghost_take (K : GSem nD τ sig → ℕ) (c : Dev nD) (k k' : ℕ) (j : Fin 24) (hj : j.val = k) (hk : k' = k + 1) :
    ghostAt m ρ K c k ⊢ iprop(records m ρ K ∗ levAts L lv
      ∗ (dutyTok ER (sendCell c j) 0 0 ∗ dutyTok ER (recvCell (peer j c) j) 0 0) ∗ toksFrom c k'
      ∗ (atPos ER (recvCell c j) 0 ∅ 0 ∗ cred (tallyAt (recvCell c j) () (NJ j))) ∗ recvTodo c k'
      ∗ recvDone c k ∗ sendTodo c ∗ sendCred c k ∗ ∃ W, owes (c : Thread nD τ) (Orem c (24 - k)) W) := by
  unfold ghostAt toksFrom recvTodo
  rw [take_ge _ j k k' hj.symm hk, take_ge _ j k k' hj.symm hk]
  iintro ⟨HR, Hl, ⟨Ht, Hts⟩, ⟨Hr, Hrs⟩, Hd, Hs, Hc, HO⟩
  iframe

private theorem ghost_put (K : GSem nD τ sig → ℕ) (c : Dev nD) (k k' n : ℕ) (j : Fin 24) (hj : j.val = k) (hk : k' = k + 1) (hn : n = 24 - k') :
    iprop(records m ρ K ∗ levAts L lv ∗ toksFrom c k' ∗ recvTodo c k'
      ∗ atPos ER (recvCell c j) 1 ∅ 0 ∗ recvDone c k ∗ sendTodo c
      ∗ cred (tallyAt (sendCell c j) () (NJ j)) ∗ sendCred c k ∗ ∃ W, owes (c : Thread nD τ) (Orem c n) W) ⊢ ghostAt m ρ K c k' := by
  subst hn
  unfold ghostAt recvDone sendCred
  rw [put_lt _ j k k' hj.symm hk, put_lt _ j k k' hj.symm hk]
  iintro ⟨HR, Hl, Hts, Hrs, Hd1, Hd, Hs, Hc1, Hc, HO⟩
  iframe

def restA2 (c : Dev nD) (xr_ : sProp 𝕄) : sProp 𝕄 :=
  iprop(pts c (srcV xM c 1 0) Lq (X m ρ c) ∗ xr_
    ∗ (∃ g : Buf (Elt F) (oM.view.loc (c : Thread nD τ)), pts c (agV c 1 0) fullShare g ∗ pts c (agV c 1 1) fullShare g ∗ pts c (agV c 1 2) fullShare g)
    ∗ slotsHeld m ρ c [(0,0),(0,1),(0,2)]
    ∗ (bor (zr c) (slotV 3) ∗ bor (zr c) (slotV 4) ∗ bor (zr c) (slotV 5))
    ∗ bor (zl c) (agV c 1 2)
    ∗ borPa c [(0,0),(0,1),(0,2),(1,0),(1,1),(1,2)] ∗ borPb c [(0,0),(0,1),(0,2),(1,0),(1,1),(1,2)])

def StA2_10 (K : GSem nD τ sig → ℕ) (c : Dev nD) (xr_ : sProp 𝕄) : sProp 𝕄 :=
  iprop(ghostAt m ρ K c 4
    ∗ pts c (agV c 0 0) Rq (Fn m ρ) ∗ pts c (agV c 0 1) fullShare (Fn m ρ)
    ∗ pts (zl c) (agV c 0 1) fullShare (Sk (X m ρ) 1 (zl c)) ∗ bor (zl c) (agV c 0 2)
    ∗ restA2 m ρ c xr_)

def StA2_11 (K : GSem nD τ sig → ℕ) (c : Dev nD) (xr_ : sProp 𝕄) : sProp 𝕄 :=
  iprop(ghostAt m ρ K c 5
    ∗ pts c (agV c 0 0) Rq (Fn m ρ) ∗ pts c (agV c 0 1) Rq (Fn m ρ) ∗ pts c (agV c 0 2) fullShare (Fn m ρ)
    ∗ bor (zl c) (agV c 0 2)
    ∗ restA2 m ρ c xr_)

private theorem St1b_open (K : GSem nD τ sig → ℕ) (c : Dev nD) (xr_ : sProp 𝕄) :
    St1b m ρ K c xr_ ⊢ iprop(ghostAt m ρ K c 3
      ∗ pts c (agV c 0 0) fullShare (Sk (X m ρ) 3 c)
      ∗ pts (zl c) (agV c 0 0) fullShare (Sk (X m ρ) 2 (zl c))
      ∗ pts (zl c) (agV c 0 1) fullShare (Sk (X m ρ) 1 (zl c)) ∗ bor (zl c) (agV c 0 2)
      ∗ restA2 m ρ c xr_) := by
  unfold St1b restA2
  iintro ⟨HG, Hx, Hxr, Ha, Hg, Hsl, Hbs, Hb02, Hb12, Hz1, Hz0, Hpa, Hpb⟩
  iframe

private theorem St2_close (K : GSem nD τ sig → ℕ) (c : Dev nD) (xr_ : sProp 𝕄) :
    iprop(ghostAt m ρ K c 6
      ∗ pts c (agV c 0 0) Rq (Fn m ρ) ∗ pts c (agV c 0 1) Rq (Fn m ρ) ∗ pts c (agV c 0 2) Rq (Fn m ρ) ∗ pts c (agV (zr c) 0 2) fullShare (Fn m ρ)
      ∗ restA2 m ρ c xr_) ⊢ St2 m ρ K c xr_ := by
  unfold St2 restA2
  iintro ⟨HG, H0, H1, H2, H3, Hx, Hxr, Hg, Hsl, Hbs, Hb12, Hpa, Hpb⟩
  iframe

private theorem own_fin (c : Dev nD) : pts c (agV c 0 0) fullShare (Sk (X m ρ) 3 c) ⊢ (pts c (agV c 0 0) fullShare (Fn m ρ) : sProp 𝕄) :=
  Entails.of_eq (pts_congr c (agV c 0 0) fullShare (Sk (X m ρ) 3 c) (Fn m ρ) (sk3_eq_fin m ρ c 0))

private theorem ag_sendPay (c : Dev nD) (t : Fin 3) :
    ((agV c 0 t).view.loc (c : Thread nD τ) ↦[(agV c 0 t).view.set]{Lq} Fn m ρ : sProp 𝕄) ⊢ sendPay m ρ c (agJ 0 t) := by
  rw [sendPay_ag]; exact Entails.refl _

private theorem ag_land (c : Dev nD) (t : Fin 3) (fd : Buf (Elt F) ((agV c 0 t).view.loc (zl c : Thread nD τ))) :
    ((agV c 0 t).view.loc (zl c : Thread nD τ) ↦[(agV c 0 t).view.set]{fullShare}
        ((agV c 0 t).view.write (Elt F) fd ((agV c 0 t).view.read (Elt F) (Fn m ρ)) Finset.univ) : sProp 𝕄)
      ⊢ recvPay m ρ (zl c) (agJ 0 t) := by
  rw [recvPay_ag]
  unfold agR
  rw [zr_zl]
  exact Entails.of_eq (pts_congr (zl c) (agV c 0 t) fullShare _ _ (write_read_self (agV c 0 t) _ _))

private theorem ag_set_zr0 (c : Dev nD) : (agV (zr c) 0 0).view.set = (agV c 0 1).view.set := by
  rw [agV_set, agV_set]; congr 1; revert c; decide
private theorem ag_set_zr1 (c : Dev nD) : (agV (zr c) 0 1).view.set = (agV c 0 2).view.set := by
  rw [agV_set, agV_set]; congr 1; revert c; decide

private theorem ag_recv0 (c : Dev nD) : recvPay m ρ c (agJ 0 0) ⊢ (pts c (agV c 0 1) fullShare (Fn m ρ) : sProp 𝕄) := by
  rw [recvPay_ag]; unfold agR
  show (oM.view.loc (c : Thread nD τ) ↦[(agV (zr c) 0 0).view.set]{fullShare} Fn m ρ : sProp 𝕄) ⊢ (oM.view.loc (c : Thread nD τ) ↦[(agV c 0 1).view.set]{fullShare} Fn m ρ)
  rw [ag_set_zr0]
private theorem ag_recv1 (c : Dev nD) : recvPay m ρ c (agJ 0 1) ⊢ (pts c (agV c 0 2) fullShare (Fn m ρ) : sProp 𝕄) := by
  rw [recvPay_ag]; unfold agR
  show (oM.view.loc (c : Thread nD τ) ↦[(agV (zr c) 0 1).view.set]{fullShare} Fn m ρ : sProp 𝕄) ⊢ (oM.view.loc (c : Thread nD τ) ↦[(agV c 0 2).view.set]{fullShare} Fn m ρ)
  rw [ag_set_zr1]
private theorem ag_recv2 (c : Dev nD) : recvPay m ρ c (agJ 0 2) ⊢ (pts c (agV (zr c) 0 2) fullShare (Fn m ρ) : sProp 𝕄) := by
  rw [recvPay_ag]; unfold agR; exact Entails.refl _

theorem part10_spec (K : GSem nD τ sig → ℕ) (c : Dev nD) (xr_ : sProp 𝕄) (v2 v5 v8 v30 v33 : BitVec 32)
    (Kt : (Σ' (_ : BitVec 32), BitVec 32) → sProp 𝕄) :
    iprop(St1b m ρ K c xr_ ∗ (∀ r, StA2_10 m ρ K c xr_ -∗ Kt r)) ⊢ wp frame (wpE (defs₀ (F := F)) 𝒱₀ (c : Thread nD τ) none) Set.univ
      (k0_part10 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v2 v5 v8 v30 v33) Kt := by
  rw [k0_part10_eq_skeleton]; unfold k0_part10_skel
  simp only [Prog.lift, Prog.bind_op, Prog.bind_ret, Prog.pure_eq_ret]
  iintro ⟨Hst, Hk⟩
  ihave Hst := (St1b_open m ρ K c xr_) $$ Hst
  icases Hst with ⟨HG, Ha, Hz0, Hz1, Hb2, Hrest⟩
  ihave Ha := (own_fin m ρ c) $$ Ha
  ihave HG := (ghost_take m ρ K c 3 4 (agJ 0 0) rfl rfl) $$ HG
  icases HG with ⟨#HR, #Hlev, ⟨Ht1, Ht2⟩, Hts, ⟨Hat, Hcr⟩, Hrs, Hd, Hs, Hc, ⟨%W, HO⟩⟩
  ihave Ha := (share_LR c (agV c 0 0) (Fn m ρ)).1 $$ Ha
  icases Ha with ⟨HaL, HaR⟩
  iapply (step_send m ρ K c (agJ 0 0) 20 rfl (agV c 0 0) (agV c 0 0) Lq (Fn m ρ) (Sk (X m ρ) 2 (zl c)) W
    _ _ _ ((dev8_eq c).trans (peer_ag 0 0 c).symm) (zsend_ag 0 0 inb_S12_S1_3 squeezes_S1_S_) (zrecv_ag 0 0 inb_S12_S1_3 squeezes_S1_S_)
    ((amount_ag c 0 0 _).trans (NJ_ag 0 0).symm) (ag_sendPay m ρ c 0) (ag_land m ρ c 0 _)) $$ [HaL Hz0 HO Ht1 Ht2]
  · iframe
    isplitr; · iexact HR
    iexact Hz0
  iintro ⟨Hsc, HO⟩
  iapply (step_wait_recv m ρ K c (agJ 0 0) (Orem c 20) W (agV c 0 0) (agV c 0 0) _ (zrecv_ag 0 0 inb_S12_S1_3 squeezes_S1_S_)
    ((show (agV c 0 0).view.dmaCredit = N128 from rfl).trans (NJ_ag 0 0).symm)
    (mayWait_recv c (agJ 0 0) 20 (by decide))) $$ [Hcr HO Hat]
  · iframe
    isplitr; · iexact HR
    iexact Hlev
  iintro ⟨HO, Hat1, Hpay⟩
  ihave Hpay := (ag_recv0 m ρ c) $$ Hpay
  rw [wp_ret]; imodintro
  iapply Hk
  unfold StA2_10
  isplitl [Hts Hrs Hat1 Hd Hs Hsc Hc HO]
  · iapply (ghost_put m ρ K c 3 4 20 (agJ 0 0) rfl rfl rfl)
    iframe
    isplitr; · iexact HR
    iexact Hlev
  iframe

theorem part11_spec (K : GSem nD τ sig → ℕ) (c : Dev nD) (xr_ : sProp 𝕄) (v2 v5 v8 v30 v33 v333 v334 : BitVec 32)
    (Kt : BitVec 32 → sProp 𝕄) :
    iprop(StA2_10 m ρ K c xr_ ∗ (∀ r, StA2_11 m ρ K c xr_ -∗ Kt r)) ⊢ wp frame (wpE (defs₀ (F := F)) 𝒱₀ (c : Thread nD τ) none) Set.univ
      (k0_part11 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v2 v5 v8 v30 v33 v333 v334) Kt := by
  rw [k0_part11_eq_skeleton]; unfold k0_part11_skel
  simp only [Prog.lift, Prog.bind_op, Prog.bind_ret, Prog.pure_eq_ret]
  iintro ⟨Hst, Hk⟩
  unfold StA2_10
  icases Hst with ⟨HG, Ha0, Ha, Hz1, Hb2, Hrest⟩
  ihave HG := (ghost_take m ρ K c 4 5 (agJ 0 1) rfl rfl) $$ HG
  icases HG with ⟨#HR, #Hlev, ⟨Ht1, Ht2⟩, Hts, ⟨Hat, Hcr⟩, Hrs, Hd, Hs, Hc, ⟨%W, HO⟩⟩
  ihave Ha := (share_LR c (agV c 0 1) (Fn m ρ)).1 $$ Ha
  icases Ha with ⟨HaL, HaR⟩
  iapply (step_send m ρ K c (agJ 0 1) 19 rfl (agV c 0 1) (agV c 0 1) Lq (Fn m ρ) (Sk (X m ρ) 1 (zl c)) W
    _ _ _ ((dev9_eq c).trans (peer_ag 0 1 c).symm) (zsend_ag 0 1 inb_S12_S1_4 squeezes_S1_S_) (zrecv_ag 0 1 inb_S12_S1_4 squeezes_S1_S_)
    ((amount_ag c 0 1 _).trans (NJ_ag 0 1).symm) (ag_sendPay m ρ c 1) (ag_land m ρ c 1 _)) $$ [HaL Hz1 HO Ht1 Ht2]
  · iframe
    isplitr; · iexact HR
    iexact Hz1
  iintro ⟨Hsc, HO⟩
  iapply (step_wait_recv m ρ K c (agJ 0 1) (Orem c 19) W (agV c 0 1) (agV c 0 1) _ (zrecv_ag 0 1 inb_S12_S1_4 squeezes_S1_S_)
    ((show (agV c 0 1).view.dmaCredit = N128 from rfl).trans (NJ_ag 0 1).symm)
    (mayWait_recv c (agJ 0 1) 19 (by decide))) $$ [Hcr HO Hat]
  · iframe
    isplitr; · iexact HR
    iexact Hlev
  iintro ⟨HO, Hat1, Hpay⟩
  ihave Hpay := (ag_recv1 m ρ c) $$ Hpay
  rw [wp_ret]; imodintro
  iapply Hk
  unfold StA2_11
  isplitl [Hts Hrs Hat1 Hd Hs Hsc Hc HO]
  · iapply (ghost_put m ρ K c 4 5 19 (agJ 0 1) rfl rfl rfl)
    iframe
    isplitr; · iexact HR
    iexact Hlev
  iframe

theorem part12_spec (K : GSem nD τ sig → ℕ) (c : Dev nD) (xr_ : sProp 𝕄) (v2 v5 v30 v33 v368 : BitVec 32)
    (Kt : BitVec 32 → sProp 𝕄) :
    iprop(StA2_11 m ρ K c xr_ ∗ (∀ r, St2 m ρ K c xr_ -∗ Kt r)) ⊢ wp frame (wpE (defs₀ (F := F)) 𝒱₀ (c : Thread nD τ) none) Set.univ
      (k0_part12 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v2 v5 v30 v33 v368) Kt := by
  rw [k0_part12_eq_skeleton]; unfold k0_part12_skel
  simp only [Prog.lift, Prog.bind_op, Prog.bind_ret, Prog.pure_eq_ret]
  iintro ⟨Hst, Hk⟩
  unfold StA2_11
  icases Hst with ⟨HG, Ha0, Ha1, Ha, Hb2, Hrest⟩
  unfold bor
  icases Hb2 with ⟨%fd, Hb2⟩
  ihave HG := (ghost_take m ρ K c 5 6 (agJ 0 2) rfl rfl) $$ HG
  icases HG with ⟨#HR, #Hlev, ⟨Ht1, Ht2⟩, Hts, ⟨Hat, Hcr⟩, Hrs, Hd, Hs, Hc, ⟨%W, HO⟩⟩
  ihave Ha := (share_LR c (agV c 0 2) (Fn m ρ)).1 $$ Ha
  icases Ha with ⟨HaL, HaR⟩
  iapply (step_send m ρ K c (agJ 0 2) 18 rfl (agV c 0 2) (agV c 0 2) Lq (Fn m ρ) fd W
    _ _ _ ((dev10_eq c).trans (peer_ag 0 2 c).symm) (zsend_ag 0 2 inb_S12_S1_5 squeezes_S1_S_) (zrecv_ag 0 2 inb_S12_S1_5 squeezes_S1_S_)
    ((amount_ag c 0 2 _).trans (NJ_ag 0 2).symm) (ag_sendPay m ρ c 2) (ag_land m ρ c 2 _)) $$ [HaL Hb2 HO Ht1 Ht2]
  · iframe
    isplitr; · iexact HR
    iexact Hb2
  iintro ⟨Hsc, HO⟩
  iapply (step_wait_recv m ρ K c (agJ 0 2) (Orem c 18) W (agV c 0 2) (agV c 0 2) _ (zrecv_ag 0 2 inb_S12_S1_5 squeezes_S1_S_)
    ((show (agV c 0 2).view.dmaCredit = N128 from rfl).trans (NJ_ag 0 2).symm)
    (mayWait_recv c (agJ 0 2) 18 (by decide))) $$ [Hcr HO Hat]
  · iframe
    isplitr; · iexact HR
    iexact Hlev
  iintro ⟨HO, Hat1, Hpay⟩
  ihave Hpay := (ag_recv2 m ρ c) $$ Hpay
  rw [wp_ret]; imodintro
  iapply Hk
  iapply (St2_close m ρ K c xr_)
  isplitl [Hts Hrs Hat1 Hd Hs Hsc Hc HO]
  · iapply (ghost_put m ρ K c 5 6 18 (agJ 0 2) rfl rfl rfl)
    iframe
    isplitr; · iexact HR
    iexact Hlev
  iframe

end Cert.KernelIdeal.AR

end
-- ==== Proof.StageB.lean ====
import proofs.«900720_g7700000000000721_dist_ar_v7x_xyz2x2x4_z_m4096_n1024_f32_1_alg».proof.Proof.Steps
import proofs.«900720_g7700000000000721_dist_ar_v7x_xyz2x2x4_z_m4096_n1024_f32_1_alg».proof.Proof.Levels
import proofs.«900720_g7700000000000721_dist_ar_v7x_xyz2x2x4_z_m4096_n1024_f32_1_alg».proof.Proof.Views
import proofs.«900720_g7700000000000721_dist_ar_v7x_xyz2x2x4_z_m4096_n1024_f32_1_alg».proof.Proof.Parts

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace StageB

def rc (c : Dev nD) (j : Fin 24) : Bool → sProp 𝕄
  | false => iprop(atPos ER (recvCell c j) 0 ∅ 0 ∗ cred (tallyAt (recvCell c j) () (NJ j)))
  | true => atPos ER (recvCell c j) 1 ∅ 0

abbrev tokPair (c : Dev nD) (j : Fin 24) : sProp 𝕄 := iprop(dutyTok ER (sendCell c j) 0 0 ∗ dutyTok ER (recvCell (peer j c) j) 0 0)

def ghostB (K : GSem nD τ sig → ℕ) (c : Dev nD) (k : ℕ) (b6 b7 b8 b9 : Bool) : sProp 𝕄 :=
  iprop(records m ρ K ∗ levAts L lv ∗ toksFrom c k ∗ (rc c 6 b6 ∗ rc c 7 b7 ∗ rc c 8 b8 ∗ rc c 9 b9) ∗ recvTodo c 10 ∗ recvDone c 6
    ∗ sendTodo c ∗ sendCred c k ∗ ∃ W, owes (c : Thread nD τ) (Orem c (24 - k)) W)

theorem toks_take (c : Dev nD) (k : ℕ) (j : Fin 24) (hj : j.val = k) :
    (toksFrom c k : sProp 𝕄) = iprop(tokPair c j ∗ toksFrom c (k + 1)) :=
  take_ge _ j k _ hj.symm rfl

theorem recvTodo_take (c : Dev nD) (k : ℕ) (j : Fin 24) (hj : j.val = k) :
    (recvTodo c k : sProp 𝕄) = iprop(rc c j false ∗ recvTodo c (k + 1)) :=
  take_ge _ j k _ hj.symm rfl

theorem recvDone_put (c : Dev nD) (k : ℕ) (j : Fin 24) (hj : j.val = k) :
    (recvDone c (k + 1) : sProp 𝕄) = iprop(rc c j true ∗ recvDone c k) :=
  put_lt _ j k _ hj.symm rfl

theorem sendCred_put (c : Dev nD) (k : ℕ) (j : Fin 24) (hj : j.val = k) :
    (sendCred c (k + 1) : sProp 𝕄) = iprop(cred (tallyAt (sendCell c j) () (NJ j)) ∗ sendCred c k) :=
  put_lt _ j k _ hj.symm rfl

theorem ghost_enter (K : GSem nD τ sig → ℕ) (c : Dev nD) : ghostAt m ρ K c 6 = ghostB m ρ K c 6 false false false false := by
  unfold ghostAt ghostB
  rw [recvTodo_take c 6 6 rfl, recvTodo_take c 7 7 rfl, recvTodo_take c 8 8 rfl, recvTodo_take c 9 9 rfl]
  refine sep_eq_of ?_ ?_
  · iintro ⟨HR, HL, HT, ⟨H6, H7, H8, H9, HTd⟩, HD, HS, HC, HO⟩
    iframe
  · iintro ⟨HR, HL, HT, ⟨H6, H7, H8, H9⟩, HTd, HD, HS, HC, HO⟩
    iframe

theorem ghost_leave (K : GSem nD τ sig → ℕ) (c : Dev nD) : ghostB m ρ K c 10 true true true true = ghostAt m ρ K c 10 := by
  unfold ghostAt ghostB
  rw [recvDone_put c 9 9 rfl, recvDone_put c 8 8 rfl, recvDone_put c 7 7 rfl, recvDone_put c 6 6 rfl]
  refine sep_eq_of ?_ ?_
  · iintro ⟨HR, HL, HT, ⟨H6, H7, H8, H9⟩, HTd, HD, HS, HC, HO⟩
    iframe
  · iintro ⟨HR, HL, HT, HTd, ⟨H9, H8, H7, H6, HD⟩, HS, HC, HO⟩
    iframe

end StageB

namespace StageB

end StageB

namespace StageB

theorem land_same {sh : Shape} (c' : Dev nD) (v : Memref sig .tc .vmem sh .f32) (fd fs : Buf (Elt F) (v.view.loc (c' : Thread nD τ))) :
    (v.view.loc (c' : Thread nD τ) ↦[v.view.set]{fullShare} (v.view.write (Elt F) fd (v.view.read (Elt F) fs) Finset.univ) : sProp 𝕄)
      ⊢ pts c' v fullShare fs :=
  Entails.of_eq (pts_congr c' v fullShare _ _ (write_read_self v fd fs))

theorem paR_at (c : Dev nD) (p : Fin 2) (t : Fin 3) : paR m ρ (xr c) p t = pts (xr c) (paV c p t) fullShare (Fn m ρ) := by
  unfold paR; rw [xl_xr]
theorem pbR_at (c : Dev nD) (p : Fin 2) (t : Fin 3) : pbR m ρ (xl c) p t = pts (xl c) (pbV c p t) fullShare (Fn m ρ) := by
  unfold pbR; rw [xr_xl]

theorem pa_send00 (c : Dev nD) :
    ((paV c 0 0).view.loc (c : Thread nD τ) ↦[(paV c 0 0).view.set]{Rq} Fn m ρ : sProp 𝕄) ⊢ sendPay m ρ c (paJ 0 0) := .rfl
theorem pb_send00 (c : Dev nD) :
    ((pbV c 0 0).view.loc (c : Thread nD τ) ↦[(pbV c 0 0).view.set]{Rq} Fn m ρ : sProp 𝕄) ⊢ sendPay m ρ c (pbJ 0 0) := .rfl

theorem pa_land00 (c : Dev nD) (fd : Buf (Elt F) ((paV c 0 0).view.loc (xr c : Thread nD τ))) :
    ((paV c 0 0).view.loc (xr c : Thread nD τ) ↦[(paV c 0 0).view.set]{fullShare} ((paV c 0 0).view.write (Elt F) fd ((paV c 0 0).view.read (Elt F) (Fn m ρ)) Finset.univ) : sProp 𝕄)
      ⊢ recvPay m ρ (peer (paJ 0 0) c) (paJ 0 0) :=
  (land_same (xr c) (paV c 0 0) fd (Fn m ρ)).trans (Entails.of_eq (paR_at m ρ c 0 0).symm)
theorem pb_land00 (c : Dev nD) (fd : Buf (Elt F) ((pbV c 0 0).view.loc (xl c : Thread nD τ))) :
    ((pbV c 0 0).view.loc (xl c : Thread nD τ) ↦[(pbV c 0 0).view.set]{fullShare} ((pbV c 0 0).view.write (Elt F) fd ((pbV c 0 0).view.read (Elt F) (Fn m ρ)) Finset.univ) : sProp 𝕄)
      ⊢ recvPay m ρ (peer (pbJ 0 0) c) (pbJ 0 0) :=
  (land_same (xl c) (pbV c 0 0) fd (Fn m ρ)).trans (Entails.of_eq (pbR_at m ρ c 0 0).symm)

end StageB

namespace StageB

theorem dev13_eq (c : Dev nD) : (⟨k0_dev13 c, k0_dev13_lt c⟩ : Dev nD) = zr c := by revert c; decide
theorem dev14_eq (c : Dev nD) : (⟨k0_dev14 c, k0_dev14_lt c⟩ : Dev nD) = zr c := by revert c; decide

theorem slot_land (c' : Dev nD) (k : Fin 6) (fd : Buf (Elt F) ((slotV k).view.loc (c' : Thread nD τ))) (w : Vec F S128x1024 .f32) :
    ((slotV k).view.loc (c' : Thread nD τ) ↦[(slotV k).view.set]{fullShare} ((slotV k).view.write (Elt F) fd w Finset.univ) : sProp 𝕄)
      ⊢ owns (c' : Thread nD τ) (slotV k) fullShare w := by
  refine (owns_intro (c' : Thread nD τ) (slotV k) fullShare _).trans (Entails.of_eq ?_)
  rw [slot_read_write c' k fd w]

theorem rs_send10 (c : Dev nD) :
    ((srcV xM c 1 0).view.loc (c : Thread nD τ) ↦[(srcV xM c 1 0).view.set]{Lq} X m ρ c : sProp 𝕄) ⊢ sendPay m ρ c (rsJ 1 0) := .rfl

theorem rs_land10 (c : Dev nD) (fd : Buf (Elt F) ((slotV 3).view.loc (zr c : Thread nD τ))) :
    ((slotV 3).view.loc (zr c : Thread nD τ) ↦[(slotV 3).view.set]{fullShare} ((slotV 3).view.write (Elt F) fd ((srcV xM c 1 0).view.read (Elt F) (X m ρ c)) Finset.univ) : sProp 𝕄)
      ⊢ recvPay m ρ (peer (rsJ 1 0) c) (rsJ 1 0) := by
  show _ ⊢ rsR m ρ (zr c) 1 0
  unfold rsR landed
  rw [zl_zr, if_pos rfl]
  exact (slot_land (zr c) 3 fd _).trans Laws.sep_emp.2

theorem rs_recv10 (c : Dev nD) :
    recvPay m ρ c (rsJ 1 0) ⊢ iprop(∃ f : Buf (Elt F) (cM.view.loc (c : Thread nD τ)), ⌜(slotV 3).view.read (Elt F) f = landed m ρ c 1 0⌝ ∗ pts c (slotV 3) fullShare f) := by
  show rsR m ρ c 1 0 ⊢ _
  unfold rsR owns
  rw [if_pos rfl]
  iintro ⟨H, -⟩
  iexact H

end StageB

namespace StageB

theorem pts_acc0 (c : Dev nD) (p : Fin 2) (q : PosShare TreeShare) (g : Buf (Elt F) (oM.view.loc (c : Thread nD τ))) :
    (pts c (agV c p 2) q g : sProp 𝕄) = pts c (accV c p 0) q g := pts_view_eq c (acc0_eq c p).symm q g g HEq.rfl

theorem stored (c : Dev nD) (p : Fin 2) (s : Fin 3) (g : Blk F) (f : Buf (Elt F) (cM.view.loc (c : Thread nD τ)))
    (hf : (slotV (slotOf p s)).view.read (Elt F) f = landed m ρ c p s) :
    (pts c (accV c p s) fullShare ((oM.access (accR c p s)).write (Elt F) g (k0_pay1 (xM.view.readAt (Elt F) (accR c p s).toLoadRect (X m ρ c))
        (cM.view.readAt (Elt F) (Rect.unit (s := S6x128x1024) ![(slotOf p s).val, 0, 0] S1x128x1024.size (slot_inb (slotOf p s))).toLoadRect f)) Finset.univ) : sProp 𝕄)
      = pts c (accV c p s) fullShare (Sk (X m ρ) (s.val + 1) c) :=
  pts_congr c (accV c p s) fullShare _ _ (store_val m ρ c p s g f hf)

end StageB

namespace StageB

def S13 (K : GSem nD τ sig → ℕ) (c : Dev nD) (xr_ : sProp 𝕄) : sProp 𝕄 :=
  iprop(ghostB m ρ K c 7 false false false false
    ∗ pts c (srcV xM c 1 0) Lq (X m ρ c) ∗ xr_
    ∗ pts c (agV (zr c) 0 2) Lq (Fn m ρ) ∗ pts c (pbV c 0 0) Rq (Fn m ρ)
    ∗ (∃ g : Buf (Elt F) (oM.view.loc (c : Thread nD τ)), pts c (agV c 1 0) fullShare g ∗ pts c (agV c 1 1) fullShare g ∗ pts c (agV c 1 2) fullShare g)
    ∗ slotsHeld m ρ c [(0,0),(0,1),(0,2)]
    ∗ (bor (zr c) (slotV 3) ∗ bor (zr c) (slotV 4) ∗ bor (zr c) (slotV 5))
    ∗ bor (zl c) (agV c 1 2)
    ∗ borPa c [(0,1),(0,2),(1,0),(1,1),(1,2)] ∗ borPb c [(0,0),(0,1),(0,2),(1,0),(1,1),(1,2)])

end StageB

set_option maxRecDepth 65536 in
theorem part13_spec (K : GSem nD τ sig → ℕ) (c : Dev nD) (xr_ : sProp 𝕄) (v8 v46 v50 v63 v67 v403 : BitVec 32) (Kt : PUnit → sProp 𝕄) :
    iprop(St2 m ρ K c xr_ ∗ (∀ r, StageB.S13 m ρ K c xr_ -∗ Kt r)) ⊢ wp frame (wpE (defs₀ (F := F)) 𝒱₀ (c : Thread nD τ) none) Set.univ
      (k0_part13 (F := F) (Memref.whole cc0_stg0_0) (Memref.isWhole_whole _) (Memref.whole cc0_stg1_0) (Memref.isWhole_whole _) (Memref.whole cc0_scratch0) (Memref.isWhole_whole _) cc0_scratch1 cc0_scratch2 cc0_scratch3 cc0_scratch4 cc0_scratch5 cc0_scratch6 c v8 v46 v50 v63 v67 v403) Kt := by
  rw [k0_part13_eq_skeleton]; unfold k0_part13_skel
  simp only [Prog.lift, Prog.bind_op, Prog.bind_ret, Prog.pure_eq_ret]
  unfold St2 StageB.S13
  rw [StageB.ghost_enter m ρ K c]
  unfold StageB.ghostB
  rw [StageB.toks_take c 6 (paJ 0 0) rfl, StageB.sendCred_put c 6 (paJ 0 0) rfl,
    borPa_cons c (0, 0) (0, 1) [(0,2),(1,0),(1,1),(1,2)]]
  unfold bor
  iintro ⟨⟨⟨#HR, #HL, ⟨⟨Ht1, Ht2⟩, HT⟩, HRc, HTd, HDn, HSt, HSc, ⟨%W, HO⟩⟩, HA, Hx, B0, B1, B2, B3, HGg, Hsl, Hbs, Hbz, ⟨⟨%fd, Hpa0⟩, Hpa⟩, Hpb⟩, HK⟩
  ihave B3' := ((share_LR c (agV (zr c) 0 2) (Fn m ρ)).1) $$ B3
  icases B3' with ⟨B3L, B3R⟩
  ihave HP := ((subq_join c 0 Rq (Fn m ρ)).1) $$ [B0 B1 B2 B3R]
  · iframe
  icases HP with ⟨HPa, HPb⟩
  iapply (step_send m ρ K c (paJ 0 0) 17 rfl (paV c 0 0) (paV c 0 0) Rq (Fn m ρ) fd W _ _ _
      ((dev11_eq c).trans (peer_pa 0 0 c).symm) (upsend_sem 0 0 _ _) (uprecv_sem 0 0 _ _)
      ((amount_pa c 0 0 _).trans (NJ_pa 0 0).symm) (StageB.pa_send00 m ρ c) (StageB.pa_land00 m ρ c fd)) $$ [HPa Hpa0 HO Ht1 Ht2]
  · iframe
    isplitr; · iexact HR
    iexact Hpa0
  iintro ⟨Hcr, HO⟩
  rw [wp_ret]
  imodintro
  iapply HK
  isplitl [HT HRc HTd HDn HSt HSc Hcr HO]
  · isplitr; · iexact HR
    isplitr; · iexact HL
    isplitl [HT]; · iexact HT
    isplitl [HRc]; · iexact HRc
    isplitl [HTd]; · iexact HTd
    isplitl [HDn]; · iexact HDn
    isplitl [HSt]; · iexact HSt
    isplitl [Hcr HSc]
    · isplitl [Hcr] <;> iassumption
    iexists W; iexact HO
  iframe

namespace StageB

def S14 (K : GSem nD τ sig → ℕ) (c : Dev nD) (xr_ : sProp 𝕄) : sProp 𝕄 :=
  iprop(ghostB m ρ K c 8 false false false false
    ∗ pts c (srcV xM c 1 0) Lq (X m ρ c) ∗ xr_
    ∗ pts c (agV (zr c) 0 2) Lq (Fn m ρ)
    ∗ (∃ g : Buf (Elt F) (oM.view.loc (c : Thread nD τ)), pts c (agV c 1 0) fullShare g ∗ pts c (agV c 1 1) fullShare g ∗ pts c (agV c 1 2) fullShare g)
    ∗ slotsHeld m ρ c [(0,0),(0,1),(0,2)]
    ∗ (bor (zr c) (slotV 3) ∗ bor (zr c) (slotV 4) ∗ bor (zr c) (slotV 5))
    ∗ bor (zl c) (agV c 1 2)
    ∗ borPa c [(0,1),(0,2),(1,0),(1,1),(1,2)] ∗ borPb c [(0,1),(0,2),(1,0),(1,1),(1,2)])

end StageB

set_option maxRecDepth 65536 in
theorem part14_spec (K : GSem nD τ sig → ℕ) (c : Dev nD) (xr_ : sProp 𝕄) (v2 v5 v8 v33 : BitVec 32)
    (Kt : (Σ' (v442 : BitVec 32) (v465 : BitVec 32) (v471 : BitVec 32), BitVec 32) → sProp 𝕄) :
    iprop(StageB.S13 m ρ K c xr_ ∗ (∀ r, StageB.S14 m ρ K c xr_ -∗ Kt r)) ⊢ wp frame (wpE (defs₀ (F := F)) 𝒱₀ (c : Thread nD τ) none) Set.univ
      (k0_part14 (F := F) (Memref.whole cc0_stg0_0) (Memref.isWhole_whole _) (Memref.whole cc0_stg1_0) (Memref.isWhole_whole _) (Memref.whole cc0_scratch0) (Memref.isWhole_whole _) cc0_scratch1 cc0_scratch2 cc0_scratch3 cc0_scratch4 cc0_scratch5 cc0_scratch6 c v2 v5 v8 v33) Kt := by
  rw [k0_part14_eq_skeleton]; unfold k0_part14_skel
  simp only [Prog.lift, Prog.bind_op, Prog.bind_ret, Prog.pure_eq_ret]
  unfold StageB.S13 StageB.S14 StageB.ghostB
  rw [StageB.toks_take c 7 (pbJ 0 0) rfl, StageB.sendCred_put c 7 (pbJ 0 0) rfl,
    borPb_cons c (0, 0) (0, 1) [(0,2),(1,0),(1,1),(1,2)]]
  unfold bor
  iintro ⟨⟨⟨#HR, #HL, ⟨⟨Ht1, Ht2⟩, HT⟩, HRc, HTd, HDn, HSt, HSc, ⟨%W, HO⟩⟩, HA, Hx, B3L, HPb, HGg, Hsl, Hbs, Hbz, Hpa, ⟨⟨%fd, Hpb0⟩, Hpb⟩⟩, HK⟩
  iapply (step_send m ρ K c (pbJ 0 0) 16 rfl (pbV c 0 0) (pbV c 0 0) Rq (Fn m ρ) fd W _ _ _
      ((dev12_eq c).trans (peer_pb 0 0 c).symm) (dnsend_sem 0 0 _ _) (dnrecv_sem 0 0 _ _)
      ((amount_pb c 0 0 _).trans (NJ_pb 0 0).symm) (StageB.pb_send00 m ρ c) (StageB.pb_land00 m ρ c fd)) $$ [HPb Hpb0 HO Ht1 Ht2]
  · iframe
    isplitr; · iexact HR
    iexact Hpb0
  iintro ⟨Hcr, HO⟩
  rw [wp_ret]
  imodintro
  iapply HK
  isplitl [HT HRc HTd HDn HSt HSc Hcr HO]
  · isplitr; · iexact HR
    isplitr; · iexact HL
    isplitl [HT]; · iexact HT
    isplitl [HRc]; · iexact HRc
    isplitl [HTd]; · iexact HTd
    isplitl [HDn]; · iexact HDn
    isplitl [HSt]; · iexact HSt
    isplitl [Hcr HSc]
    · isplitl [Hcr] <;> iassumption
    iexists W; iexact HO
  iframe

namespace StageB

def S15 (K : GSem nD τ sig → ℕ) (c : Dev nD) (xr_ : sProp 𝕄) : sProp 𝕄 :=
  iprop(ghostB m ρ K c 9 false false true false
    ∗ xr_
    ∗ pts c (agV (zr c) 0 2) Lq (Fn m ρ)
    ∗ (∃ g : Buf (Elt F) (oM.view.loc (c : Thread nD τ)), pts c (agV c 1 0) fullShare g ∗ pts c (agV c 1 1) fullShare g)
    ∗ pts c (agV c 1 2) fullShare (Sk (X m ρ) 1 c)
    ∗ slotsHeld m ρ c [(0,0),(0,1),(0,2),(1,0)]
    ∗ (bor (zr c) (slotV 4) ∗ bor (zr c) (slotV 5))
    ∗ bor (zl c) (agV c 1 2)
    ∗ borPa c [(0,1),(0,2),(1,0),(1,1),(1,2)] ∗ borPb c [(0,1),(0,2),(1,0),(1,1),(1,2)])

def S17 (K : GSem nD τ sig → ℕ) (c : Dev nD) (xr_ : sProp 𝕄) : sProp 𝕄 :=
  iprop(ghostB m ρ K c 10 true false true true
    ∗ xr_
    ∗ pts c (agV (zr c) 0 2) Lq (Fn m ρ) ∗ pts c (paV (xl c) 0 0) fullShare (Fn m ρ)
    ∗ (∃ g : Buf (Elt F) (oM.view.loc (c : Thread nD τ)), pts c (agV c 1 0) fullShare g) ∗ pts c (agV c 1 1) fullShare (Sk (X m ρ) 2 c)
    ∗ slotsHeld m ρ c [(0,0),(0,1),(0,2),(1,0),(1,1)]
    ∗ bor (zr c) (slotV 5)
    ∗ bor (zl c) (agV c 1 2) ∗ pts (zl c) (agV c 1 1) fullShare (Sk (X m ρ) 1 (zl c))
    ∗ borPa c [(0,1),(0,2),(1,0),(1,1),(1,2)] ∗ borPb c [(0,1),(0,2),(1,0),(1,1),(1,2)])

end StageB

set_option maxRecDepth 65536 in
theorem part15_spec (K : GSem nD τ sig → ℕ) (c : Dev nD) (xr_ xr' : sProp 𝕄)
    (hxr : xr_ = iprop((xM.view.loc (c : Thread nD τ) ↦[Finset.univ]{Rq} X m ρ c) ∗ xr'))
    (v2 v5 v8 v19 v33 v442 v465 v471 c1_i32_328 : BitVec 32)
    (Kt : (Σ' (v503 : BitVec 32) (v504 : BitVec 32) (c4_i32_350 : BitVec 32), BitVec 32) → sProp 𝕄) :
    iprop(StageB.S14 m ρ K c xr_ ∗ (∀ r, StageB.S15 m ρ K c xr_ -∗ Kt r)) ⊢ wp frame (wpE (defs₀ (F := F)) 𝒱₀ (c : Thread nD τ) none) Set.univ
      (k0_part15 (F := F) (Memref.whole cc0_stg0_0) (Memref.isWhole_whole _) (Memref.whole cc0_stg1_0) (Memref.isWhole_whole _) (Memref.whole cc0_scratch0) (Memref.isWhole_whole _) cc0_scratch1 cc0_scratch2 cc0_scratch3 cc0_scratch4 cc0_scratch5 cc0_scratch6 c v2 v5 v8 v19 v33 v442 v465 v471 c1_i32_328) Kt := by
  rw [k0_part15_eq_skeleton]; unfold k0_part15_skel
  simp only [Prog.lift, Prog.bind_op, Prog.bind_ret, Prog.pure_eq_ret]
  subst hxr
  unfold StageB.S14 StageB.S15 StageB.ghostB StageB.rc
  rw [StageB.toks_take c 8 (rsJ 1 0) rfl, StageB.sendCred_put c 8 (rsJ 1 0) rfl]
  simp only [slotsHeld_cons, slotsHeld_one]
  unfold bor
  iintro ⟨⟨⟨#HR, #HL, ⟨⟨Ht1, Ht2⟩, HT⟩, ⟨H6, H7, ⟨Hat8, Hcr8⟩, H9⟩, HTd, HDn, HSt, HSc, ⟨%W, HO⟩⟩, HA, ⟨HxR, Hx'⟩, B3L, ⟨%g, Hg0, Hg1, Hg2⟩, ⟨Hs0, Hs1, Hs2⟩, ⟨⟨%fd, Hb3⟩, Hb4, Hb5⟩, Hbz, Hpa, Hpb⟩, HK⟩
  iapply (step_send m ρ K c (rsJ 1 0) 15 rfl (srcV xM c 1 0) (slotV 3) Lq (X m ρ c) fd W _ _ _
      ((StageB.dev13_eq c).trans (peer_rs 1 0 c).symm) (zsend_rs 1 0 _ _) (zrecv_rs 1 0 _ _)
      ((amount_slot 3 _).trans (NJ_rs 1 0).symm) (StageB.rs_send10 m ρ c) (StageB.rs_land10 m ρ c fd)) $$ [HA Hb3 HO Ht1 Ht2]
  · iframe
    isplitr; · iexact HR
    iexact Hb3
  iintro ⟨Hcr, HO⟩
  iapply (step_wait_recv m ρ K c (rsJ 1 0) (Orem c 15) W (srcV xM c 1 0) (slotV 3) _ (zrecv_rs 1 0 _ _)
      (NJ_rs 1 0).symm (mayWait_recv c (rsJ 1 0) 15 (by decide))) $$ [Hcr8 HO Hat8]
  · isplitr; · iexact HR
    isplitr; · iexact HL
    isplitl [Hcr8]; · iexact Hcr8
    isplitl [HO]; · iexact HO
    iexact Hat8
  iintro ⟨⟨%W', HO⟩, Hat8, Hpay⟩
  ihave Hl := (StageB.rs_recv10 m ρ c) $$ Hpay
  icases Hl with ⟨%f, %hf, Hs3⟩
  iapply (wp_load 𝒱₀ (c : Thread nD τ) none Set.univ (acc_load_set_x c 1 0)) $$ [HxR]
  · iexact HxR
  iintro HxR
  iapply (wp_load 𝒱₀ (c : Thread nD τ) none Set.univ (slot_load_set 3)) $$ [Hs3]
  · iexact Hs3
  iintro Hs3
  ihave Hg2' := (Entails.of_eq (StageB.pts_acc0 c 1 fullShare g)) $$ Hg2
  iapply (wp_load 𝒱₀ (c : Thread nD τ) none Set.univ (acc_load_set c 1 0)) $$ [Hg2']
  · iexact Hg2'
  iintro Hg2'
  iapply (wp_store 𝒱₀ (c : Thread nD τ) none Set.univ (S := (accV c 1 0).view.set) (Finset.Subset.refl _)) $$ [Hg2']
  · iexact Hg2'
  iintro Hg2'
  ihave Hg2'' : pts c (agV c 1 2) fullShare (Sk (X m ρ) 1 c) $$ [Hg2']
  · istop
    exact sep_elim_right.trans (Entails.of_eq ((StageB.stored m ρ c 1 0 g f hf).trans (StageB.pts_acc0 c 1 fullShare (Sk (X m ρ) 1 c)).symm))
  rw [wp_ret]
  imodintro
  iapply HK
  isplitl [HT H6 H7 Hat8 H9 HTd HDn HSt HSc Hcr HO]
  · isplitr; · iexact HR
    isplitr; · iexact HL
    isplitl [HT]; · iexact HT
    isplitl [H6 H7 Hat8 H9]
    · isplitl [H6]; · iexact H6
      isplitl [H7]; · iexact H7
      isplitl [Hat8]; · iexact Hat8
      iexact H9
    isplitl [HTd]; · iexact HTd
    isplitl [HDn]; · iexact HDn
    isplitl [HSt]; · iexact HSt
    isplitl [Hcr HSc]
    · isplitl [Hcr] <;> iassumption
    iexists W'; iexact HO
  isplitl [HxR Hx']
  · isplitl [HxR] <;> iassumption
  isplitl [B3L]; · iexact B3L
  isplitl [Hg0 Hg1]
  · iexists g; isplitl [Hg0] <;> iassumption
  isplitl [Hg2'']; · iexact Hg2''
  isplitl [Hs0 Hs1 Hs2 Hs3]
  · isplitl [Hs0]; · iexact Hs0
    isplitl [Hs1]; · iexact Hs1
    isplitl [Hs2]; · iexact Hs2
    unfold owns
    iexists f
    isplitr; · ipureintro; exact hf
    iexact Hs3
  isplitl [Hb4 Hb5]
  · isplitl [Hb4] <;> iassumption
  isplitl [Hbz]; · iexact Hbz
  isplitl [Hpa] <;> iassumption

set_option maxRecDepth 65536 in
theorem part16_spec (K : GSem nD τ sig → ℕ) (c : Dev nD) (xr_ : sProp 𝕄) (v2 v5 v8 v19 v503 v504 c4_i32_350 c0_i32_351 : BitVec 32)
    (Kt : BitVec 32 → sProp 𝕄) :
    iprop(StageB.S15 m ρ K c xr_ ∗ (∀ r, StageB.S15 m ρ K c xr_ -∗ Kt r)) ⊢ wp frame (wpE (defs₀ (F := F)) 𝒱₀ (c : Thread nD τ) none) Set.univ
      (k0_part16 (F := F) (Memref.whole cc0_stg0_0) (Memref.isWhole_whole _) (Memref.whole cc0_stg1_0) (Memref.isWhole_whole _) (Memref.whole cc0_scratch0) (Memref.isWhole_whole _) cc0_scratch1 cc0_scratch2 cc0_scratch3 cc0_scratch4 cc0_scratch5 cc0_scratch6 c v2 v5 v8 v19 v503 v504 c4_i32_350 c0_i32_351) Kt := by
  rw [k0_part16_eq_skeleton]; unfold k0_part16_skel
  simp only [Prog.pure_eq_ret]
  iintro ⟨H, HK⟩
  rw [wp_ret]
  imodintro
  iapply HK
  iexact H

set_option maxRecDepth 65536 in
theorem part18_spec (K : GSem nD τ sig → ℕ) (c : Dev nD) (xr_ : sProp 𝕄) (v8 v33 v63 v67 : BitVec 32) (Kt : BitVec 32 → sProp 𝕄) :
    iprop(StageB.S17 m ρ K c xr_ ∗ (∀ r, St3 m ρ K c xr_ -∗ Kt r)) ⊢ wp frame (wpE (defs₀ (F := F)) 𝒱₀ (c : Thread nD τ) none) Set.univ
      (k0_part18 (F := F) (Memref.whole cc0_stg0_0) (Memref.isWhole_whole _) (Memref.whole cc0_stg1_0) (Memref.isWhole_whole _) (Memref.whole cc0_scratch0) (Memref.isWhole_whole _) cc0_scratch1 cc0_scratch2 cc0_scratch3 cc0_scratch4 cc0_scratch5 cc0_scratch6 c v8 v33 v63 v67) Kt := by
  rw [k0_part18_eq_skeleton]; unfold k0_part18_skel
  simp only [Prog.lift, Prog.bind_op, Prog.bind_ret, Prog.pure_eq_ret]
  unfold StageB.S17 St3
  rw [← StageB.ghost_leave m ρ K c]
  unfold StageB.ghostB StageB.rc
  iintro ⟨⟨⟨#HR, #HL, HT, ⟨H6, ⟨Hat7, Hcr7⟩, H8, H9⟩, HTd, HDn, HSt, HSc, ⟨%W, HO⟩⟩, Hx, B3L, Hpa0, HG, Hg1, Hsl, Hb5, Hbz, Hz1, Hpa, Hpb⟩, HK⟩
  iapply (step_wait_recv m ρ K c (pbJ 0 0) (Orem c 14) W (pbV c 0 0) (pbV c 0 0) _ (dnrecv_sem 0 0 _ _)
      (NJ_pb 0 0).symm (mayWait_recv c (pbJ 0 0) 14 (by decide))) $$ [Hcr7 HO Hat7]
  · isplitr; · iexact HR
    isplitr; · iexact HL
    isplitl [Hcr7]; · iexact Hcr7
    isplitl [HO]; · iexact HO
    iexact Hat7
  iintro ⟨⟨%W', HO⟩, Hat7, Hpay⟩
  ihave Hp := (Entails.of_eq (show recvPay m ρ c (pbJ 0 0) = pts c (pbV (xr c) 0 0) fullShare (Fn m ρ) from rfl)) $$ Hpay
  rw [wp_ret]
  imodintro
  iapply HK
  isplitl [HT H6 Hat7 H8 H9 HTd HDn HSt HSc HO]
  · isplitr; · iexact HR
    isplitr; · iexact HL
    isplitl [HT]; · iexact HT
    isplitl [H6 Hat7 H8 H9]
    · isplitl [H6]; · iexact H6
      isplitl [Hat7]; · iexact Hat7
      isplitl [H8]; · iexact H8
      iexact H9
    isplitl [HTd]; · iexact HTd
    isplitl [HDn]; · iexact HDn
    isplitl [HSt]; · iexact HSt
    isplitl [HSc]; · iexact HSc
    iexists W'; iexact HO
  isplitl [Hx]; · iexact Hx
  isplitl [B3L]; · iexact B3L
  isplitl [Hpa0]; · iexact Hpa0
  isplitl [Hp]; · iexact Hp
  iframe

end Cert.KernelIdeal.AR

end
-- ==== Proof.StageB17.lean ====
import proofs.«900720_g7700000000000721_dist_ar_v7x_xyz2x2x4_z_m4096_n1024_f32_1_alg».proof.Proof.StageB
import proofs.«900720_g7700000000000721_dist_ar_v7x_xyz2x2x4_z_m4096_n1024_f32_1_alg».proof.Proof.StageA1

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
theorem part17_spec (K : GSem nD τ sig → ℕ) (c : Dev nD) (xr_ xr' : sProp 𝕄)
    (hxr : xr_ = iprop((xM.view.loc (c : Thread nD τ) ↦[Finset.univ]{Rq} X m ρ c) ∗ xr'))
    (v2 v5 v8 v19 v46 v50 v503 v526 : BitVec 32) (Kt : PUnit → sProp 𝕄) :
    iprop(StageB.S15 m ρ K c xr_ ∗ (∀ r, StageB.S17 m ρ K c xr_ -∗ Kt r)) ⊢ wp frame (wpE (defs₀ (F := F)) 𝒱₀ (c : Thread nD τ) none) Set.univ
      (k0_part17 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 c v2 v5 v8 v19 v46 v50 v503 v526) Kt := by
  subst hxr
  rw [k0_part17_eq_skeleton]; unfold k0_part17_skel
  simp only [Prog.lift, Prog.bind_op, Prog.bind_ret, Prog.pure_eq_ret]
  unfold StageB.S15 StageB.S17 StageB.ghostB
  simp only [StageB.rc, slotsHeld_cons, slotsHeld_one]
  rw [StageB.toks_take c 9 (rsJ 1 1) rfl, StageB.sendCred_put c 9 (rsJ 1 1) rfl]
  unfold bor
  iintro ⟨⟨⟨#HR, #HL, ⟨⟨Ht1, Ht2⟩, HT⟩, ⟨⟨Hat6, Hcr6⟩, Hrc7, Hrc8, ⟨Hat9, Hcr9⟩⟩, HTd, HDn, HSt, HSc, ⟨%W, HO⟩⟩, ⟨Hx, Hxr'⟩, Hzr02,
    ⟨%g, Hg10, Hg11⟩, Hag12, ⟨Ho00, Ho01, Ho02, Ho10⟩, ⟨⟨%fd, Hs4⟩, Hs5⟩, Hbzl, HbPa, HbPb⟩, HK⟩

  ihave Hag12 := (Entails.of_eq (pts_view_eq c (src1_eq c 1).symm fullShare (Sk (X m ρ) 1 c) (Sk (X m ρ) 1 c) HEq.rfl)) $$ Hag12
  iapply (step_send_landing m ρ K c (rsJ 1 1) 14 rfl (srcV oM c 1 1) (slotV (slotOf 1 1)) fullShare (Sk (X m ρ) 1 c) fd W _ _ _
      (StageB.dev14_eq c) (zsend_rs 1 1 _ _) (zrecv_rs 1 1 _ _)
      ((amount_slot (slotOf 1 1) _).trans (NJ_rs 1 1).symm)
      (by rw [sendPay_rs]; unfold rsS; rw [if_neg (by decide)])
      (by rw [StageA1.recvPay_rs1 m ρ _ 1 1 (by decide) 1 rfl, peer_rs, zl_zr]
          exact sep_mono_left (StageA1.landing_owns_o m ρ c 1 1 fd))) $$ [Hag12 Hs4 HO Ht1 Ht2]
  · iframe
    isplitr; · iexact HR
    iexact Hs4
  iintro ⟨Hc9, HO⟩

  iapply (step_wait_recv m ρ K c (rsJ 1 1) (Orem c 14) W (srcV oM c 1 1) (slotV (slotOf 1 1)) _ (zrecv_rs 1 1 _ _)
      (NJ_rs 1 1).symm (mayWait_recv c (rsJ 1 1) 14 (by decide))) $$ [Hcr9 HO Hat9]
  · isplitr; · iexact HR
    isplitr; · iexact HL
    isplitl [Hcr9]; · iexact Hcr9
    isplitl [HO]; · iexact HO
    iexact Hat9
  iintro ⟨⟨%W1, HO⟩, Hat9, Hpay⟩
  ihave Hpay := (Entails.of_eq (StageA1.recvPay_rs1 m ρ c 1 1 (by decide) 1 rfl)) $$ Hpay
  icases Hpay with ⟨Hslot, Hz⟩
  ihave Hz := (Entails.of_eq (pts_view_eq (zl c) (src_zl1 c 1) fullShare (Sk (X m ρ) 1 (zl c)) (Sk (X m ρ) 1 (zl c)) HEq.rfl)) $$ Hz
  unfold owns
  icases Hslot with ⟨%f, %hf, Hslot⟩

  ihave Hg11 := (Entails.of_eq (pts_view_eq c (acc1_eq c 1).symm fullShare g g HEq.rfl)) $$ Hg11
  iapply (StageA1.add_step m ρ c 1 1 k0_pay5 pay_eq5 f hf g 2 rfl) $$ [Hx Hslot Hg11]
  · isplitl [Hx]; · iexact Hx
    isplitl [Hslot]; · iexact Hslot
    iexact Hg11
  iintro ⟨Hx, Hslot, Hg11⟩
  ihave Hg11 := (Entails.of_eq (pts_view_eq c (acc1_eq c 1) fullShare (Sk (X m ρ) 2 c) (Sk (X m ρ) 2 c) HEq.rfl)) $$ Hg11

  iapply (step_wait_recv m ρ K c (paJ 0 0) (Orem c 14) W1 (paV c 0 0) (paV c 0 0) _ (uprecv_sem 0 0 _ _)
      ((show (paV c 0 0).view.dmaCredit = N256 from rfl).trans (NJ_pa 0 0).symm) (mayWait_recv c (paJ 0 0) 14 (by decide))) $$ [Hcr6 HO Hat6]
  · isplitr; · iexact HR
    isplitr; · iexact HL
    isplitl [Hcr6]; · iexact Hcr6
    isplitl [HO]; · iexact HO
    iexact Hat6
  iintro ⟨⟨%W2, HO⟩, Hat6, Hpay6⟩
  ihave Hpa0 := (Entails.of_eq ((recvPay_pa m ρ c 0 0).trans (show paR m ρ c 0 0 = pts c (paV (xl c) 0 0) fullShare (Fn m ρ) from rfl))) $$ Hpay6
  rw [wp_ret]; imodintro
  iapply HK
  isplitl [HT Hat6 Hrc7 Hrc8 Hat9 HTd HDn HSt HSc Hc9 HO]
  · isplitr; · iexact HR
    isplitr; · iexact HL
    isplitl [HT]; · iexact HT
    isplitl [Hat6 Hrc7 Hrc8 Hat9]
    · isplitl [Hat6]; · iexact Hat6
      isplitl [Hrc7]; · iexact Hrc7
      isplitl [Hrc8]; · iexact Hrc8
      iexact Hat9
    isplitl [HTd]; · iexact HTd
    isplitl [HDn]; · iexact HDn
    isplitl [HSt]; · iexact HSt
    isplitl [Hc9 HSc]
    · isplitl [Hc9]; · iexact Hc9
      iexact HSc
    iexists W2; iexact HO
  isplitl [Hx Hxr']
  · isplitl [Hx]; · iexact Hx
    iexact Hxr'
  isplitl [Hzr02]; · iexact Hzr02
  isplitl [Hpa0]; · iexact Hpa0
  isplitl [Hg10]; · iexists g; iexact Hg10
  isplitl [Hg11]; · iexact Hg11
  isplitl [Ho00 Ho01 Ho02 Ho10 Hslot]
  · isplitl [Ho00]; · iexact Ho00
    isplitl [Ho01]; · iexact Ho01
    isplitl [Ho02]; · iexact Ho02
    isplitl [Ho10]; · iexact Ho10
    iexists f
    isplitr; · ipureintro; exact hf
    iexact Hslot
  iframe

end Cert.KernelIdeal.AR

end
-- ==== Proof.StageC.lean ====
import proofs.«900720_g7700000000000721_dist_ar_v7x_xyz2x2x4_z_m4096_n1024_f32_1_alg».proof.Proof.Steps
import proofs.«900720_g7700000000000721_dist_ar_v7x_xyz2x2x4_z_m4096_n1024_f32_1_alg».proof.Proof.Levels
import proofs.«900720_g7700000000000721_dist_ar_v7x_xyz2x2x4_z_m4096_n1024_f32_1_alg».proof.Proof.Views
import proofs.«900720_g7700000000000721_dist_ar_v7x_xyz2x2x4_z_m4096_n1024_f32_1_alg».proof.Proof.Parts

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace StageC

def tokPair (c : Dev nD) (j : Fin 24) : sProp 𝕄 := iprop(dutyTok ER (sendCell c j) 0 0 ∗ dutyTok ER (recvCell (peer j c) j) 0 0)
def rTodo (c : Dev nD) (j : Fin 24) : sProp 𝕄 := iprop(atPos ER (recvCell c j) 0 ∅ 0 ∗ cred (tallyAt (recvCell c j) () (NJ j)))
def rDone (c : Dev nD) (j : Fin 24) : sProp 𝕄 := atPos ER (recvCell c j) 1 ∅ 0

theorem toks_take (c : Dev nD) (k : ℕ) (hk : k < 24) : (toksFrom c k : sProp 𝕄) = iprop(tokPair c ⟨k, hk⟩ ∗ toksFrom c (k + 1)) :=
  take_ge _ ⟨k, hk⟩ k _ rfl rfl
theorem recvTodo_take (c : Dev nD) (k : ℕ) (hk : k < 24) : (recvTodo c k : sProp 𝕄) = iprop(rTodo c ⟨k, hk⟩ ∗ recvTodo c (k + 1)) :=
  take_ge _ ⟨k, hk⟩ k _ rfl rfl
theorem recvDone_put (c : Dev nD) (k : ℕ) (hk : k < 24) : (recvDone c (k + 1) : sProp 𝕄) = iprop(rDone c ⟨k, hk⟩ ∗ recvDone c k) :=
  put_lt _ ⟨k, hk⟩ k _ rfl rfl
theorem sendCred_put (c : Dev nD) (k : ℕ) (hk : k < 24) :
    (sendCred c (k + 1) : sProp 𝕄) = iprop(cred (tallyAt (sendCell c ⟨k, hk⟩) () (NJ ⟨k, hk⟩)) ∗ sendCred c k) :=
  put_lt _ ⟨k, hk⟩ k _ rfl rfl

def ghostC (K : GSem nD τ sig → ℕ) (c : Dev nD) (k : ℕ) (R : sProp 𝕄) : sProp 𝕄 :=
  iprop(records m ρ K ∗ levAts L lv ∗ toksFrom c k ∗ R ∗ sendTodo c ∗ sendCred c k ∗ ∃ W, owes (c : Thread nD τ) (Orem c (24 - k)) W)

theorem ghostAt_C (K : GSem nD τ sig → ℕ) (c : Dev nD) (k : ℕ) : ghostAt m ρ K c k ⊣⊢ ghostC m ρ K c k iprop(recvTodo c k ∗ recvDone c k) := by
  unfold ghostAt ghostC
  constructor
  · iintro ⟨HR, Hl, Ht, Hrt, Hrd, Hst, Hsc, HO⟩
    iframe
  · iintro ⟨HR, Hl, Ht, ⟨Hrt, Hrd⟩, Hst, Hsc, HO⟩
    iframe

theorem ghost_send_at {sh : Shape} (K : GSem nD τ sig → ℕ) (c : Dev nD) (j : Fin 24) (R : sProp 𝕄)
    (d e : Dev nD) (ss rs : DmaSem sig) (hde : d = e) (he : e = peer j c) (hss : ss = sendSem j) (hrs : rs = recvSem j)
    (src dst : Memref sig .tc .vmem sh .f32) (q : PosShare TreeShare)
    (fs : Buf (Elt F) (src.view.loc (c : Thread nD τ))) (fd : Buf (Elt F) (dst.view.loc (e : Thread nD τ)))
    {hsc : (dst : Memref sig (Dev.tc d : Thread nD τ).2.kind .vmem sh .f32).view.ref.isScScratch = false}
    {hsrc : src.view.WordExact} {hdst : dst.view.WordExact}
    {hsem : DmaTarget.Typed .vmem (.dma rs) (.remote (Dev.tc d : Thread nD τ) dst (.dma ss) hsc)}
    {α : Type} {Q : α → sProp 𝕄} {k : PUnit → Prog (TpuEff nD τ sig (Elt F) Λ₀ .tc) α}
    (hN : dst.view.amount (.dma (recvSem j)) = NJ j)
    (hpay₁ : (src.view.loc (c : Thread nD τ) ↦[src.view.set]{q} fs : sProp 𝕄) ⊢ sendPay m ρ c j)
    (hpay₂ : (dst.view.loc (e : Thread nD τ) ↦[dst.view.set]{fullShare} (dst.view.write (Elt F) fd (src.view.read (Elt F) fs) Finset.univ) : sProp 𝕄)
      ⊢ recvPay m ρ e j) :
    iprop(ghostC m ρ K c j.val R ∗ pts c src q fs ∗ pts e dst fullShare fd)
      ⊢ iprop((ghostC m ρ K c (j.val + 1) R -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma ss) hsc) (.dma rs) hsrc hdst hsem) k) Q) := by
  subst hde; subst he; subst hss; subst hrs
  unfold ghostC
  rw [toks_take c j.val j.isLt, sendCred_put c j.val j.isLt, show 24 - j.val = (23 - j.val) + 1 from by omega,
    show 24 - (j.val + 1) = 23 - j.val from by omega]
  unfold tokPair
  iintro ⟨⟨#HR, #Hl, ⟨⟨Ht1, Ht2⟩, Ht⟩, HRr, Hst, Hsc, ⟨%W, HO⟩⟩, Hs, Hd⟩ Hk
  iapply (step_send m ρ K c j (23 - j.val) (by omega) src dst q fs fd W _ _ _ rfl rfl rfl hN hpay₁ hpay₂) $$ [Hs Hd HO Ht1 Ht2]
  · iframe
    iexact HR
  iintro ⟨Hc, HO⟩
  iapply Hk
  iframe
  isplitr; · iexact HR
  isplitr; · iexact Hl
  iexists W; iexact HO

theorem ghost_send_landing_at {sh : Shape} (K : GSem nD τ sig → ℕ) (c : Dev nD) (j : Fin 24) (R : sProp 𝕄)
    (d e : Dev nD) (ss rs : DmaSem sig) (hde : d = e) (he : e = peer j c) (hss : ss = sendSem j) (hrs : rs = recvSem j)
    (src dst : Memref sig .tc .vmem sh .f32) (q : PosShare TreeShare)
    (fs : Buf (Elt F) (src.view.loc (c : Thread nD τ))) (fd : Buf (Elt F) (dst.view.loc (e : Thread nD τ)))
    {hsc : (dst : Memref sig (Dev.tc d : Thread nD τ).2.kind .vmem sh .f32).view.ref.isScScratch = false}
    {hsrc : src.view.WordExact} {hdst : dst.view.WordExact}
    {hsem : DmaTarget.Typed .vmem (.dma rs) (.remote (Dev.tc d : Thread nD τ) dst (.dma ss) hsc)}
    {α : Type} {Q : α → sProp 𝕄} {k : PUnit → Prog (TpuEff nD τ sig (Elt F) Λ₀ .tc) α}
    (hN : dst.view.amount (.dma (recvSem j)) = NJ j)
    (hpay₁ : (emp : sProp 𝕄) ⊢ sendPay m ρ c j)
    (hpay₂ : iprop((dst.view.loc (e : Thread nD τ) ↦[dst.view.set]{fullShare} (dst.view.write (Elt F) fd (src.view.read (Elt F) fs) Finset.univ))
        ∗ (src.view.loc (c : Thread nD τ) ↦[src.view.set]{q} fs))
      ⊢ recvPay m ρ e j) :
    iprop(ghostC m ρ K c j.val R ∗ pts c src q fs ∗ pts e dst fullShare fd)
      ⊢ iprop((ghostC m ρ K c (j.val + 1) R -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma ss) hsc) (.dma rs) hsrc hdst hsem) k) Q) := by
  subst hde; subst he; subst hss; subst hrs
  unfold ghostC
  rw [toks_take c j.val j.isLt, sendCred_put c j.val j.isLt, show 24 - j.val = (23 - j.val) + 1 from by omega,
    show 24 - (j.val + 1) = 23 - j.val from by omega]
  unfold tokPair
  iintro ⟨⟨#HR, #Hl, ⟨⟨Ht1, Ht2⟩, Ht⟩, HRr, Hst, Hsc, ⟨%W, HO⟩⟩, Hs, Hd⟩ Hk
  iapply (step_send_landing m ρ K c j (23 - j.val) (by omega) src dst q fs fd W _ _ _ rfl rfl rfl hN hpay₁ hpay₂) $$ [Hs Hd HO Ht1 Ht2]
  · iframe
    iexact HR
  iintro ⟨Hc, HO⟩
  iapply Hk
  iframe
  isplitr; · iexact HR
  isplitr; · iexact Hl
  iexists W; iexact HO

theorem ghost_wait_at {sh : Shape} (K : GSem nD τ sig → ℕ) (c : Dev nD) (k : ℕ) (j : Fin 24) (hj : (24 - k) + j.val ≤ 23) (R : sProp 𝕄)
    (rs : DmaSem sig) (hrs : rs = recvSem j)
    (src dst : Memref sig .tc .vmem sh .f32) {hs : src.view.WordExact} {hd : dst.view.WordExact}
    {α : Type} {Q : α → sProp 𝕄} {k' : PUnit → Prog (TpuEff nD τ sig (Elt F) Λ₀ .tc) α}
    (hN : dst.view.dmaCredit = NJ j) :
    iprop(ghostC m ρ K c k R ∗ rTodo c j)
      ⊢ iprop(((ghostC m ρ K c k R ∗ rDone c j ∗ recvPay m ρ c j) -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 rs src dst hs hd) k') Q) := by
  subst hrs
  unfold ghostC rTodo rDone
  iintro ⟨⟨#HR, #Hl, Ht, HRr, Hst, Hsc, ⟨%W, HO⟩⟩, Hat, Hc⟩ Hk
  iapply (step_wait_recv m ρ K c j (Orem c (24 - k)) W src dst _ rfl hN (mayWait_recv c j (24 - k) hj)) $$ [Hc HO Hat]
  · iframe
    isplitr; · iexact HR
    iexact Hl
  iintro ⟨HO, Hat, Hpay⟩
  iapply Hk
  iframe
  isplitr; · iexact HR
  iexact Hl

theorem recvTodo_10_14 (c : Dev nD) :
    (recvTodo c 10 : sProp 𝕄) = iprop(rTodo c 10 ∗ rTodo c 11 ∗ rTodo c 12 ∗ rTodo c 13 ∗ recvTodo c 14) := by
  rw [recvTodo_take c 10 (by omega), recvTodo_take c 11 (by omega), recvTodo_take c 12 (by omega), recvTodo_take c 13 (by omega)]; rfl
theorem recvDone_14_10 (c : Dev nD) :
    (recvDone c 14 : sProp 𝕄) = iprop(rDone c 13 ∗ rDone c 12 ∗ rDone c 11 ∗ rDone c 10 ∗ recvDone c 10) := by
  rw [recvDone_put c 13 (by omega), recvDone_put c 12 (by omega), recvDone_put c 11 (by omega), recvDone_put c 10 (by omega)]; rfl

theorem dev15_eq (c : Dev nD) : (⟨k0_dev15 c, k0_dev15_lt c⟩ : Dev nD) = xr c := by revert c; decide
theorem dev16_eq (c : Dev nD) : (⟨k0_dev16 c, k0_dev16_lt c⟩ : Dev nD) = xl c := by revert c; decide
theorem dev17_eq (c : Dev nD) : (⟨k0_dev17 c, k0_dev17_lt c⟩ : Dev nD) = zr c := by revert c; decide
theorem dev18_eq (c : Dev nD) : (⟨k0_dev18 c, k0_dev18_lt c⟩ : Dev nD) = zl c := by revert c; decide

theorem borPa_cons (c : Dev nD) (p : Fin 2) (t : Fin 3) (l : List (Fin 2 × Fin 3)) :
    (borPa c ((p, t) :: l) : sProp 𝕄) = iprop(bor (xr c) (paV c p t) ∗ borPa c l) := by
  unfold borPa; rw [bigSepL_cons]; rfl
theorem borPb_cons (c : Dev nD) (p : Fin 2) (t : Fin 3) (l : List (Fin 2 × Fin 3)) :
    (borPb c ((p, t) :: l) : sProp 𝕄) = iprop(bor (xl c) (pbV c p t) ∗ borPb c l) := by
  unfold borPb; rw [bigSepL_cons]; rfl

def Rr (c : Dev nD) : sProp 𝕄 := iprop(recvTodo c 14 ∗ recvDone c 10)

def keepC (c : Dev nD) : sProp 𝕄 :=
  iprop(pts c (agV (zr c) 0 2) Lq (Fn m ρ) ∗ slotsHeld m ρ c [(0,0),(0,1),(0,2),(1,0),(1,1)]
    ∗ bor (zl c) (agV c 1 2) ∗ pts (zl c) (agV c 1 1) fullShare (Sk (X m ρ) 1 (zl c))
    ∗ borPa c [(0,2),(1,0),(1,1),(1,2)] ∗ borPb c [(0,2),(1,0),(1,1),(1,2)])

def C19 (K : GSem nD τ sig → ℕ) (c : Dev nD) (xr_ : sProp 𝕄) : sProp 𝕄 :=
  iprop(ghostC m ρ K c 12 (Rr c) ∗ (rTodo c 10 ∗ rTodo c 11 ∗ rTodo c 12 ∗ rTodo c 13)
    ∗ xr_ ∗ keepC m ρ c
    ∗ (∃ g : Buf (Elt F) (oM.view.loc (c : Thread nD τ)), pts c (agV c 1 0) fullShare g) ∗ pts c (agV c 1 1) fullShare (Sk (X m ρ) 2 c)
    ∗ bor (zr c) (slotV 5))

theorem st3_open (K : GSem nD τ sig → ℕ) (c : Dev nD) (xr_ : sProp 𝕄) :
    St3 m ρ K c xr_ ⊢ iprop(ghostC m ρ K c 10 (Rr c) ∗ (rTodo c 10 ∗ rTodo c 11 ∗ rTodo c 12 ∗ rTodo c 13)
      ∗ xr_ ∗ keepC m ρ c
      ∗ (∃ g : Buf (Elt F) (oM.view.loc (c : Thread nD τ)), pts c (agV c 1 0) fullShare g) ∗ pts c (agV c 1 1) fullShare (Sk (X m ρ) 2 c)
      ∗ bor (zr c) (slotV 5)
      ∗ pts c (paV c 0 1) fullShare (Fn m ρ) ∗ pts c (pbV c 0 1) fullShare (Fn m ρ)
      ∗ (∃ fa : Buf (Elt F) ((paV c 0 1).view.loc (xr c : Thread nD τ)), pts (xr c) (paV c 0 1) fullShare fa)
      ∗ (∃ fb : Buf (Elt F) ((pbV c 0 1).view.loc (xl c : Thread nD τ)), pts (xl c) (pbV c 0 1) fullShare fb)) := by
  unfold St3 keepC
  rw [borPa_cons, borPb_cons,
    show (bor (xr c) (paV c 0 1) : sProp 𝕄) = iprop(∃ fa : Buf (Elt F) ((paV c 0 1).view.loc (xr c : Thread nD τ)), pts (xr c) (paV c 0 1) fullShare fa) from rfl,
    show (bor (xl c) (pbV c 0 1) : sProp 𝕄) = iprop(∃ fb : Buf (Elt F) ((pbV c 0 1).view.loc (xl c : Thread nD τ)), pts (xl c) (pbV c 0 1) fullShare fb) from rfl, pts_view_eq c (pa_next0 c 0).symm fullShare (Fn m ρ) (Fn m ρ) HEq.rfl,
    pts_view_eq c (pb_next0 c 0).symm fullShare (Fn m ρ) (Fn m ρ) HEq.rfl]
  refine (sep_mono_left (ghostAt_C m ρ K c 10).1).trans ?_
  unfold ghostC Rr
  rw [recvTodo_10_14]
  iintro ⟨⟨HR, Hl, Ht, ⟨⟨H10, H11, H12, H13, Hrt⟩, Hrd⟩, Hst, Hsc, HO⟩, Hx, Ha0, Hpa, Hpb, Hg, H11s, Hsl, Hb5, Hbz, Hz1, ⟨Hbpa, Hpat⟩, ⟨Hbpb, Hpbt⟩⟩
  iframe

end StageC

open StageC

namespace StageC

theorem pay_pa1 (c : Dev nD) (fa : Buf (Elt F) ((paV c 0 1).view.loc (xr c : Thread nD τ))) :
    ((paV c 0 1).view.loc (xr c : Thread nD τ) ↦[(paV c 0 1).view.set]{fullShare}
        ((paV c 0 1).view.write (Elt F) fa ((paV c 0 1).view.read (Elt F) (Fn m ρ)) Finset.univ) : sProp 𝕄)
      ⊢ recvPay m ρ (xr c) (paJ 0 1) := by
  rw [recvPay_pa]; unfold paR; rw [xl_xr]
  exact Entails.of_eq (pts_congr (xr c) (paV c 0 1) fullShare _ _ (write_read_self (paV c 0 1) fa (Fn m ρ)))
theorem pay_pb1 (c : Dev nD) (fb : Buf (Elt F) ((pbV c 0 1).view.loc (xl c : Thread nD τ))) :
    ((pbV c 0 1).view.loc (xl c : Thread nD τ) ↦[(pbV c 0 1).view.set]{fullShare}
        ((pbV c 0 1).view.write (Elt F) fb ((pbV c 0 1).view.read (Elt F) (Fn m ρ)) Finset.univ) : sProp 𝕄)
      ⊢ recvPay m ρ (xl c) (pbJ 0 1) := by
  rw [recvPay_pb]; unfold pbR; rw [xr_xl]
  exact Entails.of_eq (pts_congr (xl c) (pbV c 0 1) fullShare _ _ (write_read_self (pbV c 0 1) fb (Fn m ρ)))
theorem spay_pa1 (c : Dev nD) : (pts c (paV c 0 1) fullShare (Fn m ρ) : sProp 𝕄) ⊢ sendPay m ρ c (paJ 0 1) := by
  rw [sendPay_pa]; unfold paS; rw [if_neg (by decide)]
theorem spay_pb1 (c : Dev nD) : (pts c (pbV c 0 1) fullShare (Fn m ρ) : sProp 𝕄) ⊢ sendPay m ρ c (pbJ 0 1) := by
  rw [sendPay_pb]; unfold pbS; rw [if_neg (by decide)]

end StageC

theorem part19_spec (K : GSem nD τ sig → ℕ) (c : Dev nD) (xr_ : sProp 𝕄) (v8 v33 v46 v50 v63 v67 v607 : BitVec 32)
    (Kt : (Σ' (v635 : BitVec 32) (v638 : BitVec 32) (v639 : BitVec 32), BitVec 1) → sProp 𝕄) :
    iprop(St3 m ρ K c xr_ ∗ (∀ r, C19 m ρ K c xr_ -∗ Kt r))
      ⊢ wp frame (wpE (defs₀ (F := F)) 𝒱₀ (c : Thread nD τ) none) Set.univ
        (k0_part19 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v8 v33 v46 v50 v63 v67 v607) Kt := by
  rw [k0_part19_eq_skeleton]; unfold k0_part19_skel
  simp only [Prog.lift, Prog.bind_op, Prog.bind_ret, Prog.pure_eq_ret]
  refine (sep_mono_left (st3_open m ρ K c xr_)).trans ?_
  iintro ⟨⟨HG, Hr, Hx, Hkeep, Hg, H11s, Hb5, Hpa, Hpb, ⟨%fa, Hbpa⟩, ⟨%fb, Hbpb⟩⟩, Hk⟩
  iapply (ghost_send_at m ρ K c (paJ 0 1) (Rr c) _ (xr c) _ _ (dev15_eq c) (peer_pa 0 1 c).symm (upsend_sem 0 1 _ _) (uprecv_sem 0 1 _ _)
    (paV c 0 1) (paV c 0 1) fullShare (Fn m ρ) fa
    ((amount_pa c 0 1 _).trans (NJ_pa 0 1).symm) (spay_pa1 m ρ c) (pay_pa1 m ρ c fa)) $$ [HG Hpa Hbpa]
  · isplitl [HG]; · iexact HG
    isplitl [Hpa]; · iexact Hpa
    iexact Hbpa
  iintro HG
  iapply (ghost_send_at m ρ K c (pbJ 0 1) (Rr c) _ (xl c) _ _ (dev16_eq c) (peer_pb 0 1 c).symm (dnsend_sem 0 1 _ _) (dnrecv_sem 0 1 _ _)
    (pbV c 0 1) (pbV c 0 1) fullShare (Fn m ρ) fb
    ((amount_pb c 0 1 _).trans (NJ_pb 0 1).symm) (spay_pb1 m ρ c) (pay_pb1 m ρ c fb)) $$ [HG Hpb Hbpb]
  · isplitl [HG]; · iexact HG
    isplitl [Hpb]; · iexact Hpb
    iexact Hbpb
  iintro HG
  rw [wp_ret]; imodintro
  iapply Hk
  unfold C19
  isplitl [HG]; · iexact HG
  iframe

namespace StageC

def C20 (K : GSem nD τ sig → ℕ) (c : Dev nD) (xr_ : sProp 𝕄) : sProp 𝕄 :=
  iprop(ghostC m ρ K c 13 (Rr c) ∗ (rTodo c 10 ∗ rTodo c 11 ∗ rTodo c 12 ∗ rTodo c 13)
    ∗ xr_ ∗ keepC m ρ c
    ∗ (∃ g : Buf (Elt F) (oM.view.loc (c : Thread nD τ)), pts c (agV c 1 0) fullShare g))

theorem spay_rs12 (c : Dev nD) : (emp : sProp 𝕄) ⊢ sendPay m ρ c (rsJ 1 2) := by
  rw [sendPay_rs]; unfold rsS; rw [if_neg (by decide)]

theorem pay_rs12 (c : Dev nD) (fd : Buf (Elt F) ((slotV 5).view.loc (zr c : Thread nD τ))) :
    iprop(((slotV 5).view.loc (zr c : Thread nD τ) ↦[(slotV 5).view.set]{fullShare}
        ((slotV 5).view.write (Elt F) fd ((srcV oM c 1 2).view.read (Elt F) (Sk (X m ρ) 2 c)) Finset.univ))
      ∗ ((srcV oM c 1 2).view.loc (c : Thread nD τ) ↦[(srcV oM c 1 2).view.set]{fullShare} (Sk (X m ρ) 2 c)) : sProp 𝕄)
      ⊢ recvPay m ρ (zr c) (rsJ 1 2) := by
  rw [recvPay_rs]; unfold rsR landed; rw [if_neg (by decide), zl_zr]
  iintro ⟨Hd, Hs⟩
  isplitl [Hd]
  · unfold owns
    iexists ((slotV 5).view.write (Elt F) fd ((srcV oM c 1 2).view.read (Elt F) (Sk (X m ρ) 2 c)) Finset.univ)
    isplitr
    · ipureintro; exact slot_read_write (zr c) 5 fd _
    · iexact Hd
  · iexact Hs

end StageC

theorem part20_spec (K : GSem nD τ sig → ℕ) (c : Dev nD) (xr_ : sProp 𝕄) (v2 v5 v8 v19 v635 v638 v639 : BitVec 32) (v640 : BitVec 1)
    (Kt : (Σ' (v658 : BitVec 32), BitVec 32) → sProp 𝕄) :
    iprop(C19 m ρ K c xr_ ∗ (∀ r, C20 m ρ K c xr_ -∗ Kt r))
      ⊢ wp frame (wpE (defs₀ (F := F)) 𝒱₀ (c : Thread nD τ) none) Set.univ
        (k0_part20 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v2 v5 v8 v19 v635 v638 v639 v640) Kt := by
  rw [k0_part20_eq_skeleton]; unfold k0_part20_skel
  simp only [Prog.lift, Prog.bind_op, Prog.bind_ret, Prog.pure_eq_ret]
  unfold C19
  rw [show (bor (zr c) (slotV 5) : sProp 𝕄) = iprop(∃ fd : Buf (Elt F) ((slotV 5).view.loc (zr c : Thread nD τ)), pts (zr c) (slotV 5) fullShare fd) from rfl,
    pts_view_eq c (src2_eq c 1).symm fullShare (Sk (X m ρ) 2 c) (Sk (X m ρ) 2 c) HEq.rfl]
  iintro ⟨⟨HG, Hr, Hx, Hkeep, Hg, Hsrc, ⟨%fd, Hb5⟩⟩, Hk⟩
  iapply (ghost_send_landing_at m ρ K c (rsJ 1 2) (Rr c) _ (zr c) _ _ (dev17_eq c) (peer_rs 1 2 c).symm (zsend_rs 1 2 _ _) (zrecv_rs 1 2 _ _)
    (srcV oM c 1 2) (slotV 5) fullShare (Sk (X m ρ) 2 c) fd
    ((amount_slot 5 _).trans (NJ_rs 1 2).symm) (spay_rs12 m ρ c) (pay_rs12 m ρ c fd)) $$ [HG Hsrc Hb5]
  · isplitl [HG]; · iexact HG
    isplitl [Hsrc]; · iexact Hsrc
    iexact Hb5
  iintro HG
  rw [wp_ret]; imodintro
  iapply Hk
  unfold C20
  isplitl [HG]; · iexact HG
  iframe

namespace StageC

def C21 (K : GSem nD τ sig → ℕ) (c : Dev nD) (xr_ : sProp 𝕄) : sProp 𝕄 :=
  iprop(ghostC m ρ K c 13 (Rr c) ∗ (rTodo c 10 ∗ rTodo c 11 ∗ rDone c 12 ∗ rTodo c 13)
    ∗ xr_ ∗ keepC m ρ c
    ∗ pts c (agV c 1 0) fullShare (Fn m ρ)
    ∗ owns (c : Thread nD τ) (slotV 5) fullShare (landed m ρ c 1 2)
    ∗ pts (zl c) (agV c 1 0) fullShare (Sk (X m ρ) 2 (zl c)))

theorem view_set_heq {sh : Shape} {v v' : Memref sig .tc .vmem sh .f32} (h : v = v') : HEq v.view.set v'.view.set := by
  subst h; rfl

theorem rs12_landing (c : Dev nD) :
    recvPay m ρ c (rsJ 1 2) ⊢ iprop(owns (c : Thread nD τ) (slotV 5) fullShare (landed m ρ c 1 2) ∗ pts (zl c) (agV c 1 0) fullShare (Sk (X m ρ) 2 (zl c))) := by
  rw [recvPay_rs]; unfold rsR
  rw [if_neg (by decide), pts_view_eq (zl c) (src_zl2 c 1) fullShare (Sk (X m ρ) (2 : Fin 3).val (zl c)) (Sk (X m ρ) 2 (zl c)) HEq.rfl]
  exact .rfl

abbrev R12 (c : Dev nD) : Rect S4096x1024 :=
  Rect.unit (s := S4096x1024) (k0_off2 c 512#32 2#32) S128x1024.size (k0_off2_inb c 1 2)

theorem third_add (c : Dev nD) (g : Buf (Elt F) (oM.view.loc (c : Thread nD τ))) (f5 : Buf (Elt F) (cM.view.loc (c : Thread nD τ)))
    (hf5 : (slotV 5).view.read (Elt F) f5 = landed m ρ c 1 2) :
    (((oM.access (R12 c)).loc (c : Thread nD τ) ↦[(accV c 1 2).view.set]{fullShare} ((oM.access (R12 c)).write (Elt F) g (k0_pay6 (xM.view.readAt (Elt F) (R12 c).toLoadRect (X m ρ c))
        (cM.view.readAt (Elt F) (Rect.unit (s := S6x128x1024) ![(5 : Fin 6).val, 0, 0] S1x128x1024.size (slot_inb 5)).toLoadRect f5)) Finset.univ)) : sProp 𝕄)
      ⊢ pts c (agV c 1 0) fullShare (Fn m ρ) := by
  have hset : (accV c 1 2).view.set = (agV c 1 0).view.set := eq_of_heq (view_set_heq (acc2_eq c 1))
  have hval : ∀ i ∈ (accV c 1 2).view.set, ((oM.access (R12 c)).write (Elt F) g (k0_pay6 (xM.view.readAt (Elt F) (R12 c).toLoadRect (X m ρ c))
        (cM.view.readAt (Elt F) (Rect.unit (s := S6x128x1024) ![(5 : Fin 6).val, 0, 0] S1x128x1024.size (slot_inb 5)).toLoadRect f5)) Finset.univ) i = Fn m ρ i :=
    fun i hi => (store_val m ρ c 1 2 g f5 hf5 i hi).trans (sk3_eq_fin m ρ c 1 i (hset ▸ hi))
  exact (Entails.of_eq (pts_congr c (accV c 1 2) fullShare _ (Fn m ρ) hval)).trans
    (Entails.of_eq (pts_view_eq c (acc2_eq c 1) fullShare (Fn m ρ) (Fn m ρ) HEq.rfl))

end StageC

theorem part21_spec (K : GSem nD τ sig → ℕ) (c : Dev nD) (xr_ xr' : sProp 𝕄)
    (hxr : xr_ = iprop((xM.view.loc (c : Thread nD τ) ↦[Finset.univ]{Rq} X m ρ c) ∗ xr'))
    (v5 v8 v19 v33 v635 v658 v674 : BitVec 32) (Kt : (Σ' (v696 : BitVec 32), BitVec 32) → sProp 𝕄) :
    iprop(C20 m ρ K c xr_ ∗ (∀ r, C21 m ρ K c xr_ -∗ Kt r))
      ⊢ wp frame (wpE (defs₀ (F := F)) 𝒱₀ (c : Thread nD τ) none) Set.univ
        (k0_part21 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v5 v8 v19 v33 v635 v658 v674) Kt := by
  rw [k0_part21_eq_skeleton]; unfold k0_part21_skel
  simp only [Prog.lift, Prog.bind_op, Prog.bind_ret, Prog.pure_eq_ret]
  subst hxr
  unfold C20
  iintro ⟨⟨HG, ⟨H10, H11, H12, H13⟩, ⟨Hxin, Hxr'⟩, Hkeep, ⟨%g, Hg⟩⟩, Hk⟩
  iapply (ghost_wait_at m ρ K c 13 (rsJ 1 2) (by decide) (Rr c) _ (zrecv_rs 1 2 _ _) (srcV oM c 1 2) (slotV 5)
    ((show (slotV 5).view.dmaCredit = N128 from rfl).trans (NJ_rs 1 2).symm)) $$ [HG H12]
  · isplitl [HG]; · iexact HG
    iexact H12
  iintro ⟨HG, H12, Hpay⟩
  ihave Hl := (rs12_landing m ρ c) $$ Hpay
  icases Hl with ⟨Hown, Hzl⟩
  ihave Hown' := (show (owns (c : Thread nD τ) (slotV 5) fullShare (landed m ρ c 1 2) : sProp 𝕄)
      ⊢ iprop(∃ f : Buf (Elt F) (cM.view.loc (c : Thread nD τ)), ⌜(slotV 5).view.read (Elt F) f = landed m ρ c 1 2⌝ ∗ (cM.view.loc (c : Thread nD τ) ↦[(slotV 5).view.set]{fullShare} f)) from .rfl) $$ Hown
  icases Hown' with ⟨%f5, %hf5, Hslot⟩
  iapply (wp_load 𝒱₀ (c : Thread nD τ) none Set.univ (m := xM) (r := (R12 c).toLoadRect) (S := Finset.univ) (acc_load_set_x c 1 2)) $$ Hxin
  iintro Hxin
  iapply (wp_load 𝒱₀ (c : Thread nD τ) none Set.univ (m := cM)
    (r := (Rect.unit (s := S6x128x1024) ![(5 : Fin 6).val, 0, 0] S1x128x1024.size (slot_inb 5)).toLoadRect) (S := (slotV 5).view.set) (slot_load_set 5)) $$ Hslot
  iintro Hslot
  ihave HaccO := (show (pts c (agV c 1 0) fullShare g : sProp 𝕄)
      ⊢ (oM.view.loc (c : Thread nD τ) ↦[(accV c 1 2).view.set]{fullShare} g)
      from Entails.of_eq (pts_view_eq c (acc2_eq c 1).symm fullShare g g HEq.rfl)) $$ Hg
  iapply (wp_load 𝒱₀ (c : Thread nD τ) none Set.univ (m := oM) (r := (R12 c).toLoadRect) (S := (accV c 1 2).view.set) (acc_load_set c 1 2)) $$ HaccO
  iintro HaccO
  ihave HaccS := (show ((oM.view.loc (c : Thread nD τ) ↦[(accV c 1 2).view.set]{fullShare} g) : sProp 𝕄)
      ⊢ ((oM.access (R12 c)).loc (c : Thread nD τ) ↦[(accV c 1 2).view.set]{fullShare} g) from .rfl) $$ HaccO
  iapply (wp_store 𝒱₀ (c : Thread nD τ) none Set.univ (m := oM) (r := R12 c) (S := (accV c 1 2).view.set)
    (Finset.Subset.refl _)) $$ HaccS
  iintro Hst
  ihave Hfin := (third_add m ρ c g f5 hf5) $$ Hst
  rw [wp_ret]; imodintro
  iapply Hk
  unfold C21
  isplitl [HG]; · iexact HG
  isplitl [H10 H11 H12 H13]
  · isplitl [H10]; · iexact H10
    isplitl [H11]; · iexact H11
    isplitl [H12]; · iexact H12
    iexact H13
  isplitl [Hxin Hxr']
  · isplitl [Hxin]; · iexact Hxin
    iexact Hxr'
  isplitl [Hkeep]; · iexact Hkeep
  isplitl [Hfin]; · iexact Hfin
  isplitl [Hslot]
  · iapply (show (iprop(∃ f : Buf (Elt F) (cM.view.loc (c : Thread nD τ)), ⌜(slotV 5).view.read (Elt F) f = landed m ρ c 1 2⌝ ∗ (cM.view.loc (c : Thread nD τ) ↦[(slotV 5).view.set]{fullShare} f)) : sProp 𝕄)
      ⊢ owns (c : Thread nD τ) (slotV 5) fullShare (landed m ρ c 1 2) from .rfl)
    iexists f5
    isplitr
    · ipureintro; exact hf5
    · iexact Hslot
  iexact Hzl

namespace StageC

def C22 (K : GSem nD τ sig → ℕ) (c : Dev nD) (xr_ : sProp 𝕄) : sProp 𝕄 :=
  iprop(ghostC m ρ K c 14 (Rr c) ∗ (rDone c 10 ∗ rTodo c 11 ∗ rDone c 12 ∗ rDone c 13)
    ∗ xr_ ∗ keepC m ρ c
    ∗ pts c (agV c 1 0) Rq (Fn m ρ) ∗ pts c (agV c 1 1) fullShare (Fn m ρ) ∗ pts c (paV (xl c) 0 1) fullShare (Fn m ρ)
    ∗ owns (c : Thread nD τ) (slotV 5) fullShare (landed m ρ c 1 2))

theorem spay_ag10 (c : Dev nD) : (pts c (agV c 1 0) Lq (Fn m ρ) : sProp 𝕄) ⊢ sendPay m ρ c (agJ 1 0) := by
  rw [sendPay_ag]; exact .rfl

theorem pay_ag10 (c : Dev nD) (fd : Buf (Elt F) ((agV c 1 0).view.loc (zl c : Thread nD τ))) :
    ((agV c 1 0).view.loc (zl c : Thread nD τ) ↦[(agV c 1 0).view.set]{fullShare}
        ((agV c 1 0).view.write (Elt F) fd ((agV c 1 0).view.read (Elt F) (Fn m ρ)) Finset.univ) : sProp 𝕄)
      ⊢ recvPay m ρ (zl c) (agJ 1 0) := by
  rw [recvPay_ag]; unfold agR; rw [zr_zl]
  exact Entails.of_eq (pts_congr (zl c) (agV c 1 0) fullShare _ _ (write_read_self (agV c 1 0) fd (Fn m ρ)))

theorem ag10_landing (c : Dev nD) : recvPay m ρ c (agJ 1 0) ⊢ (pts c (agV c 1 1) fullShare (Fn m ρ) : sProp 𝕄) := by
  rw [recvPay_ag]; unfold agR
  rw [pts_view_eq c (ag_zr0 c 1) fullShare (Fn m ρ) (Fn m ρ) HEq.rfl]
theorem pa1_landing (c : Dev nD) : recvPay m ρ c (paJ 0 1) ⊢ (pts c (paV (xl c) 0 1) fullShare (Fn m ρ) : sProp 𝕄) := by
  rw [recvPay_pa]; exact .rfl
theorem pb1_landing (c : Dev nD) : recvPay m ρ c (pbJ 0 1) ⊢ (pts c (pbV (xr c) 0 1) fullShare (Fn m ρ) : sProp 𝕄) := by
  rw [recvPay_pb]; exact .rfl

end StageC

theorem part22_spec (K : GSem nD τ sig → ℕ) (c : Dev nD) (xr_ : sProp 𝕄) (v2 v5 v8 v30 v46 v50 v696 v709 : BitVec 32)
    (Kt : PUnit → sProp 𝕄) :
    iprop(C21 m ρ K c xr_ ∗ (∀ r, C22 m ρ K c xr_ -∗ Kt r))
      ⊢ wp frame (wpE (defs₀ (F := F)) 𝒱₀ (c : Thread nD τ) none) Set.univ
        (k0_part22 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v2 v5 v8 v30 v46 v50 v696 v709) Kt := by
  rw [k0_part22_eq_skeleton]; unfold k0_part22_skel
  simp only [Prog.lift, Prog.bind_op, Prog.bind_ret, Prog.pure_eq_ret]
  unfold C21
  iintro ⟨⟨HG, ⟨H10, H11, H12, H13⟩, Hx, Hkeep, Hfin, Hown, Hzl⟩, Hk⟩
  ihave Hlr := ((share_LR c (agV c 1 0) (Fn m ρ)).1) $$ Hfin
  icases Hlr with ⟨HfL, HfR⟩
  iapply (ghost_send_at m ρ K c (agJ 1 0) (Rr c) _ (zl c) _ _ (dev18_eq c) (peer_ag 1 0 c).symm (zsend_ag 1 0 _ _) (zrecv_ag 1 0 _ _)
    (agV c 1 0) (agV c 1 0) Lq (Fn m ρ) (Sk (X m ρ) 2 (zl c))
    ((amount_ag c 1 0 _).trans (NJ_ag 1 0).symm) (spay_ag10 m ρ c) (pay_ag10 m ρ c _)) $$ [HG HfL Hzl]
  · isplitl [HG]; · iexact HG
    isplitl [HfL]; · iexact HfL
    iexact Hzl
  iintro HG
  iapply (ghost_wait_at m ρ K c 14 (agJ 1 0) (by decide) (Rr c) _ (zrecv_ag 1 0 _ _) (agV c 1 0) (agV c 1 0)
    ((show (agV c 1 0).view.dmaCredit = N128 from rfl).trans (NJ_ag 1 0).symm)) $$ [HG H13]
  · isplitl [HG]; · iexact HG
    iexact H13
  iintro ⟨HG, H13, Hpay⟩
  ihave Hag := (ag10_landing m ρ c) $$ Hpay
  iapply (ghost_wait_at m ρ K c 14 (paJ 0 1) (by decide) (Rr c) _ (uprecv_sem 0 1 _ _) (paV c 0 1) (paV c 0 1)
    ((show (paV c 0 1).view.dmaCredit = N256 from rfl).trans (NJ_pa 0 1).symm)) $$ [HG H10]
  · isplitl [HG]; · iexact HG
    iexact H10
  iintro ⟨HG, H10, Hpay⟩
  ihave Hpa := (pa1_landing m ρ c) $$ Hpay
  rw [wp_ret]; imodintro
  iapply Hk
  unfold C22
  iframe
  isplitl [H10]; · iexact H10
  iexact H13

namespace StageC

theorem slotsHeld_five (c : Dev nD) :
    slotsHeld m ρ c [(0,0),(0,1),(0,2),(1,0),(1,1)] = iprop(owns (c : Thread nD τ) (slotV (slotOf 0 0)) fullShare (landed m ρ c 0 0)
      ∗ owns (c : Thread nD τ) (slotV (slotOf 0 1)) fullShare (landed m ρ c 0 1) ∗ owns (c : Thread nD τ) (slotV (slotOf 0 2)) fullShare (landed m ρ c 0 2)
      ∗ owns (c : Thread nD τ) (slotV (slotOf 1 0)) fullShare (landed m ρ c 1 0) ∗ owns (c : Thread nD τ) (slotV (slotOf 1 1)) fullShare (landed m ρ c 1 1)) := rfl
theorem slotsHeld_six_eq (c : Dev nD) :
    slotsHeld m ρ c [(0,0),(0,1),(0,2),(1,0),(1,1),(1,2)] = iprop(owns (c : Thread nD τ) (slotV (slotOf 0 0)) fullShare (landed m ρ c 0 0)
      ∗ owns (c : Thread nD τ) (slotV (slotOf 0 1)) fullShare (landed m ρ c 0 1) ∗ owns (c : Thread nD τ) (slotV (slotOf 0 2)) fullShare (landed m ρ c 0 2)
      ∗ owns (c : Thread nD τ) (slotV (slotOf 1 0)) fullShare (landed m ρ c 1 0) ∗ owns (c : Thread nD τ) (slotV (slotOf 1 1)) fullShare (landed m ρ c 1 1)
      ∗ owns (c : Thread nD τ) (slotV 5) fullShare (landed m ρ c 1 2)) := rfl
theorem slotsHeld_six (c : Dev nD) :
    iprop(slotsHeld m ρ c [(0,0),(0,1),(0,2),(1,0),(1,1)] ∗ owns (c : Thread nD τ) (slotV 5) fullShare (landed m ρ c 1 2))
      ⊢ slotsHeld m ρ c [(0,0),(0,1),(0,2),(1,0),(1,1),(1,2)] := by
  rw [slotsHeld_five, slotsHeld_six_eq]
  iintro ⟨⟨H0, H1, H2, H3, H4⟩, H5⟩
  iframe

theorem st4_close (K : GSem nD τ sig → ℕ) (c : Dev nD) (xr_ : sProp 𝕄) :
    iprop(ghostC m ρ K c 14 (Rr c) ∗ (rDone c 10 ∗ rDone c 11 ∗ rDone c 12 ∗ rDone c 13)
      ∗ xr_ ∗ keepC m ρ c
      ∗ pts c (agV c 1 0) Rq (Fn m ρ) ∗ pts c (agV c 1 1) fullShare (Fn m ρ) ∗ pts c (paV (xl c) 0 1) fullShare (Fn m ρ)
      ∗ owns (c : Thread nD τ) (slotV 5) fullShare (landed m ρ c 1 2)
      ∗ pts c (pbV (xr c) 0 1) fullShare (Fn m ρ))
      ⊢ St4 m ρ K c xr_ := by
  unfold St4 keepC
  refine BIBase.Entails.trans ?_ (sep_mono_left (ghostAt_C m ρ K c 14).2)
  unfold ghostC Rr
  rw [recvDone_14_10]
  iintro ⟨⟨HR, Hl, Ht, ⟨Hrt, Hrd⟩, Hst, Hsc, HO⟩, ⟨H10, H11, H12, H13⟩, Hx, ⟨Ha0, Hsl, Hbz, Hz1, Hpat, Hpbt⟩, HfR, Hag, Hpa, Hown, Hpb⟩
  isplitl [HR Hl Ht Hrt Hrd Hst Hsc HO H10 H11 H12 H13]
  · iframe
  isplitl [Hx]; · iexact Hx
  isplitl [Ha0]; · iexact Ha0
  isplitl [Hpa]; · iexact Hpa
  isplitl [Hpb]; · iexact Hpb
  isplitl [HfR]; · iexact HfR
  isplitl [Hag]; · iexact Hag
  isplitl [Hsl Hown]
  · iapply (slotsHeld_six m ρ c); isplitl [Hsl]; · iexact Hsl
    iexact Hown
  iframe

end StageC

theorem part23_spec (K : GSem nD τ sig → ℕ) (c : Dev nD) (xr_ : sProp 𝕄) (v8 v33 v63 v67 : BitVec 32)
    (Kt : (Σ' (v776 : BitVec 32), BitVec 32) → sProp 𝕄) :
    iprop(C22 m ρ K c xr_ ∗ (∀ r, St4 m ρ K c xr_ -∗ Kt r))
      ⊢ wp frame (wpE (defs₀ (F := F)) 𝒱₀ (c : Thread nD τ) none) Set.univ
        (k0_part23 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v8 v33 v63 v67) Kt := by
  rw [k0_part23_eq_skeleton]; unfold k0_part23_skel
  simp only [Prog.lift, Prog.bind_op, Prog.bind_ret, Prog.pure_eq_ret]
  unfold C22
  iintro ⟨⟨HG, ⟨H10, H11, H12, H13⟩, Hx, Hkeep, HfR, Hag, Hpa, Hown⟩, Hk⟩
  iapply (ghost_wait_at m ρ K c 14 (pbJ 0 1) (by decide) (Rr c) _ (dnrecv_sem 0 1 _ _) (pbV c 0 1) (pbV c 0 1)
    ((show (pbV c 0 1).view.dmaCredit = N256 from rfl).trans (NJ_pb 0 1).symm)) $$ [HG H11]
  · isplitl [HG]; · iexact HG
    iexact H11
  iintro ⟨HG, H11, Hpay⟩
  ihave Hpb := (pb1_landing m ρ c) $$ Hpay
  rw [wp_ret]; imodintro
  iapply Hk
  iapply (st4_close m ρ K c xr_)
  iframe
  iexact H11

/-- info: 'Cert.KernelIdeal.AR.part19_spec' depends on axioms: [propext, Classical.choice, Quot.sound] -/
#guard_msgs in #print axioms part19_spec

/-- info: 'Cert.KernelIdeal.AR.part20_spec' depends on axioms: [propext, Classical.choice, Quot.sound] -/
#guard_msgs in #print axioms part20_spec

/-- info: 'Cert.KernelIdeal.AR.part21_spec' depends on axioms: [propext, Classical.choice, Quot.sound] -/
#guard_msgs in #print axioms part21_spec

/-- info: 'Cert.KernelIdeal.AR.part22_spec' depends on axioms: [propext, Classical.choice, Quot.sound] -/
#guard_msgs in #print axioms part22_spec

/-- info: 'Cert.KernelIdeal.AR.part23_spec' depends on axioms: [propext, Classical.choice, Quot.sound] -/
#guard_msgs in #print axioms part23_spec

end Cert.KernelIdeal.AR

end
-- ==== Proof.StageD.lean ====
import proofs.«900720_g7700000000000721_dist_ar_v7x_xyz2x2x4_z_m4096_n1024_f32_1_alg».proof.Proof.Steps
import proofs.«900720_g7700000000000721_dist_ar_v7x_xyz2x2x4_z_m4096_n1024_f32_1_alg».proof.Proof.Levels
import proofs.«900720_g7700000000000721_dist_ar_v7x_xyz2x2x4_z_m4096_n1024_f32_1_alg».proof.Proof.Views
import proofs.«900720_g7700000000000721_dist_ar_v7x_xyz2x2x4_z_m4096_n1024_f32_1_alg».proof.Proof.Parts

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace StageD

theorem dev19_eq (c : Dev nD) : (⟨k0_dev19 c, k0_dev19_lt c⟩ : Dev nD) = xr c := by revert c; decide
theorem dev20_eq (c : Dev nD) : (⟨k0_dev20 c, k0_dev20_lt c⟩ : Dev nD) = xl c := by revert c; decide
theorem dev21_eq (c : Dev nD) : (⟨k0_dev21 c, k0_dev21_lt c⟩ : Dev nD) = zl c := by revert c; decide
theorem dev22_eq (c : Dev nD) : (⟨k0_dev22 c, k0_dev22_lt c⟩ : Dev nD) = zl c := by revert c; decide

theorem toks_take (c : Dev nD) (k k' : ℕ) (hk : k < 24) (hk' : k' = k + 1) :
    (toksFrom c k : sProp 𝕄) = iprop((dutyTok ER (sendCell c ⟨k, hk⟩) 0 0 ∗ dutyTok ER (recvCell (peer ⟨k, hk⟩ c) ⟨k, hk⟩) 0 0) ∗ toksFrom c k') :=
  take_ge _ ⟨k, hk⟩ k k' rfl hk'

theorem recvTodo_take (c : Dev nD) (k k' : ℕ) (hk : k < 24) (hk' : k' = k + 1) :
    (recvTodo c k : sProp 𝕄) = iprop((atPos ER (recvCell c ⟨k, hk⟩) 0 ∅ 0 ∗ cred (tallyAt (recvCell c ⟨k, hk⟩) () (NJ ⟨k, hk⟩))) ∗ recvTodo c k') :=
  take_ge _ ⟨k, hk⟩ k k' rfl hk'

theorem recvDone_put (c : Dev nD) (k k' : ℕ) (hk : k < 24) (hk' : k' = k + 1) :
    (recvDone c k' : sProp 𝕄) = iprop(atPos ER (recvCell c ⟨k, hk⟩) 1 ∅ 0 ∗ recvDone c k) :=
  put_lt _ ⟨k, hk⟩ k k' rfl hk'

theorem sendCred_put (c : Dev nD) (k k' : ℕ) (hk : k < 24) (hk' : k' = k + 1) :
    (sendCred c k' : sProp 𝕄) = iprop(cred (tallyAt (sendCell c ⟨k, hk⟩) () (NJ ⟨k, hk⟩)) ∗ sendCred c k) :=
  put_lt _ ⟨k, hk⟩ k k' rfl hk'

def rcT (c : Dev nD) (j : Fin 24) : sProp 𝕄 := iprop(atPos ER (recvCell c j) 0 ∅ 0 ∗ cred (tallyAt (recvCell c j) () (NJ j)))
def rcD (c : Dev nD) (j : Fin 24) : sProp 𝕄 := atPos ER (recvCell c j) 1 ∅ 0

def ghostMid (K : GSem nD τ sig → ℕ) (c : Dev nD) (k : ℕ) : sProp 𝕄 :=
  iprop(records m ρ K ∗ levAts L lv ∗ toksFrom c k ∗ recvTodo c 18 ∗ recvDone c 14 ∗ sendTodo c ∗ sendCred c k
    ∗ ∃ W, owes (c : Thread nD τ) (Orem c (24 - k)) W)

def St4a (K : GSem nD τ sig → ℕ) (c : Dev nD) (xr_ : sProp 𝕄) : sProp 𝕄 :=
  iprop(ghostMid m ρ K c 16 ∗ rcT c 14 ∗ rcT c 15 ∗ rcT c 16 ∗ rcT c 17
    ∗ xr_
    ∗ pts c (agV (zr c) 0 2) Lq (Fn m ρ)
    ∗ pts c (agV c 1 0) Rq (Fn m ρ) ∗ pts c (agV c 1 1) fullShare (Fn m ρ)
    ∗ slotsHeld m ρ c [(0,0),(0,1),(0,2),(1,0),(1,1),(1,2)]
    ∗ bor (zl c) (agV c 1 2) ∗ pts (zl c) (agV c 1 1) fullShare (Sk (X m ρ) 1 (zl c))
    ∗ borPa c [(1,0),(1,1),(1,2)] ∗ borPb c [(1,0),(1,1),(1,2)])

def St4b (K : GSem nD τ sig → ℕ) (c : Dev nD) (xr_ : sProp 𝕄) : sProp 𝕄 :=
  iprop(ghostMid m ρ K c 17 ∗ rcT c 14 ∗ rcT c 15 ∗ rcD c 16 ∗ rcT c 17
    ∗ xr_
    ∗ pts c (agV (zr c) 0 2) Lq (Fn m ρ)
    ∗ pts c (agV c 1 0) Rq (Fn m ρ) ∗ pts c (agV c 1 1) Rq (Fn m ρ) ∗ pts c (agV c 1 2) fullShare (Fn m ρ)
    ∗ slotsHeld m ρ c [(0,0),(0,1),(0,2),(1,0),(1,1),(1,2)]
    ∗ bor (zl c) (agV c 1 2)
    ∗ borPa c [(1,0),(1,1),(1,2)] ∗ borPb c [(1,0),(1,1),(1,2)])

def St4c (K : GSem nD τ sig → ℕ) (c : Dev nD) (xr_ : sProp 𝕄) : sProp 𝕄 :=
  iprop(ghostMid m ρ K c 18 ∗ rcT c 14 ∗ rcT c 15 ∗ rcD c 16 ∗ rcT c 17
    ∗ xr_
    ∗ pts c (agV (zr c) 0 2) Lq (Fn m ρ)
    ∗ pts c (agV c 1 0) Rq (Fn m ρ) ∗ pts c (agV c 1 1) Rq (Fn m ρ) ∗ pts c (agV c 1 2) Rq (Fn m ρ)
    ∗ slotsHeld m ρ c [(0,0),(0,1),(0,2),(1,0),(1,1),(1,2)]
    ∗ borPa c [(1,0),(1,1),(1,2)] ∗ borPb c [(1,0),(1,1),(1,2)])

end StageD

open StageD

set_option maxHeartbeats 1600000 in
theorem part24_spec (K : GSem nD τ sig → ℕ) (c : Dev nD) (xr_ : sProp 𝕄)
    (v8 v33 v46 v50 v63 v67 v776 c1024_i32_541 : BitVec 32)
    (Kt : (Σ' (v805 : BitVec 32) (v807 : BitVec 32), BitVec 32) → sProp 𝕄) :
    iprop(St4 m ρ K c xr_ ∗ (∀ r, St4a m ρ K c xr_ -∗ Kt r)) ⊢ wp frame (wpE (defs₀ (F := F)) 𝒱₀ (c : Thread nD τ) none) Set.univ
      (k0_part24 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 c v8 v33 v46 v50 v63 v67 v776 c1024_i32_541) Kt := by
  rw [k0_part24_eq_skeleton]; unfold k0_part24_skel
  simp only [Prog.lift, Prog.bind_op, Prog.bind_ret, Prog.pure_eq_ret]
  unfold St4 ghostAt
  rw [toks_take c 14 15 (by omega) rfl, toks_take c 15 16 (by omega) rfl,
    recvTodo_take c 14 15 (by omega) rfl, recvTodo_take c 15 16 (by omega) rfl,
    recvTodo_take c 16 17 (by omega) rfl, recvTodo_take c 17 18 (by omega) rfl,
    borPa_cons, borPb_cons]
  unfold bor
  iintro ⟨⟨⟨#HR, #Hlev, ⟨⟨Ht14s, Ht14r⟩, ⟨Ht15s, Ht15r⟩, Htok⟩, ⟨Hr14, Hr15, Hr16, Hr17, Hrt⟩, Hrd, Hst, Hsc, ⟨%W, HO⟩⟩,
    Hx, Hzr02, Hpa, Hpb, Hag10, Hag11, Hslots, Hbzl, Hzl11, ⟨⟨%fa, Hba⟩, HbPa⟩, ⟨⟨%fb, Hbb⟩, HbPb⟩⟩, Hk⟩

  ihave Hpa' := (Entails.of_eq (pts_view_eq c (pa_next1 c 0) fullShare (Fn m ρ) (Fn m ρ) HEq.rfl).symm) $$ Hpa
  iapply (step_send m ρ K c (paJ 0 2) 9 rfl (paV c 0 2) (paV c 0 2) fullShare (Fn m ρ) fa W _ _ _ (dev19_eq c) (upsend_sem 0 2 _ _) (uprecv_sem 0 2 _ _)
      ((amount_pa c 0 2 _).trans (NJ_pa 0 2).symm)
      (by rw [sendPay_pa]; unfold paS; rw [if_neg (by decide)])
      (by
        show _ ⊢ recvPay m ρ (xr c) (paJ 0 2)
        rw [recvPay_pa]; unfold paR; rw [xl_xr]
        exact Entails.of_eq (pointsTo_congr (write_read_self (paV c 0 2) fa (Fn m ρ)))))
    $$ [Hpa' Hba HO Ht14s Ht14r]
  · iframe
    isplitr; · iexact HR
    isplitl [Hba]; · iexact Hba
    isplitl [Ht14s]; · iexact Ht14s
    iexact Ht14r
  iintro ⟨Hc14, HO⟩

  ihave Hpb' := (Entails.of_eq (pts_view_eq c (pb_next1 c 0) fullShare (Fn m ρ) (Fn m ρ) HEq.rfl).symm) $$ Hpb
  iapply (step_send m ρ K c (pbJ 0 2) 8 rfl (pbV c 0 2) (pbV c 0 2) fullShare (Fn m ρ) fb W _ _ _ (dev20_eq c) (dnsend_sem 0 2 _ _) (dnrecv_sem 0 2 _ _)
      ((amount_pb c 0 2 _).trans (NJ_pb 0 2).symm)
      (by rw [sendPay_pb]; unfold pbS; rw [if_neg (by decide)])
      (by
        show _ ⊢ recvPay m ρ (xl c) (pbJ 0 2)
        rw [recvPay_pb]; unfold pbR; rw [xr_xl]
        exact Entails.of_eq (pointsTo_congr (write_read_self (pbV c 0 2) fb (Fn m ρ)))))
    $$ [Hpb' Hbb HO Ht15s Ht15r]
  · iframe
    isplitr; · iexact HR
    isplitl [Hbb]; · iexact Hbb
    isplitl [Ht15s]; · iexact Ht15s
    iexact Ht15r
  iintro ⟨Hc15, HO⟩
  rw [wp_ret]; imodintro
  iapply Hk
  unfold St4a ghostMid rcT bor
  rw [sendCred_put c 15 16 (by omega) rfl, sendCred_put c 14 15 (by omega) rfl]
  iframe
  isplitl [Hc15 Hc14 HO]
  · isplitr; · iexact HR
    isplitr; · iexact Hlev
    isplitl [Hc15 Hc14]
    · isplitl [Hc15]; · iexact Hc15
      iexact Hc14
    iexists W; iexact HO
  isplitl [Hr14]; · iexact Hr14
  isplitl [Hr15]; · iexact Hr15
  isplitl [Hr16]; · iexact Hr16
  iexact Hr17

set_option maxHeartbeats 1600000 in
theorem part25_spec (K : GSem nD τ sig → ℕ) (c : Dev nD) (xr_ : sProp 𝕄)
    (v2 v5 v8 v30 v33 v805 v807 v809 : BitVec 32)
    (Kt : (Σ' (v843 : BitVec 32), BitVec 32) → sProp 𝕄) :
    iprop(St4a m ρ K c xr_ ∗ (∀ r, St4b m ρ K c xr_ -∗ Kt r)) ⊢ wp frame (wpE (defs₀ (F := F)) 𝒱₀ (c : Thread nD τ) none) Set.univ
      (k0_part25 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 c v2 v5 v8 v30 v33 v805 v807 v809) Kt := by
  rw [k0_part25_eq_skeleton]; unfold k0_part25_skel
  simp only [Prog.lift, Prog.bind_op, Prog.bind_ret, Prog.pure_eq_ret]
  unfold St4a ghostMid rcT
  rw [toks_take c 16 17 (by omega) rfl]
  iintro ⟨⟨⟨#HR, #Hlev, ⟨⟨Ht16s, Ht16r⟩, Htok⟩, Hrt, Hrd, Hst, Hsc, ⟨%W, HO⟩⟩, Hr14, Hr15, ⟨Hr16a, Hr16c⟩, Hr17,
    Hx, Hzr02, Hag10, Hag11, Hslots, Hbzl, Hzl11, HbPa, HbPb⟩, Hk⟩

  ihave Hag11' := (share_LR c (agV c 1 1) (Fn m ρ)).1 $$ Hag11
  icases Hag11' with ⟨Hag11L, Hag11R⟩
  iapply (step_send m ρ K c (agJ 1 1) 7 rfl (agV c 1 1) (agV c 1 1) Lq (Fn m ρ) (Sk (X m ρ) 1 (zl c)) W _ _ _ (dev21_eq c) (zsend_ag 1 1 _ _) (zrecv_ag 1 1 _ _)
      ((amount_ag c 1 1 _).trans (NJ_ag 1 1).symm)
      (by rw [sendPay_ag]; unfold agS; exact .rfl)
      (by
        show _ ⊢ recvPay m ρ (zl c) (agJ 1 1)
        rw [recvPay_ag]; unfold agR; rw [zr_zl]
        exact Entails.of_eq (pointsTo_congr (write_read_self (agV c 1 1) (Sk (X m ρ) 1 (zl c)) (Fn m ρ)))))
    $$ [Hag11L Hzl11 HO Ht16s Ht16r]
  · iframe
    isplitr; · iexact HR
    isplitl [Hzl11]; · iexact Hzl11
    isplitl [Ht16s]; · iexact Ht16s
    iexact Ht16r
  iintro ⟨Hc16, HO⟩

  iapply (step_wait_recv m ρ K c (agJ 1 1) (Orem c 7) W (agV c 1 1) (agV c 1 1) _ (zrecv_ag 1 1 _ _)
      ((show (agV c 1 1).view.dmaCredit = N128 from rfl).trans (NJ_ag 1 1).symm) (mayWait_recv c (agJ 1 1) 7 (by decide)))
    $$ [Hr16a Hr16c HO]
  · isplitr; · iexact HR
    isplitr; · iexact Hlev
    isplitl [Hr16c]; · iexact Hr16c
    isplitl [HO]; · iexact HO
    iexact Hr16a
  iintro ⟨⟨%W', HO⟩, Hr16d, Hpay⟩
  ihave Hag12 := (Entails.of_eq ((recvPay_ag m ρ c 1 1).trans (pts_view_eq c (ag_zr1 c 1) fullShare (Fn m ρ) (Fn m ρ) HEq.rfl))) $$ Hpay
  rw [wp_ret]; imodintro
  iapply Hk
  unfold St4b ghostMid rcT rcD
  rw [sendCred_put c 16 17 (by omega) rfl]
  iframe
  isplitl [Hc16 HO]
  · isplitr; · iexact HR
    isplitr; · iexact Hlev
    isplitl [Hc16]; · iexact Hc16
    iexists W'; iexact HO
  iexact Hr16d

set_option maxHeartbeats 1600000 in
theorem part26_spec (K : GSem nD τ sig → ℕ) (c : Dev nD) (xr_ : sProp 𝕄)
    (v2 v5 v30 v843 v844 : BitVec 32)
    (Kt : PUnit → sProp 𝕄) :
    iprop(St4b m ρ K c xr_ ∗ (∀ r, St4c m ρ K c xr_ -∗ Kt r)) ⊢ wp frame (wpE (defs₀ (F := F)) 𝒱₀ (c : Thread nD τ) none) Set.univ
      (k0_part26 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 c v2 v5 v30 v843 v844) Kt := by
  rw [k0_part26_eq_skeleton]; unfold k0_part26_skel
  simp only [Prog.lift, Prog.bind_op, Prog.bind_ret, Prog.pure_eq_ret]
  unfold St4b ghostMid bor
  rw [toks_take c 17 18 (by omega) rfl]
  iintro ⟨⟨⟨#HR, #Hlev, ⟨⟨Ht17s, Ht17r⟩, Htok⟩, Hrt, Hrd, Hst, Hsc, ⟨%W, HO⟩⟩, Hr14, Hr15, Hr16, Hr17,
    Hx, Hzr02, Hag10, Hag11, Hag12, Hslots, ⟨%fz, Hbzl⟩, HbPa, HbPb⟩, Hk⟩

  ihave Hag12' := (share_LR c (agV c 1 2) (Fn m ρ)).1 $$ Hag12
  icases Hag12' with ⟨Hag12L, Hag12R⟩
  iapply (step_send m ρ K c (agJ 1 2) 6 rfl (agV c 1 2) (agV c 1 2) Lq (Fn m ρ) fz W _ _ _ (dev22_eq c) (zsend_ag 1 2 _ _) (zrecv_ag 1 2 _ _)
      ((amount_ag c 1 2 _).trans (NJ_ag 1 2).symm)
      (by rw [sendPay_ag]; unfold agS; exact .rfl)
      (by
        show _ ⊢ recvPay m ρ (zl c) (agJ 1 2)
        rw [recvPay_ag]; unfold agR; rw [zr_zl]
        exact Entails.of_eq (pointsTo_congr (write_read_self (agV c 1 2) fz (Fn m ρ)))))
    $$ [Hag12L Hbzl HO Ht17s Ht17r]
  · iframe
    isplitr; · iexact HR
    isplitl [Hbzl]; · iexact Hbzl
    isplitl [Ht17s]; · iexact Ht17s
    iexact Ht17r
  iintro ⟨Hc17, HO⟩
  rw [wp_ret]; imodintro
  iapply Hk
  unfold St4c ghostMid
  rw [sendCred_put c 17 18 (by omega) rfl]
  iframe
  isplitr; · iexact HR
  isplitr; · iexact Hlev
  isplitl [Hc17]; · iexact Hc17
  iexists W; iexact HO

set_option maxHeartbeats 1600000 in
theorem part27_spec (K : GSem nD τ sig → ℕ) (c : Dev nD) (xr_ : sProp 𝕄)
    (v8 v33 v46 v50 v63 v67 : BitVec 32)
    (Kt : (Σ' (v911 : BitVec 32), BitVec 32) → sProp 𝕄) :
    iprop(St4c m ρ K c xr_ ∗ (∀ r, St5 m ρ K c xr_ -∗ Kt r)) ⊢ wp frame (wpE (defs₀ (F := F)) 𝒱₀ (c : Thread nD τ) none) Set.univ
      (k0_part27 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 c v8 v33 v46 v50 v63 v67) Kt := by
  rw [k0_part27_eq_skeleton]; unfold k0_part27_skel
  simp only [Prog.lift, Prog.bind_op, Prog.bind_ret, Prog.pure_eq_ret]
  unfold St4c ghostMid rcT rcD
  iintro ⟨⟨⟨#HR, #Hlev, Htok, Hrt, Hrd, Hst, Hsc, ⟨%W, HO⟩⟩, ⟨Hr14a, Hr14c⟩, ⟨Hr15a, Hr15c⟩, Hr16d, ⟨Hr17a, Hr17c⟩,
    Hx, Hzr02, Hag10, Hag11, Hag12, Hslots, HbPa, HbPb⟩, Hk⟩

  iapply (step_wait_recv m ρ K c (agJ 1 2) (Orem c 6) W (agV c 1 2) (agV c 1 2) _ (zrecv_ag 1 2 _ _)
      ((show (agV c 1 2).view.dmaCredit = N128 from rfl).trans (NJ_ag 1 2).symm) (mayWait_recv c (agJ 1 2) 6 (by decide)))
    $$ [Hr17a Hr17c HO]
  · isplitr; · iexact HR
    isplitr; · iexact Hlev
    isplitl [Hr17c]; · iexact Hr17c
    isplitl [HO]; · iexact HO
    iexact Hr17a
  iintro ⟨⟨%W1, HO⟩, Hr17d, Hpay17⟩

  iapply (step_wait_recv m ρ K c (paJ 0 2) (Orem c 6) W1 (paV c 0 2) (paV c 0 2) _ (uprecv_sem 0 2 _ _)
      ((show (paV c 0 2).view.dmaCredit = N256 from rfl).trans (NJ_pa 0 2).symm) (mayWait_recv c (paJ 0 2) 6 (by decide)))
    $$ [Hr14a Hr14c HO]
  · isplitr; · iexact HR
    isplitr; · iexact Hlev
    isplitl [Hr14c]; · iexact Hr14c
    isplitl [HO]; · iexact HO
    iexact Hr14a
  iintro ⟨⟨%W2, HO⟩, Hr14d, Hpay14⟩

  iapply (step_wait_recv m ρ K c (pbJ 0 2) (Orem c 6) W2 (pbV c 0 2) (pbV c 0 2) _ (dnrecv_sem 0 2 _ _)
      ((show (pbV c 0 2).view.dmaCredit = N256 from rfl).trans (NJ_pb 0 2).symm) (mayWait_recv c (pbJ 0 2) 6 (by decide)))
    $$ [Hr15a Hr15c HO]
  · isplitr; · iexact HR
    isplitr; · iexact Hlev
    isplitl [Hr15c]; · iexact Hr15c
    isplitl [HO]; · iexact HO
    iexact Hr15a
  iintro ⟨⟨%W3, HO⟩, Hr15d, Hpay15⟩
  ihave Hzr12 := (Entails.of_eq ((recvPay_ag m ρ c 1 2).trans (show agR m ρ c 1 2 = pts c (agV (zr c) 1 2) fullShare (Fn m ρ) from rfl))) $$ Hpay17
  ihave Hpa2 := (Entails.of_eq ((recvPay_pa m ρ c 0 2).trans (show paR m ρ c 0 2 = pts c (paV (xl c) 0 2) fullShare (Fn m ρ) from rfl))) $$ Hpay14
  ihave Hpb2 := (Entails.of_eq ((recvPay_pb m ρ c 0 2).trans (show pbR m ρ c 0 2 = pts c (pbV (xr c) 0 2) fullShare (Fn m ρ) from rfl))) $$ Hpay15
  rw [wp_ret]; imodintro
  iapply Hk
  unfold St5 ghostAt
  rw [recvDone_put c 17 18 (by omega) rfl, recvDone_put c 16 17 (by omega) rfl, recvDone_put c 15 16 (by omega) rfl,
    recvDone_put c 14 15 (by omega) rfl]
  iframe
  isplitr; · iexact HR
  isplitr; · iexact Hlev
  isplitl [Hr17d Hr16d Hr15d Hr14d]
  · isplitl [Hr17d]; · iexact Hr17d
    isplitl [Hr16d]; · iexact Hr16d
    isplitl [Hr15d]; · iexact Hr15d
    iexact Hr14d
  iexists W3; iexact HO

end Cert.KernelIdeal.AR

end
-- ==== Proof.StageE.lean ====
import proofs.«900720_g7700000000000721_dist_ar_v7x_xyz2x2x4_z_m4096_n1024_f32_1_alg».proof.Proof.Steps
import proofs.«900720_g7700000000000721_dist_ar_v7x_xyz2x2x4_z_m4096_n1024_f32_1_alg».proof.Proof.Levels
import proofs.«900720_g7700000000000721_dist_ar_v7x_xyz2x2x4_z_m4096_n1024_f32_1_alg».proof.Proof.Views
import proofs.«900720_g7700000000000721_dist_ar_v7x_xyz2x2x4_z_m4096_n1024_f32_1_alg».proof.Proof.Parts

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace StageE

theorem dev23_eq (c : Dev nD) : (⟨k0_dev23 c, k0_dev23_lt c⟩ : Dev nD) = xr c := by revert c; decide
theorem dev24_eq (c : Dev nD) : (⟨k0_dev24 c, k0_dev24_lt c⟩ : Dev nD) = xl c := by revert c; decide
theorem dev25_eq (c : Dev nD) : (⟨k0_dev25 c, k0_dev25_lt c⟩ : Dev nD) = xr c := by revert c; decide
theorem dev26_eq (c : Dev nD) : (⟨k0_dev26 c, k0_dev26_lt c⟩ : Dev nD) = xl c := by revert c; decide
theorem dev27_eq (c : Dev nD) : (⟨k0_dev27 c, k0_dev27_lt c⟩ : Dev nD) = xr c := by revert c; decide
theorem dev28_eq (c : Dev nD) : (⟨k0_dev28 c, k0_dev28_lt c⟩ : Dev nD) = xl c := by revert c; decide

theorem toks_take (c : Dev nD) (j : Fin 24) :
    (toksFrom c j.val : sProp 𝕄) = iprop((dutyTok ER (sendCell c j) 0 0 ∗ dutyTok ER (recvCell (peer j c) j) 0 0) ∗ toksFrom c (j.val + 1)) :=
  take_ge _ j _ _ rfl rfl

theorem recvTodo_take (c : Dev nD) (j : Fin 24) :
    (recvTodo c j.val : sProp 𝕄) = iprop((atPos ER (recvCell c j) 0 ∅ 0 ∗ cred (tallyAt (recvCell c j) () (NJ j))) ∗ recvTodo c (j.val + 1)) :=
  take_ge _ j _ _ rfl rfl

theorem recvDone_put (c : Dev nD) (j : Fin 24) :
    (recvDone c (j.val + 1) : sProp 𝕄) = iprop(atPos ER (recvCell c j) 1 ∅ 0 ∗ recvDone c j.val) :=
  put_lt _ j _ _ rfl rfl

theorem sendCred_put (c : Dev nD) (j : Fin 24) :
    (sendCred c (j.val + 1) : sProp 𝕄) = iprop(cred (tallyAt (sendCell c j) () (NJ j)) ∗ sendCred c j.val) :=
  put_lt _ j _ _ rfl rfl

def ghostE (K : GSem nD τ sig → ℕ) (c : Dev nD) (ks kr : ℕ) : sProp 𝕄 :=
  iprop(records m ρ K ∗ levAts L lv ∗ toksFrom c ks ∗ recvTodo c kr ∗ recvDone c kr ∗ sendTodo c ∗ sendCred c ks
    ∗ ∃ W, owes (c : Thread nD τ) (Orem c (24 - ks)) W)

theorem ghostAt_eq (K : GSem nD τ sig → ℕ) (c : Dev nD) (k : ℕ) : ghostAt m ρ K c k = ghostE m ρ K c k k := rfl

theorem ghost_send {sh : Shape} (K : GSem nD τ sig → ℕ) (c : Dev nD) (j : Fin 24) (n : ℕ) (hn : n + j.val = 23) (kr : ℕ)
    (d : Dev nD) (hd : d = peer j c) (ss rs : DmaSem sig) (hss : ss = sendSem j) (hrs : rs = recvSem j)
    (src dst : Memref sig .tc .vmem sh .f32) (q : PosShare TreeShare)
    (fs : Buf (Elt F) (src.view.loc (c : Thread nD τ)))
    {hsc : (dst : Memref sig (Dev.tc d : Thread nD τ).2.kind .vmem sh .f32).view.ref.isScScratch = false}
    {hsrc : src.view.WordExact} {hdst : dst.view.WordExact}
    {hsem : DmaTarget.Typed .vmem (.dma rs) (.remote (Dev.tc d : Thread nD τ) dst (.dma ss) hsc)}
    {α : Type} {Q : α → sProp 𝕄} {k : PUnit → Prog (TpuEff nD τ sig (Elt F) Λ₀ .tc) α}
    (hN : dst.view.amount (.dma (recvSem j)) = NJ j)
    (hpay₁ : (src.view.loc (c : Thread nD τ) ↦[src.view.set]{q} fs : sProp 𝕄) ⊢ sendPay m ρ c j)
    (hpay₂ : ∀ fd : Buf (Elt F) (dst.view.loc (peer j c : Thread nD τ)),
      (dst.view.loc (peer j c : Thread nD τ) ↦[dst.view.set]{fullShare} (dst.view.write (Elt F) fd (src.view.read (Elt F) fs) Finset.univ) : sProp 𝕄)
        ⊢ recvPay m ρ (peer j c) j) :
    iprop(ghostE m ρ K c j.val kr ∗ pts c src q fs ∗ bor (peer j c) dst
        ∗ (ghostE m ρ K c (j.val + 1) kr -∗ wp frame (wpE (defs₀ (F := F)) 𝒱₀ (c : Thread nD τ) none) Set.univ (k ⟨⟩) Q))
      ⊢ wp frame (wpE (defs₀ (F := F)) 𝒱₀ (c : Thread nD τ) none) Set.univ
          (.op (.enqueueDma src (.remote (Dev.tc d : Thread nD τ) dst (.dma ss) hsc) (.dma rs) hsrc hdst hsem) k) Q := by
  subst hd hss hrs
  have e1 : 24 - j.val = n + 1 := by omega
  have e2 : 24 - (j.val + 1) = n := by omega
  unfold ghostE bor
  rw [toks_take c j, sendCred_put c j, e1, e2]
  iintro ⟨⟨#HR, #Hlev, ⟨⟨Ht1, Ht2⟩, Ht⟩, Hrt, Hrd, Hst, Hsc, ⟨%W, HO⟩⟩, Hs, ⟨%fd, Hd⟩, Hk⟩
  iapply (step_send m ρ K c j n hn src dst q fs fd W _ _ _ rfl rfl rfl hN hpay₁ (hpay₂ fd)) $$ [Hs Hd HO Ht1 Ht2]
  · iframe
    iexact HR
  iintro ⟨Hc, HO⟩
  iapply Hk
  iframe
  isplitr; · iexact HR
  isplitr; · iexact Hlev
  iexists W; iexact HO

theorem ghost_wait {sh : Shape} (K : GSem nD τ sig → ℕ) (c : Dev nD) (j : Fin 24) (ks : ℕ) (hks : j.val < ks)
    (rs : DmaSem sig) (hrs : rs = recvSem j)
    (src dst : Memref sig .tc .vmem sh .f32) {hs : src.view.WordExact} {hd : dst.view.WordExact}
    {α : Type} {Q : α → sProp 𝕄} {k : PUnit → Prog (TpuEff nD τ sig (Elt F) Λ₀ .tc) α}
    (hN : dst.view.dmaCredit = NJ j) :
    iprop(ghostE m ρ K c ks j.val
        ∗ ((ghostE m ρ K c ks (j.val + 1) ∗ recvPay m ρ c j) -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 rs src dst hs hd) k) Q := by
  subst hrs
  unfold ghostE
  rw [recvTodo_take c j, recvDone_put c j]
  iintro ⟨⟨#HR, #Hlev, Ht, ⟨⟨Hat, Hcr⟩, Hrt⟩, Hrd, Hst, Hsc, ⟨%W, HO⟩⟩, Hk⟩
  iapply (step_wait_recv m ρ K c j (Orem c (24 - ks)) W src dst _ rfl hN (mayWait_recv c j (24 - ks) (by omega))) $$ [Hcr HO Hat]
  · iframe
    isplitr; · iexact HR
    iexact Hlev
  iintro ⟨⟨%W', HO⟩, Hat, Hpay⟩
  iapply Hk
  isplitr [Hpay]
  · isplitr; · iexact HR
    isplitr; · iexact Hlev
    isplitl [Ht]; · iexact Ht
    isplitl [Hrt]; · iexact Hrt
    isplitl [Hat Hrd]
    · isplitl [Hat]; · iexact Hat
      iexact Hrd
    isplitl [Hst]; · iexact Hst
    isplitl [Hsc]; · iexact Hsc
    iexists W'; iexact HO
  · iexact Hpay

def keepE (c : Dev nD) : sProp 𝕄 :=
  iprop(pts c (agV (zr c) 0 2) Lq (Fn m ρ) ∗ pts c (paV (xl c) 0 2) fullShare (Fn m ρ) ∗ pts c (pbV (xr c) 0 2) fullShare (Fn m ρ)
    ∗ pts c (agV (zr c) 1 2) Lq (Fn m ρ) ∗ slotsHeld m ρ c [(0,0),(0,1),(0,2),(1,0),(1,1),(1,2)])

def E28 (K : GSem nD τ sig → ℕ) (c : Dev nD) (xr_ : sProp 𝕄) : sProp 𝕄 :=
  iprop(ghostE m ρ K c 19 18 ∗ xr_ ∗ keepE m ρ c
    ∗ pts c (pbV c 1 0) Rq (Fn m ρ)
    ∗ (bor (xr c) (paV c 1 1) ∗ bor (xr c) (paV c 1 2))
    ∗ (bor (xl c) (pbV c 1 0) ∗ bor (xl c) (pbV c 1 1) ∗ bor (xl c) (pbV c 1 2)))

def E29 (K : GSem nD τ sig → ℕ) (c : Dev nD) (xr_ : sProp 𝕄) : sProp 𝕄 :=
  iprop(ghostE m ρ K c 20 20 ∗ xr_ ∗ keepE m ρ c
    ∗ pts c (paV (xl c) 1 0) fullShare (Fn m ρ) ∗ pts c (pbV (xr c) 1 0) fullShare (Fn m ρ)
    ∗ (bor (xr c) (paV c 1 1) ∗ bor (xr c) (paV c 1 2))
    ∗ (bor (xl c) (pbV c 1 1) ∗ bor (xl c) (pbV c 1 2)))

def E30 (K : GSem nD τ sig → ℕ) (c : Dev nD) (xr_ : sProp 𝕄) : sProp 𝕄 :=
  iprop(ghostE m ρ K c 21 20 ∗ xr_ ∗ keepE m ρ c
    ∗ pts c (pbV (xr c) 1 0) fullShare (Fn m ρ)
    ∗ bor (xr c) (paV c 1 2)
    ∗ (bor (xl c) (pbV c 1 1) ∗ bor (xl c) (pbV c 1 2)))

def E31 (K : GSem nD τ sig → ℕ) (c : Dev nD) (xr_ : sProp 𝕄) : sProp 𝕄 :=
  iprop(ghostE m ρ K c 22 22 ∗ xr_ ∗ keepE m ρ c
    ∗ pts c (paV (xl c) 1 1) fullShare (Fn m ρ) ∗ pts c (pbV (xr c) 1 1) fullShare (Fn m ρ)
    ∗ bor (xr c) (paV c 1 2)
    ∗ bor (xl c) (pbV c 1 2))

def E32 (K : GSem nD τ sig → ℕ) (c : Dev nD) (xr_ : sProp 𝕄) : sProp 𝕄 :=
  iprop(ghostE m ρ K c 23 22 ∗ xr_ ∗ keepE m ρ c
    ∗ pts c (pbV (xr c) 1 1) fullShare (Fn m ρ)
    ∗ bor (xl c) (pbV c 1 2))

theorem borPa_second (c : Dev nD) :
    borPa (F := F) c [(1,0),(1,1),(1,2)] = iprop(bor (xr c) (paV c 1 0) ∗ bor (xr c) (paV c 1 1) ∗ bor (xr c) (paV c 1 2)) := rfl
theorem borPb_second (c : Dev nD) :
    borPb (F := F) c [(1,0),(1,1),(1,2)] = iprop(bor (xl c) (pbV c 1 0) ∗ bor (xl c) (pbV c 1 1) ∗ bor (xl c) (pbV c 1 2)) := rfl

theorem pa_pay₁ (c : Dev nD) (t : Fin 3) (q : PosShare TreeShare) (hq : q = if t = 0 then Rq else fullShare) :
    (pts c (paV c 1 t) q (Fn m ρ) : sProp 𝕄) ⊢ sendPay m ρ c (paJ 1 t) := by
  rw [sendPay_pa]; unfold paS; rw [hq]

theorem pb_pay₁ (c : Dev nD) (t : Fin 3) (q : PosShare TreeShare) (hq : q = if t = 0 then Rq else fullShare) :
    (pts c (pbV c 1 t) q (Fn m ρ) : sProp 𝕄) ⊢ sendPay m ρ c (pbJ 1 t) := by
  rw [sendPay_pb]; unfold pbS; rw [hq]

theorem pa_pay₂ (c : Dev nD) (t : Fin 3) (fd : Buf (Elt F) ((paV c 1 t).view.loc (xr c : Thread nD τ))) :
    (pts (xr c) (paV c 1 t) fullShare ((paV c 1 t).view.write (Elt F) fd ((paV c 1 t).view.read (Elt F) (Fn m ρ)) Finset.univ) : sProp 𝕄)
      ⊢ recvPay m ρ (xr c) (paJ 1 t) := by
  rw [recvPay_pa]; unfold paR; rw [xl_xr]
  exact Entails.of_eq (pts_congr (xr c) (paV c 1 t) fullShare _ _ (write_read_self (paV c 1 t) fd (Fn m ρ)))

theorem pb_pay₂ (c : Dev nD) (t : Fin 3) (fd : Buf (Elt F) ((pbV c 1 t).view.loc (xl c : Thread nD τ))) :
    (pts (xl c) (pbV c 1 t) fullShare ((pbV c 1 t).view.write (Elt F) fd ((pbV c 1 t).view.read (Elt F) (Fn m ρ)) Finset.univ) : sProp 𝕄)
      ⊢ recvPay m ρ (xl c) (pbJ 1 t) := by
  rw [recvPay_pb]; unfold pbR; rw [xr_xl]
  exact Entails.of_eq (pts_congr (xl c) (pbV c 1 t) fullShare _ _ (write_read_self (pbV c 1 t) fd (Fn m ρ)))

theorem pts_pa_step0 (c : Dev nD) (p : Fin 2) (q : PosShare TreeShare) (f : Buf (Elt F) (oM.view.loc (c : Thread nD τ))) :
    (pts c (paV (xl c) p 0) q f : sProp 𝕄) = pts c (paV c p 1) q f := by
  rw [pts_paV c (xl c) p 0 p.val 0 (1024 * ((rpos c + 3) % 4) + 512 * p.val) rfl rfl (by rw [rpos_xl]; unfold row; omega) q f,
    pts_paV c c p 1 p.val 1 (1024 * ((rpos c + 3) % 4) + 512 * p.val) rfl rfl (by unfold row; omega) q f]

theorem pts_pa_step1 (c : Dev nD) (p : Fin 2) (q : PosShare TreeShare) (f : Buf (Elt F) (oM.view.loc (c : Thread nD τ))) :
    (pts c (paV (xl c) p 1) q f : sProp 𝕄) = pts c (paV c p 2) q f := by
  rw [pts_paV c (xl c) p 1 p.val 1 (1024 * ((rpos c + 2) % 4) + 512 * p.val) rfl rfl (by rw [rpos_xl]; unfold row; omega) q f,
    pts_paV c c p 2 p.val 2 (1024 * ((rpos c + 2) % 4) + 512 * p.val) rfl rfl (by unfold row; omega) q f]

theorem pts_pb_step0 (c : Dev nD) (p : Fin 2) (q : PosShare TreeShare) (f : Buf (Elt F) (oM.view.loc (c : Thread nD τ))) :
    (pts c (pbV (xr c) p 0) q f : sProp 𝕄) = pts c (pbV c p 1) q f := by
  rw [pts_pbV c (xr c) p 0 p.val 0 (1024 * ((rpos c + 1) % 4) + 512 * p.val + 256) rfl rfl (by rw [rpos_xr]; unfold row; omega) q f,
    pts_pbV c c p 1 p.val 1 (1024 * ((rpos c + 1) % 4) + 512 * p.val + 256) rfl rfl (by unfold row; omega) q f]

theorem pts_pb_step1 (c : Dev nD) (p : Fin 2) (q : PosShare TreeShare) (f : Buf (Elt F) (oM.view.loc (c : Thread nD τ))) :
    (pts c (pbV (xr c) p 1) q f : sProp 𝕄) = pts c (pbV c p 2) q f := by
  rw [pts_pbV c (xr c) p 1 p.val 1 (1024 * ((rpos c + 2) % 4) + 512 * p.val + 256) rfl rfl (by rw [rpos_xr]; unfold row; omega) q f,
    pts_pbV c c p 2 p.val 2 (1024 * ((rpos c + 2) % 4) + 512 * p.val + 256) rfl rfl (by unfold row; omega) q f]

end StageE

open StageE

set_option maxHeartbeats 1600000 in
theorem part28_spec (K : GSem nD τ sig → ℕ) (c : Dev nD) (xr_ : sProp 𝕄)
    (v8 v33 v46 v50 v63 v67 v911 c512_i32_636 : BitVec 32) (Kt : PUnit → sProp 𝕄) :
    iprop(St5 m ρ K c xr_ ∗ (∀ r, E28 m ρ K c xr_ -∗ Kt r)) ⊢ wp frame (wpE (defs₀ (F := F)) 𝒱₀ (c : Thread nD τ) none) Set.univ
        (k0_part28 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v8 v33 v46 v50 v63 v67 v911 c512_i32_636) Kt := by
  rw [k0_part28_eq_skeleton]; unfold k0_part28_skel
  simp only [Prog.lift, Prog.bind_op, Prog.bind_ret, Prog.pure_eq_ret]
  unfold St5
  rw [ghostAt_eq, borPa_second, borPb_second]
  iintro ⟨⟨Hg, Hx, HA, HB, HC, H10, H11, H12, Hz, Hsl, ⟨Hd, Hpa⟩, Hpb⟩, Hk⟩
  ihave Hz' := (share_LR c (agV (zr c) 1 2) (Fn m ρ)).1 $$ Hz
  icases Hz' with ⟨HzL, HzR⟩
  ihave Hj := (subq_join c 1 Rq (Fn m ρ)).1 $$ [H10 H11 H12 HzR]
  · iframe
  icases Hj with ⟨Hpa0, Hpb0⟩
  iapply (ghost_send m ρ K c (paJ 1 0) 5 rfl 18 _ ((dev23_eq c).trans (peer_pa 1 0 c).symm) _ _ (upsend_sem 1 0 _ _) (uprecv_sem 1 0 _ _)
      (paV c 1 0) (paV c 1 0) Rq (Fn m ρ)
      ((amount_pa c 1 0 _).trans (NJ_pa 1 0).symm) (pa_pay₁ m ρ c 0 Rq rfl) (pa_pay₂ m ρ c 0)) $$ [Hg Hpa0 Hd Hx HA HB HC HzL Hsl Hpb0 Hpa Hpb Hk]
  isplitl [Hg]; · iexact Hg
  isplitl [Hpa0]; · iexact Hpa0
  isplitl [Hd]; · iexact Hd
  iintro Hg
  simp only [wp_ret]; imodintro
  iapply Hk
  unfold E28 keepE
  iframe
  iexact Hg

set_option maxHeartbeats 1600000 in
theorem part29_spec (K : GSem nD τ sig → ℕ) (c : Dev nD) (xr_ : sProp 𝕄)
    (v8 v33 v46 v50 v63 v67 : BitVec 32) (Kt : (Σ' (v973 : BitVec 32) (v974 : BitVec 32) (v975 : BitVec 1), BitVec 1) → sProp 𝕄) :
    iprop(E28 m ρ K c xr_ ∗ (∀ r, E29 m ρ K c xr_ -∗ Kt r)) ⊢ wp frame (wpE (defs₀ (F := F)) 𝒱₀ (c : Thread nD τ) none) Set.univ
        (k0_part29 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v8 v33 v46 v50 v63 v67) Kt := by
  rw [k0_part29_eq_skeleton]; unfold k0_part29_skel
  simp only [Prog.lift, Prog.bind_op, Prog.bind_ret, Prog.pure_eq_ret]
  unfold E28
  iintro ⟨⟨Hg, Hx, Hkeep, Hpb0, Hpa, ⟨Hd, Hpb⟩⟩, Hk⟩
  iapply (ghost_send m ρ K c (pbJ 1 0) 4 rfl 18 _ ((dev24_eq c).trans (peer_pb 1 0 c).symm) _ _ (dnsend_sem 1 0 _ _) (dnrecv_sem 1 0 _ _)
      (pbV c 1 0) (pbV c 1 0) Rq (Fn m ρ)
      ((amount_pb c 1 0 _).trans (NJ_pb 1 0).symm) (pb_pay₁ m ρ c 0 Rq rfl) (pb_pay₂ m ρ c 0)) $$ [Hg Hpb0 Hd Hx Hkeep Hpa Hpb Hk]
  isplitl [Hg]; · iexact Hg
  isplitl [Hpb0]; · iexact Hpb0
  isplitl [Hd]; · iexact Hd
  iintro Hg
  iapply (ghost_wait m ρ K c (paJ 1 0) 20 (by decide) _ (uprecv_sem 1 0 _ _) (paV c 1 0) (paV c 1 0)
      ((rfl : (paV c 1 0).view.dmaCredit = N256).trans (NJ_pa 1 0).symm)) $$ [Hg Hx Hkeep Hpa Hpb Hk]
  isplitl [Hg]; · iexact Hg
  iintro ⟨Hg, Hp1⟩
  iapply (ghost_wait m ρ K c (pbJ 1 0) 20 (by decide) _ (dnrecv_sem 1 0 _ _) (pbV c 1 0) (pbV c 1 0)
      ((rfl : (pbV c 1 0).view.dmaCredit = N256).trans (NJ_pb 1 0).symm)) $$ [Hg Hp1 Hx Hkeep Hpa Hpb Hk]
  isplitl [Hg]; · iexact Hg
  iintro ⟨Hg, Hp2⟩
  ihave Hp1 := (Entails.of_eq (recvPay_pa m ρ c 1 0)) $$ Hp1
  ihave Hp2 := (Entails.of_eq (recvPay_pb m ρ c 1 0)) $$ Hp2
  simp only [wp_ret]; imodintro
  iapply Hk
  unfold E29 paR pbR
  iframe
  iexact Hg

set_option maxHeartbeats 1600000 in
theorem part30_spec (K : GSem nD τ sig → ℕ) (c : Dev nD) (xr_ : sProp 𝕄)
    (v8 v33 v46 v50 v63 v67 v973 v974 : BitVec 32) (v975 v978 : BitVec 1) (Kt : (Σ' (v1011 : BitVec 32), BitVec 32) → sProp 𝕄) :
    iprop(E29 m ρ K c xr_ ∗ (∀ r, E30 m ρ K c xr_ -∗ Kt r)) ⊢ wp frame (wpE (defs₀ (F := F)) 𝒱₀ (c : Thread nD τ) none) Set.univ
        (k0_part30 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v8 v33 v46 v50 v63 v67 v973 v974 v975 v978) Kt := by
  rw [k0_part30_eq_skeleton]; unfold k0_part30_skel
  simp only [Prog.lift, Prog.bind_op, Prog.bind_ret, Prog.pure_eq_ret]
  unfold E29
  rw [pts_pa_step0 c 1 fullShare (Fn m ρ)]
  iintro ⟨⟨Hg, Hx, Hkeep, Hp1, Hp2, ⟨Hd, Hpa⟩, Hpb⟩, Hk⟩
  iapply (ghost_send m ρ K c (paJ 1 1) 3 rfl 20 _ ((dev25_eq c).trans (peer_pa 1 1 c).symm) _ _ (upsend_sem 1 1 _ _) (uprecv_sem 1 1 _ _)
      (paV c 1 1) (paV c 1 1) fullShare (Fn m ρ)
      ((amount_pa c 1 1 _).trans (NJ_pa 1 1).symm) (pa_pay₁ m ρ c 1 fullShare rfl) (pa_pay₂ m ρ c 1)) $$ [Hg Hp1 Hd Hx Hkeep Hp2 Hpa Hpb Hk]
  isplitl [Hg]; · iexact Hg
  isplitl [Hp1]; · iexact Hp1
  isplitl [Hd]; · iexact Hd
  iintro Hg
  simp only [wp_ret]; imodintro
  iapply Hk
  unfold E30
  iframe
  iexact Hg

set_option maxHeartbeats 1600000 in
theorem part31_spec (K : GSem nD τ sig → ℕ) (c : Dev nD) (xr_ : sProp 𝕄)
    (v8 v33 v46 v50 v63 v67 v1011 v1012 : BitVec 32) (Kt : (Σ' (v1044 : BitVec 32) (v1045 : BitVec 32), BitVec 32) → sProp 𝕄) :
    iprop(E30 m ρ K c xr_ ∗ (∀ r, E31 m ρ K c xr_ -∗ Kt r)) ⊢ wp frame (wpE (defs₀ (F := F)) 𝒱₀ (c : Thread nD τ) none) Set.univ
        (k0_part31 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v8 v33 v46 v50 v63 v67 v1011 v1012) Kt := by
  rw [k0_part31_eq_skeleton]; unfold k0_part31_skel
  simp only [Prog.lift, Prog.bind_op, Prog.bind_ret, Prog.pure_eq_ret]
  unfold E30
  rw [pts_pb_step0 c 1 fullShare (Fn m ρ)]
  iintro ⟨⟨Hg, Hx, Hkeep, Hp2, Hpa, ⟨Hd, Hpb⟩⟩, Hk⟩
  iapply (ghost_send m ρ K c (pbJ 1 1) 2 rfl 20 _ ((dev26_eq c).trans (peer_pb 1 1 c).symm) _ _ (dnsend_sem 1 1 _ _) (dnrecv_sem 1 1 _ _)
      (pbV c 1 1) (pbV c 1 1) fullShare (Fn m ρ)
      ((amount_pb c 1 1 _).trans (NJ_pb 1 1).symm) (pb_pay₁ m ρ c 1 fullShare rfl) (pb_pay₂ m ρ c 1)) $$ [Hg Hp2 Hd Hx Hkeep Hpa Hpb Hk]
  isplitl [Hg]; · iexact Hg
  isplitl [Hp2]; · iexact Hp2
  isplitl [Hd]; · iexact Hd
  iintro Hg
  iapply (ghost_wait m ρ K c (paJ 1 1) 22 (by decide) _ (uprecv_sem 1 1 _ _) (paV c 1 1) (paV c 1 1)
      ((rfl : (paV c 1 1).view.dmaCredit = N256).trans (NJ_pa 1 1).symm)) $$ [Hg Hx Hkeep Hpa Hpb Hk]
  isplitl [Hg]; · iexact Hg
  iintro ⟨Hg, Hp1⟩
  iapply (ghost_wait m ρ K c (pbJ 1 1) 22 (by decide) _ (dnrecv_sem 1 1 _ _) (pbV c 1 1) (pbV c 1 1)
      ((rfl : (pbV c 1 1).view.dmaCredit = N256).trans (NJ_pb 1 1).symm)) $$ [Hg Hp1 Hx Hkeep Hpa Hpb Hk]
  isplitl [Hg]; · iexact Hg
  iintro ⟨Hg, Hp2⟩
  ihave Hp1 := (Entails.of_eq (recvPay_pa m ρ c 1 1)) $$ Hp1
  ihave Hp2 := (Entails.of_eq (recvPay_pb m ρ c 1 1)) $$ Hp2
  simp only [wp_ret]; imodintro
  iapply Hk
  unfold E31 paR pbR
  iframe
  iexact Hg

set_option maxHeartbeats 1600000 in
theorem part32_spec (K : GSem nD τ sig → ℕ) (c : Dev nD) (xr_ : sProp 𝕄)
    (v8 v33 v46 v50 v1044 v1045 c0_i32_734 : BitVec 32) (Kt : PUnit → sProp 𝕄) :
    iprop(E31 m ρ K c xr_ ∗ (∀ r, E32 m ρ K c xr_ -∗ Kt r)) ⊢ wp frame (wpE (defs₀ (F := F)) 𝒱₀ (c : Thread nD τ) none) Set.univ
        (k0_part32 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v8 v33 v46 v50 v1044 v1045 c0_i32_734) Kt := by
  rw [k0_part32_eq_skeleton]; unfold k0_part32_skel
  simp only [Prog.lift, Prog.bind_op, Prog.bind_ret, Prog.pure_eq_ret]
  unfold E31
  rw [pts_pa_step1 c 1 fullShare (Fn m ρ)]
  iintro ⟨⟨Hg, Hx, Hkeep, Hp1, Hp2, Hd, Hpb⟩, Hk⟩
  iapply (ghost_send m ρ K c (paJ 1 2) 1 rfl 22 _ ((dev27_eq c).trans (peer_pa 1 2 c).symm) _ _ (upsend_sem 1 2 _ _) (uprecv_sem 1 2 _ _)
      (paV c 1 2) (paV c 1 2) fullShare (Fn m ρ)
      ((amount_pa c 1 2 _).trans (NJ_pa 1 2).symm) (pa_pay₁ m ρ c 2 fullShare rfl) (pa_pay₂ m ρ c 2)) $$ [Hg Hp1 Hd Hx Hkeep Hp2 Hpb Hk]
  isplitl [Hg]; · iexact Hg
  isplitl [Hp1]; · iexact Hp1
  isplitl [Hd]; · iexact Hd
  iintro Hg
  simp only [wp_ret]; imodintro
  iapply Hk
  unfold E32
  iframe
  iexact Hg

set_option maxHeartbeats 1600000 in
theorem part33_spec (K : GSem nD τ sig → ℕ) (c : Dev nD) (xr_ : sProp 𝕄)
    (v8 v46 v50 v63 v67 : BitVec 32) (Kt : PUnit → sProp 𝕄) :
    iprop(E32 m ρ K c xr_ ∗ (∀ r, St6 m ρ K c xr_ -∗ Kt r)) ⊢ wp frame (wpE (defs₀ (F := F)) 𝒱₀ (c : Thread nD τ) none) Set.univ
        (k0_part33 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v8 v46 v50 v63 v67) Kt := by
  rw [k0_part33_eq_skeleton]; unfold k0_part33_skel
  simp only [Prog.lift, Prog.bind_op, Prog.bind_ret, Prog.pure_eq_ret]
  unfold E32 keepE
  rw [pts_pb_step1 c 1 fullShare (Fn m ρ)]
  iintro ⟨⟨Hg, Hx, ⟨HA, HB, HC, HzL, Hsl⟩, Hp2, Hd⟩, Hk⟩
  iapply (ghost_send m ρ K c (pbJ 1 2) 0 rfl 22 _ ((dev28_eq c).trans (peer_pb 1 2 c).symm) _ _ (dnsend_sem 1 2 _ _) (dnrecv_sem 1 2 _ _)
      (pbV c 1 2) (pbV c 1 2) fullShare (Fn m ρ)
      ((amount_pb c 1 2 _).trans (NJ_pb 1 2).symm) (pb_pay₁ m ρ c 2 fullShare rfl) (pb_pay₂ m ρ c 2)) $$ [Hg Hp2 Hd Hx HA HB HC HzL Hsl Hk]
  isplitl [Hg]; · iexact Hg
  isplitl [Hp2]; · iexact Hp2
  isplitl [Hd]; · iexact Hd
  iintro Hg
  iapply (ghost_wait m ρ K c (paJ 1 2) 24 (by decide) _ (uprecv_sem 1 2 _ _) (paV c 1 2) (paV c 1 2)
      ((rfl : (paV c 1 2).view.dmaCredit = N256).trans (NJ_pa 1 2).symm)) $$ [Hg Hx HA HB HC HzL Hsl Hk]
  isplitl [Hg]; · iexact Hg
  iintro ⟨Hg, Hp1⟩
  iapply (ghost_wait m ρ K c (pbJ 1 2) 24 (by decide) _ (dnrecv_sem 1 2 _ _) (pbV c 1 2) (pbV c 1 2)
      ((rfl : (pbV c 1 2).view.dmaCredit = N256).trans (NJ_pb 1 2).symm)) $$ [Hg Hp1 Hx HA HB HC HzL Hsl Hk]
  isplitl [Hg]; · iexact Hg
  iintro ⟨Hg, Hp2⟩
  ihave Hp1 := (Entails.of_eq (recvPay_pa m ρ c 1 2)) $$ Hp1
  ihave Hp2 := (Entails.of_eq (recvPay_pb m ρ c 1 2)) $$ Hp2
  simp only [wp_ret]; imodintro
  iapply Hk
  unfold St6 paR pbR
  rw [ghostAt_eq]
  iframe
  iexact Hg

end Cert.KernelIdeal.AR

end
-- ==== Proof.StageG.lean ====
import proofs.«900720_g7700000000000721_dist_ar_v7x_xyz2x2x4_z_m4096_n1024_f32_1_alg».proof.Proof.Steps
import proofs.«900720_g7700000000000721_dist_ar_v7x_xyz2x2x4_z_m4096_n1024_f32_1_alg».proof.Proof.Levels
import proofs.«900720_g7700000000000721_dist_ar_v7x_xyz2x2x4_z_m4096_n1024_f32_1_alg».proof.Proof.Views
import proofs.«900720_g7700000000000721_dist_ar_v7x_xyz2x2x4_z_m4096_n1024_f32_1_alg».proof.Proof.Parts

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace StageG

def sendLeft (c : Dev nD) (l : List (Fin 24)) : sProp 𝕄 :=
  bigSepL l fun j => iprop(atPos ER (sendCell c j) 0 ∅ 0 ∗ cred (tallyAt (sendCell c j) () (NJ j)))
def sendGot (c : Dev nD) (l : List (Fin 24)) : sProp 𝕄 :=
  bigSepL l fun j => iprop(atPos ER (sendCell c j) 1 ∅ 0 ∗ sendPay m ρ c j)

def waitCore (K : GSem nD τ sig → ℕ) (c : Dev nD) (done todo : List (Fin 24)) : sProp 𝕄 :=
  iprop(records m ρ K ∗ (∃ W, owes (c : Thread nD τ) 0 W) ∗ sendLeft c todo ∗ sendGot m ρ c done)

def held6 (c : Dev nD) (xr_ : sProp 𝕄) : sProp 𝕄 :=
  iprop(levAts L lv ∗ recvDone c 24
    ∗ xr_
    ∗ pts c (agV (zr c) 0 2) Lq (Fn m ρ) ∗ pts c (agV (zr c) 1 2) Lq (Fn m ρ)
    ∗ pts c (paV (xl c) 0 2) fullShare (Fn m ρ) ∗ pts c (pbV (xr c) 0 2) fullShare (Fn m ρ)
    ∗ pts c (paV (xl c) 1 2) fullShare (Fn m ρ) ∗ pts c (pbV (xr c) 1 2) fullShare (Fn m ρ)
    ∗ slotsHeld m ρ c [(0,0),(0,1),(0,2),(1,0),(1,1),(1,2)])

def StG (K : GSem nD τ sig → ℕ) (c : Dev nD) (xr_ : sProp 𝕄) (done todo : List (Fin 24)) : sProp 𝕄 :=
  iprop(waitCore m ρ K c done todo ∗ held6 m ρ c xr_)

abbrev ordG : List (Fin 24) := [rsJ 0 0, rsJ 0 1, rsJ 0 2, agJ 0 0, agJ 0 1, agJ 0 2, rsJ 1 0, rsJ 1 1, paJ 0 0, pbJ 0 0, rsJ 1 2, agJ 1 0, paJ 0 1, pbJ 0 1, agJ 1 1, agJ 1 2, paJ 0 2, pbJ 0 2, paJ 1 0, pbJ 1 0, paJ 1 1, pbJ 1 1, paJ 1 2, pbJ 1 2]

end StageG

open StageG
def G5 (K : GSem nD τ sig → ℕ) (c : Dev nD) (xr_ : sProp 𝕄) : sProp 𝕄 := StG m ρ K c xr_ [agJ 0 1, agJ 0 0, rsJ 0 2, rsJ 0 1, rsJ 0 0] [agJ 0 2, rsJ 1 0, rsJ 1 1, paJ 0 0, pbJ 0 0, rsJ 1 2, agJ 1 0, paJ 0 1, pbJ 0 1, agJ 1 1, agJ 1 2, paJ 0 2, pbJ 0 2, paJ 1 0, pbJ 1 0, paJ 1 1, pbJ 1 1, paJ 1 2, pbJ 1 2]
def G10 (K : GSem nD τ sig → ℕ) (c : Dev nD) (xr_ : sProp 𝕄) : sProp 𝕄 := StG m ρ K c xr_ [pbJ 0 0, paJ 0 0, rsJ 1 1, rsJ 1 0, agJ 0 2, agJ 0 1, agJ 0 0, rsJ 0 2, rsJ 0 1, rsJ 0 0] [rsJ 1 2, agJ 1 0, paJ 0 1, pbJ 0 1, agJ 1 1, agJ 1 2, paJ 0 2, pbJ 0 2, paJ 1 0, pbJ 1 0, paJ 1 1, pbJ 1 1, paJ 1 2, pbJ 1 2]
def G16 (K : GSem nD τ sig → ℕ) (c : Dev nD) (xr_ : sProp 𝕄) : sProp 𝕄 := StG m ρ K c xr_ [agJ 1 2, agJ 1 1, pbJ 0 1, paJ 0 1, agJ 1 0, rsJ 1 2, pbJ 0 0, paJ 0 0, rsJ 1 1, rsJ 1 0, agJ 0 2, agJ 0 1, agJ 0 0, rsJ 0 2, rsJ 0 1, rsJ 0 0] [paJ 0 2, pbJ 0 2, paJ 1 0, pbJ 1 0, paJ 1 1, pbJ 1 1, paJ 1 2, pbJ 1 2]
def G22 (K : GSem nD τ sig → ℕ) (c : Dev nD) (xr_ : sProp 𝕄) : sProp 𝕄 := StG m ρ K c xr_ [pbJ 1 1, paJ 1 1, pbJ 1 0, paJ 1 0, pbJ 0 2, paJ 0 2, agJ 1 2, agJ 1 1, pbJ 0 1, paJ 0 1, agJ 1 0, rsJ 1 2, pbJ 0 0, paJ 0 0, rsJ 1 1, rsJ 1 0, agJ 0 2, agJ 0 1, agJ 0 0, rsJ 0 2, rsJ 0 1, rsJ 0 0] [paJ 1 2, pbJ 1 2]

namespace StageG
theorem bigSepL_cons' {I : Type} (i : I) (l : List I) (Φ : I → sProp 𝕄) : bigSepL (i :: l) Φ = iprop(Φ i ∗ bigSepL l Φ) :=
  bigSepL_cons i l Φ

theorem wait_step {sh : Shape} (K : GSem nD τ sig → ℕ) (c : Dev nD) (j : Fin 24) (done todo : List (Fin 24))
    (src dst : Memref sig .tc .vmem sh .f32) {hs : src.view.WordExact} {hd : dst.view.WordExact}
    {α : Type} {Q : α → sProp 𝕄} {k : PUnit → Prog (TpuEff nD τ sig (Elt F) Λ₀ .tc) α}
    (hN : dst.view.dmaCredit = NJ j) :
    waitCore m ρ K c done (j :: todo)
      ⊢ iprop((waitCore m ρ K c (j :: done) todo -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendSem j) src dst hs hd) k) Q) := by
  unfold waitCore sendLeft sendGot
  rw [bigSepL_cons', bigSepL_cons']
  iintro ⟨#HR, ⟨%W, HO⟩, ⟨⟨Hat, Hc⟩, Hleft⟩, Hgot⟩ Hk
  iapply (step_wait_send m ρ K c j W src dst hN) $$ [Hat Hc HO]
  · iframe
    iexact HR
  iintro ⟨HO, Hat, Hpay⟩
  iapply Hk
  iframe
  iexact HR

theorem sendLeft_intro (c : Dev nD) : iprop(sendTodo c ∗ sendCred c 24) ⊢ (sendLeft c ordG : sProp 𝕄) := by
  unfold sendTodo sendCred sendLeft
  rw [show (Finset.univ.filter fun j : Fin 24 => j.val < 24) = Finset.univ from Finset.filter_true_of_mem (fun j _ => j.isLt),
    ← bigSep_sep', bigSep_univ_eq_bigSepL ordG (by decide) (by decide)]

theorem st6_start (K : GSem nD τ sig → ℕ) (c : Dev nD) (xr_ : sProp 𝕄) : St6 m ρ K c xr_ ⊢ StG m ρ K c xr_ [] ordG := by
  unfold St6 ghostAt StG waitCore held6
  iintro ⟨⟨#HR, #Hlev, -, -, Hrd, Hst, Hsc, HO⟩, Hx, H1, H2, H3, H4, H5, H6, Hsl⟩
  isplitl [Hst Hsc HO]
  · isplitr; · iexact HR
    isplitl [HO]; · iexact HO
    isplitl [Hst Hsc]
    · iapply (sendLeft_intro c); isplitl [Hst]; · iexact Hst
      iexact Hsc
    · unfold sendGot; rw [bigSepL_nil]; iempintro
  iframe
  iexact Hlev

theorem cred128 (v : Memref sig .tc .vmem S128x1024 .f32) : v.view.dmaCredit = N128 := rfl
theorem cred256 (v : Memref sig .tc .vmem S256x1024 .f32) : v.view.dmaCredit = N256 := rfl

theorem wait_z (K : GSem nD τ sig → ℕ) (c : Dev nD) (j : Fin 24) (hj : NJ j = N128) (q : DmaSem sig) (hq : q = sendSem j) (done todo : List (Fin 24))
    (src dst : Memref sig .tc .vmem S128x1024 .f32) {hs : src.view.WordExact} {hd : dst.view.WordExact}
    {α : Type} {Q : α → sProp 𝕄} {k : PUnit → Prog (TpuEff nD τ sig (Elt F) Λ₀ .tc) α} :
    waitCore m ρ K c done (j :: todo)
      ⊢ iprop((waitCore m ρ K c (j :: done) todo -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  subst hq
  exact wait_step m ρ K c j done todo src dst ((cred128 dst).trans hj.symm)

theorem wait_xy (K : GSem nD τ sig → ℕ) (c : Dev nD) (j : Fin 24) (hj : NJ j = N256) (q : DmaSem sig) (hq : q = sendSem j) (done todo : List (Fin 24))
    (src dst : Memref sig .tc .vmem S256x1024 .f32) {hs : src.view.WordExact} {hd : dst.view.WordExact}
    {α : Type} {Q : α → sProp 𝕄} {k : PUnit → Prog (TpuEff nD τ sig (Elt F) Λ₀ .tc) α} :
    waitCore m ρ K c done (j :: todo)
      ⊢ iprop((waitCore m ρ K c (j :: done) todo -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  subst hq
  exact wait_step m ρ K c j done todo src dst ((cred256 dst).trans hj.symm)

end StageG

open StageG

theorem part34_spec (K : GSem nD τ sig → ℕ) (c : Dev nD) (xr_ : sProp 𝕄) (Kt : PUnit → sProp 𝕄) :
    iprop(St6 m ρ K c xr_ ∗ (∀ r, G5 m ρ K c xr_ -∗ Kt r)) ⊢ wp frame (wpE (defs₀ (F := F)) 𝒱₀ (c : Thread nD τ) none) Set.univ
        (k0_part34 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c) Kt := by
  rw [k0_part34_eq_skeleton]; unfold k0_part34_skel
  simp only [Prog.lift, Prog.bind_op, Prog.bind_ret, Prog.pure_eq_ret]
  iintro ⟨H, Hk⟩
  ihave H := (st6_start m ρ K c xr_) $$ H
  unfold StG
  icases H with ⟨Hc, Hf⟩
  iapply (wait_z m ρ K c (rsJ 0 0) (NJ_rs 0 0) _ (zsend_rs 0 0 _ _) _ _ _ _) $$ Hc; iintro Hc
  iapply (wait_z m ρ K c (rsJ 0 1) (NJ_rs 0 1) _ (zsend_rs 0 1 _ _) _ _ _ _) $$ Hc; iintro Hc
  iapply (wait_z m ρ K c (rsJ 0 2) (NJ_rs 0 2) _ (zsend_rs 0 2 _ _) _ _ _ _) $$ Hc; iintro Hc
  iapply (wait_z m ρ K c (agJ 0 0) (NJ_ag 0 0) _ (zsend_ag 0 0 _ _) _ _ _ _) $$ Hc; iintro Hc
  iapply (wait_z m ρ K c (agJ 0 1) (NJ_ag 0 1) _ (zsend_ag 0 1 _ _) _ _ _ _) $$ Hc; iintro Hc
  rw [wp_ret]; imodintro
  iapply Hk
  unfold G5 StG
  isplitl [Hc]; · iexact Hc
  iexact Hf

theorem part35_spec (K : GSem nD τ sig → ℕ) (c : Dev nD) (xr_ : sProp 𝕄) (Kt : PUnit → sProp 𝕄) :
    iprop(G5 m ρ K c xr_ ∗ (∀ r, G10 m ρ K c xr_ -∗ Kt r)) ⊢ wp frame (wpE (defs₀ (F := F)) 𝒱₀ (c : Thread nD τ) none) Set.univ
        (k0_part35 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c) Kt := by
  rw [k0_part35_eq_skeleton]; unfold k0_part35_skel
  simp only [Prog.lift, Prog.bind_op, Prog.bind_ret, Prog.pure_eq_ret]
  iintro ⟨H, Hk⟩
  unfold G5 StG
  icases H with ⟨Hc, Hf⟩
  iapply (wait_z m ρ K c (agJ 0 2) (NJ_ag 0 2) _ (zsend_ag 0 2 _ _) _ _ _ _) $$ Hc; iintro Hc
  iapply (wait_z m ρ K c (rsJ 1 0) (NJ_rs 1 0) _ (zsend_rs 1 0 _ _) _ _ _ _) $$ Hc; iintro Hc
  iapply (wait_z m ρ K c (rsJ 1 1) (NJ_rs 1 1) _ (zsend_rs 1 1 _ _) _ _ _ _) $$ Hc; iintro Hc
  iapply (wait_xy m ρ K c (paJ 0 0) (NJ_pa 0 0) _ (upsend_sem 0 0 _ _) _ _ _ _) $$ Hc; iintro Hc
  iapply (wait_xy m ρ K c (pbJ 0 0) (NJ_pb 0 0) _ (dnsend_sem 0 0 _ _) _ _ _ _) $$ Hc; iintro Hc
  rw [wp_ret]; imodintro
  iapply Hk
  unfold G10 StG
  isplitl [Hc]; · iexact Hc
  iexact Hf

theorem part36_spec (K : GSem nD τ sig → ℕ) (c : Dev nD) (xr_ : sProp 𝕄) (Kt : PUnit → sProp 𝕄) :
    iprop(G10 m ρ K c xr_ ∗ (∀ r, G16 m ρ K c xr_ -∗ Kt r)) ⊢ wp frame (wpE (defs₀ (F := F)) 𝒱₀ (c : Thread nD τ) none) Set.univ
        (k0_part36 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c) Kt := by
  rw [k0_part36_eq_skeleton]; unfold k0_part36_skel
  simp only [Prog.lift, Prog.bind_op, Prog.bind_ret, Prog.pure_eq_ret]
  iintro ⟨H, Hk⟩
  unfold G10 StG
  icases H with ⟨Hc, Hf⟩
  iapply (wait_z m ρ K c (rsJ 1 2) (NJ_rs 1 2) _ (zsend_rs 1 2 _ _) _ _ _ _) $$ Hc; iintro Hc
  iapply (wait_z m ρ K c (agJ 1 0) (NJ_ag 1 0) _ (zsend_ag 1 0 _ _) _ _ _ _) $$ Hc; iintro Hc
  iapply (wait_xy m ρ K c (paJ 0 1) (NJ_pa 0 1) _ (upsend_sem 0 1 _ _) _ _ _ _) $$ Hc; iintro Hc
  iapply (wait_xy m ρ K c (pbJ 0 1) (NJ_pb 0 1) _ (dnsend_sem 0 1 _ _) _ _ _ _) $$ Hc; iintro Hc
  iapply (wait_z m ρ K c (agJ 1 1) (NJ_ag 1 1) _ (zsend_ag 1 1 _ _) _ _ _ _) $$ Hc; iintro Hc
  iapply (wait_z m ρ K c (agJ 1 2) (NJ_ag 1 2) _ (zsend_ag 1 2 _ _) _ _ _ _) $$ Hc; iintro Hc
  rw [wp_ret]; imodintro
  iapply Hk
  unfold G16 StG
  isplitl [Hc]; · iexact Hc
  iexact Hf

theorem part37_spec (K : GSem nD τ sig → ℕ) (c : Dev nD) (xr_ : sProp 𝕄) (Kt : PUnit → sProp 𝕄) :
    iprop(G16 m ρ K c xr_ ∗ (∀ r, G22 m ρ K c xr_ -∗ Kt r)) ⊢ wp frame (wpE (defs₀ (F := F)) 𝒱₀ (c : Thread nD τ) none) Set.univ
        (k0_part37 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c) Kt := by
  rw [k0_part37_eq_skeleton]; unfold k0_part37_skel
  simp only [Prog.lift, Prog.bind_op, Prog.bind_ret, Prog.pure_eq_ret]
  iintro ⟨H, Hk⟩
  unfold G16 StG
  icases H with ⟨Hc, Hf⟩
  iapply (wait_xy m ρ K c (paJ 0 2) (NJ_pa 0 2) _ (upsend_sem 0 2 _ _) _ _ _ _) $$ Hc; iintro Hc
  iapply (wait_xy m ρ K c (pbJ 0 2) (NJ_pb 0 2) _ (dnsend_sem 0 2 _ _) _ _ _ _) $$ Hc; iintro Hc
  iapply (wait_xy m ρ K c (paJ 1 0) (NJ_pa 1 0) _ (upsend_sem 1 0 _ _) _ _ _ _) $$ Hc; iintro Hc
  iapply (wait_xy m ρ K c (pbJ 1 0) (NJ_pb 1 0) _ (dnsend_sem 1 0 _ _) _ _ _ _) $$ Hc; iintro Hc
  iapply (wait_xy m ρ K c (paJ 1 1) (NJ_pa 1 1) _ (upsend_sem 1 1 _ _) _ _ _ _) $$ Hc; iintro Hc
  iapply (wait_xy m ρ K c (pbJ 1 1) (NJ_pb 1 1) _ (dnsend_sem 1 1 _ _) _ _ _ _) $$ Hc; iintro Hc
  rw [wp_ret]; imodintro
  iapply Hk
  unfold G22 StG
  isplitl [Hc]; · iexact Hc
  iexact Hf

def bodyTail (arg1 : Memref sig .tc .vmem S4096x1024 .f32) (arg5 arg7 : DmaSems sig S6) (d0 : Dev nD) : Prog (TpuEff nD τ sig (Elt F) Λ₀ .tc) PUnit := do
  let v1209 : Memref sig .tc .vmem S256x1024 .f32 := arg1.slice (Rect.unit (s := S4096x1024) (k0_off4 d0 2#32 512#32) S256x1024.size (k0_off4_inb d0 2 1)) (fun _ => rfl)
  let v1210 : Memref sig .tc .vmem S256x1024 .f32 := arg1.slice (Rect.unit (s := S4096x1024) (k0_off4 d0 2#32 512#32) S256x1024.size (k0_off4_inb d0 2 1)) (fun _ => rfl)
  let v1207 : DmaSems sig S1 := arg5.slice (Rect.unit (s := S6) ![5] S1.size inb_S6_S1_5)
  let v1208 : DmaSems sig S_ := v1207.squeeze S_ squeezes_S1_S_
  Prog.lift (.waitDma2 v1208.sem v1210 v1209 (View.wordExact_bits rfl) (View.wordExact_bits rfl))
  let v1211 : DmaSems sig S1 := arg7.slice (Rect.unit (s := S6) ![5] S1.size inb_S6_S1_5)
  let v1212 : DmaSems sig S_ := v1211.squeeze S_ squeezes_S1_S_
  let v1213 : Memref sig .tc .vmem S256x1024 .f32 := arg1.slice (Rect.unit (s := S4096x1024) (k0_off5 d0 2#32 512#32) S256x1024.size (k0_off5_inb d0 2 1)) (fun _ => rfl)
  let v1214 : Memref sig .tc .vmem S256x1024 .f32 := arg1.slice (Rect.unit (s := S4096x1024) (k0_off5 d0 2#32 512#32) S256x1024.size (k0_off5_inb d0 2 1)) (fun _ => rfl)
  Prog.lift (.waitDma2 v1212.sem v1214 v1213 (View.wordExact_bits rfl) (View.wordExact_bits rfl))
  pure ⟨⟩

namespace StageG
abbrev allG : List (Fin 24) := [pbJ 1 2, paJ 1 2, pbJ 1 1, paJ 1 1, pbJ 1 0, paJ 1 0, pbJ 0 2, paJ 0 2, agJ 1 2, agJ 1 1, pbJ 0 1, paJ 0 1, agJ 1 0, rsJ 1 2, pbJ 0 0, paJ 0 0, rsJ 1 1, rsJ 1 0, agJ 0 2, agJ 0 1, agJ 0 0, rsJ 0 2, rsJ 0 1, rsJ 0 0]

theorem sendGot_split (c : Dev nD) :
    sendGot m ρ c allG = iprop((bigSep Finset.univ fun j : Fin 24 => atPos ER (sendCell c j) 1 ∅ 0) ∗ bigSep Finset.univ fun j : Fin 24 => sendPay m ρ c j) := by
  unfold sendGot
  rw [← bigSep_univ_eq_bigSepL allG (by decide) (by decide), bigSep_sep']

theorem pays_eq (c : Dev nD) :
    (bigSep Finset.univ fun j : Fin 24 => sendPay m ρ c j) = iprop(
      pts c (srcV xM c 0 0) Lq (X m ρ c)
      ∗ emp
      ∗ emp
      ∗ pts c (agV c 0 0) Lq (Fn m ρ)
      ∗ pts c (agV c 0 1) Lq (Fn m ρ)
      ∗ pts c (agV c 0 2) Lq (Fn m ρ)
      ∗ pts c (paV c 0 0) Rq (Fn m ρ)
      ∗ pts c (pbV c 0 0) Rq (Fn m ρ)
      ∗ pts c (srcV xM c 1 0) Lq (X m ρ c)
      ∗ emp
      ∗ pts c (paV c 0 1) fullShare (Fn m ρ)
      ∗ pts c (pbV c 0 1) fullShare (Fn m ρ)
      ∗ emp
      ∗ pts c (agV c 1 0) Lq (Fn m ρ)
      ∗ pts c (paV c 0 2) fullShare (Fn m ρ)
      ∗ pts c (pbV c 0 2) fullShare (Fn m ρ)
      ∗ pts c (agV c 1 1) Lq (Fn m ρ)
      ∗ pts c (agV c 1 2) Lq (Fn m ρ)
      ∗ pts c (paV c 1 0) Rq (Fn m ρ)
      ∗ pts c (pbV c 1 0) Rq (Fn m ρ)
      ∗ pts c (paV c 1 1) fullShare (Fn m ρ)
      ∗ pts c (pbV c 1 1) fullShare (Fn m ρ)
      ∗ pts c (paV c 1 2) fullShare (Fn m ρ)
      ∗ pts c (pbV c 1 2) fullShare (Fn m ρ)) := by
  rw [bigSep_univ_eq_bigSepL [0, 1, 2, 3, 4, 5, 6, 7, 8, 9, 10, 11, 12, 13, 14, 15, 16, 17, 18, 19, 20, 21, 22, 23] (by decide) (by decide)]
  rfl

theorem pos_all (c : Dev nD) : (bigSep Finset.univ fun jb : Fin 24 × Bool => (atPos ER (dcell c jb) 1 ∅ 0 : sProp 𝕄))
    = iprop((bigSep Finset.univ fun j : Fin 24 => atPos ER (sendCell c j) 1 ∅ 0) ∗ recvDone c 24) := by
  unfold recvDone
  rw [show (Finset.univ.filter fun j : Fin 24 => j.val < 24) = Finset.univ from Finset.filter_true_of_mem (fun j _ => j.isLt),
    ← bigSep_sep', bigSep_univ_prod]
  refine bigSep_congr fun j _ => ?_
  exact bigSep_univ_eq_bigSepL [false, true] (by decide) (by decide) _

theorem inv_all (K : GSem nD τ sig → ℕ) (c : Dev nD) :
    records m ρ K ⊢ bigSep Finset.univ fun jb : Fin 24 × Bool => cellInv ER (Rd m ρ) (K (dcell c jb)) (dcell c jb) := by
  refine (show records m ρ K ⊢ (bigSep Finset.univ fun cj : Dev nD × (Fin 24 × Bool) => cellInv ER (Rd m ρ) (K (dcell cj.1 cj.2)) (dcell cj.1 cj.2)) from by
    unfold records; iintro ⟨-, H, -, -⟩; iexact H).trans ?_
  rw [bigSep_univ_prod]
  exact bigSep_elim (Φ := fun c' : Dev nD => bigSep Finset.univ fun jb : Fin 24 × Bool => cellInv ER (Rd m ρ) (K (dcell c' jb)) (dcell c' jb)) (Finset.mem_univ c)

theorem close_all (K : GSem nD τ sig → ℕ) (c : Dev nD) :
    iprop(records m ρ K ∗ (bigSep Finset.univ fun j : Fin 24 => atPos ER (sendCell c j) 1 ∅ 0) ∗ recvDone c 24)
      ⊢ iprop(|={Set.univ}=> bigSep Finset.univ fun jb : Fin 24 × Bool => semVal (dcell c jb) 0) := by
  rw [← pos_all]
  refine (sep_mono_l (inv_all m ρ K c)).trans ?_
  rw [← bigSep_sep]
  refine (bigSep_mono fun jb _ => ?_).trans (bigSep_fupd _ _)
  exact Rounds.cell_close ER (Rd m ρ) (Set.mem_univ (K (dcell c jb))) (fun h => h) (R := 1) (duties_later m ρ (dcell c jb))

end StageG

open StageG

namespace StageG

theorem pts_pa1 (c : Dev nD) (p : Fin 2) (q : PosShare TreeShare) (f : Buf (Elt F) (oM.view.loc (c : Thread nD τ))) :
    (pts c (paV c p 1) q f : sProp 𝕄) = pts c (paV (xl c) p 0) q f := by
  rw [pts_paV c c p 1 p.val 1 (row (rpos c + 3) p.val 0) rfl rfl (by unfold row; omega) q f,
    pts_paV c (xl c) p 0 p.val 0 (row (rpos c + 3) p.val 0) rfl rfl (by rw [rpos_xl]; unfold row; omega) q f]
theorem pts_pa2 (c : Dev nD) (p : Fin 2) (q : PosShare TreeShare) (f : Buf (Elt F) (oM.view.loc (c : Thread nD τ))) :
    (pts c (paV c p 2) q f : sProp 𝕄) = pts c (paV (xl c) p 1) q f := by
  rw [pts_paV c c p 2 p.val 2 (row (rpos c + 2) p.val 0) rfl rfl (by unfold row; omega) q f,
    pts_paV c (xl c) p 1 p.val 1 (row (rpos c + 2) p.val 0) rfl rfl (by rw [rpos_xl]; unfold row; omega) q f]
theorem pts_pb1 (c : Dev nD) (p : Fin 2) (q : PosShare TreeShare) (f : Buf (Elt F) (oM.view.loc (c : Thread nD τ))) :
    (pts c (pbV c p 1) q f : sProp 𝕄) = pts c (pbV (xr c) p 0) q f := by
  rw [pts_pbV c c p 1 p.val 1 (row (rpos c + 1) p.val 2) rfl rfl (by unfold row; omega) q f,
    pts_pbV c (xr c) p 0 p.val 0 (row (rpos c + 1) p.val 2) rfl rfl (by rw [rpos_xr]; unfold row; omega) q f]
theorem pts_pb2 (c : Dev nD) (p : Fin 2) (q : PosShare TreeShare) (f : Buf (Elt F) (oM.view.loc (c : Thread nD τ))) :
    (pts c (pbV c p 2) q f : sProp 𝕄) = pts c (pbV (xr c) p 1) q f := by
  rw [pts_pbV c c p 2 p.val 2 (row (rpos c + 2) p.val 2) rfl rfl (by unfold row; omega) q f,
    pts_pbV c (xr c) p 1 p.val 1 (row (rpos c + 2) p.val 2) rfl rfl (by rw [rpos_xr]; unfold row; omega) q f]

theorem out_join (c : Dev nD) (f : Buf (Elt F) (oM.view.loc (c : Thread nD τ))) :
    iprop((pts c (agV c 0 0) Lq f ∗ pts c (agV c 0 1) Lq f ∗ pts c (agV c 0 2) Lq f ∗ pts c (agV (zr c) 0 2) Lq f ∗ pts c (agV c 1 0) Lq f ∗ pts c (agV c 1 1) Lq f ∗ pts c (agV c 1 2) Lq f ∗ pts c (agV (zr c) 1 2) Lq f)
      ∗ (pts c (paV c 0 0) Rq f ∗ pts c (pbV c 0 0) Rq f ∗ pts c (paV c 1 0) Rq f ∗ pts c (pbV c 1 0) Rq f)
      ∗ (pts c (paV c 0 1) fullShare f ∗ pts c (paV c 0 2) fullShare f ∗ pts c (paV (xl c) 0 2) fullShare f ∗ pts c (paV c 1 1) fullShare f ∗ pts c (paV c 1 2) fullShare f ∗ pts c (paV (xl c) 1 2) fullShare f)
      ∗ (pts c (pbV c 0 1) fullShare f ∗ pts c (pbV c 0 2) fullShare f ∗ pts c (pbV (xr c) 0 2) fullShare f ∗ pts c (pbV c 1 1) fullShare f ∗ pts c (pbV c 1 2) fullShare f ∗ pts c (pbV (xr c) 1 2) fullShare f))
      ⊢ (((c : Thread nD τ).loc cc0_stg1_0) ↦{fullShare} f : sProp 𝕄) := by
  refine .trans ?_ (out_parts c fullShare f).2
  rw [← pts_pa1 c 0 fullShare f, ← pts_pa2 c 0 fullShare f, ← pts_pa1 c 1 fullShare f, ← pts_pa2 c 1 fullShare f,
    ← pts_pb1 c 0 fullShare f, ← pts_pb2 c 0 fullShare f, ← pts_pb1 c 1 fullShare f, ← pts_pb2 c 1 fullShare f]
  iintro ⟨⟨l00, l01, l02, lz0, l10, l11, l12, lz1⟩, ⟨pa0, pb0, pa1, pb1⟩, HA, HB⟩
  ihave R0 := (subq_join c 0 Rq f).2 $$ [pa0 pb0]
  · isplitl [pa0]; · iexact pa0
    iexact pb0
  ihave R1 := (subq_join c 1 Rq f).2 $$ [pa1 pb1]
  · isplitl [pa1]; · iexact pa1
    iexact pb1
  icases R0 with ⟨r00, r01, r02, rz0⟩
  icases R1 with ⟨r10, r11, r12, rz1⟩
  isplitr [HA HB]
  · isplitl [l00 r00]
    · iapply (share_LR c (agV c 0 0) f).2; isplitl [l00]; · iexact l00
      iexact r00
    isplitl [l01 r01]
    · iapply (share_LR c (agV c 0 1) f).2; isplitl [l01]; · iexact l01
      iexact r01
    isplitl [l02 r02]
    · iapply (share_LR c (agV c 0 2) f).2; isplitl [l02]; · iexact l02
      iexact r02
    isplitl [lz0 rz0]
    · iapply (share_LR c (agV (zr c) 0 2) f).2; isplitl [lz0]; · iexact lz0
      iexact rz0
    isplitl [l10 r10]
    · iapply (share_LR c (agV c 1 0) f).2; isplitl [l10]; · iexact l10
      iexact r10
    isplitl [l11 r11]
    · iapply (share_LR c (agV c 1 1) f).2; isplitl [l11]; · iexact l11
      iexact r11
    isplitl [l12 r12]
    · iapply (share_LR c (agV c 1 2) f).2; isplitl [l12]; · iexact l12
      iexact r12
    iapply (share_LR c (agV (zr c) 1 2) f).2; isplitl [lz1]; · iexact lz1
    iexact rz1
  isplitl [HA]; · iexact HA
  iexact HB

theorem slots_join (c : Dev nD) :
    slotsHeld m ρ c [(0,0),(0,1),(0,2),(1,0),(1,1),(1,2)] ⊢ iprop(∃ f : Buf (Elt F) (cM.view.loc (c : Thread nD τ)), pts c cM fullShare f) := by
  unfold slotsHeld
  show iprop(owns (c : Thread nD τ) (slotV 0) fullShare (landed m ρ c 0 0) ∗ owns (c : Thread nD τ) (slotV 1) fullShare (landed m ρ c 0 1)
    ∗ owns (c : Thread nD τ) (slotV 2) fullShare (landed m ρ c 0 2) ∗ owns (c : Thread nD τ) (slotV 3) fullShare (landed m ρ c 1 0)
    ∗ owns (c : Thread nD τ) (slotV 4) fullShare (landed m ρ c 1 1) ∗ owns (c : Thread nD τ) (slotV 5) fullShare (landed m ρ c 1 2)) ⊢ _
  unfold owns
  iintro ⟨⟨%f0, %h0, S0⟩, ⟨%f1, %h1, S1⟩, ⟨%f2, %h2, S2⟩, ⟨%f3, %h3, S3⟩, ⟨%f4, %h4, S4⟩, ⟨%f5, %h5, S5⟩⟩
  iapply (comm_join c f0 f1 f2 f3 f4 f5)
  iframe

theorem finish (K : GSem nD τ sig → ℕ) (c : Dev nD) (xr_ : sProp 𝕄)
    (hxj : iprop(pts c (srcV xM c 0 0) Lq (X m ρ c) ∗ pts c (srcV xM c 1 0) Lq (X m ρ c) ∗ xr_) ⊢ (((c : Thread nD τ).loc cc0_stg0_0) ↦{fullShare} X m ρ c)) :
    iprop(waitCore m ρ K c allG [] ∗ held6 m ρ c xr_) ⊢ iprop(|={Set.univ}=> St7 m ρ c) := by
  unfold waitCore held6 St7 sendLeft
  rw [sendGot_split, pays_eq, bigSepL_nil]
  iintro ⟨⟨#HR, HO, -, Hps, Hpay⟩, -, Hrd, Hx, Z0, Z1, A02, B02, A12, B12, Hsl⟩
  icases Hpay with ⟨x0, -, -, a00, a01, a02, pa00, pb00, x1, -, pa01, pb01, -, a10, pa02, pb02, a11, a12, pa10, pb10, pa11, pb11, pa12, pb12⟩
  imod (close_all m ρ K c) $$ [Hps Hrd] with Hz
  · isplitr; · iexact HR
    isplitl [Hps]; · iexact Hps
    iexact Hrd
  imodintro
  isplitl [Hsl]; · iapply (slots_join m ρ c); iexact Hsl
  isplitl [Hz]; · iexact Hz
  isplitl [HO]; · iexact HO
  isplitl [x0 x1 Hx]
  · iapply hxj
    isplitl [x0]; · iexact x0
    isplitl [x1]; · iexact x1
    iexact Hx
  iapply (out_join c (Fn m ρ))
  iframe

end StageG

open StageG
theorem tail_spec (K : GSem nD τ sig → ℕ) (c : Dev nD) (xr_ : sProp 𝕄) (Kt : PUnit → sProp 𝕄)
    (hxj : iprop(pts c (srcV xM c 0 0) Lq (X m ρ c) ∗ pts c (srcV xM c 1 0) Lq (X m ρ c) ∗ xr_) ⊢ (((c : Thread nD τ).loc cc0_stg0_0) ↦{fullShare} X m ρ c)) :
    iprop(G22 m ρ K c xr_ ∗ (∀ r, St7 m ρ c -∗ Kt r)) ⊢ wp frame (wpE (defs₀ (F := F)) 𝒱₀ (c : Thread nD τ) none) Set.univ
        (bodyTail (F := F) (Memref.whole cc0_stg1_0) cc0_scratch3 cc0_scratch5 c) Kt := by
  unfold bodyTail
  simp only [Prog.lift, Prog.bind_op, Prog.bind_ret, Prog.pure_eq_ret]
  iintro ⟨H, Hk⟩
  unfold G22 StG
  icases H with ⟨Hc, Hf⟩
  iapply (wait_xy m ρ K c (paJ 1 2) (NJ_pa 1 2) _ (upsend_sem 1 2 _ _) _ _ _ _) $$ Hc; iintro Hc
  iapply (wait_xy m ρ K c (pbJ 1 2) (NJ_pb 1 2) _ (dnsend_sem 1 2 _ _) _ _ _ _) $$ Hc; iintro Hc
  rw [wp_ret]
  imod (finish m ρ K c xr_ hxj) $$ [Hc Hf] with H7
  · isplitl [Hc]; · iexact Hc
    iexact Hf
  imodintro
  iapply Hk
  iexact H7

end Cert.KernelIdeal.AR

end
-- ==== Proof.Compose.lean ====
import proofs.«900720_g7700000000000721_dist_ar_v7x_xyz2x2x4_z_m4096_n1024_f32_1_alg».proof.Proof.Body
import proofs.«900720_g7700000000000721_dist_ar_v7x_xyz2x2x4_z_m4096_n1024_f32_1_alg».proof.Proof.StageA1
import proofs.«900720_g7700000000000721_dist_ar_v7x_xyz2x2x4_z_m4096_n1024_f32_1_alg».proof.Proof.StageA2
import proofs.«900720_g7700000000000721_dist_ar_v7x_xyz2x2x4_z_m4096_n1024_f32_1_alg».proof.Proof.StageB
import proofs.«900720_g7700000000000721_dist_ar_v7x_xyz2x2x4_z_m4096_n1024_f32_1_alg».proof.Proof.StageB17
import proofs.«900720_g7700000000000721_dist_ar_v7x_xyz2x2x4_z_m4096_n1024_f32_1_alg».proof.Proof.StageC
import proofs.«900720_g7700000000000721_dist_ar_v7x_xyz2x2x4_z_m4096_n1024_f32_1_alg».proof.Proof.StageD
import proofs.«900720_g7700000000000721_dist_ar_v7x_xyz2x2x4_z_m4096_n1024_f32_1_alg».proof.Proof.StageE
import proofs.«900720_g7700000000000721_dist_ar_v7x_xyz2x2x4_z_m4096_n1024_f32_1_alg».proof.Proof.StageG

/-! The body is its 37 parts in sequence and two last waits; each part's lemma starts from the state the part before it left. -/

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem x_join (c : Dev nD) :
    iprop(pts c (srcV xM c 0 0) Lq (X m ρ c) ∗ pts c (srcV xM c 1 0) Lq (X m ρ c) ∗ xRest c (X m ρ c)) ⊢ (((c : Thread nD τ).loc cc0_stg0_0) ↦{fullShare} X m ρ c : sProp 𝕄) :=
  (x_parts c (X m ρ c)).2

/-- A step from `P` to `Q` whatever it returns, then a rest from `Q` to `R`, is a run from `P` to `R`. -/
theorem seq {α : Type} {c : Dev nD} {P Q R : sProp 𝕄} {e : Prog (TpuEff nD τ sig (Elt F) Λ₀ .tc) α} {f : α → Prog (TpuEff nD τ sig (Elt F) Λ₀ .tc) PUnit} {Kt : PUnit → sProp 𝕄}
    (he : ∀ Kt' : α → sProp 𝕄, iprop(P ∗ (∀ r, Q -∗ Kt' r)) ⊢ wp frame (wpE (defs₀ (F := F)) 𝒱₀ (c : Thread nD τ) none) Set.univ e Kt')
    (hf : ∀ r, iprop(Q ∗ (R -∗ Kt ⟨⟩)) ⊢ wp frame (wpE (defs₀ (F := F)) 𝒱₀ (c : Thread nD τ) none) Set.univ (f r) Kt) :
    iprop(P ∗ (R -∗ Kt ⟨⟩)) ⊢ wp frame (wpE (defs₀ (F := F)) 𝒱₀ (c : Thread nD τ) none) Set.univ (e >>= f) Kt := by
  iintro ⟨Hst, Hk⟩
  rw [wp_bind]
  iapply (he _)
  isplitl [Hst]; · iexact Hst
  iintro %r Hst
  iapply (hf r)
  isplitl [Hst] <;> iassumption

/-- A step that touches no state and only tells a fact `φ` of what it returns. -/
theorem seq_pure {α : Type} {c : Dev nD} {P : sProp 𝕄} {φ : α → Prop} {e : Prog (TpuEff nD τ sig (Elt F) Λ₀ .tc) α} {f : α → Prog (TpuEff nD τ sig (Elt F) Λ₀ .tc) PUnit} {Kt : PUnit → sProp 𝕄}
    (he : ∀ Kt' : α → sProp 𝕄, iprop(∀ r, ⌜φ r⌝ -∗ Kt' r) ⊢ wp frame (wpE (defs₀ (F := F)) 𝒱₀ (c : Thread nD τ) none) Set.univ e Kt')
    (hf : ∀ r, φ r → P ⊢ wp frame (wpE (defs₀ (F := F)) 𝒱₀ (c : Thread nD τ) none) Set.univ (f r) Kt) :
    P ⊢ wp frame (wpE (defs₀ (F := F)) 𝒱₀ (c : Thread nD τ) none) Set.univ (e >>= f) Kt := by
  iintro H
  rw [wp_bind]
  iapply (he _)
  iintro %r %hr
  iapply (hf r hr)
  iexact H

/-- What the launch hands a device is the handshake's starting state, at some counts `K`. -/
theorem enter {c : Dev nD} {p : Prog (TpuEff nD τ sig (Elt F) Λ₀ .tc) PUnit} {Kt : PUnit → sProp 𝕄}
    (h : ∀ K, iprop(Pre0 m ρ K c (xRest c (X m ρ c)) ∗ (St7 m ρ c -∗ Kt ⟨⟩)) ⊢ wp frame (wpE (defs₀ (F := F)) 𝒱₀ (c : Thread nD τ) none) Set.univ p Kt) :
    iprop(bodyPre' m ρ c ∗ (St7 m ρ c -∗ Kt ⟨⟩)) ⊢ wp frame (wpE (defs₀ (F := F)) 𝒱₀ (c : Thread nD τ) none) Set.univ p Kt := by
  iintro ⟨Hpre, Hk⟩
  ihave Hp := (entry m ρ c) $$ Hpre
  icases Hp with ⟨%K, Hst⟩
  iapply (h K)
  isplitl [Hst] <;> iassumption

set_option maxRecDepth 65536 in
set_option maxHeartbeats 4000000 in
theorem sound_body (c : Dev nD) (Kt : PUnit → sProp 𝕄) :
    iprop(bodyPre' m ρ c ∗ (St7 m ρ c -∗ Kt ⟨⟩))
      ⊢ wp frame (wpE (defs₀ (F := F)) 𝒱₀ (c : Thread nD τ) none) Set.univ
          (cc0_body (F := F) (Memref.whole cc0_stg0_0) (Memref.isWhole_whole _) (Memref.whole cc0_stg1_0) (Memref.isWhole_whole _) (Memref.whole cc0_scratch0) (Memref.isWhole_whole _) cc0_scratch1 cc0_scratch2 cc0_scratch3 cc0_scratch4 cc0_scratch5 cc0_scratch6) Kt := by
  rw [cc0_body_eq_skeleton]; unfold cc0_body_skel
  refine enter m ρ fun K => ?_
  refine seq_pure (part1_spec c) ?_; rintro ⟨d0, v2, v5, v8, v19, v30, v33, v34, c4_i32_17⟩ hr
  obtain rfl : c = d0 := hr.symm
  refine seq_pure (part2_spec c v33 v34 c4_i32_17) ?_; rintro ⟨v46, v50, v63, v67, v68⟩ hr
  subst hr
  refine seq (part3_spec m ρ K c _ v2 v5 v8 v19 v30 v33 v46 v50 v63 v67) ?_; rintro ⟨v94, v95, c4_i32_67, v96⟩
  refine seq (part4_spec m ρ K c _ v2 v5 v8 v19 v94 v95 c4_i32_67 v96) ?_; rintro v117
  refine seq (part5_spec m ρ K c _ (xRest2 m ρ c) (xRest_eq m ρ c) v2 v5 v8 v19 v33 v94 v117) ?_; rintro ⟨v155, v159, v164, v165⟩
  refine seq (part6_spec m ρ K c _ v2 v5 v8 v19 v155 v159 v164 v165) ?_; rintro ⟨v178, v197, v198⟩
  refine seq (part7_spec m ρ K c _ (xRest2 m ρ c) (xRest_eq m ρ c) v8 v33 v155 v178 v197 v198) ?_; rintro ⟨v216, v227, v231, v232, c0_i32_163⟩
  refine seq (part8_spec m ρ K c _ v2 v5 v19 v216 v227 v231 v232 c0_i32_163) ?_; rintro v266
  refine seq (part9_spec m ρ K c _ (xRest2 m ρ c) (xRest_eq m ρ c) v2 v5 v8 v30 v33 v216 v266) ?_; rintro _
  refine seq (part10_spec m ρ K c _ v2 v5 v8 v30 v33) ?_; rintro ⟨v333, v334⟩
  refine seq (part11_spec m ρ K c _ v2 v5 v8 v30 v33 v333 v334) ?_; rintro v368
  refine seq (part12_spec m ρ K c _ v2 v5 v30 v33 v368) ?_; rintro v403
  refine seq (part13_spec m ρ K c _ v8 v46 v50 v63 v67 v403) ?_; rintro _
  refine seq (part14_spec m ρ K c _ v2 v5 v8 v33) ?_; rintro ⟨v442, v465, v471, c1_i32_328⟩
  refine seq (part15_spec m ρ K c _ (xRest2 m ρ c) (xRest_eq m ρ c) v2 v5 v8 v19 v33 v442 v465 v471 c1_i32_328) ?_; rintro ⟨v503, v504, c4_i32_350, c0_i32_351⟩
  refine seq (part16_spec m ρ K c _ v2 v5 v8 v19 v503 v504 c4_i32_350 c0_i32_351) ?_; rintro v526
  refine seq (part17_spec m ρ K c _ (xRest2 m ρ c) (xRest_eq m ρ c) v2 v5 v8 v19 v46 v50 v503 v526) ?_; rintro _
  refine seq (part18_spec m ρ K c _ v8 v33 v63 v67) ?_; rintro v607
  refine seq (part19_spec m ρ K c _ v8 v33 v46 v50 v63 v67 v607) ?_; rintro ⟨v635, v638, v639, v640⟩
  refine seq (part20_spec m ρ K c _ v2 v5 v8 v19 v635 v638 v639 v640) ?_; rintro ⟨v658, v674⟩
  refine seq (part21_spec m ρ K c _ (xRest2 m ρ c) (xRest_eq m ρ c) v5 v8 v19 v33 v635 v658 v674) ?_; rintro ⟨v696, v709⟩
  refine seq (part22_spec m ρ K c _ v2 v5 v8 v30 v46 v50 v696 v709) ?_; rintro _
  refine seq (part23_spec m ρ K c _ v8 v33 v63 v67) ?_; rintro ⟨v776, c1024_i32_541⟩
  refine seq (part24_spec m ρ K c _ v8 v33 v46 v50 v63 v67 v776 c1024_i32_541) ?_; rintro ⟨v805, v807, v809⟩
  refine seq (part25_spec m ρ K c _ v2 v5 v8 v30 v33 v805 v807 v809) ?_; rintro ⟨v843, v844⟩
  refine seq (part26_spec m ρ K c _ v2 v5 v30 v843 v844) ?_; rintro _
  refine seq (part27_spec m ρ K c _ v8 v33 v46 v50 v63 v67) ?_; rintro ⟨v911, c512_i32_636⟩
  refine seq (part28_spec m ρ K c _ v8 v33 v46 v50 v63 v67 v911 c512_i32_636) ?_; rintro _
  refine seq (part29_spec m ρ K c _ v8 v33 v46 v50 v63 v67) ?_; rintro ⟨v973, v974, v975, v978⟩
  refine seq (part30_spec m ρ K c _ v8 v33 v46 v50 v63 v67 v973 v974 v975 v978) ?_; rintro ⟨v1011, v1012⟩
  refine seq (part31_spec m ρ K c _ v8 v33 v46 v50 v63 v67 v1011 v1012) ?_; rintro ⟨v1044, v1045, c0_i32_734⟩
  refine seq (part32_spec m ρ K c _ v8 v33 v46 v50 v1044 v1045 c0_i32_734) ?_; rintro _
  refine seq (part33_spec m ρ K c _ v8 v46 v50 v63 v67) ?_; rintro _
  refine seq (part34_spec m ρ K c _) ?_; rintro _
  refine seq (part35_spec m ρ K c _) ?_; rintro _
  refine seq (part36_spec m ρ K c _) ?_; rintro _
  refine seq (part37_spec m ρ K c _) ?_; rintro _
  iintro ⟨Hst, Hk⟩
  iapply (tail_spec m ρ K c _ Kt (x_join m ρ c))
  isplitl [Hst]; · iexact Hst
  iintro %_r Hst
  iapply Hk
  iexact Hst

/-- info: 'Cert.KernelIdeal.AR.sound_body' depends on axioms: [propext, Classical.choice, Quot.sound] -/
#guard_msgs in #print axioms sound_body

end Cert.KernelIdeal.AR

end
-- ==== Proof.Obligation.lean ====
import proofs.«900720_g7700000000000721_dist_ar_v7x_xyz2x2x4_z_m4096_n1024_f32_1_alg».proof.Proof.Compose

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem st7_post (c : Dev nD) : St7 m ρ c ⊢ bodyPost m ρ c := by
  unfold St7 bodyPost Φ₁ Dat.owesAt Pipeline.owesWithin
  rw [show (dats m ρ 0 c).owed t₀.succ = 0 from rfl]
  iintro ⟨Hscr, Hsem, ⟨%W, HO⟩, Hx, Hout⟩
  isplitl [Hscr Hsem]
  · isplitl [Hscr] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 65536 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (F := F) (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4 cc0_scratch5 cc0_scratch6) (fun _ => bodyPost m ρ c)
  iintro H
  iapply (sound_body m ρ c fun _ => bodyPost m ρ c)
  isplitl [H]; · iexact H
  iintro H
  iapply (st7_post m ρ c)
  iexact H

/-- info: 'Cert.KernelIdeal.AR.body_obligation' depends on axioms: [propext, Classical.choice, Quot.sound] -/
#guard_msgs in #print axioms body_obligation

end Cert.KernelIdeal.AR

end
-- ==== Proof.Final.lean ====
import proofs.«900720_g7700000000000721_dist_ar_v7x_xyz2x2x4_z_m4096_n1024_f32_1_alg».proof.Proof.Core
import proofs.«900720_g7700000000000721_dist_ar_v7x_xyz2x2x4_z_m4096_n1024_f32_1_alg».proof.Proof.Gen.KernelIdeal.Frame
import Idealize.ShloMosaic.Lib.Pipeline.Cells

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem X_eq (c : Dev nD) : X m ρ c = m ((c : Thread nD τ).loc main_arg0) := by
  unfold X
  exact Memref.read_access_unit_zero (Elt F) main_arg0 (funext fun a => Nat.zero_mul _) _ _

theorem final_x (c : Dev nD) : (dats m ρ 0 c).arrAt (0 : Fin 2) cfg0.N = m ((c : Thread nD τ).loc main_arg0) :=
  (dats (F := F) m ρ 0 c).arrAt_in (0 : Fin 2) rfl _

theorem read_out_blk (c : Dev nD) (f : Buf (Elt F) ((c : Thread nD τ).loc main_v1)) :
    ((cfg0.win (1 : Fin 2)).blk t0_0).view.read (Elt F) f = f :=
  Memref.read_access_unit_zero (Elt F) main_v1 (funext fun a => Nat.zero_mul _) _ f

theorem final_out (c : Dev nD) : (dats m ρ 0 c).arrAt (1 : Fin 2) cfg0.N = Fin_ (X m ρ) := by
  have h := (dats (F := F) m ρ 0 c).arrAt_succ (1 : Fin 2) t0_0
  rw [if_pos (flush0_1 t0_0)] at h
  refine Eq.trans (show (dats m ρ 0 c).arrAt (1 : Fin 2) cfg0.N = (dats m ρ 0 c).arrAt (1 : Fin 2) ((t0_0 : Fin cfg0.N).val + 1) from rfl) ?_
  rw [h]
  refine (read_out_blk c _).symm.trans ?_
  exact View.read_write_univ _ _

theorem post_of_run (r : PUnit × MemSt nD τ sig (Elt F))
    (h : ∀ c : Dev nD, ∀ w : Fin cfg0.W, r.2.mem ((cfg0.win w).arr.view.loc (c : Thread nD τ)) = (dats m ρ 0 c).arrAt w cfg0.N)
    (c : Dev nD) :
    r.2.mem ((c.tc : Thread nD τ).loc main_v1) = Fin_ (fun c : Dev nD => m ((c : Thread nD τ).loc main_arg0))
    ∧ r.2.mem ((c.tc : Thread nD τ).loc main_arg0) = m ((c.tc : Thread nD τ).loc main_arg0) := by
  have hX : X m ρ = fun c : Dev nD => m ((c : Thread nD τ).loc main_arg0) := funext (X_eq m ρ)
  refine ⟨?_, ?_⟩
  · refine (h c (1 : Fin 2)).trans ?_
    rw [final_out, hX]
  · exact (h c (0 : Fin 2)).trans (final_x m ρ c)

/-- info: 'Cert.KernelIdeal.AR.post_of_run' depends on axioms: [propext, Classical.choice, Quot.sound] -/
#guard_msgs in #print axioms post_of_run

end Cert.KernelIdeal.AR

end
-- ==== Proof.RefValue.lean ====
import proofs.«900720_g7700000000000721_dist_ar_v7x_xyz2x2x4_z_m4096_n1024_f32_1_alg».proof.Proof.Vals
import proofs.«900720_g7700000000000721_dist_ar_v7x_xyz2x2x4_z_m4096_n1024_f32_1_alg».proof.Proof.Gen.ReferenceIdeal.Run
import proofs.«900720_g7700000000000721_dist_ar_v7x_xyz2x2x4_z_m4096_n1024_f32_1_alg».proof.Proof.Gen.ReferenceIdeal.Read
import proofs.«900720_g7700000000000721_dist_ar_v7x_xyz2x2x4_z_m4096_n1024_f32_1_alg».proof.Proof.Gen.Pre_finite_inputs_ReferenceIdeal
import proofs.«900720_g7700000000000721_dist_ar_v7x_xyz2x2x4_z_m4096_n1024_f32_1_alg».proof.Defs
import Idealize.ShloMosaic.Lib.Layout
import Idealize.ShloMosaic.Lib.ValueIdx
import Idealize.ShloMosaic.PureOps.Ideal.Laws
import Mathlib.Algebra.BigOperators.Fin

noncomputable section

namespace Cert.KernelIdeal.AR

open Idealize.ShloMosaic Idealize.SL.Sem
open scoped BigOperators

abbrev RefArg : Type := Buf (Elt Ideal) (((0 : Dev Cert.ReferenceIdeal.nD).tc : Thread Cert.ReferenceIdeal.nD Cert.ReferenceIdeal.τ).loc Cert.ReferenceIdeal.main_arg0)
abbrev RefRes : Type := Buf (Elt Ideal) (((0 : Dev Cert.ReferenceIdeal.nD).tc : Thread Cert.ReferenceIdeal.nD Cert.ReferenceIdeal.τ).loc Cert.ReferenceIdeal.main_v1)

def wIx (z : Fin 4) (i : S4096x1024.Idx) : Cert.ReferenceIdeal.S16384x1024.Idx :=
  ValueIdx.ix2 (⟨z.val * 4096 + (i 0).val, by
      have h0 : (i 0).val < 4096 := (i 0).isLt
      have := z.isLt; omega⟩ : Fin 16384) (⟨(i 1).val, (i 1).isLt⟩ : Fin 1024)

def refVal (W : RefArg) : RefRes :=
  show Blk Ideal from fun i => ∑ z : Fin 4, (W (wIx z i) : Elt Ideal .f32)

theorem idx_comp (i : Cert.ReferenceIdeal.S4096x1024.Idx) (k : Fin 4) :
    Cert.ReferenceIdeal.Read.idx_main_v0 (Cert.ReferenceIdeal.Read.idx_main_v1 i k) = wIx k i := by
  funext a
  apply Fin.ext
  match a with
  | ⟨0, _⟩ =>
    show ((k.val * 4096 + (i 0).val) * 1024 + (i 1).val) / 1024 = k.val * 4096 + (i 0).val
    have h1 : (i 1).val < 1024 := (i 1).isLt
    omega
  | ⟨1, _⟩ =>
    show ((k.val * 4096 + (i 0).val) * 1024 + (i 1).val) % 1024 = (i 1).val
    have h1 : (i 1).val < 1024 := (i 1).isLt
    omega

theorem ref_val_eq (W : RefArg) : Cert.ReferenceIdeal.Read.val_main_v1 (F := Ideal) W = refVal W := by
  funext i
  rw [Cert.ReferenceIdeal.Read.val_main_v1_apply, Cert.ReferenceIdeal.Read.val_main_cst_apply]
  simp only [Cert.ReferenceIdeal.Read.val_main_v0_apply, idx_comp]
  show Ideal.ofBits .f32 0x00000000#32 + _ = _
  rw [Ideal.ofBits_zero_f32, zero_add]
  rfl

theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1) = refVal (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run (Cert.ReferenceIdeal.defs (F := Ideal)) _ _).mono
    (fun _ h => ⟨(h 0).1.trans ((Cert.ReferenceIdeal.Read.val_main_v1_eq _).trans (ref_val_eq _)), (h 0).2⟩)
    (Cert.ReferenceIdeal.Value.run (F := Ideal) m' g')

theorem ref_frame : Cert.frame_ReferenceIdeal :=
  fun m ρ _ => (θ_run (Cert.ReferenceIdeal.defs (F := Ideal)) _ _).mono (fun _ h c => (h c).2)
    (Cert.ReferenceIdeal.Value.run (F := Ideal) m ρ)

def zf (c : Dev nD) : Fin 4 := ⟨zpos c, Nat.mod_lt _ (by decide)⟩

theorem zf_zl (c : Dev nD) : zf (zl c) = zf c - 1 := by revert c; decide

theorem addE_eq (a b : Elt Ideal .f32) : addE a b = @HAdd.hAdd EReal EReal EReal instHAdd a b := rfl

theorem block_at (W : RefArg) (c : Dev nD) (i : S4096x1024.Idx) :
    (Layout.blockN ⟨2, ![4096, 1024]⟩ ⟨2, ![16384, 1024]⟩ (Layout.meshBlock [2, 2, 4] ![[2], []] c) W) i = W (wIx (zf c) i) := by
  rw [Layout.blockN_apply]
  congr 1
  funext a
  apply Fin.ext
  rw [Layout.TilesN.idx_val]
  match a with
  | ⟨0, _⟩ =>
    show Layout.meshLin [2, 2, 4] c.val [2] * 4096 + (i 0).val = zpos c * 4096 + (i 0).val
    have : Layout.meshLin [2, 2, 4] c.val [2] = zpos c := by revert c; decide
    rw [this]
  | ⟨1, _⟩ =>
    show 0 * 1024 + (i 1).val = (i 1).val
    omega

theorem sum_rot (f : Fin 4 → EReal) (z : Fin 4) :
    f z + (f (z - 1) + (f (z - 1 - 1) + f (z - 1 - 1 - 1))) = ∑ k : Fin 4, f k := by
  rw [Fin.sum_univ_four]
  have h : ∀ z : Fin 4, (z = 0 ∧ z - 1 = 3 ∧ z - 1 - 1 = 2 ∧ z - 1 - 1 - 1 = 1) ∨ (z = 1 ∧ z - 1 = 0 ∧ z - 1 - 1 = 3 ∧ z - 1 - 1 - 1 = 2)
      ∨ (z = 2 ∧ z - 1 = 1 ∧ z - 1 - 1 = 0 ∧ z - 1 - 1 - 1 = 3) ∨ (z = 3 ∧ z - 1 = 2 ∧ z - 1 - 1 = 1 ∧ z - 1 - 1 - 1 = 0) := by decide
  rcases h z with ⟨h0, h1, h2, h3⟩ | ⟨h0, h1, h2, h3⟩ | ⟨h0, h1, h2, h3⟩ | ⟨h0, h1, h2, h3⟩ <;>
    rw [h3, h2, h1, h0] <;> ac_rfl

theorem Sk3 (X : Dev nD → Blk Ideal) (d : Dev nD) (i : S4096x1024.Idx) :
    Sk X 3 d i = addE (X d i) (addE (X (zl d) i) (addE (X (zl (zl d)) i) (X (zl (zl (zl d))) i))) := rfl

theorem Sk3_sum (X : Dev nD → Blk Ideal) (W : RefArg) (i : S4096x1024.Idx)
    (hx : ∀ c, X c i = W (wIx (zf c) i)) (d : Dev nD) :
    Sk X 3 d i = refVal W i := by
  rw [Sk3, addE_eq, addE_eq, addE_eq, hx, hx, hx, hx]
  simp only [zf_zl]
  exact sum_rot (fun z => W (wIx z i)) (zf d)

theorem fin_eq_ref (X : Dev nD → Blk Ideal) (W : RefArg)
    (hX : ∀ c, X c = Layout.blockN ⟨2, ![4096, 1024]⟩ ⟨2, ![16384, 1024]⟩ (Layout.meshBlock [2, 2, 4] ![[2], []] c) W) :
    Fin_ X = refVal W := by
  funext i
  exact Sk3_sum X W i (fun c => by rw [hX c]; exact block_at W c i) (owner i)

theorem fin_eq_ref_mem
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : ∀ c : Dev Cert.KernelIdeal.nD,
      m ((c.tc : Thread Cert.KernelIdeal.nD Cert.KernelIdeal.τ).loc Cert.KernelIdeal.main_arg0) = Layout.blockN ⟨2, ![4096, 1024]⟩ ⟨2, ![16384, 1024]⟩ (Layout.meshBlock [2, 2, 4] ![[2], []] c) (m' (((0 : Dev Cert.ReferenceIdeal.nD).tc : Thread Cert.ReferenceIdeal.nD Cert.ReferenceIdeal.τ).loc Cert.ReferenceIdeal.main_arg0))) :
    Fin_ (fun c : Dev Cert.KernelIdeal.nD => (m ((c.tc : Thread Cert.KernelIdeal.nD Cert.KernelIdeal.τ).loc Cert.KernelIdeal.main_arg0) : Blk Ideal)) = refVal (m' (((0 : Dev Cert.ReferenceIdeal.nD).tc : Thread Cert.ReferenceIdeal.nD Cert.ReferenceIdeal.τ).loc Cert.ReferenceIdeal.main_arg0)) :=
  fin_eq_ref _ _ h

/-- info: 'Cert.KernelIdeal.AR.ref_run' depends on axioms: [propext, Classical.choice, Quot.sound] -/
#guard_msgs in #print axioms ref_run

/-- info: 'Cert.KernelIdeal.AR.fin_eq_ref' depends on axioms: [propext, Classical.choice, Quot.sound] -/
#guard_msgs in #print axioms fin_eq_ref

end Cert.KernelIdeal.AR

end
-- ==== Proof.K.Geo.lean ====
import proofs.«900720_g7700000000000721_dist_ar_v7x_xyz2x2x4_z_m4096_n1024_f32_1_alg».proof.Proof.Gen.Kernel

namespace Cert.Kernel.AR

open Idealize.ShloMosaic Cert.Kernel Cert.Kernel.Gen

def zr (c : Dev nD) : Dev nD := ![1,2,3,0, 5,6,7,4, 9,10,11,8, 13,14,15,12] c
def zl (c : Dev nD) : Dev nD := ![3,0,1,2, 7,4,5,6, 11,8,9,10, 15,12,13,14] c
def xr (c : Dev nD) : Dev nD := ![4,5,6,7, 12,13,14,15, 0,1,2,3, 8,9,10,11] c
def xl (c : Dev nD) : Dev nD := ![8,9,10,11, 0,1,2,3, 12,13,14,15, 4,5,6,7] c
def rpos (c : Dev nD) : ℕ := ![0,0,0,0, 1,1,1,1, 3,3,3,3, 2,2,2,2] c
def zpos (c : Dev nD) : ℕ := c.val % 4

theorem zr_zl (c : Dev nD) : zr (zl c) = c := by revert c; decide
theorem zl_zr (c : Dev nD) : zl (zr c) = c := by revert c; decide
theorem xr_xl (c : Dev nD) : xr (xl c) = c := by revert c; decide
theorem xl_xr (c : Dev nD) : xl (xr c) = c := by revert c; decide

def row (q p k : ℕ) : ℕ := 1024 * (q % 4) + 512 * p + 128 * (k % 4)

theorem dev1_eq (c : Dev nD) : (⟨k0_dev1 c, k0_dev1_lt c⟩ : Dev nD) = zl c := by revert c; decide
theorem dev2_eq (c : Dev nD) : (⟨k0_dev2 c, k0_dev2_lt c⟩ : Dev nD) = zr c := by revert c; decide
theorem dev3_eq (c : Dev nD) : (⟨k0_dev3 c, k0_dev3_lt c⟩ : Dev nD) = xl c := by revert c; decide
theorem dev4_eq (c : Dev nD) : (⟨k0_dev4 c, k0_dev4_lt c⟩ : Dev nD) = xr c := by revert c; decide
theorem dev5_eq (c : Dev nD) : (⟨k0_dev5 c, k0_dev5_lt c⟩ : Dev nD) = zr c := by revert c; decide
theorem dev8_eq (c : Dev nD) : (⟨k0_dev8 c, k0_dev8_lt c⟩ : Dev nD) = zl c := by revert c; decide
theorem dev11_eq (c : Dev nD) : (⟨k0_dev11 c, k0_dev11_lt c⟩ : Dev nD) = xr c := by revert c; decide
theorem dev12_eq (c : Dev nD) : (⟨k0_dev12 c, k0_dev12_lt c⟩ : Dev nD) = xl c := by revert c; decide

theorem off1_eq (c : Dev nD) (p : Fin 2) (s : Fin 3) :
    k0_off1 c (BitVec.ofNat 32 (512 * p.val)) (BitVec.ofNat 32 s.val) = ![row (rpos c) p.val (zpos c + 4 - s.val), 0] := by
  revert c p s; decide
theorem off2_eq (c : Dev nD) (p : Fin 2) (s : Fin 3) :
    k0_off2 c (BitVec.ofNat 32 (512 * p.val)) (BitVec.ofNat 32 s.val) = ![row (rpos c) p.val (zpos c + 3 - s.val), 0] := by
  revert c p s; decide
theorem off3_eq (c : Dev nD) (p : Fin 2) (t : Fin 3) :
    k0_off3 c (BitVec.ofNat 32 (512 * p.val)) (BitVec.ofNat 32 t.val) = ![row (rpos c) p.val (zpos c + 1 + t.val), 0] := by
  revert c p t; decide
theorem off4_eq (c : Dev nD) (t : Fin 3) (p : Fin 2) :
    k0_off4 c (BitVec.ofNat 32 t.val) (BitVec.ofNat 32 (512 * p.val)) = ![row (rpos c + 4 - t.val) p.val 0, 0] := by
  revert c t p; decide
theorem off5_eq (c : Dev nD) (t : Fin 3) (p : Fin 2) :
    k0_off5 c (BitVec.ofNat 32 t.val) (BitVec.ofNat 32 (512 * p.val)) = ![row (rpos c + t.val) p.val 2, 0] := by
  revert c t p; decide

end Cert.Kernel.AR
-- ==== Proof.K.Vals.lean ====
import proofs.«900720_g7700000000000721_dist_ar_v7x_xyz2x2x4_z_m4096_n1024_f32_1_alg».proof.Proof.K.Geo
import Idealize.ShloMosaic.PureOps.Vector

noncomputable section

namespace Cert.Kernel.AR

open Idealize.ShloMosaic Cert.Kernel

variable {F : FTy → Type} [FloatOps F]

abbrev Blk (F : FTy → Type) : Type := S4096x1024.Idx → Elt F .f32

def addE (a b : Elt F .f32) : Elt F .f32 := (addf (s := S_) (fun _ => a) (fun _ => b) : FVec F S_ .f32) (fun a => a.elim0)

def Sk (X : Dev nD → Blk F) : ℕ → Dev nD → Blk F
  | 0, c => X c
  | n + 1, c => fun i => addE (X c i) (Sk X n (zl c) i)

def ownerOfRow (r : ℕ) : Dev nD :=
  ⟨(![0, 4, 12, 8] (⟨r / 1024 % 4, Nat.mod_lt _ (by decide)⟩ : Fin 4)) + (r % 512 / 128 + 3) % 4, by
    have h : ∀ q : Fin 4, (![0, 4, 12, 8] q : ℕ) ≤ 12 := by decide
    have := h ⟨r / 1024 % 4, Nat.mod_lt _ (by decide)⟩
    have : (r % 512 / 128 + 3) % 4 < 4 := Nat.mod_lt _ (by decide)
    show _ < 16
    omega⟩

def owner (i : S4096x1024.Idx) : Dev nD := ownerOfRow (i 0).val

def Fin_ (X : Dev nD → Blk F) : Blk F := fun i => Sk X 3 (owner i) i

theorem rpos_owner (r : ℕ) : rpos (ownerOfRow r) = r / 1024 % 4 := by
  have h : ∀ (q : Fin 4) (z : Fin 4), rpos (⟨(![0, 4, 12, 8] q) + z.val, by
      have h : ∀ q : Fin 4, (![0, 4, 12, 8] q : ℕ) ≤ 12 := by decide
      have := h q; have := z.isLt; show _ < 16; omega⟩ : Dev nD) = q.val := by decide
  exact h ⟨r / 1024 % 4, Nat.mod_lt _ (by decide)⟩ ⟨(r % 512 / 128 + 3) % 4, Nat.mod_lt _ (by decide)⟩

theorem zpos_owner (r : ℕ) : zpos (ownerOfRow r) = (r % 512 / 128 + 3) % 4 := by
  have h : ∀ (q : Fin 4) (z : Fin 4), zpos (⟨(![0, 4, 12, 8] q) + z.val, by
      have h : ∀ q : Fin 4, (![0, 4, 12, 8] q : ℕ) ≤ 12 := by decide
      have := h q; have := z.isLt; show _ < 16; omega⟩ : Dev nD) = z.val := by decide
  exact h ⟨r / 1024 % 4, Nat.mod_lt _ (by decide)⟩ ⟨(r % 512 / 128 + 3) % 4, Nat.mod_lt _ (by decide)⟩

end Cert.Kernel.AR

end
-- ==== Proof.K.Core.lean ====
import proofs.«900720_g7700000000000721_dist_ar_v7x_xyz2x2x4_z_m4096_n1024_f32_1_alg».proof.Proof.K.Geo
import proofs.«900720_g7700000000000721_dist_ar_v7x_xyz2x2x4_z_m4096_n1024_f32_1_alg».proof.Proof.K.Vals
import proofs.«900720_g7700000000000721_dist_ar_v7x_xyz2x2x4_z_m4096_n1024_f32_1_alg».proof.Proof.Gen.Kernel.Skeleton
import proofs.«900720_g7700000000000721_dist_ar_v7x_xyz2x2x4_z_m4096_n1024_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev barS : Sem sig := (SemArray.scalar (sig.barrier 0 rfl) : Sems sig S_).sem

def sendSem (j : Fin 24) : DmaSem sig :=
  ![2,3,4,5,6,7, 26,38, 8,9, 27,39, 10,11, 28,40, 12,13, 29,41, 30,42, 31,43] j
def recvSem (j : Fin 24) : DmaSem sig :=
  ![14,15,16,17,18,19, 32,44, 20,21, 33,45, 22,23, 34,46, 24,25, 35,47, 36,48, 37,49] j

abbrev barCell (c : Dev nD) : GSem nD τ sig := ((c : Thread nD τ), .reg barS)
abbrev sendCell (c : Dev nD) (j : Fin 24) : GSem nD τ sig := ((c : Thread nD τ), .dma (sendSem j))
abbrev recvCell (c : Dev nD) (j : Fin 24) : GSem nD τ sig := ((c : Thread nD τ), .dma (recvSem j))

def peer (j : Fin 24) (c : Dev nD) : Dev nD :=
  (![zr,zr,zr,zl,zl,zl, xr,xl, zr,zr, xr,xl, zr,zl, xr,xl, zl,zl, xr,xl, xr,xl, xr,xl] j) c
def from_ (j : Fin 24) (c : Dev nD) : Dev nD :=
  (![zl,zl,zl,zr,zr,zr, xl,xr, zl,zl, xl,xr, zl,zr, xl,xr, zr,zr, xl,xr, xl,xr, xl,xr] j) c

theorem peer_from (j : Fin 24) (c : Dev nD) : peer j (from_ j c) = c := by revert j c; decide
theorem from_peer (j : Fin 24) (c : Dev nD) : from_ j (peer j c) = c := by revert j c; decide

abbrev xM : Memref sig .tc .vmem S4096x1024 .f32 := Memref.whole cc0_stg0_0
abbrev oM : Memref sig .tc .vmem S4096x1024 .f32 := Memref.whole cc0_stg1_0
abbrev cM : Memref sig .tc .vmem S6x128x1024 .f32 := Memref.whole cc0_scratch0

abbrev w512 (p : Fin 2) : BitVec 32 := BitVec.ofNat 32 (512 * p.val)
abbrev w3 (s : Fin 3) : BitVec 32 := BitVec.ofNat 32 s.val

theorem slot_inb (k : Fin 6) : ∀ a, (![k.val, 0, 0] : Fin 3 → Nat) a + S1x128x1024.size a ≤ S6x128x1024.size a := by
  revert k; decide

def slotV (k : Fin 6) : Memref sig .tc .vmem S128x1024 .f32 :=
  (cM.slice (Rect.unit (s := S6x128x1024) ![k.val, 0, 0] S1x128x1024.size (slot_inb k)) (fun _ => rfl)).squeeze S128x1024 squeezes_S1x128x1024_S128x1024
def slotOf (p : Fin 2) (s : Fin 3) : Fin 6 := ⟨p.val * 3 + s.val, by omega⟩

def srcV (b : Memref sig .tc .vmem S4096x1024 .f32) (c : Dev nD) (p : Fin 2) (s : Fin 3) : Memref sig .tc .vmem S128x1024 .f32 :=
  b.slice (Rect.unit (s := S4096x1024) (k0_off1 c (w512 p) (w3 s)) S128x1024.size (k0_off1_inb c p s)) (fun _ => rfl)
def accR (c : Dev nD) (p : Fin 2) (s : Fin 3) : Rect S4096x1024 :=
  Rect.unit (s := S4096x1024) (k0_off2 c (w512 p) (w3 s)) S128x1024.size (k0_off2_inb c p s)
def agV (c : Dev nD) (p : Fin 2) (t : Fin 3) : Memref sig .tc .vmem S128x1024 .f32 :=
  oM.slice (Rect.unit (s := S4096x1024) (k0_off3 c (w512 p) (w3 t)) S128x1024.size (k0_off3_inb c p t)) (fun _ => rfl)
def paV (c : Dev nD) (p : Fin 2) (t : Fin 3) : Memref sig .tc .vmem S256x1024 .f32 :=
  oM.slice (Rect.unit (s := S4096x1024) (k0_off4 c (w3 t) (w512 p)) S256x1024.size (k0_off4_inb c t p)) (fun _ => rfl)
def pbV (c : Dev nD) (p : Fin 2) (t : Fin 3) : Memref sig .tc .vmem S256x1024 .f32 :=
  oM.slice (Rect.unit (s := S4096x1024) (k0_off5 c (w3 t) (w512 p)) S256x1024.size (k0_off5_inb c t p)) (fun _ => rfl)

def rsJ (p : Fin 2) (s : Fin 3) : Fin 24 := ![![0, 1, 2], ![8, 9, 12]] p s
def agJ (p : Fin 2) (t : Fin 3) : Fin 24 := ![![3, 4, 5], ![13, 16, 17]] p t
def paJ (p : Fin 2) (t : Fin 3) : Fin 24 := ![![6, 10, 14], ![18, 20, 22]] p t
def pbJ (p : Fin 2) (t : Fin 3) : Fin 24 := ![![7, 11, 15], ![19, 21, 23]] p t

abbrev N128 : ℕ := (slotV 0).view.dmaCredit
abbrev N256 : ℕ := (paV 0 0 0).view.dmaCredit

variable (m : (ℓ : Loc nD τ sig) → Buf (Elt F) ℓ) (ρ : Dev nD → PrngReg)

def s₀ : MemSt nD τ sig (Elt F) := ⟨m, fun _ => 0, ρ⟩

def X (c : Dev nD) : Blk F :=
  (win0_0.blk (0 : Fin 1)).view.read (Elt F) ((s₀ m ρ).mem ((c : Thread nD τ).loc main_arg0))

def landed (c : Dev nD) (p : Fin 2) (s : Fin 3) : Vec F S128x1024 .f32 :=
  (srcV xM (zl c) p s).view.read (Elt F) (Sk (X m ρ) s.val (zl c))

abbrev pts {sh : Shape} (c : Dev nD) (v : Memref sig .tc .vmem sh .f32) (q : PosShare TreeShare) (f : Buf (Elt F) (v.view.loc (c : Thread nD τ))) : sProp 𝕄 :=
  v.view.loc (c : Thread nD τ) ↦[v.view.set]{q} f

abbrev Lq : PosShare TreeShare := fullShare.left
abbrev Rq : PosShare TreeShare := fullShare.right

def lendSlots (c' : Dev nD) : sProp 𝕄 :=
  iprop(∃ f : Buf (Elt F) (cM.view.loc (c' : Thread nD τ)), pts c' (slotV 0) fullShare f ∗ pts c' (slotV 1) fullShare f ∗ pts c' (slotV 2) fullShare f
    ∗ pts c' (slotV 3) fullShare f ∗ pts c' (slotV 4) fullShare f ∗ pts c' (slotV 5) fullShare f)
def lendAg (c : Dev nD) : sProp 𝕄 :=
  iprop(∃ f : Buf (Elt F) (oM.view.loc (zl c : Thread nD τ)), pts (zl c) (agV c 0 2) fullShare f ∗ pts (zl c) (agV c 1 2) fullShare f)
def lendPa (c : Dev nD) : sProp 𝕄 :=
  iprop(∃ f : Buf (Elt F) (oM.view.loc (xr c : Thread nD τ)), pts (xr c) (paV c 0 0) fullShare f ∗ pts (xr c) (paV c 0 1) fullShare f ∗ pts (xr c) (paV c 0 2) fullShare f
    ∗ pts (xr c) (paV c 1 0) fullShare f ∗ pts (xr c) (paV c 1 1) fullShare f ∗ pts (xr c) (paV c 1 2) fullShare f)
def lendPb (c : Dev nD) : sProp 𝕄 :=
  iprop(∃ f : Buf (Elt F) (oM.view.loc (xl c : Thread nD τ)), pts (xl c) (pbV c 0 0) fullShare f ∗ pts (xl c) (pbV c 0 1) fullShare f ∗ pts (xl c) (pbV c 0 2) fullShare f
    ∗ pts (xl c) (pbV c 1 0) fullShare f ∗ pts (xl c) (pbV c 1 1) fullShare f ∗ pts (xl c) (pbV c 1 2) fullShare f)

def barPay (c : Dev nD) (d : Fin 4) : sProp 𝕄 :=
  match d with
  | 0 => lendSlots (zr c) | 1 => lendAg c | 2 => lendPa c | 3 => lendPb c
  | _ => iprop(emp)

def rsR (c : Dev nD) (p : Fin 2) (s : Fin 3) : sProp 𝕄 :=
  iprop(owns (c : Thread nD τ) (slotV (slotOf p s)) fullShare (landed m ρ c p s)
    ∗ (if s = 0 then iprop(emp) else pts (zl c) (srcV oM (zl c) p s) fullShare (Sk (X m ρ) s.val (zl c))))
def agR (c : Dev nD) (p : Fin 2) (t : Fin 3) : sProp 𝕄 := pts c (agV (zr c) p t) fullShare (Fin_ (X m ρ))
def paR (c : Dev nD) (p : Fin 2) (t : Fin 3) : sProp 𝕄 := pts c (paV (xl c) p t) fullShare (Fin_ (X m ρ))
def pbR (c : Dev nD) (p : Fin 2) (t : Fin 3) : sProp 𝕄 := pts c (pbV (xr c) p t) fullShare (Fin_ (X m ρ))

def rsS (c : Dev nD) (p : Fin 2) (s : Fin 3) : sProp 𝕄 := if s = 0 then pts c (srcV xM c p 0) Lq (X m ρ c) else iprop(emp)
def agS (c : Dev nD) (p : Fin 2) (t : Fin 3) : sProp 𝕄 := pts c (agV c p t) Lq (Fin_ (X m ρ))
def paS (c : Dev nD) (p : Fin 2) (t : Fin 3) : sProp 𝕄 := pts c (paV c p t) (if t = 0 then Rq else fullShare) (Fin_ (X m ρ))
def pbS (c : Dev nD) (p : Fin 2) (t : Fin 3) : sProp 𝕄 := pts c (pbV c p t) (if t = 0 then Rq else fullShare) (Fin_ (X m ρ))

def recvPay (c : Dev nD) (j : Fin 24) : sProp 𝕄 :=
  match j with
  | 0 => rsR m ρ c 0 0
  | 1 => rsR m ρ c 0 1
  | 2 => rsR m ρ c 0 2
  | 3 => agR m ρ c 0 0
  | 4 => agR m ρ c 0 1
  | 5 => agR m ρ c 0 2
  | 6 => paR m ρ c 0 0
  | 7 => pbR m ρ c 0 0
  | 8 => rsR m ρ c 1 0
  | 9 => rsR m ρ c 1 1
  | 10 => paR m ρ c 0 1
  | 11 => pbR m ρ c 0 1
  | 12 => rsR m ρ c 1 2
  | 13 => agR m ρ c 1 0
  | 14 => paR m ρ c 0 2
  | 15 => pbR m ρ c 0 2
  | 16 => agR m ρ c 1 1
  | 17 => agR m ρ c 1 2
  | 18 => paR m ρ c 1 0
  | 19 => pbR m ρ c 1 0
  | 20 => paR m ρ c 1 1
  | 21 => pbR m ρ c 1 1
  | 22 => paR m ρ c 1 2
  | 23 => pbR m ρ c 1 2
  | _ => iprop(emp)
def sendPay (c : Dev nD) (j : Fin 24) : sProp 𝕄 :=
  match j with
  | 0 => rsS m ρ c 0 0
  | 1 => rsS m ρ c 0 1
  | 2 => rsS m ρ c 0 2
  | 3 => agS m ρ c 0 0
  | 4 => agS m ρ c 0 1
  | 5 => agS m ρ c 0 2
  | 6 => paS m ρ c 0 0
  | 7 => pbS m ρ c 0 0
  | 8 => rsS m ρ c 1 0
  | 9 => rsS m ρ c 1 1
  | 10 => paS m ρ c 0 1
  | 11 => pbS m ρ c 0 1
  | 12 => rsS m ρ c 1 2
  | 13 => agS m ρ c 1 0
  | 14 => paS m ρ c 0 2
  | 15 => pbS m ρ c 0 2
  | 16 => agS m ρ c 1 1
  | 17 => agS m ρ c 1 2
  | 18 => paS m ρ c 1 0
  | 19 => pbS m ρ c 1 0
  | 20 => paS m ρ c 1 1
  | 21 => pbS m ρ c 1 1
  | 22 => paS m ρ c 1 2
  | 23 => pbS m ρ c 1 2
  | _ => iprop(emp)

def semCopy (q : DmaSem sig) : Option (Fin 24 × Bool) :=
  ![none, none,
    some (0, false), some (1, false), some (2, false), some (3, false), some (4, false), some (5, false),
    some (8, false), some (9, false), some (12, false), some (13, false), some (16, false), some (17, false),
    some (0, true), some (1, true), some (2, true), some (3, true), some (4, true), some (5, true),
    some (8, true), some (9, true), some (12, true), some (13, true), some (16, true), some (17, true),
    some (6, false), some (10, false), some (14, false), some (18, false), some (20, false), some (22, false),
    some (6, true), some (10, true), some (14, true), some (18, true), some (20, true), some (22, true),
    some (7, false), some (11, false), some (15, false), some (19, false), some (21, false), some (23, false),
    some (7, true), some (11, true), some (15, true), some (19, true), some (21, true), some (23, true)] q

def dmaPay (c : Dev nD) (q : DmaSem sig) : sProp 𝕄 :=
  match semCopy q with
  | none => iprop(emp)
  | some (j, false) => sendPay m ρ c j
  | some (j, true) => recvPay m ρ c j

def Rd : Rounds.Schedule (GSem nD τ sig) (Fin 4) 𝕄 where
  duties g r := if r = 0 ∧ g.1.2 = .tc then (match g.2 with | .reg _ => Finset.univ | .dma q => if (semCopy q).isSome then {0} else ∅) else ∅
  amount g _ _ := match g.2 with | .reg _ => 1 | .dma q => if q.val < 26 then N128 else N256
  payload g _ d := match g.2 with | .reg _ => barPay g.1.1 d | .dma q => dmaPay m ρ g.1.1 q
  amount_pos g _ _ _ := by
    cases g.2 with
    | reg _ => exact Nat.one_pos
    | dma q =>
      show 0 < if q.val < 26 then N128 else N256
      split
      · exact View.dmaCredit_pos _ (by decide)
      · exact View.dmaCredit_pos _ (by decide)

theorem pts_storable {sh : Shape} (c : Dev nD) (v : Memref sig .tc .vmem sh .f32) (q : PosShare TreeShare) (f : Buf (Elt F) (v.view.loc (c : Thread nD τ))) :
    BI.Storable (upEmb : UEmb _ 𝕄) (pts c v q f) := by unfold pts; infer_instance

instance lendSlots_storable (c' : Dev nD) : BI.Storable (upEmb : UEmb _ 𝕄) (lendSlots (F := F) c') := by
  unfold lendSlots
  have key : ∀ f : Buf (Elt F) (cM.view.loc (c' : Thread nD τ)), BI.Storable (upEmb : UEmb _ 𝕄)
      iprop(pts c' (slotV 0) fullShare f ∗ pts c' (slotV 1) fullShare f ∗ pts c' (slotV 2) fullShare f
        ∗ pts c' (slotV 3) fullShare f ∗ pts c' (slotV 4) fullShare f ∗ pts c' (slotV 5) fullShare f) := fun f => by
    haveI := pts_storable (F := F) c' (slotV 0) fullShare f; haveI := pts_storable (F := F) c' (slotV 1) fullShare f
    haveI := pts_storable (F := F) c' (slotV 2) fullShare f; haveI := pts_storable (F := F) c' (slotV 3) fullShare f
    haveI := pts_storable (F := F) c' (slotV 4) fullShare f; haveI := pts_storable (F := F) c' (slotV 5) fullShare f
    infer_instance
  exact BI.Storable.exists upEmb _
instance lendAg_storable (c : Dev nD) : BI.Storable (upEmb : UEmb _ 𝕄) (lendAg (F := F) c) := by
  unfold lendAg
  have key : ∀ f : Buf (Elt F) (oM.view.loc (zl c : Thread nD τ)), BI.Storable (upEmb : UEmb _ 𝕄)
      iprop(pts (zl c) (agV c 0 2) fullShare f ∗ pts (zl c) (agV c 1 2) fullShare f) := fun f => by
    haveI := pts_storable (F := F) (zl c) (agV c 0 2) fullShare f; haveI := pts_storable (F := F) (zl c) (agV c 1 2) fullShare f
    infer_instance
  exact BI.Storable.exists upEmb _
instance lendPa_storable (c : Dev nD) : BI.Storable (upEmb : UEmb _ 𝕄) (lendPa (F := F) c) := by
  unfold lendPa
  have key : ∀ f : Buf (Elt F) (oM.view.loc (xr c : Thread nD τ)), BI.Storable (upEmb : UEmb _ 𝕄)
      iprop(pts (xr c) (paV c 0 0) fullShare f ∗ pts (xr c) (paV c 0 1) fullShare f ∗ pts (xr c) (paV c 0 2) fullShare f
        ∗ pts (xr c) (paV c 1 0) fullShare f ∗ pts (xr c) (paV c 1 1) fullShare f ∗ pts (xr c) (paV c 1 2) fullShare f) := fun f => by
    haveI := pts_storable (F := F) (xr c) (paV c 0 0) fullShare f; haveI := pts_storable (F := F) (xr c) (paV c 0 1) fullShare f
    haveI := pts_storable (F := F) (xr c) (paV c 0 2) fullShare f; haveI := pts_storable (F := F) (xr c) (paV c 1 0) fullShare f
    haveI := pts_storable (F := F) (xr c) (paV c 1 1) fullShare f; haveI := pts_storable (F := F) (xr c) (paV c 1 2) fullShare f
    infer_instance
  exact BI.Storable.exists upEmb _
instance lendPb_storable (c : Dev nD) : BI.Storable (upEmb : UEmb _ 𝕄) (lendPb (F := F) c) := by
  unfold lendPb
  have key : ∀ f : Buf (Elt F) (oM.view.loc (xl c : Thread nD τ)), BI.Storable (upEmb : UEmb _ 𝕄)
      iprop(pts (xl c) (pbV c 0 0) fullShare f ∗ pts (xl c) (pbV c 0 1) fullShare f ∗ pts (xl c) (pbV c 0 2) fullShare f
        ∗ pts (xl c) (pbV c 1 0) fullShare f ∗ pts (xl c) (pbV c 1 1) fullShare f ∗ pts (xl c) (pbV c 1 2) fullShare f) := fun f => by
    haveI := pts_storable (F := F) (xl c) (pbV c 0 0) fullShare f; haveI := pts_storable (F := F) (xl c) (pbV c 0 1) fullShare f
    haveI := pts_storable (F := F) (xl c) (pbV c 0 2) fullShare f; haveI := pts_storable (F := F) (xl c) (pbV c 1 0) fullShare f
    haveI := pts_storable (F := F) (xl c) (pbV c 1 1) fullShare f; haveI := pts_storable (F := F) (xl c) (pbV c 1 2) fullShare f
    infer_instance
  exact BI.Storable.exists upEmb _
instance barPay_storable (c : Dev nD) (d : Fin 4) : BI.Storable (upEmb : UEmb _ 𝕄) (barPay (F := F) c d) := by
  unfold barPay; split <;> infer_instance
instance rsR_storable (c : Dev nD) (p : Fin 2) (s : Fin 3) : BI.Storable (upEmb : UEmb _ 𝕄) (rsR m ρ c p s) := by
  unfold rsR
  haveI := pts_storable (F := F) (zl c) (srcV oM (zl c) p s) fullShare (Sk (X m ρ) s.val (zl c))
  split <;> infer_instance
instance agR_storable (c : Dev nD) (p : Fin 2) (t : Fin 3) : BI.Storable (upEmb : UEmb _ 𝕄) (agR m ρ c p t) := by unfold agR; exact pts_storable _ _ _ _
instance paR_storable (c : Dev nD) (p : Fin 2) (t : Fin 3) : BI.Storable (upEmb : UEmb _ 𝕄) (paR m ρ c p t) := by unfold paR; exact pts_storable _ _ _ _
instance pbR_storable (c : Dev nD) (p : Fin 2) (t : Fin 3) : BI.Storable (upEmb : UEmb _ 𝕄) (pbR m ρ c p t) := by unfold pbR; exact pts_storable _ _ _ _
instance rsS_storable (c : Dev nD) (p : Fin 2) (s : Fin 3) : BI.Storable (upEmb : UEmb _ 𝕄) (rsS m ρ c p s) := by
  unfold rsS
  haveI := pts_storable (F := F) c (srcV xM c p 0) Lq (X m ρ c)
  split <;> infer_instance
instance agS_storable (c : Dev nD) (p : Fin 2) (t : Fin 3) : BI.Storable (upEmb : UEmb _ 𝕄) (agS m ρ c p t) := by unfold agS; exact pts_storable _ _ _ _
instance paS_storable (c : Dev nD) (p : Fin 2) (t : Fin 3) : BI.Storable (upEmb : UEmb _ 𝕄) (paS m ρ c p t) := by unfold paS; exact pts_storable _ _ _ _
instance pbS_storable (c : Dev nD) (p : Fin 2) (t : Fin 3) : BI.Storable (upEmb : UEmb _ 𝕄) (pbS m ρ c p t) := by unfold pbS; exact pts_storable _ _ _ _
instance recvPay_storable (c : Dev nD) (j : Fin 24) : BI.Storable (upEmb : UEmb _ 𝕄) (recvPay m ρ c j) := by
  unfold recvPay; split <;> infer_instance
instance sendPay_storable (c : Dev nD) (j : Fin 24) : BI.Storable (upEmb : UEmb _ 𝕄) (sendPay m ρ c j) := by
  unfold sendPay; split <;> infer_instance
instance dmaPay_storable (c : Dev nD) (q : DmaSem sig) : BI.Storable (upEmb : UEmb _ 𝕄) (dmaPay m ρ c q) := by
  unfold dmaPay; split <;> infer_instance

instance Rd_payload_storable (g : GSem nD τ sig) (r : ℕ) (d : Fin 4) :
    BI.Storable (upEmb : UEmb _ 𝕄) ((Rd (F := F) m ρ).payload g r d) := by
  show BI.Storable upEmb (match g.2 with | .reg _ => barPay g.1.1 d | .dma q => dmaPay m ρ g.1.1 q)
  split <;> infer_instance

def NJ (j : Fin 24) : ℕ := if (recvSem j).val < 26 then N128 else N256

def cpTally (c : Dev nD) (j : ℕ) : CellTallies nD τ sig Unit :=
  if h : j < 24 then tallyAt (recvCell (peer ⟨j, h⟩ c) ⟨j, h⟩) () (NJ ⟨j, h⟩) else 0

def Orem (c : Dev nD) : ℕ → CellTallies nD τ sig Unit
  | 0 => 0
  | n + 1 => Orem c n + cpTally c (23 - n)

def O₀ (c : Dev nD) : CellTallies nD τ sig Unit :=
  Orem c 24 + tallyAt (barCell (xr c)) () 1 + tallyAt (barCell (xl c)) () 1 + tallyAt (barCell (zr c)) () 1 + tallyAt (barCell (zl c)) () 1

def L (g : GSem nD τ sig) : Finset Unit := if g.1.2 = .tc then {()} else ∅
def lv (g : GSem nD τ sig) (_ : Unit) : ℕ :=
  match g.2 with
  | .reg _ => 1
  | .dma q => match semCopy q with | some (j, true) => 2 + j.val | _ => 0

def osem (jb : Fin 24 × Bool) : SemLoc sig := .dma (if jb.2 then recvSem jb.1 else sendSem jb.1)
abbrev dcell (c : Dev nD) (jb : Fin 24 × Bool) : GSem nD τ sig := ((c : Thread nD τ), osem jb)

def records (K : GSem nD τ sig → ℕ) : sProp 𝕄 :=
  iprop((bigSep Finset.univ fun c : Dev nD => cellInv ER (Rd m ρ) (K (barCell c)) (barCell c))
    ∗ (bigSep Finset.univ fun cj : Dev nD × (Fin 24 × Bool) => cellInv ER (Rd m ρ) (K (dcell cj.1 cj.2)) (dcell cj.1 cj.2))
    ∗ (bigSep Finset.univ fun c : Dev nD => reached ER (barCell c) 0)
    ∗ (bigSep Finset.univ fun cj : Dev nD × (Fin 24 × Bool) => reached ER (dcell cj.1 cj.2) 0))

instance records_persistent (K : GSem nD τ sig → ℕ) : BI.Persistent (records m ρ K) := by unfold records; infer_instance

def payToks (c : Dev nD) : sProp 𝕄 :=
  iprop(dutyTok ER (barCell (zl c)) 0 0 ∗ dutyTok ER (barCell (zr c)) 0 1 ∗ dutyTok ER (barCell (xl c)) 0 2 ∗ dutyTok ER (barCell (xr c)) 0 3
    ∗ bigSep Finset.univ fun j : Fin 24 => iprop(dutyTok ER (sendCell c j) 0 0 ∗ dutyTok ER (recvCell (peer j c) j) 0 0))

def positions (c : Dev nD) : sProp 𝕄 :=
  iprop(atPos ER (barCell c) 0 ∅ 0 ∗ bigSep Finset.univ fun jb : Fin 24 × Bool => atPos ER (dcell c jb) 0 ∅ 0)

def ghost (K : GSem nD τ sig → ℕ) (c : Dev nD) : sProp 𝕄 := iprop(records m ρ K ∗ positions c ∗ payToks c)

def credits (c : Dev nD) : sProp 𝕄 :=
  iprop(cred (tallyAt (barCell c) () 4) ∗ bigSep Finset.univ fun j : Fin 24 => cred (tallyAt (recvCell c j) () (NJ j)))

def start (c : Dev nD) : sProp 𝕄 := iprop((∃ K, ghost m ρ K c) ∗ credits c ∗ levAts L lv)

def Φ₀ (c : Dev nD) : sProp 𝕄 := iprop(start m ρ c ∗ ∃ f : Buf (Elt F) (cM.view.loc (c : Thread nD τ)), pts c cM fullShare f)
def Φ₁ (c : Dev nD) : sProp 𝕄 :=
  iprop((∃ f : Buf (Elt F) (cM.view.loc (c : Thread nD τ)), pts c cM fullShare f) ∗ bigSep Finset.univ fun jb : Fin 24 × Bool => semVal (dcell c jb) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m ρ c
    | ⟨1, _⟩ => Fin_ (X m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.Kernel.AR

end
-- ==== Proof.K.Launch.lean ====
import proofs.«900720_g7700000000000721_dist_ar_v7x_xyz2x2x4_z_m4096_n1024_f32_1_alg».proof.Proof.K.Core

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

abbrev CK : Type := Unit ⊕ (Fin 24 × Bool)

def csem : CK → SemLoc sig
  | .inl _ => .reg barS
  | .inr jb => osem jb

abbrev kcell (ck : Dev nD × CK) : GSem nD τ sig := ((ck.1 : Thread nD τ), csem ck.2)

theorem csem_injective : Function.Injective csem := by
  rintro (a | jb) (a' | jb') h
  · rfl
  · exact absurd h (fun h' => by cases h')
  · exact absurd h (fun h' => by cases h')
  · exact congrArg Sum.inr (ownSemFacts.inj h)

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

abbrev TK : Type := Fin 4 ⊕ (Fin 24 × Bool)

def payee : TK → Dev nD → Dev nD
  | .inl d => ![zl, zr, xl, xr] d
  | .inr (_, false) => id
  | .inr (j, true) => peer j
def payer : TK → Dev nD → Dev nD
  | .inl d => ![zr, zl, xr, xl] d
  | .inr (_, false) => id
  | .inr (j, true) => from_ j
def tsem : TK → SemLoc sig
  | .inl _ => .reg barS
  | .inr jb => osem jb
def tduty : TK → Fin 4
  | .inl d => d
  | .inr _ => 0

theorem payer_payee (k : TK) (c : Dev nD) : payer k (payee k c) = c := by
  rcases k with d | ⟨j, b⟩
  · fin_cases d
    · exact zr_zl c
    · exact zl_zr c
    · exact xr_xl c
    · exact xl_xr c
  · cases b
    · rfl
    · exact from_peer j c

theorem tkey_injective {k k' : TK} (hs : tsem k = tsem k') (hd : tduty k = tduty k') : k = k' := by
  rcases k with d | jb <;> rcases k' with d' | jb'
  · exact congrArg Sum.inl hd
  · exact absurd hs (fun h' => by cases h')
  · exact absurd hs (fun h' => by cases h')
  · exact congrArg Sum.inr (ownSemFacts.inj hs)

abbrev tokOf (ck : Dev nD × TK) : GSem nD τ sig × ℕ × Fin 4 := (((payee ck.2 ck.1 : Thread nD τ), tsem ck.2), 0, tduty ck.2)

theorem tokOf_injective : Function.Injective (tokOf : Dev nD × TK → GSem nD τ sig × ℕ × Fin 4) := by
  rintro ⟨c, k⟩ ⟨c', k'⟩ h
  have hk : k = k' := tkey_injective (congrArg (fun x : GSem nD τ sig × ℕ × Fin 4 => x.1.2) h) (congrArg (fun x : GSem nD τ sig × ℕ × Fin 4 => x.2.2) h)
  subst hk
  have hc : payee k c = payee k c' := by have := congrArg (fun x : GSem nD τ sig × ℕ × Fin 4 => x.1.1.1) h; exact this
  have : c = c' := by rw [← payer_payee k c, hc, payer_payee]
  subst this; rfl

def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

def G (c : Dev nD) : sProp 𝕄 :=
  iprop((bigSep Finset.univ fun k : CK => roundState ER (Rd m ρ) (kcell (c, k)) 0)
    ∗ (bigSep Finset.univ fun k : CK => iprop(atPos ER (kcell (c, k)) 0 ∅ 0 ∗ reached ER (kcell (c, k)) 0)) ∗ payToks c)

def G' (c : Dev nD) : sProp 𝕄 := iprop(∃ K, ghost m ρ K c)

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_bool (Φ : Bool → sProp 𝕄) : bigSep Finset.univ Φ = iprop(Φ false ∗ Φ true) := bigSep_univ_eq_bigSepL [false, true] (by decide) (by decide) Φ

omit [FloatOps F] in
theorem ck_split (c : Dev nD) (Φ : GSem nD τ sig → sProp 𝕄) :
    (bigSep Finset.univ fun k : CK => Φ (kcell (c, k))) = iprop(Φ (barCell c) ∗ bigSep Finset.univ fun jb : Fin 24 × Bool => Φ (dcell c jb)) := by
  rw [bigSep_univ_sum, bigSep_univ_of_subsingleton ()]
  rfl

omit [FloatOps F] in
theorem cells_eq (Φ : GSem nD τ sig → sProp 𝕄) :
    bigSep ringCells Φ = bigSep Finset.univ fun c : Dev nD => bigSep Finset.univ fun k : CK => Φ (kcell (c, k)) := by
  unfold ringCells; rw [bigSep_map, bigSep_univ_prod]; rfl

omit [FloatOps F] in
theorem cells_split (Φ : GSem nD τ sig → sProp 𝕄) :
    bigSep ringCells Φ = iprop((bigSep Finset.univ fun c : Dev nD => Φ (barCell c))
      ∗ bigSep Finset.univ fun cj : Dev nD × (Fin 24 × Bool) => Φ (dcell cj.1 cj.2)) := by
  rw [cells_eq, bigSep_congr (s := Finset.univ) (fun (c : Dev nD) _ => ck_split c Φ), bigSep_sep',
    bigSep_univ_prod (fun cj : Dev nD × (Fin 24 × Bool) => Φ (dcell cj.1 cj.2))]

omit [FloatOps F] in
theorem tk_split (Φ : TK → sProp 𝕄) :
    bigSep Finset.univ Φ = iprop((Φ (.inl 0) ∗ Φ (.inl 1) ∗ Φ (.inl 2) ∗ Φ (.inl 3))
      ∗ bigSep Finset.univ fun j : Fin 24 => iprop(Φ (.inr (j, false)) ∗ Φ (.inr (j, true)))) := by
  rw [bigSep_univ_sum, bigSep_fin4, bigSep_univ_prod, bigSep_congr (s := Finset.univ) (fun (j : Fin 24) _ => bigSep_bool _)]
  rfl

omit [FloatOps F] in
theorem toks_dev (c : Dev nD) :
    (bigSep Finset.univ fun k : TK => (dutyTok ER (tokOf (c, k)).1 (tokOf (c, k)).2.1 (tokOf (c, k)).2.2 : sProp 𝕄)) ⊢ payToks c := by
  rw [tk_split]
  unfold payToks
  iintro ⟨⟨H0, H1, H2, H3⟩, HJ⟩
  isplitl [H0]; · iexact H0
  isplitl [H1]; · iexact H1
  isplitl [H2]; · iexact H2
  isplitl [H3]; · iexact H3
  iexact HJ

omit [FloatOps F] in
theorem toks_eq : bigSep ringToks (fun x => (dutyTok ER x.1 x.2.1 x.2.2 : sProp 𝕄)) ⊢ bigSep Finset.univ fun c : Dev nD => payToks c := by
  unfold ringToks; rw [bigSep_map, bigSep_univ_prod]
  exact bigSep_mono fun c _ => toks_dev c

theorem fund_ring : BI.own (ER (initOf ringCells ringToks)) ⊢ (|==> bigSep Finset.univ (G m ρ) : sProp 𝕄) := by
  iintro HX
  imod (Rounds.fund ER (Rd m ρ) ringCells ringToks) $$ HX with ⟨Hst, Hr, Hat, Htok⟩
  imodintro
  ihave Hst' := (Entails.of_eq (cells_eq fun g => roundState ER (Rd m ρ) g 0)) $$ Hst
  ihave Hat' := (Entails.of_eq (cells_eq fun g => atPos ER g 0 ∅ 0)) $$ Hat
  ihave Hr' := (Entails.of_eq (cells_eq fun g => reached ER g 0)) $$ Hr
  ihave Htok' := (toks_eq (F := F)) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, ck_split c (fun g => semVal g 0)]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ payToks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m ρ) (kcell (c, k)) 0)
      ⊢ (|={Set.univ}=> bigSep Finset.univ fun k : CK => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : GSem nD τ sig → ℕ) (c : Dev nD) : iprop(records m ρ K ∗ positions c ∗ payToks c) ⊢ G' m ρ c := by
  unfold G' ghost
  iintro H
  iexists K
  iexact H

theorem regroup :
    (bigSep Finset.univ fun c : Dev nD => iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ payToks c) : sProp 𝕄)
      ⊢ bigSep Finset.univ (G' m ρ) := by
  rw [bigSep_sep', bigSep_sep', ← cells_eq (fun g => iprop(∃ κ : ℕ, cellInv ER (Rd m ρ) κ g)),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← cells_eq (fun g => (reached ER g 0 : sProp 𝕄)), cells_split (fun g => (reached ER g 0 : sProp 𝕄))]
  iintro ⟨HI, ⟨Hat, #HR⟩, Htok⟩
  ihave HK := (BI.bigSep_exists_pi ringCells (fun (g : GSem nD τ sig) (κ : ℕ) => (cellInv ER (Rd m ρ) κ g : sProp 𝕄))) $$ HI
  icases HK with ⟨%K, HI⟩
  ihave HI' := (Entails.of_eq (cells_split (fun g => (cellInv ER (Rd m ρ) (K g) g : sProp 𝕄)))) $$ HI
  icases HI' with ⟨#HIb, #HId⟩
  icases HR with ⟨#HRb, #HRd⟩
  iapply (bigSep_with_persistent (R := records m ρ K) (Φ := fun c => iprop(positions c ∗ payToks c)) fun c _ => ghost_intro m ρ K c)
  isplitr
  · unfold records
    isplitl; · iexact HIb
    isplitl; · iexact HId
    isplitl; · iexact HRb
    iexact HRd
  · iapply (Entails.of_eq (bigSep_sep' Finset.univ (fun c : Dev nD => (positions c : sProp 𝕄)) payToks).symm)
    isplitl [Hat]
    · iapply (Entails.of_eq (bigSep_congr (s := Finset.univ) (fun (c : Dev nD) _ => (ck_split c (fun g => (atPos ER g 0 ∅ 0 : sProp 𝕄))))))
      iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

theorem start_intro (hcreds : ∀ c, (Pipeline.launchCred O₀ c : sProp 𝕄) ⊢ credits c) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (hcreds c) $$ Hcr
  imodintro
  unfold start G'
  isplitl
  · isplitl [HG]; · iexact HG
    isplitl [Hc]; · iexact Hc
    iexact Hlev
  · iempintro

omit [FloatOps F] in
theorem cM_pts_eq (c : Dev nD) (f : Buf (Elt F) ((c : Thread nD τ).loc cc0_scratch0)) :
    (pts c cM fullShare f : sProp 𝕄) = (((c : Thread nD τ).loc cc0_scratch0) ↦{fullShare} f : sProp 𝕄) := by
  unfold pts; rw [View.set_whole]

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [cM_pts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ Pipeline.ownSems0
  iintro ⟨⟨%f, Hr⟩, Hz⟩
  isplitr; · iempintro
  isplitl [Hz]; · iexact Hz
  iexists f; rw [← cM_pts_eq]; iexact Hr

set_option maxRecDepth 8000 in
theorem run_main
    (hbody : ∀ c, BodyObligation (dats (F := F) m ρ 0 c) (defs₀ (F := F)) 𝒱₀ () Set.univ)
    (hwaits : ∀ c, (levAts L lv : sProp 𝕄) ⊢ Pipeline.cellsWaits cfgs (dats m ρ) () 0 c)
    (hL : ∀ g : GSem nD τ sig, g.1.2 ≠ .tc → L g = ∅)
    (hcreds : ∀ c, (Pipeline.launchCred O₀ c : sProp 𝕄) ⊢ credits c) :
    θ_run defs (onTc (τ := τ) (main (F := F))) (s₀ m ρ)
      (fun r => ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := hL) (hwaits := hwaits)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ hcreds) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.AR.run_main' depends on axioms: [propext, Classical.choice, Quot.sound] -/
#guard_msgs in #print axioms run_main

end Cert.Kernel.AR

end
-- ==== Proof.K.States.lean ====
import proofs.«900720_g7700000000000721_dist_ar_v7x_xyz2x2x4_z_m4096_n1024_f32_1_alg».proof.Proof.K.Core

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def bor {sh : Shape} (c' : Dev nD) (v : Memref sig .tc .vmem sh .f32) : sProp 𝕄 :=
  iprop(∃ f : Buf (Elt F) (v.view.loc (c' : Thread nD τ)), pts c' v fullShare f)

def toksFrom (c : Dev nD) (k : ℕ) : sProp 𝕄 :=
  bigSep (Finset.univ.filter fun j : Fin 24 => k ≤ j.val) fun j => iprop(dutyTok ER (sendCell c j) 0 0 ∗ dutyTok ER (recvCell (peer j c) j) 0 0)
def recvTodo (c : Dev nD) (k : ℕ) : sProp 𝕄 :=
  bigSep (Finset.univ.filter fun j : Fin 24 => k ≤ j.val) fun j => iprop(atPos ER (recvCell c j) 0 ∅ 0 ∗ cred (tallyAt (recvCell c j) () (NJ j)))
def recvDone (c : Dev nD) (k : ℕ) : sProp 𝕄 :=
  bigSep (Finset.univ.filter fun j : Fin 24 => j.val < k) fun j => atPos ER (recvCell c j) 1 ∅ 0
def sendTodo (c : Dev nD) : sProp 𝕄 := bigSep Finset.univ fun j : Fin 24 => atPos ER (sendCell c j) 0 ∅ 0
def sendCred (c : Dev nD) (k : ℕ) : sProp 𝕄 :=
  bigSep (Finset.univ.filter fun j : Fin 24 => j.val < k) fun j => cred (tallyAt (sendCell c j) () (NJ j))

def ghostAt (K : GSem nD τ sig → ℕ) (c : Dev nD) (k : ℕ) : sProp 𝕄 :=
  iprop(records m ρ K ∗ levAts L lv ∗ toksFrom c k ∗ recvTodo c k ∗ recvDone c k ∗ sendTodo c ∗ sendCred c k
    ∗ ∃ W, owes (c : Thread nD τ) (Orem c (24 - k)) W)

abbrev Fn : Blk F := Fin_ (X m ρ)

theorem filter_ge_succ (j : Fin 24) :
    (Finset.univ.filter fun i : Fin 24 => j.val ≤ i.val) = insert j (Finset.univ.filter fun i : Fin 24 => j.val + 1 ≤ i.val) := by
  ext i
  simp only [Finset.mem_filter, Finset.mem_univ, true_and, Finset.mem_insert, Fin.ext_iff]
  omega

theorem filter_lt_succ (j : Fin 24) :
    (Finset.univ.filter fun i : Fin 24 => i.val < j.val + 1) = insert j (Finset.univ.filter fun i : Fin 24 => i.val < j.val) := by
  ext i
  simp only [Finset.mem_filter, Finset.mem_univ, true_and, Finset.mem_insert, Fin.ext_iff]
  omega

/-- A product over the copies from the `k`-th on is the `k`-th factor and the product from the next on. -/
theorem take_ge (Φ : Fin 24 → sProp 𝕄) (j : Fin 24) (k k' : ℕ) (hk : k = j.val) (hk' : k' = k + 1) :
    bigSep (Finset.univ.filter fun i : Fin 24 => k ≤ i.val) Φ = iprop(Φ j ∗ bigSep (Finset.univ.filter fun i : Fin 24 => k' ≤ i.val) Φ) := by
  subst hk hk'
  rw [filter_ge_succ j, bigSep_insert (by simp only [Finset.mem_filter, Finset.mem_univ, true_and]; omega)]
  rfl

/-- A product over the copies before the `k + 1`-th is the `k`-th factor and the product over those before it. -/
theorem put_lt (Φ : Fin 24 → sProp 𝕄) (j : Fin 24) (k k' : ℕ) (hk : k = j.val) (hk' : k' = k + 1) :
    bigSep (Finset.univ.filter fun i : Fin 24 => i.val < k') Φ = iprop(Φ j ∗ bigSep (Finset.univ.filter fun i : Fin 24 => i.val < k) Φ) := by
  subst hk hk'
  rw [filter_lt_succ j, bigSep_insert (by simp only [Finset.mem_filter, Finset.mem_univ, true_and]; omega)]
  rfl

theorem toks_succ (c : Dev nD) (j : Fin 24) (k k' : ℕ) (hk : k = j.val) (hk' : k' = k + 1) :
    (toksFrom c k : sProp 𝕄) = iprop((dutyTok ER (sendCell c j) 0 0 ∗ dutyTok ER (recvCell (peer j c) j) 0 0) ∗ toksFrom c k') :=
  take_ge _ j k k' hk hk'
theorem recvTodo_succ (c : Dev nD) (j : Fin 24) (k k' : ℕ) (hk : k = j.val) (hk' : k' = k + 1) :
    (recvTodo c k : sProp 𝕄) = iprop((atPos ER (recvCell c j) 0 ∅ 0 ∗ cred (tallyAt (recvCell c j) () (NJ j))) ∗ recvTodo c k') :=
  take_ge _ j k k' hk hk'
theorem recvDone_succ (c : Dev nD) (j : Fin 24) (k k' : ℕ) (hk : k = j.val) (hk' : k' = k + 1) :
    (recvDone c k' : sProp 𝕄) = iprop(atPos ER (recvCell c j) 1 ∅ 0 ∗ recvDone c k) :=
  put_lt _ j k k' hk hk'
theorem sendCred_succ (c : Dev nD) (j : Fin 24) (k k' : ℕ) (hk : k = j.val) (hk' : k' = k + 1) :
    (sendCred c k' : sProp 𝕄) = iprop(cred (tallyAt (sendCell c j) () (NJ j)) ∗ sendCred c k) :=
  put_lt _ j k k' hk hk'

def borPa (c : Dev nD) (l : List (Fin 2 × Fin 3)) : sProp 𝕄 := bigSepL l fun pt => bor (F := F) (xr c) (paV c pt.1 pt.2)
def borPb (c : Dev nD) (l : List (Fin 2 × Fin 3)) : sProp 𝕄 := bigSepL l fun pt => bor (F := F) (xl c) (pbV c pt.1 pt.2)
def slotsHeld (c : Dev nD) (l : List (Fin 2 × Fin 3)) : sProp 𝕄 :=
  bigSepL l fun ps => owns (c : Thread nD τ) (slotV (slotOf ps.1 ps.2)) fullShare (landed m ρ c ps.1 ps.2)

omit [FloatOps F] in
theorem borPa_cons (c : Dev nD) (pt q : Fin 2 × Fin 3) (l : List (Fin 2 × Fin 3)) : borPa (F := F) c (pt :: q :: l) = iprop(bor (xr c) (paV c pt.1 pt.2) ∗ borPa c (q :: l)) := rfl
omit [FloatOps F] in
theorem borPa_one (c : Dev nD) (pt : Fin 2 × Fin 3) : borPa (F := F) c [pt] = bor (xr c) (paV c pt.1 pt.2) := rfl
omit [FloatOps F] in
theorem borPb_cons (c : Dev nD) (pt q : Fin 2 × Fin 3) (l : List (Fin 2 × Fin 3)) : borPb (F := F) c (pt :: q :: l) = iprop(bor (xl c) (pbV c pt.1 pt.2) ∗ borPb c (q :: l)) := rfl
omit [FloatOps F] in
theorem borPb_one (c : Dev nD) (pt : Fin 2 × Fin 3) : borPb (F := F) c [pt] = bor (xl c) (pbV c pt.1 pt.2) := rfl
theorem slotsHeld_cons (c : Dev nD) (ps q : Fin 2 × Fin 3) (l : List (Fin 2 × Fin 3)) :
    slotsHeld m ρ c (ps :: q :: l) = iprop(owns (c : Thread nD τ) (slotV (slotOf ps.1 ps.2)) fullShare (landed m ρ c ps.1 ps.2) ∗ slotsHeld m ρ c (q :: l)) := rfl
theorem slotsHeld_one (c : Dev nD) (ps : Fin 2 × Fin 3) :
    slotsHeld m ρ c [ps] = owns (c : Thread nD τ) (slotV (slotOf ps.1 ps.2)) fullShare (landed m ρ c ps.1 ps.2) := rfl

def St1 (K : GSem nD τ sig → ℕ) (c : Dev nD) (xr_ : sProp 𝕄) : sProp 𝕄 :=
  iprop(ghostAt m ρ K c 0
    ∗ pts c (srcV xM c 0 0) Lq (X m ρ c) ∗ pts c (srcV xM c 1 0) Lq (X m ρ c) ∗ xr_
    ∗ (∃ g : Buf (Elt F) (oM.view.loc (c : Thread nD τ)), pts c (agV c 0 0) fullShare g ∗ pts c (agV c 0 1) fullShare g ∗ pts c (agV c 0 2) fullShare g
        ∗ pts c (agV c 1 0) fullShare g ∗ pts c (agV c 1 1) fullShare g ∗ pts c (agV c 1 2) fullShare g)
    ∗ (bor (zr c) (slotV 0) ∗ bor (zr c) (slotV 1) ∗ bor (zr c) (slotV 2) ∗ bor (zr c) (slotV 3) ∗ bor (zr c) (slotV 4) ∗ bor (zr c) (slotV 5))
    ∗ bor (zl c) (agV c 0 2) ∗ bor (zl c) (agV c 1 2)
    ∗ borPa c [(0,0),(0,1),(0,2),(1,0),(1,1),(1,2)] ∗ borPb c [(0,0),(0,1),(0,2),(1,0),(1,1),(1,2)])

def St2 (K : GSem nD τ sig → ℕ) (c : Dev nD) (xr_ : sProp 𝕄) : sProp 𝕄 :=
  iprop(ghostAt m ρ K c 6
    ∗ pts c (srcV xM c 1 0) Lq (X m ρ c) ∗ xr_
    ∗ pts c (agV c 0 0) Rq (Fn m ρ) ∗ pts c (agV c 0 1) Rq (Fn m ρ) ∗ pts c (agV c 0 2) Rq (Fn m ρ) ∗ pts c (agV (zr c) 0 2) fullShare (Fn m ρ)
    ∗ (∃ g : Buf (Elt F) (oM.view.loc (c : Thread nD τ)), pts c (agV c 1 0) fullShare g ∗ pts c (agV c 1 1) fullShare g ∗ pts c (agV c 1 2) fullShare g)
    ∗ slotsHeld m ρ c [(0,0),(0,1),(0,2)]
    ∗ (bor (zr c) (slotV 3) ∗ bor (zr c) (slotV 4) ∗ bor (zr c) (slotV 5))
    ∗ bor (zl c) (agV c 1 2)
    ∗ borPa c [(0,0),(0,1),(0,2),(1,0),(1,1),(1,2)] ∗ borPb c [(0,0),(0,1),(0,2),(1,0),(1,1),(1,2)])

def St3 (K : GSem nD τ sig → ℕ) (c : Dev nD) (xr_ : sProp 𝕄) : sProp 𝕄 :=
  iprop(ghostAt m ρ K c 10
    ∗ xr_
    ∗ pts c (agV (zr c) 0 2) Lq (Fn m ρ) ∗ pts c (paV (xl c) 0 0) fullShare (Fn m ρ) ∗ pts c (pbV (xr c) 0 0) fullShare (Fn m ρ)
    ∗ (∃ g : Buf (Elt F) (oM.view.loc (c : Thread nD τ)), pts c (agV c 1 0) fullShare g) ∗ pts c (agV c 1 1) fullShare (Sk (X m ρ) 2 c)
    ∗ slotsHeld m ρ c [(0,0),(0,1),(0,2),(1,0),(1,1)]
    ∗ bor (zr c) (slotV 5)
    ∗ bor (zl c) (agV c 1 2) ∗ pts (zl c) (agV c 1 1) fullShare (Sk (X m ρ) 1 (zl c))
    ∗ borPa c [(0,1),(0,2),(1,0),(1,1),(1,2)] ∗ borPb c [(0,1),(0,2),(1,0),(1,1),(1,2)])

def St4 (K : GSem nD τ sig → ℕ) (c : Dev nD) (xr_ : sProp 𝕄) : sProp 𝕄 :=
  iprop(ghostAt m ρ K c 14
    ∗ xr_
    ∗ pts c (agV (zr c) 0 2) Lq (Fn m ρ) ∗ pts c (paV (xl c) 0 1) fullShare (Fn m ρ) ∗ pts c (pbV (xr c) 0 1) fullShare (Fn m ρ)
    ∗ pts c (agV c 1 0) Rq (Fn m ρ) ∗ pts c (agV c 1 1) fullShare (Fn m ρ)
    ∗ slotsHeld m ρ c [(0,0),(0,1),(0,2),(1,0),(1,1),(1,2)]
    ∗ bor (zl c) (agV c 1 2) ∗ pts (zl c) (agV c 1 1) fullShare (Sk (X m ρ) 1 (zl c))
    ∗ borPa c [(0,2),(1,0),(1,1),(1,2)] ∗ borPb c [(0,2),(1,0),(1,1),(1,2)])

def St5 (K : GSem nD τ sig → ℕ) (c : Dev nD) (xr_ : sProp 𝕄) : sProp 𝕄 :=
  iprop(ghostAt m ρ K c 18
    ∗ xr_
    ∗ pts c (agV (zr c) 0 2) Lq (Fn m ρ) ∗ pts c (paV (xl c) 0 2) fullShare (Fn m ρ) ∗ pts c (pbV (xr c) 0 2) fullShare (Fn m ρ)
    ∗ pts c (agV c 1 0) Rq (Fn m ρ) ∗ pts c (agV c 1 1) Rq (Fn m ρ) ∗ pts c (agV c 1 2) Rq (Fn m ρ) ∗ pts c (agV (zr c) 1 2) fullShare (Fn m ρ)
    ∗ slotsHeld m ρ c [(0,0),(0,1),(0,2),(1,0),(1,1),(1,2)]
    ∗ borPa c [(1,0),(1,1),(1,2)] ∗ borPb c [(1,0),(1,1),(1,2)])

def St6 (K : GSem nD τ sig → ℕ) (c : Dev nD) (xr_ : sProp 𝕄) : sProp 𝕄 :=
  iprop(ghostAt m ρ K c 24
    ∗ xr_
    ∗ pts c (agV (zr c) 0 2) Lq (Fn m ρ) ∗ pts c (agV (zr c) 1 2) Lq (Fn m ρ)
    ∗ pts c (paV (xl c) 0 2) fullShare (Fn m ρ) ∗ pts c (pbV (xr c) 0 2) fullShare (Fn m ρ)
    ∗ pts c (paV (xl c) 1 2) fullShare (Fn m ρ) ∗ pts c (pbV (xr c) 1 2) fullShare (Fn m ρ)
    ∗ slotsHeld m ρ c [(0,0),(0,1),(0,2),(1,0),(1,1),(1,2)])

def St1b (K : GSem nD τ sig → ℕ) (c : Dev nD) (xr_ : sProp 𝕄) : sProp 𝕄 :=
  iprop(ghostAt m ρ K c 3
    ∗ pts c (srcV xM c 1 0) Lq (X m ρ c) ∗ xr_
    ∗ pts c (agV c 0 0) fullShare (Sk (X m ρ) 3 c)
    ∗ (∃ g : Buf (Elt F) (oM.view.loc (c : Thread nD τ)), pts c (agV c 1 0) fullShare g ∗ pts c (agV c 1 1) fullShare g ∗ pts c (agV c 1 2) fullShare g)
    ∗ slotsHeld m ρ c [(0,0),(0,1),(0,2)]
    ∗ (bor (zr c) (slotV 3) ∗ bor (zr c) (slotV 4) ∗ bor (zr c) (slotV 5))
    ∗ bor (zl c) (agV c 0 2) ∗ bor (zl c) (agV c 1 2)
    ∗ pts (zl c) (agV c 0 1) fullShare (Sk (X m ρ) 1 (zl c)) ∗ pts (zl c) (agV c 0 0) fullShare (Sk (X m ρ) 2 (zl c))
    ∗ borPa c [(0,0),(0,1),(0,2),(1,0),(1,1),(1,2)] ∗ borPb c [(0,0),(0,1),(0,2),(1,0),(1,1),(1,2)])

def St7 (c : Dev nD) : sProp 𝕄 :=
  iprop((∃ f : Buf (Elt F) (cM.view.loc (c : Thread nD τ)), pts c cM fullShare f)
    ∗ (bigSep Finset.univ fun jb : Fin 24 × Bool => semVal (dcell c jb) 0)
    ∗ (∃ W, owes (c : Thread nD τ) 0 W)
    ∗ (((c : Thread nD τ).loc cc0_stg0_0) ↦{fullShare} X m ρ c)
    ∗ (((c : Thread nD τ).loc cc0_stg1_0) ↦{fullShare} Fn m ρ))

end Cert.Kernel.AR

end
-- ==== Proof.K.Tables.lean ====
import proofs.«900720_g7700000000000721_dist_ar_v7x_xyz2x2x4_z_m4096_n1024_f32_1_alg».proof.Proof.K.Core
import Idealize.ShloMosaic.Lib.Pipeline.Launch
import Idealize.ShloMosaic.Lib.Pipeline.Kit
import Idealize.ShloMosaic.Lib.Tactic
import Mathlib.Tactic.FinCases

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem semCopy_send (j : Fin 24) : semCopy (sendSem j) = some (j, false) := by revert j; decide
theorem semCopy_recv (j : Fin 24) : semCopy (recvSem j) = some (j, true) := by revert j; decide

theorem send_lt_iff (j : Fin 24) : (sendSem j).val < 26 ↔ (recvSem j).val < 26 := by revert j; decide

theorem duties_bar (c : Dev nD) : (Rd (F := F) m ρ).duties (barCell c) 0 = Finset.univ := by
  dsimp only [Rd]; exact if_pos ⟨rfl, rfl⟩
theorem duties_send (c : Dev nD) (j : Fin 24) : (Rd (F := F) m ρ).duties (sendCell c j) 0 = {0} := by
  dsimp only [Rd]; rw [if_pos ⟨rfl, rfl⟩, semCopy_send]; rfl
theorem duties_recv (c : Dev nD) (j : Fin 24) : (Rd (F := F) m ρ).duties (recvCell c j) 0 = {0} := by
  dsimp only [Rd]; rw [if_pos ⟨rfl, rfl⟩, semCopy_recv]; rfl
theorem duties_later (g : GSem nD τ sig) : ∀ r, 1 ≤ r → (Rd (F := F) m ρ).duties g r = ∅ :=
  fun r hr => by dsimp only [Rd]; exact if_neg fun h => by omega

theorem amount_bar (c : Dev nD) (d : Fin 4) : (Rd (F := F) m ρ).amount (barCell c) 0 d = 1 := rfl
theorem amount_send (c : Dev nD) (j : Fin 24) (d : Fin 4) : (Rd (F := F) m ρ).amount (sendCell c j) 0 d = NJ j := by
  show (if (sendSem j).val < 26 then N128 else N256) = if (recvSem j).val < 26 then N128 else N256
  exact if_congr (send_lt_iff j) rfl rfl
theorem amount_recv (c : Dev nD) (j : Fin 24) (d : Fin 4) : (Rd (F := F) m ρ).amount (recvCell c j) 0 d = NJ j := rfl

theorem expect_bar (c : Dev nD) : (Rd (F := F) m ρ).expect (barCell c) 0 = 4 := by
  unfold Schedule.expect Schedule.amountOf
  rw [duties_bar, Finset.sum_congr rfl fun d _ => amount_bar m ρ c d, Finset.sum_const, Finset.card_univ, Fintype.card_fin, smul_eq_mul]
theorem expect_send (c : Dev nD) (j : Fin 24) : (Rd (F := F) m ρ).expect (sendCell c j) 0 = NJ j := by
  unfold Schedule.expect Schedule.amountOf; rw [duties_send, Finset.sum_singleton, amount_send]
theorem expect_recv (c : Dev nD) (j : Fin 24) : (Rd (F := F) m ρ).expect (recvCell c j) 0 = NJ j := by
  unfold Schedule.expect Schedule.amountOf; rw [duties_recv, Finset.sum_singleton, amount_recv]

theorem payload_bar (c : Dev nD) (d : Fin 4) : (Rd (F := F) m ρ).payload (barCell c) 0 d = barPay c d := rfl
theorem payload_send (c : Dev nD) (j : Fin 24) (d : Fin 4) : (Rd (F := F) m ρ).payload (sendCell c j) 0 d = sendPay m ρ c j := by
  show dmaPay m ρ c (sendSem j) = sendPay m ρ c j
  unfold dmaPay; rw [semCopy_send]
theorem payload_recv (c : Dev nD) (j : Fin 24) (d : Fin 4) : (Rd (F := F) m ρ).payload (recvCell c j) 0 d = recvPay m ρ c j := by
  show dmaPay m ρ c (recvSem j) = recvPay m ρ c j
  unfold dmaPay; rw [semCopy_recv]

theorem rest_bar (c : Dev nD) : bigSep ((Rd (F := F) m ρ).duties (barCell c) 0 \ ∅) (fun d => (Rd (F := F) m ρ).payload (barCell c) 0 d)
    = iprop(lendSlots (zr c) ∗ lendAg c ∗ lendPa c ∗ lendPb c) := by
  rw [Finset.sdiff_empty, duties_bar, bigSep_univ_eq_bigSepL [0, 1, 2, 3] (by decide) (by decide), bigSepL_cons_cons, bigSepL_cons_cons,
    bigSepL_cons_cons, bigSepL_singleton, payload_bar, payload_bar, payload_bar, payload_bar]
  rfl
theorem rest_send (c : Dev nD) (j : Fin 24) : bigSep ((Rd (F := F) m ρ).duties (sendCell c j) 0 \ ∅) (fun d => (Rd (F := F) m ρ).payload (sendCell c j) 0 d)
    = sendPay m ρ c j := by
  rw [Finset.sdiff_empty, duties_send, bigSep_singleton, payload_send]
theorem rest_recv (c : Dev nD) (j : Fin 24) : bigSep ((Rd (F := F) m ρ).duties (recvCell c j) 0 \ ∅) (fun d => (Rd (F := F) m ρ).payload (recvCell c j) 0 d)
    = recvPay m ρ c j := by
  rw [Finset.sdiff_empty, duties_recv, bigSep_singleton, payload_recv]

theorem NJ_rs (p : Fin 2) (s : Fin 3) : NJ (rsJ p s) = N128 := if_pos (by revert p s; decide)
theorem NJ_ag (p : Fin 2) (t : Fin 3) : NJ (agJ p t) = N128 := if_pos (by revert p t; decide)
theorem NJ_pa (p : Fin 2) (t : Fin 3) : NJ (paJ p t) = N256 := if_neg (by revert p t; decide)
theorem NJ_pb (p : Fin 2) (t : Fin 3) : NJ (pbJ p t) = N256 := if_neg (by revert p t; decide)

theorem amount_slot (k : Fin 6) (q : DmaSem sig) : (slotV k).view.amount (.dma q) = N128 := rfl
theorem amount_ag (c : Dev nD) (p : Fin 2) (t : Fin 3) (q : DmaSem sig) : (agV c p t).view.amount (.dma q) = N128 := rfl
theorem amount_pa (c : Dev nD) (p : Fin 2) (t : Fin 3) (q : DmaSem sig) : (paV c p t).view.amount (.dma q) = N256 := rfl
theorem amount_pb (c : Dev nD) (p : Fin 2) (t : Fin 3) (q : DmaSem sig) : (pbV c p t).view.amount (.dma q) = N256 := rfl

theorem bar_sem : (SemArray.scalar (sig.barrier 0 rfl) : Sems sig S_).sem = barS := rfl

/-- Each copy's semaphore as the program names it: one element of a semaphore array, at the copy's place in the array. -/
theorem zsend_rs (p : Fin 2) (s : Fin 3) (h : ∀ a, (![6 * p.val + s.val] : Fin 1 → Nat) a + S1.size a ≤ S12.size a) (hs : S1.Squeezes S_) :
    ((cc0_scratch1.slice (Rect.unit (s := S12) ![6 * p.val + s.val] S1.size h) : DmaSems sig S1).squeeze S_ hs).sem = sendSem (rsJ p s) := by decide +revert
theorem zsend_ag (p : Fin 2) (t : Fin 3) (h : ∀ a, (![6 * p.val + 3 + t.val] : Fin 1 → Nat) a + S1.size a ≤ S12.size a) (hs : S1.Squeezes S_) :
    ((cc0_scratch1.slice (Rect.unit (s := S12) ![6 * p.val + 3 + t.val] S1.size h) : DmaSems sig S1).squeeze S_ hs).sem = sendSem (agJ p t) := by decide +revert
theorem zrecv_rs (p : Fin 2) (s : Fin 3) (h : ∀ a, (![6 * p.val + s.val] : Fin 1 → Nat) a + S1.size a ≤ S12.size a) (hs : S1.Squeezes S_) :
    ((cc0_scratch2.slice (Rect.unit (s := S12) ![6 * p.val + s.val] S1.size h) : DmaSems sig S1).squeeze S_ hs).sem = recvSem (rsJ p s) := by decide +revert
theorem zrecv_ag (p : Fin 2) (t : Fin 3) (h : ∀ a, (![6 * p.val + 3 + t.val] : Fin 1 → Nat) a + S1.size a ≤ S12.size a) (hs : S1.Squeezes S_) :
    ((cc0_scratch2.slice (Rect.unit (s := S12) ![6 * p.val + 3 + t.val] S1.size h) : DmaSems sig S1).squeeze S_ hs).sem = recvSem (agJ p t) := by decide +revert
theorem upsend_sem (p : Fin 2) (t : Fin 3) (h : ∀ a, (![3 * p.val + t.val] : Fin 1 → Nat) a + S1.size a ≤ S6.size a) (hs : S1.Squeezes S_) :
    ((cc0_scratch3.slice (Rect.unit (s := S6) ![3 * p.val + t.val] S1.size h) : DmaSems sig S1).squeeze S_ hs).sem = sendSem (paJ p t) := by decide +revert
theorem uprecv_sem (p : Fin 2) (t : Fin 3) (h : ∀ a, (![3 * p.val + t.val] : Fin 1 → Nat) a + S1.size a ≤ S6.size a) (hs : S1.Squeezes S_) :
    ((cc0_scratch4.slice (Rect.unit (s := S6) ![3 * p.val + t.val] S1.size h) : DmaSems sig S1).squeeze S_ hs).sem = recvSem (paJ p t) := by decide +revert
theorem dnsend_sem (p : Fin 2) (t : Fin 3) (h : ∀ a, (![3 * p.val + t.val] : Fin 1 → Nat) a + S1.size a ≤ S6.size a) (hs : S1.Squeezes S_) :
    ((cc0_scratch5.slice (Rect.unit (s := S6) ![3 * p.val + t.val] S1.size h) : DmaSems sig S1).squeeze S_ hs).sem = sendSem (pbJ p t) := by decide +revert
theorem dnrecv_sem (p : Fin 2) (t : Fin 3) (h : ∀ a, (![3 * p.val + t.val] : Fin 1 → Nat) a + S1.size a ≤ S6.size a) (hs : S1.Squeezes S_) :
    ((cc0_scratch6.slice (Rect.unit (s := S6) ![3 * p.val + t.val] S1.size h) : DmaSems sig S1).squeeze S_ hs).sem = recvSem (pbJ p t) := by decide +revert

theorem sendPay_rs (c : Dev nD) (p : Fin 2) (s : Fin 3) : sendPay m ρ c (rsJ p s) = rsS m ρ c p s := by
  fin_cases p <;> fin_cases s <;> rfl
theorem sendPay_ag (c : Dev nD) (p : Fin 2) (t : Fin 3) : sendPay m ρ c (agJ p t) = agS m ρ c p t := by
  fin_cases p <;> fin_cases t <;> rfl
theorem sendPay_pa (c : Dev nD) (p : Fin 2) (t : Fin 3) : sendPay m ρ c (paJ p t) = paS m ρ c p t := by
  fin_cases p <;> fin_cases t <;> rfl
theorem sendPay_pb (c : Dev nD) (p : Fin 2) (t : Fin 3) : sendPay m ρ c (pbJ p t) = pbS m ρ c p t := by
  fin_cases p <;> fin_cases t <;> rfl
theorem recvPay_rs (c : Dev nD) (p : Fin 2) (s : Fin 3) : recvPay m ρ c (rsJ p s) = rsR m ρ c p s := by
  fin_cases p <;> fin_cases s <;> rfl
theorem recvPay_ag (c : Dev nD) (p : Fin 2) (t : Fin 3) : recvPay m ρ c (agJ p t) = agR m ρ c p t := by
  fin_cases p <;> fin_cases t <;> rfl
theorem recvPay_pa (c : Dev nD) (p : Fin 2) (t : Fin 3) : recvPay m ρ c (paJ p t) = paR m ρ c p t := by
  fin_cases p <;> fin_cases t <;> rfl
theorem recvPay_pb (c : Dev nD) (p : Fin 2) (t : Fin 3) : recvPay m ρ c (pbJ p t) = pbR m ρ c p t := by
  fin_cases p <;> fin_cases t <;> rfl

theorem peer_rs (p : Fin 2) (s : Fin 3) (c : Dev nD) : peer (rsJ p s) c = zr c := by revert p s c; decide
theorem peer_ag (p : Fin 2) (t : Fin 3) (c : Dev nD) : peer (agJ p t) c = zl c := by revert p t c; decide
theorem peer_pa (p : Fin 2) (t : Fin 3) (c : Dev nD) : peer (paJ p t) c = xr c := by revert p t c; decide
theorem peer_pb (p : Fin 2) (t : Fin 3) (c : Dev nD) : peer (pbJ p t) c = xl c := by revert p t c; decide

end Cert.Kernel.AR

end
-- ==== Proof.K.Steps.lean ====
import proofs.«900720_g7700000000000721_dist_ar_v7x_xyz2x2x4_z_m4096_n1024_f32_1_alg».proof.Proof.K.States
import proofs.«900720_g7700000000000721_dist_ar_v7x_xyz2x2x4_z_m4096_n1024_f32_1_alg».proof.Proof.K.Tables

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem inv_bar (K : GSem nD τ sig → ℕ) (c' : Dev nD) : records m ρ K ⊢ cellInv ER (Rd m ρ) (K (barCell c')) (barCell c') :=
  (show records m ρ K ⊢ (bigSep Finset.univ fun c : Dev nD => cellInv ER (Rd m ρ) (K (barCell c)) (barCell c)) from by
    unfold records; iintro ⟨H, -, -, -⟩; iexact H).trans
  (bigSep_elim (Φ := fun c : Dev nD => cellInv ER (Rd m ρ) (K (barCell c)) (barCell c)) (Finset.mem_univ c'))
theorem inv_d (K : GSem nD τ sig → ℕ) (c' : Dev nD) (jb : Fin 24 × Bool) : records m ρ K ⊢ cellInv ER (Rd m ρ) (K (dcell c' jb)) (dcell c' jb) :=
  (show records m ρ K ⊢ (bigSep Finset.univ fun cj : Dev nD × (Fin 24 × Bool) => cellInv ER (Rd m ρ) (K (dcell cj.1 cj.2)) (dcell cj.1 cj.2)) from by
    unfold records; iintro ⟨-, H, -, -⟩; iexact H).trans
  (bigSep_elim (Φ := fun cj : Dev nD × (Fin 24 × Bool) => cellInv ER (Rd m ρ) (K (dcell cj.1 cj.2)) (dcell cj.1 cj.2)) (Finset.mem_univ (c', jb)))
theorem reached_bar (K : GSem nD τ sig → ℕ) (c' : Dev nD) : records m ρ K ⊢ reached ER (barCell c') 0 :=
  (show records m ρ K ⊢ (bigSep Finset.univ fun c : Dev nD => (reached ER (barCell c) 0 : sProp 𝕄)) from by
    unfold records; iintro ⟨-, -, H, -⟩; iexact H).trans
  (bigSep_elim (Φ := fun c : Dev nD => (reached ER (barCell c) 0 : sProp 𝕄)) (Finset.mem_univ c'))
theorem reached_d (K : GSem nD τ sig → ℕ) (c' : Dev nD) (jb : Fin 24 × Bool) : records m ρ K ⊢ reached ER (dcell c' jb) 0 :=
  (show records m ρ K ⊢ (bigSep Finset.univ fun cj : Dev nD × (Fin 24 × Bool) => (reached ER (dcell cj.1 cj.2) 0 : sProp 𝕄)) from by
    unfold records; iintro ⟨-, -, -, H⟩; iexact H).trans
  (bigSep_elim (Φ := fun cj : Dev nD × (Fin 24 × Bool) => (reached ER (dcell cj.1 cj.2) 0 : sProp 𝕄)) (Finset.mem_univ (c', jb)))

theorem inv_send (K : GSem nD τ sig → ℕ) (c' : Dev nD) (j : Fin 24) : records m ρ K ⊢ cellInv ER (Rd m ρ) (K (sendCell c' j)) (sendCell c' j) := inv_d m ρ K c' (j, false)
theorem inv_recv (K : GSem nD τ sig → ℕ) (c' : Dev nD) (j : Fin 24) : records m ρ K ⊢ cellInv ER (Rd m ρ) (K (recvCell c' j)) (recvCell c' j) := inv_d m ρ K c' (j, true)
theorem reached_send (K : GSem nD τ sig → ℕ) (c' : Dev nD) (j : Fin 24) : records m ρ K ⊢ reached ER (sendCell c' j) 0 := reached_d m ρ K c' (j, false)
theorem reached_recv (K : GSem nD τ sig → ℕ) (c' : Dev nD) (j : Fin 24) : records m ρ K ⊢ reached ER (recvCell c' j) 0 := reached_d m ρ K c' (j, true)

theorem Orem_succ (c : Dev nD) (j : Fin 24) (n : ℕ) (hn : n + j.val = 23) :
    Orem c (n + 1) = Orem c n + tallyAt (recvCell (peer j c) j) () (NJ j) := by
  have hj : 23 - n = j.val := by omega
  show Orem c n + cpTally c (23 - n) = _
  unfold cpTally
  rw [dif_pos (by omega : 23 - n < 24)]
  have : (⟨23 - n, by omega⟩ : Fin 24) = j := Fin.ext hj
  rw [this]

theorem step_send {sh : Shape} (K : GSem nD τ sig → ℕ) (c : Dev nD) (j : Fin 24) (n : ℕ) (hn : n + j.val = 23)
    (src dst : Memref sig .tc .vmem sh .f32) (q : PosShare TreeShare)
    (fs : Buf (Elt F) (src.view.loc (c : Thread nD τ))) (fd : Buf (Elt F) (dst.view.loc (peer j c : Thread nD τ))) (W : Waits sig Unit)
    (d : Dev nD) (ss rs : DmaSem sig) (hd : d = peer j c) (hss : ss = sendSem j) (hrs : rs = recvSem j)
    {hsc : (dst : Memref sig (Dev.tc d : Thread nD τ).2.kind .vmem sh .f32).view.ref.isScScratch = false}
    {hsrc : src.view.WordExact} {hdst : dst.view.WordExact}
    {hsem : DmaTarget.Typed .vmem (.dma rs) (.remote (Dev.tc d : Thread nD τ) dst (.dma ss) hsc)}
    {α : Type} {Q : α → sProp 𝕄} {k : PUnit → Prog (TpuEff nD τ sig (Elt F) Λ₀ .tc) α}
    (hN : dst.view.amount (.dma (recvSem j)) = NJ j)
    (hpay₁ : (src.view.loc (c : Thread nD τ) ↦[src.view.set]{q} fs : sProp 𝕄) ⊢ sendPay m ρ c j)
    (hpay₂ : (dst.view.loc (peer j c : Thread nD τ) ↦[dst.view.set]{fullShare} (dst.view.write (Elt F) fd (src.view.read (Elt F) fs) Finset.univ) : sProp 𝕄)
      ⊢ recvPay m ρ (peer j c) j) :
    iprop(records m ρ K ∗ pts c src q fs ∗ pts (peer j c) dst fullShare fd ∗ owes (c : Thread nD τ) (Orem c (n + 1)) W
        ∗ dutyTok ER (sendCell c j) 0 0 ∗ dutyTok ER (recvCell (peer j c) j) 0 0)
      ⊢ iprop(((cred (tallyAt (sendCell c j) () (NJ j)) ∗ owes (c : Thread nD τ) (Orem c n) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma ss) hsc) (.dma rs) hsrc hdst hsem) k) Q) := by
  subst hd hss hrs
  iintro ⟨#HR, Hs, Hd, HO, Ht1, Ht2⟩
  iapply (Rounds.wp_send_pointsTo 𝒱₀ ER (Rd m ρ) (c : Thread nD τ) none (κ₁ := K (sendCell c j)) (κ₂ := K (recvCell (peer j c) j))
    (r₁ := 0) (r₂ := 0) (d₁ := 0) (d₂ := 0) (fd := fd)
    (by rw [duties_send]; exact Finset.mem_singleton_self _) (by rw [duties_recv]; exact Finset.mem_singleton_self _)
    () () (NJ j) hN (amount_send m ρ c j 0) (amount_recv m ρ (peer j c) j 0) (Orem c n) (Orem_succ c j n hn) (W := W)
    (by rw [payload_send]; exact hpay₁) (by rw [payload_recv]; exact hpay₂))
  isplitr; · iapply (inv_send m ρ K c j); iexact HR
  isplitr; · iapply (inv_recv m ρ K (peer j c) j); iexact HR
  isplitl [Hs]; · iexact Hs
  isplitl [Hd]; · iexact Hd
  isplitl [HO]; · iexact HO
  isplitl [Ht1]; · iexact Ht1
  isplitr; · iapply (reached_send m ρ K c j); iexact HR
  isplitl [Ht2]; · iexact Ht2
  iapply (reached_recv m ρ K (peer j c) j); iexact HR

theorem step_send_landing {sh : Shape} (K : GSem nD τ sig → ℕ) (c : Dev nD) (j : Fin 24) (n : ℕ) (hn : n + j.val = 23)
    (src dst : Memref sig .tc .vmem sh .f32) (q : PosShare TreeShare)
    (fs : Buf (Elt F) (src.view.loc (c : Thread nD τ))) (fd : Buf (Elt F) (dst.view.loc (peer j c : Thread nD τ))) (W : Waits sig Unit)
    (d : Dev nD) (ss rs : DmaSem sig) (hd : d = peer j c) (hss : ss = sendSem j) (hrs : rs = recvSem j)
    {hsc : (dst : Memref sig (Dev.tc d : Thread nD τ).2.kind .vmem sh .f32).view.ref.isScScratch = false}
    {hsrc : src.view.WordExact} {hdst : dst.view.WordExact}
    {hsem : DmaTarget.Typed .vmem (.dma rs) (.remote (Dev.tc d : Thread nD τ) dst (.dma ss) hsc)}
    {α : Type} {Q : α → sProp 𝕄} {k : PUnit → Prog (TpuEff nD τ sig (Elt F) Λ₀ .tc) α}
    (hN : dst.view.amount (.dma (recvSem j)) = NJ j)
    (hpay₁ : (emp : sProp 𝕄) ⊢ sendPay m ρ c j)
    (hpay₂ : iprop((dst.view.loc (peer j c : Thread nD τ) ↦[dst.view.set]{fullShare} (dst.view.write (Elt F) fd (src.view.read (Elt F) fs) Finset.univ))
        ∗ (src.view.loc (c : Thread nD τ) ↦[src.view.set]{q} fs))
      ⊢ recvPay m ρ (peer j c) j) :
    iprop(records m ρ K ∗ pts c src q fs ∗ pts (peer j c) dst fullShare fd ∗ owes (c : Thread nD τ) (Orem c (n + 1)) W
        ∗ dutyTok ER (sendCell c j) 0 0 ∗ dutyTok ER (recvCell (peer j c) j) 0 0)
      ⊢ iprop(((cred (tallyAt (sendCell c j) () (NJ j)) ∗ owes (c : Thread nD τ) (Orem c n) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma ss) hsc) (.dma rs) hsrc hdst hsem) k) Q) := by
  subst hd hss hrs
  iintro ⟨#HR, Hs, Hd, HO, Ht1, Ht2⟩
  iapply (Rounds.wp_send_landing_pointsTo 𝒱₀ ER (Rd m ρ) (c : Thread nD τ) none (κ₁ := K (sendCell c j)) (κ₂ := K (recvCell (peer j c) j))
    (r₁ := 0) (r₂ := 0) (d₁ := 0) (d₂ := 0) (fd := fd)
    (by rw [duties_send]; exact Finset.mem_singleton_self _) (by rw [duties_recv]; exact Finset.mem_singleton_self _)
    () () (NJ j) hN (amount_send m ρ c j 0) (amount_recv m ρ (peer j c) j 0) (Orem c n) (Orem_succ c j n hn) (W := W)
    (by rw [payload_send]; exact hpay₁) (by rw [payload_recv]; exact hpay₂))
  isplitr; · iapply (inv_send m ρ K c j); iexact HR
  isplitr; · iapply (inv_recv m ρ K (peer j c) j); iexact HR
  isplitl [Hs]; · iexact Hs
  isplitl [Hd]; · iexact Hd
  isplitl [HO]; · iexact HO
  isplitl [Ht1]; · iexact Ht1
  isplitr; · iapply (reached_send m ρ K c j); iexact HR
  isplitl [Ht2]; · iexact Ht2
  iapply (reached_recv m ρ K (peer j c) j); iexact HR

theorem step_wait_recv {sh : Shape} (K : GSem nD τ sig → ℕ) (c : Dev nD) (j : Fin 24) (O : CellTallies nD τ sig Unit) (W : Waits sig Unit)
    (src dst : Memref sig .tc .vmem sh .f32) (rs : DmaSem sig) (hrs : rs = recvSem j) {hs : src.view.WordExact} {hd : dst.view.WordExact}
    {α : Type} {Q : α → sProp 𝕄} {k : PUnit → Prog (TpuEff nD τ sig (Elt F) Λ₀ .tc) α}
    (hN : dst.view.dmaCredit = NJ j)
    (hmw : (levAts L lv : sProp 𝕄) ⊢ MayWait (c : Thread nD τ) (.dma (recvSem j)) () O) :
    iprop(records m ρ K ∗ levAts L lv ∗ cred (tallyAt (recvCell c j) () (NJ j)) ∗ owes (c : Thread nD τ) O W ∗ atPos ER (recvCell c j) 0 ∅ 0)
      ⊢ iprop((((∃ W', owes (c : Thread nD τ) O W') ∗ atPos ER (recvCell c j) 1 ∅ 0 ∗ recvPay m ρ c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rs src dst hs hd) k) Q) := by
  subst hrs
  rw [← hN]
  iintro ⟨#HR, #Hlev, Hc, HO, Hat⟩ Hk
  iapply (Rounds.wp_wait_rest_token 𝒱₀ ER (Rd m ρ) (c : Thread nD τ) none (κ := K (recvCell c j))
      (wpE_waitDma2_eq 𝒱₀ (c : Thread nD τ) none Set.univ) (Set.mem_univ _) () (O := O) (W := W) (R := 0) (m := 0) (T := ∅)
      (by rw [Nat.zero_add, expect_recv, hN])) $$ [Hc HO Hat]
  · isplitr; · iapply (inv_recv m ρ K c j); iexact HR
    isplitl [Hc]; · iexact Hc
    isplitl [HO]; · iexact HO
    isplitr; · iapply hmw; iexact Hlev
    iexact Hat
  iintro ⟨HO, Hat, -, Hpay⟩
  iapply Hk
  isplitl [HO]; · iexists _; iexact HO
  isplitl [Hat]; · iexact Hat
  iapply (Entails.of_eq (rest_recv m ρ c j)); iexact Hpay

theorem step_wait_send {sh : Shape} (K : GSem nD τ sig → ℕ) (c : Dev nD) (j : Fin 24) (W : Waits sig Unit)
    (src dst : Memref sig .tc .vmem sh .f32) {hs : src.view.WordExact} {hd : dst.view.WordExact}
    {α : Type} {Q : α → sProp 𝕄} {k : PUnit → Prog (TpuEff nD τ sig (Elt F) Λ₀ .tc) α}
    (hN : dst.view.dmaCredit = NJ j) :
    iprop(records m ρ K ∗ cred (tallyAt (sendCell c j) () (NJ j)) ∗ owes (c : Thread nD τ) 0 W ∗ atPos ER (sendCell c j) 0 ∅ 0)
      ⊢ iprop((((∃ W', owes (c : Thread nD τ) 0 W') ∗ atPos ER (sendCell c j) 1 ∅ 0 ∗ sendPay m ρ c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendSem j) src dst hs hd) k) Q) := by
  rw [← hN]
  iintro ⟨#HR, Hc, HO, Hat⟩ Hk
  iapply (Rounds.wp_wait_rest_token 𝒱₀ ER (Rd m ρ) (c : Thread nD τ) none (κ := K (sendCell c j))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iapply (inv_send m ρ K c j); iexact HR
    isplitl [Hc]; · iexact Hc
    isplitl [HO]; · iexact HO
    isplitr; · rw [MayWait_zero]; iempintro
    iexact Hat
  iintro ⟨HO, Hat, -, Hpay⟩
  iapply Hk
  isplitl [HO]; · iexists _; iexact HO
  isplitl [Hat]; · iexact Hat
  iapply (Entails.of_eq (rest_send m ρ c j)); iexact Hpay

end Cert.Kernel.AR

end
-- ==== Proof.K.Levels.lean ====
import proofs.«900720_g7700000000000721_dist_ar_v7x_xyz2x2x4_z_m4096_n1024_f32_1_alg».proof.Proof.K.Core

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem L_of_ne (g : GSem nD τ sig) (h : g.1.2 ≠ .tc) : L g = ∅ := if_neg h
theorem L_tc (c : Dev nD) (sm : SemLoc sig) : L ((c : Thread nD τ), sm) = {()} := if_pos rfl

theorem semCopy_of_recvSem (j : Fin 24) : semCopy (recvSem j) = some (j, true) := by revert j; decide

theorem lv_recv (d : Dev nD) (j : Fin 24) (u : Unit) : lv (recvCell d j) u = 2 + j.val := by
  show (match semCopy (recvSem j) with | some (j, true) => 2 + j.val | _ => 0) = _
  rw [semCopy_of_recvSem]

theorem lv_bar (d : Dev nD) (u : Unit) : lv (barCell d) u = 1 := rfl

theorem lv_stage (c : Dev nD) (q : DmaSem sig) (hq : semCopy q = none) (u : Unit) : lv ((c : Thread nD τ), .dma q) u = 0 := by
  show (match semCopy q with | some (j, true) => 2 + j.val | _ => 0) = _
  rw [hq]

theorem Orem_pos {c : Dev nD} : ∀ {n : ℕ} {g : GSem nD τ sig} {u : Unit}, 0 < Orem c n g u →
    ∃ i : Fin 24, 24 - n ≤ i.val ∧ g = recvCell (peer i c) i
  | 0, g, u, h => absurd h (Nat.lt_irrefl 0)
  | n + 1, g, u, h => by
    rcases Pipeline.add_pos_cases (D₁ := Orem c n) (D₂ := cpTally c (23 - n)) h with h | h
    · obtain ⟨i, hi, hg⟩ := Orem_pos h
      exact ⟨i, by omega, hg⟩
    · unfold cpTally at h
      rw [dif_pos (by omega : 23 - n < 24)] at h
      exact ⟨⟨23 - n, by omega⟩, by show 24 - (n + 1) ≤ 23 - n; omega, (Pipeline.tallyAt_pos h).1⟩

theorem O₀_pos {c : Dev nD} {g : GSem nD τ sig} {u : Unit} (h : 0 < O₀ c g u) :
    (∃ i : Fin 24, g = recvCell (peer i c) i) ∨ ∃ d : Dev nD, g = barCell d := by
  unfold O₀ at h
  rcases Pipeline.add_pos_cases h with h | h
  · rcases Pipeline.add_pos_cases h with h | h
    · rcases Pipeline.add_pos_cases h with h | h
      · rcases Pipeline.add_pos_cases h with h | h
        · obtain ⟨i, -, hg⟩ := Orem_pos h
          exact Or.inl ⟨i, hg⟩
        · exact Or.inr ⟨_, (Pipeline.tallyAt_pos h).1⟩
      · exact Or.inr ⟨_, (Pipeline.tallyAt_pos h).1⟩
    · exact Or.inr ⟨_, (Pipeline.tallyAt_pos h).1⟩
  · exact Or.inr ⟨_, (Pipeline.tallyAt_pos h).1⟩

theorem mayWait_bar (c : Dev nD) : (levAts L lv : sProp 𝕄) ⊢ MayWait (c : Thread nD τ) (.reg barS) () (Orem c 24) :=
  MayOwe.of_cut (L := L) (lev := lv) 1
    (fun p hp => by rw [Finset.mem_singleton.mp hp, L_tc]; exact Finset.mem_singleton_self _)
    (fun g u hg => by obtain ⟨i, -, rfl⟩ := Orem_pos hg; rw [L_tc]; exact Finset.mem_singleton_self _)
    (fun p hp => by rw [Finset.mem_singleton.mp hp]; exact le_of_eq (lv_bar c ()))
    (fun g u hg => by obtain ⟨i, -, rfl⟩ := Orem_pos hg; rw [lv_recv]; omega)

theorem mayWait_recv (c : Dev nD) (j : Fin 24) (n : ℕ) (hn : n + j.val ≤ 23) :
    (levAts L lv : sProp 𝕄) ⊢ MayWait (c : Thread nD τ) (.dma (recvSem j)) () (Orem c n) :=
  MayOwe.of_cut (L := L) (lev := lv) (2 + j.val)
    (fun p hp => by rw [Finset.mem_singleton.mp hp, L_tc]; exact Finset.mem_singleton_self _)
    (fun g u hg => by obtain ⟨i, -, rfl⟩ := Orem_pos hg; rw [L_tc]; exact Finset.mem_singleton_self _)
    (fun p hp => by rw [Finset.mem_singleton.mp hp]; exact le_of_eq (lv_recv c j ()))
    (fun g u hg => by obtain ⟨i, hi, rfl⟩ := Orem_pos hg; rw [lv_recv]; omega)

theorem mayWait_stage (c : Dev nD) (q : DmaSem sig) (hq : semCopy q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases O₀_pos hg with ⟨i, rfl⟩ | ⟨d, rfl⟩ <;> (rw [L_tc]; exact Finset.mem_singleton_self _))
      (fun p hp => by rw [Finset.mem_singleton.mp hp]; exact le_of_eq (lv_stage c q hq ()))
      (fun g u hg => by
        rcases O₀_pos hg with ⟨i, rfl⟩ | ⟨d, rfl⟩
        · rw [lv_recv]; omega
        · rw [lv_bar]; exact Nat.one_pos)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem Orem_eq_sum (c : Dev nD) (n : ℕ) : Orem c n = ∑ k ∈ Finset.range n, cpTally c (23 - k) := by
  induction n with
  | zero => rfl
  | succ n ih => rw [Finset.sum_range_succ, ← ih]; rfl

theorem Orem_all (c : Dev nD) : Orem c 24 = ∑ j : Fin 24, tallyAt (recvCell (peer j c) j) () (NJ j) := by
  rw [Orem_eq_sum]
  refine (Finset.sum_flip (n := 23) (fun k => cpTally c k)).trans ?_
  refine (Fin.sum_univ_eq_sum_range (fun k => cpTally c k) 24).symm.trans ?_
  refine Finset.sum_congr rfl fun j _ => ?_
  unfold cpTally
  rw [dif_pos j.isLt]

theorem launchCred_split (c : Dev nD) :
    (Pipeline.launchCred O₀ c : sProp 𝕄) =
      iprop((((Pipeline.launchCred (fun d => Orem d 24) c ∗ Pipeline.launchCred (fun d => tallyAt (barCell (xr d)) () 1) c)
        ∗ Pipeline.launchCred (fun d => tallyAt (barCell (xl d)) () 1) c) ∗ Pipeline.launchCred (fun d => tallyAt (barCell (zr d)) () 1) c)
        ∗ Pipeline.launchCred (fun d => tallyAt (barCell (zl d)) () 1) c) := by
  rw [← Pipeline.launchCred_add, ← Pipeline.launchCred_add, ← Pipeline.launchCred_add, ← Pipeline.launchCred_add]
  rfl

theorem launch_recvs (c : Dev nD) :
    (Pipeline.launchCred (fun d => Orem d 24) c : sProp 𝕄) ⊢ bigSep Finset.univ fun j : Fin 24 => cred (tallyAt (recvCell c j) () (NJ j)) := by
  rw [show (fun d : Dev nD => Orem d 24) = fun d => ∑ j ∈ Finset.univ, (fun (j : Fin 24) (d : Dev nD) => tallyAt (recvCell (peer j d) j) () (NJ j)) j d from
    funext fun d => Orem_all d, Pipeline.launchCred_sum]
  exact bigSep_mono fun j _ => Pipeline.launchCred_tallyAt (.dma (recvSem j)) (peer j) (from_ j) (peer_from j) (from_peer j) () (NJ j) c

theorem cred_four (g : GSem nD τ sig) :
    iprop(((cred (tallyAt g () 1) ∗ cred (tallyAt g () 1)) ∗ cred (tallyAt g () 1)) ∗ cred (tallyAt g () 1)) ⊢ (cred (tallyAt g () 4) : sProp 𝕄) := by
  show _ ⊢ (cred (tallyAt g () (1 + 1 + 1 + 1)) : sProp 𝕄)
  rw [← tallyAt_add, ← tallyAt_add, ← tallyAt_add]
  exact (sep_mono_left ((sep_mono_left (cred_add _ _).2).trans (cred_add _ _).2)).trans (cred_add _ _).2

theorem creds (c : Dev nD) : (Pipeline.launchCred O₀ c : sProp 𝕄) ⊢ credits c := by
  rw [launchCred_split]
  unfold credits
  iintro ⟨⟨⟨⟨Hr, H1⟩, H2⟩, H3⟩, H4⟩
  isplitr [Hr]
  · iapply (cred_four (F := F) (barCell c))
    isplitl [H1 H2 H3]
    · isplitl [H1 H2]
      · isplitl [H1]
        · iapply (Pipeline.launchCred_tallyAt (.reg barS) xr xl xr_xl xl_xr () 1 c); iexact H1
        · iapply (Pipeline.launchCred_tallyAt (.reg barS) xl xr xl_xr xr_xl () 1 c); iexact H2
      · iapply (Pipeline.launchCred_tallyAt (.reg barS) zr zl zr_zl zl_zr () 1 c); iexact H3
    · iapply (Pipeline.launchCred_tallyAt (.reg barS) zl zr zl_zr zr_zl () 1 c); iexact H4
  · iapply (launch_recvs (F := F) c); iexact Hr

end Cert.Kernel.AR

end
-- ==== Proof.K.Views.lean ====
import proofs.«900720_g7700000000000721_dist_ar_v7x_xyz2x2x4_z_m4096_n1024_f32_1_alg».proof.Proof.K.Core

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def accV (c : Dev nD) (p : Fin 2) (s : Fin 3) : Memref sig .tc .vmem S128x1024 .f32 := oM.slice (accR c p s) (fun _ => rfl)

theorem acc0_eq (c : Dev nD) (p : Fin 2) : accV c p 0 = agV c p 2 :=
  Memref.slice_unit_congr _ (by rw [off2_eq, off3_eq]; revert c p; decide) _ _ (fun _ => rfl) (fun _ => rfl)
theorem acc1_eq (c : Dev nD) (p : Fin 2) : accV c p 1 = agV c p 1 :=
  Memref.slice_unit_congr _ (by rw [off2_eq, off3_eq]; revert c p; decide) _ _ (fun _ => rfl) (fun _ => rfl)
theorem acc2_eq (c : Dev nD) (p : Fin 2) : accV c p 2 = agV c p 0 :=
  Memref.slice_unit_congr _ (by rw [off2_eq, off3_eq]; revert c p; decide) _ _ (fun _ => rfl) (fun _ => rfl)

theorem src1_eq (c : Dev nD) (p : Fin 2) : srcV oM c p 1 = agV c p 2 :=
  Memref.slice_unit_congr _ (by rw [off1_eq, off3_eq]; revert c p; decide) _ _ (fun _ => rfl) (fun _ => rfl)
theorem src2_eq (c : Dev nD) (p : Fin 2) : srcV oM c p 2 = agV c p 1 :=
  Memref.slice_unit_congr _ (by rw [off1_eq, off3_eq]; revert c p; decide) _ _ (fun _ => rfl) (fun _ => rfl)

theorem src_zl1 (c : Dev nD) (p : Fin 2) : srcV oM (zl c) p 1 = agV c p 1 :=
  Memref.slice_unit_congr _ (by rw [off1_eq, off3_eq]; revert c p; decide) _ _ (fun _ => rfl) (fun _ => rfl)
theorem src_zl2 (c : Dev nD) (p : Fin 2) : srcV oM (zl c) p 2 = agV c p 0 :=
  Memref.slice_unit_congr _ (by rw [off1_eq, off3_eq]; revert c p; decide) _ _ (fun _ => rfl) (fun _ => rfl)

theorem ag_zr0 (c : Dev nD) (p : Fin 2) : agV (zr c) p 0 = agV c p 1 :=
  Memref.slice_unit_congr _ (by rw [off3_eq, off3_eq]; revert c p; decide) _ _ (fun _ => rfl) (fun _ => rfl)
theorem ag_zr1 (c : Dev nD) (p : Fin 2) : agV (zr c) p 1 = agV c p 2 :=
  Memref.slice_unit_congr _ (by rw [off3_eq, off3_eq]; revert c p; decide) _ _ (fun _ => rfl) (fun _ => rfl)

theorem pa_next0 (c : Dev nD) (p : Fin 2) : paV c p 1 = paV (xl c) p 0 :=
  Memref.slice_unit_congr _ (by rw [off4_eq, off4_eq]; revert c p; decide) _ _ (fun _ => rfl) (fun _ => rfl)
theorem pa_next1 (c : Dev nD) (p : Fin 2) : paV c p 2 = paV (xl c) p 1 :=
  Memref.slice_unit_congr _ (by rw [off4_eq, off4_eq]; revert c p; decide) _ _ (fun _ => rfl) (fun _ => rfl)

theorem pb_next0 (c : Dev nD) (p : Fin 2) : pbV c p 1 = pbV (xr c) p 0 :=
  Memref.slice_unit_congr _ (by rw [off5_eq, off5_eq]; revert c p; decide) _ _ (fun _ => rfl) (fun _ => rfl)
theorem pb_next1 (c : Dev nD) (p : Fin 2) : pbV c p 2 = pbV (xr c) p 1 :=
  Memref.slice_unit_congr _ (by rw [off5_eq, off5_eq]; revert c p; decide) _ _ (fun _ => rfl) (fun _ => rfl)

theorem pay_eq2 : (k0_pay2 : Vec F S128x1024 .f32 → Vec F S1x128x1024 .f32 → FVec F S128x1024 .f32) = k0_pay1 := rfl
theorem pay_eq3 : (k0_pay3 : Vec F S128x1024 .f32 → Vec F S1x128x1024 .f32 → FVec F S128x1024 .f32) = k0_pay1 := rfl
theorem pay_eq5 : (k0_pay5 : Vec F S128x1024 .f32 → Vec F S1x128x1024 .f32 → FVec F S128x1024 .f32) = k0_pay1 := rfl

theorem slot_read_write (c : Dev nD) (k : Fin 6) (fd : Buf (Elt F) ((slotV k).view.loc (c : Thread nD τ))) (w : Vec F S128x1024 .f32) :
    (slotV k).view.read (Elt F) ((slotV k).view.write (Elt F) fd w Finset.univ) = w :=
  View.read_write_univ (v := (slotV k).view) (Val := Elt F) fd w

theorem src_read_x_o (c : Dev nD) (p : Fin 2) (s : Fin 3) (f : Blk F) :
    (srcV xM c p s).view.read (Elt F) f = (srcV oM c p s).view.read (Elt F) f := rfl

theorem write_read_self {sh : Shape} (v : Memref sig .tc .vmem sh .f32) (fd fs : v.view.ty.Contents (Elt F)) :
    ∀ i ∈ v.view.set, v.view.write (Elt F) fd (v.view.read (Elt F) fs) Finset.univ i = fs i := by
  intro i hi
  obtain ⟨x, -, rfl⟩ := Finset.mem_map.mp hi
  rw [View.write_emb_of_mem _ _ (Finset.mem_univ x), View.read_apply, cast_cast, cast_eq]

theorem slot_load_set (k : Fin 6) :
    cM.view.setOn (Rect.unit (s := S6x128x1024) ![k.val, 0, 0] S1x128x1024.size (slot_inb k)).toLoadRect.set ⊆ (slotV k).view.set := by
  have h : (slotV k).view.set
      = (Rect.unit (s := S6x128x1024) ![k.val, 0, 0] S1x128x1024.size (slot_inb k)).set.map cM.view.emb :=
    (View.set_reshape (cM.view.slice (Rect.unit (s := S6x128x1024) ![k.val, 0, 0] S1x128x1024.size (slot_inb k))) _).trans
      (View.set_slice cM.view _)
  intro i hi
  rw [h]; exact hi

theorem acc_load_set (c : Dev nD) (p : Fin 2) (s : Fin 3) :
    oM.view.setOn (accR c p s).toLoadRect.set ⊆ (accV c p s).view.set := by
  have h : (accV c p s).view.set = (accR c p s).set.map oM.view.emb := View.set_slice oM.view (accR c p s)
  intro i hi
  rw [h]; exact hi

theorem acc_load_set_x (c : Dev nD) (p : Fin 2) (s : Fin 3) :
    xM.view.setOn (accR c p s).toLoadRect.set ⊆ Finset.univ := Finset.subset_univ _

theorem off1_zl (c : Dev nD) (p : Fin 2) (s : Fin 3) : k0_off1 (zl c) (w512 p) (w3 s) = k0_off2 c (w512 p) (w3 s) := by
  rw [off1_eq, off2_eq]; revert c p s; decide

theorem unit_emb_congr {sh : Shape} {off off' size : Fin sh.rank → Nat} (h : off = off')
    (q : ∀ a, off a + size a ≤ sh.size a) (q' : ∀ a, off' a + size a ≤ sh.size a) (x : (⟨sh.rank, size⟩ : Shape).Idx) :
    (Rect.unit off size q).emb x = (Rect.unit off' size q').emb x := by subst h; rfl

theorem shapeCast_self (A : Vec F S128x1024 .f32) (x : S128x1024.Idx) :
    shapeCast S128x1024 A shapeCasts_S128x1024_S128x1024 x = A x := by
  unfold shapeCast; rw [Shape.reshapeEquiv_self]

theorem store_val (c : Dev nD) (p : Fin 2) (s : Fin 3) (g : Blk F) (f : Buf (Elt F) (cM.view.loc (c : Thread nD τ)))
    (hf : (slotV (slotOf p s)).view.read (Elt F) f = landed m ρ c p s) :
    ∀ i ∈ (accV c p s).view.set, (oM.access (accR c p s)).write (Elt F) g (k0_pay1 (xM.view.readAt (Elt F) (accR c p s).toLoadRect (X m ρ c)) (cM.view.readAt (Elt F) (Rect.unit (s := S6x128x1024) ![(slotOf p s).val, 0, 0] S1x128x1024.size (slot_inb (slotOf p s))).toLoadRect f)) Finset.univ i = Sk (X m ρ) (s.val + 1) c i := by
  intro i hi
  obtain ⟨x, -, rfl⟩ := Finset.mem_map.mp hi
  have hw := View.write_emb_of_mem (v := oM.view.slice (accR c p s)) (Val := Elt F) g
    (k0_pay1 (xM.view.readAt (Elt F) (accR c p s).toLoadRect (X m ρ c)) (cM.view.readAt (Elt F) (Rect.unit (s := S6x128x1024) ![(slotOf p s).val, 0, 0] S1x128x1024.size (slot_inb (slotOf p s))).toLoadRect f))
    (M := Finset.univ) (x := x) (Finset.mem_univ _)
  refine hw.trans ?_
  have hl : (slotV (slotOf p s)).view.read (Elt F) f x = Sk (X m ρ) s.val (zl c) ((accR c p s).emb x) := by
    rw [hf]
    show Sk (X m ρ) s.val (zl c) ((Rect.unit (s := S4096x1024) (k0_off1 (zl c) (w512 p) (w3 s)) S128x1024.size (k0_off1_inb (zl c) p s)).emb x)
      = Sk (X m ρ) s.val (zl c) ((Rect.unit (s := S4096x1024) (k0_off2 c (w512 p) (w3 s)) S128x1024.size (k0_off2_inb c p s)).emb x)
    exact congrArg _ (unit_emb_congr (sh := S4096x1024) (off1_zl c p s) (k0_off1_inb (zl c) p s) (k0_off2_inb c p s) x)
  have hA : shapeCast S128x1024 (xM.view.readAt (Elt F) (accR c p s).toLoadRect (X m ρ c)) shapeCasts_S128x1024_S128x1024 x
      = X m ρ c ((accR c p s).emb x) :=
    (shapeCast_self (xM.view.readAt (Elt F) (accR c p s).toLoadRect (X m ρ c)) x).trans rfl
  have hB : shapeCast S128x1024 (cM.view.readAt (Elt F) (Rect.unit (s := S6x128x1024) ![(slotOf p s).val, 0, 0] S1x128x1024.size (slot_inb (slotOf p s))).toLoadRect f) shapeCasts_S1x128x1024_S128x1024 x
      = (slotV (slotOf p s)).view.read (Elt F) f x := rfl
  show FloatOps.addf
      (shapeCast S128x1024 (xM.view.readAt (Elt F) (accR c p s).toLoadRect (X m ρ c)) shapeCasts_S128x1024_S128x1024 x)
      (shapeCast S128x1024 (cM.view.readAt (Elt F) (Rect.unit (s := S6x128x1024) ![(slotOf p s).val, 0, 0] S1x128x1024.size (slot_inb (slotOf p s))).toLoadRect f) shapeCasts_S1x128x1024_S128x1024 x)
    = addE (X m ρ c ((accR c p s).emb x)) (Sk (X m ρ) s.val (zl c) ((accR c p s).emb x))
  rw [hA, hB, hl]; rfl

theorem rpos_lt (c : Dev nD) : rpos c < 4 := by revert c; decide
theorem dev_of_pos : ∀ c c' : Dev nD, rpos c' = rpos c → zpos c' = zpos c → c' = c := by decide

theorem owner_eq (c : Dev nD) (p : Fin 2) (i : S4096x1024.Idx) (x0 : ℕ) (hx0 : x0 < 128)
    (hi : (i 0).val = row (rpos c) p.val (zpos c + 1) + x0) : owner i = c := by
  have h4 := rpos_lt c
  have hp := p.isLt
  have hz : zpos c < 4 := Nat.mod_lt _ (by decide)
  apply dev_of_pos
  · unfold owner; rw [rpos_owner, hi]; unfold row; omega
  · unfold owner; rw [zpos_owner, hi]; unfold row; omega

theorem sk3_eq_fin (c : Dev nD) (p : Fin 2) : ∀ i ∈ (agV c p 0).view.set, Sk (X m ρ) 3 c i = Fin_ (X m ρ) i := by
  intro i hi
  obtain ⟨x, -, rfl⟩ := Finset.mem_map.mp hi
  have hown : owner ((agV c p 0).view.emb x) = c := by
    refine owner_eq c p _ (x 0).val (x 0).isLt ?_
    show (k0_off3 c (w512 p) (w3 0)) 0 + 1 * (x 0).val = _
    rw [off3_eq]; simp
  show _ = Sk (X m ρ) 3 (owner ((agV c p 0).view.emb x)) ((agV c p 0).view.emb x)
  rw [hown]

end Cert.Kernel.AR

end
-- ==== Proof.K.Parts.lean ====
import proofs.«900720_g7700000000000721_dist_ar_v7x_xyz2x2x4_z_m4096_n1024_f32_1_alg».proof.Proof.K.Core
import Idealize.ShloMosaic.Rules.PointsTo

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def band (r0 h : ℕ) : Finset S4096x1024.Idx := Finset.univ.filter fun i => r0 ≤ (i 0).val ∧ (i 0).val < r0 + h

theorem mem_band {r0 h : ℕ} {i : S4096x1024.Idx} : i ∈ band r0 h ↔ r0 ≤ (i 0).val ∧ (i 0).val < r0 + h := by
  simp [band]

theorem band_whole : band 0 4096 = Finset.univ := by
  ext i
  simp only [mem_band, Finset.mem_univ, iff_true]
  exact ⟨Nat.zero_le _, by have := (i 0).isLt; simpa using this⟩

theorem band_union (r0 h h' : ℕ) : band r0 (h + h') = band r0 h ∪ band (r0 + h) h' := by
  ext i
  simp only [mem_band, Finset.mem_union]
  omega

theorem band_disjoint (r0 h h' : ℕ) : Disjoint (band r0 h) (band (r0 + h) h') := by
  rw [Finset.disjoint_left]
  intro i hi hj
  rw [mem_band] at hi hj
  omega

theorem rect_band (r0 h : ℕ) (off : Fin 2 → ℕ) (size : Fin 2 → ℕ) (inb) (ho : off = ![r0, 0]) (hs : size = ![h, 1024]) :
    (Rect.unit (s := S4096x1024) off size inb).set = band r0 h := by
  subst ho hs
  ext i
  rw [Rect.mem_set_unit, mem_band, Fin.forall_fin_two]
  have h1 : (i 1).val < 1024 := (i 1).isLt
  simp only [Matrix.cons_val_zero, Matrix.cons_val_one, Matrix.head_cons]
  constructor
  · intro h; exact h.1
  · intro h; exact ⟨h, Nat.zero_le _, by omega⟩

theorem agV_set (c : Dev nD) (p : Fin 2) (t : Fin 3) :
    (agV c p t).view.set = band (row (rpos c) p.val (zpos c + 1 + t.val)) 128 := by
  unfold agV
  exact (View.set_slice_whole _ _).trans (rect_band _ _ _ _ _ (off3_eq c p t) rfl)

theorem paV_set (c : Dev nD) (p : Fin 2) (t : Fin 3) :
    (paV c p t).view.set = band (row (rpos c + 4 - t.val) p.val 0) 256 := by
  unfold paV
  exact (View.set_slice_whole _ _).trans (rect_band _ _ _ _ _ (off4_eq c t p) rfl)

theorem pbV_set (c : Dev nD) (p : Fin 2) (t : Fin 3) :
    (pbV c p t).view.set = band (row (rpos c + t.val) p.val 2) 256 := by
  unfold pbV
  exact (View.set_slice_whole _ _).trans (rect_band _ _ _ _ _ (off5_eq c t p) rfl)

theorem srcV_xM_set (c : Dev nD) (p : Fin 2) (s : Fin 3) :
    (srcV xM c p s).view.set = band (row (rpos c) p.val (zpos c + 4 - s.val)) 128 := by
  unfold srcV
  exact (View.set_slice_whole _ _).trans (rect_band _ _ _ _ _ (off1_eq c p s) rfl)

theorem pts_congr {sh : Shape} (c : Dev nD) (v : Memref sig .tc .vmem sh .f32) (q : PosShare TreeShare)
    (f g : Buf (Elt F) (v.view.loc (c : Thread nD τ))) (h : ∀ i ∈ v.view.set, f i = g i) :
    (pts c v q f : sProp 𝕄) = pts c v q g :=
  pointsTo_congr h
theorem pts_view_eq {sh : Shape} (c' : Dev nD) {v v' : Memref sig .tc .vmem sh .f32} (h : v = v') (q : PosShare TreeShare)
    (f : Buf (Elt F) (v.view.loc (c' : Thread nD τ))) (f' : Buf (Elt F) (v'.view.loc (c' : Thread nD τ))) (hf : HEq f f') :
    (pts c' v q f : sProp 𝕄) = pts c' v' q f' := by
  subst h; cases hf; rfl

theorem share_LR {sh : Shape} (c : Dev nD) (v : Memref sig .tc .vmem sh .f32)
    (f : Buf (Elt F) (v.view.loc (c : Thread nD τ))) :
    (pts c v fullShare f : sProp 𝕄) ⊣⊢ iprop(pts c v Lq f ∗ pts c v Rq f) :=
  pointsTo_share (PosShare.mem_left_op_right fullShare)

theorem pointsTo_union_eq {ℓ : Loc nD τ sig} {I J : Finset (Idx ℓ)} (q : PosShare TreeShare) (f : Buf (Elt F) ℓ)
    (h : Disjoint I J) : (ℓ ↦[I ∪ J]{q} f : sProp 𝕄) = iprop((ℓ ↦[I]{q} f) ∗ ℓ ↦[J]{q} f) :=
  BI.equiv_iff.mp ⟨(pointsTo_union h).1, (pointsTo_union h).2⟩

def slab (k0 n : ℕ) : Finset S6x128x1024.Idx := Finset.univ.filter fun i => k0 ≤ (i 0).val ∧ (i 0).val < k0 + n

theorem mem_slab {k0 n : ℕ} {i : S6x128x1024.Idx} : i ∈ slab k0 n ↔ k0 ≤ (i 0).val ∧ (i 0).val < k0 + n := by
  simp [slab]

theorem slab_whole : slab 0 6 = Finset.univ := by
  ext i
  simp only [mem_slab, Finset.mem_univ, iff_true]
  exact ⟨Nat.zero_le _, by have := (i 0).isLt; simpa using this⟩

theorem slab_union (k0 n n' : ℕ) : slab k0 (n + n') = slab k0 n ∪ slab (k0 + n) n' := by
  ext i
  simp only [mem_slab, Finset.mem_union]
  omega

theorem slab_disjoint (k0 n n' : ℕ) : Disjoint (slab k0 n) (slab (k0 + n) n') := by
  rw [Finset.disjoint_left]
  intro i hi hj
  rw [mem_slab] at hi hj
  omega

theorem slotV_set (k : Fin 6) : (slotV k).view.set = slab k.val 1 := by
  unfold slotV
  refine (View.set_reshape _ _).trans ?_
  refine (View.set_slice_whole _ _).trans ?_
  ext i
  rw [Rect.mem_set_unit, mem_slab]
  constructor
  · intro h; exact h 0
  · intro h a
    have h1 : (i 1).val < 128 := (i 1).isLt
    have h2 : (i 2).val < 1024 := (i 2).isLt
    refine Fin.cases ?_ (fun a => Fin.cases ?_ (fun a => Fin.cases ?_ (fun a => a.elim0) a) a) a
    · exact h
    · exact ⟨Nat.zero_le _, by show (i 1).val < 0 + 128; omega⟩
    · exact ⟨Nat.zero_le _, by show (i 2).val < 0 + 1024; omega⟩

abbrev CB (c : Dev nD) (f : Buf (Elt F) (cM.view.loc (c : Thread nD τ))) (k0 n : ℕ) : sProp 𝕄 :=
  cM.view.loc (c : Thread nD τ) ↦[slab k0 n]{fullShare} f

theorem CB_split (c : Dev nD) (f : Buf (Elt F) (cM.view.loc (c : Thread nD τ))) (k0 n n' k1 N : ℕ) (hk : k1 = k0 + n) (hN : N = n + n') :
    CB c f k0 N = iprop(CB c f k0 n ∗ CB c f k1 n') := by
  subst hk hN
  unfold CB
  rw [slab_union]
  exact pointsTo_union_eq _ _ (slab_disjoint _ _ _)

theorem pts_slotV (c : Dev nD) (k : Fin 6) (f : Buf (Elt F) (cM.view.loc (c : Thread nD τ))) :
    (pts c (slotV k) fullShare f : sProp 𝕄) = CB c f k.val 1 := by
  show (cM.view.loc (c : Thread nD τ) ↦[(slotV k).view.set]{fullShare} f : sProp 𝕄) = _
  rw [slotV_set]

theorem comm_parts (c : Dev nD) (f : Buf (Elt F) (cM.view.loc (c : Thread nD τ))) :
    (((c : Thread nD τ).loc cc0_scratch0) ↦{fullShare} f : sProp 𝕄) ⊣⊢ iprop(pts c (slotV 0) fullShare f ∗ pts c (slotV 1) fullShare f
      ∗ pts c (slotV 2) fullShare f ∗ pts c (slotV 3) fullShare f ∗ pts c (slotV 4) fullShare f ∗ pts c (slotV 5) fullShare f) := by
  refine BiEntails.of_eq ?_
  rw [pts_slotV, pts_slotV, pts_slotV, pts_slotV, pts_slotV, pts_slotV]
  show (cM.view.loc (c : Thread nD τ) ↦[Finset.univ]{fullShare} f : sProp 𝕄) = _
  rw [← slab_whole]
  show CB c f 0 6 = iprop(CB c f 0 1 ∗ CB c f 1 1 ∗ CB c f 2 1 ∗ CB c f 3 1 ∗ CB c f 4 1 ∗ CB c f 5 1)
  rw [CB_split c f 0 1 5 1 6 rfl rfl, CB_split c f 1 1 4 2 5 rfl rfl, CB_split c f 2 1 3 3 4 rfl rfl,
    CB_split c f 3 1 2 4 3 rfl rfl, CB_split c f 4 1 1 5 2 rfl rfl]

theorem sep_eq_of {P Q : sProp 𝕄} (h1 : P ⊢ Q) (h2 : Q ⊢ P) : P = Q := BI.equiv_iff.mp ⟨h1, h2⟩

theorem ac_x (A B C D : sProp 𝕄) : iprop((A ∗ (B ∗ C)) ∗ D) = iprop(A ∗ B ∗ (D ∗ C)) := by
  refine sep_eq_of ?_ ?_
  · iintro ⟨⟨HA, HB, HC⟩, HD⟩
    iframe
  · iintro ⟨HA, HB, HD, HC⟩
    iframe

theorem pointsTo_split_eq {ℓ : Loc nD τ sig} {I S : Finset (Idx ℓ)} (q : PosShare TreeShare) (f : Buf (Elt F) ℓ) (h : I ⊆ S) :
    (ℓ ↦[S]{q} f : sProp 𝕄) = iprop((ℓ ↦[I]{q} f) ∗ ℓ ↦[S \ I]{q} f) :=
  sep_eq_of (pointsTo_split_subset h).1 (pointsTo_split_subset h).2

theorem pointsTo_LR_eq {ℓ : Loc nD τ sig} (I : Finset (Idx ℓ)) (f : Buf (Elt F) ℓ) :
    (ℓ ↦[I]{fullShare} f : sProp 𝕄) = iprop((ℓ ↦[I]{Lq} f) ∗ ℓ ↦[I]{Rq} f) :=
  sep_eq_of (pointsTo_share (PosShare.mem_left_op_right fullShare)).1 (pointsTo_share (PosShare.mem_left_op_right fullShare)).2

def xRest (c : Dev nD) (f : Buf (Elt F) (xM.view.loc (c : Thread nD τ))) : sProp 𝕄 :=
  iprop((xM.view.loc (c : Thread nD τ) ↦[Finset.univ]{Rq} f)
    ∗ (xM.view.loc (c : Thread nD τ) ↦[(Finset.univ \ band (row (rpos c) 0 (zpos c + 4)) 128) \ band (row (rpos c) 1 (zpos c + 4)) 128]{Lq} f))

theorem pts_srcV_xM (c : Dev nD) (p : Fin 2) (s : Fin 3) (q : PosShare TreeShare) (f : Buf (Elt F) (xM.view.loc (c : Thread nD τ))) :
    (pts c (srcV xM c p s) q f : sProp 𝕄) = (xM.view.loc (c : Thread nD τ) ↦[band (row (rpos c) p.val (zpos c + 4 - s.val)) 128]{q} f) := by
  show (xM.view.loc (c : Thread nD τ) ↦[(srcV xM c p s).view.set]{q} f : sProp 𝕄) = _
  rw [srcV_xM_set]

theorem x_parts (c : Dev nD) (f : Buf (Elt F) (xM.view.loc (c : Thread nD τ))) :
    (((c : Thread nD τ).loc cc0_stg0_0) ↦{fullShare} f : sProp 𝕄) ⊣⊢
      iprop(pts c (srcV xM c 0 0) Lq f ∗ pts c (srcV xM c 1 0) Lq f ∗ xRest c f) := by
  refine BiEntails.of_eq ?_
  rw [pts_srcV_xM, pts_srcV_xM]
  unfold xRest
  show (xM.view.loc (c : Thread nD τ) ↦[Finset.univ]{fullShare} f : sProp 𝕄) = iprop(
    (xM.view.loc (c : Thread nD τ) ↦[band (row (rpos c) 0 (zpos c + 4)) 128]{Lq} f)
    ∗ (xM.view.loc (c : Thread nD τ) ↦[band (row (rpos c) 1 (zpos c + 4)) 128]{Lq} f)
    ∗ ((xM.view.loc (c : Thread nD τ) ↦[Finset.univ]{Rq} f)
      ∗ (xM.view.loc (c : Thread nD τ) ↦[(Finset.univ \ band (row (rpos c) 0 (zpos c + 4)) 128) \ band (row (rpos c) 1 (zpos c + 4)) 128]{Lq} f)))
  have hsub : band (row (rpos c) 1 (zpos c + 4)) 128 ⊆ Finset.univ \ band (row (rpos c) 0 (zpos c + 4)) 128 := by
    intro i hi
    rw [Finset.mem_sdiff]
    refine ⟨Finset.mem_univ _, fun hj => ?_⟩
    rw [mem_band] at hi hj
    unfold row at hi hj
    omega
  rw [pointsTo_LR_eq Finset.univ f, pointsTo_split_eq Lq f (Finset.subset_univ (band (row (rpos c) 0 (zpos c + 4)) 128)),
    pointsTo_split_eq Lq f hsub]
  exact ac_x _ _ _ _

theorem rpos_zr (c : Dev nD) : rpos (zr c) = rpos c := by revert c; decide
theorem zpos_zr (c : Dev nD) : zpos (zr c) = (zpos c + 1) % 4 := by revert c; decide
theorem rpos_xl (c : Dev nD) : rpos (xl c) = (rpos c + 3) % 4 := by revert c; decide
theorem rpos_xr (c : Dev nD) : rpos (xr c) = (rpos c + 1) % 4 := by revert c; decide

abbrev OB (c : Dev nD) (q : PosShare TreeShare) (f : Buf (Elt F) (oM.view.loc (c : Thread nD τ))) (r0 h : ℕ) : sProp 𝕄 :=
  oM.view.loc (c : Thread nD τ) ↦[band r0 h]{q} f

theorem OB_split (c : Dev nD) (q : PosShare TreeShare) (f : Buf (Elt F) (oM.view.loc (c : Thread nD τ))) (r0 h h' r1 H : ℕ)
    (hr : r1 = r0 + h) (hH : H = h + h') : OB c q f r0 H = iprop(OB c q f r0 h ∗ OB c q f r1 h') := by
  subst hr hH
  unfold OB
  rw [band_union]
  exact pointsTo_union_eq _ _ (band_disjoint _ _ _)

theorem pts_agV (c' c : Dev nD) (p : Fin 2) (t : Fin 3) (pn tn r : ℕ) (hp : p.val = pn) (ht : t.val = tn)
    (hr : row (rpos c) pn (zpos c + 1 + tn) = r) (q : PosShare TreeShare) (f : Buf (Elt F) (oM.view.loc (c' : Thread nD τ))) :
    (pts c' (agV c p t) q f : sProp 𝕄) = OB c' q f r 128 := by
  show (oM.view.loc (c' : Thread nD τ) ↦[(agV c p t).view.set]{q} f : sProp 𝕄) = _
  rw [agV_set, hp, ht, hr]

theorem pts_paV (c' c : Dev nD) (p : Fin 2) (t : Fin 3) (pn tn r : ℕ) (hp : p.val = pn) (ht : t.val = tn)
    (hr : row (rpos c + 4 - tn) pn 0 = r) (q : PosShare TreeShare) (f : Buf (Elt F) (oM.view.loc (c' : Thread nD τ))) :
    (pts c' (paV c p t) q f : sProp 𝕄) = OB c' q f r 256 := by
  show (oM.view.loc (c' : Thread nD τ) ↦[(paV c p t).view.set]{q} f : sProp 𝕄) = _
  rw [paV_set, hp, ht, hr]

theorem pts_pbV (c' c : Dev nD) (p : Fin 2) (t : Fin 3) (pn tn r : ℕ) (hp : p.val = pn) (ht : t.val = tn)
    (hr : row (rpos c + tn) pn 2 = r) (q : PosShare TreeShare) (f : Buf (Elt F) (oM.view.loc (c' : Thread nD τ))) :
    (pts c' (pbV c p t) q f : sProp 𝕄) = OB c' q f r 256 := by
  show (oM.view.loc (c' : Thread nD τ) ↦[(pbV c p t).view.set]{q} f : sProp 𝕄) = _
  rw [pbV_set, hp, ht, hr]

theorem rot4 (G : ℕ → sProp 𝕄) (a : ℕ) :
    iprop(G (a % 4) ∗ G ((a + 1) % 4) ∗ G ((a + 2) % 4) ∗ G ((a + 3) % 4)) = iprop(G 0 ∗ G 1 ∗ G 2 ∗ G 3) := by
  have h : (a % 4 = 0 ∧ (a + 1) % 4 = 1 ∧ (a + 2) % 4 = 2 ∧ (a + 3) % 4 = 3)
      ∨ (a % 4 = 1 ∧ (a + 1) % 4 = 2 ∧ (a + 2) % 4 = 3 ∧ (a + 3) % 4 = 0)
      ∨ (a % 4 = 2 ∧ (a + 1) % 4 = 3 ∧ (a + 2) % 4 = 0 ∧ (a + 3) % 4 = 1)
      ∨ (a % 4 = 3 ∧ (a + 1) % 4 = 0 ∧ (a + 2) % 4 = 1 ∧ (a + 3) % 4 = 2) := by omega
  rcases h with ⟨h0, h1, h2, h3⟩ | ⟨h0, h1, h2, h3⟩ | ⟨h0, h1, h2, h3⟩ | ⟨h0, h1, h2, h3⟩
  · rw [h0, h1, h2, h3]
  · rw [h0, h1, h2, h3]
    refine sep_eq_of ?_ ?_
    · iintro ⟨H1, H2, H3, H0⟩
      iframe
    · iintro ⟨H0, H1, H2, H3⟩
      iframe
  · rw [h0, h1, h2, h3]
    refine sep_eq_of ?_ ?_
    · iintro ⟨H2, H3, H0, H1⟩
      iframe
    · iintro ⟨H0, H1, H2, H3⟩
      iframe
  · rw [h0, h1, h2, h3]
    refine sep_eq_of ?_ ?_
    · iintro ⟨H3, H0, H1, H2⟩
      iframe
    · iintro ⟨H0, H1, H2, H3⟩
      iframe

theorem half_rot (c : Dev nD) (q : PosShare TreeShare) (f : Buf (Elt F) (oM.view.loc (c : Thread nD τ))) (b z : ℕ) :
    OB c q f b 512 = iprop(OB c q f (b + 128 * ((z + 1) % 4)) 128 ∗ OB c q f (b + 128 * ((z + 1 + 1) % 4)) 128
      ∗ OB c q f (b + 128 * ((z + 1 + 2) % 4)) 128 ∗ OB c q f (b + 128 * ((z + 1 + 3) % 4)) 128) := by
  have hrot := rot4 (fun k => OB c q f (b + 128 * k) 128) (z + 1)
  simp only [Nat.mul_zero, Nat.add_zero] at hrot
  rw [hrot, OB_split c q f b 128 384 (b + 128 * 1) 512 (by omega) rfl,
    OB_split c q f (b + 128 * 1) 128 256 (b + 128 * 2) 384 (by omega) rfl,
    OB_split c q f (b + 128 * 2) 128 128 (b + 128 * 3) 256 (by omega) rfl]

theorem subq_join (c : Dev nD) (p : Fin 2) (q : PosShare TreeShare) (f : Buf (Elt F) (oM.view.loc (c : Thread nD τ))) :
    iprop(pts c (agV c p 0) q f ∗ pts c (agV c p 1) q f ∗ pts c (agV c p 2) q f ∗ pts c (agV (zr c) p 2) q f)
      ⊣⊢ iprop(pts c (paV c p 0) q f ∗ pts c (pbV c p 0) q f) := by
  refine BiEntails.of_eq ?_
  rw [pts_agV c c p 0 p.val 0 (1024 * (rpos c % 4) + 512 * p.val + 128 * ((zpos c + 1) % 4)) rfl rfl (by unfold row; omega) q f,
    pts_agV c c p 1 p.val 1 (1024 * (rpos c % 4) + 512 * p.val + 128 * ((zpos c + 1 + 1) % 4)) rfl rfl (by unfold row; omega) q f,
    pts_agV c c p 2 p.val 2 (1024 * (rpos c % 4) + 512 * p.val + 128 * ((zpos c + 1 + 2) % 4)) rfl rfl (by unfold row; omega) q f,
    pts_agV c (zr c) p 2 p.val 2 (1024 * (rpos c % 4) + 512 * p.val + 128 * ((zpos c + 1 + 3) % 4)) rfl rfl
      (by rw [rpos_zr, zpos_zr]; unfold row; omega) q f,
    pts_paV c c p 0 p.val 0 (1024 * (rpos c % 4) + 512 * p.val) rfl rfl (by unfold row; omega) q f,
    pts_pbV c c p 0 p.val 0 (1024 * (rpos c % 4) + 512 * p.val + 256) rfl rfl (by unfold row; omega) q f,
    ← half_rot c q f (1024 * (rpos c % 4) + 512 * p.val) (zpos c),
    OB_split c q f (1024 * (rpos c % 4) + 512 * p.val) 256 256 (1024 * (rpos c % 4) + 512 * p.val + 256) 512 rfl rfl]

theorem quarter_other (c : Dev nD) (q : PosShare TreeShare) (f : Buf (Elt F) (oM.view.loc (c : Thread nD τ))) (x : ℕ) :
    OB c q f (1024 * x) 1024 = iprop((OB c q f (1024 * x) 256 ∗ OB c q f (1024 * x + 256) 256)
      ∗ (OB c q f (1024 * x + 512) 256 ∗ OB c q f (1024 * x + 768) 256)) := by
  rw [OB_split c q f (1024 * x) 512 512 (1024 * x + 512) 1024 rfl rfl,
    OB_split c q f (1024 * x) 256 256 (1024 * x + 256) 512 rfl rfl,
    OB_split c q f (1024 * x + 512) 256 256 (1024 * x + 768) 512 (by omega) rfl]

theorem quarter_own (c : Dev nD) (q : PosShare TreeShare) (f : Buf (Elt F) (oM.view.loc (c : Thread nD τ))) (x z : ℕ) :
    OB c q f (1024 * x) 1024 = iprop(
      (OB c q f (1024 * x + 128 * ((z + 1) % 4)) 128 ∗ OB c q f (1024 * x + 128 * ((z + 1 + 1) % 4)) 128
        ∗ OB c q f (1024 * x + 128 * ((z + 1 + 2) % 4)) 128 ∗ OB c q f (1024 * x + 128 * ((z + 1 + 3) % 4)) 128)
      ∗ (OB c q f (1024 * x + 512 + 128 * ((z + 1) % 4)) 128 ∗ OB c q f (1024 * x + 512 + 128 * ((z + 1 + 1) % 4)) 128
        ∗ OB c q f (1024 * x + 512 + 128 * ((z + 1 + 2) % 4)) 128 ∗ OB c q f (1024 * x + 512 + 128 * ((z + 1 + 3) % 4)) 128)) := by
  rw [OB_split c q f (1024 * x) 512 512 (1024 * x + 512) 1024 rfl rfl, half_rot c q f (1024 * x) z,
    half_rot c q f (1024 * x + 512) z]

theorem out_quarters (c : Dev nD) (q : PosShare TreeShare) (f : Buf (Elt F) (oM.view.loc (c : Thread nD τ))) (a : ℕ) :
    (oM.view.loc (c : Thread nD τ) ↦[Finset.univ]{q} f : sProp 𝕄) = iprop(OB c q f (1024 * (a % 4)) 1024
      ∗ OB c q f (1024 * ((a + 1) % 4)) 1024 ∗ OB c q f (1024 * ((a + 2) % 4)) 1024 ∗ OB c q f (1024 * ((a + 3) % 4)) 1024) := by
  have hrot := rot4 (fun x => OB c q f (1024 * x) 1024) a
  simp only [Nat.mul_zero] at hrot
  rw [hrot, ← band_whole]
  show OB c q f 0 4096 = _
  rw [OB_split c q f 0 1024 3072 (1024 * 1) 4096 (by omega) rfl,
    OB_split c q f (1024 * 1) 1024 2048 (1024 * 2) 3072 (by omega) rfl,
    OB_split c q f (1024 * 2) 1024 1024 (1024 * 3) 2048 (by omega) rfl]

theorem ac20 (g0 g1 g2 g3 g4 g5 g6 g7 P1 L1 Q1 M1 P2 L2 Q2 M2 P3 L3 Q3 M3 : sProp 𝕄) :
    iprop(((g0 ∗ g1 ∗ g2 ∗ g3) ∗ (g4 ∗ g5 ∗ g6 ∗ g7)) ∗ ((P1 ∗ L1) ∗ (Q1 ∗ M1)) ∗ ((P2 ∗ L2) ∗ (Q2 ∗ M2)) ∗ ((P3 ∗ L3) ∗ (Q3 ∗ M3)))
      = iprop((g0 ∗ g1 ∗ g2 ∗ g3 ∗ g4 ∗ g5 ∗ g6 ∗ g7) ∗ (P3 ∗ P2 ∗ P1 ∗ Q3 ∗ Q2 ∗ Q1) ∗ (L1 ∗ L2 ∗ L3 ∗ M1 ∗ M2 ∗ M3)) := by
  refine sep_eq_of ?_ ?_
  · iintro ⟨⟨⟨h0, h1, h2, h3⟩, h4, h5, h6, h7⟩, ⟨⟨p1, l1⟩, q1, m1⟩, ⟨⟨p2, l2⟩, q2, m2⟩, ⟨p3, l3⟩, q3, m3⟩
    iframe
  · iintro ⟨⟨h0, h1, h2, h3, h4, h5, h6, h7⟩, ⟨p3, p2, p1, q3, q2, q1⟩, l1, l2, l3, m1, m2, m3⟩
    iframe

theorem out_parts (c : Dev nD) (q : PosShare TreeShare) (f : Buf (Elt F) (oM.view.loc (c : Thread nD τ))) :
    (((c : Thread nD τ).loc cc0_stg1_0) ↦{q} f : sProp 𝕄) ⊣⊢ iprop(
      (pts c (agV c 0 0) q f ∗ pts c (agV c 0 1) q f ∗ pts c (agV c 0 2) q f ∗ pts c (agV (zr c) 0 2) q f
        ∗ pts c (agV c 1 0) q f ∗ pts c (agV c 1 1) q f ∗ pts c (agV c 1 2) q f ∗ pts c (agV (zr c) 1 2) q f)
      ∗ (pts c (paV (xl c) 0 0) q f ∗ pts c (paV (xl c) 0 1) q f ∗ pts c (paV (xl c) 0 2) q f
        ∗ pts c (paV (xl c) 1 0) q f ∗ pts c (paV (xl c) 1 1) q f ∗ pts c (paV (xl c) 1 2) q f)
      ∗ (pts c (pbV (xr c) 0 0) q f ∗ pts c (pbV (xr c) 0 1) q f ∗ pts c (pbV (xr c) 0 2) q f
        ∗ pts c (pbV (xr c) 1 0) q f ∗ pts c (pbV (xr c) 1 1) q f ∗ pts c (pbV (xr c) 1 2) q f)) := by
  refine BiEntails.of_eq ?_
  rw [pts_agV c c 0 0 0 0 (1024 * (rpos c % 4) + 128 * ((zpos c + 1) % 4)) rfl rfl (by unfold row; omega) q f,
    pts_agV c c 0 1 0 1 (1024 * (rpos c % 4) + 128 * ((zpos c + 1 + 1) % 4)) rfl rfl (by unfold row; omega) q f,
    pts_agV c c 0 2 0 2 (1024 * (rpos c % 4) + 128 * ((zpos c + 1 + 2) % 4)) rfl rfl (by unfold row; omega) q f,
    pts_agV c (zr c) 0 2 0 2 (1024 * (rpos c % 4) + 128 * ((zpos c + 1 + 3) % 4)) rfl rfl (by rw [rpos_zr, zpos_zr]; unfold row; omega) q f,
    pts_agV c c 1 0 1 0 (1024 * (rpos c % 4) + 512 + 128 * ((zpos c + 1) % 4)) rfl rfl (by unfold row; omega) q f,
    pts_agV c c 1 1 1 1 (1024 * (rpos c % 4) + 512 + 128 * ((zpos c + 1 + 1) % 4)) rfl rfl (by unfold row; omega) q f,
    pts_agV c c 1 2 1 2 (1024 * (rpos c % 4) + 512 + 128 * ((zpos c + 1 + 2) % 4)) rfl rfl (by unfold row; omega) q f,
    pts_agV c (zr c) 1 2 1 2 (1024 * (rpos c % 4) + 512 + 128 * ((zpos c + 1 + 3) % 4)) rfl rfl (by rw [rpos_zr, zpos_zr]; unfold row; omega) q f,
    pts_paV c (xl c) 0 0 0 0 (1024 * ((rpos c + 3) % 4)) rfl rfl (by rw [rpos_xl]; unfold row; omega) q f,
    pts_paV c (xl c) 0 1 0 1 (1024 * ((rpos c + 2) % 4)) rfl rfl (by rw [rpos_xl]; unfold row; omega) q f,
    pts_paV c (xl c) 0 2 0 2 (1024 * ((rpos c + 1) % 4)) rfl rfl (by rw [rpos_xl]; unfold row; omega) q f,
    pts_paV c (xl c) 1 0 1 0 (1024 * ((rpos c + 3) % 4) + 512) rfl rfl (by rw [rpos_xl]; unfold row; omega) q f,
    pts_paV c (xl c) 1 1 1 1 (1024 * ((rpos c + 2) % 4) + 512) rfl rfl (by rw [rpos_xl]; unfold row; omega) q f,
    pts_paV c (xl c) 1 2 1 2 (1024 * ((rpos c + 1) % 4) + 512) rfl rfl (by rw [rpos_xl]; unfold row; omega) q f,
    pts_pbV c (xr c) 0 0 0 0 (1024 * ((rpos c + 1) % 4) + 256) rfl rfl (by rw [rpos_xr]; unfold row; omega) q f,
    pts_pbV c (xr c) 0 1 0 1 (1024 * ((rpos c + 2) % 4) + 256) rfl rfl (by rw [rpos_xr]; unfold row; omega) q f,
    pts_pbV c (xr c) 0 2 0 2 (1024 * ((rpos c + 3) % 4) + 256) rfl rfl (by rw [rpos_xr]; unfold row; omega) q f,
    pts_pbV c (xr c) 1 0 1 0 (1024 * ((rpos c + 1) % 4) + 768) rfl rfl (by rw [rpos_xr]; unfold row; omega) q f,
    pts_pbV c (xr c) 1 1 1 1 (1024 * ((rpos c + 2) % 4) + 768) rfl rfl (by rw [rpos_xr]; unfold row; omega) q f,
    pts_pbV c (xr c) 1 2 1 2 (1024 * ((rpos c + 3) % 4) + 768) rfl rfl (by rw [rpos_xr]; unfold row; omega) q f]
  show (oM.view.loc (c : Thread nD τ) ↦[Finset.univ]{q} f : sProp 𝕄) = _
  rw [out_quarters c q f (rpos c), quarter_own c q f (rpos c % 4) (zpos c), quarter_other c q f ((rpos c + 1) % 4),
    quarter_other c q f ((rpos c + 2) % 4), quarter_other c q f ((rpos c + 3) % 4)]
  exact ac20 _ _ _ _ _ _ _ _ _ _ _ _ _ _ _ _ _ _ _ _

def slotsJoin (c : Dev nD) (fs : Fin 6 → Buf (Elt F) (cM.view.loc (c : Thread nD τ))) : Buf (Elt F) (cM.view.loc (c : Thread nD τ)) :=
  fun (i : S6x128x1024.Idx) => fs (i 0) i

theorem pts_slot_join (c : Dev nD) (fs : Fin 6 → Buf (Elt F) (cM.view.loc (c : Thread nD τ))) (k : Fin 6) :
    (pts c (slotV k) fullShare (fs k) : sProp 𝕄) = pts c (slotV k) fullShare (slotsJoin c fs) :=
  pts_congr c (slotV k) fullShare (fs k) (slotsJoin c fs) (fun (i : S6x128x1024.Idx) hi => by
    have hi' : i ∈ slab k.val 1 := by
      rw [slotV_set] at hi
      exact hi
    have h : (i 0).val = k.val := by
      have h2 := mem_slab.mp hi'
      omega
    have h' : i 0 = k := Fin.ext h
    show fs k i = fs (i 0) i
    rw [h'])

theorem comm_join (c : Dev nD) (f0 f1 f2 f3 f4 f5 : Buf (Elt F) (cM.view.loc (c : Thread nD τ))) :
    iprop(pts c (slotV 0) fullShare f0 ∗ pts c (slotV 1) fullShare f1 ∗ pts c (slotV 2) fullShare f2
      ∗ pts c (slotV 3) fullShare f3 ∗ pts c (slotV 4) fullShare f4 ∗ pts c (slotV 5) fullShare f5)
      ⊢ iprop(∃ f : Buf (Elt F) (cM.view.loc (c : Thread nD τ)), pts c cM fullShare f) := by
  have e0 : (pts c (slotV 0) fullShare f0 : sProp 𝕄) = pts c (slotV 0) fullShare (slotsJoin c ![f0, f1, f2, f3, f4, f5]) :=
    pts_slot_join c ![f0, f1, f2, f3, f4, f5] 0
  have e1 : (pts c (slotV 1) fullShare f1 : sProp 𝕄) = pts c (slotV 1) fullShare (slotsJoin c ![f0, f1, f2, f3, f4, f5]) :=
    pts_slot_join c ![f0, f1, f2, f3, f4, f5] 1
  have e2 : (pts c (slotV 2) fullShare f2 : sProp 𝕄) = pts c (slotV 2) fullShare (slotsJoin c ![f0, f1, f2, f3, f4, f5]) :=
    pts_slot_join c ![f0, f1, f2, f3, f4, f5] 2
  have e3 : (pts c (slotV 3) fullShare f3 : sProp 𝕄) = pts c (slotV 3) fullShare (slotsJoin c ![f0, f1, f2, f3, f4, f5]) :=
    pts_slot_join c ![f0, f1, f2, f3, f4, f5] 3
  have e4 : (pts c (slotV 4) fullShare f4 : sProp 𝕄) = pts c (slotV 4) fullShare (slotsJoin c ![f0, f1, f2, f3, f4, f5]) :=
    pts_slot_join c ![f0, f1, f2, f3, f4, f5] 4
  have e5 : (pts c (slotV 5) fullShare f5 : sProp 𝕄) = pts c (slotV 5) fullShare (slotsJoin c ![f0, f1, f2, f3, f4, f5]) :=
    pts_slot_join c ![f0, f1, f2, f3, f4, f5] 5
  have hset : (cM : Memref sig .tc .vmem S6x128x1024 .f32).view.set = Finset.univ := View.set_whole _
  have hw : (pts c cM fullShare (slotsJoin c ![f0, f1, f2, f3, f4, f5]) : sProp 𝕄)
      = (((c : Thread nD τ).loc cc0_scratch0) ↦{fullShare} slotsJoin c ![f0, f1, f2, f3, f4, f5]) := by
    show (cM.view.loc (c : Thread nD τ) ↦[cM.view.set]{fullShare} slotsJoin c ![f0, f1, f2, f3, f4, f5] : sProp 𝕄) = _
    rw [hset]
  rw [e0, e1, e2, e3, e4, e5]
  refine ((comm_parts c (slotsJoin c ![f0, f1, f2, f3, f4, f5])).2.trans (Entails.of_eq hw.symm)).trans ?_
  iintro H
  iexists (slotsJoin c ![f0, f1, f2, f3, f4, f5])
  iexact H

end Cert.Kernel.AR

end
-- ==== Proof.K.Body.lean ====
import proofs.«900720_g7700000000000721_dist_ar_v7x_xyz2x2x4_z_m4096_n1024_f32_1_alg».proof.Proof.K.Steps
import proofs.«900720_g7700000000000721_dist_ar_v7x_xyz2x2x4_z_m4096_n1024_f32_1_alg».proof.Proof.K.Levels
import proofs.«900720_g7700000000000721_dist_ar_v7x_xyz2x2x4_z_m4096_n1024_f32_1_alg».proof.Proof.K.Views
import proofs.«900720_g7700000000000721_dist_ar_v7x_xyz2x2x4_z_m4096_n1024_f32_1_alg».proof.Proof.K.Parts

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Body0

omit [FloatOps F] in
theorem pts_cM (c : Dev nD) (f : Buf (Elt F) (cM.view.loc (c : Thread nD τ))) :
    (pts c cM fullShare f : sProp 𝕄) = (((c : Thread nD τ).loc cc0_scratch0) ↦{fullShare} f) := by
  show (cM.view.loc (c : Thread nD τ) ↦[cM.view.set]{fullShare} f : sProp 𝕄) = _
  rw [show cM.view.set = Finset.univ from View.set_whole _]

end Body0
open Body0

def Pre0 (K : GSem nD τ sig → ℕ) (c : Dev nD) (xr_ : sProp 𝕄) : sProp 𝕄 :=
  iprop(records m ρ K ∗ levAts L lv ∗ toksFrom c 0 ∗ recvTodo c 0 ∗ recvDone c 0 ∗ sendTodo c ∗ sendCred c 0
    ∗ (∃ W, owes (c : Thread nD τ) (O₀ c) W)
    ∗ (atPos ER (barCell c) 0 ∅ 0 ∗ cred (tallyAt (barCell c) () 4))
    ∗ (dutyTok ER (barCell (zl c)) 0 0 ∗ dutyTok ER (barCell (zr c)) 0 1 ∗ dutyTok ER (barCell (xl c)) 0 2 ∗ dutyTok ER (barCell (xr c)) 0 3)
    ∗ (pts c (srcV xM c 0 0) Lq (X m ρ c) ∗ pts c (srcV xM c 1 0) Lq (X m ρ c) ∗ xr_)
    ∗ (∃ g : Buf (Elt F) (oM.view.loc (c : Thread nD τ)),
        (pts c (agV c 0 0) fullShare g ∗ pts c (agV c 0 1) fullShare g ∗ pts c (agV c 0 2) fullShare g ∗ pts c (agV (zr c) 0 2) fullShare g
          ∗ pts c (agV c 1 0) fullShare g ∗ pts c (agV c 1 1) fullShare g ∗ pts c (agV c 1 2) fullShare g ∗ pts c (agV (zr c) 1 2) fullShare g)
        ∗ (pts c (paV (xl c) 0 0) fullShare g ∗ pts c (paV (xl c) 0 1) fullShare g ∗ pts c (paV (xl c) 0 2) fullShare g
          ∗ pts c (paV (xl c) 1 0) fullShare g ∗ pts c (paV (xl c) 1 1) fullShare g ∗ pts c (paV (xl c) 1 2) fullShare g)
        ∗ (pts c (pbV (xr c) 0 0) fullShare g ∗ pts c (pbV (xr c) 0 1) fullShare g ∗ pts c (pbV (xr c) 0 2) fullShare g
          ∗ pts c (pbV (xr c) 1 0) fullShare g ∗ pts c (pbV (xr c) 1 1) fullShare g ∗ pts c (pbV (xr c) 1 2) fullShare g))
    ∗ (∃ f : Buf (Elt F) (cM.view.loc (c : Thread nD τ)), pts c (slotV 0) fullShare f ∗ pts c (slotV 1) fullShare f ∗ pts c (slotV 2) fullShare f
        ∗ pts c (slotV 3) fullShare f ∗ pts c (slotV 4) fullShare f ∗ pts c (slotV 5) fullShare f))

theorem part1_spec (c : Dev nD)
    (Kt : (Σ' (d0 : Dev nD) (v2 : BitVec 32) (v5 : BitVec 32) (v8 : BitVec 32) (v19 : BitVec 32) (v30 : BitVec 32) (v33 : BitVec 32) (v34 : BitVec 32), BitVec 32) → sProp 𝕄) :
    iprop(∀ r, ⌜r.1 = c⌝ -∗ Kt r) ⊢ wp frame (wpE (defs₀ (F := F)) 𝒱₀ (c : Thread nD τ) none) Set.univ
      (k0_part1 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6) Kt := by
  rw [k0_part1_eq_skeleton]; unfold k0_part1_skel
  simp only [Prog.lift, Prog.bind_op, Prog.bind_ret, Prog.pure_eq_ret, wp_deviceId, wp_ret]
  iintro H
  imodintro
  iapply H
  ipureintro; rfl

theorem part2_spec (c : Dev nD) (v33 v34 c4 : BitVec 32)
    (Kt : (Σ' (v46 : BitVec 32) (v50 : BitVec 32) (v63 : BitVec 32) (v67 : BitVec 32), Sems sig S_) → sProp 𝕄) :
    iprop(∀ r, ⌜r.2.2.2.2 = SemArray.scalar (sig.barrier 0 rfl)⌝ -∗ Kt r) ⊢ wp frame (wpE (defs₀ (F := F)) 𝒱₀ (c : Thread nD τ) none) Set.univ
      (k0_part2 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 v33 v34 c4) Kt := by
  rw [k0_part2_eq_skeleton]; unfold k0_part2_skel
  simp only [Prog.lift, Prog.bind_op, Prog.bind_ret, Prog.pure_eq_ret, wp_ret]
  iintro H
  imodintro
  iapply H
  ipureintro; rfl

theorem part3_spec (K : GSem nD τ sig → ℕ) (c : Dev nD) (xr_ : sProp 𝕄) (v2 v5 v8 v19 v30 v33 v46 v50 v63 v67 : BitVec 32)
    (Kt : (Σ' (v94 : BitVec 32) (v95 : BitVec 32) (c4_i32_67 : BitVec 32), BitVec 1) → sProp 𝕄) :
    iprop(Pre0 m ρ K c xr_ ∗ (∀ r, St1 m ρ K c xr_ -∗ Kt r)) ⊢ wp frame (wpE (defs₀ (F := F)) 𝒱₀ (c : Thread nD τ) none) Set.univ
      (k0_part3 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 c v2 v5 v8 v19 v30 v33 v46 v50 v63 v67 (SemArray.scalar (sig.barrier 0 rfl))) Kt := by
  rw [k0_part3_eq_skeleton]; unfold k0_part3_skel
  simp only [semSignalWord, semWaitWord, Prog.lift, Prog.bind_op, Prog.bind_ret, Prog.pure_eq_ret, bar_sem]
  simp only [dev1_eq c, dev2_eq c, dev3_eq c, dev4_eq c]
  unfold Pre0
  iintro ⟨⟨#HR, #Hlev, Htk, Hrt, Hrd, Hst, Hsc, ⟨%W, HO⟩, ⟨HatB, HcB⟩, ⟨Ht1, Ht2, Ht3, Ht4⟩, ⟨Hx0, Hx1, Hxr⟩, ⟨%g, ⟨Ha00, Ha01, Ha02, Hz0, Ha10, Ha11, Ha12, Hz1⟩, Hpa, Hpb⟩, ⟨%f, Hslots⟩⟩, Hk⟩
  unfold O₀

  iapply (Rounds.wp_signal 𝒱₀ ER (Rd m ρ) (c : Thread nD τ) none (dst := (zl c : Thread nD τ)) (κ := K (barCell (zl c))) (d := 0)
      (by rw [duties_bar]; exact Finset.mem_univ _) ((amount_bar m ρ (zl c) 0).trans (by decide)) ()
      (Orem c 24 + tallyAt (barCell (xr c)) () 1 + tallyAt (barCell (xl c)) () 1 + tallyAt (barCell (zr c)) () 1) rfl) $$ [HO Ht1 Hslots]
  · isplitr; · iapply (inv_bar m ρ K (zl c)); iexact HR
    isplitl [HO]; · iexact HO
    isplitl [Ht1]; · iexact Ht1
    isplitl [Hslots]
    · rw [payload_bar, show barPay (F := F) (zl c) 0 = lendSlots (zr (zl c)) from rfl, zr_zl]; unfold lendSlots; iexists f; iexact Hslots
    · iapply (reached_bar m ρ K (zl c)); iexact HR
  iintro HO

  iapply (Rounds.wp_signal 𝒱₀ ER (Rd m ρ) (c : Thread nD τ) none (dst := (zr c : Thread nD τ)) (κ := K (barCell (zr c))) (d := 1)
      (by rw [duties_bar]; exact Finset.mem_univ _) ((amount_bar m ρ (zr c) 1).trans (by decide)) ()
      (Orem c 24 + tallyAt (barCell (xr c)) () 1 + tallyAt (barCell (xl c)) () 1) rfl) $$ [HO Ht2 Hz0 Hz1]
  · isplitr; · iapply (inv_bar m ρ K (zr c)); iexact HR
    isplitl [HO]; · iexact HO
    isplitl [Ht2]; · iexact Ht2
    isplitl [Hz0 Hz1]
    · rw [payload_bar, show barPay (F := F) (zr c) 1 = lendAg (zr c) from rfl]; unfold lendAg; rw [zl_zr]; iexists g; isplitl [Hz0] <;> iassumption
    · iapply (reached_bar m ρ K (zr c)); iexact HR
  iintro HO

  iapply (Rounds.wp_signal 𝒱₀ ER (Rd m ρ) (c : Thread nD τ) none (dst := (xl c : Thread nD τ)) (κ := K (barCell (xl c))) (d := 2)
      (by rw [duties_bar]; exact Finset.mem_univ _) ((amount_bar m ρ (xl c) 2).trans (by decide)) ()
      (Orem c 24 + tallyAt (barCell (xr c)) () 1) rfl) $$ [HO Ht3 Hpa]
  · isplitr; · iapply (inv_bar m ρ K (xl c)); iexact HR
    isplitl [HO]; · iexact HO
    isplitl [Ht3]; · iexact Ht3
    isplitl [Hpa]
    · rw [payload_bar, show barPay (F := F) (xl c) 2 = lendPa (xl c) from rfl]; unfold lendPa; rw [xr_xl]; iexists g; iexact Hpa
    · iapply (reached_bar m ρ K (xl c)); iexact HR
  iintro HO

  iapply (Rounds.wp_signal 𝒱₀ ER (Rd m ρ) (c : Thread nD τ) none (dst := (xr c : Thread nD τ)) (κ := K (barCell (xr c))) (d := 3)
      (by rw [duties_bar]; exact Finset.mem_univ _) ((amount_bar m ρ (xr c) 3).trans (by decide)) ()
      (Orem c 24) rfl) $$ [HO Ht4 Hpb]
  · isplitr; · iapply (inv_bar m ρ K (xr c)); iexact HR
    isplitl [HO]; · iexact HO
    isplitl [Ht4]; · iexact Ht4
    isplitl [Hpb]
    · rw [payload_bar, show barPay (F := F) (xr c) 3 = lendPb (xr c) from rfl]; unfold lendPb; rw [xl_xr]; iexists g; iexact Hpb
    · iapply (reached_bar m ρ K (xr c)); iexact HR
  iintro HO

  iapply (Rounds.wp_wait_rest_token 𝒱₀ ER (Rd m ρ) (c : Thread nD τ) none (κ := K (barCell c))
      (wpE_semWait_eq 𝒱₀ (c : Thread nD τ) none Set.univ) (Set.mem_univ _) () (O := Orem c 24) (W := W) (R := 0) (m := 0) (T := ∅)
      (by rw [expect_bar]; decide)) $$ [HcB HO HatB]
  · isplitr; · iapply (inv_bar m ρ K c); iexact HR
    isplitl [HcB]; · iexact HcB
    isplitl [HO]; · iexact HO
    isplitr; · iapply (mayWait_bar c); iexact Hlev
    iexact HatB
  iintro ⟨HO, -, -, Hpay⟩
  ihave Hp := (Entails.of_eq (rest_bar m ρ c)) $$ Hpay
  unfold lendSlots lendAg lendPa lendPb
  icases Hp with ⟨⟨%f1, Hs0, Hs1, Hs2, Hs3, Hs4, Hs5⟩, ⟨%f2, Hg0, Hg1⟩, ⟨%f3, Hq0, Hq1, Hq2, Hq3, Hq4, Hq5⟩, ⟨%f4, Hr0, Hr1, Hr2, Hr3, Hr4, Hr5⟩⟩
  rw [wp_ret]; imodintro
  iapply Hk
  unfold St1 ghostAt
  simp only [borPa_cons, borPa_one, borPb_cons, borPb_one]
  unfold bor
  isplitl [Htk Hrt Hrd Hst Hsc HO]
  · isplitr; · iexact HR
    isplitr; · iexact Hlev
    isplitl [Htk]; · iexact Htk
    isplitl [Hrt]; · iexact Hrt
    isplitl [Hrd]; · iexact Hrd
    isplitl [Hst]; · iexact Hst
    isplitl [Hsc]; · iexact Hsc
    iexists _; iexact HO
  isplitl [Hx0]; · iexact Hx0
  isplitl [Hx1]; · iexact Hx1
  isplitl [Hxr]; · iexact Hxr
  isplitl [Ha00 Ha01 Ha02 Ha10 Ha11 Ha12]
  · iexists g
    isplitl [Ha00]; · iexact Ha00
    isplitl [Ha01]; · iexact Ha01
    isplitl [Ha02]; · iexact Ha02
    isplitl [Ha10]; · iexact Ha10
    isplitl [Ha11]; · iexact Ha11
    iexact Ha12
  isplitl [Hs0 Hs1 Hs2 Hs3 Hs4 Hs5]
  · isplitl [Hs0]; · iexists f1; iexact Hs0
    isplitl [Hs1]; · iexists f1; iexact Hs1
    isplitl [Hs2]; · iexists f1; iexact Hs2
    isplitl [Hs3]; · iexists f1; iexact Hs3
    isplitl [Hs4]; · iexists f1; iexact Hs4
    iexists f1; iexact Hs5
  isplitl [Hg0]; · iexists f2; iexact Hg0
  isplitl [Hg1]; · iexists f2; iexact Hg1
  isplitl [Hq0 Hq1 Hq2 Hq3 Hq4 Hq5]
  · isplitl [Hq0]; · iexists f3; iexact Hq0
    isplitl [Hq1]; · iexists f3; iexact Hq1
    isplitl [Hq2]; · iexists f3; iexact Hq2
    isplitl [Hq3]; · iexists f3; iexact Hq3
    isplitl [Hq4]; · iexists f3; iexact Hq4
    iexists f3; iexact Hq5
  isplitl [Hr0]; · iexists f4; iexact Hr0
  isplitl [Hr1]; · iexists f4; iexact Hr1
  isplitl [Hr2]; · iexists f4; iexact Hr2
  isplitl [Hr3]; · iexists f4; iexact Hr3
  isplitl [Hr4]; · iexists f4; iexact Hr4
  iexists f4; iexact Hr5

def xRest2 (c : Dev nD) : sProp 𝕄 :=
  (xM.view.loc (c : Thread nD τ) ↦[(Finset.univ \ band (row (rpos c) 0 (zpos c + 4)) 128) \ band (row (rpos c) 1 (zpos c + 4)) 128]{Lq} X m ρ c)
theorem xRest_eq (c : Dev nD) : xRest c (X m ρ c) = iprop((xM.view.loc (c : Thread nD τ) ↦[Finset.univ]{Rq} X m ρ c) ∗ xRest2 m ρ c) := rfl

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (Xc : b.ty.Contents (Elt F)) :
    (owns (Ix := Unit) (Name := ℕ) (U := UU) (Lvl := ℕ) (c : Thread nD τ) (Memref.whole b) fullShare Xc : sProp 𝕄)
      = iprop(∃ f : Buf (Elt F) (((c : Dev nD) : Thread nD τ).loc b), ⌜f = Xc⌝ ∗ (((c : Thread nD τ).loc b) ↦{fullShare} f)) := by
  unfold owns; simp only [Memref.view_whole, View.read_whole, View.set_whole]

abbrev stg (c : Dev nD) (b : Ref sig .tc) (Xc : b.ty.Contents (Elt F)) : sProp 𝕄 :=
  iprop(∃ f : Buf (Elt F) (((c : Dev nD) : Thread nD τ).loc b), ⌜f = Xc⌝ ∗ (((c : Thread nD τ).loc b) ↦{fullShare} f))

def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (X m ρ c) ∗ stg c cc0_stg1_0 (Fn m ρ))

namespace Body0
omit [FloatOps F] in
theorem bigSep_bool (Φ : Bool → sProp 𝕄) : bigSep Finset.univ Φ = iprop(Φ false ∗ Φ true) := by
  rw [bigSep_univ_eq_bigSepL [false, true] (by decide) (by decide), bigSepL_cons_cons, bigSepL_singleton]; rfl

omit [FloatOps F] in
theorem positions_split (c : Dev nD) :
    (bigSep Finset.univ fun jb : Fin 24 × Bool => (atPos ER (dcell c jb) 0 ∅ 0 : sProp 𝕄))
      = iprop((bigSep Finset.univ fun j : Fin 24 => atPos ER (sendCell c j) 0 ∅ 0) ∗ (bigSep Finset.univ fun j : Fin 24 => atPos ER (recvCell c j) 0 ∅ 0)) := by
  rw [bigSep_univ_prod, bigSep_congr (s := Finset.univ) (fun (j : Fin 24) _ => bigSep_bool (fun b => (atPos ER (dcell c (j, b)) 0 ∅ 0 : sProp 𝕄))), bigSep_sep']
  rfl

omit [FloatOps F] in
theorem filter_all : (Finset.univ.filter fun j : Fin 24 => 0 ≤ j.val) = Finset.univ := Finset.filter_true_of_mem fun _ _ => Nat.zero_le _
omit [FloatOps F] in
theorem filter_none : (Finset.univ.filter fun j : Fin 24 => j.val < 0) = ∅ := Finset.filter_false_of_mem fun _ _ => Nat.not_lt_zero _

omit [FloatOps F] in
theorem toksFrom_zero (c : Dev nD) : toksFrom (F := F) c 0 = bigSep Finset.univ fun j : Fin 24 => iprop(dutyTok ER (sendCell c j) 0 0 ∗ dutyTok ER (recvCell (peer j c) j) 0 0) := by
  unfold toksFrom; rw [filter_all]
omit [FloatOps F] in
theorem recvTodo_zero (c : Dev nD) :
    recvTodo (F := F) c 0 = iprop((bigSep Finset.univ fun j : Fin 24 => atPos ER (recvCell c j) 0 ∅ 0) ∗ (bigSep Finset.univ fun j : Fin 24 => cred (tallyAt (recvCell c j) () (NJ j)))) := by
  unfold recvTodo; rw [filter_all, bigSep_sep']
omit [FloatOps F] in
theorem recvDone_zero (c : Dev nD) : recvDone (F := F) c 0 = iprop(emp) := by unfold recvDone; rw [filter_none]; rfl
omit [FloatOps F] in
theorem sendCred_zero (c : Dev nD) : sendCred (F := F) c 0 = iprop(emp) := by unfold sendCred; rw [filter_none]; rfl

end Body0
open Body0

theorem entry (c : Dev nD) : bodyPre' m ρ c ⊢ iprop(∃ K, Pre0 m ρ K c (xRest c (X m ρ c))) := by
  unfold bodyPre' Φ₀ start ghost positions payToks credits
  iintro ⟨⟨⟨⟨%K, #HR, ⟨HatB, Hpos⟩, Ht1, Ht2, Ht3, Ht4, Htk⟩, ⟨HcB, Hcr⟩, #Hlev⟩, ⟨%f, Hscr⟩⟩, Ho, ⟨%d0, %g0, %hg0, Hx⟩, ⟨%d1, %g1, %hg1, Hout⟩⟩
  have hx : g0 = X m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  ihave Hpos' := (Entails.of_eq (positions_split c)) $$ Hpos
  icases Hpos' with ⟨Hsend, Hrecv⟩
  ihave Hx' := (x_parts c (X m ρ c)).1 $$ Hx
  icases Hx' with ⟨Hx0, Hx1, Hxr⟩
  ihave Hout' := (out_parts c fullShare g1).1 $$ Hout
  ihave Hscr0 := (Entails.of_eq (pts_cM c f)) $$ Hscr
  ihave Hscr' := (comm_parts c f).1 $$ Hscr0
  iexists K
  unfold Pre0 sendTodo
  isplitr; · iexact HR
  isplitr; · iexact Hlev
  isplitl [Htk]; · iapply (Entails.of_eq (toksFrom_zero c).symm); iexact Htk
  isplitl [Hrecv Hcr]
  · iapply (Entails.of_eq (recvTodo_zero c).symm); isplitl [Hrecv] <;> iassumption
  isplitr; · iapply (Entails.of_eq (recvDone_zero c).symm); iempintro
  isplitl [Hsend]; · iexact Hsend
  isplitr; · iapply (Entails.of_eq (sendCred_zero c).symm); iempintro
  isplitl [HO]; · iexists W; iexact HO
  isplitl [HatB HcB]
  · isplitl [HatB] <;> iassumption
  isplitl [Ht1 Ht2 Ht3 Ht4]
  · isplitl [Ht1]; · iexact Ht1
    isplitl [Ht2]; · iexact Ht2
    isplitl [Ht3] <;> iassumption
  isplitl [Hx0 Hx1 Hxr]
  · isplitl [Hx0]; · iexact Hx0
    isplitl [Hx1] <;> iassumption
  isplitl [Hout']
  · iexists g1; iexact Hout'
  iexists f; iexact Hscr'

end Cert.Kernel.AR

end
-- ==== Proof.K.StageA1.lean ====
import proofs.«900720_g7700000000000721_dist_ar_v7x_xyz2x2x4_z_m4096_n1024_f32_1_alg».proof.Proof.K.Steps
import proofs.«900720_g7700000000000721_dist_ar_v7x_xyz2x2x4_z_m4096_n1024_f32_1_alg».proof.Proof.K.Levels
import proofs.«900720_g7700000000000721_dist_ar_v7x_xyz2x2x4_z_m4096_n1024_f32_1_alg».proof.Proof.K.Views
import proofs.«900720_g7700000000000721_dist_ar_v7x_xyz2x2x4_z_m4096_n1024_f32_1_alg».proof.Proof.K.Parts

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace StageA1

def ghostMid (K : GSem nD τ sig → ℕ) (c : Dev nD) (ks kr : ℕ) : sProp 𝕄 :=
  iprop(records m ρ K ∗ levAts L lv ∗ toksFrom c ks ∗ recvTodo c kr ∗ recvDone c kr ∗ sendTodo c ∗ sendCred c ks
    ∗ ∃ W, owes (c : Thread nD τ) (Orem c (24 - ks)) W)

theorem dev6_eq (c : Dev nD) : (⟨k0_dev6 c, k0_dev6_lt c⟩ : Dev nD) = zr c := by revert c; decide
theorem dev7_eq (c : Dev nD) : (⟨k0_dev7 c, k0_dev7_lt c⟩ : Dev nD) = zr c := by revert c; decide

theorem recvPay_rs0 (c : Dev nD) (p : Fin 2) :
    recvPay m ρ c (rsJ p 0) = iprop(owns (c : Thread nD τ) (slotV (slotOf p 0)) fullShare (landed m ρ c p 0) ∗ emp) := by
  rw [recvPay_rs]; unfold rsR; rw [if_pos rfl]
theorem recvPay_rs1 (c : Dev nD) (p : Fin 2) (s : Fin 3) (hs : s ≠ 0) (n : ℕ) (hn : n = s.val) :
    recvPay m ρ c (rsJ p s) = iprop(owns (c : Thread nD τ) (slotV (slotOf p s)) fullShare (landed m ρ c p s)
      ∗ pts (zl c) (srcV oM (zl c) p s) fullShare (Sk (X m ρ) n (zl c))) := by
  subst hn; rw [recvPay_rs]; unfold rsR; rw [if_neg hs]

theorem slotsHeld_three (c : Dev nD) (a b d : Fin 2 × Fin 3) :
    slotsHeld m ρ c [a, b, d] = iprop(owns (c : Thread nD τ) (slotV (slotOf a.1 a.2)) fullShare (landed m ρ c a.1 a.2)
      ∗ owns (c : Thread nD τ) (slotV (slotOf b.1 b.2)) fullShare (landed m ρ c b.1 b.2)
      ∗ owns (c : Thread nD τ) (slotV (slotOf d.1 d.2)) fullShare (landed m ρ c d.1 d.2)) := rfl

def frameA1 (c : Dev nD) : sProp 𝕄 :=
  iprop(pts c (srcV xM c 1 0) Lq (X m ρ c)
    ∗ (∃ g : Buf (Elt F) (oM.view.loc (c : Thread nD τ)), pts c (agV c 1 0) fullShare g ∗ pts c (agV c 1 1) fullShare g ∗ pts c (agV c 1 2) fullShare g)
    ∗ (bor (zr c) (slotV 3) ∗ bor (zr c) (slotV 4) ∗ bor (zr c) (slotV 5))
    ∗ bor (zl c) (agV c 0 2) ∗ bor (zl c) (agV c 1 2)
    ∗ borPa c [(0,0),(0,1),(0,2),(1,0),(1,1),(1,2)] ∗ borPb c [(0,0),(0,1),(0,2),(1,0),(1,1),(1,2)])

abbrev held (c : Dev nD) (s : Fin 3) : sProp 𝕄 := owns (c : Thread nD τ) (slotV (slotOf 0 s)) fullShare (landed m ρ c 0 s)

def SA4 (K : GSem nD τ sig → ℕ) (c : Dev nD) (xr_ : sProp 𝕄) : sProp 𝕄 :=
  iprop(ghostMid m ρ K c 1 0 ∗ xr_
    ∗ bor c (agV c 0 0) ∗ bor c (agV c 0 1) ∗ bor c (agV c 0 2)
    ∗ bor (zr c) (slotV 1) ∗ bor (zr c) (slotV 2)
    ∗ frameA1 m ρ c)

def SA5 (K : GSem nD τ sig → ℕ) (c : Dev nD) (xr_ : sProp 𝕄) : sProp 𝕄 :=
  iprop(ghostMid m ρ K c 1 1 ∗ xr_
    ∗ bor c (agV c 0 0) ∗ bor c (agV c 0 1) ∗ pts c (agV c 0 2) fullShare (Sk (X m ρ) 1 c)
    ∗ held m ρ c 0
    ∗ bor (zr c) (slotV 1) ∗ bor (zr c) (slotV 2)
    ∗ frameA1 m ρ c)

def SA6 (K : GSem nD τ sig → ℕ) (c : Dev nD) (xr_ : sProp 𝕄) : sProp 𝕄 :=
  iprop(ghostMid m ρ K c 2 1 ∗ xr_
    ∗ bor c (agV c 0 0) ∗ bor c (agV c 0 1)
    ∗ held m ρ c 0
    ∗ bor (zr c) (slotV 2)
    ∗ frameA1 m ρ c)

def SA7 (K : GSem nD τ sig → ℕ) (c : Dev nD) (xr_ : sProp 𝕄) : sProp 𝕄 :=
  iprop(ghostMid m ρ K c 2 2 ∗ xr_
    ∗ bor c (agV c 0 0) ∗ pts c (agV c 0 1) fullShare (Sk (X m ρ) 2 c)
    ∗ held m ρ c 0 ∗ held m ρ c 1
    ∗ pts (zl c) (agV c 0 1) fullShare (Sk (X m ρ) 1 (zl c))
    ∗ bor (zr c) (slotV 2)
    ∗ frameA1 m ρ c)

def SA8 (K : GSem nD τ sig → ℕ) (c : Dev nD) (xr_ : sProp 𝕄) : sProp 𝕄 :=
  iprop(ghostMid m ρ K c 3 3 ∗ xr_
    ∗ bor c (agV c 0 0)
    ∗ held m ρ c 0 ∗ held m ρ c 1 ∗ held m ρ c 2
    ∗ pts (zl c) (agV c 0 1) fullShare (Sk (X m ρ) 1 (zl c)) ∗ pts (zl c) (agV c 0 0) fullShare (Sk (X m ρ) 2 (zl c))
    ∗ frameA1 m ρ c)

theorem slot_pts (c : Dev nD) (k : Fin 6) (q : PosShare TreeShare) (f : Buf (Elt F) (cM.view.loc (c : Thread nD τ))) :
    (pts c (slotV k) q f : sProp 𝕄) = (cM.view.loc (c : Thread nD τ) ↦[(slotV k).view.set]{q} f) := rfl
theorem acc_pts_load (c : Dev nD) (p : Fin 2) (s : Fin 3) (q : PosShare TreeShare) (g : Buf (Elt F) (oM.view.loc (c : Thread nD τ))) :
    (pts c (accV c p s) q g : sProp 𝕄) = (oM.view.loc (c : Thread nD τ) ↦[(accV c p s).view.set]{q} g) := rfl
theorem acc_pts_store (c : Dev nD) (p : Fin 2) (s : Fin 3) (q : PosShare TreeShare) (g : Buf (Elt F) (oM.view.loc (c : Thread nD τ))) :
    (pts c (accV c p s) q g : sProp 𝕄) = ((oM.access (accR c p s)).loc (c : Thread nD τ) ↦[(accV c p s).view.set]{q} g) := rfl

set_option maxHeartbeats 800000 in
theorem add_step (c : Dev nD) (p : Fin 2) (s : Fin 3)
    (payf : Vec F S128x1024 .f32 → Vec F S1x128x1024 .f32 → FVec F S128x1024 .f32) (hpay : payf = k0_pay1)
    (f : Buf (Elt F) (cM.view.loc (c : Thread nD τ))) (hf : (slotV (slotOf p s)).view.read (Elt F) f = landed m ρ c p s)
    (g : Buf (Elt F) (oM.view.loc (c : Thread nD τ))) (n : ℕ) (hn : n = s.val + 1)
    {hl1 : xM.view.LoadsAt (accR c p s).toLoadRect}
    {hl2 : cM.view.LoadsAt (Rect.unit (s := S6x128x1024) ![(slotOf p s).val, 0, 0] S1x128x1024.size (slot_inb (slotOf p s))).toLoadRect}
    {hl3 : oM.view.LoadsAt (accR c p s).toLoadRect}
    {hx : (oM.access (accR c p s)).Stores Finset.univ} {hm : (Finset.univ : Finset (accR c p s).shape.Idx) = Finset.univ ∨ ∀ a, (accR c p s).stride a = 1}
    {α : Type} {k : PUnit → Prog (TpuEff nD τ sig (Elt F) Λ₀ .tc) α} {Q : α → sProp 𝕄} :
    iprop((xM.view.loc (c : Thread nD τ) ↦[Finset.univ]{Rq} X m ρ c) ∗ pts c (slotV (slotOf p s)) fullShare f ∗ pts c (accV c p s) fullShare g)
      ⊢ iprop((((xM.view.loc (c : Thread nD τ) ↦[Finset.univ]{Rq} X m ρ c) ∗ pts c (slotV (slotOf p s)) fullShare f
              ∗ pts c (accV c p s) fullShare (Sk (X m ρ) n c))
            -∗ wp frame (wpE (defs₀ (F := F)) 𝒱₀ (c : Thread nD τ) none) Set.univ (k ⟨⟩) Q)
        -∗ wp frame (wpE (defs₀ (F := F)) 𝒱₀ (c : Thread nD τ) none) Set.univ
        (.op (.load xM (accR c p s).toLoadRect hl1) fun v1 =>
          .op (.load cM (Rect.unit (s := S6x128x1024) ![(slotOf p s).val, 0, 0] S1x128x1024.size (slot_inb (slotOf p s))).toLoadRect hl2) fun v2 =>
          .op (.load oM (accR c p s).toLoadRect hl3) fun v3 =>
          .op (.store oM (accR c p s) (payf v1 v2) Finset.univ hx hm) k) Q) := by
  subst hpay hn
  iintro ⟨Hx, Hslot, Ho⟩ Hk
  iapply (wp_load 𝒱₀ (c : Thread nD τ) none Set.univ (m := xM) (Finset.subset_univ _)) $$ Hx; iintro Hx
  ihave Hslot := (Entails.of_eq (slot_pts c (slotOf p s) fullShare f)) $$ Hslot
  iapply (wp_load 𝒱₀ (c : Thread nD τ) none Set.univ (m := cM) (slot_load_set (slotOf p s))) $$ Hslot; iintro Hslot
  ihave Ho := (Entails.of_eq (acc_pts_load c p s fullShare g)) $$ Ho
  iapply (wp_load 𝒱₀ (c : Thread nD τ) none Set.univ (m := oM) (acc_load_set c p s)) $$ Ho; iintro Ho
  ihave Ho := (Entails.of_eq ((acc_pts_load c p s fullShare g).symm.trans (acc_pts_store c p s fullShare g))) $$ Ho
  iapply (wp_store 𝒱₀ (c : Thread nD τ) none Set.univ (m := oM) (r := accR c p s) (Mk := Finset.univ)
    (show (oM.access (accR c p s)).setOn Finset.univ ⊆ (accV c p s).view.set from Finset.Subset.refl _)) $$ Ho; iintro Ho
  iapply Hk
  isplitl [Hx]; · iexact Hx
  isplitl [Hslot]
  · iapply (Entails.of_eq (slot_pts c (slotOf p s) fullShare f).symm); iexact Hslot
  iapply (Entails.of_eq (pts_congr c (accV c p s) fullShare _ (Sk (X m ρ) (s.val + 1) c) (store_val m ρ c p s g f hf)))
  iapply (Entails.of_eq (acc_pts_store c p s fullShare _).symm)
  iexact Ho

theorem landing_owns_x (c : Dev nD) (p : Fin 2) (s : Fin 3)
    (fd : Buf (Elt F) ((slotV (slotOf p s)).view.loc (zr c : Thread nD τ))) :
    ((slotV (slotOf p s)).view.loc (zr c : Thread nD τ) ↦[(slotV (slotOf p s)).view.set]{fullShare}
        ((slotV (slotOf p s)).view.write (Elt F) fd ((srcV xM c p s).view.read (Elt F) (Sk (X m ρ) s.val c)) Finset.univ) : sProp 𝕄)
      ⊢ owns (zr c : Thread nD τ) (slotV (slotOf p s)) fullShare (landed m ρ (zr c) p s) := by
  unfold owns
  iintro H
  iexists ((slotV (slotOf p s)).view.write (Elt F) fd ((srcV xM c p s).view.read (Elt F) (Sk (X m ρ) s.val c)) Finset.univ)
  isplitr
  · ipureintro
    rw [slot_read_write (zr c) (slotOf p s) fd]
    unfold landed
    rw [zl_zr]
  · iexact H

theorem landing_owns_o (c : Dev nD) (p : Fin 2) (s : Fin 3)
    (fd : Buf (Elt F) ((slotV (slotOf p s)).view.loc (zr c : Thread nD τ))) :
    ((slotV (slotOf p s)).view.loc (zr c : Thread nD τ) ↦[(slotV (slotOf p s)).view.set]{fullShare}
        ((slotV (slotOf p s)).view.write (Elt F) fd ((srcV oM c p s).view.read (Elt F) (Sk (X m ρ) s.val c)) Finset.univ) : sProp 𝕄)
      ⊢ owns (zr c : Thread nD τ) (slotV (slotOf p s)) fullShare (landed m ρ (zr c) p s) := by
  rw [← src_read_x_o]; exact landing_owns_x m ρ c p s fd

end StageA1

open StageA1

set_option maxHeartbeats 800000 in
theorem part4_spec (K : GSem nD τ sig → ℕ) (c : Dev nD) (xr_ : sProp 𝕄)
    (v2 v5 v8 v19 v94 v95 c4_i32_67 : BitVec 32) (v96 : BitVec 1) (Kt : BitVec 32 → sProp 𝕄) :
    iprop(St1 m ρ K c xr_ ∗ (∀ r, SA4 m ρ K c xr_ -∗ Kt r)) ⊢ wp frame (wpE (defs₀ (F := F)) 𝒱₀ (c : Thread nD τ) none) Set.univ
      (k0_part4 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 c v2 v5 v8 v19 v94 v95 c4_i32_67 v96) Kt := by
  rw [k0_part4_eq_skeleton]; unfold k0_part4_skel
  simp only [Prog.lift, Prog.bind_op, Prog.bind_ret, Prog.pure_eq_ret]
  unfold St1 ghostAt
  iintro ⟨⟨⟨#HR, #Hlev, Htok, Hrt, Hrd, Hst, Hsc, ⟨%W, HO⟩⟩, Hx0, Hx1, Hxr, ⟨%g, Ho00, Ho01, Ho02, Ho10, Ho11, Ho12⟩, ⟨Hs0, Hs1, Hs2, Hs3, Hs4, Hs5⟩, Hb0, Hb1, Hpa, Hpb⟩, Hk⟩
  ihave Htok' := (Entails.of_eq (toks_succ c 0 0 1 rfl rfl)) $$ Htok
  icases Htok' with ⟨⟨Ht1, Ht2⟩, Htok⟩
  unfold bor
  icases Hs0 with ⟨%fd, Hs0⟩
  iapply (step_send m ρ K c (rsJ 0 0) 23 rfl (srcV xM c 0 0) (slotV 0) Lq (X m ρ c) fd W _ _ _ (dev5_eq c) (zsend_rs 0 0 _ _) (zrecv_rs 0 0 _ _)
      ((amount_slot 0 _).trans (NJ_rs 0 0).symm)
      (by rw [sendPay_rs]; unfold rsS; rw [if_pos rfl])
      (by rw [recvPay_rs, peer_rs]; unfold rsR; rw [if_pos rfl]
          exact (landing_owns_x m ρ c 0 0 fd).trans (equiv_iff.mp sep_emp).symm.le)) $$ [Hx0 Hs0 HO Ht1 Ht2]
  · iframe
    isplitr; · iexact HR
    isplitl [Hs0]; · iexact Hs0
    isplitl [Ht1]; · iexact Ht1
    iexact Ht2
  iintro ⟨Hc, HO⟩
  rw [wp_ret]; imodintro
  iapply Hk
  unfold SA4 ghostMid frameA1 bor
  isplitl [Htok Hrt Hrd Hst Hsc Hc HO]
  · isplitr; · iexact HR
    isplitr; · iexact Hlev
    isplitl [Htok]; · iexact Htok
    isplitl [Hrt]; · iexact Hrt
    isplitl [Hrd]; · iexact Hrd
    isplitl [Hst]; · iexact Hst
    isplitl [Hsc Hc]
    · iapply (Entails.of_eq (sendCred_succ c 0 0 1 rfl rfl).symm)
      isplitl [Hc]; · iexact Hc
      iexact Hsc
    iexists W; iexact HO
  isplitl [Hxr]; · iexact Hxr
  isplitl [Ho00]; · iexists g; iexact Ho00
  isplitl [Ho01]; · iexists g; iexact Ho01
  isplitl [Ho02]; · iexists g; iexact Ho02
  isplitl [Hs1]; · iexact Hs1
  isplitl [Hs2]; · iexact Hs2
  isplitl [Hx1]; · iexact Hx1
  isplitl [Ho10 Ho11 Ho12]
  · iexists g
    isplitl [Ho10]; · iexact Ho10
    isplitl [Ho11]; · iexact Ho11
    iexact Ho12
  isplitl [Hs3 Hs4 Hs5]
  · isplitl [Hs3]; · iexact Hs3
    isplitl [Hs4]; · iexact Hs4
    iexact Hs5
  isplitl [Hb0]; · iexact Hb0
  isplitl [Hb1]; · iexact Hb1
  isplitl [Hpa]; · iexact Hpa
  iexact Hpb

set_option maxHeartbeats 800000 in
theorem part5_spec (K : GSem nD τ sig → ℕ) (c : Dev nD) (xr_ xr' : sProp 𝕄)
    (hxr : xr_ = iprop((xM.view.loc (c : Thread nD τ) ↦[Finset.univ]{Rq} X m ρ c) ∗ xr'))
    (v2 v5 v8 v19 v33 v94 v117 : BitVec 32) (Kt : (Σ' (v155 : BitVec 32) (v159 : BitVec 32) (v164 : BitVec 1), BitVec 32) → sProp 𝕄) :
    iprop(SA4 m ρ K c xr_ ∗ (∀ r, SA5 m ρ K c xr_ -∗ Kt r)) ⊢ wp frame (wpE (defs₀ (F := F)) 𝒱₀ (c : Thread nD τ) none) Set.univ
      (k0_part5 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 c v2 v5 v8 v19 v33 v94 v117) Kt := by
  subst hxr
  rw [k0_part5_eq_skeleton]; unfold k0_part5_skel
  simp only [Prog.lift, Prog.bind_op, Prog.bind_ret, Prog.pure_eq_ret]
  unfold SA4 ghostMid
  iintro ⟨⟨⟨#HR, #Hlev, Htok, Hrt, Hrd, Hst, Hsc, ⟨%W, HO⟩⟩, ⟨Hx, Hxr'⟩, Ho00, Ho01, Ho02, Hs1, Hs2, Hfr⟩, Hk⟩
  ihave Hrt' := (Entails.of_eq (recvTodo_succ c 0 0 1 rfl rfl)) $$ Hrt
  icases Hrt' with ⟨⟨Hat, Hcr⟩, Hrt⟩
  iapply (step_wait_recv m ρ K c (rsJ 0 0) (Orem c 23) W (srcV xM c 0 0) (slotV 0) _ (zrecv_rs 0 0 _ _) (NJ_rs 0 0).symm (mayWait_recv c (rsJ 0 0) 23 (by decide))) $$ [Hcr HO Hat]
  · isplitr; · iexact HR
    isplitr; · iexact Hlev
    isplitl [Hcr]; · iexact Hcr
    isplitl [HO]; · iexact HO
    iexact Hat
  iintro ⟨HO, Hat, Hpay⟩
  ihave Hpay := (Entails.of_eq (recvPay_rs0 m ρ c 0)) $$ Hpay
  icases Hpay with ⟨Hslot, -⟩
  unfold owns
  icases Hslot with ⟨%f, %hf, Hslot⟩
  unfold bor
  icases Ho02 with ⟨%g, Ho02⟩
  ihave Ho02 := (Entails.of_eq (pts_view_eq c (acc0_eq c 0).symm fullShare g g HEq.rfl)) $$ Ho02
  iapply (add_step m ρ c 0 0 k0_pay1 rfl f hf g 1 rfl) $$ [Hx Hslot Ho02]
  · isplitl [Hx]; · iexact Hx
    isplitl [Hslot]; · iexact Hslot
    iexact Ho02
  iintro ⟨Hx, Hslot, Ho02⟩
  rw [wp_ret]; imodintro
  iapply Hk
  unfold SA5 ghostMid bor held owns
  ihave Hrd := (Entails.of_eq (recvDone_succ c 0 0 1 rfl rfl).symm) $$ [Hat Hrd]
  · isplitl [Hat]; · iexact Hat
    iexact Hrd
  ihave Ho02 := (Entails.of_eq (pts_view_eq c (acc0_eq c 0) fullShare (Sk (X m ρ) 1 c) (Sk (X m ρ) 1 c) HEq.rfl)) $$ Ho02
  isplitl [Htok Hrt Hrd Hst Hsc HO]
  · iframe
    isplitr; · iexact HR
    iexact Hlev
  iframe
  iexists f
  isplitr; · ipureintro; exact hf
  iexact Hslot

set_option maxHeartbeats 800000 in
theorem part6_spec (K : GSem nD τ sig → ℕ) (c : Dev nD) (xr_ : sProp 𝕄)
    (v2 v5 v8 v19 v155 v159 : BitVec 32) (v164 : BitVec 1) (v165 : BitVec 32) (Kt : (Σ' (v178 : BitVec 32) (v197 : BitVec 32), BitVec 32) → sProp 𝕄) :
    iprop(SA5 m ρ K c xr_ ∗ (∀ r, SA6 m ρ K c xr_ -∗ Kt r)) ⊢ wp frame (wpE (defs₀ (F := F)) 𝒱₀ (c : Thread nD τ) none) Set.univ
      (k0_part6 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 c v2 v5 v8 v19 v155 v159 v164 v165) Kt := by
  rw [k0_part6_eq_skeleton]; unfold k0_part6_skel
  simp only [Prog.lift, Prog.bind_op, Prog.bind_ret, Prog.pure_eq_ret]
  unfold SA5 ghostMid
  iintro ⟨⟨⟨#HR, #Hlev, Htok, Hrt, Hrd, Hst, Hsc, ⟨%W, HO⟩⟩, Hxr, Ho00, Ho01, Ho02, Hh0, Hs1, Hs2, Hfr⟩, Hk⟩
  ihave Htok' := (Entails.of_eq (toks_succ c 1 1 2 rfl rfl)) $$ Htok
  icases Htok' with ⟨⟨Ht1, Ht2⟩, Htok⟩
  unfold bor
  icases Hs1 with ⟨%fd, Hs1⟩
  ihave Ho02 := (Entails.of_eq (pts_view_eq c (src1_eq c 0).symm fullShare (Sk (X m ρ) 1 c) (Sk (X m ρ) 1 c) HEq.rfl)) $$ Ho02
  iapply (step_send_landing m ρ K c (rsJ 0 1) 22 rfl (srcV oM c 0 1) (slotV 1) fullShare (Sk (X m ρ) 1 c) fd W _ _ _ (dev6_eq c) (zsend_rs 0 1 _ _) (zrecv_rs 0 1 _ _)
      ((amount_slot 1 _).trans (NJ_rs 0 1).symm)
      (by rw [sendPay_rs]; unfold rsS; rw [if_neg (by decide)])
      (by rw [recvPay_rs1 m ρ _ 0 1 (by decide) 1 rfl, peer_rs, zl_zr]
          exact sep_mono_left (landing_owns_o m ρ c 0 1 fd))) $$ [Ho02 Hs1 HO Ht1 Ht2]
  · iframe
    isplitr; · iexact HR
    isplitl [Hs1]; · iexact Hs1
    isplitl [Ht1]; · iexact Ht1
    iexact Ht2
  iintro ⟨Hc, HO⟩
  rw [wp_ret]; imodintro
  iapply Hk
  unfold SA6 ghostMid bor
  ihave Hsc := (Entails.of_eq (sendCred_succ c 1 1 2 rfl rfl).symm) $$ [Hc Hsc]
  · isplitl [Hc]; · iexact Hc
    iexact Hsc
  isplitl [Htok Hrt Hrd Hst Hsc HO]
  · iframe
    isplitr; · iexact HR
    isplitr; · iexact Hlev
    iexists W; iexact HO
  iframe

set_option maxHeartbeats 800000 in
theorem part7_spec (K : GSem nD τ sig → ℕ) (c : Dev nD) (xr_ xr' : sProp 𝕄)
    (hxr : xr_ = iprop((xM.view.loc (c : Thread nD τ) ↦[Finset.univ]{Rq} X m ρ c) ∗ xr'))
    (v8 v33 v155 v178 v197 v198 : BitVec 32)
    (Kt : (Σ' (v216 : BitVec 32) (v227 : BitVec 32) (v231 : BitVec 32) (v232 : BitVec 32), BitVec 32) → sProp 𝕄) :
    iprop(SA6 m ρ K c xr_ ∗ (∀ r, SA7 m ρ K c xr_ -∗ Kt r)) ⊢ wp frame (wpE (defs₀ (F := F)) 𝒱₀ (c : Thread nD τ) none) Set.univ
      (k0_part7 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 c v8 v33 v155 v178 v197 v198) Kt := by
  subst hxr
  rw [k0_part7_eq_skeleton]; unfold k0_part7_skel
  simp only [Prog.lift, Prog.bind_op, Prog.bind_ret, Prog.pure_eq_ret]
  unfold SA6 ghostMid
  iintro ⟨⟨⟨#HR, #Hlev, Htok, Hrt, Hrd, Hst, Hsc, ⟨%W, HO⟩⟩, ⟨Hx, Hxr'⟩, Ho00, Ho01, Hh0, Hs2, Hfr⟩, Hk⟩
  ihave Hrt' := (Entails.of_eq (recvTodo_succ c 1 1 2 rfl rfl)) $$ Hrt
  icases Hrt' with ⟨⟨Hat, Hcr⟩, Hrt⟩
  iapply (step_wait_recv m ρ K c (rsJ 0 1) (Orem c 22) W (srcV oM c 0 1) (slotV 1) _ (zrecv_rs 0 1 _ _) (NJ_rs 0 1).symm (mayWait_recv c (rsJ 0 1) 22 (by decide))) $$ [Hcr HO Hat]
  · isplitr; · iexact HR
    isplitr; · iexact Hlev
    isplitl [Hcr]; · iexact Hcr
    isplitl [HO]; · iexact HO
    iexact Hat
  iintro ⟨HO, Hat, Hpay⟩
  ihave Hpay := (Entails.of_eq (recvPay_rs1 m ρ c 0 1 (by decide) 1 rfl)) $$ Hpay
  icases Hpay with ⟨Hslot, Hz⟩
  ihave Hz := (Entails.of_eq (pts_view_eq (zl c) (src_zl1 c 0) fullShare (Sk (X m ρ) 1 (zl c)) (Sk (X m ρ) 1 (zl c)) HEq.rfl)) $$ Hz
  unfold owns
  icases Hslot with ⟨%f, %hf, Hslot⟩
  unfold bor
  icases Ho01 with ⟨%g, Ho01⟩
  ihave Ho01 := (Entails.of_eq (pts_view_eq c (acc1_eq c 0).symm fullShare g g HEq.rfl)) $$ Ho01
  iapply (add_step m ρ c 0 1 k0_pay2 pay_eq2 f hf g 2 rfl) $$ [Hx Hslot Ho01]
  · isplitl [Hx]; · iexact Hx
    isplitl [Hslot]; · iexact Hslot
    iexact Ho01
  iintro ⟨Hx, Hslot, Ho01⟩
  rw [wp_ret]; imodintro
  iapply Hk
  unfold SA7 ghostMid bor held owns
  ihave Hrd := (Entails.of_eq (recvDone_succ c 1 1 2 rfl rfl).symm) $$ [Hat Hrd]
  · isplitl [Hat]; · iexact Hat
    iexact Hrd
  ihave Ho01 := (Entails.of_eq (pts_view_eq c (acc1_eq c 0) fullShare (Sk (X m ρ) 2 c) (Sk (X m ρ) 2 c) HEq.rfl)) $$ Ho01
  isplitl [Htok Hrt Hrd Hst Hsc HO]
  · iframe
    isplitr; · iexact HR
    iexact Hlev
  iframe
  iexists f
  isplitr; · ipureintro; exact hf
  iexact Hslot

set_option maxHeartbeats 800000 in
theorem part8_spec (K : GSem nD τ sig → ℕ) (c : Dev nD) (xr_ : sProp 𝕄)
    (v2 v5 v19 v216 v227 v231 v232 c0_i32_163 : BitVec 32) (Kt : BitVec 32 → sProp 𝕄) :
    iprop(SA7 m ρ K c xr_ ∗ (∀ r, SA8 m ρ K c xr_ -∗ Kt r)) ⊢ wp frame (wpE (defs₀ (F := F)) 𝒱₀ (c : Thread nD τ) none) Set.univ
      (k0_part8 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 c v2 v5 v19 v216 v227 v231 v232 c0_i32_163) Kt := by
  rw [k0_part8_eq_skeleton]; unfold k0_part8_skel
  simp only [Prog.lift, Prog.bind_op, Prog.bind_ret, Prog.pure_eq_ret]
  unfold SA7 ghostMid
  iintro ⟨⟨⟨#HR, #Hlev, Htok, Hrt, Hrd, Hst, Hsc, ⟨%W, HO⟩⟩, Hxr, Ho00, Ho01, Hh0, Hh1, Hz1, Hs2, Hfr⟩, Hk⟩
  ihave Htok' := (Entails.of_eq (toks_succ c 2 2 3 rfl rfl)) $$ Htok
  icases Htok' with ⟨⟨Ht1, Ht2⟩, Htok⟩
  unfold bor
  icases Hs2 with ⟨%fd, Hs2⟩
  ihave Ho01 := (Entails.of_eq (pts_view_eq c (src2_eq c 0).symm fullShare (Sk (X m ρ) 2 c) (Sk (X m ρ) 2 c) HEq.rfl)) $$ Ho01
  iapply (step_send_landing m ρ K c (rsJ 0 2) 21 rfl (srcV oM c 0 2) (slotV 2) fullShare (Sk (X m ρ) 2 c) fd W _ _ _ (dev7_eq c) (zsend_rs 0 2 _ _) (zrecv_rs 0 2 _ _)
      ((amount_slot 2 _).trans (NJ_rs 0 2).symm)
      (by rw [sendPay_rs]; unfold rsS; rw [if_neg (by decide)])
      (by rw [recvPay_rs1 m ρ _ 0 2 (by decide) 2 rfl, peer_rs, zl_zr]
          exact sep_mono_left (landing_owns_o m ρ c 0 2 fd))) $$ [Ho01 Hs2 HO Ht1 Ht2]
  · iframe
    isplitr; · iexact HR
    isplitl [Hs2]; · iexact Hs2
    isplitl [Ht1]; · iexact Ht1
    iexact Ht2
  iintro ⟨Hc, HO⟩
  ihave Hrt' := (Entails.of_eq (recvTodo_succ c 2 2 3 rfl rfl)) $$ Hrt
  icases Hrt' with ⟨⟨Hat, Hcr⟩, Hrt⟩
  iapply (step_wait_recv m ρ K c (rsJ 0 2) (Orem c 21) W (srcV oM c 0 2) (slotV 2) _ (zrecv_rs 0 2 _ _) (NJ_rs 0 2).symm (mayWait_recv c (rsJ 0 2) 21 (by decide))) $$ [Hcr HO Hat]
  · isplitr; · iexact HR
    isplitr; · iexact Hlev
    isplitl [Hcr]; · iexact Hcr
    isplitl [HO]; · iexact HO
    iexact Hat
  iintro ⟨HO, Hat, Hpay⟩
  ihave Hpay := (Entails.of_eq (recvPay_rs1 m ρ c 0 2 (by decide) 2 rfl)) $$ Hpay
  icases Hpay with ⟨Hslot, Hz⟩
  ihave Hz := (Entails.of_eq (pts_view_eq (zl c) (src_zl2 c 0) fullShare (Sk (X m ρ) 2 (zl c)) (Sk (X m ρ) 2 (zl c)) HEq.rfl)) $$ Hz
  rw [wp_ret]; imodintro
  iapply Hk
  unfold SA8 ghostMid bor
  ihave Hsc := (Entails.of_eq (sendCred_succ c 2 2 3 rfl rfl).symm) $$ [Hc Hsc]
  · isplitl [Hc]; · iexact Hc
    iexact Hsc
  ihave Hrd := (Entails.of_eq (recvDone_succ c 2 2 3 rfl rfl).symm) $$ [Hat Hrd]
  · isplitl [Hat]; · iexact Hat
    iexact Hrd
  isplitl [Htok Hrt Hrd Hst Hsc HO]
  · iframe
    isplitr; · iexact HR
    iexact Hlev
  iframe

set_option maxHeartbeats 800000 in
theorem part9_spec (K : GSem nD τ sig → ℕ) (c : Dev nD) (xr_ xr' : sProp 𝕄)
    (hxr : xr_ = iprop((xM.view.loc (c : Thread nD τ) ↦[Finset.univ]{Rq} X m ρ c) ∗ xr'))
    (v2 v5 v8 v30 v33 v216 v266 : BitVec 32) (Kt : PUnit → sProp 𝕄) :
    iprop(SA8 m ρ K c xr_ ∗ (∀ r, St1b m ρ K c xr_ -∗ Kt r)) ⊢ wp frame (wpE (defs₀ (F := F)) 𝒱₀ (c : Thread nD τ) none) Set.univ
      (k0_part9 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 c v2 v5 v8 v30 v33 v216 v266) Kt := by
  subst hxr
  rw [k0_part9_eq_skeleton]; unfold k0_part9_skel
  simp only [Prog.lift, Prog.bind_op, Prog.bind_ret, Prog.pure_eq_ret]
  unfold SA8 ghostMid held owns
  iintro ⟨⟨⟨#HR, #Hlev, Htok, Hrt, Hrd, Hst, Hsc, HO⟩, ⟨Hx, Hxr'⟩, Ho00, Hh0, Hh1, ⟨%f, %hf, Hslot⟩, Hz1, Hz0, Hfr⟩, Hk⟩
  unfold bor
  icases Ho00 with ⟨%g, Ho00⟩
  ihave Ho00 := (Entails.of_eq (pts_view_eq c (acc2_eq c 0).symm fullShare g g HEq.rfl)) $$ Ho00
  iapply (add_step m ρ c 0 2 k0_pay3 pay_eq3 f hf g 3 rfl) $$ [Hx Hslot Ho00]
  · isplitl [Hx]; · iexact Hx
    isplitl [Hslot]; · iexact Hslot
    iexact Ho00
  iintro ⟨Hx, Hslot, Ho00⟩
  rw [wp_ret]; imodintro
  iapply Hk
  unfold St1b ghostAt frameA1 bor
  ihave Ho00 := (Entails.of_eq (pts_view_eq c (acc2_eq c 0) fullShare (Sk (X m ρ) 3 c) (Sk (X m ρ) 3 c) HEq.rfl)) $$ Ho00
  icases Hfr with ⟨Hx1, Hob, Hs345, Hb0, Hb1, Hpa, Hpb⟩
  isplitl [Htok Hrt Hrd Hst Hsc HO]
  · iframe
    isplitr; · iexact HR
    iexact Hlev
  iframe
  iapply (Entails.of_eq (slotsHeld_three m ρ c (0,0) (0,1) (0,2)).symm)
  unfold owns
  iframe
  iexists f
  isplitr; · ipureintro; exact hf
  iexact Hslot

end Cert.Kernel.AR

end
-- ==== Proof.K.StageA2.lean ====
import proofs.«900720_g7700000000000721_dist_ar_v7x_xyz2x2x4_z_m4096_n1024_f32_1_alg».proof.Proof.K.Steps
import proofs.«900720_g7700000000000721_dist_ar_v7x_xyz2x2x4_z_m4096_n1024_f32_1_alg».proof.Proof.K.Levels
import proofs.«900720_g7700000000000721_dist_ar_v7x_xyz2x2x4_z_m4096_n1024_f32_1_alg».proof.Proof.K.Views
import proofs.«900720_g7700000000000721_dist_ar_v7x_xyz2x2x4_z_m4096_n1024_f32_1_alg».proof.Proof.K.Parts

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

private theorem dev9_eq (c : Dev nD) : (⟨k0_dev9 c, k0_dev9_lt c⟩ : Dev nD) = zl c := by revert c; decide
private theorem dev10_eq (c : Dev nD) : (⟨k0_dev10 c, k0_dev10_lt c⟩ : Dev nD) = zl c := by revert c; decide

private theorem ghost_take (K : GSem nD τ sig → ℕ) (c : Dev nD) (k k' : ℕ) (j : Fin 24) (hj : j.val = k) (hk : k' = k + 1) :
    ghostAt m ρ K c k ⊢ iprop(records m ρ K ∗ levAts L lv
      ∗ (dutyTok ER (sendCell c j) 0 0 ∗ dutyTok ER (recvCell (peer j c) j) 0 0) ∗ toksFrom c k'
      ∗ (atPos ER (recvCell c j) 0 ∅ 0 ∗ cred (tallyAt (recvCell c j) () (NJ j))) ∗ recvTodo c k'
      ∗ recvDone c k ∗ sendTodo c ∗ sendCred c k ∗ ∃ W, owes (c : Thread nD τ) (Orem c (24 - k)) W) := by
  unfold ghostAt toksFrom recvTodo
  rw [take_ge _ j k k' hj.symm hk, take_ge _ j k k' hj.symm hk]
  iintro ⟨HR, Hl, ⟨Ht, Hts⟩, ⟨Hr, Hrs⟩, Hd, Hs, Hc, HO⟩
  iframe

private theorem ghost_put (K : GSem nD τ sig → ℕ) (c : Dev nD) (k k' n : ℕ) (j : Fin 24) (hj : j.val = k) (hk : k' = k + 1) (hn : n = 24 - k') :
    iprop(records m ρ K ∗ levAts L lv ∗ toksFrom c k' ∗ recvTodo c k'
      ∗ atPos ER (recvCell c j) 1 ∅ 0 ∗ recvDone c k ∗ sendTodo c
      ∗ cred (tallyAt (sendCell c j) () (NJ j)) ∗ sendCred c k ∗ ∃ W, owes (c : Thread nD τ) (Orem c n) W) ⊢ ghostAt m ρ K c k' := by
  subst hn
  unfold ghostAt recvDone sendCred
  rw [put_lt _ j k k' hj.symm hk, put_lt _ j k k' hj.symm hk]
  iintro ⟨HR, Hl, Hts, Hrs, Hd1, Hd, Hs, Hc1, Hc, HO⟩
  iframe

def restA2 (c : Dev nD) (xr_ : sProp 𝕄) : sProp 𝕄 :=
  iprop(pts c (srcV xM c 1 0) Lq (X m ρ c) ∗ xr_
    ∗ (∃ g : Buf (Elt F) (oM.view.loc (c : Thread nD τ)), pts c (agV c 1 0) fullShare g ∗ pts c (agV c 1 1) fullShare g ∗ pts c (agV c 1 2) fullShare g)
    ∗ slotsHeld m ρ c [(0,0),(0,1),(0,2)]
    ∗ (bor (zr c) (slotV 3) ∗ bor (zr c) (slotV 4) ∗ bor (zr c) (slotV 5))
    ∗ bor (zl c) (agV c 1 2)
    ∗ borPa c [(0,0),(0,1),(0,2),(1,0),(1,1),(1,2)] ∗ borPb c [(0,0),(0,1),(0,2),(1,0),(1,1),(1,2)])

def StA2_10 (K : GSem nD τ sig → ℕ) (c : Dev nD) (xr_ : sProp 𝕄) : sProp 𝕄 :=
  iprop(ghostAt m ρ K c 4
    ∗ pts c (agV c 0 0) Rq (Fn m ρ) ∗ pts c (agV c 0 1) fullShare (Fn m ρ)
    ∗ pts (zl c) (agV c 0 1) fullShare (Sk (X m ρ) 1 (zl c)) ∗ bor (zl c) (agV c 0 2)
    ∗ restA2 m ρ c xr_)

def StA2_11 (K : GSem nD τ sig → ℕ) (c : Dev nD) (xr_ : sProp 𝕄) : sProp 𝕄 :=
  iprop(ghostAt m ρ K c 5
    ∗ pts c (agV c 0 0) Rq (Fn m ρ) ∗ pts c (agV c 0 1) Rq (Fn m ρ) ∗ pts c (agV c 0 2) fullShare (Fn m ρ)
    ∗ bor (zl c) (agV c 0 2)
    ∗ restA2 m ρ c xr_)

private theorem St1b_open (K : GSem nD τ sig → ℕ) (c : Dev nD) (xr_ : sProp 𝕄) :
    St1b m ρ K c xr_ ⊢ iprop(ghostAt m ρ K c 3
      ∗ pts c (agV c 0 0) fullShare (Sk (X m ρ) 3 c)
      ∗ pts (zl c) (agV c 0 0) fullShare (Sk (X m ρ) 2 (zl c))
      ∗ pts (zl c) (agV c 0 1) fullShare (Sk (X m ρ) 1 (zl c)) ∗ bor (zl c) (agV c 0 2)
      ∗ restA2 m ρ c xr_) := by
  unfold St1b restA2
  iintro ⟨HG, Hx, Hxr, Ha, Hg, Hsl, Hbs, Hb02, Hb12, Hz1, Hz0, Hpa, Hpb⟩
  iframe

private theorem St2_close (K : GSem nD τ sig → ℕ) (c : Dev nD) (xr_ : sProp 𝕄) :
    iprop(ghostAt m ρ K c 6
      ∗ pts c (agV c 0 0) Rq (Fn m ρ) ∗ pts c (agV c 0 1) Rq (Fn m ρ) ∗ pts c (agV c 0 2) Rq (Fn m ρ) ∗ pts c (agV (zr c) 0 2) fullShare (Fn m ρ)
      ∗ restA2 m ρ c xr_) ⊢ St2 m ρ K c xr_ := by
  unfold St2 restA2
  iintro ⟨HG, H0, H1, H2, H3, Hx, Hxr, Hg, Hsl, Hbs, Hb12, Hpa, Hpb⟩
  iframe

private theorem own_fin (c : Dev nD) : pts c (agV c 0 0) fullShare (Sk (X m ρ) 3 c) ⊢ (pts c (agV c 0 0) fullShare (Fn m ρ) : sProp 𝕄) :=
  Entails.of_eq (pts_congr c (agV c 0 0) fullShare (Sk (X m ρ) 3 c) (Fn m ρ) (sk3_eq_fin m ρ c 0))

private theorem ag_sendPay (c : Dev nD) (t : Fin 3) :
    ((agV c 0 t).view.loc (c : Thread nD τ) ↦[(agV c 0 t).view.set]{Lq} Fn m ρ : sProp 𝕄) ⊢ sendPay m ρ c (agJ 0 t) := by
  rw [sendPay_ag]; exact Entails.refl _

private theorem ag_land (c : Dev nD) (t : Fin 3) (fd : Buf (Elt F) ((agV c 0 t).view.loc (zl c : Thread nD τ))) :
    ((agV c 0 t).view.loc (zl c : Thread nD τ) ↦[(agV c 0 t).view.set]{fullShare}
        ((agV c 0 t).view.write (Elt F) fd ((agV c 0 t).view.read (Elt F) (Fn m ρ)) Finset.univ) : sProp 𝕄)
      ⊢ recvPay m ρ (zl c) (agJ 0 t) := by
  rw [recvPay_ag]
  unfold agR
  rw [zr_zl]
  exact Entails.of_eq (pts_congr (zl c) (agV c 0 t) fullShare _ _ (write_read_self (agV c 0 t) _ _))

private theorem ag_set_zr0 (c : Dev nD) : (agV (zr c) 0 0).view.set = (agV c 0 1).view.set := by
  rw [agV_set, agV_set]; congr 1; revert c; decide
private theorem ag_set_zr1 (c : Dev nD) : (agV (zr c) 0 1).view.set = (agV c 0 2).view.set := by
  rw [agV_set, agV_set]; congr 1; revert c; decide

private theorem ag_recv0 (c : Dev nD) : recvPay m ρ c (agJ 0 0) ⊢ (pts c (agV c 0 1) fullShare (Fn m ρ) : sProp 𝕄) := by
  rw [recvPay_ag]; unfold agR
  show (oM.view.loc (c : Thread nD τ) ↦[(agV (zr c) 0 0).view.set]{fullShare} Fn m ρ : sProp 𝕄) ⊢ (oM.view.loc (c : Thread nD τ) ↦[(agV c 0 1).view.set]{fullShare} Fn m ρ)
  rw [ag_set_zr0]
private theorem ag_recv1 (c : Dev nD) : recvPay m ρ c (agJ 0 1) ⊢ (pts c (agV c 0 2) fullShare (Fn m ρ) : sProp 𝕄) := by
  rw [recvPay_ag]; unfold agR
  show (oM.view.loc (c : Thread nD τ) ↦[(agV (zr c) 0 1).view.set]{fullShare} Fn m ρ : sProp 𝕄) ⊢ (oM.view.loc (c : Thread nD τ) ↦[(agV c 0 2).view.set]{fullShare} Fn m ρ)
  rw [ag_set_zr1]
private theorem ag_recv2 (c : Dev nD) : recvPay m ρ c (agJ 0 2) ⊢ (pts c (agV (zr c) 0 2) fullShare (Fn m ρ) : sProp 𝕄) := by
  rw [recvPay_ag]; unfold agR; exact Entails.refl _

theorem part10_spec (K : GSem nD τ sig → ℕ) (c : Dev nD) (xr_ : sProp 𝕄) (v2 v5 v8 v30 v33 : BitVec 32)
    (Kt : (Σ' (_ : BitVec 32), BitVec 32) → sProp 𝕄) :
    iprop(St1b m ρ K c xr_ ∗ (∀ r, StA2_10 m ρ K c xr_ -∗ Kt r)) ⊢ wp frame (wpE (defs₀ (F := F)) 𝒱₀ (c : Thread nD τ) none) Set.univ
      (k0_part10 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v2 v5 v8 v30 v33) Kt := by
  rw [k0_part10_eq_skeleton]; unfold k0_part10_skel
  simp only [Prog.lift, Prog.bind_op, Prog.bind_ret, Prog.pure_eq_ret]
  iintro ⟨Hst, Hk⟩
  ihave Hst := (St1b_open m ρ K c xr_) $$ Hst
  icases Hst with ⟨HG, Ha, Hz0, Hz1, Hb2, Hrest⟩
  ihave Ha := (own_fin m ρ c) $$ Ha
  ihave HG := (ghost_take m ρ K c 3 4 (agJ 0 0) rfl rfl) $$ HG
  icases HG with ⟨#HR, #Hlev, ⟨Ht1, Ht2⟩, Hts, ⟨Hat, Hcr⟩, Hrs, Hd, Hs, Hc, ⟨%W, HO⟩⟩
  ihave Ha := (share_LR c (agV c 0 0) (Fn m ρ)).1 $$ Ha
  icases Ha with ⟨HaL, HaR⟩
  iapply (step_send m ρ K c (agJ 0 0) 20 rfl (agV c 0 0) (agV c 0 0) Lq (Fn m ρ) (Sk (X m ρ) 2 (zl c)) W
    _ _ _ ((dev8_eq c).trans (peer_ag 0 0 c).symm) (zsend_ag 0 0 inb_S12_S1_3 squeezes_S1_S_) (zrecv_ag 0 0 inb_S12_S1_3 squeezes_S1_S_)
    ((amount_ag c 0 0 _).trans (NJ_ag 0 0).symm) (ag_sendPay m ρ c 0) (ag_land m ρ c 0 _)) $$ [HaL Hz0 HO Ht1 Ht2]
  · iframe
    isplitr; · iexact HR
    iexact Hz0
  iintro ⟨Hsc, HO⟩
  iapply (step_wait_recv m ρ K c (agJ 0 0) (Orem c 20) W (agV c 0 0) (agV c 0 0) _ (zrecv_ag 0 0 inb_S12_S1_3 squeezes_S1_S_)
    ((show (agV c 0 0).view.dmaCredit = N128 from rfl).trans (NJ_ag 0 0).symm)
    (mayWait_recv c (agJ 0 0) 20 (by decide))) $$ [Hcr HO Hat]
  · iframe
    isplitr; · iexact HR
    iexact Hlev
  iintro ⟨HO, Hat1, Hpay⟩
  ihave Hpay := (ag_recv0 m ρ c) $$ Hpay
  rw [wp_ret]; imodintro
  iapply Hk
  unfold StA2_10
  isplitl [Hts Hrs Hat1 Hd Hs Hsc Hc HO]
  · iapply (ghost_put m ρ K c 3 4 20 (agJ 0 0) rfl rfl rfl)
    iframe
    isplitr; · iexact HR
    iexact Hlev
  iframe

theorem part11_spec (K : GSem nD τ sig → ℕ) (c : Dev nD) (xr_ : sProp 𝕄) (v2 v5 v8 v30 v33 v333 v334 : BitVec 32)
    (Kt : BitVec 32 → sProp 𝕄) :
    iprop(StA2_10 m ρ K c xr_ ∗ (∀ r, StA2_11 m ρ K c xr_ -∗ Kt r)) ⊢ wp frame (wpE (defs₀ (F := F)) 𝒱₀ (c : Thread nD τ) none) Set.univ
      (k0_part11 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v2 v5 v8 v30 v33 v333 v334) Kt := by
  rw [k0_part11_eq_skeleton]; unfold k0_part11_skel
  simp only [Prog.lift, Prog.bind_op, Prog.bind_ret, Prog.pure_eq_ret]
  iintro ⟨Hst, Hk⟩
  unfold StA2_10
  icases Hst with ⟨HG, Ha0, Ha, Hz1, Hb2, Hrest⟩
  ihave HG := (ghost_take m ρ K c 4 5 (agJ 0 1) rfl rfl) $$ HG
  icases HG with ⟨#HR, #Hlev, ⟨Ht1, Ht2⟩, Hts, ⟨Hat, Hcr⟩, Hrs, Hd, Hs, Hc, ⟨%W, HO⟩⟩
  ihave Ha := (share_LR c (agV c 0 1) (Fn m ρ)).1 $$ Ha
  icases Ha with ⟨HaL, HaR⟩
  iapply (step_send m ρ K c (agJ 0 1) 19 rfl (agV c 0 1) (agV c 0 1) Lq (Fn m ρ) (Sk (X m ρ) 1 (zl c)) W
    _ _ _ ((dev9_eq c).trans (peer_ag 0 1 c).symm) (zsend_ag 0 1 inb_S12_S1_4 squeezes_S1_S_) (zrecv_ag 0 1 inb_S12_S1_4 squeezes_S1_S_)
    ((amount_ag c 0 1 _).trans (NJ_ag 0 1).symm) (ag_sendPay m ρ c 1) (ag_land m ρ c 1 _)) $$ [HaL Hz1 HO Ht1 Ht2]
  · iframe
    isplitr; · iexact HR
    iexact Hz1
  iintro ⟨Hsc, HO⟩
  iapply (step_wait_recv m ρ K c (agJ 0 1) (Orem c 19) W (agV c 0 1) (agV c 0 1) _ (zrecv_ag 0 1 inb_S12_S1_4 squeezes_S1_S_)
    ((show (agV c 0 1).view.dmaCredit = N128 from rfl).trans (NJ_ag 0 1).symm)
    (mayWait_recv c (agJ 0 1) 19 (by decide))) $$ [Hcr HO Hat]
  · iframe
    isplitr; · iexact HR
    iexact Hlev
  iintro ⟨HO, Hat1, Hpay⟩
  ihave Hpay := (ag_recv1 m ρ c) $$ Hpay
  rw [wp_ret]; imodintro
  iapply Hk
  unfold StA2_11
  isplitl [Hts Hrs Hat1 Hd Hs Hsc Hc HO]
  · iapply (ghost_put m ρ K c 4 5 19 (agJ 0 1) rfl rfl rfl)
    iframe
    isplitr; · iexact HR
    iexact Hlev
  iframe

theorem part12_spec (K : GSem nD τ sig → ℕ) (c : Dev nD) (xr_ : sProp 𝕄) (v2 v5 v30 v33 v368 : BitVec 32)
    (Kt : BitVec 32 → sProp 𝕄) :
    iprop(StA2_11 m ρ K c xr_ ∗ (∀ r, St2 m ρ K c xr_ -∗ Kt r)) ⊢ wp frame (wpE (defs₀ (F := F)) 𝒱₀ (c : Thread nD τ) none) Set.univ
      (k0_part12 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v2 v5 v30 v33 v368) Kt := by
  rw [k0_part12_eq_skeleton]; unfold k0_part12_skel
  simp only [Prog.lift, Prog.bind_op, Prog.bind_ret, Prog.pure_eq_ret]
  iintro ⟨Hst, Hk⟩
  unfold StA2_11
  icases Hst with ⟨HG, Ha0, Ha1, Ha, Hb2, Hrest⟩
  unfold bor
  icases Hb2 with ⟨%fd, Hb2⟩
  ihave HG := (ghost_take m ρ K c 5 6 (agJ 0 2) rfl rfl) $$ HG
  icases HG with ⟨#HR, #Hlev, ⟨Ht1, Ht2⟩, Hts, ⟨Hat, Hcr⟩, Hrs, Hd, Hs, Hc, ⟨%W, HO⟩⟩
  ihave Ha := (share_LR c (agV c 0 2) (Fn m ρ)).1 $$ Ha
  icases Ha with ⟨HaL, HaR⟩
  iapply (step_send m ρ K c (agJ 0 2) 18 rfl (agV c 0 2) (agV c 0 2) Lq (Fn m ρ) fd W
    _ _ _ ((dev10_eq c).trans (peer_ag 0 2 c).symm) (zsend_ag 0 2 inb_S12_S1_5 squeezes_S1_S_) (zrecv_ag 0 2 inb_S12_S1_5 squeezes_S1_S_)
    ((amount_ag c 0 2 _).trans (NJ_ag 0 2).symm) (ag_sendPay m ρ c 2) (ag_land m ρ c 2 _)) $$ [HaL Hb2 HO Ht1 Ht2]
  · iframe
    isplitr; · iexact HR
    iexact Hb2
  iintro ⟨Hsc, HO⟩
  iapply (step_wait_recv m ρ K c (agJ 0 2) (Orem c 18) W (agV c 0 2) (agV c 0 2) _ (zrecv_ag 0 2 inb_S12_S1_5 squeezes_S1_S_)
    ((show (agV c 0 2).view.dmaCredit = N128 from rfl).trans (NJ_ag 0 2).symm)
    (mayWait_recv c (agJ 0 2) 18 (by decide))) $$ [Hcr HO Hat]
  · iframe
    isplitr; · iexact HR
    iexact Hlev
  iintro ⟨HO, Hat1, Hpay⟩
  ihave Hpay := (ag_recv2 m ρ c) $$ Hpay
  rw [wp_ret]; imodintro
  iapply Hk
  iapply (St2_close m ρ K c xr_)
  isplitl [Hts Hrs Hat1 Hd Hs Hsc Hc HO]
  · iapply (ghost_put m ρ K c 5 6 18 (agJ 0 2) rfl rfl rfl)
    iframe
    isplitr; · iexact HR
    iexact Hlev
  iframe

end Cert.Kernel.AR

end
-- ==== Proof.K.StageB.lean ====
import proofs.«900720_g7700000000000721_dist_ar_v7x_xyz2x2x4_z_m4096_n1024_f32_1_alg».proof.Proof.K.Steps
import proofs.«900720_g7700000000000721_dist_ar_v7x_xyz2x2x4_z_m4096_n1024_f32_1_alg».proof.Proof.K.Levels
import proofs.«900720_g7700000000000721_dist_ar_v7x_xyz2x2x4_z_m4096_n1024_f32_1_alg».proof.Proof.K.Views
import proofs.«900720_g7700000000000721_dist_ar_v7x_xyz2x2x4_z_m4096_n1024_f32_1_alg».proof.Proof.K.Parts

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace StageB

def rc (c : Dev nD) (j : Fin 24) : Bool → sProp 𝕄
  | false => iprop(atPos ER (recvCell c j) 0 ∅ 0 ∗ cred (tallyAt (recvCell c j) () (NJ j)))
  | true => atPos ER (recvCell c j) 1 ∅ 0

abbrev tokPair (c : Dev nD) (j : Fin 24) : sProp 𝕄 := iprop(dutyTok ER (sendCell c j) 0 0 ∗ dutyTok ER (recvCell (peer j c) j) 0 0)

def ghostB (K : GSem nD τ sig → ℕ) (c : Dev nD) (k : ℕ) (b6 b7 b8 b9 : Bool) : sProp 𝕄 :=
  iprop(records m ρ K ∗ levAts L lv ∗ toksFrom c k ∗ (rc c 6 b6 ∗ rc c 7 b7 ∗ rc c 8 b8 ∗ rc c 9 b9) ∗ recvTodo c 10 ∗ recvDone c 6
    ∗ sendTodo c ∗ sendCred c k ∗ ∃ W, owes (c : Thread nD τ) (Orem c (24 - k)) W)

theorem toks_take (c : Dev nD) (k : ℕ) (j : Fin 24) (hj : j.val = k) :
    (toksFrom c k : sProp 𝕄) = iprop(tokPair c j ∗ toksFrom c (k + 1)) :=
  take_ge _ j k _ hj.symm rfl

theorem recvTodo_take (c : Dev nD) (k : ℕ) (j : Fin 24) (hj : j.val = k) :
    (recvTodo c k : sProp 𝕄) = iprop(rc c j false ∗ recvTodo c (k + 1)) :=
  take_ge _ j k _ hj.symm rfl

theorem recvDone_put (c : Dev nD) (k : ℕ) (j : Fin 24) (hj : j.val = k) :
    (recvDone c (k + 1) : sProp 𝕄) = iprop(rc c j true ∗ recvDone c k) :=
  put_lt _ j k _ hj.symm rfl

theorem sendCred_put (c : Dev nD) (k : ℕ) (j : Fin 24) (hj : j.val = k) :
    (sendCred c (k + 1) : sProp 𝕄) = iprop(cred (tallyAt (sendCell c j) () (NJ j)) ∗ sendCred c k) :=
  put_lt _ j k _ hj.symm rfl

theorem ghost_enter (K : GSem nD τ sig → ℕ) (c : Dev nD) : ghostAt m ρ K c 6 = ghostB m ρ K c 6 false false false false := by
  unfold ghostAt ghostB
  rw [recvTodo_take c 6 6 rfl, recvTodo_take c 7 7 rfl, recvTodo_take c 8 8 rfl, recvTodo_take c 9 9 rfl]
  refine sep_eq_of ?_ ?_
  · iintro ⟨HR, HL, HT, ⟨H6, H7, H8, H9, HTd⟩, HD, HS, HC, HO⟩
    iframe
  · iintro ⟨HR, HL, HT, ⟨H6, H7, H8, H9⟩, HTd, HD, HS, HC, HO⟩
    iframe

theorem ghost_leave (K : GSem nD τ sig → ℕ) (c : Dev nD) : ghostB m ρ K c 10 true true true true = ghostAt m ρ K c 10 := by
  unfold ghostAt ghostB
  rw [recvDone_put c 9 9 rfl, recvDone_put c 8 8 rfl, recvDone_put c 7 7 rfl, recvDone_put c 6 6 rfl]
  refine sep_eq_of ?_ ?_
  · iintro ⟨HR, HL, HT, ⟨H6, H7, H8, H9⟩, HTd, HD, HS, HC, HO⟩
    iframe
  · iintro ⟨HR, HL, HT, HTd, ⟨H9, H8, H7, H6, HD⟩, HS, HC, HO⟩
    iframe

end StageB

namespace StageB

end StageB

namespace StageB

theorem land_same {sh : Shape} (c' : Dev nD) (v : Memref sig .tc .vmem sh .f32) (fd fs : Buf (Elt F) (v.view.loc (c' : Thread nD τ))) :
    (v.view.loc (c' : Thread nD τ) ↦[v.view.set]{fullShare} (v.view.write (Elt F) fd (v.view.read (Elt F) fs) Finset.univ) : sProp 𝕄)
      ⊢ pts c' v fullShare fs :=
  Entails.of_eq (pts_congr c' v fullShare _ _ (write_read_self v fd fs))

theorem paR_at (c : Dev nD) (p : Fin 2) (t : Fin 3) : paR m ρ (xr c) p t = pts (xr c) (paV c p t) fullShare (Fn m ρ) := by
  unfold paR; rw [xl_xr]
theorem pbR_at (c : Dev nD) (p : Fin 2) (t : Fin 3) : pbR m ρ (xl c) p t = pts (xl c) (pbV c p t) fullShare (Fn m ρ) := by
  unfold pbR; rw [xr_xl]

theorem pa_send00 (c : Dev nD) :
    ((paV c 0 0).view.loc (c : Thread nD τ) ↦[(paV c 0 0).view.set]{Rq} Fn m ρ : sProp 𝕄) ⊢ sendPay m ρ c (paJ 0 0) := .rfl
theorem pb_send00 (c : Dev nD) :
    ((pbV c 0 0).view.loc (c : Thread nD τ) ↦[(pbV c 0 0).view.set]{Rq} Fn m ρ : sProp 𝕄) ⊢ sendPay m ρ c (pbJ 0 0) := .rfl

theorem pa_land00 (c : Dev nD) (fd : Buf (Elt F) ((paV c 0 0).view.loc (xr c : Thread nD τ))) :
    ((paV c 0 0).view.loc (xr c : Thread nD τ) ↦[(paV c 0 0).view.set]{fullShare} ((paV c 0 0).view.write (Elt F) fd ((paV c 0 0).view.read (Elt F) (Fn m ρ)) Finset.univ) : sProp 𝕄)
      ⊢ recvPay m ρ (peer (paJ 0 0) c) (paJ 0 0) :=
  (land_same (xr c) (paV c 0 0) fd (Fn m ρ)).trans (Entails.of_eq (paR_at m ρ c 0 0).symm)
theorem pb_land00 (c : Dev nD) (fd : Buf (Elt F) ((pbV c 0 0).view.loc (xl c : Thread nD τ))) :
    ((pbV c 0 0).view.loc (xl c : Thread nD τ) ↦[(pbV c 0 0).view.set]{fullShare} ((pbV c 0 0).view.write (Elt F) fd ((pbV c 0 0).view.read (Elt F) (Fn m ρ)) Finset.univ) : sProp 𝕄)
      ⊢ recvPay m ρ (peer (pbJ 0 0) c) (pbJ 0 0) :=
  (land_same (xl c) (pbV c 0 0) fd (Fn m ρ)).trans (Entails.of_eq (pbR_at m ρ c 0 0).symm)

end StageB

namespace StageB

theorem dev13_eq (c : Dev nD) : (⟨k0_dev13 c, k0_dev13_lt c⟩ : Dev nD) = zr c := by revert c; decide
theorem dev14_eq (c : Dev nD) : (⟨k0_dev14 c, k0_dev14_lt c⟩ : Dev nD) = zr c := by revert c; decide

theorem slot_land (c' : Dev nD) (k : Fin 6) (fd : Buf (Elt F) ((slotV k).view.loc (c' : Thread nD τ))) (w : Vec F S128x1024 .f32) :
    ((slotV k).view.loc (c' : Thread nD τ) ↦[(slotV k).view.set]{fullShare} ((slotV k).view.write (Elt F) fd w Finset.univ) : sProp 𝕄)
      ⊢ owns (c' : Thread nD τ) (slotV k) fullShare w := by
  refine (owns_intro (c' : Thread nD τ) (slotV k) fullShare _).trans (Entails.of_eq ?_)
  rw [slot_read_write c' k fd w]

theorem rs_send10 (c : Dev nD) :
    ((srcV xM c 1 0).view.loc (c : Thread nD τ) ↦[(srcV xM c 1 0).view.set]{Lq} X m ρ c : sProp 𝕄) ⊢ sendPay m ρ c (rsJ 1 0) := .rfl

theorem rs_land10 (c : Dev nD) (fd : Buf (Elt F) ((slotV 3).view.loc (zr c : Thread nD τ))) :
    ((slotV 3).view.loc (zr c : Thread nD τ) ↦[(slotV 3).view.set]{fullShare} ((slotV 3).view.write (Elt F) fd ((srcV xM c 1 0).view.read (Elt F) (X m ρ c)) Finset.univ) : sProp 𝕄)
      ⊢ recvPay m ρ (peer (rsJ 1 0) c) (rsJ 1 0) := by
  show _ ⊢ rsR m ρ (zr c) 1 0
  unfold rsR landed
  rw [zl_zr, if_pos rfl]
  exact (slot_land (zr c) 3 fd _).trans Laws.sep_emp.2

theorem rs_recv10 (c : Dev nD) :
    recvPay m ρ c (rsJ 1 0) ⊢ iprop(∃ f : Buf (Elt F) (cM.view.loc (c : Thread nD τ)), ⌜(slotV 3).view.read (Elt F) f = landed m ρ c 1 0⌝ ∗ pts c (slotV 3) fullShare f) := by
  show rsR m ρ c 1 0 ⊢ _
  unfold rsR owns
  rw [if_pos rfl]
  iintro ⟨H, -⟩
  iexact H

end StageB

namespace StageB

theorem pts_acc0 (c : Dev nD) (p : Fin 2) (q : PosShare TreeShare) (g : Buf (Elt F) (oM.view.loc (c : Thread nD τ))) :
    (pts c (agV c p 2) q g : sProp 𝕄) = pts c (accV c p 0) q g := pts_view_eq c (acc0_eq c p).symm q g g HEq.rfl

theorem stored (c : Dev nD) (p : Fin 2) (s : Fin 3) (g : Blk F) (f : Buf (Elt F) (cM.view.loc (c : Thread nD τ)))
    (hf : (slotV (slotOf p s)).view.read (Elt F) f = landed m ρ c p s) :
    (pts c (accV c p s) fullShare ((oM.access (accR c p s)).write (Elt F) g (k0_pay1 (xM.view.readAt (Elt F) (accR c p s).toLoadRect (X m ρ c))
        (cM.view.readAt (Elt F) (Rect.unit (s := S6x128x1024) ![(slotOf p s).val, 0, 0] S1x128x1024.size (slot_inb (slotOf p s))).toLoadRect f)) Finset.univ) : sProp 𝕄)
      = pts c (accV c p s) fullShare (Sk (X m ρ) (s.val + 1) c) :=
  pts_congr c (accV c p s) fullShare _ _ (store_val m ρ c p s g f hf)

end StageB

namespace StageB

def S13 (K : GSem nD τ sig → ℕ) (c : Dev nD) (xr_ : sProp 𝕄) : sProp 𝕄 :=
  iprop(ghostB m ρ K c 7 false false false false
    ∗ pts c (srcV xM c 1 0) Lq (X m ρ c) ∗ xr_
    ∗ pts c (agV (zr c) 0 2) Lq (Fn m ρ) ∗ pts c (pbV c 0 0) Rq (Fn m ρ)
    ∗ (∃ g : Buf (Elt F) (oM.view.loc (c : Thread nD τ)), pts c (agV c 1 0) fullShare g ∗ pts c (agV c 1 1) fullShare g ∗ pts c (agV c 1 2) fullShare g)
    ∗ slotsHeld m ρ c [(0,0),(0,1),(0,2)]
    ∗ (bor (zr c) (slotV 3) ∗ bor (zr c) (slotV 4) ∗ bor (zr c) (slotV 5))
    ∗ bor (zl c) (agV c 1 2)
    ∗ borPa c [(0,1),(0,2),(1,0),(1,1),(1,2)] ∗ borPb c [(0,0),(0,1),(0,2),(1,0),(1,1),(1,2)])

end StageB

set_option maxRecDepth 65536 in
theorem part13_spec (K : GSem nD τ sig → ℕ) (c : Dev nD) (xr_ : sProp 𝕄) (v8 v46 v50 v63 v67 v403 : BitVec 32) (Kt : PUnit → sProp 𝕄) :
    iprop(St2 m ρ K c xr_ ∗ (∀ r, StageB.S13 m ρ K c xr_ -∗ Kt r)) ⊢ wp frame (wpE (defs₀ (F := F)) 𝒱₀ (c : Thread nD τ) none) Set.univ
      (k0_part13 (F := F) (Memref.whole cc0_stg0_0) (Memref.isWhole_whole _) (Memref.whole cc0_stg1_0) (Memref.isWhole_whole _) (Memref.whole cc0_scratch0) (Memref.isWhole_whole _) cc0_scratch1 cc0_scratch2 cc0_scratch3 cc0_scratch4 cc0_scratch5 cc0_scratch6 c v8 v46 v50 v63 v67 v403) Kt := by
  rw [k0_part13_eq_skeleton]; unfold k0_part13_skel
  simp only [Prog.lift, Prog.bind_op, Prog.bind_ret, Prog.pure_eq_ret]
  unfold St2 StageB.S13
  rw [StageB.ghost_enter m ρ K c]
  unfold StageB.ghostB
  rw [StageB.toks_take c 6 (paJ 0 0) rfl, StageB.sendCred_put c 6 (paJ 0 0) rfl,
    borPa_cons c (0, 0) (0, 1) [(0,2),(1,0),(1,1),(1,2)]]
  unfold bor
  iintro ⟨⟨⟨#HR, #HL, ⟨⟨Ht1, Ht2⟩, HT⟩, HRc, HTd, HDn, HSt, HSc, ⟨%W, HO⟩⟩, HA, Hx, B0, B1, B2, B3, HGg, Hsl, Hbs, Hbz, ⟨⟨%fd, Hpa0⟩, Hpa⟩, Hpb⟩, HK⟩
  ihave B3' := ((share_LR c (agV (zr c) 0 2) (Fn m ρ)).1) $$ B3
  icases B3' with ⟨B3L, B3R⟩
  ihave HP := ((subq_join c 0 Rq (Fn m ρ)).1) $$ [B0 B1 B2 B3R]
  · iframe
  icases HP with ⟨HPa, HPb⟩
  iapply (step_send m ρ K c (paJ 0 0) 17 rfl (paV c 0 0) (paV c 0 0) Rq (Fn m ρ) fd W _ _ _
      ((dev11_eq c).trans (peer_pa 0 0 c).symm) (upsend_sem 0 0 _ _) (uprecv_sem 0 0 _ _)
      ((amount_pa c 0 0 _).trans (NJ_pa 0 0).symm) (StageB.pa_send00 m ρ c) (StageB.pa_land00 m ρ c fd)) $$ [HPa Hpa0 HO Ht1 Ht2]
  · iframe
    isplitr; · iexact HR
    iexact Hpa0
  iintro ⟨Hcr, HO⟩
  rw [wp_ret]
  imodintro
  iapply HK
  isplitl [HT HRc HTd HDn HSt HSc Hcr HO]
  · isplitr; · iexact HR
    isplitr; · iexact HL
    isplitl [HT]; · iexact HT
    isplitl [HRc]; · iexact HRc
    isplitl [HTd]; · iexact HTd
    isplitl [HDn]; · iexact HDn
    isplitl [HSt]; · iexact HSt
    isplitl [Hcr HSc]
    · isplitl [Hcr] <;> iassumption
    iexists W; iexact HO
  iframe

namespace StageB

def S14 (K : GSem nD τ sig → ℕ) (c : Dev nD) (xr_ : sProp 𝕄) : sProp 𝕄 :=
  iprop(ghostB m ρ K c 8 false false false false
    ∗ pts c (srcV xM c 1 0) Lq (X m ρ c) ∗ xr_
    ∗ pts c (agV (zr c) 0 2) Lq (Fn m ρ)
    ∗ (∃ g : Buf (Elt F) (oM.view.loc (c : Thread nD τ)), pts c (agV c 1 0) fullShare g ∗ pts c (agV c 1 1) fullShare g ∗ pts c (agV c 1 2) fullShare g)
    ∗ slotsHeld m ρ c [(0,0),(0,1),(0,2)]
    ∗ (bor (zr c) (slotV 3) ∗ bor (zr c) (slotV 4) ∗ bor (zr c) (slotV 5))
    ∗ bor (zl c) (agV c 1 2)
    ∗ borPa c [(0,1),(0,2),(1,0),(1,1),(1,2)] ∗ borPb c [(0,1),(0,2),(1,0),(1,1),(1,2)])

end StageB

set_option maxRecDepth 65536 in
theorem part14_spec (K : GSem nD τ sig → ℕ) (c : Dev nD) (xr_ : sProp 𝕄) (v2 v5 v8 v33 : BitVec 32)
    (Kt : (Σ' (v442 : BitVec 32) (v465 : BitVec 32) (v471 : BitVec 32), BitVec 32) → sProp 𝕄) :
    iprop(StageB.S13 m ρ K c xr_ ∗ (∀ r, StageB.S14 m ρ K c xr_ -∗ Kt r)) ⊢ wp frame (wpE (defs₀ (F := F)) 𝒱₀ (c : Thread nD τ) none) Set.univ
      (k0_part14 (F := F) (Memref.whole cc0_stg0_0) (Memref.isWhole_whole _) (Memref.whole cc0_stg1_0) (Memref.isWhole_whole _) (Memref.whole cc0_scratch0) (Memref.isWhole_whole _) cc0_scratch1 cc0_scratch2 cc0_scratch3 cc0_scratch4 cc0_scratch5 cc0_scratch6 c v2 v5 v8 v33) Kt := by
  rw [k0_part14_eq_skeleton]; unfold k0_part14_skel
  simp only [Prog.lift, Prog.bind_op, Prog.bind_ret, Prog.pure_eq_ret]
  unfold StageB.S13 StageB.S14 StageB.ghostB
  rw [StageB.toks_take c 7 (pbJ 0 0) rfl, StageB.sendCred_put c 7 (pbJ 0 0) rfl,
    borPb_cons c (0, 0) (0, 1) [(0,2),(1,0),(1,1),(1,2)]]
  unfold bor
  iintro ⟨⟨⟨#HR, #HL, ⟨⟨Ht1, Ht2⟩, HT⟩, HRc, HTd, HDn, HSt, HSc, ⟨%W, HO⟩⟩, HA, Hx, B3L, HPb, HGg, Hsl, Hbs, Hbz, Hpa, ⟨⟨%fd, Hpb0⟩, Hpb⟩⟩, HK⟩
  iapply (step_send m ρ K c (pbJ 0 0) 16 rfl (pbV c 0 0) (pbV c 0 0) Rq (Fn m ρ) fd W _ _ _
      ((dev12_eq c).trans (peer_pb 0 0 c).symm) (dnsend_sem 0 0 _ _) (dnrecv_sem 0 0 _ _)
      ((amount_pb c 0 0 _).trans (NJ_pb 0 0).symm) (StageB.pb_send00 m ρ c) (StageB.pb_land00 m ρ c fd)) $$ [HPb Hpb0 HO Ht1 Ht2]
  · iframe
    isplitr; · iexact HR
    iexact Hpb0
  iintro ⟨Hcr, HO⟩
  rw [wp_ret]
  imodintro
  iapply HK
  isplitl [HT HRc HTd HDn HSt HSc Hcr HO]
  · isplitr; · iexact HR
    isplitr; · iexact HL
    isplitl [HT]; · iexact HT
    isplitl [HRc]; · iexact HRc
    isplitl [HTd]; · iexact HTd
    isplitl [HDn]; · iexact HDn
    isplitl [HSt]; · iexact HSt
    isplitl [Hcr HSc]
    · isplitl [Hcr] <;> iassumption
    iexists W; iexact HO
  iframe

namespace StageB

def S15 (K : GSem nD τ sig → ℕ) (c : Dev nD) (xr_ : sProp 𝕄) : sProp 𝕄 :=
  iprop(ghostB m ρ K c 9 false false true false
    ∗ xr_
    ∗ pts c (agV (zr c) 0 2) Lq (Fn m ρ)
    ∗ (∃ g : Buf (Elt F) (oM.view.loc (c : Thread nD τ)), pts c (agV c 1 0) fullShare g ∗ pts c (agV c 1 1) fullShare g)
    ∗ pts c (agV c 1 2) fullShare (Sk (X m ρ) 1 c)
    ∗ slotsHeld m ρ c [(0,0),(0,1),(0,2),(1,0)]
    ∗ (bor (zr c) (slotV 4) ∗ bor (zr c) (slotV 5))
    ∗ bor (zl c) (agV c 1 2)
    ∗ borPa c [(0,1),(0,2),(1,0),(1,1),(1,2)] ∗ borPb c [(0,1),(0,2),(1,0),(1,1),(1,2)])

def S17 (K : GSem nD τ sig → ℕ) (c : Dev nD) (xr_ : sProp 𝕄) : sProp 𝕄 :=
  iprop(ghostB m ρ K c 10 true false true true
    ∗ xr_
    ∗ pts c (agV (zr c) 0 2) Lq (Fn m ρ) ∗ pts c (paV (xl c) 0 0) fullShare (Fn m ρ)
    ∗ (∃ g : Buf (Elt F) (oM.view.loc (c : Thread nD τ)), pts c (agV c 1 0) fullShare g) ∗ pts c (agV c 1 1) fullShare (Sk (X m ρ) 2 c)
    ∗ slotsHeld m ρ c [(0,0),(0,1),(0,2),(1,0),(1,1)]
    ∗ bor (zr c) (slotV 5)
    ∗ bor (zl c) (agV c 1 2) ∗ pts (zl c) (agV c 1 1) fullShare (Sk (X m ρ) 1 (zl c))
    ∗ borPa c [(0,1),(0,2),(1,0),(1,1),(1,2)] ∗ borPb c [(0,1),(0,2),(1,0),(1,1),(1,2)])

end StageB

set_option maxRecDepth 65536 in
theorem part15_spec (K : GSem nD τ sig → ℕ) (c : Dev nD) (xr_ xr' : sProp 𝕄)
    (hxr : xr_ = iprop((xM.view.loc (c : Thread nD τ) ↦[Finset.univ]{Rq} X m ρ c) ∗ xr'))
    (v2 v5 v8 v19 v33 v442 v465 v471 c1_i32_328 : BitVec 32)
    (Kt : (Σ' (v503 : BitVec 32) (v504 : BitVec 32) (c4_i32_350 : BitVec 32), BitVec 32) → sProp 𝕄) :
    iprop(StageB.S14 m ρ K c xr_ ∗ (∀ r, StageB.S15 m ρ K c xr_ -∗ Kt r)) ⊢ wp frame (wpE (defs₀ (F := F)) 𝒱₀ (c : Thread nD τ) none) Set.univ
      (k0_part15 (F := F) (Memref.whole cc0_stg0_0) (Memref.isWhole_whole _) (Memref.whole cc0_stg1_0) (Memref.isWhole_whole _) (Memref.whole cc0_scratch0) (Memref.isWhole_whole _) cc0_scratch1 cc0_scratch2 cc0_scratch3 cc0_scratch4 cc0_scratch5 cc0_scratch6 c v2 v5 v8 v19 v33 v442 v465 v471 c1_i32_328) Kt := by
  rw [k0_part15_eq_skeleton]; unfold k0_part15_skel
  simp only [Prog.lift, Prog.bind_op, Prog.bind_ret, Prog.pure_eq_ret]
  subst hxr
  unfold StageB.S14 StageB.S15 StageB.ghostB StageB.rc
  rw [StageB.toks_take c 8 (rsJ 1 0) rfl, StageB.sendCred_put c 8 (rsJ 1 0) rfl]
  simp only [slotsHeld_cons, slotsHeld_one]
  unfold bor
  iintro ⟨⟨⟨#HR, #HL, ⟨⟨Ht1, Ht2⟩, HT⟩, ⟨H6, H7, ⟨Hat8, Hcr8⟩, H9⟩, HTd, HDn, HSt, HSc, ⟨%W, HO⟩⟩, HA, ⟨HxR, Hx'⟩, B3L, ⟨%g, Hg0, Hg1, Hg2⟩, ⟨Hs0, Hs1, Hs2⟩, ⟨⟨%fd, Hb3⟩, Hb4, Hb5⟩, Hbz, Hpa, Hpb⟩, HK⟩
  iapply (step_send m ρ K c (rsJ 1 0) 15 rfl (srcV xM c 1 0) (slotV 3) Lq (X m ρ c) fd W _ _ _
      ((StageB.dev13_eq c).trans (peer_rs 1 0 c).symm) (zsend_rs 1 0 _ _) (zrecv_rs 1 0 _ _)
      ((amount_slot 3 _).trans (NJ_rs 1 0).symm) (StageB.rs_send10 m ρ c) (StageB.rs_land10 m ρ c fd)) $$ [HA Hb3 HO Ht1 Ht2]
  · iframe
    isplitr; · iexact HR
    iexact Hb3
  iintro ⟨Hcr, HO⟩
  iapply (step_wait_recv m ρ K c (rsJ 1 0) (Orem c 15) W (srcV xM c 1 0) (slotV 3) _ (zrecv_rs 1 0 _ _)
      (NJ_rs 1 0).symm (mayWait_recv c (rsJ 1 0) 15 (by decide))) $$ [Hcr8 HO Hat8]
  · isplitr; · iexact HR
    isplitr; · iexact HL
    isplitl [Hcr8]; · iexact Hcr8
    isplitl [HO]; · iexact HO
    iexact Hat8
  iintro ⟨⟨%W', HO⟩, Hat8, Hpay⟩
  ihave Hl := (StageB.rs_recv10 m ρ c) $$ Hpay
  icases Hl with ⟨%f, %hf, Hs3⟩
  iapply (wp_load 𝒱₀ (c : Thread nD τ) none Set.univ (acc_load_set_x c 1 0)) $$ [HxR]
  · iexact HxR
  iintro HxR
  iapply (wp_load 𝒱₀ (c : Thread nD τ) none Set.univ (slot_load_set 3)) $$ [Hs3]
  · iexact Hs3
  iintro Hs3
  ihave Hg2' := (Entails.of_eq (StageB.pts_acc0 c 1 fullShare g)) $$ Hg2
  iapply (wp_load 𝒱₀ (c : Thread nD τ) none Set.univ (acc_load_set c 1 0)) $$ [Hg2']
  · iexact Hg2'
  iintro Hg2'
  iapply (wp_store 𝒱₀ (c : Thread nD τ) none Set.univ (S := (accV c 1 0).view.set) (Finset.Subset.refl _)) $$ [Hg2']
  · iexact Hg2'
  iintro Hg2'
  ihave Hg2'' : pts c (agV c 1 2) fullShare (Sk (X m ρ) 1 c) $$ [Hg2']
  · istop
    exact sep_elim_right.trans (Entails.of_eq ((StageB.stored m ρ c 1 0 g f hf).trans (StageB.pts_acc0 c 1 fullShare (Sk (X m ρ) 1 c)).symm))
  rw [wp_ret]
  imodintro
  iapply HK
  isplitl [HT H6 H7 Hat8 H9 HTd HDn HSt HSc Hcr HO]
  · isplitr; · iexact HR
    isplitr; · iexact HL
    isplitl [HT]; · iexact HT
    isplitl [H6 H7 Hat8 H9]
    · isplitl [H6]; · iexact H6
      isplitl [H7]; · iexact H7
      isplitl [Hat8]; · iexact Hat8
      iexact H9
    isplitl [HTd]; · iexact HTd
    isplitl [HDn]; · iexact HDn
    isplitl [HSt]; · iexact HSt
    isplitl [Hcr HSc]
    · isplitl [Hcr] <;> iassumption
    iexists W'; iexact HO
  isplitl [HxR Hx']
  · isplitl [HxR] <;> iassumption
  isplitl [B3L]; · iexact B3L
  isplitl [Hg0 Hg1]
  · iexists g; isplitl [Hg0] <;> iassumption
  isplitl [Hg2'']; · iexact Hg2''
  isplitl [Hs0 Hs1 Hs2 Hs3]
  · isplitl [Hs0]; · iexact Hs0
    isplitl [Hs1]; · iexact Hs1
    isplitl [Hs2]; · iexact Hs2
    unfold owns
    iexists f
    isplitr; · ipureintro; exact hf
    iexact Hs3
  isplitl [Hb4 Hb5]
  · isplitl [Hb4] <;> iassumption
  isplitl [Hbz]; · iexact Hbz
  isplitl [Hpa] <;> iassumption

set_option maxRecDepth 65536 in
theorem part16_spec (K : GSem nD τ sig → ℕ) (c : Dev nD) (xr_ : sProp 𝕄) (v2 v5 v8 v19 v503 v504 c4_i32_350 c0_i32_351 : BitVec 32)
    (Kt : BitVec 32 → sProp 𝕄) :
    iprop(StageB.S15 m ρ K c xr_ ∗ (∀ r, StageB.S15 m ρ K c xr_ -∗ Kt r)) ⊢ wp frame (wpE (defs₀ (F := F)) 𝒱₀ (c : Thread nD τ) none) Set.univ
      (k0_part16 (F := F) (Memref.whole cc0_stg0_0) (Memref.isWhole_whole _) (Memref.whole cc0_stg1_0) (Memref.isWhole_whole _) (Memref.whole cc0_scratch0) (Memref.isWhole_whole _) cc0_scratch1 cc0_scratch2 cc0_scratch3 cc0_scratch4 cc0_scratch5 cc0_scratch6 c v2 v5 v8 v19 v503 v504 c4_i32_350 c0_i32_351) Kt := by
  rw [k0_part16_eq_skeleton]; unfold k0_part16_skel
  simp only [Prog.pure_eq_ret]
  iintro ⟨H, HK⟩
  rw [wp_ret]
  imodintro
  iapply HK
  iexact H

set_option maxRecDepth 65536 in
theorem part18_spec (K : GSem nD τ sig → ℕ) (c : Dev nD) (xr_ : sProp 𝕄) (v8 v33 v63 v67 : BitVec 32) (Kt : BitVec 32 → sProp 𝕄) :
    iprop(StageB.S17 m ρ K c xr_ ∗ (∀ r, St3 m ρ K c xr_ -∗ Kt r)) ⊢ wp frame (wpE (defs₀ (F := F)) 𝒱₀ (c : Thread nD τ) none) Set.univ
      (k0_part18 (F := F) (Memref.whole cc0_stg0_0) (Memref.isWhole_whole _) (Memref.whole cc0_stg1_0) (Memref.isWhole_whole _) (Memref.whole cc0_scratch0) (Memref.isWhole_whole _) cc0_scratch1 cc0_scratch2 cc0_scratch3 cc0_scratch4 cc0_scratch5 cc0_scratch6 c v8 v33 v63 v67) Kt := by
  rw [k0_part18_eq_skeleton]; unfold k0_part18_skel
  simp only [Prog.lift, Prog.bind_op, Prog.bind_ret, Prog.pure_eq_ret]
  unfold StageB.S17 St3
  rw [← StageB.ghost_leave m ρ K c]
  unfold StageB.ghostB StageB.rc
  iintro ⟨⟨⟨#HR, #HL, HT, ⟨H6, ⟨Hat7, Hcr7⟩, H8, H9⟩, HTd, HDn, HSt, HSc, ⟨%W, HO⟩⟩, Hx, B3L, Hpa0, HG, Hg1, Hsl, Hb5, Hbz, Hz1, Hpa, Hpb⟩, HK⟩
  iapply (step_wait_recv m ρ K c (pbJ 0 0) (Orem c 14) W (pbV c 0 0) (pbV c 0 0) _ (dnrecv_sem 0 0 _ _)
      (NJ_pb 0 0).symm (mayWait_recv c (pbJ 0 0) 14 (by decide))) $$ [Hcr7 HO Hat7]
  · isplitr; · iexact HR
    isplitr; · iexact HL
    isplitl [Hcr7]; · iexact Hcr7
    isplitl [HO]; · iexact HO
    iexact Hat7
  iintro ⟨⟨%W', HO⟩, Hat7, Hpay⟩
  ihave Hp := (Entails.of_eq (show recvPay m ρ c (pbJ 0 0) = pts c (pbV (xr c) 0 0) fullShare (Fn m ρ) from rfl)) $$ Hpay
  rw [wp_ret]
  imodintro
  iapply HK
  isplitl [HT H6 Hat7 H8 H9 HTd HDn HSt HSc HO]
  · isplitr; · iexact HR
    isplitr; · iexact HL
    isplitl [HT]; · iexact HT
    isplitl [H6 Hat7 H8 H9]
    · isplitl [H6]; · iexact H6
      isplitl [Hat7]; · iexact Hat7
      isplitl [H8]; · iexact H8
      iexact H9
    isplitl [HTd]; · iexact HTd
    isplitl [HDn]; · iexact HDn
    isplitl [HSt]; · iexact HSt
    isplitl [HSc]; · iexact HSc
    iexists W'; iexact HO
  isplitl [Hx]; · iexact Hx
  isplitl [B3L]; · iexact B3L
  isplitl [Hpa0]; · iexact Hpa0
  isplitl [Hp]; · iexact Hp
  iframe

end Cert.Kernel.AR

end
-- ==== Proof.K.StageB17.lean ====
import proofs.«900720_g7700000000000721_dist_ar_v7x_xyz2x2x4_z_m4096_n1024_f32_1_alg».proof.Proof.K.StageB
import proofs.«900720_g7700000000000721_dist_ar_v7x_xyz2x2x4_z_m4096_n1024_f32_1_alg».proof.Proof.K.StageA1

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
theorem part17_spec (K : GSem nD τ sig → ℕ) (c : Dev nD) (xr_ xr' : sProp 𝕄)
    (hxr : xr_ = iprop((xM.view.loc (c : Thread nD τ) ↦[Finset.univ]{Rq} X m ρ c) ∗ xr'))
    (v2 v5 v8 v19 v46 v50 v503 v526 : BitVec 32) (Kt : PUnit → sProp 𝕄) :
    iprop(StageB.S15 m ρ K c xr_ ∗ (∀ r, StageB.S17 m ρ K c xr_ -∗ Kt r)) ⊢ wp frame (wpE (defs₀ (F := F)) 𝒱₀ (c : Thread nD τ) none) Set.univ
      (k0_part17 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 c v2 v5 v8 v19 v46 v50 v503 v526) Kt := by
  subst hxr
  rw [k0_part17_eq_skeleton]; unfold k0_part17_skel
  simp only [Prog.lift, Prog.bind_op, Prog.bind_ret, Prog.pure_eq_ret]
  unfold StageB.S15 StageB.S17 StageB.ghostB
  simp only [StageB.rc, slotsHeld_cons, slotsHeld_one]
  rw [StageB.toks_take c 9 (rsJ 1 1) rfl, StageB.sendCred_put c 9 (rsJ 1 1) rfl]
  unfold bor
  iintro ⟨⟨⟨#HR, #HL, ⟨⟨Ht1, Ht2⟩, HT⟩, ⟨⟨Hat6, Hcr6⟩, Hrc7, Hrc8, ⟨Hat9, Hcr9⟩⟩, HTd, HDn, HSt, HSc, ⟨%W, HO⟩⟩, ⟨Hx, Hxr'⟩, Hzr02,
    ⟨%g, Hg10, Hg11⟩, Hag12, ⟨Ho00, Ho01, Ho02, Ho10⟩, ⟨⟨%fd, Hs4⟩, Hs5⟩, Hbzl, HbPa, HbPb⟩, HK⟩

  ihave Hag12 := (Entails.of_eq (pts_view_eq c (src1_eq c 1).symm fullShare (Sk (X m ρ) 1 c) (Sk (X m ρ) 1 c) HEq.rfl)) $$ Hag12
  iapply (step_send_landing m ρ K c (rsJ 1 1) 14 rfl (srcV oM c 1 1) (slotV (slotOf 1 1)) fullShare (Sk (X m ρ) 1 c) fd W _ _ _
      (StageB.dev14_eq c) (zsend_rs 1 1 _ _) (zrecv_rs 1 1 _ _)
      ((amount_slot (slotOf 1 1) _).trans (NJ_rs 1 1).symm)
      (by rw [sendPay_rs]; unfold rsS; rw [if_neg (by decide)])
      (by rw [StageA1.recvPay_rs1 m ρ _ 1 1 (by decide) 1 rfl, peer_rs, zl_zr]
          exact sep_mono_left (StageA1.landing_owns_o m ρ c 1 1 fd))) $$ [Hag12 Hs4 HO Ht1 Ht2]
  · iframe
    isplitr; · iexact HR
    iexact Hs4
  iintro ⟨Hc9, HO⟩

  iapply (step_wait_recv m ρ K c (rsJ 1 1) (Orem c 14) W (srcV oM c 1 1) (slotV (slotOf 1 1)) _ (zrecv_rs 1 1 _ _)
      (NJ_rs 1 1).symm (mayWait_recv c (rsJ 1 1) 14 (by decide))) $$ [Hcr9 HO Hat9]
  · isplitr; · iexact HR
    isplitr; · iexact HL
    isplitl [Hcr9]; · iexact Hcr9
    isplitl [HO]; · iexact HO
    iexact Hat9
  iintro ⟨⟨%W1, HO⟩, Hat9, Hpay⟩
  ihave Hpay := (Entails.of_eq (StageA1.recvPay_rs1 m ρ c 1 1 (by decide) 1 rfl)) $$ Hpay
  icases Hpay with ⟨Hslot, Hz⟩
  ihave Hz := (Entails.of_eq (pts_view_eq (zl c) (src_zl1 c 1) fullShare (Sk (X m ρ) 1 (zl c)) (Sk (X m ρ) 1 (zl c)) HEq.rfl)) $$ Hz
  unfold owns
  icases Hslot with ⟨%f, %hf, Hslot⟩

  ihave Hg11 := (Entails.of_eq (pts_view_eq c (acc1_eq c 1).symm fullShare g g HEq.rfl)) $$ Hg11
  iapply (StageA1.add_step m ρ c 1 1 k0_pay5 pay_eq5 f hf g 2 rfl) $$ [Hx Hslot Hg11]
  · isplitl [Hx]; · iexact Hx
    isplitl [Hslot]; · iexact Hslot
    iexact Hg11
  iintro ⟨Hx, Hslot, Hg11⟩
  ihave Hg11 := (Entails.of_eq (pts_view_eq c (acc1_eq c 1) fullShare (Sk (X m ρ) 2 c) (Sk (X m ρ) 2 c) HEq.rfl)) $$ Hg11

  iapply (step_wait_recv m ρ K c (paJ 0 0) (Orem c 14) W1 (paV c 0 0) (paV c 0 0) _ (uprecv_sem 0 0 _ _)
      ((show (paV c 0 0).view.dmaCredit = N256 from rfl).trans (NJ_pa 0 0).symm) (mayWait_recv c (paJ 0 0) 14 (by decide))) $$ [Hcr6 HO Hat6]
  · isplitr; · iexact HR
    isplitr; · iexact HL
    isplitl [Hcr6]; · iexact Hcr6
    isplitl [HO]; · iexact HO
    iexact Hat6
  iintro ⟨⟨%W2, HO⟩, Hat6, Hpay6⟩
  ihave Hpa0 := (Entails.of_eq ((recvPay_pa m ρ c 0 0).trans (show paR m ρ c 0 0 = pts c (paV (xl c) 0 0) fullShare (Fn m ρ) from rfl))) $$ Hpay6
  rw [wp_ret]; imodintro
  iapply HK
  isplitl [HT Hat6 Hrc7 Hrc8 Hat9 HTd HDn HSt HSc Hc9 HO]
  · isplitr; · iexact HR
    isplitr; · iexact HL
    isplitl [HT]; · iexact HT
    isplitl [Hat6 Hrc7 Hrc8 Hat9]
    · isplitl [Hat6]; · iexact Hat6
      isplitl [Hrc7]; · iexact Hrc7
      isplitl [Hrc8]; · iexact Hrc8
      iexact Hat9
    isplitl [HTd]; · iexact HTd
    isplitl [HDn]; · iexact HDn
    isplitl [HSt]; · iexact HSt
    isplitl [Hc9 HSc]
    · isplitl [Hc9]; · iexact Hc9
      iexact HSc
    iexists W2; iexact HO
  isplitl [Hx Hxr']
  · isplitl [Hx]; · iexact Hx
    iexact Hxr'
  isplitl [Hzr02]; · iexact Hzr02
  isplitl [Hpa0]; · iexact Hpa0
  isplitl [Hg10]; · iexists g; iexact Hg10
  isplitl [Hg11]; · iexact Hg11
  isplitl [Ho00 Ho01 Ho02 Ho10 Hslot]
  · isplitl [Ho00]; · iexact Ho00
    isplitl [Ho01]; · iexact Ho01
    isplitl [Ho02]; · iexact Ho02
    isplitl [Ho10]; · iexact Ho10
    iexists f
    isplitr; · ipureintro; exact hf
    iexact Hslot
  iframe

end Cert.Kernel.AR

end
-- ==== Proof.K.StageC.lean ====
import proofs.«900720_g7700000000000721_dist_ar_v7x_xyz2x2x4_z_m4096_n1024_f32_1_alg».proof.Proof.K.Steps
import proofs.«900720_g7700000000000721_dist_ar_v7x_xyz2x2x4_z_m4096_n1024_f32_1_alg».proof.Proof.K.Levels
import proofs.«900720_g7700000000000721_dist_ar_v7x_xyz2x2x4_z_m4096_n1024_f32_1_alg».proof.Proof.K.Views
import proofs.«900720_g7700000000000721_dist_ar_v7x_xyz2x2x4_z_m4096_n1024_f32_1_alg».proof.Proof.K.Parts

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace StageC

def tokPair (c : Dev nD) (j : Fin 24) : sProp 𝕄 := iprop(dutyTok ER (sendCell c j) 0 0 ∗ dutyTok ER (recvCell (peer j c) j) 0 0)
def rTodo (c : Dev nD) (j : Fin 24) : sProp 𝕄 := iprop(atPos ER (recvCell c j) 0 ∅ 0 ∗ cred (tallyAt (recvCell c j) () (NJ j)))
def rDone (c : Dev nD) (j : Fin 24) : sProp 𝕄 := atPos ER (recvCell c j) 1 ∅ 0

theorem toks_take (c : Dev nD) (k : ℕ) (hk : k < 24) : (toksFrom c k : sProp 𝕄) = iprop(tokPair c ⟨k, hk⟩ ∗ toksFrom c (k + 1)) :=
  take_ge _ ⟨k, hk⟩ k _ rfl rfl
theorem recvTodo_take (c : Dev nD) (k : ℕ) (hk : k < 24) : (recvTodo c k : sProp 𝕄) = iprop(rTodo c ⟨k, hk⟩ ∗ recvTodo c (k + 1)) :=
  take_ge _ ⟨k, hk⟩ k _ rfl rfl
theorem recvDone_put (c : Dev nD) (k : ℕ) (hk : k < 24) : (recvDone c (k + 1) : sProp 𝕄) = iprop(rDone c ⟨k, hk⟩ ∗ recvDone c k) :=
  put_lt _ ⟨k, hk⟩ k _ rfl rfl
theorem sendCred_put (c : Dev nD) (k : ℕ) (hk : k < 24) :
    (sendCred c (k + 1) : sProp 𝕄) = iprop(cred (tallyAt (sendCell c ⟨k, hk⟩) () (NJ ⟨k, hk⟩)) ∗ sendCred c k) :=
  put_lt _ ⟨k, hk⟩ k _ rfl rfl

def ghostC (K : GSem nD τ sig → ℕ) (c : Dev nD) (k : ℕ) (R : sProp 𝕄) : sProp 𝕄 :=
  iprop(records m ρ K ∗ levAts L lv ∗ toksFrom c k ∗ R ∗ sendTodo c ∗ sendCred c k ∗ ∃ W, owes (c : Thread nD τ) (Orem c (24 - k)) W)

theorem ghostAt_C (K : GSem nD τ sig → ℕ) (c : Dev nD) (k : ℕ) : ghostAt m ρ K c k ⊣⊢ ghostC m ρ K c k iprop(recvTodo c k ∗ recvDone c k) := by
  unfold ghostAt ghostC
  constructor
  · iintro ⟨HR, Hl, Ht, Hrt, Hrd, Hst, Hsc, HO⟩
    iframe
  · iintro ⟨HR, Hl, Ht, ⟨Hrt, Hrd⟩, Hst, Hsc, HO⟩
    iframe

theorem ghost_send_at {sh : Shape} (K : GSem nD τ sig → ℕ) (c : Dev nD) (j : Fin 24) (R : sProp 𝕄)
    (d e : Dev nD) (ss rs : DmaSem sig) (hde : d = e) (he : e = peer j c) (hss : ss = sendSem j) (hrs : rs = recvSem j)
    (src dst : Memref sig .tc .vmem sh .f32) (q : PosShare TreeShare)
    (fs : Buf (Elt F) (src.view.loc (c : Thread nD τ))) (fd : Buf (Elt F) (dst.view.loc (e : Thread nD τ)))
    {hsc : (dst : Memref sig (Dev.tc d : Thread nD τ).2.kind .vmem sh .f32).view.ref.isScScratch = false}
    {hsrc : src.view.WordExact} {hdst : dst.view.WordExact}
    {hsem : DmaTarget.Typed .vmem (.dma rs) (.remote (Dev.tc d : Thread nD τ) dst (.dma ss) hsc)}
    {α : Type} {Q : α → sProp 𝕄} {k : PUnit → Prog (TpuEff nD τ sig (Elt F) Λ₀ .tc) α}
    (hN : dst.view.amount (.dma (recvSem j)) = NJ j)
    (hpay₁ : (src.view.loc (c : Thread nD τ) ↦[src.view.set]{q} fs : sProp 𝕄) ⊢ sendPay m ρ c j)
    (hpay₂ : (dst.view.loc (e : Thread nD τ) ↦[dst.view.set]{fullShare} (dst.view.write (Elt F) fd (src.view.read (Elt F) fs) Finset.univ) : sProp 𝕄)
      ⊢ recvPay m ρ e j) :
    iprop(ghostC m ρ K c j.val R ∗ pts c src q fs ∗ pts e dst fullShare fd)
      ⊢ iprop((ghostC m ρ K c (j.val + 1) R -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma ss) hsc) (.dma rs) hsrc hdst hsem) k) Q) := by
  subst hde; subst he; subst hss; subst hrs
  unfold ghostC
  rw [toks_take c j.val j.isLt, sendCred_put c j.val j.isLt, show 24 - j.val = (23 - j.val) + 1 from by omega,
    show 24 - (j.val + 1) = 23 - j.val from by omega]
  unfold tokPair
  iintro ⟨⟨#HR, #Hl, ⟨⟨Ht1, Ht2⟩, Ht⟩, HRr, Hst, Hsc, ⟨%W, HO⟩⟩, Hs, Hd⟩ Hk
  iapply (step_send m ρ K c j (23 - j.val) (by omega) src dst q fs fd W _ _ _ rfl rfl rfl hN hpay₁ hpay₂) $$ [Hs Hd HO Ht1 Ht2]
  · iframe
    iexact HR
  iintro ⟨Hc, HO⟩
  iapply Hk
  iframe
  isplitr; · iexact HR
  isplitr; · iexact Hl
  iexists W; iexact HO

theorem ghost_send_landing_at {sh : Shape} (K : GSem nD τ sig → ℕ) (c : Dev nD) (j : Fin 24) (R : sProp 𝕄)
    (d e : Dev nD) (ss rs : DmaSem sig) (hde : d = e) (he : e = peer j c) (hss : ss = sendSem j) (hrs : rs = recvSem j)
    (src dst : Memref sig .tc .vmem sh .f32) (q : PosShare TreeShare)
    (fs : Buf (Elt F) (src.view.loc (c : Thread nD τ))) (fd : Buf (Elt F) (dst.view.loc (e : Thread nD τ)))
    {hsc : (dst : Memref sig (Dev.tc d : Thread nD τ).2.kind .vmem sh .f32).view.ref.isScScratch = false}
    {hsrc : src.view.WordExact} {hdst : dst.view.WordExact}
    {hsem : DmaTarget.Typed .vmem (.dma rs) (.remote (Dev.tc d : Thread nD τ) dst (.dma ss) hsc)}
    {α : Type} {Q : α → sProp 𝕄} {k : PUnit → Prog (TpuEff nD τ sig (Elt F) Λ₀ .tc) α}
    (hN : dst.view.amount (.dma (recvSem j)) = NJ j)
    (hpay₁ : (emp : sProp 𝕄) ⊢ sendPay m ρ c j)
    (hpay₂ : iprop((dst.view.loc (e : Thread nD τ) ↦[dst.view.set]{fullShare} (dst.view.write (Elt F) fd (src.view.read (Elt F) fs) Finset.univ))
        ∗ (src.view.loc (c : Thread nD τ) ↦[src.view.set]{q} fs))
      ⊢ recvPay m ρ e j) :
    iprop(ghostC m ρ K c j.val R ∗ pts c src q fs ∗ pts e dst fullShare fd)
      ⊢ iprop((ghostC m ρ K c (j.val + 1) R -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma ss) hsc) (.dma rs) hsrc hdst hsem) k) Q) := by
  subst hde; subst he; subst hss; subst hrs
  unfold ghostC
  rw [toks_take c j.val j.isLt, sendCred_put c j.val j.isLt, show 24 - j.val = (23 - j.val) + 1 from by omega,
    show 24 - (j.val + 1) = 23 - j.val from by omega]
  unfold tokPair
  iintro ⟨⟨#HR, #Hl, ⟨⟨Ht1, Ht2⟩, Ht⟩, HRr, Hst, Hsc, ⟨%W, HO⟩⟩, Hs, Hd⟩ Hk
  iapply (step_send_landing m ρ K c j (23 - j.val) (by omega) src dst q fs fd W _ _ _ rfl rfl rfl hN hpay₁ hpay₂) $$ [Hs Hd HO Ht1 Ht2]
  · iframe
    iexact HR
  iintro ⟨Hc, HO⟩
  iapply Hk
  iframe
  isplitr; · iexact HR
  isplitr; · iexact Hl
  iexists W; iexact HO

theorem ghost_wait_at {sh : Shape} (K : GSem nD τ sig → ℕ) (c : Dev nD) (k : ℕ) (j : Fin 24) (hj : (24 - k) + j.val ≤ 23) (R : sProp 𝕄)
    (rs : DmaSem sig) (hrs : rs = recvSem j)
    (src dst : Memref sig .tc .vmem sh .f32) {hs : src.view.WordExact} {hd : dst.view.WordExact}
    {α : Type} {Q : α → sProp 𝕄} {k' : PUnit → Prog (TpuEff nD τ sig (Elt F) Λ₀ .tc) α}
    (hN : dst.view.dmaCredit = NJ j) :
    iprop(ghostC m ρ K c k R ∗ rTodo c j)
      ⊢ iprop(((ghostC m ρ K c k R ∗ rDone c j ∗ recvPay m ρ c j) -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 rs src dst hs hd) k') Q) := by
  subst hrs
  unfold ghostC rTodo rDone
  iintro ⟨⟨#HR, #Hl, Ht, HRr, Hst, Hsc, ⟨%W, HO⟩⟩, Hat, Hc⟩ Hk
  iapply (step_wait_recv m ρ K c j (Orem c (24 - k)) W src dst _ rfl hN (mayWait_recv c j (24 - k) hj)) $$ [Hc HO Hat]
  · iframe
    isplitr; · iexact HR
    iexact Hl
  iintro ⟨HO, Hat, Hpay⟩
  iapply Hk
  iframe
  isplitr; · iexact HR
  iexact Hl

theorem recvTodo_10_14 (c : Dev nD) :
    (recvTodo c 10 : sProp 𝕄) = iprop(rTodo c 10 ∗ rTodo c 11 ∗ rTodo c 12 ∗ rTodo c 13 ∗ recvTodo c 14) := by
  rw [recvTodo_take c 10 (by omega), recvTodo_take c 11 (by omega), recvTodo_take c 12 (by omega), recvTodo_take c 13 (by omega)]; rfl
theorem recvDone_14_10 (c : Dev nD) :
    (recvDone c 14 : sProp 𝕄) = iprop(rDone c 13 ∗ rDone c 12 ∗ rDone c 11 ∗ rDone c 10 ∗ recvDone c 10) := by
  rw [recvDone_put c 13 (by omega), recvDone_put c 12 (by omega), recvDone_put c 11 (by omega), recvDone_put c 10 (by omega)]; rfl

theorem dev15_eq (c : Dev nD) : (⟨k0_dev15 c, k0_dev15_lt c⟩ : Dev nD) = xr c := by revert c; decide
theorem dev16_eq (c : Dev nD) : (⟨k0_dev16 c, k0_dev16_lt c⟩ : Dev nD) = xl c := by revert c; decide
theorem dev17_eq (c : Dev nD) : (⟨k0_dev17 c, k0_dev17_lt c⟩ : Dev nD) = zr c := by revert c; decide
theorem dev18_eq (c : Dev nD) : (⟨k0_dev18 c, k0_dev18_lt c⟩ : Dev nD) = zl c := by revert c; decide

theorem borPa_cons (c : Dev nD) (p : Fin 2) (t : Fin 3) (l : List (Fin 2 × Fin 3)) :
    (borPa c ((p, t) :: l) : sProp 𝕄) = iprop(bor (xr c) (paV c p t) ∗ borPa c l) := by
  unfold borPa; rw [bigSepL_cons]; rfl
theorem borPb_cons (c : Dev nD) (p : Fin 2) (t : Fin 3) (l : List (Fin 2 × Fin 3)) :
    (borPb c ((p, t) :: l) : sProp 𝕄) = iprop(bor (xl c) (pbV c p t) ∗ borPb c l) := by
  unfold borPb; rw [bigSepL_cons]; rfl

def Rr (c : Dev nD) : sProp 𝕄 := iprop(recvTodo c 14 ∗ recvDone c 10)

def keepC (c : Dev nD) : sProp 𝕄 :=
  iprop(pts c (agV (zr c) 0 2) Lq (Fn m ρ) ∗ slotsHeld m ρ c [(0,0),(0,1),(0,2),(1,0),(1,1)]
    ∗ bor (zl c) (agV c 1 2) ∗ pts (zl c) (agV c 1 1) fullShare (Sk (X m ρ) 1 (zl c))
    ∗ borPa c [(0,2),(1,0),(1,1),(1,2)] ∗ borPb c [(0,2),(1,0),(1,1),(1,2)])

def C19 (K : GSem nD τ sig → ℕ) (c : Dev nD) (xr_ : sProp 𝕄) : sProp 𝕄 :=
  iprop(ghostC m ρ K c 12 (Rr c) ∗ (rTodo c 10 ∗ rTodo c 11 ∗ rTodo c 12 ∗ rTodo c 13)
    ∗ xr_ ∗ keepC m ρ c
    ∗ (∃ g : Buf (Elt F) (oM.view.loc (c : Thread nD τ)), pts c (agV c 1 0) fullShare g) ∗ pts c (agV c 1 1) fullShare (Sk (X m ρ) 2 c)
    ∗ bor (zr c) (slotV 5))

theorem st3_open (K : GSem nD τ sig → ℕ) (c : Dev nD) (xr_ : sProp 𝕄) :
    St3 m ρ K c xr_ ⊢ iprop(ghostC m ρ K c 10 (Rr c) ∗ (rTodo c 10 ∗ rTodo c 11 ∗ rTodo c 12 ∗ rTodo c 13)
      ∗ xr_ ∗ keepC m ρ c
      ∗ (∃ g : Buf (Elt F) (oM.view.loc (c : Thread nD τ)), pts c (agV c 1 0) fullShare g) ∗ pts c (agV c 1 1) fullShare (Sk (X m ρ) 2 c)
      ∗ bor (zr c) (slotV 5)
      ∗ pts c (paV c 0 1) fullShare (Fn m ρ) ∗ pts c (pbV c 0 1) fullShare (Fn m ρ)
      ∗ (∃ fa : Buf (Elt F) ((paV c 0 1).view.loc (xr c : Thread nD τ)), pts (xr c) (paV c 0 1) fullShare fa)
      ∗ (∃ fb : Buf (Elt F) ((pbV c 0 1).view.loc (xl c : Thread nD τ)), pts (xl c) (pbV c 0 1) fullShare fb)) := by
  unfold St3 keepC
  rw [borPa_cons, borPb_cons,
    show (bor (xr c) (paV c 0 1) : sProp 𝕄) = iprop(∃ fa : Buf (Elt F) ((paV c 0 1).view.loc (xr c : Thread nD τ)), pts (xr c) (paV c 0 1) fullShare fa) from rfl,
    show (bor (xl c) (pbV c 0 1) : sProp 𝕄) = iprop(∃ fb : Buf (Elt F) ((pbV c 0 1).view.loc (xl c : Thread nD τ)), pts (xl c) (pbV c 0 1) fullShare fb) from rfl, pts_view_eq c (pa_next0 c 0).symm fullShare (Fn m ρ) (Fn m ρ) HEq.rfl,
    pts_view_eq c (pb_next0 c 0).symm fullShare (Fn m ρ) (Fn m ρ) HEq.rfl]
  refine (sep_mono_left (ghostAt_C m ρ K c 10).1).trans ?_
  unfold ghostC Rr
  rw [recvTodo_10_14]
  iintro ⟨⟨HR, Hl, Ht, ⟨⟨H10, H11, H12, H13, Hrt⟩, Hrd⟩, Hst, Hsc, HO⟩, Hx, Ha0, Hpa, Hpb, Hg, H11s, Hsl, Hb5, Hbz, Hz1, ⟨Hbpa, Hpat⟩, ⟨Hbpb, Hpbt⟩⟩
  iframe

end StageC

open StageC

namespace StageC

theorem pay_pa1 (c : Dev nD) (fa : Buf (Elt F) ((paV c 0 1).view.loc (xr c : Thread nD τ))) :
    ((paV c 0 1).view.loc (xr c : Thread nD τ) ↦[(paV c 0 1).view.set]{fullShare}
        ((paV c 0 1).view.write (Elt F) fa ((paV c 0 1).view.read (Elt F) (Fn m ρ)) Finset.univ) : sProp 𝕄)
      ⊢ recvPay m ρ (xr c) (paJ 0 1) := by
  rw [recvPay_pa]; unfold paR; rw [xl_xr]
  exact Entails.of_eq (pts_congr (xr c) (paV c 0 1) fullShare _ _ (write_read_self (paV c 0 1) fa (Fn m ρ)))
theorem pay_pb1 (c : Dev nD) (fb : Buf (Elt F) ((pbV c 0 1).view.loc (xl c : Thread nD τ))) :
    ((pbV c 0 1).view.loc (xl c : Thread nD τ) ↦[(pbV c 0 1).view.set]{fullShare}
        ((pbV c 0 1).view.write (Elt F) fb ((pbV c 0 1).view.read (Elt F) (Fn m ρ)) Finset.univ) : sProp 𝕄)
      ⊢ recvPay m ρ (xl c) (pbJ 0 1) := by
  rw [recvPay_pb]; unfold pbR; rw [xr_xl]
  exact Entails.of_eq (pts_congr (xl c) (pbV c 0 1) fullShare _ _ (write_read_self (pbV c 0 1) fb (Fn m ρ)))
theorem spay_pa1 (c : Dev nD) : (pts c (paV c 0 1) fullShare (Fn m ρ) : sProp 𝕄) ⊢ sendPay m ρ c (paJ 0 1) := by
  rw [sendPay_pa]; unfold paS; rw [if_neg (by decide)]
theorem spay_pb1 (c : Dev nD) : (pts c (pbV c 0 1) fullShare (Fn m ρ) : sProp 𝕄) ⊢ sendPay m ρ c (pbJ 0 1) := by
  rw [sendPay_pb]; unfold pbS; rw [if_neg (by decide)]

end StageC

theorem part19_spec (K : GSem nD τ sig → ℕ) (c : Dev nD) (xr_ : sProp 𝕄) (v8 v33 v46 v50 v63 v67 v607 : BitVec 32)
    (Kt : (Σ' (v635 : BitVec 32) (v638 : BitVec 32) (v639 : BitVec 32), BitVec 1) → sProp 𝕄) :
    iprop(St3 m ρ K c xr_ ∗ (∀ r, C19 m ρ K c xr_ -∗ Kt r))
      ⊢ wp frame (wpE (defs₀ (F := F)) 𝒱₀ (c : Thread nD τ) none) Set.univ
        (k0_part19 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v8 v33 v46 v50 v63 v67 v607) Kt := by
  rw [k0_part19_eq_skeleton]; unfold k0_part19_skel
  simp only [Prog.lift, Prog.bind_op, Prog.bind_ret, Prog.pure_eq_ret]
  refine (sep_mono_left (st3_open m ρ K c xr_)).trans ?_
  iintro ⟨⟨HG, Hr, Hx, Hkeep, Hg, H11s, Hb5, Hpa, Hpb, ⟨%fa, Hbpa⟩, ⟨%fb, Hbpb⟩⟩, Hk⟩
  iapply (ghost_send_at m ρ K c (paJ 0 1) (Rr c) _ (xr c) _ _ (dev15_eq c) (peer_pa 0 1 c).symm (upsend_sem 0 1 _ _) (uprecv_sem 0 1 _ _)
    (paV c 0 1) (paV c 0 1) fullShare (Fn m ρ) fa
    ((amount_pa c 0 1 _).trans (NJ_pa 0 1).symm) (spay_pa1 m ρ c) (pay_pa1 m ρ c fa)) $$ [HG Hpa Hbpa]
  · isplitl [HG]; · iexact HG
    isplitl [Hpa]; · iexact Hpa
    iexact Hbpa
  iintro HG
  iapply (ghost_send_at m ρ K c (pbJ 0 1) (Rr c) _ (xl c) _ _ (dev16_eq c) (peer_pb 0 1 c).symm (dnsend_sem 0 1 _ _) (dnrecv_sem 0 1 _ _)
    (pbV c 0 1) (pbV c 0 1) fullShare (Fn m ρ) fb
    ((amount_pb c 0 1 _).trans (NJ_pb 0 1).symm) (spay_pb1 m ρ c) (pay_pb1 m ρ c fb)) $$ [HG Hpb Hbpb]
  · isplitl [HG]; · iexact HG
    isplitl [Hpb]; · iexact Hpb
    iexact Hbpb
  iintro HG
  rw [wp_ret]; imodintro
  iapply Hk
  unfold C19
  isplitl [HG]; · iexact HG
  iframe

namespace StageC

def C20 (K : GSem nD τ sig → ℕ) (c : Dev nD) (xr_ : sProp 𝕄) : sProp 𝕄 :=
  iprop(ghostC m ρ K c 13 (Rr c) ∗ (rTodo c 10 ∗ rTodo c 11 ∗ rTodo c 12 ∗ rTodo c 13)
    ∗ xr_ ∗ keepC m ρ c
    ∗ (∃ g : Buf (Elt F) (oM.view.loc (c : Thread nD τ)), pts c (agV c 1 0) fullShare g))

theorem spay_rs12 (c : Dev nD) : (emp : sProp 𝕄) ⊢ sendPay m ρ c (rsJ 1 2) := by
  rw [sendPay_rs]; unfold rsS; rw [if_neg (by decide)]

theorem pay_rs12 (c : Dev nD) (fd : Buf (Elt F) ((slotV 5).view.loc (zr c : Thread nD τ))) :
    iprop(((slotV 5).view.loc (zr c : Thread nD τ) ↦[(slotV 5).view.set]{fullShare}
        ((slotV 5).view.write (Elt F) fd ((srcV oM c 1 2).view.read (Elt F) (Sk (X m ρ) 2 c)) Finset.univ))
      ∗ ((srcV oM c 1 2).view.loc (c : Thread nD τ) ↦[(srcV oM c 1 2).view.set]{fullShare} (Sk (X m ρ) 2 c)) : sProp 𝕄)
      ⊢ recvPay m ρ (zr c) (rsJ 1 2) := by
  rw [recvPay_rs]; unfold rsR landed; rw [if_neg (by decide), zl_zr]
  iintro ⟨Hd, Hs⟩
  isplitl [Hd]
  · unfold owns
    iexists ((slotV 5).view.write (Elt F) fd ((srcV oM c 1 2).view.read (Elt F) (Sk (X m ρ) 2 c)) Finset.univ)
    isplitr
    · ipureintro; exact slot_read_write (zr c) 5 fd _
    · iexact Hd
  · iexact Hs

end StageC

theorem part20_spec (K : GSem nD τ sig → ℕ) (c : Dev nD) (xr_ : sProp 𝕄) (v2 v5 v8 v19 v635 v638 v639 : BitVec 32) (v640 : BitVec 1)
    (Kt : (Σ' (v658 : BitVec 32), BitVec 32) → sProp 𝕄) :
    iprop(C19 m ρ K c xr_ ∗ (∀ r, C20 m ρ K c xr_ -∗ Kt r))
      ⊢ wp frame (wpE (defs₀ (F := F)) 𝒱₀ (c : Thread nD τ) none) Set.univ
        (k0_part20 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v2 v5 v8 v19 v635 v638 v639 v640) Kt := by
  rw [k0_part20_eq_skeleton]; unfold k0_part20_skel
  simp only [Prog.lift, Prog.bind_op, Prog.bind_ret, Prog.pure_eq_ret]
  unfold C19
  rw [show (bor (zr c) (slotV 5) : sProp 𝕄) = iprop(∃ fd : Buf (Elt F) ((slotV 5).view.loc (zr c : Thread nD τ)), pts (zr c) (slotV 5) fullShare fd) from rfl,
    pts_view_eq c (src2_eq c 1).symm fullShare (Sk (X m ρ) 2 c) (Sk (X m ρ) 2 c) HEq.rfl]
  iintro ⟨⟨HG, Hr, Hx, Hkeep, Hg, Hsrc, ⟨%fd, Hb5⟩⟩, Hk⟩
  iapply (ghost_send_landing_at m ρ K c (rsJ 1 2) (Rr c) _ (zr c) _ _ (dev17_eq c) (peer_rs 1 2 c).symm (zsend_rs 1 2 _ _) (zrecv_rs 1 2 _ _)
    (srcV oM c 1 2) (slotV 5) fullShare (Sk (X m ρ) 2 c) fd
    ((amount_slot 5 _).trans (NJ_rs 1 2).symm) (spay_rs12 m ρ c) (pay_rs12 m ρ c fd)) $$ [HG Hsrc Hb5]
  · isplitl [HG]; · iexact HG
    isplitl [Hsrc]; · iexact Hsrc
    iexact Hb5
  iintro HG
  rw [wp_ret]; imodintro
  iapply Hk
  unfold C20
  isplitl [HG]; · iexact HG
  iframe

namespace StageC

def C21 (K : GSem nD τ sig → ℕ) (c : Dev nD) (xr_ : sProp 𝕄) : sProp 𝕄 :=
  iprop(ghostC m ρ K c 13 (Rr c) ∗ (rTodo c 10 ∗ rTodo c 11 ∗ rDone c 12 ∗ rTodo c 13)
    ∗ xr_ ∗ keepC m ρ c
    ∗ pts c (agV c 1 0) fullShare (Fn m ρ)
    ∗ owns (c : Thread nD τ) (slotV 5) fullShare (landed m ρ c 1 2)
    ∗ pts (zl c) (agV c 1 0) fullShare (Sk (X m ρ) 2 (zl c)))

theorem view_set_heq {sh : Shape} {v v' : Memref sig .tc .vmem sh .f32} (h : v = v') : HEq v.view.set v'.view.set := by
  subst h; rfl

theorem rs12_landing (c : Dev nD) :
    recvPay m ρ c (rsJ 1 2) ⊢ iprop(owns (c : Thread nD τ) (slotV 5) fullShare (landed m ρ c 1 2) ∗ pts (zl c) (agV c 1 0) fullShare (Sk (X m ρ) 2 (zl c))) := by
  rw [recvPay_rs]; unfold rsR
  rw [if_neg (by decide), pts_view_eq (zl c) (src_zl2 c 1) fullShare (Sk (X m ρ) (2 : Fin 3).val (zl c)) (Sk (X m ρ) 2 (zl c)) HEq.rfl]
  exact .rfl

abbrev R12 (c : Dev nD) : Rect S4096x1024 :=
  Rect.unit (s := S4096x1024) (k0_off2 c 512#32 2#32) S128x1024.size (k0_off2_inb c 1 2)

theorem third_add (c : Dev nD) (g : Buf (Elt F) (oM.view.loc (c : Thread nD τ))) (f5 : Buf (Elt F) (cM.view.loc (c : Thread nD τ)))
    (hf5 : (slotV 5).view.read (Elt F) f5 = landed m ρ c 1 2) :
    (((oM.access (R12 c)).loc (c : Thread nD τ) ↦[(accV c 1 2).view.set]{fullShare} ((oM.access (R12 c)).write (Elt F) g (k0_pay6 (xM.view.readAt (Elt F) (R12 c).toLoadRect (X m ρ c))
        (cM.view.readAt (Elt F) (Rect.unit (s := S6x128x1024) ![(5 : Fin 6).val, 0, 0] S1x128x1024.size (slot_inb 5)).toLoadRect f5)) Finset.univ)) : sProp 𝕄)
      ⊢ pts c (agV c 1 0) fullShare (Fn m ρ) := by
  have hset : (accV c 1 2).view.set = (agV c 1 0).view.set := eq_of_heq (view_set_heq (acc2_eq c 1))
  have hval : ∀ i ∈ (accV c 1 2).view.set, ((oM.access (R12 c)).write (Elt F) g (k0_pay6 (xM.view.readAt (Elt F) (R12 c).toLoadRect (X m ρ c))
        (cM.view.readAt (Elt F) (Rect.unit (s := S6x128x1024) ![(5 : Fin 6).val, 0, 0] S1x128x1024.size (slot_inb 5)).toLoadRect f5)) Finset.univ) i = Fn m ρ i :=
    fun i hi => (store_val m ρ c 1 2 g f5 hf5 i hi).trans (sk3_eq_fin m ρ c 1 i (hset ▸ hi))
  exact (Entails.of_eq (pts_congr c (accV c 1 2) fullShare _ (Fn m ρ) hval)).trans
    (Entails.of_eq (pts_view_eq c (acc2_eq c 1) fullShare (Fn m ρ) (Fn m ρ) HEq.rfl))

end StageC

theorem part21_spec (K : GSem nD τ sig → ℕ) (c : Dev nD) (xr_ xr' : sProp 𝕄)
    (hxr : xr_ = iprop((xM.view.loc (c : Thread nD τ) ↦[Finset.univ]{Rq} X m ρ c) ∗ xr'))
    (v5 v8 v19 v33 v635 v658 v674 : BitVec 32) (Kt : (Σ' (v696 : BitVec 32), BitVec 32) → sProp 𝕄) :
    iprop(C20 m ρ K c xr_ ∗ (∀ r, C21 m ρ K c xr_ -∗ Kt r))
      ⊢ wp frame (wpE (defs₀ (F := F)) 𝒱₀ (c : Thread nD τ) none) Set.univ
        (k0_part21 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v5 v8 v19 v33 v635 v658 v674) Kt := by
  rw [k0_part21_eq_skeleton]; unfold k0_part21_skel
  simp only [Prog.lift, Prog.bind_op, Prog.bind_ret, Prog.pure_eq_ret]
  subst hxr
  unfold C20
  iintro ⟨⟨HG, ⟨H10, H11, H12, H13⟩, ⟨Hxin, Hxr'⟩, Hkeep, ⟨%g, Hg⟩⟩, Hk⟩
  iapply (ghost_wait_at m ρ K c 13 (rsJ 1 2) (by decide) (Rr c) _ (zrecv_rs 1 2 _ _) (srcV oM c 1 2) (slotV 5)
    ((show (slotV 5).view.dmaCredit = N128 from rfl).trans (NJ_rs 1 2).symm)) $$ [HG H12]
  · isplitl [HG]; · iexact HG
    iexact H12
  iintro ⟨HG, H12, Hpay⟩
  ihave Hl := (rs12_landing m ρ c) $$ Hpay
  icases Hl with ⟨Hown, Hzl⟩
  ihave Hown' := (show (owns (c : Thread nD τ) (slotV 5) fullShare (landed m ρ c 1 2) : sProp 𝕄)
      ⊢ iprop(∃ f : Buf (Elt F) (cM.view.loc (c : Thread nD τ)), ⌜(slotV 5).view.read (Elt F) f = landed m ρ c 1 2⌝ ∗ (cM.view.loc (c : Thread nD τ) ↦[(slotV 5).view.set]{fullShare} f)) from .rfl) $$ Hown
  icases Hown' with ⟨%f5, %hf5, Hslot⟩
  iapply (wp_load 𝒱₀ (c : Thread nD τ) none Set.univ (m := xM) (r := (R12 c).toLoadRect) (S := Finset.univ) (acc_load_set_x c 1 2)) $$ Hxin
  iintro Hxin
  iapply (wp_load 𝒱₀ (c : Thread nD τ) none Set.univ (m := cM)
    (r := (Rect.unit (s := S6x128x1024) ![(5 : Fin 6).val, 0, 0] S1x128x1024.size (slot_inb 5)).toLoadRect) (S := (slotV 5).view.set) (slot_load_set 5)) $$ Hslot
  iintro Hslot
  ihave HaccO := (show (pts c (agV c 1 0) fullShare g : sProp 𝕄)
      ⊢ (oM.view.loc (c : Thread nD τ) ↦[(accV c 1 2).view.set]{fullShare} g)
      from Entails.of_eq (pts_view_eq c (acc2_eq c 1).symm fullShare g g HEq.rfl)) $$ Hg
  iapply (wp_load 𝒱₀ (c : Thread nD τ) none Set.univ (m := oM) (r := (R12 c).toLoadRect) (S := (accV c 1 2).view.set) (acc_load_set c 1 2)) $$ HaccO
  iintro HaccO
  ihave HaccS := (show ((oM.view.loc (c : Thread nD τ) ↦[(accV c 1 2).view.set]{fullShare} g) : sProp 𝕄)
      ⊢ ((oM.access (R12 c)).loc (c : Thread nD τ) ↦[(accV c 1 2).view.set]{fullShare} g) from .rfl) $$ HaccO
  iapply (wp_store 𝒱₀ (c : Thread nD τ) none Set.univ (m := oM) (r := R12 c) (S := (accV c 1 2).view.set)
    (Finset.Subset.refl _)) $$ HaccS
  iintro Hst
  ihave Hfin := (third_add m ρ c g f5 hf5) $$ Hst
  rw [wp_ret]; imodintro
  iapply Hk
  unfold C21
  isplitl [HG]; · iexact HG
  isplitl [H10 H11 H12 H13]
  · isplitl [H10]; · iexact H10
    isplitl [H11]; · iexact H11
    isplitl [H12]; · iexact H12
    iexact H13
  isplitl [Hxin Hxr']
  · isplitl [Hxin]; · iexact Hxin
    iexact Hxr'
  isplitl [Hkeep]; · iexact Hkeep
  isplitl [Hfin]; · iexact Hfin
  isplitl [Hslot]
  · iapply (show (iprop(∃ f : Buf (Elt F) (cM.view.loc (c : Thread nD τ)), ⌜(slotV 5).view.read (Elt F) f = landed m ρ c 1 2⌝ ∗ (cM.view.loc (c : Thread nD τ) ↦[(slotV 5).view.set]{fullShare} f)) : sProp 𝕄)
      ⊢ owns (c : Thread nD τ) (slotV 5) fullShare (landed m ρ c 1 2) from .rfl)
    iexists f5
    isplitr
    · ipureintro; exact hf5
    · iexact Hslot
  iexact Hzl

namespace StageC

def C22 (K : GSem nD τ sig → ℕ) (c : Dev nD) (xr_ : sProp 𝕄) : sProp 𝕄 :=
  iprop(ghostC m ρ K c 14 (Rr c) ∗ (rDone c 10 ∗ rTodo c 11 ∗ rDone c 12 ∗ rDone c 13)
    ∗ xr_ ∗ keepC m ρ c
    ∗ pts c (agV c 1 0) Rq (Fn m ρ) ∗ pts c (agV c 1 1) fullShare (Fn m ρ) ∗ pts c (paV (xl c) 0 1) fullShare (Fn m ρ)
    ∗ owns (c : Thread nD τ) (slotV 5) fullShare (landed m ρ c 1 2))

theorem spay_ag10 (c : Dev nD) : (pts c (agV c 1 0) Lq (Fn m ρ) : sProp 𝕄) ⊢ sendPay m ρ c (agJ 1 0) := by
  rw [sendPay_ag]; exact .rfl

theorem pay_ag10 (c : Dev nD) (fd : Buf (Elt F) ((agV c 1 0).view.loc (zl c : Thread nD τ))) :
    ((agV c 1 0).view.loc (zl c : Thread nD τ) ↦[(agV c 1 0).view.set]{fullShare}
        ((agV c 1 0).view.write (Elt F) fd ((agV c 1 0).view.read (Elt F) (Fn m ρ)) Finset.univ) : sProp 𝕄)
      ⊢ recvPay m ρ (zl c) (agJ 1 0) := by
  rw [recvPay_ag]; unfold agR; rw [zr_zl]
  exact Entails.of_eq (pts_congr (zl c) (agV c 1 0) fullShare _ _ (write_read_self (agV c 1 0) fd (Fn m ρ)))

theorem ag10_landing (c : Dev nD) : recvPay m ρ c (agJ 1 0) ⊢ (pts c (agV c 1 1) fullShare (Fn m ρ) : sProp 𝕄) := by
  rw [recvPay_ag]; unfold agR
  rw [pts_view_eq c (ag_zr0 c 1) fullShare (Fn m ρ) (Fn m ρ) HEq.rfl]
theorem pa1_landing (c : Dev nD) : recvPay m ρ c (paJ 0 1) ⊢ (pts c (paV (xl c) 0 1) fullShare (Fn m ρ) : sProp 𝕄) := by
  rw [recvPay_pa]; exact .rfl
theorem pb1_landing (c : Dev nD) : recvPay m ρ c (pbJ 0 1) ⊢ (pts c (pbV (xr c) 0 1) fullShare (Fn m ρ) : sProp 𝕄) := by
  rw [recvPay_pb]; exact .rfl

end StageC

theorem part22_spec (K : GSem nD τ sig → ℕ) (c : Dev nD) (xr_ : sProp 𝕄) (v2 v5 v8 v30 v46 v50 v696 v709 : BitVec 32)
    (Kt : PUnit → sProp 𝕄) :
    iprop(C21 m ρ K c xr_ ∗ (∀ r, C22 m ρ K c xr_ -∗ Kt r))
      ⊢ wp frame (wpE (defs₀ (F := F)) 𝒱₀ (c : Thread nD τ) none) Set.univ
        (k0_part22 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v2 v5 v8 v30 v46 v50 v696 v709) Kt := by
  rw [k0_part22_eq_skeleton]; unfold k0_part22_skel
  simp only [Prog.lift, Prog.bind_op, Prog.bind_ret, Prog.pure_eq_ret]
  unfold C21
  iintro ⟨⟨HG, ⟨H10, H11, H12, H13⟩, Hx, Hkeep, Hfin, Hown, Hzl⟩, Hk⟩
  ihave Hlr := ((share_LR c (agV c 1 0) (Fn m ρ)).1) $$ Hfin
  icases Hlr with ⟨HfL, HfR⟩
  iapply (ghost_send_at m ρ K c (agJ 1 0) (Rr c) _ (zl c) _ _ (dev18_eq c) (peer_ag 1 0 c).symm (zsend_ag 1 0 _ _) (zrecv_ag 1 0 _ _)
    (agV c 1 0) (agV c 1 0) Lq (Fn m ρ) (Sk (X m ρ) 2 (zl c))
    ((amount_ag c 1 0 _).trans (NJ_ag 1 0).symm) (spay_ag10 m ρ c) (pay_ag10 m ρ c _)) $$ [HG HfL Hzl]
  · isplitl [HG]; · iexact HG
    isplitl [HfL]; · iexact HfL
    iexact Hzl
  iintro HG
  iapply (ghost_wait_at m ρ K c 14 (agJ 1 0) (by decide) (Rr c) _ (zrecv_ag 1 0 _ _) (agV c 1 0) (agV c 1 0)
    ((show (agV c 1 0).view.dmaCredit = N128 from rfl).trans (NJ_ag 1 0).symm)) $$ [HG H13]
  · isplitl [HG]; · iexact HG
    iexact H13
  iintro ⟨HG, H13, Hpay⟩
  ihave Hag := (ag10_landing m ρ c) $$ Hpay
  iapply (ghost_wait_at m ρ K c 14 (paJ 0 1) (by decide) (Rr c) _ (uprecv_sem 0 1 _ _) (paV c 0 1) (paV c 0 1)
    ((show (paV c 0 1).view.dmaCredit = N256 from rfl).trans (NJ_pa 0 1).symm)) $$ [HG H10]
  · isplitl [HG]; · iexact HG
    iexact H10
  iintro ⟨HG, H10, Hpay⟩
  ihave Hpa := (pa1_landing m ρ c) $$ Hpay
  rw [wp_ret]; imodintro
  iapply Hk
  unfold C22
  iframe
  isplitl [H10]; · iexact H10
  iexact H13

namespace StageC

theorem slotsHeld_five (c : Dev nD) :
    slotsHeld m ρ c [(0,0),(0,1),(0,2),(1,0),(1,1)] = iprop(owns (c : Thread nD τ) (slotV (slotOf 0 0)) fullShare (landed m ρ c 0 0)
      ∗ owns (c : Thread nD τ) (slotV (slotOf 0 1)) fullShare (landed m ρ c 0 1) ∗ owns (c : Thread nD τ) (slotV (slotOf 0 2)) fullShare (landed m ρ c 0 2)
      ∗ owns (c : Thread nD τ) (slotV (slotOf 1 0)) fullShare (landed m ρ c 1 0) ∗ owns (c : Thread nD τ) (slotV (slotOf 1 1)) fullShare (landed m ρ c 1 1)) := rfl
theorem slotsHeld_six_eq (c : Dev nD) :
    slotsHeld m ρ c [(0,0),(0,1),(0,2),(1,0),(1,1),(1,2)] = iprop(owns (c : Thread nD τ) (slotV (slotOf 0 0)) fullShare (landed m ρ c 0 0)
      ∗ owns (c : Thread nD τ) (slotV (slotOf 0 1)) fullShare (landed m ρ c 0 1) ∗ owns (c : Thread nD τ) (slotV (slotOf 0 2)) fullShare (landed m ρ c 0 2)
      ∗ owns (c : Thread nD τ) (slotV (slotOf 1 0)) fullShare (landed m ρ c 1 0) ∗ owns (c : Thread nD τ) (slotV (slotOf 1 1)) fullShare (landed m ρ c 1 1)
      ∗ owns (c : Thread nD τ) (slotV 5) fullShare (landed m ρ c 1 2)) := rfl
theorem slotsHeld_six (c : Dev nD) :
    iprop(slotsHeld m ρ c [(0,0),(0,1),(0,2),(1,0),(1,1)] ∗ owns (c : Thread nD τ) (slotV 5) fullShare (landed m ρ c 1 2))
      ⊢ slotsHeld m ρ c [(0,0),(0,1),(0,2),(1,0),(1,1),(1,2)] := by
  rw [slotsHeld_five, slotsHeld_six_eq]
  iintro ⟨⟨H0, H1, H2, H3, H4⟩, H5⟩
  iframe

theorem st4_close (K : GSem nD τ sig → ℕ) (c : Dev nD) (xr_ : sProp 𝕄) :
    iprop(ghostC m ρ K c 14 (Rr c) ∗ (rDone c 10 ∗ rDone c 11 ∗ rDone c 12 ∗ rDone c 13)
      ∗ xr_ ∗ keepC m ρ c
      ∗ pts c (agV c 1 0) Rq (Fn m ρ) ∗ pts c (agV c 1 1) fullShare (Fn m ρ) ∗ pts c (paV (xl c) 0 1) fullShare (Fn m ρ)
      ∗ owns (c : Thread nD τ) (slotV 5) fullShare (landed m ρ c 1 2)
      ∗ pts c (pbV (xr c) 0 1) fullShare (Fn m ρ))
      ⊢ St4 m ρ K c xr_ := by
  unfold St4 keepC
  refine BIBase.Entails.trans ?_ (sep_mono_left (ghostAt_C m ρ K c 14).2)
  unfold ghostC Rr
  rw [recvDone_14_10]
  iintro ⟨⟨HR, Hl, Ht, ⟨Hrt, Hrd⟩, Hst, Hsc, HO⟩, ⟨H10, H11, H12, H13⟩, Hx, ⟨Ha0, Hsl, Hbz, Hz1, Hpat, Hpbt⟩, HfR, Hag, Hpa, Hown, Hpb⟩
  isplitl [HR Hl Ht Hrt Hrd Hst Hsc HO H10 H11 H12 H13]
  · iframe
  isplitl [Hx]; · iexact Hx
  isplitl [Ha0]; · iexact Ha0
  isplitl [Hpa]; · iexact Hpa
  isplitl [Hpb]; · iexact Hpb
  isplitl [HfR]; · iexact HfR
  isplitl [Hag]; · iexact Hag
  isplitl [Hsl Hown]
  · iapply (slotsHeld_six m ρ c); isplitl [Hsl]; · iexact Hsl
    iexact Hown
  iframe

end StageC

theorem part23_spec (K : GSem nD τ sig → ℕ) (c : Dev nD) (xr_ : sProp 𝕄) (v8 v33 v63 v67 : BitVec 32)
    (Kt : (Σ' (v776 : BitVec 32), BitVec 32) → sProp 𝕄) :
    iprop(C22 m ρ K c xr_ ∗ (∀ r, St4 m ρ K c xr_ -∗ Kt r))
      ⊢ wp frame (wpE (defs₀ (F := F)) 𝒱₀ (c : Thread nD τ) none) Set.univ
        (k0_part23 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v8 v33 v63 v67) Kt := by
  rw [k0_part23_eq_skeleton]; unfold k0_part23_skel
  simp only [Prog.lift, Prog.bind_op, Prog.bind_ret, Prog.pure_eq_ret]
  unfold C22
  iintro ⟨⟨HG, ⟨H10, H11, H12, H13⟩, Hx, Hkeep, HfR, Hag, Hpa, Hown⟩, Hk⟩
  iapply (ghost_wait_at m ρ K c 14 (pbJ 0 1) (by decide) (Rr c) _ (dnrecv_sem 0 1 _ _) (pbV c 0 1) (pbV c 0 1)
    ((show (pbV c 0 1).view.dmaCredit = N256 from rfl).trans (NJ_pb 0 1).symm)) $$ [HG H11]
  · isplitl [HG]; · iexact HG
    iexact H11
  iintro ⟨HG, H11, Hpay⟩
  ihave Hpb := (pb1_landing m ρ c) $$ Hpay
  rw [wp_ret]; imodintro
  iapply Hk
  iapply (st4_close m ρ K c xr_)
  iframe
  iexact H11

/-- info: 'Cert.Kernel.AR.part19_spec' depends on axioms: [propext, Classical.choice, Quot.sound] -/
#guard_msgs in #print axioms part19_spec

/-- info: 'Cert.Kernel.AR.part20_spec' depends on axioms: [propext, Classical.choice, Quot.sound] -/
#guard_msgs in #print axioms part20_spec

/-- info: 'Cert.Kernel.AR.part21_spec' depends on axioms: [propext, Classical.choice, Quot.sound] -/
#guard_msgs in #print axioms part21_spec

/-- info: 'Cert.Kernel.AR.part22_spec' depends on axioms: [propext, Classical.choice, Quot.sound] -/
#guard_msgs in #print axioms part22_spec

/-- info: 'Cert.Kernel.AR.part23_spec' depends on axioms: [propext, Classical.choice, Quot.sound] -/
#guard_msgs in #print axioms part23_spec

end Cert.Kernel.AR

end
-- ==== Proof.K.StageD.lean ====
import proofs.«900720_g7700000000000721_dist_ar_v7x_xyz2x2x4_z_m4096_n1024_f32_1_alg».proof.Proof.K.Steps
import proofs.«900720_g7700000000000721_dist_ar_v7x_xyz2x2x4_z_m4096_n1024_f32_1_alg».proof.Proof.K.Levels
import proofs.«900720_g7700000000000721_dist_ar_v7x_xyz2x2x4_z_m4096_n1024_f32_1_alg».proof.Proof.K.Views
import proofs.«900720_g7700000000000721_dist_ar_v7x_xyz2x2x4_z_m4096_n1024_f32_1_alg».proof.Proof.K.Parts

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace StageD

theorem dev19_eq (c : Dev nD) : (⟨k0_dev19 c, k0_dev19_lt c⟩ : Dev nD) = xr c := by revert c; decide
theorem dev20_eq (c : Dev nD) : (⟨k0_dev20 c, k0_dev20_lt c⟩ : Dev nD) = xl c := by revert c; decide
theorem dev21_eq (c : Dev nD) : (⟨k0_dev21 c, k0_dev21_lt c⟩ : Dev nD) = zl c := by revert c; decide
theorem dev22_eq (c : Dev nD) : (⟨k0_dev22 c, k0_dev22_lt c⟩ : Dev nD) = zl c := by revert c; decide

theorem toks_take (c : Dev nD) (k k' : ℕ) (hk : k < 24) (hk' : k' = k + 1) :
    (toksFrom c k : sProp 𝕄) = iprop((dutyTok ER (sendCell c ⟨k, hk⟩) 0 0 ∗ dutyTok ER (recvCell (peer ⟨k, hk⟩ c) ⟨k, hk⟩) 0 0) ∗ toksFrom c k') :=
  take_ge _ ⟨k, hk⟩ k k' rfl hk'

theorem recvTodo_take (c : Dev nD) (k k' : ℕ) (hk : k < 24) (hk' : k' = k + 1) :
    (recvTodo c k : sProp 𝕄) = iprop((atPos ER (recvCell c ⟨k, hk⟩) 0 ∅ 0 ∗ cred (tallyAt (recvCell c ⟨k, hk⟩) () (NJ ⟨k, hk⟩))) ∗ recvTodo c k') :=
  take_ge _ ⟨k, hk⟩ k k' rfl hk'

theorem recvDone_put (c : Dev nD) (k k' : ℕ) (hk : k < 24) (hk' : k' = k + 1) :
    (recvDone c k' : sProp 𝕄) = iprop(atPos ER (recvCell c ⟨k, hk⟩) 1 ∅ 0 ∗ recvDone c k) :=
  put_lt _ ⟨k, hk⟩ k k' rfl hk'

theorem sendCred_put (c : Dev nD) (k k' : ℕ) (hk : k < 24) (hk' : k' = k + 1) :
    (sendCred c k' : sProp 𝕄) = iprop(cred (tallyAt (sendCell c ⟨k, hk⟩) () (NJ ⟨k, hk⟩)) ∗ sendCred c k) :=
  put_lt _ ⟨k, hk⟩ k k' rfl hk'

def rcT (c : Dev nD) (j : Fin 24) : sProp 𝕄 := iprop(atPos ER (recvCell c j) 0 ∅ 0 ∗ cred (tallyAt (recvCell c j) () (NJ j)))
def rcD (c : Dev nD) (j : Fin 24) : sProp 𝕄 := atPos ER (recvCell c j) 1 ∅ 0

def ghostMid (K : GSem nD τ sig → ℕ) (c : Dev nD) (k : ℕ) : sProp 𝕄 :=
  iprop(records m ρ K ∗ levAts L lv ∗ toksFrom c k ∗ recvTodo c 18 ∗ recvDone c 14 ∗ sendTodo c ∗ sendCred c k
    ∗ ∃ W, owes (c : Thread nD τ) (Orem c (24 - k)) W)

def St4a (K : GSem nD τ sig → ℕ) (c : Dev nD) (xr_ : sProp 𝕄) : sProp 𝕄 :=
  iprop(ghostMid m ρ K c 16 ∗ rcT c 14 ∗ rcT c 15 ∗ rcT c 16 ∗ rcT c 17
    ∗ xr_
    ∗ pts c (agV (zr c) 0 2) Lq (Fn m ρ)
    ∗ pts c (agV c 1 0) Rq (Fn m ρ) ∗ pts c (agV c 1 1) fullShare (Fn m ρ)
    ∗ slotsHeld m ρ c [(0,0),(0,1),(0,2),(1,0),(1,1),(1,2)]
    ∗ bor (zl c) (agV c 1 2) ∗ pts (zl c) (agV c 1 1) fullShare (Sk (X m ρ) 1 (zl c))
    ∗ borPa c [(1,0),(1,1),(1,2)] ∗ borPb c [(1,0),(1,1),(1,2)])

def St4b (K : GSem nD τ sig → ℕ) (c : Dev nD) (xr_ : sProp 𝕄) : sProp 𝕄 :=
  iprop(ghostMid m ρ K c 17 ∗ rcT c 14 ∗ rcT c 15 ∗ rcD c 16 ∗ rcT c 17
    ∗ xr_
    ∗ pts c (agV (zr c) 0 2) Lq (Fn m ρ)
    ∗ pts c (agV c 1 0) Rq (Fn m ρ) ∗ pts c (agV c 1 1) Rq (Fn m ρ) ∗ pts c (agV c 1 2) fullShare (Fn m ρ)
    ∗ slotsHeld m ρ c [(0,0),(0,1),(0,2),(1,0),(1,1),(1,2)]
    ∗ bor (zl c) (agV c 1 2)
    ∗ borPa c [(1,0),(1,1),(1,2)] ∗ borPb c [(1,0),(1,1),(1,2)])

def St4c (K : GSem nD τ sig → ℕ) (c : Dev nD) (xr_ : sProp 𝕄) : sProp 𝕄 :=
  iprop(ghostMid m ρ K c 18 ∗ rcT c 14 ∗ rcT c 15 ∗ rcD c 16 ∗ rcT c 17
    ∗ xr_
    ∗ pts c (agV (zr c) 0 2) Lq (Fn m ρ)
    ∗ pts c (agV c 1 0) Rq (Fn m ρ) ∗ pts c (agV c 1 1) Rq (Fn m ρ) ∗ pts c (agV c 1 2) Rq (Fn m ρ)
    ∗ slotsHeld m ρ c [(0,0),(0,1),(0,2),(1,0),(1,1),(1,2)]
    ∗ borPa c [(1,0),(1,1),(1,2)] ∗ borPb c [(1,0),(1,1),(1,2)])

end StageD

open StageD

set_option maxHeartbeats 1600000 in
theorem part24_spec (K : GSem nD τ sig → ℕ) (c : Dev nD) (xr_ : sProp 𝕄)
    (v8 v33 v46 v50 v63 v67 v776 c1024_i32_541 : BitVec 32)
    (Kt : (Σ' (v805 : BitVec 32) (v807 : BitVec 32), BitVec 32) → sProp 𝕄) :
    iprop(St4 m ρ K c xr_ ∗ (∀ r, St4a m ρ K c xr_ -∗ Kt r)) ⊢ wp frame (wpE (defs₀ (F := F)) 𝒱₀ (c : Thread nD τ) none) Set.univ
      (k0_part24 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 c v8 v33 v46 v50 v63 v67 v776 c1024_i32_541) Kt := by
  rw [k0_part24_eq_skeleton]; unfold k0_part24_skel
  simp only [Prog.lift, Prog.bind_op, Prog.bind_ret, Prog.pure_eq_ret]
  unfold St4 ghostAt
  rw [toks_take c 14 15 (by omega) rfl, toks_take c 15 16 (by omega) rfl,
    recvTodo_take c 14 15 (by omega) rfl, recvTodo_take c 15 16 (by omega) rfl,
    recvTodo_take c 16 17 (by omega) rfl, recvTodo_take c 17 18 (by omega) rfl,
    borPa_cons, borPb_cons]
  unfold bor
  iintro ⟨⟨⟨#HR, #Hlev, ⟨⟨Ht14s, Ht14r⟩, ⟨Ht15s, Ht15r⟩, Htok⟩, ⟨Hr14, Hr15, Hr16, Hr17, Hrt⟩, Hrd, Hst, Hsc, ⟨%W, HO⟩⟩,
    Hx, Hzr02, Hpa, Hpb, Hag10, Hag11, Hslots, Hbzl, Hzl11, ⟨⟨%fa, Hba⟩, HbPa⟩, ⟨⟨%fb, Hbb⟩, HbPb⟩⟩, Hk⟩

  ihave Hpa' := (Entails.of_eq (pts_view_eq c (pa_next1 c 0) fullShare (Fn m ρ) (Fn m ρ) HEq.rfl).symm) $$ Hpa
  iapply (step_send m ρ K c (paJ 0 2) 9 rfl (paV c 0 2) (paV c 0 2) fullShare (Fn m ρ) fa W _ _ _ (dev19_eq c) (upsend_sem 0 2 _ _) (uprecv_sem 0 2 _ _)
      ((amount_pa c 0 2 _).trans (NJ_pa 0 2).symm)
      (by rw [sendPay_pa]; unfold paS; rw [if_neg (by decide)])
      (by
        show _ ⊢ recvPay m ρ (xr c) (paJ 0 2)
        rw [recvPay_pa]; unfold paR; rw [xl_xr]
        exact Entails.of_eq (pointsTo_congr (write_read_self (paV c 0 2) fa (Fn m ρ)))))
    $$ [Hpa' Hba HO Ht14s Ht14r]
  · iframe
    isplitr; · iexact HR
    isplitl [Hba]; · iexact Hba
    isplitl [Ht14s]; · iexact Ht14s
    iexact Ht14r
  iintro ⟨Hc14, HO⟩

  ihave Hpb' := (Entails.of_eq (pts_view_eq c (pb_next1 c 0) fullShare (Fn m ρ) (Fn m ρ) HEq.rfl).symm) $$ Hpb
  iapply (step_send m ρ K c (pbJ 0 2) 8 rfl (pbV c 0 2) (pbV c 0 2) fullShare (Fn m ρ) fb W _ _ _ (dev20_eq c) (dnsend_sem 0 2 _ _) (dnrecv_sem 0 2 _ _)
      ((amount_pb c 0 2 _).trans (NJ_pb 0 2).symm)
      (by rw [sendPay_pb]; unfold pbS; rw [if_neg (by decide)])
      (by
        show _ ⊢ recvPay m ρ (xl c) (pbJ 0 2)
        rw [recvPay_pb]; unfold pbR; rw [xr_xl]
        exact Entails.of_eq (pointsTo_congr (write_read_self (pbV c 0 2) fb (Fn m ρ)))))
    $$ [Hpb' Hbb HO Ht15s Ht15r]
  · iframe
    isplitr; · iexact HR
    isplitl [Hbb]; · iexact Hbb
    isplitl [Ht15s]; · iexact Ht15s
    iexact Ht15r
  iintro ⟨Hc15, HO⟩
  rw [wp_ret]; imodintro
  iapply Hk
  unfold St4a ghostMid rcT bor
  rw [sendCred_put c 15 16 (by omega) rfl, sendCred_put c 14 15 (by omega) rfl]
  iframe
  isplitl [Hc15 Hc14 HO]
  · isplitr; · iexact HR
    isplitr; · iexact Hlev
    isplitl [Hc15 Hc14]
    · isplitl [Hc15]; · iexact Hc15
      iexact Hc14
    iexists W; iexact HO
  isplitl [Hr14]; · iexact Hr14
  isplitl [Hr15]; · iexact Hr15
  isplitl [Hr16]; · iexact Hr16
  iexact Hr17

set_option maxHeartbeats 1600000 in
theorem part25_spec (K : GSem nD τ sig → ℕ) (c : Dev nD) (xr_ : sProp 𝕄)
    (v2 v5 v8 v30 v33 v805 v807 v809 : BitVec 32)
    (Kt : (Σ' (v843 : BitVec 32), BitVec 32) → sProp 𝕄) :
    iprop(St4a m ρ K c xr_ ∗ (∀ r, St4b m ρ K c xr_ -∗ Kt r)) ⊢ wp frame (wpE (defs₀ (F := F)) 𝒱₀ (c : Thread nD τ) none) Set.univ
      (k0_part25 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 c v2 v5 v8 v30 v33 v805 v807 v809) Kt := by
  rw [k0_part25_eq_skeleton]; unfold k0_part25_skel
  simp only [Prog.lift, Prog.bind_op, Prog.bind_ret, Prog.pure_eq_ret]
  unfold St4a ghostMid rcT
  rw [toks_take c 16 17 (by omega) rfl]
  iintro ⟨⟨⟨#HR, #Hlev, ⟨⟨Ht16s, Ht16r⟩, Htok⟩, Hrt, Hrd, Hst, Hsc, ⟨%W, HO⟩⟩, Hr14, Hr15, ⟨Hr16a, Hr16c⟩, Hr17,
    Hx, Hzr02, Hag10, Hag11, Hslots, Hbzl, Hzl11, HbPa, HbPb⟩, Hk⟩

  ihave Hag11' := (share_LR c (agV c 1 1) (Fn m ρ)).1 $$ Hag11
  icases Hag11' with ⟨Hag11L, Hag11R⟩
  iapply (step_send m ρ K c (agJ 1 1) 7 rfl (agV c 1 1) (agV c 1 1) Lq (Fn m ρ) (Sk (X m ρ) 1 (zl c)) W _ _ _ (dev21_eq c) (zsend_ag 1 1 _ _) (zrecv_ag 1 1 _ _)
      ((amount_ag c 1 1 _).trans (NJ_ag 1 1).symm)
      (by rw [sendPay_ag]; unfold agS; exact .rfl)
      (by
        show _ ⊢ recvPay m ρ (zl c) (agJ 1 1)
        rw [recvPay_ag]; unfold agR; rw [zr_zl]
        exact Entails.of_eq (pointsTo_congr (write_read_self (agV c 1 1) (Sk (X m ρ) 1 (zl c)) (Fn m ρ)))))
    $$ [Hag11L Hzl11 HO Ht16s Ht16r]
  · iframe
    isplitr; · iexact HR
    isplitl [Hzl11]; · iexact Hzl11
    isplitl [Ht16s]; · iexact Ht16s
    iexact Ht16r
  iintro ⟨Hc16, HO⟩

  iapply (step_wait_recv m ρ K c (agJ 1 1) (Orem c 7) W (agV c 1 1) (agV c 1 1) _ (zrecv_ag 1 1 _ _)
      ((show (agV c 1 1).view.dmaCredit = N128 from rfl).trans (NJ_ag 1 1).symm) (mayWait_recv c (agJ 1 1) 7 (by decide)))
    $$ [Hr16a Hr16c HO]
  · isplitr; · iexact HR
    isplitr; · iexact Hlev
    isplitl [Hr16c]; · iexact Hr16c
    isplitl [HO]; · iexact HO
    iexact Hr16a
  iintro ⟨⟨%W', HO⟩, Hr16d, Hpay⟩
  ihave Hag12 := (Entails.of_eq ((recvPay_ag m ρ c 1 1).trans (pts_view_eq c (ag_zr1 c 1) fullShare (Fn m ρ) (Fn m ρ) HEq.rfl))) $$ Hpay
  rw [wp_ret]; imodintro
  iapply Hk
  unfold St4b ghostMid rcT rcD
  rw [sendCred_put c 16 17 (by omega) rfl]
  iframe
  isplitl [Hc16 HO]
  · isplitr; · iexact HR
    isplitr; · iexact Hlev
    isplitl [Hc16]; · iexact Hc16
    iexists W'; iexact HO
  iexact Hr16d

set_option maxHeartbeats 1600000 in
theorem part26_spec (K : GSem nD τ sig → ℕ) (c : Dev nD) (xr_ : sProp 𝕄)
    (v2 v5 v30 v843 v844 : BitVec 32)
    (Kt : PUnit → sProp 𝕄) :
    iprop(St4b m ρ K c xr_ ∗ (∀ r, St4c m ρ K c xr_ -∗ Kt r)) ⊢ wp frame (wpE (defs₀ (F := F)) 𝒱₀ (c : Thread nD τ) none) Set.univ
      (k0_part26 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 c v2 v5 v30 v843 v844) Kt := by
  rw [k0_part26_eq_skeleton]; unfold k0_part26_skel
  simp only [Prog.lift, Prog.bind_op, Prog.bind_ret, Prog.pure_eq_ret]
  unfold St4b ghostMid bor
  rw [toks_take c 17 18 (by omega) rfl]
  iintro ⟨⟨⟨#HR, #Hlev, ⟨⟨Ht17s, Ht17r⟩, Htok⟩, Hrt, Hrd, Hst, Hsc, ⟨%W, HO⟩⟩, Hr14, Hr15, Hr16, Hr17,
    Hx, Hzr02, Hag10, Hag11, Hag12, Hslots, ⟨%fz, Hbzl⟩, HbPa, HbPb⟩, Hk⟩

  ihave Hag12' := (share_LR c (agV c 1 2) (Fn m ρ)).1 $$ Hag12
  icases Hag12' with ⟨Hag12L, Hag12R⟩
  iapply (step_send m ρ K c (agJ 1 2) 6 rfl (agV c 1 2) (agV c 1 2) Lq (Fn m ρ) fz W _ _ _ (dev22_eq c) (zsend_ag 1 2 _ _) (zrecv_ag 1 2 _ _)
      ((amount_ag c 1 2 _).trans (NJ_ag 1 2).symm)
      (by rw [sendPay_ag]; unfold agS; exact .rfl)
      (by
        show _ ⊢ recvPay m ρ (zl c) (agJ 1 2)
        rw [recvPay_ag]; unfold agR; rw [zr_zl]
        exact Entails.of_eq (pointsTo_congr (write_read_self (agV c 1 2) fz (Fn m ρ)))))
    $$ [Hag12L Hbzl HO Ht17s Ht17r]
  · iframe
    isplitr; · iexact HR
    isplitl [Hbzl]; · iexact Hbzl
    isplitl [Ht17s]; · iexact Ht17s
    iexact Ht17r
  iintro ⟨Hc17, HO⟩
  rw [wp_ret]; imodintro
  iapply Hk
  unfold St4c ghostMid
  rw [sendCred_put c 17 18 (by omega) rfl]
  iframe
  isplitr; · iexact HR
  isplitr; · iexact Hlev
  isplitl [Hc17]; · iexact Hc17
  iexists W; iexact HO

set_option maxHeartbeats 1600000 in
theorem part27_spec (K : GSem nD τ sig → ℕ) (c : Dev nD) (xr_ : sProp 𝕄)
    (v8 v33 v46 v50 v63 v67 : BitVec 32)
    (Kt : (Σ' (v911 : BitVec 32), BitVec 32) → sProp 𝕄) :
    iprop(St4c m ρ K c xr_ ∗ (∀ r, St5 m ρ K c xr_ -∗ Kt r)) ⊢ wp frame (wpE (defs₀ (F := F)) 𝒱₀ (c : Thread nD τ) none) Set.univ
      (k0_part27 (F := F) (Memref.whole cc0_stg0_0) (Memref.isWhole_whole _) (Memref.whole cc0_stg1_0) (Memref.isWhole_whole _) (Memref.whole cc0_scratch0) (Memref.isWhole_whole _)
        cc0_scratch1 cc0_scratch2 cc0_scratch3 cc0_scratch4 cc0_scratch5 cc0_scratch6 c v8 v33 v46 v50 v63 v67) Kt := by
  rw [k0_part27_eq_skeleton]; unfold k0_part27_skel
  simp only [Prog.lift, Prog.bind_op, Prog.bind_ret, Prog.pure_eq_ret]
  unfold St4c ghostMid rcT rcD
  iintro ⟨⟨⟨#HR, #Hlev, Htok, Hrt, Hrd, Hst, Hsc, ⟨%W, HO⟩⟩, ⟨Hr14a, Hr14c⟩, ⟨Hr15a, Hr15c⟩, Hr16d, ⟨Hr17a, Hr17c⟩,
    Hx, Hzr02, Hag10, Hag11, Hag12, Hslots, HbPa, HbPb⟩, Hk⟩

  iapply (step_wait_recv m ρ K c (agJ 1 2) (Orem c 6) W (agV c 1 2) (agV c 1 2) _ (zrecv_ag 1 2 _ _)
      ((show (agV c 1 2).view.dmaCredit = N128 from rfl).trans (NJ_ag 1 2).symm) (mayWait_recv c (agJ 1 2) 6 (by decide)))
    $$ [Hr17a Hr17c HO]
  · isplitr; · iexact HR
    isplitr; · iexact Hlev
    isplitl [Hr17c]; · iexact Hr17c
    isplitl [HO]; · iexact HO
    iexact Hr17a
  iintro ⟨⟨%W1, HO⟩, Hr17d, Hpay17⟩

  iapply (step_wait_recv m ρ K c (paJ 0 2) (Orem c 6) W1 (paV c 0 2) (paV c 0 2) _ (uprecv_sem 0 2 _ _)
      ((show (paV c 0 2).view.dmaCredit = N256 from rfl).trans (NJ_pa 0 2).symm) (mayWait_recv c (paJ 0 2) 6 (by decide)))
    $$ [Hr14a Hr14c HO]
  · isplitr; · iexact HR
    isplitr; · iexact Hlev
    isplitl [Hr14c]; · iexact Hr14c
    isplitl [HO]; · iexact HO
    iexact Hr14a
  iintro ⟨⟨%W2, HO⟩, Hr14d, Hpay14⟩

  iapply (step_wait_recv m ρ K c (pbJ 0 2) (Orem c 6) W2 (pbV c 0 2) (pbV c 0 2) _ (dnrecv_sem 0 2 _ _)
      ((show (pbV c 0 2).view.dmaCredit = N256 from rfl).trans (NJ_pb 0 2).symm) (mayWait_recv c (pbJ 0 2) 6 (by decide)))
    $$ [Hr15a Hr15c HO]
  · isplitr; · iexact HR
    isplitr; · iexact Hlev
    isplitl [Hr15c]; · iexact Hr15c
    isplitl [HO]; · iexact HO
    iexact Hr15a
  iintro ⟨⟨%W3, HO⟩, Hr15d, Hpay15⟩
  ihave Hzr12 := (Entails.of_eq ((recvPay_ag m ρ c 1 2).trans (show agR m ρ c 1 2 = pts c (agV (zr c) 1 2) fullShare (Fn m ρ) from rfl))) $$ Hpay17
  ihave Hpa2 := (Entails.of_eq ((recvPay_pa m ρ c 0 2).trans (show paR m ρ c 0 2 = pts c (paV (xl c) 0 2) fullShare (Fn m ρ) from rfl))) $$ Hpay14
  ihave Hpb2 := (Entails.of_eq ((recvPay_pb m ρ c 0 2).trans (show pbR m ρ c 0 2 = pts c (pbV (xr c) 0 2) fullShare (Fn m ρ) from rfl))) $$ Hpay15
  rw [wp_ret]; imodintro
  iapply Hk
  unfold St5 ghostAt
  rw [recvDone_put c 17 18 (by omega) rfl, recvDone_put c 16 17 (by omega) rfl, recvDone_put c 15 16 (by omega) rfl,
    recvDone_put c 14 15 (by omega) rfl]
  iframe
  isplitr; · iexact HR
  isplitr; · iexact Hlev
  isplitl [Hr17d Hr16d Hr15d Hr14d]
  · isplitl [Hr17d]; · iexact Hr17d
    isplitl [Hr16d]; · iexact Hr16d
    isplitl [Hr15d]; · iexact Hr15d
    iexact Hr14d
  iexists W3; iexact HO

end Cert.Kernel.AR

end
-- ==== Proof.K.StageE.lean ====
import proofs.«900720_g7700000000000721_dist_ar_v7x_xyz2x2x4_z_m4096_n1024_f32_1_alg».proof.Proof.K.Steps
import proofs.«900720_g7700000000000721_dist_ar_v7x_xyz2x2x4_z_m4096_n1024_f32_1_alg».proof.Proof.K.Levels
import proofs.«900720_g7700000000000721_dist_ar_v7x_xyz2x2x4_z_m4096_n1024_f32_1_alg».proof.Proof.K.Views
import proofs.«900720_g7700000000000721_dist_ar_v7x_xyz2x2x4_z_m4096_n1024_f32_1_alg».proof.Proof.K.Parts

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace StageE

theorem dev23_eq (c : Dev nD) : (⟨k0_dev23 c, k0_dev23_lt c⟩ : Dev nD) = xr c := by revert c; decide
theorem dev24_eq (c : Dev nD) : (⟨k0_dev24 c, k0_dev24_lt c⟩ : Dev nD) = xl c := by revert c; decide
theorem dev25_eq (c : Dev nD) : (⟨k0_dev25 c, k0_dev25_lt c⟩ : Dev nD) = xr c := by revert c; decide
theorem dev26_eq (c : Dev nD) : (⟨k0_dev26 c, k0_dev26_lt c⟩ : Dev nD) = xl c := by revert c; decide
theorem dev27_eq (c : Dev nD) : (⟨k0_dev27 c, k0_dev27_lt c⟩ : Dev nD) = xr c := by revert c; decide
theorem dev28_eq (c : Dev nD) : (⟨k0_dev28 c, k0_dev28_lt c⟩ : Dev nD) = xl c := by revert c; decide

theorem toks_take (c : Dev nD) (j : Fin 24) :
    (toksFrom c j.val : sProp 𝕄) = iprop((dutyTok ER (sendCell c j) 0 0 ∗ dutyTok ER (recvCell (peer j c) j) 0 0) ∗ toksFrom c (j.val + 1)) :=
  take_ge _ j _ _ rfl rfl

theorem recvTodo_take (c : Dev nD) (j : Fin 24) :
    (recvTodo c j.val : sProp 𝕄) = iprop((atPos ER (recvCell c j) 0 ∅ 0 ∗ cred (tallyAt (recvCell c j) () (NJ j))) ∗ recvTodo c (j.val + 1)) :=
  take_ge _ j _ _ rfl rfl

theorem recvDone_put (c : Dev nD) (j : Fin 24) :
    (recvDone c (j.val + 1) : sProp 𝕄) = iprop(atPos ER (recvCell c j) 1 ∅ 0 ∗ recvDone c j.val) :=
  put_lt _ j _ _ rfl rfl

theorem sendCred_put (c : Dev nD) (j : Fin 24) :
    (sendCred c (j.val + 1) : sProp 𝕄) = iprop(cred (tallyAt (sendCell c j) () (NJ j)) ∗ sendCred c j.val) :=
  put_lt _ j _ _ rfl rfl

def ghostE (K : GSem nD τ sig → ℕ) (c : Dev nD) (ks kr : ℕ) : sProp 𝕄 :=
  iprop(records m ρ K ∗ levAts L lv ∗ toksFrom c ks ∗ recvTodo c kr ∗ recvDone c kr ∗ sendTodo c ∗ sendCred c ks
    ∗ ∃ W, owes (c : Thread nD τ) (Orem c (24 - ks)) W)

theorem ghostAt_eq (K : GSem nD τ sig → ℕ) (c : Dev nD) (k : ℕ) : ghostAt m ρ K c k = ghostE m ρ K c k k := rfl

theorem ghost_send {sh : Shape} (K : GSem nD τ sig → ℕ) (c : Dev nD) (j : Fin 24) (n : ℕ) (hn : n + j.val = 23) (kr : ℕ)
    (d : Dev nD) (hd : d = peer j c) (ss rs : DmaSem sig) (hss : ss = sendSem j) (hrs : rs = recvSem j)
    (src dst : Memref sig .tc .vmem sh .f32) (q : PosShare TreeShare)
    (fs : Buf (Elt F) (src.view.loc (c : Thread nD τ)))
    {hsc : (dst : Memref sig (Dev.tc d : Thread nD τ).2.kind .vmem sh .f32).view.ref.isScScratch = false}
    {hsrc : src.view.WordExact} {hdst : dst.view.WordExact}
    {hsem : DmaTarget.Typed .vmem (.dma rs) (.remote (Dev.tc d : Thread nD τ) dst (.dma ss) hsc)}
    {α : Type} {Q : α → sProp 𝕄} {k : PUnit → Prog (TpuEff nD τ sig (Elt F) Λ₀ .tc) α}
    (hN : dst.view.amount (.dma (recvSem j)) = NJ j)
    (hpay₁ : (src.view.loc (c : Thread nD τ) ↦[src.view.set]{q} fs : sProp 𝕄) ⊢ sendPay m ρ c j)
    (hpay₂ : ∀ fd : Buf (Elt F) (dst.view.loc (peer j c : Thread nD τ)),
      (dst.view.loc (peer j c : Thread nD τ) ↦[dst.view.set]{fullShare} (dst.view.write (Elt F) fd (src.view.read (Elt F) fs) Finset.univ) : sProp 𝕄)
        ⊢ recvPay m ρ (peer j c) j) :
    iprop(ghostE m ρ K c j.val kr ∗ pts c src q fs ∗ bor (peer j c) dst
        ∗ (ghostE m ρ K c (j.val + 1) kr -∗ wp frame (wpE (defs₀ (F := F)) 𝒱₀ (c : Thread nD τ) none) Set.univ (k ⟨⟩) Q))
      ⊢ wp frame (wpE (defs₀ (F := F)) 𝒱₀ (c : Thread nD τ) none) Set.univ
          (.op (.enqueueDma src (.remote (Dev.tc d : Thread nD τ) dst (.dma ss) hsc) (.dma rs) hsrc hdst hsem) k) Q := by
  subst hd hss hrs
  have e1 : 24 - j.val = n + 1 := by omega
  have e2 : 24 - (j.val + 1) = n := by omega
  unfold ghostE bor
  rw [toks_take c j, sendCred_put c j, e1, e2]
  iintro ⟨⟨#HR, #Hlev, ⟨⟨Ht1, Ht2⟩, Ht⟩, Hrt, Hrd, Hst, Hsc, ⟨%W, HO⟩⟩, Hs, ⟨%fd, Hd⟩, Hk⟩
  iapply (step_send m ρ K c j n hn src dst q fs fd W _ _ _ rfl rfl rfl hN hpay₁ (hpay₂ fd)) $$ [Hs Hd HO Ht1 Ht2]
  · iframe
    iexact HR
  iintro ⟨Hc, HO⟩
  iapply Hk
  iframe
  isplitr; · iexact HR
  isplitr; · iexact Hlev
  iexists W; iexact HO

theorem ghost_wait {sh : Shape} (K : GSem nD τ sig → ℕ) (c : Dev nD) (j : Fin 24) (ks : ℕ) (hks : j.val < ks)
    (rs : DmaSem sig) (hrs : rs = recvSem j)
    (src dst : Memref sig .tc .vmem sh .f32) {hs : src.view.WordExact} {hd : dst.view.WordExact}
    {α : Type} {Q : α → sProp 𝕄} {k : PUnit → Prog (TpuEff nD τ sig (Elt F) Λ₀ .tc) α}
    (hN : dst.view.dmaCredit = NJ j) :
    iprop(ghostE m ρ K c ks j.val
        ∗ ((ghostE m ρ K c ks (j.val + 1) ∗ recvPay m ρ c j) -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 rs src dst hs hd) k) Q := by
  subst hrs
  unfold ghostE
  rw [recvTodo_take c j, recvDone_put c j]
  iintro ⟨⟨#HR, #Hlev, Ht, ⟨⟨Hat, Hcr⟩, Hrt⟩, Hrd, Hst, Hsc, ⟨%W, HO⟩⟩, Hk⟩
  iapply (step_wait_recv m ρ K c j (Orem c (24 - ks)) W src dst _ rfl hN (mayWait_recv c j (24 - ks) (by omega))) $$ [Hcr HO Hat]
  · iframe
    isplitr; · iexact HR
    iexact Hlev
  iintro ⟨⟨%W', HO⟩, Hat, Hpay⟩
  iapply Hk
  isplitr [Hpay]
  · isplitr; · iexact HR
    isplitr; · iexact Hlev
    isplitl [Ht]; · iexact Ht
    isplitl [Hrt]; · iexact Hrt
    isplitl [Hat Hrd]
    · isplitl [Hat]; · iexact Hat
      iexact Hrd
    isplitl [Hst]; · iexact Hst
    isplitl [Hsc]; · iexact Hsc
    iexists W'; iexact HO
  · iexact Hpay

def keepE (c : Dev nD) : sProp 𝕄 :=
  iprop(pts c (agV (zr c) 0 2) Lq (Fn m ρ) ∗ pts c (paV (xl c) 0 2) fullShare (Fn m ρ) ∗ pts c (pbV (xr c) 0 2) fullShare (Fn m ρ)
    ∗ pts c (agV (zr c) 1 2) Lq (Fn m ρ) ∗ slotsHeld m ρ c [(0,0),(0,1),(0,2),(1,0),(1,1),(1,2)])

def E28 (K : GSem nD τ sig → ℕ) (c : Dev nD) (xr_ : sProp 𝕄) : sProp 𝕄 :=
  iprop(ghostE m ρ K c 19 18 ∗ xr_ ∗ keepE m ρ c
    ∗ pts c (pbV c 1 0) Rq (Fn m ρ)
    ∗ (bor (xr c) (paV c 1 1) ∗ bor (xr c) (paV c 1 2))
    ∗ (bor (xl c) (pbV c 1 0) ∗ bor (xl c) (pbV c 1 1) ∗ bor (xl c) (pbV c 1 2)))

def E29 (K : GSem nD τ sig → ℕ) (c : Dev nD) (xr_ : sProp 𝕄) : sProp 𝕄 :=
  iprop(ghostE m ρ K c 20 20 ∗ xr_ ∗ keepE m ρ c
    ∗ pts c (paV (xl c) 1 0) fullShare (Fn m ρ) ∗ pts c (pbV (xr c) 1 0) fullShare (Fn m ρ)
    ∗ (bor (xr c) (paV c 1 1) ∗ bor (xr c) (paV c 1 2))
    ∗ (bor (xl c) (pbV c 1 1) ∗ bor (xl c) (pbV c 1 2)))

def E30 (K : GSem nD τ sig → ℕ) (c : Dev nD) (xr_ : sProp 𝕄) : sProp 𝕄 :=
  iprop(ghostE m ρ K c 21 20 ∗ xr_ ∗ keepE m ρ c
    ∗ pts c (pbV (xr c) 1 0) fullShare (Fn m ρ)
    ∗ bor (xr c) (paV c 1 2)
    ∗ (bor (xl c) (pbV c 1 1) ∗ bor (xl c) (pbV c 1 2)))

def E31 (K : GSem nD τ sig → ℕ) (c : Dev nD) (xr_ : sProp 𝕄) : sProp 𝕄 :=
  iprop(ghostE m ρ K c 22 22 ∗ xr_ ∗ keepE m ρ c
    ∗ pts c (paV (xl c) 1 1) fullShare (Fn m ρ) ∗ pts c (pbV (xr c) 1 1) fullShare (Fn m ρ)
    ∗ bor (xr c) (paV c 1 2)
    ∗ bor (xl c) (pbV c 1 2))

def E32 (K : GSem nD τ sig → ℕ) (c : Dev nD) (xr_ : sProp 𝕄) : sProp 𝕄 :=
  iprop(ghostE m ρ K c 23 22 ∗ xr_ ∗ keepE m ρ c
    ∗ pts c (pbV (xr c) 1 1) fullShare (Fn m ρ)
    ∗ bor (xl c) (pbV c 1 2))

theorem borPa_second (c : Dev nD) :
    borPa (F := F) c [(1,0),(1,1),(1,2)] = iprop(bor (xr c) (paV c 1 0) ∗ bor (xr c) (paV c 1 1) ∗ bor (xr c) (paV c 1 2)) := rfl
theorem borPb_second (c : Dev nD) :
    borPb (F := F) c [(1,0),(1,1),(1,2)] = iprop(bor (xl c) (pbV c 1 0) ∗ bor (xl c) (pbV c 1 1) ∗ bor (xl c) (pbV c 1 2)) := rfl

theorem pa_pay₁ (c : Dev nD) (t : Fin 3) (q : PosShare TreeShare) (hq : q = if t = 0 then Rq else fullShare) :
    (pts c (paV c 1 t) q (Fn m ρ) : sProp 𝕄) ⊢ sendPay m ρ c (paJ 1 t) := by
  rw [sendPay_pa]; unfold paS; rw [hq]

theorem pb_pay₁ (c : Dev nD) (t : Fin 3) (q : PosShare TreeShare) (hq : q = if t = 0 then Rq else fullShare) :
    (pts c (pbV c 1 t) q (Fn m ρ) : sProp 𝕄) ⊢ sendPay m ρ c (pbJ 1 t) := by
  rw [sendPay_pb]; unfold pbS; rw [hq]

theorem pa_pay₂ (c : Dev nD) (t : Fin 3) (fd : Buf (Elt F) ((paV c 1 t).view.loc (xr c : Thread nD τ))) :
    (pts (xr c) (paV c 1 t) fullShare ((paV c 1 t).view.write (Elt F) fd ((paV c 1 t).view.read (Elt F) (Fn m ρ)) Finset.univ) : sProp 𝕄)
      ⊢ recvPay m ρ (xr c) (paJ 1 t) := by
  rw [recvPay_pa]; unfold paR; rw [xl_xr]
  exact Entails.of_eq (pts_congr (xr c) (paV c 1 t) fullShare _ _ (write_read_self (paV c 1 t) fd (Fn m ρ)))

theorem pb_pay₂ (c : Dev nD) (t : Fin 3) (fd : Buf (Elt F) ((pbV c 1 t).view.loc (xl c : Thread nD τ))) :
    (pts (xl c) (pbV c 1 t) fullShare ((pbV c 1 t).view.write (Elt F) fd ((pbV c 1 t).view.read (Elt F) (Fn m ρ)) Finset.univ) : sProp 𝕄)
      ⊢ recvPay m ρ (xl c) (pbJ 1 t) := by
  rw [recvPay_pb]; unfold pbR; rw [xr_xl]
  exact Entails.of_eq (pts_congr (xl c) (pbV c 1 t) fullShare _ _ (write_read_self (pbV c 1 t) fd (Fn m ρ)))

theorem pts_pa_step0 (c : Dev nD) (p : Fin 2) (q : PosShare TreeShare) (f : Buf (Elt F) (oM.view.loc (c : Thread nD τ))) :
    (pts c (paV (xl c) p 0) q f : sProp 𝕄) = pts c (paV c p 1) q f := by
  rw [pts_paV c (xl c) p 0 p.val 0 (1024 * ((rpos c + 3) % 4) + 512 * p.val) rfl rfl (by rw [rpos_xl]; unfold row; omega) q f,
    pts_paV c c p 1 p.val 1 (1024 * ((rpos c + 3) % 4) + 512 * p.val) rfl rfl (by unfold row; omega) q f]

theorem pts_pa_step1 (c : Dev nD) (p : Fin 2) (q : PosShare TreeShare) (f : Buf (Elt F) (oM.view.loc (c : Thread nD τ))) :
    (pts c (paV (xl c) p 1) q f : sProp 𝕄) = pts c (paV c p 2) q f := by
  rw [pts_paV c (xl c) p 1 p.val 1 (1024 * ((rpos c + 2) % 4) + 512 * p.val) rfl rfl (by rw [rpos_xl]; unfold row; omega) q f,
    pts_paV c c p 2 p.val 2 (1024 * ((rpos c + 2) % 4) + 512 * p.val) rfl rfl (by unfold row; omega) q f]

theorem pts_pb_step0 (c : Dev nD) (p : Fin 2) (q : PosShare TreeShare) (f : Buf (Elt F) (oM.view.loc (c : Thread nD τ))) :
    (pts c (pbV (xr c) p 0) q f : sProp 𝕄) = pts c (pbV c p 1) q f := by
  rw [pts_pbV c (xr c) p 0 p.val 0 (1024 * ((rpos c + 1) % 4) + 512 * p.val + 256) rfl rfl (by rw [rpos_xr]; unfold row; omega) q f,
    pts_pbV c c p 1 p.val 1 (1024 * ((rpos c + 1) % 4) + 512 * p.val + 256) rfl rfl (by unfold row; omega) q f]

theorem pts_pb_step1 (c : Dev nD) (p : Fin 2) (q : PosShare TreeShare) (f : Buf (Elt F) (oM.view.loc (c : Thread nD τ))) :
    (pts c (pbV (xr c) p 1) q f : sProp 𝕄) = pts c (pbV c p 2) q f := by
  rw [pts_pbV c (xr c) p 1 p.val 1 (1024 * ((rpos c + 2) % 4) + 512 * p.val + 256) rfl rfl (by rw [rpos_xr]; unfold row; omega) q f,
    pts_pbV c c p 2 p.val 2 (1024 * ((rpos c + 2) % 4) + 512 * p.val + 256) rfl rfl (by unfold row; omega) q f]

end StageE

open StageE

set_option maxHeartbeats 1600000 in
theorem part28_spec (K : GSem nD τ sig → ℕ) (c : Dev nD) (xr_ : sProp 𝕄)
    (v8 v33 v46 v50 v63 v67 v911 c512_i32_636 : BitVec 32) (Kt : PUnit → sProp 𝕄) :
    iprop(St5 m ρ K c xr_ ∗ (∀ r, E28 m ρ K c xr_ -∗ Kt r)) ⊢ wp frame (wpE (defs₀ (F := F)) 𝒱₀ (c : Thread nD τ) none) Set.univ
        (k0_part28 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v8 v33 v46 v50 v63 v67 v911 c512_i32_636) Kt := by
  rw [k0_part28_eq_skeleton]; unfold k0_part28_skel
  simp only [Prog.lift, Prog.bind_op, Prog.bind_ret, Prog.pure_eq_ret]
  unfold St5
  rw [ghostAt_eq, borPa_second, borPb_second]
  iintro ⟨⟨Hg, Hx, HA, HB, HC, H10, H11, H12, Hz, Hsl, ⟨Hd, Hpa⟩, Hpb⟩, Hk⟩
  ihave Hz' := (share_LR c (agV (zr c) 1 2) (Fn m ρ)).1 $$ Hz
  icases Hz' with ⟨HzL, HzR⟩
  ihave Hj := (subq_join c 1 Rq (Fn m ρ)).1 $$ [H10 H11 H12 HzR]
  · iframe
  icases Hj with ⟨Hpa0, Hpb0⟩
  iapply (ghost_send m ρ K c (paJ 1 0) 5 rfl 18 _ ((dev23_eq c).trans (peer_pa 1 0 c).symm) _ _ (upsend_sem 1 0 _ _) (uprecv_sem 1 0 _ _)
      (paV c 1 0) (paV c 1 0) Rq (Fn m ρ)
      ((amount_pa c 1 0 _).trans (NJ_pa 1 0).symm) (pa_pay₁ m ρ c 0 Rq rfl) (pa_pay₂ m ρ c 0)) $$ [Hg Hpa0 Hd Hx HA HB HC HzL Hsl Hpb0 Hpa Hpb Hk]
  isplitl [Hg]; · iexact Hg
  isplitl [Hpa0]; · iexact Hpa0
  isplitl [Hd]; · iexact Hd
  iintro Hg
  simp only [wp_ret]; imodintro
  iapply Hk
  unfold E28 keepE
  iframe
  iexact Hg

set_option maxHeartbeats 1600000 in
theorem part29_spec (K : GSem nD τ sig → ℕ) (c : Dev nD) (xr_ : sProp 𝕄)
    (v8 v33 v46 v50 v63 v67 : BitVec 32) (Kt : (Σ' (v973 : BitVec 32) (v974 : BitVec 32) (v975 : BitVec 1), BitVec 1) → sProp 𝕄) :
    iprop(E28 m ρ K c xr_ ∗ (∀ r, E29 m ρ K c xr_ -∗ Kt r)) ⊢ wp frame (wpE (defs₀ (F := F)) 𝒱₀ (c : Thread nD τ) none) Set.univ
        (k0_part29 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v8 v33 v46 v50 v63 v67) Kt := by
  rw [k0_part29_eq_skeleton]; unfold k0_part29_skel
  simp only [Prog.lift, Prog.bind_op, Prog.bind_ret, Prog.pure_eq_ret]
  unfold E28
  iintro ⟨⟨Hg, Hx, Hkeep, Hpb0, Hpa, ⟨Hd, Hpb⟩⟩, Hk⟩
  iapply (ghost_send m ρ K c (pbJ 1 0) 4 rfl 18 _ ((dev24_eq c).trans (peer_pb 1 0 c).symm) _ _ (dnsend_sem 1 0 _ _) (dnrecv_sem 1 0 _ _)
      (pbV c 1 0) (pbV c 1 0) Rq (Fn m ρ)
      ((amount_pb c 1 0 _).trans (NJ_pb 1 0).symm) (pb_pay₁ m ρ c 0 Rq rfl) (pb_pay₂ m ρ c 0)) $$ [Hg Hpb0 Hd Hx Hkeep Hpa Hpb Hk]
  isplitl [Hg]; · iexact Hg
  isplitl [Hpb0]; · iexact Hpb0
  isplitl [Hd]; · iexact Hd
  iintro Hg
  iapply (ghost_wait m ρ K c (paJ 1 0) 20 (by decide) _ (uprecv_sem 1 0 _ _) (paV c 1 0) (paV c 1 0)
      ((rfl : (paV c 1 0).view.dmaCredit = N256).trans (NJ_pa 1 0).symm)) $$ [Hg Hx Hkeep Hpa Hpb Hk]
  isplitl [Hg]; · iexact Hg
  iintro ⟨Hg, Hp1⟩
  iapply (ghost_wait m ρ K c (pbJ 1 0) 20 (by decide) _ (dnrecv_sem 1 0 _ _) (pbV c 1 0) (pbV c 1 0)
      ((rfl : (pbV c 1 0).view.dmaCredit = N256).trans (NJ_pb 1 0).symm)) $$ [Hg Hp1 Hx Hkeep Hpa Hpb Hk]
  isplitl [Hg]; · iexact Hg
  iintro ⟨Hg, Hp2⟩
  ihave Hp1 := (Entails.of_eq (recvPay_pa m ρ c 1 0)) $$ Hp1
  ihave Hp2 := (Entails.of_eq (recvPay_pb m ρ c 1 0)) $$ Hp2
  simp only [wp_ret]; imodintro
  iapply Hk
  unfold E29 paR pbR
  iframe
  iexact Hg

set_option maxHeartbeats 1600000 in
theorem part30_spec (K : GSem nD τ sig → ℕ) (c : Dev nD) (xr_ : sProp 𝕄)
    (v8 v33 v46 v50 v63 v67 v973 v974 : BitVec 32) (v975 v978 : BitVec 1) (Kt : (Σ' (v1011 : BitVec 32), BitVec 32) → sProp 𝕄) :
    iprop(E29 m ρ K c xr_ ∗ (∀ r, E30 m ρ K c xr_ -∗ Kt r)) ⊢ wp frame (wpE (defs₀ (F := F)) 𝒱₀ (c : Thread nD τ) none) Set.univ
        (k0_part30 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v8 v33 v46 v50 v63 v67 v973 v974 v975 v978) Kt := by
  rw [k0_part30_eq_skeleton]; unfold k0_part30_skel
  simp only [Prog.lift, Prog.bind_op, Prog.bind_ret, Prog.pure_eq_ret]
  unfold E29
  rw [pts_pa_step0 c 1 fullShare (Fn m ρ)]
  iintro ⟨⟨Hg, Hx, Hkeep, Hp1, Hp2, ⟨Hd, Hpa⟩, Hpb⟩, Hk⟩
  iapply (ghost_send m ρ K c (paJ 1 1) 3 rfl 20 _ ((dev25_eq c).trans (peer_pa 1 1 c).symm) _ _ (upsend_sem 1 1 _ _) (uprecv_sem 1 1 _ _)
      (paV c 1 1) (paV c 1 1) fullShare (Fn m ρ)
      ((amount_pa c 1 1 _).trans (NJ_pa 1 1).symm) (pa_pay₁ m ρ c 1 fullShare rfl) (pa_pay₂ m ρ c 1)) $$ [Hg Hp1 Hd Hx Hkeep Hp2 Hpa Hpb Hk]
  isplitl [Hg]; · iexact Hg
  isplitl [Hp1]; · iexact Hp1
  isplitl [Hd]; · iexact Hd
  iintro Hg
  simp only [wp_ret]; imodintro
  iapply Hk
  unfold E30
  iframe
  iexact Hg

set_option maxHeartbeats 1600000 in
theorem part31_spec (K : GSem nD τ sig → ℕ) (c : Dev nD) (xr_ : sProp 𝕄)
    (v8 v33 v46 v50 v63 v67 v1011 v1012 : BitVec 32) (Kt : (Σ' (v1044 : BitVec 32) (v1045 : BitVec 32), BitVec 32) → sProp 𝕄) :
    iprop(E30 m ρ K c xr_ ∗ (∀ r, E31 m ρ K c xr_ -∗ Kt r)) ⊢ wp frame (wpE (defs₀ (F := F)) 𝒱₀ (c : Thread nD τ) none) Set.univ
        (k0_part31 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v8 v33 v46 v50 v63 v67 v1011 v1012) Kt := by
  rw [k0_part31_eq_skeleton]; unfold k0_part31_skel
  simp only [Prog.lift, Prog.bind_op, Prog.bind_ret, Prog.pure_eq_ret]
  unfold E30
  rw [pts_pb_step0 c 1 fullShare (Fn m ρ)]
  iintro ⟨⟨Hg, Hx, Hkeep, Hp2, Hpa, ⟨Hd, Hpb⟩⟩, Hk⟩
  iapply (ghost_send m ρ K c (pbJ 1 1) 2 rfl 20 _ ((dev26_eq c).trans (peer_pb 1 1 c).symm) _ _ (dnsend_sem 1 1 _ _) (dnrecv_sem 1 1 _ _)
      (pbV c 1 1) (pbV c 1 1) fullShare (Fn m ρ)
      ((amount_pb c 1 1 _).trans (NJ_pb 1 1).symm) (pb_pay₁ m ρ c 1 fullShare rfl) (pb_pay₂ m ρ c 1)) $$ [Hg Hp2 Hd Hx Hkeep Hpa Hpb Hk]
  isplitl [Hg]; · iexact Hg
  isplitl [Hp2]; · iexact Hp2
  isplitl [Hd]; · iexact Hd
  iintro Hg
  iapply (ghost_wait m ρ K c (paJ 1 1) 22 (by decide) _ (uprecv_sem 1 1 _ _) (paV c 1 1) (paV c 1 1)
      ((rfl : (paV c 1 1).view.dmaCredit = N256).trans (NJ_pa 1 1).symm)) $$ [Hg Hx Hkeep Hpa Hpb Hk]
  isplitl [Hg]; · iexact Hg
  iintro ⟨Hg, Hp1⟩
  iapply (ghost_wait m ρ K c (pbJ 1 1) 22 (by decide) _ (dnrecv_sem 1 1 _ _) (pbV c 1 1) (pbV c 1 1)
      ((rfl : (pbV c 1 1).view.dmaCredit = N256).trans (NJ_pb 1 1).symm)) $$ [Hg Hp1 Hx Hkeep Hpa Hpb Hk]
  isplitl [Hg]; · iexact Hg
  iintro ⟨Hg, Hp2⟩
  ihave Hp1 := (Entails.of_eq (recvPay_pa m ρ c 1 1)) $$ Hp1
  ihave Hp2 := (Entails.of_eq (recvPay_pb m ρ c 1 1)) $$ Hp2
  simp only [wp_ret]; imodintro
  iapply Hk
  unfold E31 paR pbR
  iframe
  iexact Hg

set_option maxHeartbeats 1600000 in
theorem part32_spec (K : GSem nD τ sig → ℕ) (c : Dev nD) (xr_ : sProp 𝕄)
    (v8 v33 v46 v50 v1044 v1045 c0_i32_734 : BitVec 32) (Kt : PUnit → sProp 𝕄) :
    iprop(E31 m ρ K c xr_ ∗ (∀ r, E32 m ρ K c xr_ -∗ Kt r)) ⊢ wp frame (wpE (defs₀ (F := F)) 𝒱₀ (c : Thread nD τ) none) Set.univ
        (k0_part32 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v8 v33 v46 v50 v1044 v1045 c0_i32_734) Kt := by
  rw [k0_part32_eq_skeleton]; unfold k0_part32_skel
  simp only [Prog.lift, Prog.bind_op, Prog.bind_ret, Prog.pure_eq_ret]
  unfold E31
  rw [pts_pa_step1 c 1 fullShare (Fn m ρ)]
  iintro ⟨⟨Hg, Hx, Hkeep, Hp1, Hp2, Hd, Hpb⟩, Hk⟩
  iapply (ghost_send m ρ K c (paJ 1 2) 1 rfl 22 _ ((dev27_eq c).trans (peer_pa 1 2 c).symm) _ _ (upsend_sem 1 2 _ _) (uprecv_sem 1 2 _ _)
      (paV c 1 2) (paV c 1 2) fullShare (Fn m ρ)
      ((amount_pa c 1 2 _).trans (NJ_pa 1 2).symm) (pa_pay₁ m ρ c 2 fullShare rfl) (pa_pay₂ m ρ c 2)) $$ [Hg Hp1 Hd Hx Hkeep Hp2 Hpb Hk]
  isplitl [Hg]; · iexact Hg
  isplitl [Hp1]; · iexact Hp1
  isplitl [Hd]; · iexact Hd
  iintro Hg
  simp only [wp_ret]; imodintro
  iapply Hk
  unfold E32
  iframe
  iexact Hg

set_option maxHeartbeats 1600000 in
theorem part33_spec (K : GSem nD τ sig → ℕ) (c : Dev nD) (xr_ : sProp 𝕄)
    (v8 v46 v50 v63 v67 : BitVec 32) (Kt : PUnit → sProp 𝕄) :
    iprop(E32 m ρ K c xr_ ∗ (∀ r, St6 m ρ K c xr_ -∗ Kt r)) ⊢ wp frame (wpE (defs₀ (F := F)) 𝒱₀ (c : Thread nD τ) none) Set.univ
        (k0_part33 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c v8 v46 v50 v63 v67) Kt := by
  rw [k0_part33_eq_skeleton]; unfold k0_part33_skel
  simp only [Prog.lift, Prog.bind_op, Prog.bind_ret, Prog.pure_eq_ret]
  unfold E32 keepE
  rw [pts_pb_step1 c 1 fullShare (Fn m ρ)]
  iintro ⟨⟨Hg, Hx, ⟨HA, HB, HC, HzL, Hsl⟩, Hp2, Hd⟩, Hk⟩
  iapply (ghost_send m ρ K c (pbJ 1 2) 0 rfl 22 _ ((dev28_eq c).trans (peer_pb 1 2 c).symm) _ _ (dnsend_sem 1 2 _ _) (dnrecv_sem 1 2 _ _)
      (pbV c 1 2) (pbV c 1 2) fullShare (Fn m ρ)
      ((amount_pb c 1 2 _).trans (NJ_pb 1 2).symm) (pb_pay₁ m ρ c 2 fullShare rfl) (pb_pay₂ m ρ c 2)) $$ [Hg Hp2 Hd Hx HA HB HC HzL Hsl Hk]
  isplitl [Hg]; · iexact Hg
  isplitl [Hp2]; · iexact Hp2
  isplitl [Hd]; · iexact Hd
  iintro Hg
  iapply (ghost_wait m ρ K c (paJ 1 2) 24 (by decide) _ (uprecv_sem 1 2 _ _) (paV c 1 2) (paV c 1 2)
      ((rfl : (paV c 1 2).view.dmaCredit = N256).trans (NJ_pa 1 2).symm)) $$ [Hg Hx HA HB HC HzL Hsl Hk]
  isplitl [Hg]; · iexact Hg
  iintro ⟨Hg, Hp1⟩
  iapply (ghost_wait m ρ K c (pbJ 1 2) 24 (by decide) _ (dnrecv_sem 1 2 _ _) (pbV c 1 2) (pbV c 1 2)
      ((rfl : (pbV c 1 2).view.dmaCredit = N256).trans (NJ_pb 1 2).symm)) $$ [Hg Hp1 Hx HA HB HC HzL Hsl Hk]
  isplitl [Hg]; · iexact Hg
  iintro ⟨Hg, Hp2⟩
  ihave Hp1 := (Entails.of_eq (recvPay_pa m ρ c 1 2)) $$ Hp1
  ihave Hp2 := (Entails.of_eq (recvPay_pb m ρ c 1 2)) $$ Hp2
  simp only [wp_ret]; imodintro
  iapply Hk
  unfold St6 paR pbR
  rw [ghostAt_eq]
  iframe
  iexact Hg

end Cert.Kernel.AR

end
-- ==== Proof.K.StageG.lean ====
import proofs.«900720_g7700000000000721_dist_ar_v7x_xyz2x2x4_z_m4096_n1024_f32_1_alg».proof.Proof.K.Steps
import proofs.«900720_g7700000000000721_dist_ar_v7x_xyz2x2x4_z_m4096_n1024_f32_1_alg».proof.Proof.K.Levels
import proofs.«900720_g7700000000000721_dist_ar_v7x_xyz2x2x4_z_m4096_n1024_f32_1_alg».proof.Proof.K.Views
import proofs.«900720_g7700000000000721_dist_ar_v7x_xyz2x2x4_z_m4096_n1024_f32_1_alg».proof.Proof.K.Parts

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace StageG

def sendLeft (c : Dev nD) (l : List (Fin 24)) : sProp 𝕄 :=
  bigSepL l fun j => iprop(atPos ER (sendCell c j) 0 ∅ 0 ∗ cred (tallyAt (sendCell c j) () (NJ j)))
def sendGot (c : Dev nD) (l : List (Fin 24)) : sProp 𝕄 :=
  bigSepL l fun j => iprop(atPos ER (sendCell c j) 1 ∅ 0 ∗ sendPay m ρ c j)

def waitCore (K : GSem nD τ sig → ℕ) (c : Dev nD) (done todo : List (Fin 24)) : sProp 𝕄 :=
  iprop(records m ρ K ∗ (∃ W, owes (c : Thread nD τ) 0 W) ∗ sendLeft c todo ∗ sendGot m ρ c done)

def held6 (c : Dev nD) (xr_ : sProp 𝕄) : sProp 𝕄 :=
  iprop(levAts L lv ∗ recvDone c 24
    ∗ xr_
    ∗ pts c (agV (zr c) 0 2) Lq (Fn m ρ) ∗ pts c (agV (zr c) 1 2) Lq (Fn m ρ)
    ∗ pts c (paV (xl c) 0 2) fullShare (Fn m ρ) ∗ pts c (pbV (xr c) 0 2) fullShare (Fn m ρ)
    ∗ pts c (paV (xl c) 1 2) fullShare (Fn m ρ) ∗ pts c (pbV (xr c) 1 2) fullShare (Fn m ρ)
    ∗ slotsHeld m ρ c [(0,0),(0,1),(0,2),(1,0),(1,1),(1,2)])

def StG (K : GSem nD τ sig → ℕ) (c : Dev nD) (xr_ : sProp 𝕄) (done todo : List (Fin 24)) : sProp 𝕄 :=
  iprop(waitCore m ρ K c done todo ∗ held6 m ρ c xr_)

abbrev ordG : List (Fin 24) := [rsJ 0 0, rsJ 0 1, rsJ 0 2, agJ 0 0, agJ 0 1, agJ 0 2, rsJ 1 0, rsJ 1 1, paJ 0 0, pbJ 0 0, rsJ 1 2, agJ 1 0, paJ 0 1, pbJ 0 1, agJ 1 1, agJ 1 2, paJ 0 2, pbJ 0 2, paJ 1 0, pbJ 1 0, paJ 1 1, pbJ 1 1, paJ 1 2, pbJ 1 2]

end StageG

open StageG
def G5 (K : GSem nD τ sig → ℕ) (c : Dev nD) (xr_ : sProp 𝕄) : sProp 𝕄 := StG m ρ K c xr_ [agJ 0 1, agJ 0 0, rsJ 0 2, rsJ 0 1, rsJ 0 0] [agJ 0 2, rsJ 1 0, rsJ 1 1, paJ 0 0, pbJ 0 0, rsJ 1 2, agJ 1 0, paJ 0 1, pbJ 0 1, agJ 1 1, agJ 1 2, paJ 0 2, pbJ 0 2, paJ 1 0, pbJ 1 0, paJ 1 1, pbJ 1 1, paJ 1 2, pbJ 1 2]
def G10 (K : GSem nD τ sig → ℕ) (c : Dev nD) (xr_ : sProp 𝕄) : sProp 𝕄 := StG m ρ K c xr_ [pbJ 0 0, paJ 0 0, rsJ 1 1, rsJ 1 0, agJ 0 2, agJ 0 1, agJ 0 0, rsJ 0 2, rsJ 0 1, rsJ 0 0] [rsJ 1 2, agJ 1 0, paJ 0 1, pbJ 0 1, agJ 1 1, agJ 1 2, paJ 0 2, pbJ 0 2, paJ 1 0, pbJ 1 0, paJ 1 1, pbJ 1 1, paJ 1 2, pbJ 1 2]
def G16 (K : GSem nD τ sig → ℕ) (c : Dev nD) (xr_ : sProp 𝕄) : sProp 𝕄 := StG m ρ K c xr_ [agJ 1 2, agJ 1 1, pbJ 0 1, paJ 0 1, agJ 1 0, rsJ 1 2, pbJ 0 0, paJ 0 0, rsJ 1 1, rsJ 1 0, agJ 0 2, agJ 0 1, agJ 0 0, rsJ 0 2, rsJ 0 1, rsJ 0 0] [paJ 0 2, pbJ 0 2, paJ 1 0, pbJ 1 0, paJ 1 1, pbJ 1 1, paJ 1 2, pbJ 1 2]
def G22 (K : GSem nD τ sig → ℕ) (c : Dev nD) (xr_ : sProp 𝕄) : sProp 𝕄 := StG m ρ K c xr_ [pbJ 1 1, paJ 1 1, pbJ 1 0, paJ 1 0, pbJ 0 2, paJ 0 2, agJ 1 2, agJ 1 1, pbJ 0 1, paJ 0 1, agJ 1 0, rsJ 1 2, pbJ 0 0, paJ 0 0, rsJ 1 1, rsJ 1 0, agJ 0 2, agJ 0 1, agJ 0 0, rsJ 0 2, rsJ 0 1, rsJ 0 0] [paJ 1 2, pbJ 1 2]

namespace StageG
theorem bigSepL_cons' {I : Type} (i : I) (l : List I) (Φ : I → sProp 𝕄) : bigSepL (i :: l) Φ = iprop(Φ i ∗ bigSepL l Φ) :=
  bigSepL_cons i l Φ

theorem wait_step {sh : Shape} (K : GSem nD τ sig → ℕ) (c : Dev nD) (j : Fin 24) (done todo : List (Fin 24))
    (src dst : Memref sig .tc .vmem sh .f32) {hs : src.view.WordExact} {hd : dst.view.WordExact}
    {α : Type} {Q : α → sProp 𝕄} {k : PUnit → Prog (TpuEff nD τ sig (Elt F) Λ₀ .tc) α}
    (hN : dst.view.dmaCredit = NJ j) :
    waitCore m ρ K c done (j :: todo)
      ⊢ iprop((waitCore m ρ K c (j :: done) todo -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendSem j) src dst hs hd) k) Q) := by
  unfold waitCore sendLeft sendGot
  rw [bigSepL_cons', bigSepL_cons']
  iintro ⟨#HR, ⟨%W, HO⟩, ⟨⟨Hat, Hc⟩, Hleft⟩, Hgot⟩ Hk
  iapply (step_wait_send m ρ K c j W src dst hN) $$ [Hat Hc HO]
  · iframe
    iexact HR
  iintro ⟨HO, Hat, Hpay⟩
  iapply Hk
  iframe
  iexact HR

theorem sendLeft_intro (c : Dev nD) : iprop(sendTodo c ∗ sendCred c 24) ⊢ (sendLeft c ordG : sProp 𝕄) := by
  unfold sendTodo sendCred sendLeft
  rw [show (Finset.univ.filter fun j : Fin 24 => j.val < 24) = Finset.univ from Finset.filter_true_of_mem (fun j _ => j.isLt),
    ← bigSep_sep', bigSep_univ_eq_bigSepL ordG (by decide) (by decide)]

theorem st6_start (K : GSem nD τ sig → ℕ) (c : Dev nD) (xr_ : sProp 𝕄) : St6 m ρ K c xr_ ⊢ StG m ρ K c xr_ [] ordG := by
  unfold St6 ghostAt StG waitCore held6
  iintro ⟨⟨#HR, #Hlev, -, -, Hrd, Hst, Hsc, HO⟩, Hx, H1, H2, H3, H4, H5, H6, Hsl⟩
  isplitl [Hst Hsc HO]
  · isplitr; · iexact HR
    isplitl [HO]; · iexact HO
    isplitl [Hst Hsc]
    · iapply (sendLeft_intro c); isplitl [Hst]; · iexact Hst
      iexact Hsc
    · unfold sendGot; rw [bigSepL_nil]; iempintro
  iframe
  iexact Hlev

theorem cred128 (v : Memref sig .tc .vmem S128x1024 .f32) : v.view.dmaCredit = N128 := rfl
theorem cred256 (v : Memref sig .tc .vmem S256x1024 .f32) : v.view.dmaCredit = N256 := rfl

theorem wait_z (K : GSem nD τ sig → ℕ) (c : Dev nD) (j : Fin 24) (hj : NJ j = N128) (q : DmaSem sig) (hq : q = sendSem j) (done todo : List (Fin 24))
    (src dst : Memref sig .tc .vmem S128x1024 .f32) {hs : src.view.WordExact} {hd : dst.view.WordExact}
    {α : Type} {Q : α → sProp 𝕄} {k : PUnit → Prog (TpuEff nD τ sig (Elt F) Λ₀ .tc) α} :
    waitCore m ρ K c done (j :: todo)
      ⊢ iprop((waitCore m ρ K c (j :: done) todo -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  subst hq
  exact wait_step m ρ K c j done todo src dst ((cred128 dst).trans hj.symm)

theorem wait_xy (K : GSem nD τ sig → ℕ) (c : Dev nD) (j : Fin 24) (hj : NJ j = N256) (q : DmaSem sig) (hq : q = sendSem j) (done todo : List (Fin 24))
    (src dst : Memref sig .tc .vmem S256x1024 .f32) {hs : src.view.WordExact} {hd : dst.view.WordExact}
    {α : Type} {Q : α → sProp 𝕄} {k : PUnit → Prog (TpuEff nD τ sig (Elt F) Λ₀ .tc) α} :
    waitCore m ρ K c done (j :: todo)
      ⊢ iprop((waitCore m ρ K c (j :: done) todo -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  subst hq
  exact wait_step m ρ K c j done todo src dst ((cred256 dst).trans hj.symm)

end StageG

open StageG

theorem part34_spec (K : GSem nD τ sig → ℕ) (c : Dev nD) (xr_ : sProp 𝕄) (Kt : PUnit → sProp 𝕄) :
    iprop(St6 m ρ K c xr_ ∗ (∀ r, G5 m ρ K c xr_ -∗ Kt r)) ⊢ wp frame (wpE (defs₀ (F := F)) 𝒱₀ (c : Thread nD τ) none) Set.univ
        (k0_part34 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c) Kt := by
  rw [k0_part34_eq_skeleton]; unfold k0_part34_skel
  simp only [Prog.lift, Prog.bind_op, Prog.bind_ret, Prog.pure_eq_ret]
  iintro ⟨H, Hk⟩
  ihave H := (st6_start m ρ K c xr_) $$ H
  unfold StG
  icases H with ⟨Hc, Hf⟩
  iapply (wait_z m ρ K c (rsJ 0 0) (NJ_rs 0 0) _ (zsend_rs 0 0 _ _) _ _ _ _) $$ Hc; iintro Hc
  iapply (wait_z m ρ K c (rsJ 0 1) (NJ_rs 0 1) _ (zsend_rs 0 1 _ _) _ _ _ _) $$ Hc; iintro Hc
  iapply (wait_z m ρ K c (rsJ 0 2) (NJ_rs 0 2) _ (zsend_rs 0 2 _ _) _ _ _ _) $$ Hc; iintro Hc
  iapply (wait_z m ρ K c (agJ 0 0) (NJ_ag 0 0) _ (zsend_ag 0 0 _ _) _ _ _ _) $$ Hc; iintro Hc
  iapply (wait_z m ρ K c (agJ 0 1) (NJ_ag 0 1) _ (zsend_ag 0 1 _ _) _ _ _ _) $$ Hc; iintro Hc
  rw [wp_ret]; imodintro
  iapply Hk
  unfold G5 StG
  isplitl [Hc]; · iexact Hc
  iexact Hf

theorem part35_spec (K : GSem nD τ sig → ℕ) (c : Dev nD) (xr_ : sProp 𝕄) (Kt : PUnit → sProp 𝕄) :
    iprop(G5 m ρ K c xr_ ∗ (∀ r, G10 m ρ K c xr_ -∗ Kt r)) ⊢ wp frame (wpE (defs₀ (F := F)) 𝒱₀ (c : Thread nD τ) none) Set.univ
        (k0_part35 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c) Kt := by
  rw [k0_part35_eq_skeleton]; unfold k0_part35_skel
  simp only [Prog.lift, Prog.bind_op, Prog.bind_ret, Prog.pure_eq_ret]
  iintro ⟨H, Hk⟩
  unfold G5 StG
  icases H with ⟨Hc, Hf⟩
  iapply (wait_z m ρ K c (agJ 0 2) (NJ_ag 0 2) _ (zsend_ag 0 2 _ _) _ _ _ _) $$ Hc; iintro Hc
  iapply (wait_z m ρ K c (rsJ 1 0) (NJ_rs 1 0) _ (zsend_rs 1 0 _ _) _ _ _ _) $$ Hc; iintro Hc
  iapply (wait_z m ρ K c (rsJ 1 1) (NJ_rs 1 1) _ (zsend_rs 1 1 _ _) _ _ _ _) $$ Hc; iintro Hc
  iapply (wait_xy m ρ K c (paJ 0 0) (NJ_pa 0 0) _ (upsend_sem 0 0 _ _) _ _ _ _) $$ Hc; iintro Hc
  iapply (wait_xy m ρ K c (pbJ 0 0) (NJ_pb 0 0) _ (dnsend_sem 0 0 _ _) _ _ _ _) $$ Hc; iintro Hc
  rw [wp_ret]; imodintro
  iapply Hk
  unfold G10 StG
  isplitl [Hc]; · iexact Hc
  iexact Hf

theorem part36_spec (K : GSem nD τ sig → ℕ) (c : Dev nD) (xr_ : sProp 𝕄) (Kt : PUnit → sProp 𝕄) :
    iprop(G10 m ρ K c xr_ ∗ (∀ r, G16 m ρ K c xr_ -∗ Kt r)) ⊢ wp frame (wpE (defs₀ (F := F)) 𝒱₀ (c : Thread nD τ) none) Set.univ
        (k0_part36 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c) Kt := by
  rw [k0_part36_eq_skeleton]; unfold k0_part36_skel
  simp only [Prog.lift, Prog.bind_op, Prog.bind_ret, Prog.pure_eq_ret]
  iintro ⟨H, Hk⟩
  unfold G10 StG
  icases H with ⟨Hc, Hf⟩
  iapply (wait_z m ρ K c (rsJ 1 2) (NJ_rs 1 2) _ (zsend_rs 1 2 _ _) _ _ _ _) $$ Hc; iintro Hc
  iapply (wait_z m ρ K c (agJ 1 0) (NJ_ag 1 0) _ (zsend_ag 1 0 _ _) _ _ _ _) $$ Hc; iintro Hc
  iapply (wait_xy m ρ K c (paJ 0 1) (NJ_pa 0 1) _ (upsend_sem 0 1 _ _) _ _ _ _) $$ Hc; iintro Hc
  iapply (wait_xy m ρ K c (pbJ 0 1) (NJ_pb 0 1) _ (dnsend_sem 0 1 _ _) _ _ _ _) $$ Hc; iintro Hc
  iapply (wait_z m ρ K c (agJ 1 1) (NJ_ag 1 1) _ (zsend_ag 1 1 _ _) _ _ _ _) $$ Hc; iintro Hc
  iapply (wait_z m ρ K c (agJ 1 2) (NJ_ag 1 2) _ (zsend_ag 1 2 _ _) _ _ _ _) $$ Hc; iintro Hc
  rw [wp_ret]; imodintro
  iapply Hk
  unfold G16 StG
  isplitl [Hc]; · iexact Hc
  iexact Hf

theorem part37_spec (K : GSem nD τ sig → ℕ) (c : Dev nD) (xr_ : sProp 𝕄) (Kt : PUnit → sProp 𝕄) :
    iprop(G16 m ρ K c xr_ ∗ (∀ r, G22 m ρ K c xr_ -∗ Kt r)) ⊢ wp frame (wpE (defs₀ (F := F)) 𝒱₀ (c : Thread nD τ) none) Set.univ
        (k0_part37 (F := F) (Memref.whole cc0_stg0_0) (Memref.isWhole_whole _) (Memref.whole cc0_stg1_0) (Memref.isWhole_whole _) (Memref.whole cc0_scratch0) (Memref.isWhole_whole _)
          cc0_scratch1 cc0_scratch2 cc0_scratch3 cc0_scratch4 cc0_scratch5 cc0_scratch6 c) Kt := by
  rw [k0_part37_eq_skeleton]; unfold k0_part37_skel
  simp only [Prog.lift, Prog.bind_op, Prog.bind_ret, Prog.pure_eq_ret]
  iintro ⟨H, Hk⟩
  unfold G16 StG
  icases H with ⟨Hc, Hf⟩
  iapply (wait_xy m ρ K c (paJ 0 2) (NJ_pa 0 2) _ (upsend_sem 0 2 _ _) _ _ _ _) $$ Hc; iintro Hc
  iapply (wait_xy m ρ K c (pbJ 0 2) (NJ_pb 0 2) _ (dnsend_sem 0 2 _ _) _ _ _ _) $$ Hc; iintro Hc
  iapply (wait_xy m ρ K c (paJ 1 0) (NJ_pa 1 0) _ (upsend_sem 1 0 _ _) _ _ _ _) $$ Hc; iintro Hc
  iapply (wait_xy m ρ K c (pbJ 1 0) (NJ_pb 1 0) _ (dnsend_sem 1 0 _ _) _ _ _ _) $$ Hc; iintro Hc
  iapply (wait_xy m ρ K c (paJ 1 1) (NJ_pa 1 1) _ (upsend_sem 1 1 _ _) _ _ _ _) $$ Hc; iintro Hc
  iapply (wait_xy m ρ K c (pbJ 1 1) (NJ_pb 1 1) _ (dnsend_sem 1 1 _ _) _ _ _ _) $$ Hc; iintro Hc
  rw [wp_ret]; imodintro
  iapply Hk
  unfold G22 StG
  isplitl [Hc]; · iexact Hc
  iexact Hf

def bodyTail (arg1 : Memref sig .tc .vmem S4096x1024 .f32) (arg5 arg7 : DmaSems sig S6) (d0 : Dev nD) : Prog (TpuEff nD τ sig (Elt F) Λ₀ .tc) PUnit := do
  let v1209 : Memref sig .tc .vmem S256x1024 .f32 := arg1.slice (Rect.unit (s := S4096x1024) (k0_off4 d0 2#32 512#32) S256x1024.size (k0_off4_inb d0 2 1)) (fun _ => rfl)
  let v1210 : Memref sig .tc .vmem S256x1024 .f32 := arg1.slice (Rect.unit (s := S4096x1024) (k0_off4 d0 2#32 512#32) S256x1024.size (k0_off4_inb d0 2 1)) (fun _ => rfl)
  let v1207 : DmaSems sig S1 := arg5.slice (Rect.unit (s := S6) ![5] S1.size inb_S6_S1_5)
  let v1208 : DmaSems sig S_ := v1207.squeeze S_ squeezes_S1_S_
  Prog.lift (.waitDma2 v1208.sem v1210 v1209 (View.wordExact_bits rfl) (View.wordExact_bits rfl))
  let v1211 : DmaSems sig S1 := arg7.slice (Rect.unit (s := S6) ![5] S1.size inb_S6_S1_5)
  let v1212 : DmaSems sig S_ := v1211.squeeze S_ squeezes_S1_S_
  let v1213 : Memref sig .tc .vmem S256x1024 .f32 := arg1.slice (Rect.unit (s := S4096x1024) (k0_off5 d0 2#32 512#32) S256x1024.size (k0_off5_inb d0 2 1)) (fun _ => rfl)
  let v1214 : Memref sig .tc .vmem S256x1024 .f32 := arg1.slice (Rect.unit (s := S4096x1024) (k0_off5 d0 2#32 512#32) S256x1024.size (k0_off5_inb d0 2 1)) (fun _ => rfl)
  Prog.lift (.waitDma2 v1212.sem v1214 v1213 (View.wordExact_bits rfl) (View.wordExact_bits rfl))
  pure ⟨⟩

namespace StageG
abbrev allG : List (Fin 24) := [pbJ 1 2, paJ 1 2, pbJ 1 1, paJ 1 1, pbJ 1 0, paJ 1 0, pbJ 0 2, paJ 0 2, agJ 1 2, agJ 1 1, pbJ 0 1, paJ 0 1, agJ 1 0, rsJ 1 2, pbJ 0 0, paJ 0 0, rsJ 1 1, rsJ 1 0, agJ 0 2, agJ 0 1, agJ 0 0, rsJ 0 2, rsJ 0 1, rsJ 0 0]

theorem sendGot_split (c : Dev nD) :
    sendGot m ρ c allG = iprop((bigSep Finset.univ fun j : Fin 24 => atPos ER (sendCell c j) 1 ∅ 0) ∗ bigSep Finset.univ fun j : Fin 24 => sendPay m ρ c j) := by
  unfold sendGot
  rw [← bigSep_univ_eq_bigSepL allG (by decide) (by decide), bigSep_sep']

theorem pays_eq (c : Dev nD) :
    (bigSep Finset.univ fun j : Fin 24 => sendPay m ρ c j) = iprop(
      pts c (srcV xM c 0 0) Lq (X m ρ c)
      ∗ emp
      ∗ emp
      ∗ pts c (agV c 0 0) Lq (Fn m ρ)
      ∗ pts c (agV c 0 1) Lq (Fn m ρ)
      ∗ pts c (agV c 0 2) Lq (Fn m ρ)
      ∗ pts c (paV c 0 0) Rq (Fn m ρ)
      ∗ pts c (pbV c 0 0) Rq (Fn m ρ)
      ∗ pts c (srcV xM c 1 0) Lq (X m ρ c)
      ∗ emp
      ∗ pts c (paV c 0 1) fullShare (Fn m ρ)
      ∗ pts c (pbV c 0 1) fullShare (Fn m ρ)
      ∗ emp
      ∗ pts c (agV c 1 0) Lq (Fn m ρ)
      ∗ pts c (paV c 0 2) fullShare (Fn m ρ)
      ∗ pts c (pbV c 0 2) fullShare (Fn m ρ)
      ∗ pts c (agV c 1 1) Lq (Fn m ρ)
      ∗ pts c (agV c 1 2) Lq (Fn m ρ)
      ∗ pts c (paV c 1 0) Rq (Fn m ρ)
      ∗ pts c (pbV c 1 0) Rq (Fn m ρ)
      ∗ pts c (paV c 1 1) fullShare (Fn m ρ)
      ∗ pts c (pbV c 1 1) fullShare (Fn m ρ)
      ∗ pts c (paV c 1 2) fullShare (Fn m ρ)
      ∗ pts c (pbV c 1 2) fullShare (Fn m ρ)) := by
  rw [bigSep_univ_eq_bigSepL [0, 1, 2, 3, 4, 5, 6, 7, 8, 9, 10, 11, 12, 13, 14, 15, 16, 17, 18, 19, 20, 21, 22, 23] (by decide) (by decide)]
  rfl

theorem pos_all (c : Dev nD) : (bigSep Finset.univ fun jb : Fin 24 × Bool => (atPos ER (dcell c jb) 1 ∅ 0 : sProp 𝕄))
    = iprop((bigSep Finset.univ fun j : Fin 24 => atPos ER (sendCell c j) 1 ∅ 0) ∗ recvDone c 24) := by
  unfold recvDone
  rw [show (Finset.univ.filter fun j : Fin 24 => j.val < 24) = Finset.univ from Finset.filter_true_of_mem (fun j _ => j.isLt),
    ← bigSep_sep', bigSep_univ_prod]
  refine bigSep_congr fun j _ => ?_
  exact bigSep_univ_eq_bigSepL [false, true] (by decide) (by decide) _

theorem inv_all (K : GSem nD τ sig → ℕ) (c : Dev nD) :
    records m ρ K ⊢ bigSep Finset.univ fun jb : Fin 24 × Bool => cellInv ER (Rd m ρ) (K (dcell c jb)) (dcell c jb) := by
  refine (show records m ρ K ⊢ (bigSep Finset.univ fun cj : Dev nD × (Fin 24 × Bool) => cellInv ER (Rd m ρ) (K (dcell cj.1 cj.2)) (dcell cj.1 cj.2)) from by
    unfold records; iintro ⟨-, H, -, -⟩; iexact H).trans ?_
  rw [bigSep_univ_prod]
  exact bigSep_elim (Φ := fun c' : Dev nD => bigSep Finset.univ fun jb : Fin 24 × Bool => cellInv ER (Rd m ρ) (K (dcell c' jb)) (dcell c' jb)) (Finset.mem_univ c)

theorem close_all (K : GSem nD τ sig → ℕ) (c : Dev nD) :
    iprop(records m ρ K ∗ (bigSep Finset.univ fun j : Fin 24 => atPos ER (sendCell c j) 1 ∅ 0) ∗ recvDone c 24)
      ⊢ iprop(|={Set.univ}=> bigSep Finset.univ fun jb : Fin 24 × Bool => semVal (dcell c jb) 0) := by
  rw [← pos_all]
  refine (sep_mono_l (inv_all m ρ K c)).trans ?_
  rw [← bigSep_sep]
  refine (bigSep_mono fun jb _ => ?_).trans (bigSep_fupd _ _)
  exact Rounds.cell_close ER (Rd m ρ) (Set.mem_univ (K (dcell c jb))) (fun h => h) (R := 1) (duties_later m ρ (dcell c jb))

end StageG

open StageG

namespace StageG

theorem pts_pa1 (c : Dev nD) (p : Fin 2) (q : PosShare TreeShare) (f : Buf (Elt F) (oM.view.loc (c : Thread nD τ))) :
    (pts c (paV c p 1) q f : sProp 𝕄) = pts c (paV (xl c) p 0) q f := by
  rw [pts_paV c c p 1 p.val 1 (row (rpos c + 3) p.val 0) rfl rfl (by unfold row; omega) q f,
    pts_paV c (xl c) p 0 p.val 0 (row (rpos c + 3) p.val 0) rfl rfl (by rw [rpos_xl]; unfold row; omega) q f]
theorem pts_pa2 (c : Dev nD) (p : Fin 2) (q : PosShare TreeShare) (f : Buf (Elt F) (oM.view.loc (c : Thread nD τ))) :
    (pts c (paV c p 2) q f : sProp 𝕄) = pts c (paV (xl c) p 1) q f := by
  rw [pts_paV c c p 2 p.val 2 (row (rpos c + 2) p.val 0) rfl rfl (by unfold row; omega) q f,
    pts_paV c (xl c) p 1 p.val 1 (row (rpos c + 2) p.val 0) rfl rfl (by rw [rpos_xl]; unfold row; omega) q f]
theorem pts_pb1 (c : Dev nD) (p : Fin 2) (q : PosShare TreeShare) (f : Buf (Elt F) (oM.view.loc (c : Thread nD τ))) :
    (pts c (pbV c p 1) q f : sProp 𝕄) = pts c (pbV (xr c) p 0) q f := by
  rw [pts_pbV c c p 1 p.val 1 (row (rpos c + 1) p.val 2) rfl rfl (by unfold row; omega) q f,
    pts_pbV c (xr c) p 0 p.val 0 (row (rpos c + 1) p.val 2) rfl rfl (by rw [rpos_xr]; unfold row; omega) q f]
theorem pts_pb2 (c : Dev nD) (p : Fin 2) (q : PosShare TreeShare) (f : Buf (Elt F) (oM.view.loc (c : Thread nD τ))) :
    (pts c (pbV c p 2) q f : sProp 𝕄) = pts c (pbV (xr c) p 1) q f := by
  rw [pts_pbV c c p 2 p.val 2 (row (rpos c + 2) p.val 2) rfl rfl (by unfold row; omega) q f,
    pts_pbV c (xr c) p 1 p.val 1 (row (rpos c + 2) p.val 2) rfl rfl (by rw [rpos_xr]; unfold row; omega) q f]

theorem out_join (c : Dev nD) (f : Buf (Elt F) (oM.view.loc (c : Thread nD τ))) :
    iprop((pts c (agV c 0 0) Lq f ∗ pts c (agV c 0 1) Lq f ∗ pts c (agV c 0 2) Lq f ∗ pts c (agV (zr c) 0 2) Lq f ∗ pts c (agV c 1 0) Lq f ∗ pts c (agV c 1 1) Lq f ∗ pts c (agV c 1 2) Lq f ∗ pts c (agV (zr c) 1 2) Lq f)
      ∗ (pts c (paV c 0 0) Rq f ∗ pts c (pbV c 0 0) Rq f ∗ pts c (paV c 1 0) Rq f ∗ pts c (pbV c 1 0) Rq f)
      ∗ (pts c (paV c 0 1) fullShare f ∗ pts c (paV c 0 2) fullShare f ∗ pts c (paV (xl c) 0 2) fullShare f ∗ pts c (paV c 1 1) fullShare f ∗ pts c (paV c 1 2) fullShare f ∗ pts c (paV (xl c) 1 2) fullShare f)
      ∗ (pts c (pbV c 0 1) fullShare f ∗ pts c (pbV c 0 2) fullShare f ∗ pts c (pbV (xr c) 0 2) fullShare f ∗ pts c (pbV c 1 1) fullShare f ∗ pts c (pbV c 1 2) fullShare f ∗ pts c (pbV (xr c) 1 2) fullShare f))
      ⊢ (((c : Thread nD τ).loc cc0_stg1_0) ↦{fullShare} f : sProp 𝕄) := by
  refine .trans ?_ (out_parts c fullShare f).2
  rw [← pts_pa1 c 0 fullShare f, ← pts_pa2 c 0 fullShare f, ← pts_pa1 c 1 fullShare f, ← pts_pa2 c 1 fullShare f,
    ← pts_pb1 c 0 fullShare f, ← pts_pb2 c 0 fullShare f, ← pts_pb1 c 1 fullShare f, ← pts_pb2 c 1 fullShare f]
  iintro ⟨⟨l00, l01, l02, lz0, l10, l11, l12, lz1⟩, ⟨pa0, pb0, pa1, pb1⟩, HA, HB⟩
  ihave R0 := (subq_join c 0 Rq f).2 $$ [pa0 pb0]
  · isplitl [pa0]; · iexact pa0
    iexact pb0
  ihave R1 := (subq_join c 1 Rq f).2 $$ [pa1 pb1]
  · isplitl [pa1]; · iexact pa1
    iexact pb1
  icases R0 with ⟨r00, r01, r02, rz0⟩
  icases R1 with ⟨r10, r11, r12, rz1⟩
  isplitr [HA HB]
  · isplitl [l00 r00]
    · iapply (share_LR c (agV c 0 0) f).2; isplitl [l00]; · iexact l00
      iexact r00
    isplitl [l01 r01]
    · iapply (share_LR c (agV c 0 1) f).2; isplitl [l01]; · iexact l01
      iexact r01
    isplitl [l02 r02]
    · iapply (share_LR c (agV c 0 2) f).2; isplitl [l02]; · iexact l02
      iexact r02
    isplitl [lz0 rz0]
    · iapply (share_LR c (agV (zr c) 0 2) f).2; isplitl [lz0]; · iexact lz0
      iexact rz0
    isplitl [l10 r10]
    · iapply (share_LR c (agV c 1 0) f).2; isplitl [l10]; · iexact l10
      iexact r10
    isplitl [l11 r11]
    · iapply (share_LR c (agV c 1 1) f).2; isplitl [l11]; · iexact l11
      iexact r11
    isplitl [l12 r12]
    · iapply (share_LR c (agV c 1 2) f).2; isplitl [l12]; · iexact l12
      iexact r12
    iapply (share_LR c (agV (zr c) 1 2) f).2; isplitl [lz1]; · iexact lz1
    iexact rz1
  isplitl [HA]; · iexact HA
  iexact HB

theorem slots_join (c : Dev nD) :
    slotsHeld m ρ c [(0,0),(0,1),(0,2),(1,0),(1,1),(1,2)] ⊢ iprop(∃ f : Buf (Elt F) (cM.view.loc (c : Thread nD τ)), pts c cM fullShare f) := by
  unfold slotsHeld
  show iprop(owns (c : Thread nD τ) (slotV 0) fullShare (landed m ρ c 0 0) ∗ owns (c : Thread nD τ) (slotV 1) fullShare (landed m ρ c 0 1)
    ∗ owns (c : Thread nD τ) (slotV 2) fullShare (landed m ρ c 0 2) ∗ owns (c : Thread nD τ) (slotV 3) fullShare (landed m ρ c 1 0)
    ∗ owns (c : Thread nD τ) (slotV 4) fullShare (landed m ρ c 1 1) ∗ owns (c : Thread nD τ) (slotV 5) fullShare (landed m ρ c 1 2)) ⊢ _
  unfold owns
  iintro ⟨⟨%f0, %h0, S0⟩, ⟨%f1, %h1, S1⟩, ⟨%f2, %h2, S2⟩, ⟨%f3, %h3, S3⟩, ⟨%f4, %h4, S4⟩, ⟨%f5, %h5, S5⟩⟩
  iapply (comm_join c f0 f1 f2 f3 f4 f5)
  iframe

theorem finish (K : GSem nD τ sig → ℕ) (c : Dev nD) (xr_ : sProp 𝕄)
    (hxj : iprop(pts c (srcV xM c 0 0) Lq (X m ρ c) ∗ pts c (srcV xM c 1 0) Lq (X m ρ c) ∗ xr_) ⊢ (((c : Thread nD τ).loc cc0_stg0_0) ↦{fullShare} X m ρ c)) :
    iprop(waitCore m ρ K c allG [] ∗ held6 m ρ c xr_) ⊢ iprop(|={Set.univ}=> St7 m ρ c) := by
  unfold waitCore held6 St7 sendLeft
  rw [sendGot_split, pays_eq, bigSepL_nil]
  iintro ⟨⟨#HR, HO, -, Hps, Hpay⟩, -, Hrd, Hx, Z0, Z1, A02, B02, A12, B12, Hsl⟩
  icases Hpay with ⟨x0, -, -, a00, a01, a02, pa00, pb00, x1, -, pa01, pb01, -, a10, pa02, pb02, a11, a12, pa10, pb10, pa11, pb11, pa12, pb12⟩
  imod (close_all m ρ K c) $$ [Hps Hrd] with Hz
  · isplitr; · iexact HR
    isplitl [Hps]; · iexact Hps
    iexact Hrd
  imodintro
  isplitl [Hsl]; · iapply (slots_join m ρ c); iexact Hsl
  isplitl [Hz]; · iexact Hz
  isplitl [HO]; · iexact HO
  isplitl [x0 x1 Hx]
  · iapply hxj
    isplitl [x0]; · iexact x0
    isplitl [x1]; · iexact x1
    iexact Hx
  iapply (out_join c (Fn m ρ))
  iframe

end StageG

open StageG
theorem tail_spec (K : GSem nD τ sig → ℕ) (c : Dev nD) (xr_ : sProp 𝕄) (Kt : PUnit → sProp 𝕄)
    (hxj : iprop(pts c (srcV xM c 0 0) Lq (X m ρ c) ∗ pts c (srcV xM c 1 0) Lq (X m ρ c) ∗ xr_) ⊢ (((c : Thread nD τ).loc cc0_stg0_0) ↦{fullShare} X m ρ c)) :
    iprop(G22 m ρ K c xr_ ∗ (∀ r, St7 m ρ c -∗ Kt r)) ⊢ wp frame (wpE (defs₀ (F := F)) 𝒱₀ (c : Thread nD τ) none) Set.univ
        (bodyTail (F := F) (Memref.whole cc0_stg1_0) cc0_scratch3 cc0_scratch5 c) Kt := by
  unfold bodyTail
  simp only [Prog.lift, Prog.bind_op, Prog.bind_ret, Prog.pure_eq_ret]
  iintro ⟨H, Hk⟩
  unfold G22 StG
  icases H with ⟨Hc, Hf⟩
  iapply (wait_xy m ρ K c (paJ 1 2) (NJ_pa 1 2) _ (upsend_sem 1 2 _ _) _ _ _ _) $$ Hc; iintro Hc
  iapply (wait_xy m ρ K c (pbJ 1 2) (NJ_pb 1 2) _ (dnsend_sem 1 2 _ _) _ _ _ _) $$ Hc; iintro Hc
  rw [wp_ret]
  imod (finish m ρ K c xr_ hxj) $$ [Hc Hf] with H7
  · isplitl [Hc]; · iexact Hc
    iexact Hf
  imodintro
  iapply Hk
  iexact H7

end Cert.Kernel.AR

end
-- ==== Proof.K.Compose.lean ====
import proofs.«900720_g7700000000000721_dist_ar_v7x_xyz2x2x4_z_m4096_n1024_f32_1_alg».proof.Proof.K.Body
import proofs.«900720_g7700000000000721_dist_ar_v7x_xyz2x2x4_z_m4096_n1024_f32_1_alg».proof.Proof.K.StageA1
import proofs.«900720_g7700000000000721_dist_ar_v7x_xyz2x2x4_z_m4096_n1024_f32_1_alg».proof.Proof.K.StageA2
import proofs.«900720_g7700000000000721_dist_ar_v7x_xyz2x2x4_z_m4096_n1024_f32_1_alg».proof.Proof.K.StageB
import proofs.«900720_g7700000000000721_dist_ar_v7x_xyz2x2x4_z_m4096_n1024_f32_1_alg».proof.Proof.K.StageB17
import proofs.«900720_g7700000000000721_dist_ar_v7x_xyz2x2x4_z_m4096_n1024_f32_1_alg».proof.Proof.K.StageC
import proofs.«900720_g7700000000000721_dist_ar_v7x_xyz2x2x4_z_m4096_n1024_f32_1_alg».proof.Proof.K.StageD
import proofs.«900720_g7700000000000721_dist_ar_v7x_xyz2x2x4_z_m4096_n1024_f32_1_alg».proof.Proof.K.StageE
import proofs.«900720_g7700000000000721_dist_ar_v7x_xyz2x2x4_z_m4096_n1024_f32_1_alg».proof.Proof.K.StageG

/-! The body is its 37 parts in sequence and two last waits; each part's lemma starts from the state the part before it left. -/

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem x_join (c : Dev nD) :
    iprop(pts c (srcV xM c 0 0) Lq (X m ρ c) ∗ pts c (srcV xM c 1 0) Lq (X m ρ c) ∗ xRest c (X m ρ c)) ⊢ (((c : Thread nD τ).loc cc0_stg0_0) ↦{fullShare} X m ρ c : sProp 𝕄) :=
  (x_parts c (X m ρ c)).2

/-- A step from `P` to `Q` whatever it returns, then a rest from `Q` to `R`, is a run from `P` to `R`. -/
theorem seq {α : Type} {c : Dev nD} {P Q R : sProp 𝕄} {e : Prog (TpuEff nD τ sig (Elt F) Λ₀ .tc) α} {f : α → Prog (TpuEff nD τ sig (Elt F) Λ₀ .tc) PUnit} {Kt : PUnit → sProp 𝕄}
    (he : ∀ Kt' : α → sProp 𝕄, iprop(P ∗ (∀ r, Q -∗ Kt' r)) ⊢ wp frame (wpE (defs₀ (F := F)) 𝒱₀ (c : Thread nD τ) none) Set.univ e Kt')
    (hf : ∀ r, iprop(Q ∗ (R -∗ Kt ⟨⟩)) ⊢ wp frame (wpE (defs₀ (F := F)) 𝒱₀ (c : Thread nD τ) none) Set.univ (f r) Kt) :
    iprop(P ∗ (R -∗ Kt ⟨⟩)) ⊢ wp frame (wpE (defs₀ (F := F)) 𝒱₀ (c : Thread nD τ) none) Set.univ (e >>= f) Kt := by
  iintro ⟨Hst, Hk⟩
  rw [wp_bind]
  iapply (he _)
  isplitl [Hst]; · iexact Hst
  iintro %r Hst
  iapply (hf r)
  isplitl [Hst] <;> iassumption

/-- A step that touches no state and only tells a fact `φ` of what it returns. -/
theorem seq_pure {α : Type} {c : Dev nD} {P : sProp 𝕄} {φ : α → Prop} {e : Prog (TpuEff nD τ sig (Elt F) Λ₀ .tc) α} {f : α → Prog (TpuEff nD τ sig (Elt F) Λ₀ .tc) PUnit} {Kt : PUnit → sProp 𝕄}
    (he : ∀ Kt' : α → sProp 𝕄, iprop(∀ r, ⌜φ r⌝ -∗ Kt' r) ⊢ wp frame (wpE (defs₀ (F := F)) 𝒱₀ (c : Thread nD τ) none) Set.univ e Kt')
    (hf : ∀ r, φ r → P ⊢ wp frame (wpE (defs₀ (F := F)) 𝒱₀ (c : Thread nD τ) none) Set.univ (f r) Kt) :
    P ⊢ wp frame (wpE (defs₀ (F := F)) 𝒱₀ (c : Thread nD τ) none) Set.univ (e >>= f) Kt := by
  iintro H
  rw [wp_bind]
  iapply (he _)
  iintro %r %hr
  iapply (hf r hr)
  iexact H

/-- What the launch hands a device is the handshake's starting state, at some counts `K`. -/
theorem enter {c : Dev nD} {p : Prog (TpuEff nD τ sig (Elt F) Λ₀ .tc) PUnit} {Kt : PUnit → sProp 𝕄}
    (h : ∀ K, iprop(Pre0 m ρ K c (xRest c (X m ρ c)) ∗ (St7 m ρ c -∗ Kt ⟨⟩)) ⊢ wp frame (wpE (defs₀ (F := F)) 𝒱₀ (c : Thread nD τ) none) Set.univ p Kt) :
    iprop(bodyPre' m ρ c ∗ (St7 m ρ c -∗ Kt ⟨⟩)) ⊢ wp frame (wpE (defs₀ (F := F)) 𝒱₀ (c : Thread nD τ) none) Set.univ p Kt := by
  iintro ⟨Hpre, Hk⟩
  ihave Hp := (entry m ρ c) $$ Hpre
  icases Hp with ⟨%K, Hst⟩
  iapply (h K)
  isplitl [Hst] <;> iassumption

set_option maxRecDepth 65536 in
set_option maxHeartbeats 4000000 in
theorem sound_body (c : Dev nD) (Kt : PUnit → sProp 𝕄) :
    iprop(bodyPre' m ρ c ∗ (St7 m ρ c -∗ Kt ⟨⟩))
      ⊢ wp frame (wpE (defs₀ (F := F)) 𝒱₀ (c : Thread nD τ) none) Set.univ
          (cc0_body (F := F) (Memref.whole cc0_stg0_0) (Memref.isWhole_whole _) (Memref.whole cc0_stg1_0) (Memref.isWhole_whole _) (Memref.whole cc0_scratch0) (Memref.isWhole_whole _) cc0_scratch1 cc0_scratch2 cc0_scratch3 cc0_scratch4 cc0_scratch5 cc0_scratch6) Kt := by
  rw [cc0_body_eq_skeleton]; unfold cc0_body_skel
  refine enter m ρ fun K => ?_
  refine seq_pure (part1_spec c) ?_; rintro ⟨d0, v2, v5, v8, v19, v30, v33, v34, c4_i32_17⟩ hr
  obtain rfl : c = d0 := hr.symm
  refine seq_pure (part2_spec c v33 v34 c4_i32_17) ?_; rintro ⟨v46, v50, v63, v67, v68⟩ hr
  subst hr
  refine seq (part3_spec m ρ K c _ v2 v5 v8 v19 v30 v33 v46 v50 v63 v67) ?_; rintro ⟨v94, v95, c4_i32_67, v96⟩
  refine seq (part4_spec m ρ K c _ v2 v5 v8 v19 v94 v95 c4_i32_67 v96) ?_; rintro v117
  refine seq (part5_spec m ρ K c _ (xRest2 m ρ c) (xRest_eq m ρ c) v2 v5 v8 v19 v33 v94 v117) ?_; rintro ⟨v155, v159, v164, v165⟩
  refine seq (part6_spec m ρ K c _ v2 v5 v8 v19 v155 v159 v164 v165) ?_; rintro ⟨v178, v197, v198⟩
  refine seq (part7_spec m ρ K c _ (xRest2 m ρ c) (xRest_eq m ρ c) v8 v33 v155 v178 v197 v198) ?_; rintro ⟨v216, v227, v231, v232, c0_i32_163⟩
  refine seq (part8_spec m ρ K c _ v2 v5 v19 v216 v227 v231 v232 c0_i32_163) ?_; rintro v266
  refine seq (part9_spec m ρ K c _ (xRest2 m ρ c) (xRest_eq m ρ c) v2 v5 v8 v30 v33 v216 v266) ?_; rintro _
  refine seq (part10_spec m ρ K c _ v2 v5 v8 v30 v33) ?_; rintro ⟨v333, v334⟩
  refine seq (part11_spec m ρ K c _ v2 v5 v8 v30 v33 v333 v334) ?_; rintro v368
  refine seq (part12_spec m ρ K c _ v2 v5 v30 v33 v368) ?_; rintro v403
  refine seq (part13_spec m ρ K c _ v8 v46 v50 v63 v67 v403) ?_; rintro _
  refine seq (part14_spec m ρ K c _ v2 v5 v8 v33) ?_; rintro ⟨v442, v465, v471, c1_i32_328⟩
  refine seq (part15_spec m ρ K c _ (xRest2 m ρ c) (xRest_eq m ρ c) v2 v5 v8 v19 v33 v442 v465 v471 c1_i32_328) ?_; rintro ⟨v503, v504, c4_i32_350, c0_i32_351⟩
  refine seq (part16_spec m ρ K c _ v2 v5 v8 v19 v503 v504 c4_i32_350 c0_i32_351) ?_; rintro v526
  refine seq (part17_spec m ρ K c _ (xRest2 m ρ c) (xRest_eq m ρ c) v2 v5 v8 v19 v46 v50 v503 v526) ?_; rintro _
  refine seq (part18_spec m ρ K c _ v8 v33 v63 v67) ?_; rintro v607
  refine seq (part19_spec m ρ K c _ v8 v33 v46 v50 v63 v67 v607) ?_; rintro ⟨v635, v638, v639, v640⟩
  refine seq (part20_spec m ρ K c _ v2 v5 v8 v19 v635 v638 v639 v640) ?_; rintro ⟨v658, v674⟩
  refine seq (part21_spec m ρ K c _ (xRest2 m ρ c) (xRest_eq m ρ c) v5 v8 v19 v33 v635 v658 v674) ?_; rintro ⟨v696, v709⟩
  refine seq (part22_spec m ρ K c _ v2 v5 v8 v30 v46 v50 v696 v709) ?_; rintro _
  refine seq (part23_spec m ρ K c _ v8 v33 v63 v67) ?_; rintro ⟨v776, c1024_i32_541⟩
  refine seq (part24_spec m ρ K c _ v8 v33 v46 v50 v63 v67 v776 c1024_i32_541) ?_; rintro ⟨v805, v807, v809⟩
  refine seq (part25_spec m ρ K c _ v2 v5 v8 v30 v33 v805 v807 v809) ?_; rintro ⟨v843, v844⟩
  refine seq (part26_spec m ρ K c _ v2 v5 v30 v843 v844) ?_; rintro _
  refine seq (part27_spec m ρ K c _ v8 v33 v46 v50 v63 v67) ?_; rintro ⟨v911, c512_i32_636⟩
  refine seq (part28_spec m ρ K c _ v8 v33 v46 v50 v63 v67 v911 c512_i32_636) ?_; rintro _
  refine seq (part29_spec m ρ K c _ v8 v33 v46 v50 v63 v67) ?_; rintro ⟨v973, v974, v975, v978⟩
  refine seq (part30_spec m ρ K c _ v8 v33 v46 v50 v63 v67 v973 v974 v975 v978) ?_; rintro ⟨v1011, v1012⟩
  refine seq (part31_spec m ρ K c _ v8 v33 v46 v50 v63 v67 v1011 v1012) ?_; rintro ⟨v1044, v1045, c0_i32_734⟩
  refine seq (part32_spec m ρ K c _ v8 v33 v46 v50 v1044 v1045 c0_i32_734) ?_; rintro _
  refine seq (part33_spec m ρ K c _ v8 v46 v50 v63 v67) ?_; rintro _
  refine seq (part34_spec m ρ K c _) ?_; rintro _
  refine seq (part35_spec m ρ K c _) ?_; rintro _
  refine seq (part36_spec m ρ K c _) ?_; rintro _
  refine seq (part37_spec m ρ K c _) ?_; rintro _
  iintro ⟨Hst, Hk⟩
  iapply (tail_spec m ρ K c _ Kt (x_join m ρ c))
  isplitl [Hst]; · iexact Hst
  iintro %_r Hst
  iapply Hk
  iexact Hst

/-- info: 'Cert.Kernel.AR.sound_body' depends on axioms: [propext, Classical.choice, Quot.sound] -/
#guard_msgs in #print axioms sound_body

end Cert.Kernel.AR

end
-- ==== Proof.K.Obligation.lean ====
import proofs.«900720_g7700000000000721_dist_ar_v7x_xyz2x2x4_z_m4096_n1024_f32_1_alg».proof.Proof.K.Compose

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem st7_post (c : Dev nD) : St7 m ρ c ⊢ bodyPost m ρ c := by
  unfold St7 bodyPost Φ₁ Dat.owesAt Pipeline.owesWithin
  rw [show (dats m ρ 0 c).owed t₀.succ = 0 from rfl]
  iintro ⟨Hscr, Hsem, ⟨%W, HO⟩, Hx, Hout⟩
  isplitl [Hscr Hsem]
  · isplitl [Hscr] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 65536 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (F := F) (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4 cc0_scratch5 cc0_scratch6) (fun _ => bodyPost m ρ c)
  iintro H
  iapply (sound_body m ρ c fun _ => bodyPost m ρ c)
  isplitl [H]; · iexact H
  iintro H
  iapply (st7_post m ρ c)
  iexact H

/-- info: 'Cert.Kernel.AR.body_obligation' depends on axioms: [propext, Classical.choice, Quot.sound] -/
#guard_msgs in #print axioms body_obligation

end Cert.Kernel.AR

end
-- ==== Proof.K.Final.lean ====
import proofs.«900720_g7700000000000721_dist_ar_v7x_xyz2x2x4_z_m4096_n1024_f32_1_alg».proof.Proof.K.Core
import proofs.«900720_g7700000000000721_dist_ar_v7x_xyz2x2x4_z_m4096_n1024_f32_1_alg».proof.Proof.Gen.Kernel.Frame
import Idealize.ShloMosaic.Lib.Pipeline.Cells

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem X_eq (c : Dev nD) : X m ρ c = m ((c : Thread nD τ).loc main_arg0) := by
  unfold X
  exact Memref.read_access_unit_zero (Elt F) main_arg0 (funext fun a => Nat.zero_mul _) _ _

theorem final_x (c : Dev nD) : (dats m ρ 0 c).arrAt (0 : Fin 2) cfg0.N = m ((c : Thread nD τ).loc main_arg0) :=
  (dats (F := F) m ρ 0 c).arrAt_in (0 : Fin 2) rfl _

theorem read_out_blk (c : Dev nD) (f : Buf (Elt F) ((c : Thread nD τ).loc main_v1)) :
    ((cfg0.win (1 : Fin 2)).blk t0_0).view.read (Elt F) f = f :=
  Memref.read_access_unit_zero (Elt F) main_v1 (funext fun a => Nat.zero_mul _) _ f

theorem final_out (c : Dev nD) : (dats m ρ 0 c).arrAt (1 : Fin 2) cfg0.N = Fin_ (X m ρ) := by
  have h := (dats (F := F) m ρ 0 c).arrAt_succ (1 : Fin 2) t0_0
  rw [if_pos (flush0_1 t0_0)] at h
  refine Eq.trans (show (dats m ρ 0 c).arrAt (1 : Fin 2) cfg0.N = (dats m ρ 0 c).arrAt (1 : Fin 2) ((t0_0 : Fin cfg0.N).val + 1) from rfl) ?_
  rw [h]
  refine (read_out_blk c _).symm.trans ?_
  exact View.read_write_univ _ _

theorem post_of_run (r : PUnit × MemSt nD τ sig (Elt F))
    (h : ∀ c : Dev nD, ∀ w : Fin cfg0.W, r.2.mem ((cfg0.win w).arr.view.loc (c : Thread nD τ)) = (dats m ρ 0 c).arrAt w cfg0.N)
    (c : Dev nD) :
    r.2.mem ((c.tc : Thread nD τ).loc main_v1) = Fin_ (fun c : Dev nD => m ((c : Thread nD τ).loc main_arg0))
    ∧ r.2.mem ((c.tc : Thread nD τ).loc main_arg0) = m ((c.tc : Thread nD τ).loc main_arg0) := by
  have hX : X m ρ = fun c : Dev nD => m ((c : Thread nD τ).loc main_arg0) := funext (X_eq m ρ)
  refine ⟨?_, ?_⟩
  · refine (h c (1 : Fin 2)).trans ?_
    rw [final_out, hX]
  · exact (h c (0 : Fin 2)).trans (final_x m ρ c)

/-- info: 'Cert.Kernel.AR.post_of_run' depends on axioms: [propext, Classical.choice, Quot.sound] -/
#guard_msgs in #print axioms post_of_run

end Cert.Kernel.AR

end
-- ==== Proof.lean ====
import proofs.«900720_g7700000000000721_dist_ar_v7x_xyz2x2x4_z_m4096_n1024_f32_1_alg».proof.Defs
import proofs.«900720_g7700000000000721_dist_ar_v7x_xyz2x2x4_z_m4096_n1024_f32_1_alg».proof.Proof.Gen.Kernel
import proofs.«900720_g7700000000000721_dist_ar_v7x_xyz2x2x4_z_m4096_n1024_f32_1_alg».proof.Proof.Gen.Kernel.Skeleton
import proofs.«900720_g7700000000000721_dist_ar_v7x_xyz2x2x4_z_m4096_n1024_f32_1_alg».proof.Proof.Gen.Kernel.Launch
import proofs.«900720_g7700000000000721_dist_ar_v7x_xyz2x2x4_z_m4096_n1024_f32_1_alg».proof.Proof.Gen.Kernel.Points
import proofs.«900720_g7700000000000721_dist_ar_v7x_xyz2x2x4_z_m4096_n1024_f32_1_alg».proof.Proof.Gen.Kernel.Frame
import proofs.«900720_g7700000000000721_dist_ar_v7x_xyz2x2x4_z_m4096_n1024_f32_1_alg».proof.Proof.Gen.KernelIdeal
import proofs.«900720_g7700000000000721_dist_ar_v7x_xyz2x2x4_z_m4096_n1024_f32_1_alg».proof.Proof.Gen.KernelIdeal.Skeleton
import proofs.«900720_g7700000000000721_dist_ar_v7x_xyz2x2x4_z_m4096_n1024_f32_1_alg».proof.Proof.Gen.KernelIdeal.Launch
import proofs.«900720_g7700000000000721_dist_ar_v7x_xyz2x2x4_z_m4096_n1024_f32_1_alg».proof.Proof.Gen.KernelIdeal.Points
import proofs.«900720_g7700000000000721_dist_ar_v7x_xyz2x2x4_z_m4096_n1024_f32_1_alg».proof.Proof.Gen.KernelIdeal.Frame
import proofs.«900720_g7700000000000721_dist_ar_v7x_xyz2x2x4_z_m4096_n1024_f32_1_alg».proof.Proof.Gen.ReferenceIdeal
import proofs.«900720_g7700000000000721_dist_ar_v7x_xyz2x2x4_z_m4096_n1024_f32_1_alg».proof.Proof.Gen.ReferenceIdeal.Run
import proofs.«900720_g7700000000000721_dist_ar_v7x_xyz2x2x4_z_m4096_n1024_f32_1_alg».proof.Proof.Gen.ReferenceIdeal.Read
import proofs.«900720_g7700000000000721_dist_ar_v7x_xyz2x2x4_z_m4096_n1024_f32_1_alg».proof.Proof.Gen.Pre_finite_inputs_Kernel
import proofs.«900720_g7700000000000721_dist_ar_v7x_xyz2x2x4_z_m4096_n1024_f32_1_alg».proof.Proof.Gen.Pre_finite_inputs_ReferenceIdeal
import proofs.«900720_g7700000000000721_dist_ar_v7x_xyz2x2x4_z_m4096_n1024_f32_1_alg».proof.Proof.Launch
import proofs.«900720_g7700000000000721_dist_ar_v7x_xyz2x2x4_z_m4096_n1024_f32_1_alg».proof.Proof.Obligation
import proofs.«900720_g7700000000000721_dist_ar_v7x_xyz2x2x4_z_m4096_n1024_f32_1_alg».proof.Proof.Levels
import proofs.«900720_g7700000000000721_dist_ar_v7x_xyz2x2x4_z_m4096_n1024_f32_1_alg».proof.Proof.Final
import proofs.«900720_g7700000000000721_dist_ar_v7x_xyz2x2x4_z_m4096_n1024_f32_1_alg».proof.Proof.RefValue
import proofs.«900720_g7700000000000721_dist_ar_v7x_xyz2x2x4_z_m4096_n1024_f32_1_alg».proof.Proof.K.Launch
import proofs.«900720_g7700000000000721_dist_ar_v7x_xyz2x2x4_z_m4096_n1024_f32_1_alg».proof.Proof.K.Obligation
import proofs.«900720_g7700000000000721_dist_ar_v7x_xyz2x2x4_z_m4096_n1024_f32_1_alg».proof.Proof.K.Levels
import proofs.«900720_g7700000000000721_dist_ar_v7x_xyz2x2x4_z_m4096_n1024_f32_1_alg».proof.Proof.K.Final
import Idealize.ShloMosaic.Adequacy
import Idealize.ShloMosaic.Init

noncomputable section

namespace Cert.Proof

open Idealize.ShloMosaic Idealize.SL.Sem

theorem runI {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => ∀ c : Dev Cert.KernelIdeal.nD,
      r.2.mem ((c.tc : Thread Cert.KernelIdeal.nD Cert.KernelIdeal.τ).loc Cert.KernelIdeal.main_v1)
          = Cert.KernelIdeal.AR.Fin_ (fun c : Dev Cert.KernelIdeal.nD => m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  (θ_run (Cert.KernelIdeal.defs (F := F)) _ _).mono
    (fun r h c => Cert.KernelIdeal.AR.post_of_run m ρ r h c)
    (Cert.KernelIdeal.AR.run_main m ρ
      (Cert.KernelIdeal.AR.body_obligation m ρ)
      (Cert.KernelIdeal.AR.waits m ρ)
      Cert.KernelIdeal.AR.L_of_ne
      Cert.KernelIdeal.AR.creds)

theorem runK {F : FTy → Type} [FloatOps F]
    (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => ∀ c : Dev Cert.Kernel.nD,
      r.2.mem ((c.tc : Thread Cert.Kernel.nD Cert.Kernel.τ).loc Cert.Kernel.main_v1)
          = Cert.Kernel.AR.Fin_ (fun c : Dev Cert.Kernel.nD => m ((c.tc : Thread Cert.Kernel.nD Cert.Kernel.τ).loc Cert.Kernel.main_arg0))
      ∧ r.2.mem ((c.tc : Thread Cert.Kernel.nD Cert.Kernel.τ).loc Cert.Kernel.main_arg0) = m ((c.tc : Thread Cert.Kernel.nD Cert.Kernel.τ).loc Cert.Kernel.main_arg0)) :=
  (θ_run (Cert.Kernel.defs (F := F)) _ _).mono
    (fun r h c => Cert.Kernel.AR.post_of_run m ρ r h c)
    (Cert.Kernel.AR.run_main m ρ
      (Cert.Kernel.AR.body_obligation m ρ)
      (Cert.Kernel.AR.waits m ρ)
      Cert.Kernel.AR.L_of_ne
      Cert.Kernel.AR.creds)

theorem claim : Cert.Claim :=
  ⟨Cert.Kernel.Gen.facts, Cert.KernelIdeal.Gen.facts, Cert.ReferenceIdeal.Gen.facts,
   Cert.Pre_finite_inputs_Kernel.Gen.facts, Cert.Pre_finite_inputs_ReferenceIdeal.Gen.facts,

   fun m g _ => (θ_run (Cert.Kernel.defs (F := Bits)) _ _).mono (fun _ h c => (h c).2) (runK (F := Bits) m g),

   fun m g _ => (θ_run (Cert.KernelIdeal.defs (F := Ideal)) _ _).mono (fun _ h c => (h c).2) (runI (F := Ideal) m g),

   Cert.KernelIdeal.AR.ref_frame,

   trivial,

   fun m g m' g' _ hagree =>
     ⟨Cert.KernelIdeal.AR.refVal (m' (((0 : Dev Cert.ReferenceIdeal.nD).tc : Thread Cert.ReferenceIdeal.nD Cert.ReferenceIdeal.τ).loc Cert.ReferenceIdeal.main_arg0)),
      (θ_run (Cert.KernelIdeal.defs (F := Ideal)) _ _).mono
        (fun _ h c => ⟨(h c).1.trans (Cert.KernelIdeal.AR.fin_eq_ref_mem m m' hagree), (h c).2⟩)
        (runI (F := Ideal) m g),
      Cert.KernelIdeal.AR.ref_run m' g'⟩⟩

end Cert.Proof

end
